-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)) →
    ∃ (v0 : (c : Dev Cert.KernelIdeal.nD) → Buf (Elt Ideal) ((c.tc : Thread Cert.KernelIdeal.nD Cert.KernelIdeal.τ).loc Cert.KernelIdeal.main_v322)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v322) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v417) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x640000 : Shape := ⟨2, ![2, 640000]⟩
abbrev S100000 : Shape := ⟨1, ![100000]⟩
abbrev S512x5 : Shape := ⟨2, ![512, 5]⟩
abbrev S4x128x128 : Shape := ⟨3, ![4, 128, 128]⟩
abbrev S4x128 : Shape := ⟨2, ![4, 128]⟩
abbrev S133x256 : Shape := ⟨2, ![133, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S512x5 : S_.BroadcastsInDim S512x5 (![] : Fin 0 → Fin S512x5.rank)
  reducesTo_S512x5_S_d0_1 : S512x5.ReducesTo [0, 1] S_
  bcast_S_S4x128x128 : S_.BroadcastsInDim S4x128x128 (![] : Fin 0 → Fin S4x128x128.rank)
  reducesTo_S4x128x128_S_d0_1_2 : S4x128x128.ReducesTo [0, 1, 2] S_
  bcast_S_S4x128 : S_.BroadcastsInDim S4x128 (![] : Fin 0 → Fin S4x128.rank)
  reducesTo_S4x128_S_d0_1 : S4x128.ReducesTo [0, 1] S_
  bcast_S_S133x256 : S_.BroadcastsInDim S133x256 (![] : Fin 0 → Fin S133x256.rank)
  reducesTo_S133x256_S_d0_1 : S133x256.ReducesTo [0, 1] S_
  bcast_S_S256 : S_.BroadcastsInDim S256 (![] : Fin 0 → Fin S256.rank)
  reducesTo_S256_S_d0 : S256.ReducesTo [0] S_
  bcast_S_S256x256 : S_.BroadcastsInDim S256x256 (![] : Fin 0 → Fin S256x256.rank)
  reducesTo_S256x256_S_d0_1 : S256x256.ReducesTo [0, 1] S_
  bcast_S_S256x1 : S_.BroadcastsInDim S256x1 (![] : Fin 0 → Fin S256x1.rank)
  reducesTo_S256x1_S_d0_1 : S256x1.ReducesTo [0, 1] S_
  bcast_S_S1 : S_.BroadcastsInDim S1 (![] : Fin 0 → Fin S1.rank)
  reducesTo_S1_S_d0 : S1.ReducesTo [0] S_

variable [Facts]

def fn_part5 {F : FTy → Type} [FloatOps F] (main_v83 : IVec S_ 1) (main_v84 : FVec F S1 .f32) (main_cst_32 : FVec F S_ .f32) : IVec S_ 1 :=
  let main_v85 : FVec F S1 .f32 := broadcastInDim S1 ![] bcast_S_S1 main_cst_32
  let main_v86 : IVec S1 1 := cmpf .olt main_v84 main_v85
  let main_c_33 : IVec S_ 1 := constantI S_ 1 1#1
  let main_v87 : IVec S_ 1 := (fun x v => Host.reduce IntOp.andi x v reducesTo_S1_S_d0 h_S_) main_v86 main_c_33
  let main_v88 : IVec S_ 1 := andi main_v83 main_v87
  main_v88

def fn_part4 {F : FTy → Type} [FloatOps F] (main_arg16 : FVec F S256x256 .f32) (main_arg17 : FVec F S256 .f32) (main_arg18 : FVec F S256x1 .f32) (main_arg19 : FVec F S1 .f32) (main_v63 : IVec S_ 1) (main_v67 : IVec S_ 1) : IVec S_ 1 :=
  let main_v68 : IVec S_ 1 := andi main_v63 main_v67
  let main_v69 : FVec F S256x256 .f32 := Host.absf main_arg16
  let main_cst_26 : FVec F S_ .f32 := constant S_ .f32 0x7F800000#32
  let main_v70 : FVec F S256x256 .f32 := broadcastInDim S256x256 ![] bcast_S_S256x256 main_cst_26
  let main_v71 : IVec S256x256 1 := cmpf .olt main_v69 main_v70
  let main_c_27 : IVec S_ 1 := constantI S_ 1 1#1
  let main_v72 : IVec S_ 1 := (fun x v => Host.reduce IntOp.andi x v reducesTo_S256x256_S_d0_1 h_S_) main_v71 main_c_27
  let main_v73 : IVec S_ 1 := andi main_v68 main_v72
  let main_v74 : FVec F S256 .f32 := Host.absf main_arg17
  let main_cst_28 : FVec F S_ .f32 := constant S_ .f32 0x7F800000#32
  let main_v75 : FVec F S256 .f32 := broadcastInDim S256 ![] bcast_S_S256 main_cst_28
  let main_v76 : IVec S256 1 := cmpf .olt main_v74 main_v75
  let main_c_29 : IVec S_ 1 := constantI S_ 1 1#1
  let main_v77 : IVec S_ 1 := (fun x v => Host.reduce IntOp.andi x v reducesTo_S256_S_d0 h_S_) main_v76 main_c_29
  let main_v78 : IVec S_ 1 := andi main_v73 main_v77
  let main_v79 : FVec F S256x1 .f32 := Host.absf main_arg18
  let main_cst_30 : FVec F S_ .f32 := constant S_ .f32 0x7F800000#32
  let main_v80 : FVec F S256x1 .f32 := broadcastInDim S256x1 ![] bcast_S_S256x1 main_cst_30
  let main_v81 : IVec S256x1 1 := cmpf .olt main_v79 main_v80
  let main_c_31 : IVec S_ 1 := constantI S_ 1 1#1
  let main_v82 : IVec S_ 1 := (fun x v => Host.reduce IntOp.andi x v reducesTo_S256x1_S_d0_1 h_S_) main_v81 main_c_31
  let main_v83 : IVec S_ 1 := andi main_v78 main_v82
  let main_v84 : FVec F S1 .f32 := Host.absf main_arg19
  let main_cst_32 : FVec F S_ .f32 := constant S_ .f32 0x7F800000#32
  fn_part5 (F := F) main_v83 main_v84 main_cst_32

def fn_part3 {F : FTy → Type} [FloatOps F] (main_arg13 : FVec F S4x128 .f32) (main_arg14 : FVec F S133x256 .f32) (main_arg15 : FVec F S256 .f32) (main_arg16 : FVec F S256x256 .f32) (main_arg17 : FVec F S256 .f32) (main_arg18 : FVec F S256x1 .f32) (main_arg19 : FVec F S1 .f32) (main_v48 : IVec S_ 1) (main_v49 : FVec F S4x128 .f32) (main_v50 : FVec F S4x128 .f32) : IVec S_ 1 :=
  let main_v51 : IVec S4x128 1 := cmpf .olt main_v49 main_v50
  let main_c_19 : IVec S_ 1 := constantI S_ 1 1#1
  let main_v52 : IVec S_ 1 := (fun x v => Host.reduce IntOp.andi x v reducesTo_S4x128_S_d0_1 h_S_) main_v51 main_c_19
  let main_v53 : IVec S_ 1 := andi main_v48 main_v52
  let main_v54 : FVec F S4x128 .f32 := Host.absf main_arg13
  let main_cst_20 : FVec F S_ .f32 := constant S_ .f32 0x7F800000#32
  let main_v55 : FVec F S4x128 .f32 := broadcastInDim S4x128 ![] bcast_S_S4x128 main_cst_20
  let main_v56 : IVec S4x128 1 := cmpf .olt main_v54 main_v55
  let main_c_21 : IVec S_ 1 := constantI S_ 1 1#1
  let main_v57 : IVec S_ 1 := (fun x v => Host.reduce IntOp.andi x v reducesTo_S4x128_S_d0_1 h_S_) main_v56 main_c_21
  let main_v58 : IVec S_ 1 := andi main_v53 main_v57
  let main_v59 : FVec F S133x256 .f32 := Host.absf main_arg14
  let main_cst_22 : FVec F S_ .f32 := constant S_ .f32 0x7F800000#32
  let main_v60 : FVec F S133x256 .f32 := broadcastInDim S133x256 ![] bcast_S_S133x256 main_cst_22
  let main_v61 : IVec S133x256 1 := cmpf .olt main_v59 main_v60
  let main_c_23 : IVec S_ 1 := constantI S_ 1 1#1
  let main_v62 : IVec S_ 1 := (fun x v => Host.reduce IntOp.andi x v reducesTo_S133x256_S_d0_1 h_S_) main_v61 main_c_23
  let main_v63 : IVec S_ 1 := andi main_v58 main_v62
  let main_v64 : FVec F S256 .f32 := Host.absf main_arg15
  let main_cst_24 : FVec F S_ .f32 := constant S_ .f32 0x7F800000#32
  let main_v65 : FVec F S256 .f32 := broadcastInDim S256 ![] bcast_S_S256 main_cst_24
  let main_v66 : IVec S256 1 := cmpf .olt main_v64 main_v65
  let main_c_25 : IVec S_ 1 := constantI S_ 1 1#1
  let main_v67 : IVec S_ 1 := (fun x v => Host.reduce IntOp.andi x v reducesTo_S256_S_d0 h_S_) main_v66 main_c_25
  fn_part4 (F := F) main_arg16 main_arg17 main_arg18 main_arg19 main_v63 main_v67

def fn_part2 {F : FTy → Type} [FloatOps F] (main_arg9 : FVec F S4x128 .f32) (main_arg10 : FVec F S4x128 .f32) (main_arg11 : FVec F S4x128 .f32) (main_arg12 : FVec F S4x128 .f32) (main_arg13 : FVec F S4x128 .f32) (main_arg14 : FVec F S133x256 .f32) (main_arg15 : FVec F S256 .f32) (main_arg16 : FVec F S256x256 .f32) (main_arg17 : FVec F S256 .f32) (main_arg18 : FVec F S256x1 .f32) (main_arg19 : FVec F S1 .f32) (main_v33 : IVec S_ 1) : IVec S_ 1 :=
  let main_v34 : FVec F S4x128 .f32 := Host.absf main_arg9
  let main_cst_12 : FVec F S_ .f32 := constant S_ .f32 0x7F800000#32
  let main_v35 : FVec F S4x128 .f32 := broadcastInDim S4x128 ![] bcast_S_S4x128 main_cst_12
  let main_v36 : IVec S4x128 1 := cmpf .olt main_v34 main_v35
  let main_c_13 : IVec S_ 1 := constantI S_ 1 1#1
  let main_v37 : IVec S_ 1 := (fun x v => Host.reduce IntOp.andi x v reducesTo_S4x128_S_d0_1 h_S_) main_v36 main_c_13
  let main_v38 : IVec S_ 1 := andi main_v33 main_v37
  let main_v39 : FVec F S4x128 .f32 := Host.absf main_arg10
  let main_cst_14 : FVec F S_ .f32 := constant S_ .f32 0x7F800000#32
  let main_v40 : FVec F S4x128 .f32 := broadcastInDim S4x128 ![] bcast_S_S4x128 main_cst_14
  let main_v41 : IVec S4x128 1 := cmpf .olt main_v39 main_v40
  let main_c_15 : IVec S_ 1 := constantI S_ 1 1#1
  let main_v42 : IVec S_ 1 := (fun x v => Host.reduce IntOp.andi x v reducesTo_S4x128_S_d0_1 h_S_) main_v41 main_c_15
  let main_v43 : IVec S_ 1 := andi main_v38 main_v42
  let main_v44 : FVec F S4x128 .f32 := Host.absf main_arg11
  let main_cst_16 : FVec F S_ .f32 := constant S_ .f32 0x7F800000#32
  let main_v45 : FVec F S4x128 .f32 := broadcastInDim S4x128 ![] bcast_S_S4x128 main_cst_16
  let main_v46 : IVec S4x128 1 := cmpf .olt main_v44 main_v45
  let main_c_17 : IVec S_ 1 := constantI S_ 1 1#1
  let main_v47 : IVec S_ 1 := (fun x v => Host.reduce IntOp.andi x v reducesTo_S4x128_S_d0_1 h_S_) main_v46 main_c_17
  let main_v48 : IVec S_ 1 := andi main_v43 main_v47
  let main_v49 : FVec F S4x128 .f32 := Host.absf main_arg12
  let main_cst_18 : FVec F S_ .f32 := constant S_ .f32 0x7F800000#32
  let main_v50 : FVec F S4x128 .f32 := broadcastInDim S4x128 ![] bcast_S_S4x128 main_cst_18
  fn_part3 (F := F) main_arg13 main_arg14 main_arg15 main_arg16 main_arg17 main_arg18 main_arg19 main_v48 main_v49 main_v50

def fn_part1 {F : FTy → Type} [FloatOps F] (main_arg6 : FVec F S4x128 .f32) (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S133x256 .f32) (main_arg15 : FVec F S256 .f32) (main_arg16 : FVec F S256x256 .f32) (main_arg17 : FVec F S256 .f32) (main_arg18 : FVec F S256x1 .f32) (main_arg19 : FVec F S1 .f32) (main_v13 : IVec S_ 1) (main_v16 : IVec S4x128 1) : IVec S_ 1 :=
  let main_c_5 : IVec S_ 1 := constantI S_ 1 1#1
  let main_v17 : IVec S_ 1 := (fun x v => Host.reduce IntOp.andi x v reducesTo_S4x128_S_d0_1 h_S_) main_v16 main_c_5
  let main_v18 : IVec S_ 1 := andi main_v13 main_v17
  let main_v19 : FVec F S4x128 .f32 := Host.absf main_arg6
  let main_cst_6 : FVec F S_ .f32 := constant S_ .f32 0x7F800000#32
  let main_v20 : FVec F S4x128 .f32 := broadcastInDim S4x128 ![] bcast_S_S4x128 main_cst_6
  let main_v21 : IVec S4x128 1 := cmpf .olt main_v19 main_v20
  let main_c_7 : IVec S_ 1 := constantI S_ 1 1#1
  let main_v22 : IVec S_ 1 := (fun x v => Host.reduce IntOp.andi x v reducesTo_S4x128_S_d0_1 h_S_) main_v21 main_c_7
  let main_v23 : IVec S_ 1 := andi main_v18 main_v22
  let main_v24 : FVec F S4x128 .f32 := Host.absf main_arg7
  let main_cst_8 : FVec F S_ .f32 := constant S_ .f32 0x7F800000#32
  let main_v25 : FVec F S4x128 .f32 := broadcastInDim S4x128 ![] bcast_S_S4x128 main_cst_8
  let main_v26 : IVec S4x128 1 := cmpf .olt main_v24 main_v25
  let main_c_9 : IVec S_ 1 := constantI S_ 1 1#1
  let main_v27 : IVec S_ 1 := (fun x v => Host.reduce IntOp.andi x v reducesTo_S4x128_S_d0_1 h_S_) main_v26 main_c_9
  let main_v28 : IVec S_ 1 := andi main_v23 main_v27
  let main_v29 : FVec F S4x128x128 .f32 := Host.absf main_arg8
  let main_cst_10 : FVec F S_ .f32 := constant S_ .f32 0x7F800000#32
  let main_v30 : FVec F S4x128x128 .f32 := broadcastInDim S4x128x128 ![] bcast_S_S4x128x128 main_cst_10
  let main_v31 : IVec S4x128x128 1 := cmpf .olt main_v29 main_v30
  let main_c_11 : IVec S_ 1 := constantI S_ 1 1#1
  let main_v32 : IVec S_ 1 := (fun x v => Host.reduce IntOp.andi x v reducesTo_S4x128x128_S_d0_1_2 h_S_) main_v31 main_c_11
  let main_v33 : IVec S_ 1 := andi main_v28 main_v32
  fn_part2 (F := F) main_arg9 main_arg10 main_arg11 main_arg12 main_arg13 main_arg14 main_arg15 main_arg16 main_arg17 main_arg18 main_arg19 main_v33

def fn {F : FTy → Type} [FloatOps F] (main_arg0 : FVec F S100000x128 .f32) (main_arg1 : IVec S2x640000 32) (main_arg2 : IVec S100000 32) (main_arg3 : FVec F S512x5 .f32) (main_arg4 : FVec F S4x128x128 .f32) (main_arg5 : FVec F S4x128 .f32) (main_arg6 : FVec F S4x128 .f32) (main_arg7 : FVec F S4x128 .f32) (main_arg8 : FVec F S4x128x128 .f32) (main_arg9 : FVec F S4x128 .f32) (main_arg10 : FVec F S4x128 .f32) (main_arg11 : FVec F S4x128 .f32) (main_arg12 : FVec F S4x128 .f32) (main_arg13 : FVec F S4x128 .f32) (main_arg14 : FVec F S133x256 .f32) (main_arg15 : FVec F S256 .f32) (main_arg16 : FVec F S256x256 .f32) (main_arg17 : FVec F S256 .f32) (main_arg18 : FVec F S256x1 .f32) (main_arg19 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S512x5 .f32 := Host.absf main_arg3
  let main_cst_0 : FVec F S_ .f32 := constant S_ .f32 0x7F800000#32
  let main_v5 : FVec F S512x5 .f32 := broadcastInDim S512x5 ![] bcast_S_S512x5 main_cst_0
  let main_v6 : IVec S512x5 1 := cmpf .olt main_v4 main_v5
  let main_c_1 : IVec S_ 1 := constantI S_ 1 1#1
  let main_v7 : IVec S_ 1 := (fun x v => Host.reduce IntOp.andi x v reducesTo_S512x5_S_d0_1 h_S_) main_v6 main_c_1
  let main_v8 : IVec S_ 1 := andi main_v3 main_v7
  let main_v9 : FVec F S4x128x128 .f32 := Host.absf main_arg4
  let main_cst_2 : FVec F S_ .f32 := constant S_ .f32 0x7F800000#32
  let main_v10 : FVec F S4x128x128 .f32 := broadcastInDim S4x128x128 ![] bcast_S_S4x128x128 main_cst_2
  let main_v11 : IVec S4x128x128 1 := cmpf .olt main_v9 main_v10
  let main_c_3 : IVec S_ 1 := constantI S_ 1 1#1
  let main_v12 : IVec S_ 1 := (fun x v => Host.reduce IntOp.andi x v reducesTo_S4x128x128_S_d0_1_2 h_S_) main_v11 main_c_3
  let main_v13 : IVec S_ 1 := andi main_v8 main_v12
  let main_v14 : FVec F S4x128 .f32 := Host.absf main_arg5
  let main_cst_4 : FVec F S_ .f32 := constant S_ .f32 0x7F800000#32
  let main_v15 : FVec F S4x128 .f32 := broadcastInDim S4x128 ![] bcast_S_S4x128 main_cst_4
  let main_v16 : IVec S4x128 1 := cmpf .olt main_v14 main_v15
  fn_part1 (F := F) main_arg6 main_arg7 main_arg8 main_arg9 main_arg10 main_arg11 main_arg12 main_arg13 main_arg14 main_arg15 main_arg16 main_arg17 main_arg18 main_arg19 main_v13 main_v16
-- ==== Kernel.lean ====
abbrev S100000x128 : Shape := ⟨2, ![100000, 128]⟩
abbrev S2x640000 : Shape := ⟨2, ![2, 640000]⟩
abbrev S100000 : Shape := ⟨1, ![100000]⟩
abbrev S512x5 : Shape := ⟨2, ![512, 5]⟩
abbrev S4x128x128 : Shape := ⟨3, ![4, 128, 128]⟩
abbrev S4x128 : Shape := ⟨2, ![4, 128]⟩
abbrev S133x256 : Shape := ⟨2, ![133, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S5000x128 : Shape := ⟨2, ![5000, 128]⟩
abbrev S512x128 : Shape := ⟨2, ![512, 128]⟩
abbrev S100000x1 : Shape := ⟨2, ![100000, 1]⟩
abbrev S1x256 : Shape := ⟨2, ![1, 256]⟩
abbrev S1x1 : Shape := ⟨2, ![1, 1]⟩
abbrev S512x1 : Shape := ⟨2, ![512, 1]⟩
abbrev S512x133 : Shape := ⟨2, ![512, 133]⟩
abbrev S512x256 : Shape := ⟨2, ![512, 256]⟩

abbrev nBuf : Space → Nat
  | .hbm => 416
  | .vmem => 145
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S512x5, .f32⟩
  | 4 => ⟨S4x128x128, .f32⟩
  | 5 => ⟨S4x128, .f32⟩
  | 6 => ⟨S4x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S133x256, .f32⟩
  | 15 => ⟨S256, .f32⟩
  | 16 => ⟨S256x256, .f32⟩
  | 17 => ⟨S256, .f32⟩
  | 18 => ⟨S256x1, .f32⟩
  | 19 => ⟨S1, .f32⟩
  | 20 => ⟨S1x640000, .i32⟩
  | 21 => ⟨S640000, .i32⟩
  | 22 => ⟨S1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S100000x128, .f32⟩
  | 35 => ⟨S640000x1, .i32⟩
  | 36 => ⟨S100000x128, .f32⟩
  | 37 => ⟨S1x128x128, .f32⟩
  | 38 => ⟨S128x128, .f32⟩
  | 39 => ⟨S1x128, .f32⟩
  | 40 => ⟨S128, .f32⟩
  | 41 => ⟨S1x128, .f32⟩
  | 42 => ⟨S100000x128, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S_, .f32⟩
  | 49 => ⟨S1x128, .f32⟩
  | 50 => ⟨S1x128, .f32⟩
  | 51 => ⟨S1x128, .f32⟩
  | 52 => ⟨S1x128, .f32⟩
  | 53 => ⟨S1x128, .f32⟩
  | 54 => ⟨S128, .f32⟩
  | 55 => ⟨S1x128, .f32⟩
  | 56 => ⟨S_, .f32⟩
  | 57 => ⟨S1x128, .f32⟩
  | 58 => ⟨S1x128, .f32⟩
  | 59 => ⟨S1x128, .f32⟩
  | 60 => ⟨S1x128, .f32⟩
  | 61 => ⟨S1x128, .f32⟩
  | 62 => ⟨S128, .f32⟩
  | 63 => ⟨S1x128, .f32⟩
  | 64 => ⟨S1x128, .f32⟩
  | 65 => ⟨S1x128, .f32⟩
  | 66 => ⟨S1x128x128, .f32⟩
  | 67 => ⟨S128x128, .f32⟩
  | 68 => ⟨S1x128, .f32⟩
  | 69 => ⟨S128, .f32⟩
  | 70 => ⟨S1x128, .f32⟩
  | 71 => ⟨S100000x128, .f32⟩
  | 72 => ⟨S1x128, .f32⟩
  | 73 => ⟨S1x128, .f32⟩
  | 74 => ⟨S_, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S128, .f32⟩
  | 84 => ⟨S1x128, .f32⟩
  | 85 => ⟨S_, .f32⟩
  | 86 => ⟨S1x128, .f32⟩
  | 87 => ⟨S1x128, .f32⟩
  | 88 => ⟨S1x128, .f32⟩
  | 89 => ⟨S1x128, .f32⟩
  | 90 => ⟨S1x128, .f32⟩
  | 91 => ⟨S128, .f32⟩
  | 92 => ⟨S1x128, .f32⟩
  | 93 => ⟨S1x128, .f32⟩
  | 94 => ⟨S1x128, .f32⟩
  | 95 => ⟨S100000x128, .f32⟩
  | 96 => ⟨S1x128, .f32⟩
  | 97 => ⟨S1x128, .f32⟩
  | 98 => ⟨S_, .f32⟩
  | 99 => ⟨S1x128, .f32⟩
  | 100 => ⟨S1x128, .f32⟩
  | 101 => ⟨S_, .f32⟩
  | 102 => ⟨S1x128, .f32⟩
  | 103 => ⟨S1x128, .f32⟩
  | 104 => ⟨S1x128, .f32⟩
  | 105 => ⟨S1x128, .f32⟩
  | 106 => ⟨S1x128, .f32⟩
  | 107 => ⟨S128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S128, .f32⟩
  | 116 => ⟨S1x128, .f32⟩
  | 117 => ⟨S1x128, .f32⟩
  | 118 => ⟨S1x128, .f32⟩
  | 119 => ⟨S100000x128, .f32⟩
  | 120 => ⟨S_, .i32⟩
  | 121 => ⟨S640000, .i32⟩
  | 122 => ⟨S640000, .i1⟩
  | 123 => ⟨S_, .i32⟩
  | 124 => ⟨S640000, .i32⟩
  | 125 => ⟨S640000, .i32⟩
  | 126 => ⟨S640000, .i32⟩
  | 127 => ⟨S640000x1, .i32⟩
  | _ => ⟨S100000x128, .f32⟩

abbrev hbmTy0_1 (i : Nat) : BufTy := match i % 128 with
  | 0 => ⟨S640000x128, .f32⟩
  | 1 => ⟨S_, .f32⟩
  | 2 => ⟨S100000x128, .f32⟩
  | 3 => ⟨S640000x1, .i32⟩
  | 4 => ⟨S100000x128, .f32⟩
  | 5 => ⟨S1x128x128, .f32⟩
  | 6 => ⟨S128x128, .f32⟩
  | 7 => ⟨S1x128, .f32⟩
  | 8 => ⟨S128, .f32⟩
  | 9 => ⟨S1x128, .f32⟩
  | 10 => ⟨S100000x128, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S_, .f32⟩
  | 17 => ⟨S1x128, .f32⟩
  | 18 => ⟨S1x128, .f32⟩
  | 19 => ⟨S1x128, .f32⟩
  | 20 => ⟨S1x128, .f32⟩
  | 21 => ⟨S1x128, .f32⟩
  | 22 => ⟨S128, .f32⟩
  | 23 => ⟨S1x128, .f32⟩
  | 24 => ⟨S_, .f32⟩
  | 25 => ⟨S1x128, .f32⟩
  | 26 => ⟨S1x128, .f32⟩
  | 27 => ⟨S1x128, .f32⟩
  | 28 => ⟨S1x128, .f32⟩
  | 29 => ⟨S1x128, .f32⟩
  | 30 => ⟨S128, .f32⟩
  | 31 => ⟨S1x128, .f32⟩
  | 32 => ⟨S1x128, .f32⟩
  | 33 => ⟨S1x128, .f32⟩
  | 34 => ⟨S1x128x128, .f32⟩
  | 35 => ⟨S128x128, .f32⟩
  | 36 => ⟨S1x128, .f32⟩
  | 37 => ⟨S128, .f32⟩
  | 38 => ⟨S1x128, .f32⟩
  | 39 => ⟨S100000x128, .f32⟩
  | 40 => ⟨S1x128, .f32⟩
  | 41 => ⟨S1x128, .f32⟩
  | 42 => ⟨S_, .f32⟩
  | 43 => ⟨S1x128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S128, .f32⟩
  | 52 => ⟨S1x128, .f32⟩
  | 53 => ⟨S_, .f32⟩
  | 54 => ⟨S1x128, .f32⟩
  | 55 => ⟨S1x128, .f32⟩
  | 56 => ⟨S1x128, .f32⟩
  | 57 => ⟨S1x128, .f32⟩
  | 58 => ⟨S1x128, .f32⟩
  | 59 => ⟨S128, .f32⟩
  | 60 => ⟨S1x128, .f32⟩
  | 61 => ⟨S1x128, .f32⟩
  | 62 => ⟨S1x128, .f32⟩
  | 63 => ⟨S100000x128, .f32⟩
  | 64 => ⟨S1x128, .f32⟩
  | 65 => ⟨S1x128, .f32⟩
  | 66 => ⟨S_, .f32⟩
  | 67 => ⟨S1x128, .f32⟩
  | 68 => ⟨S1x128, .f32⟩
  | 69 => ⟨S_, .f32⟩
  | 70 => ⟨S1x128, .f32⟩
  | 71 => ⟨S1x128, .f32⟩
  | 72 => ⟨S1x128, .f32⟩
  | 73 => ⟨S1x128, .f32⟩
  | 74 => ⟨S1x128, .f32⟩
  | 75 => ⟨S128, .f32⟩
  | 76 => ⟨S1x128, .f32⟩
  | 77 => ⟨S_, .f32⟩
  | 78 => ⟨S1x128, .f32⟩
  | 79 => ⟨S1x128, .f32⟩
  | 80 => ⟨S1x128, .f32⟩
  | 81 => ⟨S1x128, .f32⟩
  | 82 => ⟨S1x128, .f32⟩
  | 83 => ⟨S128, .f32⟩
  | 84 => ⟨S1x128, .f32⟩
  | 85 => ⟨S1x128, .f32⟩
  | 86 => ⟨S1x128, .f32⟩
  | 87 => ⟨S100000x128, .f32⟩
  | 88 => ⟨S_, .i32⟩
  | 89 => ⟨S640000, .i32⟩
  | 90 => ⟨S640000, .i1⟩
  | 91 => ⟨S_, .i32⟩
  | 92 => ⟨S640000, .i32⟩
  | 93 => ⟨S640000, .i32⟩
  | 94 => ⟨S640000, .i32⟩
  | 95 => ⟨S640000x1, .i32⟩
  | 96 => ⟨S640000x128, .f32⟩
  | 97 => ⟨S_, .f32⟩
  | 98 => ⟨S100000x128, .f32⟩
  | 99 => ⟨S640000x1, .i32⟩
  | 100 => ⟨S100000x128, .f32⟩
  | 101 => ⟨S1x128x128, .f32⟩
  | 102 => ⟨S128x128, .f32⟩
  | 103 => ⟨S1x128, .f32⟩
  | 104 => ⟨S128, .f32⟩
  | 105 => ⟨S1x128, .f32⟩
  | 106 => ⟨S100000x128, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S_, .f32⟩
  | 113 => ⟨S1x128, .f32⟩
  | 114 => ⟨S1x128, .f32⟩
  | 115 => ⟨S1x128, .f32⟩
  | 116 => ⟨S1x128, .f32⟩
  | 117 => ⟨S1x128, .f32⟩
  | 118 => ⟨S128, .f32⟩
  | 119 => ⟨S1x128, .f32⟩
  | 120 => ⟨S_, .f32⟩
  | 121 => ⟨S1x128, .f32⟩
  | 122 => ⟨S1x128, .f32⟩
  | 123 => ⟨S1x128, .f32⟩
  | 124 => ⟨S1x128, .f32⟩
  | 125 => ⟨S1x128, .f32⟩
  | 126 => ⟨S128, .f32⟩
  | 127 => ⟨S1x128, .f32⟩
  | _ => ⟨S100000x128, .f32⟩

abbrev hbmTy0_2 (i : Nat) : BufTy := match i % 128 with
  | 0 => ⟨S1x128, .f32⟩
  | 1 => ⟨S1x128, .f32⟩
  | 2 => ⟨S1x128x128, .f32⟩
  | 3 => ⟨S128x128, .f32⟩
  | 4 => ⟨S1x128, .f32⟩
  | 5 => ⟨S128, .f32⟩
  | 6 => ⟨S1x128, .f32⟩
  | 7 => ⟨S100000x128, .f32⟩
  | 8 => ⟨S1x128, .f32⟩
  | 9 => ⟨S1x128, .f32⟩
  | 10 => ⟨S_, .f32⟩
  | 11 => ⟨S1x128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S128, .f32⟩
  | 20 => ⟨S1x128, .f32⟩
  | 21 => ⟨S_, .f32⟩
  | 22 => ⟨S1x128, .f32⟩
  | 23 => ⟨S1x128, .f32⟩
  | 24 => ⟨S1x128, .f32⟩
  | 25 => ⟨S1x128, .f32⟩
  | 26 => ⟨S1x128, .f32⟩
  | 27 => ⟨S128, .f32⟩
  | 28 => ⟨S1x128, .f32⟩
  | 29 => ⟨S1x128, .f32⟩
  | 30 => ⟨S1x128, .f32⟩
  | 31 => ⟨S100000x128, .f32⟩
  | 32 => ⟨S1x128, .f32⟩
  | 33 => ⟨S1x128, .f32⟩
  | 34 => ⟨S_, .f32⟩
  | 35 => ⟨S1x128, .f32⟩
  | 36 => ⟨S1x128, .f32⟩
  | 37 => ⟨S_, .f32⟩
  | 38 => ⟨S1x128, .f32⟩
  | 39 => ⟨S1x128, .f32⟩
  | 40 => ⟨S1x128, .f32⟩
  | 41 => ⟨S1x128, .f32⟩
  | 42 => ⟨S1x128, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S1x128, .f32⟩
  | 49 => ⟨S1x128, .f32⟩
  | 50 => ⟨S1x128, .f32⟩
  | 51 => ⟨S128, .f32⟩
  | 52 => ⟨S1x128, .f32⟩
  | 53 => ⟨S1x128, .f32⟩
  | 54 => ⟨S1x128, .f32⟩
  | 55 => ⟨S100000x128, .f32⟩
  | 56 => ⟨S_, .i32⟩
  | 57 => ⟨S640000, .i32⟩
  | 58 => ⟨S640000, .i1⟩
  | 59 => ⟨S_, .i32⟩
  | 60 => ⟨S640000, .i32⟩
  | 61 => ⟨S640000, .i32⟩
  | 62 => ⟨S640000, .i32⟩
  | 63 => ⟨S640000x1, .i32⟩
  | 64 => ⟨S640000x128, .f32⟩
  | 65 => ⟨S_, .f32⟩
  | 66 => ⟨S100000x128, .f32⟩
  | 67 => ⟨S640000x1, .i32⟩
  | 68 => ⟨S100000x128, .f32⟩
  | 69 => ⟨S1x128x128, .f32⟩
  | 70 => ⟨S128x128, .f32⟩
  | 71 => ⟨S1x128, .f32⟩
  | 72 => ⟨S128, .f32⟩
  | 73 => ⟨S1x128, .f32⟩
  | 74 => ⟨S100000x128, .f32⟩
  | 75 => ⟨S1x128, .f32⟩
  | 76 => ⟨S1x128, .f32⟩
  | 77 => ⟨S_, .f32⟩
  | 78 => ⟨S1x128, .f32⟩
  | 79 => ⟨S1x128, .f32⟩
  | 80 => ⟨S_, .f32⟩
  | 81 => ⟨S1x128, .f32⟩
  | 82 => ⟨S1x128, .f32⟩
  | 83 => ⟨S1x128, .f32⟩
  | 84 => ⟨S1x128, .f32⟩
  | 85 => ⟨S1x128, .f32⟩
  | 86 => ⟨S128, .f32⟩
  | 87 => ⟨S1x128, .f32⟩
  | 88 => ⟨S_, .f32⟩
  | 89 => ⟨S1x128, .f32⟩
  | 90 => ⟨S1x128, .f32⟩
  | 91 => ⟨S1x128, .f32⟩
  | 92 => ⟨S1x128, .f32⟩
  | 93 => ⟨S1x128, .f32⟩
  | 94 => ⟨S128, .f32⟩
  | 95 => ⟨S1x128, .f32⟩
  | 96 => ⟨S1x128, .f32⟩
  | 97 => ⟨S1x128, .f32⟩
  | 98 => ⟨S1x128x128, .f32⟩
  | 99 => ⟨S128x128, .f32⟩
  | 100 => ⟨S1x128, .f32⟩
  | 101 => ⟨S128, .f32⟩
  | 102 => ⟨S1x128, .f32⟩
  | 103 => ⟨S100000x128, .f32⟩
  | 104 => ⟨S1x128, .f32⟩
  | 105 => ⟨S1x128, .f32⟩
  | 106 => ⟨S_, .f32⟩
  | 107 => ⟨S1x128, .f32⟩
  | 108 => ⟨S1x128, .f32⟩
  | 109 => ⟨S_, .f32⟩
  | 110 => ⟨S1x128, .f32⟩
  | 111 => ⟨S1x128, .f32⟩
  | 112 => ⟨S1x128, .f32⟩
  | 113 => ⟨S1x128, .f32⟩
  | 114 => ⟨S1x128, .f32⟩
  | 115 => ⟨S128, .f32⟩
  | 116 => ⟨S1x128, .f32⟩
  | 117 => ⟨S_, .f32⟩
  | 118 => ⟨S1x128, .f32⟩
  | 119 => ⟨S1x128, .f32⟩
  | 120 => ⟨S1x128, .f32⟩
  | 121 => ⟨S1x128, .f32⟩
  | 122 => ⟨S1x128, .f32⟩
  | 123 => ⟨S128, .f32⟩
  | 124 => ⟨S1x128, .f32⟩
  | 125 => ⟨S1x128, .f32⟩
  | 126 => ⟨S1x128, .f32⟩
  | 127 => ⟨S100000x128, .f32⟩
  | _ => ⟨S100000x128, .f32⟩

abbrev hbmTy0_3 (i : Nat) : BufTy := match i % 128 with
  | 0 => ⟨S1x128, .f32⟩
  | 1 => ⟨S1x128, .f32⟩
  | 2 => ⟨S_, .f32⟩
  | 3 => ⟨S1x128, .f32⟩
  | 4 => ⟨S1x128, .f32⟩
  | 5 => ⟨S_, .f32⟩
  | 6 => ⟨S1x128, .f32⟩
  | 7 => ⟨S1x128, .f32⟩
  | 8 => ⟨S1x128, .f32⟩
  | 9 => ⟨S1x128, .f32⟩
  | 10 => ⟨S1x128, .f32⟩
  | 11 => ⟨S128, .f32⟩
  | 12 => ⟨S1x128, .f32⟩
  | 13 => ⟨S_, .f32⟩
  | 14 => ⟨S1x128, .f32⟩
  | 15 => ⟨S1x128, .f32⟩
  | 16 => ⟨S1x128, .f32⟩
  | 17 => ⟨S1x128, .f32⟩
  | 18 => ⟨S1x128, .f32⟩
  | 19 => ⟨S128, .f32⟩
  | 20 => ⟨S1x128, .f32⟩
  | 21 => ⟨S1x128, .f32⟩
  | 22 => ⟨S1x128, .f32⟩
  | 23 => ⟨S100000x128, .f32⟩
  | 24 => ⟨S_, .f32⟩
  | 25 => ⟨S512x128, .f32⟩
  | 26 => ⟨S100000x1, .i32⟩
  | 27 => ⟨S512x128, .f32⟩
  | 28 => ⟨S1x256, .f32⟩
  | 29 => ⟨S1x256, .f32⟩
  | 30 => ⟨S1x1, .f32⟩
  | 31 => ⟨S512x1, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | _ => ⟨S100000x128, .f32⟩

abbrev vmemTy0_0 (i : Nat) : BufTy := match i % 128 with
  | 0 => ⟨S5000x128, .f32⟩
  | 1 => ⟨S5000x128, .f32⟩
  | 2 => ⟨S5000x128, .f32⟩
  | 3 => ⟨S5000x128, .f32⟩
  | 4 => ⟨S128x128, .f32⟩
  | 5 => ⟨S1x128, .f32⟩
  | 6 => ⟨S5000x128, .f32⟩
  | 7 => ⟨S5000x128, .f32⟩
  | 8 => ⟨S1x128, .f32⟩
  | 9 => ⟨S1x128, .f32⟩
  | 10 => ⟨S5000x128, .f32⟩
  | 11 => ⟨S5000x128, .f32⟩
  | 12 => ⟨S1x128, .f32⟩
  | 13 => ⟨S1x128, .f32⟩
  | 14 => ⟨S128x128, .f32⟩
  | 15 => ⟨S1x128, .f32⟩
  | 16 => ⟨S5000x128, .f32⟩
  | 17 => ⟨S5000x128, .f32⟩
  | 18 => ⟨S1x128, .f32⟩
  | 19 => ⟨S1x128, .f32⟩
  | 20 => ⟨S5000x128, .f32⟩
  | 21 => ⟨S5000x128, .f32⟩
  | 22 => ⟨S1x128, .f32⟩
  | 23 => ⟨S1x128, .f32⟩
  | 24 => ⟨S5000x128, .f32⟩
  | 25 => ⟨S5000x128, .f32⟩
  | 26 => ⟨S1x128, .f32⟩
  | 27 => ⟨S1x128, .f32⟩
  | 28 => ⟨S5000x128, .f32⟩
  | 29 => ⟨S5000x128, .f32⟩
  | 30 => ⟨S1x128, .f32⟩
  | 31 => ⟨S1x128, .f32⟩
  | 32 => ⟨S5000x128, .f32⟩
  | 33 => ⟨S5000x128, .f32⟩
  | 34 => ⟨S5000x128, .f32⟩
  | 35 => ⟨S5000x128, .f32⟩
  | 36 => ⟨S5000x128, .f32⟩
  | 37 => ⟨S5000x128, .f32⟩
  | 38 => ⟨S128x128, .f32⟩
  | 39 => ⟨S1x128, .f32⟩
  | 40 => ⟨S5000x128, .f32⟩
  | 41 => ⟨S5000x128, .f32⟩
  | 42 => ⟨S1x128, .f32⟩
  | 43 => ⟨S1x128, .f32⟩
  | 44 => ⟨S5000x128, .f32⟩
  | 45 => ⟨S5000x128, .f32⟩
  | 46 => ⟨S1x128, .f32⟩
  | 47 => ⟨S1x128, .f32⟩
  | 48 => ⟨S128x128, .f32⟩
  | 49 => ⟨S1x128, .f32⟩
  | 50 => ⟨S5000x128, .f32⟩
  | 51 => ⟨S5000x128, .f32⟩
  | 52 => ⟨S1x128, .f32⟩
  | 53 => ⟨S1x128, .f32⟩
  | 54 => ⟨S5000x128, .f32⟩
  | 55 => ⟨S5000x128, .f32⟩
  | 56 => ⟨S1x128, .f32⟩
  | 57 => ⟨S1x128, .f32⟩
  | 58 => ⟨S5000x128, .f32⟩
  | 59 => ⟨S5000x128, .f32⟩
  | 60 => ⟨S1x128, .f32⟩
  | 61 => ⟨S1x128, .f32⟩
  | 62 => ⟨S5000x128, .f32⟩
  | 63 => ⟨S5000x128, .f32⟩
  | 64 => ⟨S1x128, .f32⟩
  | 65 => ⟨S1x128, .f32⟩
  | 66 => ⟨S5000x128, .f32⟩
  | 67 => ⟨S5000x128, .f32⟩
  | 68 => ⟨S5000x128, .f32⟩
  | 69 => ⟨S5000x128, .f32⟩
  | 70 => ⟨S5000x128, .f32⟩
  | 71 => ⟨S5000x128, .f32⟩
  | 72 => ⟨S128x128, .f32⟩
  | 73 => ⟨S1x128, .f32⟩
  | 74 => ⟨S5000x128, .f32⟩
  | 75 => ⟨S5000x128, .f32⟩
  | 76 => ⟨S1x128, .f32⟩
  | 77 => ⟨S1x128, .f32⟩
  | 78 => ⟨S5000x128, .f32⟩
  | 79 => ⟨S5000x128, .f32⟩
  | 80 => ⟨S1x128, .f32⟩
  | 81 => ⟨S1x128, .f32⟩
  | 82 => ⟨S128x128, .f32⟩
  | 83 => ⟨S1x128, .f32⟩
  | 84 => ⟨S5000x128, .f32⟩
  | 85 => ⟨S5000x128, .f32⟩
  | 86 => ⟨S1x128, .f32⟩
  | 87 => ⟨S1x128, .f32⟩
  | 88 => ⟨S5000x128, .f32⟩
  | 89 => ⟨S5000x128, .f32⟩
  | 90 => ⟨S1x128, .f32⟩
  | 91 => ⟨S1x128, .f32⟩
  | 92 => ⟨S5000x128, .f32⟩
  | 93 => ⟨S5000x128, .f32⟩
  | 94 => ⟨S1x128, .f32⟩
  | 95 => ⟨S1x128, .f32⟩
  | 96 => ⟨S5000x128, .f32⟩
  | 97 => ⟨S5000x128, .f32⟩
  | 98 => ⟨S1x128, .f32⟩
  | 99 => ⟨S1x128, .f32⟩
  | 100 => ⟨S5000x128, .f32⟩
  | 101 => ⟨S5000x128, .f32⟩
  | 102 => ⟨S5000x128, .f32⟩
  | 103 => ⟨S5000x128, .f32⟩
  | 104 => ⟨S5000x128, .f32⟩
  | 105 => ⟨S5000x128, .f32⟩
  | 106 => ⟨S128x128, .f32⟩
  | 107 => ⟨S1x128, .f32⟩
  | 108 => ⟨S5000x128, .f32⟩
  | 109 => ⟨S5000x128, .f32⟩
  | 110 => ⟨S1x128, .f32⟩
  | 111 => ⟨S1x128, .f32⟩
  | 112 => ⟨S5000x128, .f32⟩
  | 113 => ⟨S5000x128, .f32⟩
  | 114 => ⟨S1x128, .f32⟩
  | 115 => ⟨S1x128, .f32⟩
  | 116 => ⟨S128x128, .f32⟩
  | 117 => ⟨S1x128, .f32⟩
  | 118 => ⟨S5000x128, .f32⟩
  | 119 => ⟨S5000x128, .f32⟩
  | 120 => ⟨S1x128, .f32⟩
  | 121 => ⟨S1x128, .f32⟩
  | 122 => ⟨S5000x128, .f32⟩
  | 123 => ⟨S5000x128, .f32⟩
  | 124 => ⟨S1x128, .f32⟩
  | 125 => ⟨S1x128, .f32⟩
  | 126 => ⟨S5000x128, .f32⟩
  | 127 => ⟨S5000x128, .f32⟩
  | _ => ⟨S100000x128, .f32⟩

abbrev vmemTy0_1 (i : Nat) : BufTy := match i % 128 with
  | 0 => ⟨S1x128, .f32⟩
  | 1 => ⟨S1x128, .f32⟩
  | 2 => ⟨S5000x128, .f32⟩
  | 3 => ⟨S5000x128, .f32⟩
  | 4 => ⟨S1x128, .f32⟩
  | 5 => ⟨S1x128, .f32⟩
  | 6 => ⟨S5000x128, .f32⟩
  | 7 => ⟨S5000x128, .f32⟩
  | 8 => ⟨S512x128, .f32⟩
  | 9 => ⟨S512x5, .f32⟩
  | 10 => ⟨S133x256, .f32⟩
  | 11 => ⟨S1x256, .f32⟩
  | 12 => ⟨S256x256, .f32⟩
  | 13 => ⟨S1x256, .f32⟩
  | 14 => ⟨S256x1, .f32⟩
  | 15 => ⟨S1x1, .f32⟩
  | 16 => ⟨S512x1, .f32⟩
  | _ => ⟨S100000x128, .f32⟩

abbrev vmemTy (i : Nat) : BufTy := match i / 128 with
  | 0 => vmemTy0_0 i
  | 1 => vmemTy0_1 i
  | _ => ⟨S100000x128, .f32⟩

abbrev bufTy : (tb : Table) → Fin (tcTables nBuf tb) → BufTy
  | .hbm, ⟨i, _⟩ => hbmTy i
  | .local _ .vmem, ⟨i, _⟩ => vmemTy i
  | _, _ => ⟨S100000x128, .f32⟩

abbrev dmaSemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev dmaSemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev dmaSemScopedAt (i : Nat) : Bool := match i / 128 with
  | 0 => dmaSemScopedAt0_0 i
  | 1 => dmaSemScopedAt0_1 i
  | _ => false

abbrev vmemScopedAt0_0 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | 17 => true
  | 18 => true
  | 19 => true
  | 20 => true
  | 21 => true
  | 22 => true
  | 23 => true
  | 24 => true
  | 25 => true
  | 26 => true
  | 27 => true
  | 28 => true
  | 29 => true
  | 30 => true
  | 31 => true
  | 32 => true
  | 33 => true
  | 34 => true
  | 35 => true
  | 36 => true
  | 37 => true
  | 38 => true
  | 39 => true
  | 40 => true
  | 41 => true
  | 42 => true
  | 43 => true
  | 44 => true
  | 45 => true
  | 46 => true
  | 47 => true
  | 48 => true
  | 49 => true
  | 50 => true
  | 51 => true
  | 52 => true
  | 53 => true
  | 54 => true
  | 55 => true
  | 56 => true
  | 57 => true
  | 58 => true
  | 59 => true
  | 60 => true
  | 61 => true
  | 62 => true
  | 63 => true
  | 64 => true
  | 65 => true
  | 66 => true
  | 67 => true
  | 68 => true
  | 69 => true
  | 70 => true
  | 71 => true
  | 72 => true
  | 73 => true
  | 74 => true
  | 75 => true
  | 76 => true
  | 77 => true
  | 78 => true
  | 79 => true
  | 80 => true
  | 81 => true
  | 82 => true
  | 83 => true
  | 84 => true
  | 85 => true
  | 86 => true
  | 87 => true
  | 88 => true
  | 89 => true
  | 90 => true
  | 91 => true
  | 92 => true
  | 93 => true
  | 94 => true
  | 95 => true
  | 96 => true
  | 97 => true
  | 98 => true
  | 99 => true
  | 100 => true
  | 101 => true
  | 102 => true
  | 103 => true
  | 104 => true
  | 105 => true
  | 106 => true
  | 107 => true
  | 108 => true
  | 109 => true
  | 110 => true
  | 111 => true
  | 112 => true
  | 113 => true
  | 114 => true
  | 115 => true
  | 116 => true
  | 117 => true
  | 118 => true
  | 119 => true
  | 120 => true
  | 121 => true
  | 122 => true
  | 123 => true
  | 124 => true
  | 125 => true
  | 126 => true
  | 127 => true
  | _ => false

abbrev vmemScopedAt0_1 (i : Nat) : Bool := match i % 128 with
  | 0 => true
  | 1 => true
  | 2 => true
  | 3 => true
  | 4 => true
  | 5 => true
  | 6 => true
  | 7 => true
  | 8 => true
  | 9 => true
  | 10 => true
  | 11 => true
  | 12 => true
  | 13 => true
  | 14 => true
  | 15 => true
  | 16 => true
  | _ => false

abbrev vmemScopedAt (i : Nat) : Bool := match i / 128 with
  | 0 => vmemScopedAt0_0 i
  | 1 => vmemScopedAt0_1 i
  | _ => false

abbrev bufScoped : (cs : CoreSpace) → Fin (nBuf (.core cs)) → Bool
  | .vmem, ⟨i, _⟩ => vmemScopedAt i
  | _, _ => false

abbrev semScoped : Fin 0 → Bool
  | ⟨_, h⟩ => absurd h (Nat.not_lt_zero _)

abbrev dmaSemScoped : Fin 145 → Bool
  | ⟨i, _⟩ => dmaSemScopedAt i

abbrev sig : RefSig :=
  ofTc nBuf bufTy 0 145 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_v19_2 : Ref sig .tc := ⟨.hbm, 44, rfl⟩
abbrev main_cst_1 : Ref sig .tc := ⟨.hbm, 45, rfl⟩
abbrev main_v20 : Ref sig .tc := ⟨.hbm, 46, rfl⟩
abbrev main_v21 : Ref sig .tc := ⟨.hbm, 47, rfl⟩
abbrev main_cst_2 : Ref sig .tc := ⟨.hbm, 48, rfl⟩
abbrev main_v22 : Ref sig .tc := ⟨.hbm, 49, rfl⟩
abbrev main_v23 : Ref sig .tc := ⟨.hbm, 50, rfl⟩
abbrev main_v24 : Ref sig .tc := ⟨.hbm, 51, rfl⟩
abbrev main_v25 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_cst_3 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_v37 : Ref sig .tc := ⟨.hbm, 65, rfl⟩
abbrev main_v38 : Ref sig .tc := ⟨.hbm, 66, rfl⟩
abbrev main_v39 : Ref sig .tc := ⟨.hbm, 67, rfl⟩
abbrev main_v40 : Ref sig .tc := ⟨.hbm, 68, rfl⟩
abbrev main_v41 : Ref sig .tc := ⟨.hbm, 69, rfl⟩
abbrev main_v42 : Ref sig .tc := ⟨.hbm, 70, rfl⟩
abbrev main_v43_0 : Ref sig .tc := ⟨.hbm, 71, rfl⟩
abbrev main_v43_1 : Ref sig .tc := ⟨.hbm, 72, rfl⟩
abbrev main_v43_2 : Ref sig .tc := ⟨.hbm, 73, rfl⟩
abbrev main_cst_4 : Ref sig .tc := ⟨.hbm, 74, rfl⟩
abbrev main_v44 : Ref sig .tc := ⟨.hbm, 75, rfl⟩
abbrev main_v45 : Ref sig .tc := ⟨.hbm, 76, rfl⟩
abbrev main_cst_5 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_cst_6 : Ref sig .tc := ⟨.hbm, 85, rfl⟩
abbrev main_v53 : Ref sig .tc := ⟨.hbm, 86, rfl⟩
abbrev main_v54 : Ref sig .tc := ⟨.hbm, 87, rfl⟩
abbrev main_v55 : Ref sig .tc := ⟨.hbm, 88, rfl⟩
abbrev main_v56 : Ref sig .tc := ⟨.hbm, 89, rfl⟩
abbrev main_v57 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62_0 : Ref sig .tc := ⟨.hbm, 95, rfl⟩
abbrev main_v62_1 : Ref sig .tc := ⟨.hbm, 96, rfl⟩
abbrev main_v62_2 : Ref sig .tc := ⟨.hbm, 97, rfl⟩
abbrev main_cst_7 : Ref sig .tc := ⟨.hbm, 98, rfl⟩
abbrev main_v63 : Ref sig .tc := ⟨.hbm, 99, rfl⟩
abbrev main_v64 : Ref sig .tc := ⟨.hbm, 100, rfl⟩
abbrev main_cst_8 : Ref sig .tc := ⟨.hbm, 101, rfl⟩
abbrev main_v65 : Ref sig .tc := ⟨.hbm, 102, rfl⟩
abbrev main_v66 : Ref sig .tc := ⟨.hbm, 103, rfl⟩
abbrev main_v67 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_cst_9 : Ref sig .tc := ⟨.hbm, 109, rfl⟩
abbrev main_v72 : Ref sig .tc := ⟨.hbm, 110, rfl⟩
abbrev main_v73 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_v81 : Ref sig .tc := ⟨.hbm, 119, rfl⟩
abbrev main_c_10 : Ref sig .tc := ⟨.hbm, 120, rfl⟩
abbrev main_v82 : Ref sig .tc := ⟨.hbm, 121, rfl⟩
abbrev main_v83 : Ref sig .tc := ⟨.hbm, 122, rfl⟩
abbrev main_c_11 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_v88 : Ref sig .tc := ⟨.hbm, 128, rfl⟩
abbrev main_cst_12 : Ref sig .tc := ⟨.hbm, 129, rfl⟩
abbrev main_v89 : Ref sig .tc := ⟨.hbm, 130, rfl⟩
abbrev main_v90 : Ref sig .tc := ⟨.hbm, 131, rfl⟩
abbrev main_v91 : Ref sig .tc := ⟨.hbm, 132, rfl⟩
abbrev main_v92 : Ref sig .tc := ⟨.hbm, 133, rfl⟩
abbrev main_v93 : Ref sig .tc := ⟨.hbm, 134, rfl⟩
abbrev main_v94 : Ref sig .tc := ⟨.hbm, 135, rfl⟩
abbrev main_v95 : Ref sig .tc := ⟨.hbm, 136, rfl⟩
abbrev main_v96 : Ref sig .tc := ⟨.hbm, 137, rfl⟩
abbrev main_v97_0 : Ref sig .tc := ⟨.hbm, 138, rfl⟩
abbrev main_v97_1 : Ref sig .tc := ⟨.hbm, 139, rfl⟩
abbrev main_v97_2 : Ref sig .tc := ⟨.hbm, 140, rfl⟩
abbrev main_cst_13 : Ref sig .tc := ⟨.hbm, 141, rfl⟩
abbrev main_v98 : Ref sig .tc := ⟨.hbm, 142, rfl⟩
abbrev main_v99 : Ref sig .tc := ⟨.hbm, 143, rfl⟩
abbrev main_cst_14 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103 : Ref sig .tc := ⟨.hbm, 148, rfl⟩
abbrev main_v104 : Ref sig .tc := ⟨.hbm, 149, rfl⟩
abbrev main_v105 : Ref sig .tc := ⟨.hbm, 150, rfl⟩
abbrev main_v106 : Ref sig .tc := ⟨.hbm, 151, rfl⟩
abbrev main_cst_15 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_v112 : Ref sig .tc := ⟨.hbm, 158, rfl⟩
abbrev main_v113 : Ref sig .tc := ⟨.hbm, 159, rfl⟩
abbrev main_v114 : Ref sig .tc := ⟨.hbm, 160, rfl⟩
abbrev main_v115 : Ref sig .tc := ⟨.hbm, 161, rfl⟩
abbrev main_v116 : Ref sig .tc := ⟨.hbm, 162, rfl⟩
abbrev main_v117 : Ref sig .tc := ⟨.hbm, 163, rfl⟩
abbrev main_v118 : Ref sig .tc := ⟨.hbm, 164, rfl⟩
abbrev main_v119 : Ref sig .tc := ⟨.hbm, 165, rfl⟩
abbrev main_v120 : Ref sig .tc := ⟨.hbm, 166, rfl⟩
abbrev main_v121_0 : Ref sig .tc := ⟨.hbm, 167, rfl⟩
abbrev main_v121_1 : Ref sig .tc := ⟨.hbm, 168, rfl⟩
abbrev main_v121_2 : Ref sig .tc := ⟨.hbm, 169, rfl⟩
abbrev main_cst_16 : Ref sig .tc := ⟨.hbm, 170, rfl⟩
abbrev main_v122 : Ref sig .tc := ⟨.hbm, 171, rfl⟩
abbrev main_v123 : Ref sig .tc := ⟨.hbm, 172, rfl⟩
abbrev main_cst_17 : Ref sig .tc := ⟨.hbm, 173, rfl⟩
abbrev main_v124 : Ref sig .tc := ⟨.hbm, 174, rfl⟩
abbrev main_v125 : Ref sig .tc := ⟨.hbm, 175, rfl⟩
abbrev main_v126 : Ref sig .tc := ⟨.hbm, 176, rfl⟩
abbrev main_v127 : Ref sig .tc := ⟨.hbm, 177, rfl⟩
abbrev main_v128 : Ref sig .tc := ⟨.hbm, 178, rfl⟩
abbrev main_v129 : Ref sig .tc := ⟨.hbm, 179, rfl⟩
abbrev main_v130 : Ref sig .tc := ⟨.hbm, 180, rfl⟩
abbrev main_cst_18 : Ref sig .tc := ⟨.hbm, 181, rfl⟩
abbrev main_v131 : Ref sig .tc := ⟨.hbm, 182, rfl⟩
abbrev main_v132 : Ref sig .tc := ⟨.hbm, 183, rfl⟩
abbrev main_v133 : Ref sig .tc := ⟨.hbm, 184, rfl⟩
abbrev main_v134 : Ref sig .tc := ⟨.hbm, 185, rfl⟩
abbrev main_v135 : Ref sig .tc := ⟨.hbm, 186, rfl⟩
abbrev main_v136 : Ref sig .tc := ⟨.hbm, 187, rfl⟩
abbrev main_v137 : Ref sig .tc := ⟨.hbm, 188, rfl⟩
abbrev main_v138 : Ref sig .tc := ⟨.hbm, 189, rfl⟩
abbrev main_v139 : Ref sig .tc := ⟨.hbm, 190, rfl⟩
abbrev main_v140_0 : Ref sig .tc := ⟨.hbm, 191, rfl⟩
abbrev main_v140_1 : Ref sig .tc := ⟨.hbm, 192, rfl⟩
abbrev main_v140_2 : Ref sig .tc := ⟨.hbm, 193, rfl⟩
abbrev main_cst_19 : Ref sig .tc := ⟨.hbm, 194, rfl⟩
abbrev main_v141 : Ref sig .tc := ⟨.hbm, 195, rfl⟩
abbrev main_v142 : Ref sig .tc := ⟨.hbm, 196, rfl⟩
abbrev main_cst_20 : Ref sig .tc := ⟨.hbm, 197, rfl⟩
abbrev main_v143 : Ref sig .tc := ⟨.hbm, 198, rfl⟩
abbrev main_v144 : Ref sig .tc := ⟨.hbm, 199, rfl⟩
abbrev main_v145 : Ref sig .tc := ⟨.hbm, 200, rfl⟩
abbrev main_v146 : Ref sig .tc := ⟨.hbm, 201, rfl⟩
abbrev main_v147 : Ref sig .tc := ⟨.hbm, 202, rfl⟩
abbrev main_v148 : Ref sig .tc := ⟨.hbm, 203, rfl⟩
abbrev main_v149 : Ref sig .tc := ⟨.hbm, 204, rfl⟩
abbrev main_cst_21 : Ref sig .tc := ⟨.hbm, 205, rfl⟩
abbrev main_v150 : Ref sig .tc := ⟨.hbm, 206, rfl⟩
abbrev main_v151 : Ref sig .tc := ⟨.hbm, 207, rfl⟩
abbrev main_v152 : Ref sig .tc := ⟨.hbm, 208, rfl⟩
abbrev main_v153 : Ref sig .tc := ⟨.hbm, 209, rfl⟩
abbrev main_v154 : Ref sig .tc := ⟨.hbm, 210, rfl⟩
abbrev main_v155 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_v159 : Ref sig .tc := ⟨.hbm, 215, rfl⟩
abbrev main_c_22 : Ref sig .tc := ⟨.hbm, 216, rfl⟩
abbrev main_v160 : Ref sig .tc := ⟨.hbm, 217, rfl⟩
abbrev main_v161 : Ref sig .tc := ⟨.hbm, 218, rfl⟩
abbrev main_c_23 : Ref sig .tc := ⟨.hbm, 219, rfl⟩
abbrev main_v162 : Ref sig .tc := ⟨.hbm, 220, rfl⟩
abbrev main_v163 : Ref sig .tc := ⟨.hbm, 221, rfl⟩
abbrev main_v164 : Ref sig .tc := ⟨.hbm, 222, rfl⟩
abbrev main_v165 : Ref sig .tc := ⟨.hbm, 223, rfl⟩
abbrev main_v166 : Ref sig .tc := ⟨.hbm, 224, rfl⟩
abbrev main_cst_24 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩
abbrev main_v172 : Ref sig .tc := ⟨.hbm, 231, rfl⟩
abbrev main_v173 : Ref sig .tc := ⟨.hbm, 232, rfl⟩
abbrev main_v174 : Ref sig .tc := ⟨.hbm, 233, rfl⟩
abbrev main_v175_0 : Ref sig .tc := ⟨.hbm, 234, rfl⟩
abbrev main_v175_1 : Ref sig .tc := ⟨.hbm, 235, rfl⟩
abbrev main_v175_2 : Ref sig .tc := ⟨.hbm, 236, rfl⟩
abbrev main_cst_25 : Ref sig .tc := ⟨.hbm, 237, rfl⟩
abbrev main_v176 : Ref sig .tc := ⟨.hbm, 238, rfl⟩
abbrev main_v177 : Ref sig .tc := ⟨.hbm, 239, rfl⟩
abbrev main_cst_26 : Ref sig .tc := ⟨.hbm, 240, rfl⟩
abbrev main_v178 : Ref sig .tc := ⟨.hbm, 241, rfl⟩
abbrev main_v179 : Ref sig .tc := ⟨.hbm, 242, rfl⟩
abbrev main_v180 : Ref sig .tc := ⟨.hbm, 243, rfl⟩
abbrev main_v181 : Ref sig .tc := ⟨.hbm, 244, rfl⟩
abbrev main_v182 : Ref sig .tc := ⟨.hbm, 245, rfl⟩
abbrev main_v183 : Ref sig .tc := ⟨.hbm, 246, rfl⟩
abbrev main_v184 : Ref sig .tc := ⟨.hbm, 247, rfl⟩
abbrev main_cst_27 : Ref sig .tc := ⟨.hbm, 248, rfl⟩
abbrev main_v185 : Ref sig .tc := ⟨.hbm, 249, rfl⟩
abbrev main_v186 : Ref sig .tc := ⟨.hbm, 250, rfl⟩
abbrev main_v187 : Ref sig .tc := ⟨.hbm, 251, rfl⟩
abbrev main_v188 : Ref sig .tc := ⟨.hbm, 252, rfl⟩
abbrev main_v189 : Ref sig .tc := ⟨.hbm, 253, rfl⟩
abbrev main_v190 : Ref sig .tc := ⟨.hbm, 254, rfl⟩
abbrev main_v191 : Ref sig .tc := ⟨.hbm, 255, rfl⟩
abbrev main_v192 : Ref sig .tc := ⟨.hbm, 256, rfl⟩
abbrev main_v193 : Ref sig .tc := ⟨.hbm, 257, rfl⟩
abbrev main_v194 : Ref sig .tc := ⟨.hbm, 258, rfl⟩
abbrev main_v195 : Ref sig .tc := ⟨.hbm, 259, rfl⟩
abbrev main_v196 : Ref sig .tc := ⟨.hbm, 260, rfl⟩
abbrev main_v197 : Ref sig .tc := ⟨.hbm, 261, rfl⟩
abbrev main_v198 : Ref sig .tc := ⟨.hbm, 262, rfl⟩
abbrev main_v199_0 : Ref sig .tc := ⟨.hbm, 263, rfl⟩
abbrev main_v199_1 : Ref sig .tc := ⟨.hbm, 264, rfl⟩
abbrev main_v199_2 : Ref sig .tc := ⟨.hbm, 265, rfl⟩
abbrev main_cst_28 : Ref sig .tc := ⟨.hbm, 266, rfl⟩
abbrev main_v200 : Ref sig .tc := ⟨.hbm, 267, rfl⟩
abbrev main_v201 : Ref sig .tc := ⟨.hbm, 268, rfl⟩
abbrev main_cst_29 : Ref sig .tc := ⟨.hbm, 269, rfl⟩
abbrev main_v202 : Ref sig .tc := ⟨.hbm, 270, rfl⟩
abbrev main_v203 : Ref sig .tc := ⟨.hbm, 271, rfl⟩
abbrev main_v204 : Ref sig .tc := ⟨.hbm, 272, rfl⟩
abbrev main_v205 : Ref sig .tc := ⟨.hbm, 273, rfl⟩
abbrev main_v206 : Ref sig .tc := ⟨.hbm, 274, rfl⟩
abbrev main_v207 : Ref sig .tc := ⟨.hbm, 275, rfl⟩
abbrev main_v208 : Ref sig .tc := ⟨.hbm, 276, rfl⟩
abbrev main_cst_30 : Ref sig .tc := ⟨.hbm, 277, rfl⟩
abbrev main_v209 : Ref sig .tc := ⟨.hbm, 278, rfl⟩
abbrev main_v210 : Ref sig .tc := ⟨.hbm, 279, rfl⟩
abbrev main_v211 : Ref sig .tc := ⟨.hbm, 280, rfl⟩
abbrev main_v212 : Ref sig .tc := ⟨.hbm, 281, rfl⟩
abbrev main_v213 : Ref sig .tc := ⟨.hbm, 282, rfl⟩
abbrev main_v214 : Ref sig .tc := ⟨.hbm, 283, rfl⟩
abbrev main_v215 : Ref sig .tc := ⟨.hbm, 284, rfl⟩
abbrev main_v216 : Ref sig .tc := ⟨.hbm, 285, rfl⟩
abbrev main_v217 : Ref sig .tc := ⟨.hbm, 286, rfl⟩
abbrev main_v218_0 : Ref sig .tc := ⟨.hbm, 287, rfl⟩
abbrev main_v218_1 : Ref sig .tc := ⟨.hbm, 288, rfl⟩
abbrev main_v218_2 : Ref sig .tc := ⟨.hbm, 289, rfl⟩
abbrev main_cst_31 : Ref sig .tc := ⟨.hbm, 290, rfl⟩
abbrev main_v219 : Ref sig .tc := ⟨.hbm, 291, rfl⟩
abbrev main_v220 : Ref sig .tc := ⟨.hbm, 292, rfl⟩
abbrev main_cst_32 : Ref sig .tc := ⟨.hbm, 293, rfl⟩
abbrev main_v221 : Ref sig .tc := ⟨.hbm, 294, rfl⟩
abbrev main_v222 : Ref sig .tc := ⟨.hbm, 295, rfl⟩
abbrev main_v223 : Ref sig .tc := ⟨.hbm, 296, rfl⟩
abbrev main_v224 : Ref sig .tc := ⟨.hbm, 297, rfl⟩
abbrev main_v225 : Ref sig .tc := ⟨.hbm, 298, rfl⟩
abbrev main_v226 : Ref sig .tc := ⟨.hbm, 299, rfl⟩
abbrev main_v227 : Ref sig .tc := ⟨.hbm, 300, rfl⟩
abbrev main_cst_33 : Ref sig .tc := ⟨.hbm, 301, rfl⟩
abbrev main_v228 : Ref sig .tc := ⟨.hbm, 302, rfl⟩
abbrev main_v229 : Ref sig .tc := ⟨.hbm, 303, rfl⟩
abbrev main_v230 : Ref sig .tc := ⟨.hbm, 304, rfl⟩
abbrev main_v231 : Ref sig .tc := ⟨.hbm, 305, rfl⟩
abbrev main_v232 : Ref sig .tc := ⟨.hbm, 306, rfl⟩
abbrev main_v233 : Ref sig .tc := ⟨.hbm, 307, rfl⟩
abbrev main_v234 : Ref sig .tc := ⟨.hbm, 308, rfl⟩
abbrev main_v235 : Ref sig .tc := ⟨.hbm, 309, rfl⟩
abbrev main_v236 : Ref sig .tc := ⟨.hbm, 310, rfl⟩
abbrev main_v237 : Ref sig .tc := ⟨.hbm, 311, rfl⟩
abbrev main_c_34 : Ref sig .tc := ⟨.hbm, 312, rfl⟩
abbrev main_v238 : Ref sig .tc := ⟨.hbm, 313, rfl⟩
abbrev main_v239 : Ref sig .tc := ⟨.hbm, 314, rfl⟩
abbrev main_c_35 : Ref sig .tc := ⟨.hbm, 315, rfl⟩
abbrev main_v240 : Ref sig .tc := ⟨.hbm, 316, rfl⟩
abbrev main_v241 : Ref sig .tc := ⟨.hbm, 317, rfl⟩
abbrev main_v242 : Ref sig .tc := ⟨.hbm, 318, rfl⟩
abbrev main_v243 : Ref sig .tc := ⟨.hbm, 319, rfl⟩
abbrev main_v244 : Ref sig .tc := ⟨.hbm, 320, rfl⟩
abbrev main_cst_36 : Ref sig .tc := ⟨.hbm, 321, rfl⟩
abbrev main_v245 : Ref sig .tc := ⟨.hbm, 322, rfl⟩
abbrev main_v246 : Ref sig .tc := ⟨.hbm, 323, rfl⟩
abbrev main_v247 : Ref sig .tc := ⟨.hbm, 324, rfl⟩
abbrev main_v248 : Ref sig .tc := ⟨.hbm, 325, rfl⟩
abbrev main_v249 : Ref sig .tc := ⟨.hbm, 326, rfl⟩
abbrev main_v250 : Ref sig .tc := ⟨.hbm, 327, rfl⟩
abbrev main_v251 : Ref sig .tc := ⟨.hbm, 328, rfl⟩
abbrev main_v252 : Ref sig .tc := ⟨.hbm, 329, rfl⟩
abbrev main_v253_0 : Ref sig .tc := ⟨.hbm, 330, rfl⟩
abbrev main_v253_1 : Ref sig .tc := ⟨.hbm, 331, rfl⟩
abbrev main_v253_2 : Ref sig .tc := ⟨.hbm, 332, rfl⟩
abbrev main_cst_37 : Ref sig .tc := ⟨.hbm, 333, rfl⟩
abbrev main_v254 : Ref sig .tc := ⟨.hbm, 334, rfl⟩
abbrev main_v255 : Ref sig .tc := ⟨.hbm, 335, rfl⟩
abbrev main_cst_38 : Ref sig .tc := ⟨.hbm, 336, rfl⟩
abbrev main_v256 : Ref sig .tc := ⟨.hbm, 337, rfl⟩
abbrev main_v257 : Ref sig .tc := ⟨.hbm, 338, rfl⟩
abbrev main_v258 : Ref sig .tc := ⟨.hbm, 339, rfl⟩
abbrev main_v259 : Ref sig .tc := ⟨.hbm, 340, rfl⟩
abbrev main_v260 : Ref sig .tc := ⟨.hbm, 341, rfl⟩
abbrev main_v261 : Ref sig .tc := ⟨.hbm, 342, rfl⟩
abbrev main_v262 : Ref sig .tc := ⟨.hbm, 343, rfl⟩
abbrev main_cst_39 : Ref sig .tc := ⟨.hbm, 344, rfl⟩
abbrev main_v263 : Ref sig .tc := ⟨.hbm, 345, rfl⟩
abbrev main_v264 : Ref sig .tc := ⟨.hbm, 346, rfl⟩
abbrev main_v265 : Ref sig .tc := ⟨.hbm, 347, rfl⟩
abbrev main_v266 : Ref sig .tc := ⟨.hbm, 348, rfl⟩
abbrev main_v267 : Ref sig .tc := ⟨.hbm, 349, rfl⟩
abbrev main_v268 : Ref sig .tc := ⟨.hbm, 350, rfl⟩
abbrev main_v269 : Ref sig .tc := ⟨.hbm, 351, rfl⟩
abbrev main_v270 : Ref sig .tc := ⟨.hbm, 352, rfl⟩
abbrev main_v271 : Ref sig .tc := ⟨.hbm, 353, rfl⟩
abbrev main_v272 : Ref sig .tc := ⟨.hbm, 354, rfl⟩
abbrev main_v273 : Ref sig .tc := ⟨.hbm, 355, rfl⟩
abbrev main_v274 : Ref sig .tc := ⟨.hbm, 356, rfl⟩
abbrev main_v275 : Ref sig .tc := ⟨.hbm, 357, rfl⟩
abbrev main_v276 : Ref sig .tc := ⟨.hbm, 358, rfl⟩
abbrev main_v277_0 : Ref sig .tc := ⟨.hbm, 359, rfl⟩
abbrev main_v277_1 : Ref sig .tc := ⟨.hbm, 360, rfl⟩
abbrev main_v277_2 : Ref sig .tc := ⟨.hbm, 361, rfl⟩
abbrev main_cst_40 : Ref sig .tc := ⟨.hbm, 362, rfl⟩
abbrev main_v278 : Ref sig .tc := ⟨.hbm, 363, rfl⟩
abbrev main_v279 : Ref sig .tc := ⟨.hbm, 364, rfl⟩
abbrev main_cst_41 : Ref sig .tc := ⟨.hbm, 365, rfl⟩
abbrev main_v280 : Ref sig .tc := ⟨.hbm, 366, rfl⟩
abbrev main_v281 : Ref sig .tc := ⟨.hbm, 367, rfl⟩
abbrev main_v282 : Ref sig .tc := ⟨.hbm, 368, rfl⟩
abbrev main_v283 : Ref sig .tc := ⟨.hbm, 369, rfl⟩
abbrev main_v284 : Ref sig .tc := ⟨.hbm, 370, rfl⟩
abbrev main_v285 : Ref sig .tc := ⟨.hbm, 371, rfl⟩
abbrev main_v286 : Ref sig .tc := ⟨.hbm, 372, rfl⟩
abbrev main_cst_42 : Ref sig .tc := ⟨.hbm, 373, rfl⟩
abbrev main_v287 : Ref sig .tc := ⟨.hbm, 374, rfl⟩
abbrev main_v288 : Ref sig .tc := ⟨.hbm, 375, rfl⟩
abbrev main_v289 : Ref sig .tc := ⟨.hbm, 376, rfl⟩
abbrev main_v290 : Ref sig .tc := ⟨.hbm, 377, rfl⟩
abbrev main_v291 : Ref sig .tc := ⟨.hbm, 378, rfl⟩
abbrev main_v292 : Ref sig .tc := ⟨.hbm, 379, rfl⟩
abbrev main_v293 : Ref sig .tc := ⟨.hbm, 380, rfl⟩
abbrev main_v294 : Ref sig .tc := ⟨.hbm, 381, rfl⟩
abbrev main_v295 : Ref sig .tc := ⟨.hbm, 382, rfl⟩
abbrev main_v296_0 : Ref sig .tc := ⟨.hbm, 383, rfl⟩
abbrev main_v296_1 : Ref sig .tc := ⟨.hbm, 384, rfl⟩
abbrev main_v296_2 : Ref sig .tc := ⟨.hbm, 385, rfl⟩
abbrev main_cst_43 : Ref sig .tc := ⟨.hbm, 386, rfl⟩
abbrev main_v297 : Ref sig .tc := ⟨.hbm, 387, rfl⟩
abbrev main_v298 : Ref sig .tc := ⟨.hbm, 388, rfl⟩
abbrev main_cst_44 : Ref sig .tc := ⟨.hbm, 389, rfl⟩
abbrev main_v299 : Ref sig .tc := ⟨.hbm, 390, rfl⟩
abbrev main_v300 : Ref sig .tc := ⟨.hbm, 391, rfl⟩
abbrev main_v301 : Ref sig .tc := ⟨.hbm, 392, rfl⟩
abbrev main_v302 : Ref sig .tc := ⟨.hbm, 393, rfl⟩
abbrev main_v303 : Ref sig .tc := ⟨.hbm, 394, rfl⟩
abbrev main_v304 : Ref sig .tc := ⟨.hbm, 395, rfl⟩
abbrev main_v305 : Ref sig .tc := ⟨.hbm, 396, rfl⟩
abbrev main_cst_45 : Ref sig .tc := ⟨.hbm, 397, rfl⟩
abbrev main_v306 : Ref sig .tc := ⟨.hbm, 398, rfl⟩
abbrev main_v307 : Ref sig .tc := ⟨.hbm, 399, rfl⟩
abbrev main_v308 : Ref sig .tc := ⟨.hbm, 400, rfl⟩
abbrev main_v309 : Ref sig .tc := ⟨.hbm, 401, rfl⟩
abbrev main_v310 : Ref sig .tc := ⟨.hbm, 402, rfl⟩
abbrev main_v311 : Ref sig .tc := ⟨.hbm, 403, rfl⟩
abbrev main_v312 : Ref sig .tc := ⟨.hbm, 404, rfl⟩
abbrev main_v313 : Ref sig .tc := ⟨.hbm, 405, rfl⟩
abbrev main_v314 : Ref sig .tc := ⟨.hbm, 406, rfl⟩
abbrev main_v315 : Ref sig .tc := ⟨.hbm, 407, rfl⟩
abbrev main_cst_46 : Ref sig .tc := ⟨.hbm, 408, rfl⟩
abbrev main_v316 : Ref sig .tc := ⟨.hbm, 409, rfl⟩
abbrev main_v317 : Ref sig .tc := ⟨.hbm, 410, rfl⟩
abbrev main_v318 : Ref sig .tc := ⟨.hbm, 411, rfl⟩
abbrev main_v319 : Ref sig .tc := ⟨.hbm, 412, rfl⟩
abbrev main_v320 : Ref sig .tc := ⟨.hbm, 413, rfl⟩
abbrev main_v321 : Ref sig .tc := ⟨.hbm, 414, rfl⟩
abbrev main_v322 : Ref sig .tc := ⟨.hbm, 415, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc1_stg0_0 : Ref sig .tc := ⟨.vmem, 10, rfl⟩
abbrev cc1_stg0_1 : Ref sig .tc := ⟨.vmem, 11, rfl⟩
abbrev cc1_stg1_0 : Ref sig .tc := ⟨.vmem, 12, rfl⟩
abbrev cc1_stg2_0 : Ref sig .tc := ⟨.vmem, 13, rfl⟩
abbrev cc1_stg3_0 : Ref sig .tc := ⟨.vmem, 14, rfl⟩
abbrev cc1_stg4_0 : Ref sig .tc := ⟨.vmem, 15, rfl⟩
abbrev cc1_stg5_0 : Ref sig .tc := ⟨.vmem, 16, rfl⟩
abbrev cc1_stg5_1 : Ref sig .tc := ⟨.vmem, 17, rfl⟩
abbrev cc1_stg6_0 : Ref sig .tc := ⟨.vmem, 18, rfl⟩
abbrev cc1_stg7_0 : Ref sig .tc := ⟨.vmem, 19, rfl⟩
abbrev cc2_stg0_0 : Ref sig .tc := ⟨.vmem, 20, rfl⟩
abbrev cc2_stg0_1 : Ref sig .tc := ⟨.vmem, 21, rfl⟩
abbrev cc2_stg1_0 : Ref sig .tc := ⟨.vmem, 22, rfl⟩
abbrev cc2_stg2_0 : Ref sig .tc := ⟨.vmem, 23, rfl⟩
abbrev cc2_stg3_0 : Ref sig .tc := ⟨.vmem, 24, rfl⟩
abbrev cc2_stg3_1 : Ref sig .tc := ⟨.vmem, 25, rfl⟩
abbrev cc2_stg4_0 : Ref sig .tc := ⟨.vmem, 26, rfl⟩
abbrev cc2_stg5_0 : Ref sig .tc := ⟨.vmem, 27, rfl⟩
abbrev cc3_stg0_0 : Ref sig .tc := ⟨.vmem, 28, rfl⟩
abbrev cc3_stg0_1 : Ref sig .tc := ⟨.vmem, 29, rfl⟩
abbrev cc3_stg1_0 : Ref sig .tc := ⟨.vmem, 30, rfl⟩
abbrev cc3_stg2_0 : Ref sig .tc := ⟨.vmem, 31, rfl⟩
abbrev cc3_stg3_0 : Ref sig .tc := ⟨.vmem, 32, rfl⟩
abbrev cc3_stg3_1 : Ref sig .tc := ⟨.vmem, 33, rfl⟩
abbrev cc4_stg0_0 : Ref sig .tc := ⟨.vmem, 34, rfl⟩
abbrev cc4_stg0_1 : Ref sig .tc := ⟨.vmem, 35, rfl⟩
abbrev cc4_stg1_0 : Ref sig .tc := ⟨.vmem, 36, rfl⟩
abbrev cc4_stg1_1 : Ref sig .tc := ⟨.vmem, 37, rfl⟩
abbrev cc4_stg2_0 : Ref sig .tc := ⟨.vmem, 38, rfl⟩
abbrev cc4_stg3_0 : Ref sig .tc := ⟨.vmem, 39, rfl⟩
abbrev cc4_stg4_0 : Ref sig .tc := ⟨.vmem, 40, rfl⟩
abbrev cc4_stg4_1 : Ref sig .tc := ⟨.vmem, 41, rfl⟩
abbrev cc4_stg5_0 : Ref sig .tc := ⟨.vmem, 42, rfl⟩
abbrev cc4_stg6_0 : Ref sig .tc := ⟨.vmem, 43, rfl⟩
abbrev cc5_stg0_0 : Ref sig .tc := ⟨.vmem, 44, rfl⟩
abbrev cc5_stg0_1 : Ref sig .tc := ⟨.vmem, 45, rfl⟩
abbrev cc5_stg1_0 : Ref sig .tc := ⟨.vmem, 46, rfl⟩
abbrev cc5_stg2_0 : Ref sig .tc := ⟨.vmem, 47, rfl⟩
abbrev cc5_stg3_0 : Ref sig .tc := ⟨.vmem, 48, rfl⟩
abbrev cc5_stg4_0 : Ref sig .tc := ⟨.vmem, 49, rfl⟩
abbrev cc5_stg5_0 : Ref sig .tc := ⟨.vmem, 50, rfl⟩
abbrev cc5_stg5_1 : Ref sig .tc := ⟨.vmem, 51, rfl⟩
abbrev cc5_stg6_0 : Ref sig .tc := ⟨.vmem, 52, rfl⟩
abbrev cc5_stg7_0 : Ref sig .tc := ⟨.vmem, 53, rfl⟩
abbrev cc6_stg0_0 : Ref sig .tc := ⟨.vmem, 54, rfl⟩
abbrev cc6_stg0_1 : Ref sig .tc := ⟨.vmem, 55, rfl⟩
abbrev cc6_stg1_0 : Ref sig .tc := ⟨.vmem, 56, rfl⟩
abbrev cc6_stg2_0 : Ref sig .tc := ⟨.vmem, 57, rfl⟩
abbrev cc6_stg3_0 : Ref sig .tc := ⟨.vmem, 58, rfl⟩
abbrev cc6_stg3_1 : Ref sig .tc := ⟨.vmem, 59, rfl⟩
abbrev cc6_stg4_0 : Ref sig .tc := ⟨.vmem, 60, rfl⟩
abbrev cc6_stg5_0 : Ref sig .tc := ⟨.vmem, 61, rfl⟩
abbrev cc7_stg0_0 : Ref sig .tc := ⟨.vmem, 62, rfl⟩
abbrev cc7_stg0_1 : Ref sig .tc := ⟨.vmem, 63, rfl⟩
abbrev cc7_stg1_0 : Ref sig .tc := ⟨.vmem, 64, rfl⟩
abbrev cc7_stg2_0 : Ref sig .tc := ⟨.vmem, 65, rfl⟩
abbrev cc7_stg3_0 : Ref sig .tc := ⟨.vmem, 66, rfl⟩
abbrev cc7_stg3_1 : Ref sig .tc := ⟨.vmem, 67, rfl⟩
abbrev cc8_stg0_0 : Ref sig .tc := ⟨.vmem, 68, rfl⟩
abbrev cc8_stg0_1 : Ref sig .tc := ⟨.vmem, 69, rfl⟩
abbrev cc8_stg1_0 : Ref sig .tc := ⟨.vmem, 70, rfl⟩
abbrev cc8_stg1_1 : Ref sig .tc := ⟨.vmem, 71, rfl⟩
abbrev cc8_stg2_0 : Ref sig .tc := ⟨.vmem, 72, rfl⟩
abbrev cc8_stg3_0 : Ref sig .tc := ⟨.vmem, 73, rfl⟩
abbrev cc8_stg4_0 : Ref sig .tc := ⟨.vmem, 74, rfl⟩
abbrev cc8_stg4_1 : Ref sig .tc := ⟨.vmem, 75, rfl⟩
abbrev cc8_stg5_0 : Ref sig .tc := ⟨.vmem, 76, rfl⟩
abbrev cc8_stg6_0 : Ref sig .tc := ⟨.vmem, 77, rfl⟩
abbrev cc9_stg0_0 : Ref sig .tc := ⟨.vmem, 78, rfl⟩
abbrev cc9_stg0_1 : Ref sig .tc := ⟨.vmem, 79, rfl⟩
abbrev cc9_stg1_0 : Ref sig .tc := ⟨.vmem, 80, rfl⟩
abbrev cc9_stg2_0 : Ref sig .tc := ⟨.vmem, 81, rfl⟩
abbrev cc9_stg3_0 : Ref sig .tc := ⟨.vmem, 82, rfl⟩
abbrev cc9_stg4_0 : Ref sig .tc := ⟨.vmem, 83, rfl⟩
abbrev cc9_stg5_0 : Ref sig .tc := ⟨.vmem, 84, rfl⟩
abbrev cc9_stg5_1 : Ref sig .tc := ⟨.vmem, 85, rfl⟩
abbrev cc9_stg6_0 : Ref sig .tc := ⟨.vmem, 86, rfl⟩
abbrev cc9_stg7_0 : Ref sig .tc := ⟨.vmem, 87, rfl⟩
abbrev cc10_stg0_0 : Ref sig .tc := ⟨.vmem, 88, rfl⟩
abbrev cc10_stg0_1 : Ref sig .tc := ⟨.vmem, 89, rfl⟩
abbrev cc10_stg1_0 : Ref sig .tc := ⟨.vmem, 90, rfl⟩
abbrev cc10_stg2_0 : Ref sig .tc := ⟨.vmem, 91, rfl⟩
abbrev cc10_stg3_0 : Ref sig .tc := ⟨.vmem, 92, rfl⟩
abbrev cc10_stg3_1 : Ref sig .tc := ⟨.vmem, 93, rfl⟩
abbrev cc10_stg4_0 : Ref sig .tc := ⟨.vmem, 94, rfl⟩
abbrev cc10_stg5_0 : Ref sig .tc := ⟨.vmem, 95, rfl⟩
abbrev cc11_stg0_0 : Ref sig .tc := ⟨.vmem, 96, rfl⟩
abbrev cc11_stg0_1 : Ref sig .tc := ⟨.vmem, 97, rfl⟩
abbrev cc11_stg1_0 : Ref sig .tc := ⟨.vmem, 98, rfl⟩
abbrev cc11_stg2_0 : Ref sig .tc := ⟨.vmem, 99, rfl⟩
abbrev cc11_stg3_0 : Ref sig .tc := ⟨.vmem, 100, rfl⟩
abbrev cc11_stg3_1 : Ref sig .tc := ⟨.vmem, 101, rfl⟩
abbrev cc12_stg0_0 : Ref sig .tc := ⟨.vmem, 102, rfl⟩
abbrev cc12_stg0_1 : Ref sig .tc := ⟨.vmem, 103, rfl⟩
abbrev cc12_stg1_0 : Ref sig .tc := ⟨.vmem, 104, rfl⟩
abbrev cc12_stg1_1 : Ref sig .tc := ⟨.vmem, 105, rfl⟩
abbrev cc12_stg2_0 : Ref sig .tc := ⟨.vmem, 106, rfl⟩
abbrev cc12_stg3_0 : Ref sig .tc := ⟨.vmem, 107, rfl⟩
abbrev cc12_stg4_0 : Ref sig .tc := ⟨.vmem, 108, rfl⟩
abbrev cc12_stg4_1 : Ref sig .tc := ⟨.vmem, 109, rfl⟩
abbrev cc12_stg5_0 : Ref sig .tc := ⟨.vmem, 110, rfl⟩
abbrev cc12_stg6_0 : Ref sig .tc := ⟨.vmem, 111, rfl⟩
abbrev cc13_stg0_0 : Ref sig .tc := ⟨.vmem, 112, rfl⟩
abbrev cc13_stg0_1 : Ref sig .tc := ⟨.vmem, 113, rfl⟩
abbrev cc13_stg1_0 : Ref sig .tc := ⟨.vmem, 114, rfl⟩
abbrev cc13_stg2_0 : Ref sig .tc := ⟨.vmem, 115, rfl⟩
abbrev cc13_stg3_0 : Ref sig .tc := ⟨.vmem, 116, rfl⟩
abbrev cc13_stg4_0 : Ref sig .tc := ⟨.vmem, 117, rfl⟩
abbrev cc13_stg5_0 : Ref sig .tc := ⟨.vmem, 118, rfl⟩
abbrev cc13_stg5_1 : Ref sig .tc := ⟨.vmem, 119, rfl⟩
abbrev cc13_stg6_0 : Ref sig .tc := ⟨.vmem, 120, rfl⟩
abbrev cc13_stg7_0 : Ref sig .tc := ⟨.vmem, 121, rfl⟩
abbrev cc14_stg0_0 : Ref sig .tc := ⟨.vmem, 122, rfl⟩
abbrev cc14_stg0_1 : Ref sig .tc := ⟨.vmem, 123, rfl⟩
abbrev cc14_stg1_0 : Ref sig .tc := ⟨.vmem, 124, rfl⟩
abbrev cc14_stg2_0 : Ref sig .tc := ⟨.vmem, 125, rfl⟩
abbrev cc14_stg3_0 : Ref sig .tc := ⟨.vmem, 126, rfl⟩
abbrev cc14_stg3_1 : Ref sig .tc := ⟨.vmem, 127, rfl⟩
abbrev cc14_stg4_0 : Ref sig .tc := ⟨.vmem, 128, rfl⟩
abbrev cc14_stg5_0 : Ref sig .tc := ⟨.vmem, 129, rfl⟩
abbrev cc15_stg0_0 : Ref sig .tc := ⟨.vmem, 130, rfl⟩
abbrev cc15_stg0_1 : Ref sig .tc := ⟨.vmem, 131, rfl⟩
abbrev cc15_stg1_0 : Ref sig .tc := ⟨.vmem, 132, rfl⟩
abbrev cc15_stg2_0 : Ref sig .tc := ⟨.vmem, 133, rfl⟩
abbrev cc15_stg3_0 : Ref sig .tc := ⟨.vmem, 134, rfl⟩
abbrev cc15_stg3_1 : Ref sig .tc := ⟨.vmem, 135, rfl⟩
abbrev cc16_stg0_0 : Ref sig .tc := ⟨.vmem, 136, rfl⟩
abbrev cc16_stg1_0 : Ref sig .tc := ⟨.vmem, 137, rfl⟩
abbrev cc16_stg2_0 : Ref sig .tc := ⟨.vmem, 138, rfl⟩
abbrev cc16_stg3_0 : Ref sig .tc := ⟨.vmem, 139, rfl⟩
abbrev cc16_stg4_0 : Ref sig .tc := ⟨.vmem, 140, rfl⟩
abbrev cc16_stg5_0 : Ref sig .tc := ⟨.vmem, 141, rfl⟩
abbrev cc16_stg6_0 : Ref sig .tc := ⟨.vmem, 142, rfl⟩
abbrev cc16_stg7_0 : Ref sig .tc := ⟨.vmem, 143, rfl⟩
abbrev cc16_stg8_0 : Ref sig .tc := ⟨.vmem, 144, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc1_sem0_0 : DmaSem sig := 10
abbrev cc1_sem0_1 : DmaSem sig := 11
abbrev cc1_sem1_0 : DmaSem sig := 12
abbrev cc1_sem2_0 : DmaSem sig := 13
abbrev cc1_sem3_0 : DmaSem sig := 14
abbrev cc1_sem4_0 : DmaSem sig := 15
abbrev cc1_sem5_0 : DmaSem sig := 16
abbrev cc1_sem5_1 : DmaSem sig := 17
abbrev cc1_sem6_0 : DmaSem sig := 18
abbrev cc1_sem7_0 : DmaSem sig := 19
abbrev cc2_sem0_0 : DmaSem sig := 20
abbrev cc2_sem0_1 : DmaSem sig := 21
abbrev cc2_sem1_0 : DmaSem sig := 22
abbrev cc2_sem2_0 : DmaSem sig := 23
abbrev cc2_sem3_0 : DmaSem sig := 24
abbrev cc2_sem3_1 : DmaSem sig := 25
abbrev cc2_sem4_0 : DmaSem sig := 26
abbrev cc2_sem5_0 : DmaSem sig := 27
abbrev cc3_sem0_0 : DmaSem sig := 28
abbrev cc3_sem0_1 : DmaSem sig := 29
abbrev cc3_sem1_0 : DmaSem sig := 30
abbrev cc3_sem2_0 : DmaSem sig := 31
abbrev cc3_sem3_0 : DmaSem sig := 32
abbrev cc3_sem3_1 : DmaSem sig := 33
abbrev cc4_sem0_0 : DmaSem sig := 34
abbrev cc4_sem0_1 : DmaSem sig := 35
abbrev cc4_sem1_0 : DmaSem sig := 36
abbrev cc4_sem1_1 : DmaSem sig := 37
abbrev cc4_sem2_0 : DmaSem sig := 38
abbrev cc4_sem3_0 : DmaSem sig := 39
abbrev cc4_sem4_0 : DmaSem sig := 40
abbrev cc4_sem4_1 : DmaSem sig := 41
abbrev cc4_sem5_0 : DmaSem sig := 42
abbrev cc4_sem6_0 : DmaSem sig := 43
abbrev cc5_sem0_0 : DmaSem sig := 44
abbrev cc5_sem0_1 : DmaSem sig := 45
abbrev cc5_sem1_0 : DmaSem sig := 46
abbrev cc5_sem2_0 : DmaSem sig := 47
abbrev cc5_sem3_0 : DmaSem sig := 48
abbrev cc5_sem4_0 : DmaSem sig := 49
abbrev cc5_sem5_0 : DmaSem sig := 50
abbrev cc5_sem5_1 : DmaSem sig := 51
abbrev cc5_sem6_0 : DmaSem sig := 52
abbrev cc5_sem7_0 : DmaSem sig := 53
abbrev cc6_sem0_0 : DmaSem sig := 54
abbrev cc6_sem0_1 : DmaSem sig := 55
abbrev cc6_sem1_0 : DmaSem sig := 56
abbrev cc6_sem2_0 : DmaSem sig := 57
abbrev cc6_sem3_0 : DmaSem sig := 58
abbrev cc6_sem3_1 : DmaSem sig := 59
abbrev cc6_sem4_0 : DmaSem sig := 60
abbrev cc6_sem5_0 : DmaSem sig := 61
abbrev cc7_sem0_0 : DmaSem sig := 62
abbrev cc7_sem0_1 : DmaSem sig := 63
abbrev cc7_sem1_0 : DmaSem sig := 64
abbrev cc7_sem2_0 : DmaSem sig := 65
abbrev cc7_sem3_0 : DmaSem sig := 66
abbrev cc7_sem3_1 : DmaSem sig := 67
abbrev cc8_sem0_0 : DmaSem sig := 68
abbrev cc8_sem0_1 : DmaSem sig := 69
abbrev cc8_sem1_0 : DmaSem sig := 70
abbrev cc8_sem1_1 : DmaSem sig := 71
abbrev cc8_sem2_0 : DmaSem sig := 72
abbrev cc8_sem3_0 : DmaSem sig := 73
abbrev cc8_sem4_0 : DmaSem sig := 74
abbrev cc8_sem4_1 : DmaSem sig := 75
abbrev cc8_sem5_0 : DmaSem sig := 76
abbrev cc8_sem6_0 : DmaSem sig := 77
abbrev cc9_sem0_0 : DmaSem sig := 78
abbrev cc9_sem0_1 : DmaSem sig := 79
abbrev cc9_sem1_0 : DmaSem sig := 80
abbrev cc9_sem2_0 : DmaSem sig := 81
abbrev cc9_sem3_0 : DmaSem sig := 82
abbrev cc9_sem4_0 : DmaSem sig := 83
abbrev cc9_sem5_0 : DmaSem sig := 84
abbrev cc9_sem5_1 : DmaSem sig := 85
abbrev cc9_sem6_0 : DmaSem sig := 86
abbrev cc9_sem7_0 : DmaSem sig := 87
abbrev cc10_sem0_0 : DmaSem sig := 88
abbrev cc10_sem0_1 : DmaSem sig := 89
abbrev cc10_sem1_0 : DmaSem sig := 90
abbrev cc10_sem2_0 : DmaSem sig := 91
abbrev cc10_sem3_0 : DmaSem sig := 92
abbrev cc10_sem3_1 : DmaSem sig := 93
abbrev cc10_sem4_0 : DmaSem sig := 94
abbrev cc10_sem5_0 : DmaSem sig := 95
abbrev cc11_sem0_0 : DmaSem sig := 96
abbrev cc11_sem0_1 : DmaSem sig := 97
abbrev cc11_sem1_0 : DmaSem sig := 98
abbrev cc11_sem2_0 : DmaSem sig := 99
abbrev cc11_sem3_0 : DmaSem sig := 100
abbrev cc11_sem3_1 : DmaSem sig := 101
abbrev cc12_sem0_0 : DmaSem sig := 102
abbrev cc12_sem0_1 : DmaSem sig := 103
abbrev cc12_sem1_0 : DmaSem sig := 104
abbrev cc12_sem1_1 : DmaSem sig := 105
abbrev cc12_sem2_0 : DmaSem sig := 106
abbrev cc12_sem3_0 : DmaSem sig := 107
abbrev cc12_sem4_0 : DmaSem sig := 108
abbrev cc12_sem4_1 : DmaSem sig := 109
abbrev cc12_sem5_0 : DmaSem sig := 110
abbrev cc12_sem6_0 : DmaSem sig := 111
abbrev cc13_sem0_0 : DmaSem sig := 112
abbrev cc13_sem0_1 : DmaSem sig := 113
abbrev cc13_sem1_0 : DmaSem sig := 114
abbrev cc13_sem2_0 : DmaSem sig := 115
abbrev cc13_sem3_0 : DmaSem sig := 116
abbrev cc13_sem4_0 : DmaSem sig := 117
abbrev cc13_sem5_0 : DmaSem sig := 118
abbrev cc13_sem5_1 : DmaSem sig := 119
abbrev cc13_sem6_0 : DmaSem sig := 120
abbrev cc13_sem7_0 : DmaSem sig := 121
abbrev cc14_sem0_0 : DmaSem sig := 122
abbrev cc14_sem0_1 : DmaSem sig := 123
abbrev cc14_sem1_0 : DmaSem sig := 124
abbrev cc14_sem2_0 : DmaSem sig := 125
abbrev cc14_sem3_0 : DmaSem sig := 126
abbrev cc14_sem3_1 : DmaSem sig := 127
abbrev cc14_sem4_0 : DmaSem sig := 128
abbrev cc14_sem5_0 : DmaSem sig := 129
abbrev cc15_sem0_0 : DmaSem sig := 130
abbrev cc15_sem0_1 : DmaSem sig := 131
abbrev cc15_sem1_0 : DmaSem sig := 132
abbrev cc15_sem2_0 : DmaSem sig := 133
abbrev cc15_sem3_0 : DmaSem sig := 134
abbrev cc15_sem3_1 : DmaSem sig := 135
abbrev cc16_sem0_0 : DmaSem sig := 136
abbrev cc16_sem1_0 : DmaSem sig := 137
abbrev cc16_sem2_0 : DmaSem sig := 138
abbrev cc16_sem3_0 : DmaSem sig := 139
abbrev cc16_sem4_0 : DmaSem sig := 140
abbrev cc16_sem5_0 : DmaSem sig := 141
abbrev cc16_sem6_0 : DmaSem sig := 142
abbrev cc16_sem7_0 : DmaSem sig := 143
abbrev cc16_sem8_0 : DmaSem sig := 144

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S5000x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S5000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S128x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S5000x128 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S1x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S5000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S5000x128 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S1x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S1x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S5000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![20], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S5000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 2 → Memref sig .tc .vmem S5000x128 .f32 := fun | 0 => Memref.whole cc4_stg1_0 | 1 => Memref.whole cc4_stg1_1 | ⟨_ + 2, h⟩ => absurd h (Nat.not_lt.2 (Nat.le_add_left _ _))
abbrev sem4_1 : Fin 2 → DmaSem sig := fun | 0 => cc4_sem1_0 | 1 => cc4_sem1_1 | ⟨_ + 2, h⟩ => absurd h (Nat.not_lt.2 (Nat.le_add_left _ _))
abbrev reads4_1 : Fin grid4.rank → Bool := ![true]

abbrev stage4_2 : Fin 1 → Memref sig .tc .vmem S128x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 1 → Memref sig .tc .vmem S1x128 .f32 := fun | 0 => Memref.whole cc4_stg3_0 | ⟨_ + 1, h⟩ => absurd h (Nat.not_lt.2 (Nat.le_add_left _ _))
abbrev sem4_3 : Fin 1 → DmaSem sig := fun | 0 => cc4_sem3_0 | ⟨_ + 1, h⟩ => absurd h (Nat.not_lt.2 (Nat.le_add_left _ _))
abbrev reads4_3 : Fin grid4.rank → Bool := ![false]

abbrev stage4_4 : Fin 2 → Memref sig .tc .vmem S5000x128 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 1 → Memref sig .tc .vmem S1x128 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev grid5 : Pipeline.Grid := ⟨1, ![20], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_5 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_6 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_7 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage5_0 : Fin 2 → Memref sig .tc .vmem S5000x128 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S1x128 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 1 → Memref sig .tc .vmem S1x128 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 1 → Memref sig .tc .vmem S128x128 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 1 → Memref sig .tc .vmem S1x128 .f32 := fun | 0 => Memref.whole cc5_stg4_0 | ⟨_ + 1, h⟩ => absurd h (Nat.not_lt.2 (Nat.le_add_left _ _))
abbrev sem5_4 : Fin 1 → DmaSem sig := fun | 0 => cc5_sem4_0 | ⟨_ + 1, h⟩ => absurd h (Nat.not_lt.2 (Nat.le_add_left _ _))
abbrev reads5_4 : Fin grid5.rank → Bool := ![false]

abbrev stage5_5 : Fin 2 → Memref sig .tc .vmem S5000x128 .f32 := fun | 0 => Memref.whole cc5_stg5_0 | 1 => Memref.whole cc5_stg5_1 | ⟨_ + 2, h⟩ => absurd h (Nat.not_lt.2 (Nat.le_add_left _ _))
abbrev sem5_5 : Fin 2 → DmaSem sig := fun | 0 => cc5_sem5_0 | 1 => cc5_sem5_1 | ⟨_ + 2, h⟩ => absurd h (Nat.not_lt.2 (Nat.le_add_left _ _))
abbrev reads5_5 : Fin grid5.rank → Bool := ![true]

abbrev stage5_6 : Fin 1 → Memref sig .tc .vmem S1x128 .f32 := fun | 0 => Memref.whole cc5_stg6_0 | ⟨_ + 1, h⟩ => absurd h (Nat.not_lt.2 (Nat.le_add_left _ _))
abbrev sem5_6 : Fin 1 → DmaSem sig := fun | 0 => cc5_sem6_0 | ⟨_ + 1, h⟩ => absurd h (Nat.not_lt.2 (Nat.le_add_left _ _))
abbrev reads5_6 : Fin grid5.rank → Bool := ![false]

abbrev stage5_7 : Fin 1 → Memref sig .tc .vmem S1x128 .f32 := fun | 0 => Memref.whole cc5_stg7_0 | ⟨_ + 1, h⟩ => absurd h (Nat.not_lt.2 (Nat.le_add_left _ _))
abbrev sem5_7 : Fin 1 → DmaSem sig := fun | 0 => cc5_sem7_0 | ⟨_ + 1, h⟩ => absurd h (Nat.not_lt.2 (Nat.le_add_left _ _))
abbrev reads5_7 : Fin grid5.rank → Bool := ![false]

abbrev grid6 : Pipeline.Grid := ⟨1, ![20], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S5000x128 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 1 → Memref sig .tc .vmem S1x128 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S1x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 2 → Memref sig .tc .vmem S5000x128 .f32 := fun | 0 => Memref.whole cc6_stg3_0 | 1 => Memref.whole cc6_stg3_1 | ⟨_ + 2, h⟩ => absurd h (Nat.not_lt.2 (Nat.le_add_left _ _))
abbrev sem6_3 : Fin 2 → DmaSem sig := fun | 0 => cc6_sem3_0 | 1 => cc6_sem3_1 | ⟨_ + 2, h⟩ => absurd h (Nat.not_lt.2 (Nat.le_add_left _ _))
abbrev reads6_3 : Fin grid6.rank → Bool := ![true]

abbrev stage6_4 : Fin 1 → Memref sig .tc .vmem S1x128 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x128 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev grid7 : Pipeline.Grid := ⟨1, ![20], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S5000x128 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S5000x128 .f32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev grid8 : Pipeline.Grid := ⟨1, ![20], ![false]⟩

def cc8_transform_0 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_1 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_2 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_3 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_4 (i : grid8.Coords) : Fin 2 → Nat :=
  let arg0 : BitVec 32 := BitVec.ofNat 32 (i 0).val
  let c0_i32 : BitVec 32 := 0#32
  let c0_i32_0 : BitVec 32 := 0#32
  ![arg0.toNat, c0_i32.toNat]

def cc8_transform_5 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc8_transform_6 (i : grid8.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage8_0 : Fin 2 → Memref sig .tc .vmem S5000x128 .f32 := fun | 0 => Memref.whole cc8_stg0_0 | 1 => Memref.whole cc8_stg0_1 | ⟨_ + 2, h⟩ => absurd h (Nat.not_lt.2 (Nat.le_add_left _ _))
abbrev sem8_0 : Fin 2 → DmaSem sig := fun | 0 => cc8_sem0_0 | 1 => cc8_sem0_1 | ⟨_ + 2, h⟩ => absurd h (Nat.not_lt.2 (Nat.le_add_left _ _))
abbrev reads8_0 : Fin grid8.rank → Bool := ![true]

abbrev stage8_1 : Fin 2 → Memref sig .tc .vmem S5000x128 .f32 := fun | 0 => Memref.whole cc8_stg1_0 | 1 => Memref.whole cc8_stg1_1 | ⟨_ + 2, h⟩ => absurd h (Nat.not_lt.2 (Nat.le_add_left _ _))
abbrev sem8_1 : Fin 2 → DmaSem sig := fun | 0 => cc8_sem1_0 | 1 => cc8_sem1_1 | ⟨_ + 2, h⟩ => absurd h (Nat.not_lt.2 (Nat.le_add_left _ _))
abbrev reads8_1 : Fin grid8.rank → Bool := ![true]

abbrev stage8_2 : Fin 1 → Memref sig .tc .vmem S128x128 .f32 := fun | 0 => Memref.whole cc8_stg2_0 | ⟨_ + 1, h⟩ => absurd h (Nat.not_lt.2 (Nat.le_add_left _ _))
abbrev sem8_2 : Fin 1 → DmaSem sig := fun | 0 => cc8_sem2_0 | ⟨_ + 1, h⟩ => absurd h (Nat.not_lt.2 (Nat.le_add_left _ _))
abbrev reads8_2 : Fin grid8.rank → Bool := ![false]

abbrev stage8_3 : Fin 1 → Memref sig .tc .vmem S1x128 .f32 := fun | 0 => Memref.whole cc8_stg3_0 | ⟨_ + 1, h⟩ => absurd h (Nat.not_lt.2 (Nat.le_add_left _ _))
abbrev sem8_3 : Fin 1 → DmaSem sig := fun | 0 => cc8_sem3_0 | ⟨_ + 1, h⟩ => absurd h (Nat.not_lt.2 (Nat.le_add_left _ _))
abbrev reads8_3 : Fin grid8.rank → Bool := ![false]

abbrev stage8_4 : Fin 2 → Memref sig .tc .vmem S5000x128 .f32 := fun | 0 => Memref.whole cc8_stg4_0 | 1 => Memref.whole cc8_stg4_1 | ⟨_ + 2, h⟩ => absurd h (Nat.not_lt.2 (Nat.le_add_left _ _))
abbrev sem8_4 : Fin 2 → DmaSem sig := fun | 0 => cc8_sem4_0 | 1 => cc8_sem4_1 | ⟨_ + 2, h⟩ => absurd h (Nat.not_lt.2 (Nat.le_add_left _ _))
abbrev reads8_4 : Fin grid8.rank → Bool := ![true]

abbrev stage8_5 : Fin 1 → Memref sig .tc .vmem S1x128 .f32 := fun | 0 => Memref.whole cc8_stg5_0 | ⟨_ + 1, h⟩ => absurd h (Nat.not_lt.2 (Nat.le_add_left _ _))
abbrev sem8_5 : Fin 1 → DmaSem sig := fun | 0 => cc8_sem5_0 | ⟨_ + 1, h⟩ => absurd h (Nat.not_lt.2 (Nat.le_add_left _ _))
abbrev reads8_5 : Fin grid8.rank → Bool := ![false]

abbrev stage8_6 : Fin 1 → Memref sig .tc .vmem S1x128 .f32 := fun | 0 => Memref.whole cc8_stg6_0 | ⟨_ + 1, h⟩ => absurd h (Nat.not_lt.2 (Nat.le_add_left _ _))
abbrev sem8_6 : Fin 1 → DmaSem sig := fun | 0 => cc8_sem6_0 | ⟨_ + 1, h⟩ => absurd h (Nat.not_lt.2 (Nat.le_add_left _ _))
abbrev reads8_6 : Fin grid8.rank → Bool := ![false]

abbrev grid9 : Pipeline.Grid := ⟨1, ![20], ![false]⟩

def cc9_transform_0 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_1 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_2 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_3 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_4 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_5 (i : grid9.Coords) : Fin 2 → Nat :=
  let arg0 : BitVec 32 := BitVec.ofNat 32 (i 0).val
  let c0_i32 : BitVec 32 := 0#32
  let c0_i32_0 : BitVec 32 := 0#32
  ![arg0.toNat, c0_i32.toNat]

def cc9_transform_6 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc9_transform_7 (i : grid9.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage9_0 : Fin 2 → Memref sig .tc .vmem S5000x128 .f32 := fun | 0 => Memref.whole cc9_stg0_0 | 1 => Memref.whole cc9_stg0_1 | ⟨_ + 2, h⟩ => absurd h (Nat.not_lt.2 (Nat.le_add_left _ _))
abbrev sem9_0 : Fin 2 → DmaSem sig := fun | 0 => cc9_sem0_0 | 1 => cc9_sem0_1 | ⟨_ + 2, h⟩ => absurd h (Nat.not_lt.2 (Nat.le_add_left _ _))
abbrev reads9_0 : Fin grid9.rank → Bool := ![true]

abbrev stage9_1 : Fin 1 → Memref sig .tc .vmem S1x128 .f32 := fun | 0 => Memref.whole cc9_stg1_0 | ⟨_ + 1, h⟩ => absurd h (Nat.not_lt.2 (Nat.le_add_left _ _))
abbrev sem9_1 : Fin 1 → DmaSem sig := fun | 0 => cc9_sem1_0 | ⟨_ + 1, h⟩ => absurd h (Nat.not_lt.2 (Nat.le_add_left _ _))
abbrev reads9_1 : Fin grid9.rank → Bool := ![false]

abbrev stage9_2 : Fin 1 → Memref sig .tc .vmem S1x128 .f32 := fun | 0 => Memref.whole cc9_stg2_0 | ⟨_ + 1, h⟩ => absurd h (Nat.not_lt.2 (Nat.le_add_left _ _))
abbrev sem9_2 : Fin 1 → DmaSem sig := fun | 0 => cc9_sem2_0 | ⟨_ + 1, h⟩ => absurd h (Nat.not_lt.2 (Nat.le_add_left _ _))
abbrev reads9_2 : Fin grid9.rank → Bool := ![false]

abbrev stage9_3 : Fin 1 → Memref sig .tc .vmem S128x128 .f32 := fun | 0 => Memref.whole cc9_stg3_0 | ⟨_ + 1, h⟩ => absurd h (Nat.not_lt.2 (Nat.le_add_left _ _))
abbrev sem9_3 : Fin 1 → DmaSem sig := fun | 0 => cc9_sem3_0 | ⟨_ + 1, h⟩ => absurd h (Nat.not_lt.2 (Nat.le_add_left _ _))
abbrev reads9_3 : Fin grid9.rank → Bool := ![false]

abbrev stage9_4 : Fin 1 → Memref sig .tc .vmem S1x128 .f32 := fun | 0 => Memref.whole cc9_stg4_0 | ⟨_ + 1, h⟩ => absurd h (Nat.not_lt.2 (Nat.le_add_left _ _))
abbrev sem9_4 : Fin 1 → DmaSem sig := fun | 0 => cc9_sem4_0 | ⟨_ + 1, h⟩ => absurd h (Nat.not_lt.2 (Nat.le_add_left _ _))
abbrev reads9_4 : Fin grid9.rank → Bool := ![false]

abbrev stage9_5 : Fin 2 → Memref sig .tc .vmem S5000x128 .f32 := fun | 0 => Memref.whole cc9_stg5_0 | 1 => Memref.whole cc9_stg5_1 | ⟨_ + 2, h⟩ => absurd h (Nat.not_lt.2 (Nat.le_add_left _ _))
abbrev sem9_5 : Fin 2 → DmaSem sig := fun | 0 => cc9_sem5_0 | 1 => cc9_sem5_1 | ⟨_ + 2, h⟩ => absurd h (Nat.not_lt.2 (Nat.le_add_left _ _))
abbrev reads9_5 : Fin grid9.rank → Bool := ![true]

abbrev stage9_6 : Fin 1 → Memref sig .tc .vmem S1x128 .f32 := fun | 0 => Memref.whole cc9_stg6_0 | ⟨_ + 1, h⟩ => absurd h (Nat.not_lt.2 (Nat.le_add_left _ _))
abbrev sem9_6 : Fin 1 → DmaSem sig := fun | 0 => cc9_sem6_0 | ⟨_ + 1, h⟩ => absurd h (Nat.not_lt.2 (Nat.le_add_left _ _))
abbrev reads9_6 : Fin grid9.rank → Bool := ![false]

abbrev stage9_7 : Fin 1 → Memref sig .tc .vmem S1x128 .f32 := fun | 0 => Memref.whole cc9_stg7_0 | ⟨_ + 1, h⟩ => absurd h (Nat.not_lt.2 (Nat.le_add_left _ _))
abbrev sem9_7 : Fin 1 → DmaSem sig := fun | 0 => cc9_sem7_0 | ⟨_ + 1, h⟩ => absurd h (Nat.not_lt.2 (Nat.le_add_left _ _))
abbrev reads9_7 : Fin grid9.rank → Bool := ![false]

abbrev grid10 : Pipeline.Grid := ⟨1, ![20], ![false]⟩

def cc10_transform_0 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_1 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_2 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_3 (i : grid10.Coords) : Fin 2 → Nat :=
  let arg0 : BitVec 32 := BitVec.ofNat 32 (i 0).val
  let c0_i32 : BitVec 32 := 0#32
  let c0_i32_0 : BitVec 32 := 0#32
  ![arg0.toNat, c0_i32.toNat]

def cc10_transform_4 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc10_transform_5 (i : grid10.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage10_0 : Fin 2 → Memref sig .tc .vmem S5000x128 .f32 := fun | 0 => Memref.whole cc10_stg0_0 | 1 => Memref.whole cc10_stg0_1 | ⟨_ + 2, h⟩ => absurd h (Nat.not_lt.2 (Nat.le_add_left _ _))
abbrev sem10_0 : Fin 2 → DmaSem sig := fun | 0 => cc10_sem0_0 | 1 => cc10_sem0_1 | ⟨_ + 2, h⟩ => absurd h (Nat.not_lt.2 (Nat.le_add_left _ _))
abbrev reads10_0 : Fin grid10.rank → Bool := ![true]

abbrev stage10_1 : Fin 1 → Memref sig .tc .vmem S1x128 .f32 := fun | 0 => Memref.whole cc10_stg1_0 | ⟨_ + 1, h⟩ => absurd h (Nat.not_lt.2 (Nat.le_add_left _ _))
abbrev sem10_1 : Fin 1 → DmaSem sig := fun | 0 => cc10_sem1_0 | ⟨_ + 1, h⟩ => absurd h (Nat.not_lt.2 (Nat.le_add_left _ _))
abbrev reads10_1 : Fin grid10.rank → Bool := ![false]

abbrev stage10_2 : Fin 1 → Memref sig .tc .vmem S1x128 .f32 := fun | 0 => Memref.whole cc10_stg2_0 | ⟨_ + 1, h⟩ => absurd h (Nat.not_lt.2 (Nat.le_add_left _ _))
abbrev sem10_2 : Fin 1 → DmaSem sig := fun | 0 => cc10_sem2_0 | ⟨_ + 1, h⟩ => absurd h (Nat.not_lt.2 (Nat.le_add_left _ _))
abbrev reads10_2 : Fin grid10.rank → Bool := ![false]

abbrev stage10_3 : Fin 2 → Memref sig .tc .vmem S5000x128 .f32 := fun | 0 => Memref.whole cc10_stg3_0 | 1 => Memref.whole cc10_stg3_1 | ⟨_ + 2, h⟩ => absurd h (Nat.not_lt.2 (Nat.le_add_left _ _))
abbrev sem10_3 : Fin 2 → DmaSem sig := fun | 0 => cc10_sem3_0 | 1 => cc10_sem3_1 | ⟨_ + 2, h⟩ => absurd h (Nat.not_lt.2 (Nat.le_add_left _ _))
abbrev reads10_3 : Fin grid10.rank → Bool := ![true]

abbrev stage10_4 : Fin 1 → Memref sig .tc .vmem S1x128 .f32 := fun | 0 => Memref.whole cc10_stg4_0 | ⟨_ + 1, h⟩ => absurd h (Nat.not_lt.2 (Nat.le_add_left _ _))
abbrev sem10_4 : Fin 1 → DmaSem sig := fun | 0 => cc10_sem4_0 | ⟨_ + 1, h⟩ => absurd h (Nat.not_lt.2 (Nat.le_add_left _ _))
abbrev reads10_4 : Fin grid10.rank → Bool := ![false]

abbrev stage10_5 : Fin 1 → Memref sig .tc .vmem S1x128 .f32 := fun | 0 => Memref.whole cc10_stg5_0 | ⟨_ + 1, h⟩ => absurd h (Nat.not_lt.2 (Nat.le_add_left _ _))
abbrev sem10_5 : Fin 1 → DmaSem sig := fun | 0 => cc10_sem5_0 | ⟨_ + 1, h⟩ => absurd h (Nat.not_lt.2 (Nat.le_add_left _ _))
abbrev reads10_5 : Fin grid10.rank → Bool := ![false]

abbrev grid11 : Pipeline.Grid := ⟨1, ![20], ![false]⟩

def cc11_transform_0 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

def cc11_transform_1 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_2 (i : grid11.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc11_transform_3 (i : grid11.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage11_0 : Fin 2 → Memref sig .tc .vmem S5000x128 .f32 := fun | 0 => Memref.whole cc11_stg0_0 | 1 => Memref.whole cc11_stg0_1 | ⟨_ + 2, h⟩ => absurd h (Nat.not_lt.2 (Nat.le_add_left _ _))
abbrev sem11_0 : Fin 2 → DmaSem sig := fun | 0 => cc11_sem0_0 | 1 => cc11_sem0_1 | ⟨_ + 2, h⟩ => absurd h (Nat.not_lt.2 (Nat.le_add_left _ _))
abbrev reads11_0 : Fin grid11.rank → Bool := ![true]

abbrev stage11_1 : Fin 1 → Memref sig .tc .vmem S1x128 .f32 := fun | 0 => Memref.whole cc11_stg1_0 | ⟨_ + 1, h⟩ => absurd h (Nat.not_lt.2 (Nat.le_add_left _ _))
abbrev sem11_1 : Fin 1 → DmaSem sig := fun | 0 => cc11_sem1_0 | ⟨_ + 1, h⟩ => absurd h (Nat.not_lt.2 (Nat.le_add_left _ _))
abbrev reads11_1 : Fin grid11.rank → Bool := ![false]

abbrev stage11_2 : Fin 1 → Memref sig .tc .vmem S1x128 .f32 := fun | 0 => Memref.whole cc11_stg2_0 | ⟨_ + 1, h⟩ => absurd h (Nat.not_lt.2 (Nat.le_add_left _ _))
abbrev sem11_2 : Fin 1 → DmaSem sig := fun | 0 => cc11_sem2_0 | ⟨_ + 1, h⟩ => absurd h (Nat.not_lt.2 (Nat.le_add_left _ _))
abbrev reads11_2 : Fin grid11.rank → Bool := ![false]

abbrev stage11_3 : Fin 2 → Memref sig .tc .vmem S5000x128 .f32 := fun | 0 => Memref.whole cc11_stg3_0 | 1 => Memref.whole cc11_stg3_1 | ⟨_ + 2, h⟩ => absurd h (Nat.not_lt.2 (Nat.le_add_left _ _))
abbrev sem11_3 : Fin 2 → DmaSem sig := fun | 0 => cc11_sem3_0 | 1 => cc11_sem3_1 | ⟨_ + 2, h⟩ => absurd h (Nat.not_lt.2 (Nat.le_add_left _ _))
abbrev reads11_3 : Fin grid11.rank → Bool := ![true]

abbrev grid12 : Pipeline.Grid := ⟨1, ![20], ![false]⟩

def cc12_transform_0 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_1 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_2 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_3 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_4 (i : grid12.Coords) : Fin 2 → Nat :=
  let arg0 : BitVec 32 := BitVec.ofNat 32 (i 0).val
  let c0_i32 : BitVec 32 := 0#32
  let c0_i32_0 : BitVec 32 := 0#32
  ![arg0.toNat, c0_i32.toNat]

def cc12_transform_5 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc12_transform_6 (i : grid12.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage12_0 : Fin 2 → Memref sig .tc .vmem S5000x128 .f32 := fun | 0 => Memref.whole cc12_stg0_0 | 1 => Memref.whole cc12_stg0_1 | ⟨_ + 2, h⟩ => absurd h (Nat.not_lt.2 (Nat.le_add_left _ _))
abbrev sem12_0 : Fin 2 → DmaSem sig := fun | 0 => cc12_sem0_0 | 1 => cc12_sem0_1 | ⟨_ + 2, h⟩ => absurd h (Nat.not_lt.2 (Nat.le_add_left _ _))
abbrev reads12_0 : Fin grid12.rank → Bool := ![true]

abbrev stage12_1 : Fin 2 → Memref sig .tc .vmem S5000x128 .f32 := fun | 0 => Memref.whole cc12_stg1_0 | 1 => Memref.whole cc12_stg1_1 | ⟨_ + 2, h⟩ => absurd h (Nat.not_lt.2 (Nat.le_add_left _ _))
abbrev sem12_1 : Fin 2 → DmaSem sig := fun | 0 => cc12_sem1_0 | 1 => cc12_sem1_1 | ⟨_ + 2, h⟩ => absurd h (Nat.not_lt.2 (Nat.le_add_left _ _))
abbrev reads12_1 : Fin grid12.rank → Bool := ![true]

abbrev stage12_2 : Fin 1 → Memref sig .tc .vmem S128x128 .f32 := fun | 0 => Memref.whole cc12_stg2_0 | ⟨_ + 1, h⟩ => absurd h (Nat.not_lt.2 (Nat.le_add_left _ _))
abbrev sem12_2 : Fin 1 → DmaSem sig := fun | 0 => cc12_sem2_0 | ⟨_ + 1, h⟩ => absurd h (Nat.not_lt.2 (Nat.le_add_left _ _))
abbrev reads12_2 : Fin grid12.rank → Bool := ![false]

abbrev stage12_3 : Fin 1 → Memref sig .tc .vmem S1x128 .f32 := fun | 0 => Memref.whole cc12_stg3_0 | ⟨_ + 1, h⟩ => absurd h (Nat.not_lt.2 (Nat.le_add_left _ _))
abbrev sem12_3 : Fin 1 → DmaSem sig := fun | 0 => cc12_sem3_0 | ⟨_ + 1, h⟩ => absurd h (Nat.not_lt.2 (Nat.le_add_left _ _))
abbrev reads12_3 : Fin grid12.rank → Bool := ![false]

abbrev stage12_4 : Fin 2 → Memref sig .tc .vmem S5000x128 .f32 := fun | 0 => Memref.whole cc12_stg4_0 | 1 => Memref.whole cc12_stg4_1 | ⟨_ + 2, h⟩ => absurd h (Nat.not_lt.2 (Nat.le_add_left _ _))
abbrev sem12_4 : Fin 2 → DmaSem sig := fun | 0 => cc12_sem4_0 | 1 => cc12_sem4_1 | ⟨_ + 2, h⟩ => absurd h (Nat.not_lt.2 (Nat.le_add_left _ _))
abbrev reads12_4 : Fin grid12.rank → Bool := ![true]

abbrev stage12_5 : Fin 1 → Memref sig .tc .vmem S1x128 .f32 := fun | 0 => Memref.whole cc12_stg5_0 | ⟨_ + 1, h⟩ => absurd h (Nat.not_lt.2 (Nat.le_add_left _ _))
abbrev sem12_5 : Fin 1 → DmaSem sig := fun | 0 => cc12_sem5_0 | ⟨_ + 1, h⟩ => absurd h (Nat.not_lt.2 (Nat.le_add_left _ _))
abbrev reads12_5 : Fin grid12.rank → Bool := ![false]

abbrev stage12_6 : Fin 1 → Memref sig .tc .vmem S1x128 .f32 := fun | 0 => Memref.whole cc12_stg6_0 | ⟨_ + 1, h⟩ => absurd h (Nat.not_lt.2 (Nat.le_add_left _ _))
abbrev sem12_6 : Fin 1 → DmaSem sig := fun | 0 => cc12_sem6_0 | ⟨_ + 1, h⟩ => absurd h (Nat.not_lt.2 (Nat.le_add_left _ _))
abbrev reads12_6 : Fin grid12.rank → Bool := ![false]

abbrev grid13 : Pipeline.Grid := ⟨1, ![20], ![false]⟩

def cc13_transform_0 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_1 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_2 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_3 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_4 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_5 (i : grid13.Coords) : Fin 2 → Nat :=
  let arg0 : BitVec 32 := BitVec.ofNat 32 (i 0).val
  let c0_i32 : BitVec 32 := 0#32
  let c0_i32_0 : BitVec 32 := 0#32
  ![arg0.toNat, c0_i32.toNat]

def cc13_transform_6 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc13_transform_7 (i : grid13.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage13_0 : Fin 2 → Memref sig .tc .vmem S5000x128 .f32 := fun | 0 => Memref.whole cc13_stg0_0 | 1 => Memref.whole cc13_stg0_1 | ⟨_ + 2, h⟩ => absurd h (Nat.not_lt.2 (Nat.le_add_left _ _))
abbrev sem13_0 : Fin 2 → DmaSem sig := fun | 0 => cc13_sem0_0 | 1 => cc13_sem0_1 | ⟨_ + 2, h⟩ => absurd h (Nat.not_lt.2 (Nat.le_add_left _ _))
abbrev reads13_0 : Fin grid13.rank → Bool := ![true]

abbrev stage13_1 : Fin 1 → Memref sig .tc .vmem S1x128 .f32 := fun | 0 => Memref.whole cc13_stg1_0 | ⟨_ + 1, h⟩ => absurd h (Nat.not_lt.2 (Nat.le_add_left _ _))
abbrev sem13_1 : Fin 1 → DmaSem sig := fun | 0 => cc13_sem1_0 | ⟨_ + 1, h⟩ => absurd h (Nat.not_lt.2 (Nat.le_add_left _ _))
abbrev reads13_1 : Fin grid13.rank → Bool := ![false]

abbrev stage13_2 : Fin 1 → Memref sig .tc .vmem S1x128 .f32 := fun | 0 => Memref.whole cc13_stg2_0 | ⟨_ + 1, h⟩ => absurd h (Nat.not_lt.2 (Nat.le_add_left _ _))
abbrev sem13_2 : Fin 1 → DmaSem sig := fun | 0 => cc13_sem2_0 | ⟨_ + 1, h⟩ => absurd h (Nat.not_lt.2 (Nat.le_add_left _ _))
abbrev reads13_2 : Fin grid13.rank → Bool := ![false]

abbrev stage13_3 : Fin 1 → Memref sig .tc .vmem S128x128 .f32 := fun | 0 => Memref.whole cc13_stg3_0 | ⟨_ + 1, h⟩ => absurd h (Nat.not_lt.2 (Nat.le_add_left _ _))
abbrev sem13_3 : Fin 1 → DmaSem sig := fun | 0 => cc13_sem3_0 | ⟨_ + 1, h⟩ => absurd h (Nat.not_lt.2 (Nat.le_add_left _ _))
abbrev reads13_3 : Fin grid13.rank → Bool := ![false]

abbrev stage13_4 : Fin 1 → Memref sig .tc .vmem S1x128 .f32 := fun | 0 => Memref.whole cc13_stg4_0 | ⟨_ + 1, h⟩ => absurd h (Nat.not_lt.2 (Nat.le_add_left _ _))
abbrev sem13_4 : Fin 1 → DmaSem sig := fun | 0 => cc13_sem4_0 | ⟨_ + 1, h⟩ => absurd h (Nat.not_lt.2 (Nat.le_add_left _ _))
abbrev reads13_4 : Fin grid13.rank → Bool := ![false]

abbrev stage13_5 : Fin 2 → Memref sig .tc .vmem S5000x128 .f32 := fun | 0 => Memref.whole cc13_stg5_0 | 1 => Memref.whole cc13_stg5_1 | ⟨_ + 2, h⟩ => absurd h (Nat.not_lt.2 (Nat.le_add_left _ _))
abbrev sem13_5 : Fin 2 → DmaSem sig := fun | 0 => cc13_sem5_0 | 1 => cc13_sem5_1 | ⟨_ + 2, h⟩ => absurd h (Nat.not_lt.2 (Nat.le_add_left _ _))
abbrev reads13_5 : Fin grid13.rank → Bool := ![true]

abbrev stage13_6 : Fin 1 → Memref sig .tc .vmem S1x128 .f32 := fun | 0 => Memref.whole cc13_stg6_0 | ⟨_ + 1, h⟩ => absurd h (Nat.not_lt.2 (Nat.le_add_left _ _))
abbrev sem13_6 : Fin 1 → DmaSem sig := fun | 0 => cc13_sem6_0 | ⟨_ + 1, h⟩ => absurd h (Nat.not_lt.2 (Nat.le_add_left _ _))
abbrev reads13_6 : Fin grid13.rank → Bool := ![false]

abbrev stage13_7 : Fin 1 → Memref sig .tc .vmem S1x128 .f32 := fun | 0 => Memref.whole cc13_stg7_0 | ⟨_ + 1, h⟩ => absurd h (Nat.not_lt.2 (Nat.le_add_left _ _))
abbrev sem13_7 : Fin 1 → DmaSem sig := fun | 0 => cc13_sem7_0 | ⟨_ + 1, h⟩ => absurd h (Nat.not_lt.2 (Nat.le_add_left _ _))
abbrev reads13_7 : Fin grid13.rank → Bool := ![false]

abbrev grid14 : Pipeline.Grid := ⟨1, ![20], ![false]⟩

def cc14_transform_0 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_1 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_2 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_3 (i : grid14.Coords) : Fin 2 → Nat :=
  let arg0 : BitVec 32 := BitVec.ofNat 32 (i 0).val
  let c0_i32 : BitVec 32 := 0#32
  let c0_i32_0 : BitVec 32 := 0#32
  ![arg0.toNat, c0_i32.toNat]

def cc14_transform_4 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc14_transform_5 (i : grid14.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage14_0 : Fin 2 → Memref sig .tc .vmem S5000x128 .f32 := fun | 0 => Memref.whole cc14_stg0_0 | 1 => Memref.whole cc14_stg0_1 | ⟨_ + 2, h⟩ => absurd h (Nat.not_lt.2 (Nat.le_add_left _ _))
abbrev sem14_0 : Fin 2 → DmaSem sig := fun | 0 => cc14_sem0_0 | 1 => cc14_sem0_1 | ⟨_ + 2, h⟩ => absurd h (Nat.not_lt.2 (Nat.le_add_left _ _))
abbrev reads14_0 : Fin grid14.rank → Bool := ![true]

abbrev stage14_1 : Fin 1 → Memref sig .tc .vmem S1x128 .f32 := fun | 0 => Memref.whole cc14_stg1_0 | ⟨_ + 1, h⟩ => absurd h (Nat.not_lt.2 (Nat.le_add_left _ _))
abbrev sem14_1 : Fin 1 → DmaSem sig := fun | 0 => cc14_sem1_0 | ⟨_ + 1, h⟩ => absurd h (Nat.not_lt.2 (Nat.le_add_left _ _))
abbrev reads14_1 : Fin grid14.rank → Bool := ![false]

abbrev stage14_2 : Fin 1 → Memref sig .tc .vmem S1x128 .f32 := fun | 0 => Memref.whole cc14_stg2_0 | ⟨_ + 1, h⟩ => absurd h (Nat.not_lt.2 (Nat.le_add_left _ _))
abbrev sem14_2 : Fin 1 → DmaSem sig := fun | 0 => cc14_sem2_0 | ⟨_ + 1, h⟩ => absurd h (Nat.not_lt.2 (Nat.le_add_left _ _))
abbrev reads14_2 : Fin grid14.rank → Bool := ![false]

abbrev stage14_3 : Fin 2 → Memref sig .tc .vmem S5000x128 .f32 := fun | 0 => Memref.whole cc14_stg3_0 | 1 => Memref.whole cc14_stg3_1 | ⟨_ + 2, h⟩ => absurd h (Nat.not_lt.2 (Nat.le_add_left _ _))
abbrev sem14_3 : Fin 2 → DmaSem sig := fun | 0 => cc14_sem3_0 | 1 => cc14_sem3_1 | ⟨_ + 2, h⟩ => absurd h (Nat.not_lt.2 (Nat.le_add_left _ _))
abbrev reads14_3 : Fin grid14.rank → Bool := ![true]

abbrev stage14_4 : Fin 1 → Memref sig .tc .vmem S1x128 .f32 := fun | 0 => Memref.whole cc14_stg4_0 | ⟨_ + 1, h⟩ => absurd h (Nat.not_lt.2 (Nat.le_add_left _ _))
abbrev sem14_4 : Fin 1 → DmaSem sig := fun | 0 => cc14_sem4_0 | ⟨_ + 1, h⟩ => absurd h (Nat.not_lt.2 (Nat.le_add_left _ _))
abbrev reads14_4 : Fin grid14.rank → Bool := ![false]

abbrev stage14_5 : Fin 1 → Memref sig .tc .vmem S1x128 .f32 := fun | 0 => Memref.whole cc14_stg5_0 | ⟨_ + 1, h⟩ => absurd h (Nat.not_lt.2 (Nat.le_add_left _ _))
abbrev sem14_5 : Fin 1 → DmaSem sig := fun | 0 => cc14_sem5_0 | ⟨_ + 1, h⟩ => absurd h (Nat.not_lt.2 (Nat.le_add_left _ _))
abbrev reads14_5 : Fin grid14.rank → Bool := ![false]

abbrev grid15 : Pipeline.Grid := ⟨1, ![20], ![false]⟩

def cc15_transform_0 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

def cc15_transform_1 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_2 (i : grid15.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc15_transform_3 (i : grid15.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage15_0 : Fin 2 → Memref sig .tc .vmem S5000x128 .f32 := fun | 0 => Memref.whole cc15_stg0_0 | 1 => Memref.whole cc15_stg0_1 | ⟨_ + 2, h⟩ => absurd h (Nat.not_lt.2 (Nat.le_add_left _ _))
abbrev sem15_0 : Fin 2 → DmaSem sig := fun | 0 => cc15_sem0_0 | 1 => cc15_sem0_1 | ⟨_ + 2, h⟩ => absurd h (Nat.not_lt.2 (Nat.le_add_left _ _))
abbrev reads15_0 : Fin grid15.rank → Bool := ![true]

abbrev stage15_1 : Fin 1 → Memref sig .tc .vmem S1x128 .f32 := fun | 0 => Memref.whole cc15_stg1_0 | ⟨_ + 1, h⟩ => absurd h (Nat.not_lt.2 (Nat.le_add_left _ _))
abbrev sem15_1 : Fin 1 → DmaSem sig := fun | 0 => cc15_sem1_0 | ⟨_ + 1, h⟩ => absurd h (Nat.not_lt.2 (Nat.le_add_left _ _))
abbrev reads15_1 : Fin grid15.rank → Bool := ![false]

abbrev stage15_2 : Fin 1 → Memref sig .tc .vmem S1x128 .f32 := fun | 0 => Memref.whole cc15_stg2_0 | ⟨_ + 1, h⟩ => absurd h (Nat.not_lt.2 (Nat.le_add_left _ _))
abbrev sem15_2 : Fin 1 → DmaSem sig := fun | 0 => cc15_sem2_0 | ⟨_ + 1, h⟩ => absurd h (Nat.not_lt.2 (Nat.le_add_left _ _))
abbrev reads15_2 : Fin grid15.rank → Bool := ![false]

abbrev stage15_3 : Fin 2 → Memref sig .tc .vmem S5000x128 .f32 := fun | 0 => Memref.whole cc15_stg3_0 | 1 => Memref.whole cc15_stg3_1 | ⟨_ + 2, h⟩ => absurd h (Nat.not_lt.2 (Nat.le_add_left _ _))
abbrev sem15_3 : Fin 2 → DmaSem sig := fun | 0 => cc15_sem3_0 | 1 => cc15_sem3_1 | ⟨_ + 2, h⟩ => absurd h (Nat.not_lt.2 (Nat.le_add_left _ _))
abbrev reads15_3 : Fin grid15.rank → Bool := ![true]

abbrev grid16 : Pipeline.Grid := ⟨1, ![1], ![false]⟩

def cc16_transform_0 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_1 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_2 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_3 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_4 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_5 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_6 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_7 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc16_transform_8 (i : grid16.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage16_0 : Fin 1 → Memref sig .tc .vmem S512x128 .f32 := fun | 0 => Memref.whole cc16_stg0_0 | ⟨_ + 1, h⟩ => absurd h (Nat.not_lt.2 (Nat.le_add_left _ _))
abbrev sem16_0 : Fin 1 → DmaSem sig := fun | 0 => cc16_sem0_0 | ⟨_ + 1, h⟩ => absurd h (Nat.not_lt.2 (Nat.le_add_left _ _))
abbrev reads16_0 : Fin grid16.rank → Bool := ![false]

abbrev stage16_1 : Fin 1 → Memref sig .tc .vmem S512x5 .f32 := fun | 0 => Memref.whole cc16_stg1_0 | ⟨_ + 1, h⟩ => absurd h (Nat.not_lt.2 (Nat.le_add_left _ _))
abbrev sem16_1 : Fin 1 → DmaSem sig := fun | 0 => cc16_sem1_0 | ⟨_ + 1, h⟩ => absurd h (Nat.not_lt.2 (Nat.le_add_left _ _))
abbrev reads16_1 : Fin grid16.rank → Bool := ![false]

abbrev stage16_2 : Fin 1 → Memref sig .tc .vmem S133x256 .f32 := fun | 0 => Memref.whole cc16_stg2_0 | ⟨_ + 1, h⟩ => absurd h (Nat.not_lt.2 (Nat.le_add_left _ _))
abbrev sem16_2 : Fin 1 → DmaSem sig := fun | 0 => cc16_sem2_0 | ⟨_ + 1, h⟩ => absurd h (Nat.not_lt.2 (Nat.le_add_left _ _))
abbrev reads16_2 : Fin grid16.rank → Bool := ![false]

abbrev stage16_3 : Fin 1 → Memref sig .tc .vmem S1x256 .f32 := fun | 0 => Memref.whole cc16_stg3_0 | ⟨_ + 1, h⟩ => absurd h (Nat.not_lt.2 (Nat.le_add_left _ _))
abbrev sem16_3 : Fin 1 → DmaSem sig := fun | 0 => cc16_sem3_0 | ⟨_ + 1, h⟩ => absurd h (Nat.not_lt.2 (Nat.le_add_left _ _))
abbrev reads16_3 : Fin grid16.rank → Bool := ![false]

abbrev stage16_4 : Fin 1 → Memref sig .tc .vmem S256x256 .f32 := fun | 0 => Memref.whole cc16_stg4_0 | ⟨_ + 1, h⟩ => absurd h (Nat.not_lt.2 (Nat.le_add_left _ _))
abbrev sem16_4 : Fin 1 → DmaSem sig := fun | 0 => cc16_sem4_0 | ⟨_ + 1, h⟩ => absurd h (Nat.not_lt.2 (Nat.le_add_left _ _))
abbrev reads16_4 : Fin grid16.rank → Bool := ![false]

abbrev stage16_5 : Fin 1 → Memref sig .tc .vmem S1x256 .f32 := fun | 0 => Memref.whole cc16_stg5_0 | ⟨_ + 1, h⟩ => absurd h (Nat.not_lt.2 (Nat.le_add_left _ _))
abbrev sem16_5 : Fin 1 → DmaSem sig := fun | 0 => cc16_sem5_0 | ⟨_ + 1, h⟩ => absurd h (Nat.not_lt.2 (Nat.le_add_left _ _))
abbrev reads16_5 : Fin grid16.rank → Bool := ![false]

abbrev stage16_6 : Fin 1 → Memref sig .tc .vmem S256x1 .f32 := fun | 0 => Memref.whole cc16_stg6_0 | ⟨_ + 1, h⟩ => absurd h (Nat.not_lt.2 (Nat.le_add_left _ _))
abbrev sem16_6 : Fin 1 → DmaSem sig := fun | 0 => cc16_sem6_0 | ⟨_ + 1, h⟩ => absurd h (Nat.not_lt.2 (Nat.le_add_left _ _))
abbrev reads16_6 : Fin grid16.rank → Bool := ![false]

abbrev stage16_7 : Fin 1 → Memref sig .tc .vmem S1x1 .f32 := fun | 0 => Memref.whole cc16_stg7_0 | ⟨_ + 1, h⟩ => absurd h (Nat.not_lt.2 (Nat.le_add_left _ _))
abbrev sem16_7 : Fin 1 → DmaSem sig := fun | 0 => cc16_sem7_0 | ⟨_ + 1, h⟩ => absurd h (Nat.not_lt.2 (Nat.le_add_left _ _))
abbrev reads16_7 : Fin grid16.rank → Bool := ![false]

abbrev stage16_8 : Fin 1 → Memref sig .tc .vmem S512x1 .f32 := fun | 0 => Memref.whole cc16_stg8_0 | ⟨_ + 1, h⟩ => absurd h (Nat.not_lt.2 (Nat.le_add_left _ _))
abbrev sem16_8 : Fin 1 → DmaSem sig := fun | 0 => cc16_sem8_0 | ⟨_ + 1, h⟩ => absurd h (Nat.not_lt.2 (Nat.le_add_left _ _))
abbrev reads16_8 : Fin grid16.rank → Bool := ![false]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  shapeCasts_S128_S1x128 : S128.ShapeCasts S1x128
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  shapeCasts_S128x128_S128x128 : S128x128.ShapeCasts S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S5000x128 : S1x128.Broadcasts S5000x128
  reduces_S5000x128_S128 : S5000x128.Reduces [0] S128
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  shapeCasts_S256_S1x256 : S256.ShapeCasts S1x256
  shapeCasts_S1_S1x1 : S1.ShapeCasts S1x1
  inb_S512x128_S512x128_0_0 : ∀ a, (![0, 0] : Fin 2 → Nat) a + S512x128.size a ≤ S512x128.size a
  h_S512x128 : 0 < S512x128.numel
  shapeCasts_S512x128_S512x128 : S512x128.ShapeCasts S512x128
  inb_S512x5_S512x5_0_0 : ∀ a, (![0, 0] : Fin 2 → Nat) a + S512x5.size a ≤ S512x5.size a
  h_S512x5 : 0 < S512x5.numel
  concatenates_S512x128_S512x5_S512x133_d1 : Shape.Concatenates [S512x128, S512x5] S512x133 1
  inb_S133x256_S133x256_0_0 : ∀ a, (![0, 0] : Fin 2 → Nat) a + S133x256.size a ≤ S133x256.size a
  h_S133x256 : 0 < S133x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S512x256 : S1x256.Broadcasts S512x256
  inb_S256x256_S256x256_0_0 : ∀ a, (![0, 0] : Fin 2 → Nat) a + S256x256.size a ≤ S256x256.size a
  h_S256x256 : 0 < S256x256.numel
  inb_S256x1_S256x1_0_0 : ∀ a, (![0, 0] : Fin 2 → Nat) a + S256x1.size a ≤ S256x1.size a
  h_S256x1 : 0 < S256x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S512x1 : S1x1.Broadcasts S512x1
  inb_S512x1_S512x1_0_0 : ∀ a, (![0, 0] : Fin 2 → Nat) a + S512x1.size a ≤ S512x1.size a
  h_S512x1 : 0 < S512x1.numel
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S5000x128_S128x128_S5000x128_1_0_0_1_n_n_wf : DotDims.WF S5000x128 S128x128 S5000x128 [1] [0] [0] [1] [] []
  scatter_S512x128_S100000x1_S100000x128_1_0_0_1_wf : ScatterDims.WF S512x128 S100000x1 S100000x128 [1] [0] [0] 1
  dot_S512x133_S133x256_S512x256_1_0_0_1_n_n_wf : DotDims.WF S512x133 S133x256 S512x256 [1] [0] [0] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S5000x128.size a ≤ S100000x128.size a
  hwx0_4 : ∀ i : grid0.Coords, EltTy.bits .f32 = 32 ∨ (Rect.block (s := S100000x128) S5000x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x128.size a ≤ S100000x128.size a
  hwx1_0 : ∀ i : grid1.Coords, EltTy.bits .f32 = 32 ∨ (Rect.block (s := S100000x128) S5000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S128x128.size a ≤ S128x128.size a
  hwx1_3 : ∀ i : grid1.Coords, EltTy.bits .f32 = 32 ∨ (Rect.block (s := S128x128) S128x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x128.size a ≤ S1x128.size a
  hwx1_4 : ∀ i : grid1.Coords, EltTy.bits .f32 = 32 ∨ (Rect.block (s := S1x128) S1x128.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S5000x128.size a ≤ S100000x128.size a
  hwx1_5 : ∀ i : grid1.Coords, EltTy.bits .f32 = 32 ∨ (Rect.block (s := S100000x128) S5000x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S1x128.size a ≤ S1x128.size a
  hwx1_7 : ∀ i : grid1.Coords, EltTy.bits .f32 = 32 ∨ (Rect.block (s := S1x128) S1x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x128.size a ≤ S100000x128.size a
  hwx2_0 : ∀ i : grid2.Coords, EltTy.bits .f32 = 32 ∨ (Rect.block (s := S100000x128) S5000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x128.size a ≤ S1x128.size a
  hwx2_1 : ∀ i : grid2.Coords, EltTy.bits .f32 = 32 ∨ (Rect.block (s := S1x128) S1x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x128.size a ≤ S1x128.size a
  hwx2_2 : ∀ i : grid2.Coords, EltTy.bits .f32 = 32 ∨ (Rect.block (s := S1x128) S1x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S5000x128.size a ≤ S100000x128.size a
  hwx2_3 : ∀ i : grid2.Coords, EltTy.bits .f32 = 32 ∨ (Rect.block (s := S100000x128) S5000x128.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S1x128.size a ≤ S1x128.size a
  hwx2_4 : ∀ i : grid2.Coords, EltTy.bits .f32 = 32 ∨ (Rect.block (s := S1x128) S1x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S1x128.size a ≤ S1x128.size a
  hwx2_5 : ∀ i : grid2.Coords, EltTy.bits .f32 = 32 ∨ (Rect.block (s := S1x128) S1x128.size (cc2_transform_5 i) (hinb2_5 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x128.size a ≤ S100000x128.size a
  hwx3_0 : ∀ i : grid3.Coords, EltTy.bits .f32 = 32 ∨ (Rect.block (s := S100000x128) S5000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x128.size a ≤ S1x128.size a
  hwx3_1 : ∀ i : grid3.Coords, EltTy.bits .f32 = 32 ∨ (Rect.block (s := S1x128) S1x128.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S5000x128.size a ≤ S100000x128.size a
  hwx3_3 : ∀ i : grid3.Coords, EltTy.bits .f32 = 32 ∨ (Rect.block (s := S100000x128) S5000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S5000x128.size a ≤ S100000x128.size a
  hwx4_0 : ∀ i : grid4.Coords, EltTy.bits .f32 = 32 ∨ (Rect.block (s := S100000x128) S5000x128.size (cc4_transform_0 i) (hinb4_0 i)).WholeWords (EltTy.packing .f32)
  hstage4_1 : ∀ j, (stage4_1 j).IsWhole
  nbuf4_1 : grid4.bufCount reads4_1 false = 2
  hreads4_1 : ∀ i i' : grid4.Coords, (∀ a, reads4_1 a = true → i a = i' a) → cc4_transform_1 i = cc4_transform_1 i'
  hinb4_1 : ∀ (i : grid4.Coords) a, (cc4_transform_1 i a + 1) * S5000x128.size a ≤ S100000x128.size a
  hwx4_1 : ∀ i : grid4.Coords, EltTy.bits .f32 = 32 ∨ (Rect.block (s := S100000x128) S5000x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S128x128.size a ≤ S128x128.size a
  hwx4_2 : ∀ i : grid4.Coords, EltTy.bits .f32 = 32 ∨ (Rect.block (s := S128x128) S128x128.size (cc4_transform_2 i) (hinb4_2 i)).WholeWords (EltTy.packing .f32)
  hstage4_3 : ∀ j, (stage4_3 j).IsWhole
  nbuf4_3 : grid4.bufCount reads4_3 true = 1
  hreads4_3 : ∀ i i' : grid4.Coords, (∀ a, reads4_3 a = true → i a = i' a) → cc4_transform_3 i = cc4_transform_3 i'
  hinb4_3 : ∀ (i : grid4.Coords) a, (cc4_transform_3 i a + 1) * S1x128.size a ≤ S1x128.size a
  hwx4_3 : ∀ i : grid4.Coords, EltTy.bits .f32 = 32 ∨ (Rect.block (s := S1x128) S1x128.size (cc4_transform_3 i) (hinb4_3 i)).WholeWords (EltTy.packing .f32)
  hstage4_4 : ∀ j, (stage4_4 j).IsWhole
  nbuf4_4 : grid4.bufCount reads4_4 false = 2
  hreads4_4 : ∀ i i' : grid4.Coords, (∀ a, reads4_4 a = true → i a = i' a) → cc4_transform_4 i = cc4_transform_4 i'
  hinb4_4 : ∀ (i : grid4.Coords) a, (cc4_transform_4 i a + 1) * S5000x128.size a ≤ S100000x128.size a
  hwx4_4 : ∀ i : grid4.Coords, EltTy.bits .f32 = 32 ∨ (Rect.block (s := S100000x128) S5000x128.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x128.size a ≤ S1x128.size a
  hwx4_5 : ∀ i : grid4.Coords, EltTy.bits .f32 = 32 ∨ (Rect.block (s := S1x128) S1x128.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x128.size a ≤ S1x128.size a
  hwx4_6 : ∀ i : grid4.Coords, EltTy.bits .f32 = 32 ∨ (Rect.block (s := S1x128) S1x128.size (cc4_transform_6 i) (hinb4_6 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S5000x128.size a ≤ S100000x128.size a
  hwx5_0 : ∀ i : grid5.Coords, EltTy.bits .f32 = 32 ∨ (Rect.block (s := S100000x128) S5000x128.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S1x128.size a ≤ S1x128.size a
  hwx5_1 : ∀ i : grid5.Coords, EltTy.bits .f32 = 32 ∨ (Rect.block (s := S1x128) S1x128.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x128.size a ≤ S1x128.size a
  hwx5_2 : ∀ i : grid5.Coords, EltTy.bits .f32 = 32 ∨ (Rect.block (s := S1x128) S1x128.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S128x128.size a ≤ S128x128.size a
  hwx5_3 : ∀ i : grid5.Coords, EltTy.bits .f32 = 32 ∨ (Rect.block (s := S128x128) S128x128.size (cc5_transform_3 i) (hinb5_3 i)).WholeWords (EltTy.packing .f32)
  hstage5_4 : ∀ j, (stage5_4 j).IsWhole
  nbuf5_4 : grid5.bufCount reads5_4 true = 1
  hreads5_4 : ∀ i i' : grid5.Coords, (∀ a, reads5_4 a = true → i a = i' a) → cc5_transform_4 i = cc5_transform_4 i'
  hinb5_4 : ∀ (i : grid5.Coords) a, (cc5_transform_4 i a + 1) * S1x128.size a ≤ S1x128.size a
  hwx5_4 : ∀ i : grid5.Coords, EltTy.bits .f32 = 32 ∨ (Rect.block (s := S1x128) S1x128.size (cc5_transform_4 i) (hinb5_4 i)).WholeWords (EltTy.packing .f32)
  hstage5_5 : ∀ j, (stage5_5 j).IsWhole
  nbuf5_5 : grid5.bufCount reads5_5 false = 2
  hreads5_5 : ∀ i i' : grid5.Coords, (∀ a, reads5_5 a = true → i a = i' a) → cc5_transform_5 i = cc5_transform_5 i'
  hinb5_5 : ∀ (i : grid5.Coords) a, (cc5_transform_5 i a + 1) * S5000x128.size a ≤ S100000x128.size a
  hwx5_5 : ∀ i : grid5.Coords, EltTy.bits .f32 = 32 ∨ (Rect.block (s := S100000x128) S5000x128.size (cc5_transform_5 i) (hinb5_5 i)).WholeWords (EltTy.packing .f32)
  hstage5_6 : ∀ j, (stage5_6 j).IsWhole
  nbuf5_6 : grid5.bufCount reads5_6 true = 1
  hreads5_6 : ∀ i i' : grid5.Coords, (∀ a, reads5_6 a = true → i a = i' a) → cc5_transform_6 i = cc5_transform_6 i'
  hinb5_6 : ∀ (i : grid5.Coords) a, (cc5_transform_6 i a + 1) * S1x128.size a ≤ S1x128.size a
  hwx5_6 : ∀ i : grid5.Coords, EltTy.bits .f32 = 32 ∨ (Rect.block (s := S1x128) S1x128.size (cc5_transform_6 i) (hinb5_6 i)).WholeWords (EltTy.packing .f32)
  hstage5_7 : ∀ j, (stage5_7 j).IsWhole
  nbuf5_7 : grid5.bufCount reads5_7 true = 1
  hreads5_7 : ∀ i i' : grid5.Coords, (∀ a, reads5_7 a = true → i a = i' a) → cc5_transform_7 i = cc5_transform_7 i'
  hinb5_7 : ∀ (i : grid5.Coords) a, (cc5_transform_7 i a + 1) * S1x128.size a ≤ S1x128.size a
  hwx5_7 : ∀ i : grid5.Coords, EltTy.bits .f32 = 32 ∨ (Rect.block (s := S1x128) S1x128.size (cc5_transform_7 i) (hinb5_7 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S5000x128.size a ≤ S100000x128.size a
  hwx6_0 : ∀ i : grid6.Coords, EltTy.bits .f32 = 32 ∨ (Rect.block (s := S100000x128) S5000x128.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S1x128.size a ≤ S1x128.size a
  hwx6_1 : ∀ i : grid6.Coords, EltTy.bits .f32 = 32 ∨ (Rect.block (s := S1x128) S1x128.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S1x128.size a ≤ S1x128.size a
  hwx6_2 : ∀ i : grid6.Coords, EltTy.bits .f32 = 32 ∨ (Rect.block (s := S1x128) S1x128.size (cc6_transform_2 i) (hinb6_2 i)).WholeWords (EltTy.packing .f32)
  hstage6_3 : ∀ j, (stage6_3 j).IsWhole
  nbuf6_3 : grid6.bufCount reads6_3 false = 2
  hreads6_3 : ∀ i i' : grid6.Coords, (∀ a, reads6_3 a = true → i a = i' a) → cc6_transform_3 i = cc6_transform_3 i'
  hinb6_3 : ∀ (i : grid6.Coords) a, (cc6_transform_3 i a + 1) * S5000x128.size a ≤ S100000x128.size a
  hwx6_3 : ∀ i : grid6.Coords, EltTy.bits .f32 = 32 ∨ (Rect.block (s := S100000x128) S5000x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S1x128.size a ≤ S1x128.size a
  hwx6_4 : ∀ i : grid6.Coords, EltTy.bits .f32 = 32 ∨ (Rect.block (s := S1x128) S1x128.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x128.size a ≤ S1x128.size a
  hwx6_5 : ∀ i : grid6.Coords, EltTy.bits .f32 = 32 ∨ (Rect.block (s := S1x128) S1x128.size (cc6_transform_5 i) (hinb6_5 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S5000x128.size a ≤ S100000x128.size a
  hwx7_0 : ∀ i : grid7.Coords, EltTy.bits .f32 = 32 ∨ (Rect.block (s := S100000x128) S5000x128.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S5000x128.size a ≤ S100000x128.size a
  hwx7_3 : ∀ i : grid7.Coords, EltTy.bits .f32 = 32 ∨ (Rect.block (s := S100000x128) S5000x128.size (cc7_transform_3 i) (hinb7_3 i)).WholeWords (EltTy.packing .f32)
  hrank8 : 0 < grid8.rank
  hstage8_0 : ∀ j, (stage8_0 j).IsWhole
  nbuf8_0 : grid8.bufCount reads8_0 false = 2
  hreads8_0 : ∀ i i' : grid8.Coords, (∀ a, reads8_0 a = true → i a = i' a) → cc8_transform_0 i = cc8_transform_0 i'
  hinb8_0 : ∀ (i : grid8.Coords) a, (cc8_transform_0 i a + 1) * S5000x128.size a ≤ S100000x128.size a
  hwx8_0 : ∀ i : grid8.Coords, EltTy.bits .f32 = 32 ∨ (Rect.block (s := S100000x128) S5000x128.size (cc8_transform_0 i) (hinb8_0 i)).WholeWords (EltTy.packing .f32)
  hstage8_1 : ∀ j, (stage8_1 j).IsWhole
  nbuf8_1 : grid8.bufCount reads8_1 false = 2
  hreads8_1 : ∀ i i' : grid8.Coords, (∀ a, reads8_1 a = true → i a = i' a) → cc8_transform_1 i = cc8_transform_1 i'
  hinb8_1 : ∀ (i : grid8.Coords) a, (cc8_transform_1 i a + 1) * S5000x128.size a ≤ S100000x128.size a
  hwx8_1 : ∀ i : grid8.Coords, EltTy.bits .f32 = 32 ∨ (Rect.block (s := S100000x128) S5000x128.size (cc8_transform_1 i) (hinb8_1 i)).WholeWords (EltTy.packing .f32)
  hstage8_2 : ∀ j, (stage8_2 j).IsWhole
  nbuf8_2 : grid8.bufCount reads8_2 true = 1
  hreads8_2 : ∀ i i' : grid8.Coords, (∀ a, reads8_2 a = true → i a = i' a) → cc8_transform_2 i = cc8_transform_2 i'
  hinb8_2 : ∀ (i : grid8.Coords) a, (cc8_transform_2 i a + 1) * S128x128.size a ≤ S128x128.size a
  hwx8_2 : ∀ i : grid8.Coords, EltTy.bits .f32 = 32 ∨ (Rect.block (s := S128x128) S128x128.size (cc8_transform_2 i) (hinb8_2 i)).WholeWords (EltTy.packing .f32)
  hstage8_3 : ∀ j, (stage8_3 j).IsWhole
  nbuf8_3 : grid8.bufCount reads8_3 true = 1
  hreads8_3 : ∀ i i' : grid8.Coords, (∀ a, reads8_3 a = true → i a = i' a) → cc8_transform_3 i = cc8_transform_3 i'
  hinb8_3 : ∀ (i : grid8.Coords) a, (cc8_transform_3 i a + 1) * S1x128.size a ≤ S1x128.size a
  hwx8_3 : ∀ i : grid8.Coords, EltTy.bits .f32 = 32 ∨ (Rect.block (s := S1x128) S1x128.size (cc8_transform_3 i) (hinb8_3 i)).WholeWords (EltTy.packing .f32)
  hstage8_4 : ∀ j, (stage8_4 j).IsWhole
  nbuf8_4 : grid8.bufCount reads8_4 false = 2
  hreads8_4 : ∀ i i' : grid8.Coords, (∀ a, reads8_4 a = true → i a = i' a) → cc8_transform_4 i = cc8_transform_4 i'
  hinb8_4 : ∀ (i : grid8.Coords) a, (cc8_transform_4 i a + 1) * S5000x128.size a ≤ S100000x128.size a
  hwx8_4 : ∀ i : grid8.Coords, EltTy.bits .f32 = 32 ∨ (Rect.block (s := S100000x128) S5000x128.size (cc8_transform_4 i) (hinb8_4 i)).WholeWords (EltTy.packing .f32)
  hstage8_5 : ∀ j, (stage8_5 j).IsWhole
  nbuf8_5 : grid8.bufCount reads8_5 true = 1
  hreads8_5 : ∀ i i' : grid8.Coords, (∀ a, reads8_5 a = true → i a = i' a) → cc8_transform_5 i = cc8_transform_5 i'
  hinb8_5 : ∀ (i : grid8.Coords) a, (cc8_transform_5 i a + 1) * S1x128.size a ≤ S1x128.size a
  hwx8_5 : ∀ i : grid8.Coords, EltTy.bits .f32 = 32 ∨ (Rect.block (s := S1x128) S1x128.size (cc8_transform_5 i) (hinb8_5 i)).WholeWords (EltTy.packing .f32)
  hstage8_6 : ∀ j, (stage8_6 j).IsWhole
  nbuf8_6 : grid8.bufCount reads8_6 true = 1
  hreads8_6 : ∀ i i' : grid8.Coords, (∀ a, reads8_6 a = true → i a = i' a) → cc8_transform_6 i = cc8_transform_6 i'
  hinb8_6 : ∀ (i : grid8.Coords) a, (cc8_transform_6 i a + 1) * S1x128.size a ≤ S1x128.size a
  hwx8_6 : ∀ i : grid8.Coords, EltTy.bits .f32 = 32 ∨ (Rect.block (s := S1x128) S1x128.size (cc8_transform_6 i) (hinb8_6 i)).WholeWords (EltTy.packing .f32)
  hrank9 : 0 < grid9.rank
  hstage9_0 : ∀ j, (stage9_0 j).IsWhole
  nbuf9_0 : grid9.bufCount reads9_0 false = 2
  hreads9_0 : ∀ i i' : grid9.Coords, (∀ a, reads9_0 a = true → i a = i' a) → cc9_transform_0 i = cc9_transform_0 i'
  hinb9_0 : ∀ (i : grid9.Coords) a, (cc9_transform_0 i a + 1) * S5000x128.size a ≤ S100000x128.size a
  hwx9_0 : ∀ i : grid9.Coords, EltTy.bits .f32 = 32 ∨ (Rect.block (s := S100000x128) S5000x128.size (cc9_transform_0 i) (hinb9_0 i)).WholeWords (EltTy.packing .f32)
  hstage9_1 : ∀ j, (stage9_1 j).IsWhole
  nbuf9_1 : grid9.bufCount reads9_1 true = 1
  hreads9_1 : ∀ i i' : grid9.Coords, (∀ a, reads9_1 a = true → i a = i' a) → cc9_transform_1 i = cc9_transform_1 i'
  hinb9_1 : ∀ (i : grid9.Coords) a, (cc9_transform_1 i a + 1) * S1x128.size a ≤ S1x128.size a
  hwx9_1 : ∀ i : grid9.Coords, EltTy.bits .f32 = 32 ∨ (Rect.block (s := S1x128) S1x128.size (cc9_transform_1 i) (hinb9_1 i)).WholeWords (EltTy.packing .f32)
  hstage9_2 : ∀ j, (stage9_2 j).IsWhole
  nbuf9_2 : grid9.bufCount reads9_2 true = 1
  hreads9_2 : ∀ i i' : grid9.Coords, (∀ a, reads9_2 a = true → i a = i' a) → cc9_transform_2 i = cc9_transform_2 i'
  hinb9_2 : ∀ (i : grid9.Coords) a, (cc9_transform_2 i a + 1) * S1x128.size a ≤ S1x128.size a
  hwx9_2 : ∀ i : grid9.Coords, EltTy.bits .f32 = 32 ∨ (Rect.block (s := S1x128) S1x128.size (cc9_transform_2 i) (hinb9_2 i)).WholeWords (EltTy.packing .f32)
  hstage9_3 : ∀ j, (stage9_3 j).IsWhole
  nbuf9_3 : grid9.bufCount reads9_3 true = 1
  hreads9_3 : ∀ i i' : grid9.Coords, (∀ a, reads9_3 a = true → i a = i' a) → cc9_transform_3 i = cc9_transform_3 i'
  hinb9_3 : ∀ (i : grid9.Coords) a, (cc9_transform_3 i a + 1) * S128x128.size a ≤ S128x128.size a
  hwx9_3 : ∀ i : grid9.Coords, EltTy.bits .f32 = 32 ∨ (Rect.block (s := S128x128) S128x128.size (cc9_transform_3 i) (hinb9_3 i)).WholeWords (EltTy.packing .f32)
  hstage9_4 : ∀ j, (stage9_4 j).IsWhole
  nbuf9_4 : grid9.bufCount reads9_4 true = 1
  hreads9_4 : ∀ i i' : grid9.Coords, (∀ a, reads9_4 a = true → i a = i' a) → cc9_transform_4 i = cc9_transform_4 i'
  hinb9_4 : ∀ (i : grid9.Coords) a, (cc9_transform_4 i a + 1) * S1x128.size a ≤ S1x128.size a
  hwx9_4 : ∀ i : grid9.Coords, EltTy.bits .f32 = 32 ∨ (Rect.block (s := S1x128) S1x128.size (cc9_transform_4 i) (hinb9_4 i)).WholeWords (EltTy.packing .f32)
  hstage9_5 : ∀ j, (stage9_5 j).IsWhole
  nbuf9_5 : grid9.bufCount reads9_5 false = 2
  hreads9_5 : ∀ i i' : grid9.Coords, (∀ a, reads9_5 a = true → i a = i' a) → cc9_transform_5 i = cc9_transform_5 i'
  hinb9_5 : ∀ (i : grid9.Coords) a, (cc9_transform_5 i a + 1) * S5000x128.size a ≤ S100000x128.size a
  hwx9_5 : ∀ i : grid9.Coords, EltTy.bits .f32 = 32 ∨ (Rect.block (s := S100000x128) S5000x128.size (cc9_transform_5 i) (hinb9_5 i)).WholeWords (EltTy.packing .f32)
  hstage9_6 : ∀ j, (stage9_6 j).IsWhole
  nbuf9_6 : grid9.bufCount reads9_6 true = 1
  hreads9_6 : ∀ i i' : grid9.Coords, (∀ a, reads9_6 a = true → i a = i' a) → cc9_transform_6 i = cc9_transform_6 i'
  hinb9_6 : ∀ (i : grid9.Coords) a, (cc9_transform_6 i a + 1) * S1x128.size a ≤ S1x128.size a
  hwx9_6 : ∀ i : grid9.Coords, EltTy.bits .f32 = 32 ∨ (Rect.block (s := S1x128) S1x128.size (cc9_transform_6 i) (hinb9_6 i)).WholeWords (EltTy.packing .f32)
  hstage9_7 : ∀ j, (stage9_7 j).IsWhole
  nbuf9_7 : grid9.bufCount reads9_7 true = 1
  hreads9_7 : ∀ i i' : grid9.Coords, (∀ a, reads9_7 a = true → i a = i' a) → cc9_transform_7 i = cc9_transform_7 i'
  hinb9_7 : ∀ (i : grid9.Coords) a, (cc9_transform_7 i a + 1) * S1x128.size a ≤ S1x128.size a
  hwx9_7 : ∀ i : grid9.Coords, EltTy.bits .f32 = 32 ∨ (Rect.block (s := S1x128) S1x128.size (cc9_transform_7 i) (hinb9_7 i)).WholeWords (EltTy.packing .f32)
  hrank10 : 0 < grid10.rank
  hstage10_0 : ∀ j, (stage10_0 j).IsWhole
  nbuf10_0 : grid10.bufCount reads10_0 false = 2
  hreads10_0 : ∀ i i' : grid10.Coords, (∀ a, reads10_0 a = true → i a = i' a) → cc10_transform_0 i = cc10_transform_0 i'
  hinb10_0 : ∀ (i : grid10.Coords) a, (cc10_transform_0 i a + 1) * S5000x128.size a ≤ S100000x128.size a
  hwx10_0 : ∀ i : grid10.Coords, EltTy.bits .f32 = 32 ∨ (Rect.block (s := S100000x128) S5000x128.size (cc10_transform_0 i) (hinb10_0 i)).WholeWords (EltTy.packing .f32)
  hstage10_1 : ∀ j, (stage10_1 j).IsWhole
  nbuf10_1 : grid10.bufCount reads10_1 true = 1
  hreads10_1 : ∀ i i' : grid10.Coords, (∀ a, reads10_1 a = true → i a = i' a) → cc10_transform_1 i = cc10_transform_1 i'
  hinb10_1 : ∀ (i : grid10.Coords) a, (cc10_transform_1 i a + 1) * S1x128.size a ≤ S1x128.size a
  hwx10_1 : ∀ i : grid10.Coords, EltTy.bits .f32 = 32 ∨ (Rect.block (s := S1x128) S1x128.size (cc10_transform_1 i) (hinb10_1 i)).WholeWords (EltTy.packing .f32)
  hstage10_2 : ∀ j, (stage10_2 j).IsWhole
  nbuf10_2 : grid10.bufCount reads10_2 true = 1
  hreads10_2 : ∀ i i' : grid10.Coords, (∀ a, reads10_2 a = true → i a = i' a) → cc10_transform_2 i = cc10_transform_2 i'
  hinb10_2 : ∀ (i : grid10.Coords) a, (cc10_transform_2 i a + 1) * S1x128.size a ≤ S1x128.size a
  hwx10_2 : ∀ i : grid10.Coords, EltTy.bits .f32 = 32 ∨ (Rect.block (s := S1x128) S1x128.size (cc10_transform_2 i) (hinb10_2 i)).WholeWords (EltTy.packing .f32)
  hstage10_3 : ∀ j, (stage10_3 j).IsWhole
  nbuf10_3 : grid10.bufCount reads10_3 false = 2
  hreads10_3 : ∀ i i' : grid10.Coords, (∀ a, reads10_3 a = true → i a = i' a) → cc10_transform_3 i = cc10_transform_3 i'
  hinb10_3 : ∀ (i : grid10.Coords) a, (cc10_transform_3 i a + 1) * S5000x128.size a ≤ S100000x128.size a
  hwx10_3 : ∀ i : grid10.Coords, EltTy.bits .f32 = 32 ∨ (Rect.block (s := S100000x128) S5000x128.size (cc10_transform_3 i) (hinb10_3 i)).WholeWords (EltTy.packing .f32)
  hstage10_4 : ∀ j, (stage10_4 j).IsWhole
  nbuf10_4 : grid10.bufCount reads10_4 true = 1
  hreads10_4 : ∀ i i' : grid10.Coords, (∀ a, reads10_4 a = true → i a = i' a) → cc10_transform_4 i = cc10_transform_4 i'
  hinb10_4 : ∀ (i : grid10.Coords) a, (cc10_transform_4 i a + 1) * S1x128.size a ≤ S1x128.size a
  hwx10_4 : ∀ i : grid10.Coords, EltTy.bits .f32 = 32 ∨ (Rect.block (s := S1x128) S1x128.size (cc10_transform_4 i) (hinb10_4 i)).WholeWords (EltTy.packing .f32)
  hstage10_5 : ∀ j, (stage10_5 j).IsWhole
  nbuf10_5 : grid10.bufCount reads10_5 true = 1
  hreads10_5 : ∀ i i' : grid10.Coords, (∀ a, reads10_5 a = true → i a = i' a) → cc10_transform_5 i = cc10_transform_5 i'
  hinb10_5 : ∀ (i : grid10.Coords) a, (cc10_transform_5 i a + 1) * S1x128.size a ≤ S1x128.size a
  hwx10_5 : ∀ i : grid10.Coords, EltTy.bits .f32 = 32 ∨ (Rect.block (s := S1x128) S1x128.size (cc10_transform_5 i) (hinb10_5 i)).WholeWords (EltTy.packing .f32)
  hrank11 : 0 < grid11.rank
  hstage11_0 : ∀ j, (stage11_0 j).IsWhole
  nbuf11_0 : grid11.bufCount reads11_0 false = 2
  hreads11_0 : ∀ i i' : grid11.Coords, (∀ a, reads11_0 a = true → i a = i' a) → cc11_transform_0 i = cc11_transform_0 i'
  hinb11_0 : ∀ (i : grid11.Coords) a, (cc11_transform_0 i a + 1) * S5000x128.size a ≤ S100000x128.size a
  hwx11_0 : ∀ i : grid11.Coords, EltTy.bits .f32 = 32 ∨ (Rect.block (s := S100000x128) S5000x128.size (cc11_transform_0 i) (hinb11_0 i)).WholeWords (EltTy.packing .f32)
  hstage11_1 : ∀ j, (stage11_1 j).IsWhole
  nbuf11_1 : grid11.bufCount reads11_1 true = 1
  hreads11_1 : ∀ i i' : grid11.Coords, (∀ a, reads11_1 a = true → i a = i' a) → cc11_transform_1 i = cc11_transform_1 i'
  hinb11_1 : ∀ (i : grid11.Coords) a, (cc11_transform_1 i a + 1) * S1x128.size a ≤ S1x128.size a
  hwx11_1 : ∀ i : grid11.Coords, EltTy.bits .f32 = 32 ∨ (Rect.block (s := S1x128) S1x128.size (cc11_transform_1 i) (hinb11_1 i)).WholeWords (EltTy.packing .f32)
  hstage11_2 : ∀ j, (stage11_2 j).IsWhole
  nbuf11_2 : grid11.bufCount reads11_2 true = 1
  hreads11_2 : ∀ i i' : grid11.Coords, (∀ a, reads11_2 a = true → i a = i' a) → cc11_transform_2 i = cc11_transform_2 i'
  hinb11_2 : ∀ (i : grid11.Coords) a, (cc11_transform_2 i a + 1) * S1x128.size a ≤ S1x128.size a
  hwx11_2 : ∀ i : grid11.Coords, EltTy.bits .f32 = 32 ∨ (Rect.block (s := S1x128) S1x128.size (cc11_transform_2 i) (hinb11_2 i)).WholeWords (EltTy.packing .f32)
  hstage11_3 : ∀ j, (stage11_3 j).IsWhole
  nbuf11_3 : grid11.bufCount reads11_3 false = 2
  hreads11_3 : ∀ i i' : grid11.Coords, (∀ a, reads11_3 a = true → i a = i' a) → cc11_transform_3 i = cc11_transform_3 i'
  hinb11_3 : ∀ (i : grid11.Coords) a, (cc11_transform_3 i a + 1) * S5000x128.size a ≤ S100000x128.size a
  hwx11_3 : ∀ i : grid11.Coords, EltTy.bits .f32 = 32 ∨ (Rect.block (s := S100000x128) S5000x128.size (cc11_transform_3 i) (hinb11_3 i)).WholeWords (EltTy.packing .f32)
  hrank12 : 0 < grid12.rank
  hstage12_0 : ∀ j, (stage12_0 j).IsWhole
  nbuf12_0 : grid12.bufCount reads12_0 false = 2
  hreads12_0 : ∀ i i' : grid12.Coords, (∀ a, reads12_0 a = true → i a = i' a) → cc12_transform_0 i = cc12_transform_0 i'
  hinb12_0 : ∀ (i : grid12.Coords) a, (cc12_transform_0 i a + 1) * S5000x128.size a ≤ S100000x128.size a
  hwx12_0 : ∀ i : grid12.Coords, EltTy.bits .f32 = 32 ∨ (Rect.block (s := S100000x128) S5000x128.size (cc12_transform_0 i) (hinb12_0 i)).WholeWords (EltTy.packing .f32)
  hstage12_1 : ∀ j, (stage12_1 j).IsWhole
  nbuf12_1 : grid12.bufCount reads12_1 false = 2
  hreads12_1 : ∀ i i' : grid12.Coords, (∀ a, reads12_1 a = true → i a = i' a) → cc12_transform_1 i = cc12_transform_1 i'
  hinb12_1 : ∀ (i : grid12.Coords) a, (cc12_transform_1 i a + 1) * S5000x128.size a ≤ S100000x128.size a
  hwx12_1 : ∀ i : grid12.Coords, EltTy.bits .f32 = 32 ∨ (Rect.block (s := S100000x128) S5000x128.size (cc12_transform_1 i) (hinb12_1 i)).WholeWords (EltTy.packing .f32)
  hstage12_2 : ∀ j, (stage12_2 j).IsWhole
  nbuf12_2 : grid12.bufCount reads12_2 true = 1
  hreads12_2 : ∀ i i' : grid12.Coords, (∀ a, reads12_2 a = true → i a = i' a) → cc12_transform_2 i = cc12_transform_2 i'
  hinb12_2 : ∀ (i : grid12.Coords) a, (cc12_transform_2 i a + 1) * S128x128.size a ≤ S128x128.size a
  hwx12_2 : ∀ i : grid12.Coords, EltTy.bits .f32 = 32 ∨ (Rect.block (s := S128x128) S128x128.size (cc12_transform_2 i) (hinb12_2 i)).WholeWords (EltTy.packing .f32)
  hstage12_3 : ∀ j, (stage12_3 j).IsWhole
  nbuf12_3 : grid12.bufCount reads12_3 true = 1
  hreads12_3 : ∀ i i' : grid12.Coords, (∀ a, reads12_3 a = true → i a = i' a) → cc12_transform_3 i = cc12_transform_3 i'
  hinb12_3 : ∀ (i : grid12.Coords) a, (cc12_transform_3 i a + 1) * S1x128.size a ≤ S1x128.size a
  hwx12_3 : ∀ i : grid12.Coords, EltTy.bits .f32 = 32 ∨ (Rect.block (s := S1x128) S1x128.size (cc12_transform_3 i) (hinb12_3 i)).WholeWords (EltTy.packing .f32)
  hstage12_4 : ∀ j, (stage12_4 j).IsWhole
  nbuf12_4 : grid12.bufCount reads12_4 false = 2
  hreads12_4 : ∀ i i' : grid12.Coords, (∀ a, reads12_4 a = true → i a = i' a) → cc12_transform_4 i = cc12_transform_4 i'
  hinb12_4 : ∀ (i : grid12.Coords) a, (cc12_transform_4 i a + 1) * S5000x128.size a ≤ S100000x128.size a
  hwx12_4 : ∀ i : grid12.Coords, EltTy.bits .f32 = 32 ∨ (Rect.block (s := S100000x128) S5000x128.size (cc12_transform_4 i) (hinb12_4 i)).WholeWords (EltTy.packing .f32)
  hstage12_5 : ∀ j, (stage12_5 j).IsWhole
  nbuf12_5 : grid12.bufCount reads12_5 true = 1
  hreads12_5 : ∀ i i' : grid12.Coords, (∀ a, reads12_5 a = true → i a = i' a) → cc12_transform_5 i = cc12_transform_5 i'
  hinb12_5 : ∀ (i : grid12.Coords) a, (cc12_transform_5 i a + 1) * S1x128.size a ≤ S1x128.size a
  hwx12_5 : ∀ i : grid12.Coords, EltTy.bits .f32 = 32 ∨ (Rect.block (s := S1x128) S1x128.size (cc12_transform_5 i) (hinb12_5 i)).WholeWords (EltTy.packing .f32)
  hstage12_6 : ∀ j, (stage12_6 j).IsWhole
  nbuf12_6 : grid12.bufCount reads12_6 true = 1
  hreads12_6 : ∀ i i' : grid12.Coords, (∀ a, reads12_6 a = true → i a = i' a) → cc12_transform_6 i = cc12_transform_6 i'
  hinb12_6 : ∀ (i : grid12.Coords) a, (cc12_transform_6 i a + 1) * S1x128.size a ≤ S1x128.size a
  hwx12_6 : ∀ i : grid12.Coords, EltTy.bits .f32 = 32 ∨ (Rect.block (s := S1x128) S1x128.size (cc12_transform_6 i) (hinb12_6 i)).WholeWords (EltTy.packing .f32)
  hrank13 : 0 < grid13.rank
  hstage13_0 : ∀ j, (stage13_0 j).IsWhole
  nbuf13_0 : grid13.bufCount reads13_0 false = 2
  hreads13_0 : ∀ i i' : grid13.Coords, (∀ a, reads13_0 a = true → i a = i' a) → cc13_transform_0 i = cc13_transform_0 i'
  hinb13_0 : ∀ (i : grid13.Coords) a, (cc13_transform_0 i a + 1) * S5000x128.size a ≤ S100000x128.size a
  hwx13_0 : ∀ i : grid13.Coords, EltTy.bits .f32 = 32 ∨ (Rect.block (s := S100000x128) S5000x128.size (cc13_transform_0 i) (hinb13_0 i)).WholeWords (EltTy.packing .f32)
  hstage13_1 : ∀ j, (stage13_1 j).IsWhole
  nbuf13_1 : grid13.bufCount reads13_1 true = 1
  hreads13_1 : ∀ i i' : grid13.Coords, (∀ a, reads13_1 a = true → i a = i' a) → cc13_transform_1 i = cc13_transform_1 i'
  hinb13_1 : ∀ (i : grid13.Coords) a, (cc13_transform_1 i a + 1) * S1x128.size a ≤ S1x128.size a
  hwx13_1 : ∀ i : grid13.Coords, EltTy.bits .f32 = 32 ∨ (Rect.block (s := S1x128) S1x128.size (cc13_transform_1 i) (hinb13_1 i)).WholeWords (EltTy.packing .f32)
  hstage13_2 : ∀ j, (stage13_2 j).IsWhole
  nbuf13_2 : grid13.bufCount reads13_2 true = 1
  hreads13_2 : ∀ i i' : grid13.Coords, (∀ a, reads13_2 a = true → i a = i' a) → cc13_transform_2 i = cc13_transform_2 i'
  hinb13_2 : ∀ (i : grid13.Coords) a, (cc13_transform_2 i a + 1) * S1x128.size a ≤ S1x128.size a
  hwx13_2 : ∀ i : grid13.Coords, EltTy.bits .f32 = 32 ∨ (Rect.block (s := S1x128) S1x128.size (cc13_transform_2 i) (hinb13_2 i)).WholeWords (EltTy.packing .f32)
  hstage13_3 : ∀ j, (stage13_3 j).IsWhole
  nbuf13_3 : grid13.bufCount reads13_3 true = 1
  hreads13_3 : ∀ i i' : grid13.Coords, (∀ a, reads13_3 a = true → i a = i' a) → cc13_transform_3 i = cc13_transform_3 i'
  hinb13_3 : ∀ (i : grid13.Coords) a, (cc13_transform_3 i a + 1) * S128x128.size a ≤ S128x128.size a
  hwx13_3 : ∀ i : grid13.Coords, EltTy.bits .f32 = 32 ∨ (Rect.block (s := S128x128) S128x128.size (cc13_transform_3 i) (hinb13_3 i)).WholeWords (EltTy.packing .f32)
  hstage13_4 : ∀ j, (stage13_4 j).IsWhole
  nbuf13_4 : grid13.bufCount reads13_4 true = 1
  hreads13_4 : ∀ i i' : grid13.Coords, (∀ a, reads13_4 a = true → i a = i' a) → cc13_transform_4 i = cc13_transform_4 i'
  hinb13_4 : ∀ (i : grid13.Coords) a, (cc13_transform_4 i a + 1) * S1x128.size a ≤ S1x128.size a
  hwx13_4 : ∀ i : grid13.Coords, EltTy.bits .f32 = 32 ∨ (Rect.block (s := S1x128) S1x128.size (cc13_transform_4 i) (hinb13_4 i)).WholeWords (EltTy.packing .f32)
  hstage13_5 : ∀ j, (stage13_5 j).IsWhole
  nbuf13_5 : grid13.bufCount reads13_5 false = 2
  hreads13_5 : ∀ i i' : grid13.Coords, (∀ a, reads13_5 a = true → i a = i' a) → cc13_transform_5 i = cc13_transform_5 i'
  hinb13_5 : ∀ (i : grid13.Coords) a, (cc13_transform_5 i a + 1) * S5000x128.size a ≤ S100000x128.size a
  hwx13_5 : ∀ i : grid13.Coords, EltTy.bits .f32 = 32 ∨ (Rect.block (s := S100000x128) S5000x128.size (cc13_transform_5 i) (hinb13_5 i)).WholeWords (EltTy.packing .f32)
  hstage13_6 : ∀ j, (stage13_6 j).IsWhole
  nbuf13_6 : grid13.bufCount reads13_6 true = 1
  hreads13_6 : ∀ i i' : grid13.Coords, (∀ a, reads13_6 a = true → i a = i' a) → cc13_transform_6 i = cc13_transform_6 i'
  hinb13_6 : ∀ (i : grid13.Coords) a, (cc13_transform_6 i a + 1) * S1x128.size a ≤ S1x128.size a
  hwx13_6 : ∀ i : grid13.Coords, EltTy.bits .f32 = 32 ∨ (Rect.block (s := S1x128) S1x128.size (cc13_transform_6 i) (hinb13_6 i)).WholeWords (EltTy.packing .f32)
  hstage13_7 : ∀ j, (stage13_7 j).IsWhole
  nbuf13_7 : grid13.bufCount reads13_7 true = 1
  hreads13_7 : ∀ i i' : grid13.Coords, (∀ a, reads13_7 a = true → i a = i' a) → cc13_transform_7 i = cc13_transform_7 i'
  hinb13_7 : ∀ (i : grid13.Coords) a, (cc13_transform_7 i a + 1) * S1x128.size a ≤ S1x128.size a
  hwx13_7 : ∀ i : grid13.Coords, EltTy.bits .f32 = 32 ∨ (Rect.block (s := S1x128) S1x128.size (cc13_transform_7 i) (hinb13_7 i)).WholeWords (EltTy.packing .f32)
  hrank14 : 0 < grid14.rank
  hstage14_0 : ∀ j, (stage14_0 j).IsWhole
  nbuf14_0 : grid14.bufCount reads14_0 false = 2
  hreads14_0 : ∀ i i' : grid14.Coords, (∀ a, reads14_0 a = true → i a = i' a) → cc14_transform_0 i = cc14_transform_0 i'
  hinb14_0 : ∀ (i : grid14.Coords) a, (cc14_transform_0 i a + 1) * S5000x128.size a ≤ S100000x128.size a
  hwx14_0 : ∀ i : grid14.Coords, EltTy.bits .f32 = 32 ∨ (Rect.block (s := S100000x128) S5000x128.size (cc14_transform_0 i) (hinb14_0 i)).WholeWords (EltTy.packing .f32)
  hstage14_1 : ∀ j, (stage14_1 j).IsWhole
  nbuf14_1 : grid14.bufCount reads14_1 true = 1
  hreads14_1 : ∀ i i' : grid14.Coords, (∀ a, reads14_1 a = true → i a = i' a) → cc14_transform_1 i = cc14_transform_1 i'
  hinb14_1 : ∀ (i : grid14.Coords) a, (cc14_transform_1 i a + 1) * S1x128.size a ≤ S1x128.size a
  hwx14_1 : ∀ i : grid14.Coords, EltTy.bits .f32 = 32 ∨ (Rect.block (s := S1x128) S1x128.size (cc14_transform_1 i) (hinb14_1 i)).WholeWords (EltTy.packing .f32)
  hstage14_2 : ∀ j, (stage14_2 j).IsWhole
  nbuf14_2 : grid14.bufCount reads14_2 true = 1
  hreads14_2 : ∀ i i' : grid14.Coords, (∀ a, reads14_2 a = true → i a = i' a) → cc14_transform_2 i = cc14_transform_2 i'
  hinb14_2 : ∀ (i : grid14.Coords) a, (cc14_transform_2 i a + 1) * S1x128.size a ≤ S1x128.size a
  hwx14_2 : ∀ i : grid14.Coords, EltTy.bits .f32 = 32 ∨ (Rect.block (s := S1x128) S1x128.size (cc14_transform_2 i) (hinb14_2 i)).WholeWords (EltTy.packing .f32)
  hstage14_3 : ∀ j, (stage14_3 j).IsWhole
  nbuf14_3 : grid14.bufCount reads14_3 false = 2
  hreads14_3 : ∀ i i' : grid14.Coords, (∀ a, reads14_3 a = true → i a = i' a) → cc14_transform_3 i = cc14_transform_3 i'
  hinb14_3 : ∀ (i : grid14.Coords) a, (cc14_transform_3 i a + 1) * S5000x128.size a ≤ S100000x128.size a
  hwx14_3 : ∀ i : grid14.Coords, EltTy.bits .f32 = 32 ∨ (Rect.block (s := S100000x128) S5000x128.size (cc14_transform_3 i) (hinb14_3 i)).WholeWords (EltTy.packing .f32)
  hstage14_4 : ∀ j, (stage14_4 j).IsWhole
  nbuf14_4 : grid14.bufCount reads14_4 true = 1
  hreads14_4 : ∀ i i' : grid14.Coords, (∀ a, reads14_4 a = true → i a = i' a) → cc14_transform_4 i = cc14_transform_4 i'
  hinb14_4 : ∀ (i : grid14.Coords) a, (cc14_transform_4 i a + 1) * S1x128.size a ≤ S1x128.size a
  hwx14_4 : ∀ i : grid14.Coords, EltTy.bits .f32 = 32 ∨ (Rect.block (s := S1x128) S1x128.size (cc14_transform_4 i) (hinb14_4 i)).WholeWords (EltTy.packing .f32)
  hstage14_5 : ∀ j, (stage14_5 j).IsWhole
  nbuf14_5 : grid14.bufCount reads14_5 true = 1
  hreads14_5 : ∀ i i' : grid14.Coords, (∀ a, reads14_5 a = true → i a = i' a) → cc14_transform_5 i = cc14_transform_5 i'
  hinb14_5 : ∀ (i : grid14.Coords) a, (cc14_transform_5 i a + 1) * S1x128.size a ≤ S1x128.size a
  hwx14_5 : ∀ i : grid14.Coords, EltTy.bits .f32 = 32 ∨ (Rect.block (s := S1x128) S1x128.size (cc14_transform_5 i) (hinb14_5 i)).WholeWords (EltTy.packing .f32)
  hrank15 : 0 < grid15.rank
  hstage15_0 : ∀ j, (stage15_0 j).IsWhole
  nbuf15_0 : grid15.bufCount reads15_0 false = 2
  hreads15_0 : ∀ i i' : grid15.Coords, (∀ a, reads15_0 a = true → i a = i' a) → cc15_transform_0 i = cc15_transform_0 i'
  hinb15_0 : ∀ (i : grid15.Coords) a, (cc15_transform_0 i a + 1) * S5000x128.size a ≤ S100000x128.size a
  hwx15_0 : ∀ i : grid15.Coords, EltTy.bits .f32 = 32 ∨ (Rect.block (s := S100000x128) S5000x128.size (cc15_transform_0 i) (hinb15_0 i)).WholeWords (EltTy.packing .f32)
  hstage15_1 : ∀ j, (stage15_1 j).IsWhole
  nbuf15_1 : grid15.bufCount reads15_1 true = 1
  hreads15_1 : ∀ i i' : grid15.Coords, (∀ a, reads15_1 a = true → i a = i' a) → cc15_transform_1 i = cc15_transform_1 i'
  hinb15_1 : ∀ (i : grid15.Coords) a, (cc15_transform_1 i a + 1) * S1x128.size a ≤ S1x128.size a
  hwx15_1 : ∀ i : grid15.Coords, EltTy.bits .f32 = 32 ∨ (Rect.block (s := S1x128) S1x128.size (cc15_transform_1 i) (hinb15_1 i)).WholeWords (EltTy.packing .f32)
  hstage15_2 : ∀ j, (stage15_2 j).IsWhole
  nbuf15_2 : grid15.bufCount reads15_2 true = 1
  hreads15_2 : ∀ i i' : grid15.Coords, (∀ a, reads15_2 a = true → i a = i' a) → cc15_transform_2 i = cc15_transform_2 i'
  hinb15_2 : ∀ (i : grid15.Coords) a, (cc15_transform_2 i a + 1) * S1x128.size a ≤ S1x128.size a
  hwx15_2 : ∀ i : grid15.Coords, EltTy.bits .f32 = 32 ∨ (Rect.block (s := S1x128) S1x128.size (cc15_transform_2 i) (hinb15_2 i)).WholeWords (EltTy.packing .f32)
  hstage15_3 : ∀ j, (stage15_3 j).IsWhole
  nbuf15_3 : grid15.bufCount reads15_3 false = 2
  hreads15_3 : ∀ i i' : grid15.Coords, (∀ a, reads15_3 a = true → i a = i' a) → cc15_transform_3 i = cc15_transform_3 i'
  hinb15_3 : ∀ (i : grid15.Coords) a, (cc15_transform_3 i a + 1) * S5000x128.size a ≤ S100000x128.size a
  hwx15_3 : ∀ i : grid15.Coords, EltTy.bits .f32 = 32 ∨ (Rect.block (s := S100000x128) S5000x128.size (cc15_transform_3 i) (hinb15_3 i)).WholeWords (EltTy.packing .f32)
  hrank16 : 0 < grid16.rank
  hstage16_0 : ∀ j, (stage16_0 j).IsWhole
  nbuf16_0 : grid16.bufCount reads16_0 true = 1
  hreads16_0 : ∀ i i' : grid16.Coords, (∀ a, reads16_0 a = true → i a = i' a) → cc16_transform_0 i = cc16_transform_0 i'
  hinb16_0 : ∀ (i : grid16.Coords) a, (cc16_transform_0 i a + 1) * S512x128.size a ≤ S512x128.size a
  hwx16_0 : ∀ i : grid16.Coords, EltTy.bits .f32 = 32 ∨ (Rect.block (s := S512x128) S512x128.size (cc16_transform_0 i) (hinb16_0 i)).WholeWords (EltTy.packing .f32)
  hstage16_1 : ∀ j, (stage16_1 j).IsWhole
  nbuf16_1 : grid16.bufCount reads16_1 true = 1
  hreads16_1 : ∀ i i' : grid16.Coords, (∀ a, reads16_1 a = true → i a = i' a) → cc16_transform_1 i = cc16_transform_1 i'
  hinb16_1 : ∀ (i : grid16.Coords) a, (cc16_transform_1 i a + 1) * S512x5.size a ≤ S512x5.size a
  hwx16_1 : ∀ i : grid16.Coords, EltTy.bits .f32 = 32 ∨ (Rect.block (s := S512x5) S512x5.size (cc16_transform_1 i) (hinb16_1 i)).WholeWords (EltTy.packing .f32)
  hstage16_2 : ∀ j, (stage16_2 j).IsWhole
  nbuf16_2 : grid16.bufCount reads16_2 true = 1
  hreads16_2 : ∀ i i' : grid16.Coords, (∀ a, reads16_2 a = true → i a = i' a) → cc16_transform_2 i = cc16_transform_2 i'
  hinb16_2 : ∀ (i : grid16.Coords) a, (cc16_transform_2 i a + 1) * S133x256.size a ≤ S133x256.size a
  hwx16_2 : ∀ i : grid16.Coords, EltTy.bits .f32 = 32 ∨ (Rect.block (s := S133x256) S133x256.size (cc16_transform_2 i) (hinb16_2 i)).WholeWords (EltTy.packing .f32)
  hstage16_3 : ∀ j, (stage16_3 j).IsWhole
  nbuf16_3 : grid16.bufCount reads16_3 true = 1
  hreads16_3 : ∀ i i' : grid16.Coords, (∀ a, reads16_3 a = true → i a = i' a) → cc16_transform_3 i = cc16_transform_3 i'
  hinb16_3 : ∀ (i : grid16.Coords) a, (cc16_transform_3 i a + 1) * S1x256.size a ≤ S1x256.size a
  hwx16_3 : ∀ i : grid16.Coords, EltTy.bits .f32 = 32 ∨ (Rect.block (s := S1x256) S1x256.size (cc16_transform_3 i) (hinb16_3 i)).WholeWords (EltTy.packing .f32)
  hstage16_4 : ∀ j, (stage16_4 j).IsWhole
  nbuf16_4 : grid16.bufCount reads16_4 true = 1
  hreads16_4 : ∀ i i' : grid16.Coords, (∀ a, reads16_4 a = true → i a = i' a) → cc16_transform_4 i = cc16_transform_4 i'
  hinb16_4 : ∀ (i : grid16.Coords) a, (cc16_transform_4 i a + 1) * S256x256.size a ≤ S256x256.size a
  hwx16_4 : ∀ i : grid16.Coords, EltTy.bits .f32 = 32 ∨ (Rect.block (s := S256x256) S256x256.size (cc16_transform_4 i) (hinb16_4 i)).WholeWords (EltTy.packing .f32)
  hstage16_5 : ∀ j, (stage16_5 j).IsWhole
  nbuf16_5 : grid16.bufCount reads16_5 true = 1
  hreads16_5 : ∀ i i' : grid16.Coords, (∀ a, reads16_5 a = true → i a = i' a) → cc16_transform_5 i = cc16_transform_5 i'
  hinb16_5 : ∀ (i : grid16.Coords) a, (cc16_transform_5 i a + 1) * S1x256.size a ≤ S1x256.size a
  hwx16_5 : ∀ i : grid16.Coords, EltTy.bits .f32 = 32 ∨ (Rect.block (s := S1x256) S1x256.size (cc16_transform_5 i) (hinb16_5 i)).WholeWords (EltTy.packing .f32)
  hstage16_6 : ∀ j, (stage16_6 j).IsWhole
  nbuf16_6 : grid16.bufCount reads16_6 true = 1
  hreads16_6 : ∀ i i' : grid16.Coords, (∀ a, reads16_6 a = true → i a = i' a) → cc16_transform_6 i = cc16_transform_6 i'
  hinb16_6 : ∀ (i : grid16.Coords) a, (cc16_transform_6 i a + 1) * S256x1.size a ≤ S256x1.size a
  hwx16_6 : ∀ i : grid16.Coords, EltTy.bits .f32 = 32 ∨ (Rect.block (s := S256x1) S256x1.size (cc16_transform_6 i) (hinb16_6 i)).WholeWords (EltTy.packing .f32)
  hstage16_7 : ∀ j, (stage16_7 j).IsWhole
  nbuf16_7 : grid16.bufCount reads16_7 true = 1
  hreads16_7 : ∀ i i' : grid16.Coords, (∀ a, reads16_7 a = true → i a = i' a) → cc16_transform_7 i = cc16_transform_7 i'
  hinb16_7 : ∀ (i : grid16.Coords) a, (cc16_transform_7 i a + 1) * S1x1.size a ≤ S1x1.size a
  hwx16_7 : ∀ i : grid16.Coords, EltTy.bits .f32 = 32 ∨ (Rect.block (s := S1x1) S1x1.size (cc16_transform_7 i) (hinb16_7 i)).WholeWords (EltTy.packing .f32)
  hstage16_8 : ∀ j, (stage16_8 j).IsWhole
  nbuf16_8 : grid16.bufCount reads16_8 true = 1
  hreads16_8 : ∀ i i' : grid16.Coords, (∀ a, reads16_8 a = true → i a = i' a) → cc16_transform_8 i = cc16_transform_8 i'
  hinb16_8 : ∀ (i : grid16.Coords) a, (cc16_transform_8 i a + 1) * S512x1.size a ≤ S512x1.size a
  hwx16_8 : ∀ i : grid16.Coords, EltTy.bits .f32 = 32 ∨ (Rect.block (s := S512x1) S512x1.size (cc16_transform_8 i) (hinb16_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x133_S133x256_S512x256_1_0_0_1_n_n : DotDims S512x133 S133x256 S512x256 where
  lhsContracting := [1]
  rhsContracting := [0]
  lhsNonContracting := [0]
  rhsNonContracting := [1]
  lhsBatch := []
  rhsBatch := []
  wf := dot_S512x133_S133x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

abbrev win0_0 : Pipeline.Window sig grid0 :=
  Pipeline.Window.ofSpec (Memref.whole main_arg0) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v15) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v18) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S5000x128.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S1x128.size cc0_transform_5 reads0_5 true true 1 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S1x128.size cc0_transform_6 reads0_6 true true 1 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v19_0) S5000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v32) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v39) S128x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v42) S1x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v43_0) S5000x128.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v43_1) S1x128.size cc1_transform_6 reads1_6 true true 1 stage1_6 sem1_6
    hrank1 hreads1_6 hinb1_6 nbuf1_6 (Memref.isWhole_whole _) hwx1_6 hstage1_6

abbrev win1_7 : Pipeline.Window sig grid1 :=
  Pipeline.Window.ofSpec (Memref.whole main_v43_2) S1x128.size cc1_transform_7 reads1_7 true true 1 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v43_0) S5000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v56) S1x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v61) S1x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v62_0) S5000x128.size cc2_transform_3 reads2_3 true false 2 stage2_3 sem2_3
    hrank2 hreads2_3 hinb2_3 nbuf2_3 (Memref.isWhole_whole _) hwx2_3 hstage2_3

abbrev win2_4 : Pipeline.Window sig grid2 :=
  Pipeline.Window.ofSpec (Memref.whole main_v62_1) S1x128.size cc2_transform_4 reads2_4 true true 1 stage2_4 sem2_4
    hrank2 hreads2_4 hinb2_4 nbuf2_4 (Memref.isWhole_whole _) hwx2_4 hstage2_4

abbrev win2_5 : Pipeline.Window sig grid2 :=
  Pipeline.Window.ofSpec (Memref.whole main_v62_2) S1x128.size cc2_transform_5 reads2_5 true true 1 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

abbrev win3_0 : Pipeline.Window sig grid3 :=
  Pipeline.Window.ofSpec (Memref.whole main_v62_0) S5000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v75) S1x128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v80) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v81) S5000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v81) S5000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v91) S5000x128.size cc4_transform_1 reads4_1 false false 2 stage4_1 sem4_1
    hrank4 hreads4_1 hinb4_1 nbuf4_1 (Memref.isWhole_whole _) hwx4_1 hstage4_1

abbrev win4_2 : Pipeline.Window sig grid4 :=
  Pipeline.Window.ofSpec (Memref.whole main_v93) S128x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v96) S1x128.size cc4_transform_3 reads4_3 false true 1 stage4_3 sem4_3
    hrank4 hreads4_3 hinb4_3 nbuf4_3 (Memref.isWhole_whole _) hwx4_3 hstage4_3

abbrev win4_4 : Pipeline.Window sig grid4 :=
  Pipeline.Window.ofSpec (Memref.whole main_v97_0) S5000x128.size cc4_transform_4 reads4_4 true false 2 stage4_4 sem4_4
    hrank4 hreads4_4 hinb4_4 nbuf4_4 (Memref.isWhole_whole _) hwx4_4 hstage4_4

abbrev win4_5 : Pipeline.Window sig grid4 :=
  Pipeline.Window.ofSpec (Memref.whole main_v97_1) S1x128.size cc4_transform_5 reads4_5 true true 1 stage4_5 sem4_5
    hrank4 hreads4_5 hinb4_5 nbuf4_5 (Memref.isWhole_whole _) hwx4_5 hstage4_5

abbrev win4_6 : Pipeline.Window sig grid4 :=
  Pipeline.Window.ofSpec (Memref.whole main_v97_2) S1x128.size cc4_transform_6 reads4_6 true true 1 stage4_6 sem4_6
    hrank4 hreads4_6 hinb4_6 nbuf4_6 (Memref.isWhole_whole _) hwx4_6 hstage4_6

abbrev win4 : Fin 7 → Pipeline.Window sig grid4 := fun | 0 => win4_0 | 1 => win4_1 | 2 => win4_2 | 3 => win4_3 | 4 => win4_4 | 5 => win4_5 | 6 => win4_6 | ⟨_ + 7, h⟩ => absurd h (Nat.not_lt.2 (Nat.le_add_left _ _))
abbrev spec4 : Fin 7 → Pipeline.WinSpec sig grid4.rank := fun w => (win4 w).toWinSpec

abbrev win5_0 : Pipeline.Window sig grid5 :=
  Pipeline.Window.ofSpec (Memref.whole main_v97_0) S5000x128.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v110) S1x128.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v115) S1x128.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v117) S128x128.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v120) S1x128.size cc5_transform_4 reads5_4 false true 1 stage5_4 sem5_4
    hrank5 hreads5_4 hinb5_4 nbuf5_4 (Memref.isWhole_whole _) hwx5_4 hstage5_4

abbrev win5_5 : Pipeline.Window sig grid5 :=
  Pipeline.Window.ofSpec (Memref.whole main_v121_0) S5000x128.size cc5_transform_5 reads5_5 true false 2 stage5_5 sem5_5
    hrank5 hreads5_5 hinb5_5 nbuf5_5 (Memref.isWhole_whole _) hwx5_5 hstage5_5

abbrev win5_6 : Pipeline.Window sig grid5 :=
  Pipeline.Window.ofSpec (Memref.whole main_v121_1) S1x128.size cc5_transform_6 reads5_6 true true 1 stage5_6 sem5_6
    hrank5 hreads5_6 hinb5_6 nbuf5_6 (Memref.isWhole_whole _) hwx5_6 hstage5_6

abbrev win5_7 : Pipeline.Window sig grid5 :=
  Pipeline.Window.ofSpec (Memref.whole main_v121_2) S1x128.size cc5_transform_7 reads5_7 true true 1 stage5_7 sem5_7
    hrank5 hreads5_7 hinb5_7 nbuf5_7 (Memref.isWhole_whole _) hwx5_7 hstage5_7

abbrev win5 : Fin 8 → Pipeline.Window sig grid5 := fun | 0 => win5_0 | 1 => win5_1 | 2 => win5_2 | 3 => win5_3 | 4 => win5_4 | 5 => win5_5 | 6 => win5_6 | 7 => win5_7 | ⟨_ + 8, h⟩ => absurd h (Nat.not_lt.2 (Nat.le_add_left _ _))
abbrev spec5 : Fin 8 → Pipeline.WinSpec sig grid5.rank := fun w => (win5 w).toWinSpec

abbrev win6_0 : Pipeline.Window sig grid6 :=
  Pipeline.Window.ofSpec (Memref.whole main_v121_0) S5000x128.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v134) S1x128.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_v139) S1x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v140_0) S5000x128.size cc6_transform_3 reads6_3 true false 2 stage6_3 sem6_3
    hrank6 hreads6_3 hinb6_3 nbuf6_3 (Memref.isWhole_whole _) hwx6_3 hstage6_3

abbrev win6_4 : Pipeline.Window sig grid6 :=
  Pipeline.Window.ofSpec (Memref.whole main_v140_1) S1x128.size cc6_transform_4 reads6_4 true true 1 stage6_4 sem6_4
    hrank6 hreads6_4 hinb6_4 nbuf6_4 (Memref.isWhole_whole _) hwx6_4 hstage6_4

abbrev win6_5 : Pipeline.Window sig grid6 :=
  Pipeline.Window.ofSpec (Memref.whole main_v140_2) S1x128.size cc6_transform_5 reads6_5 true true 1 stage6_5 sem6_5
    hrank6 hreads6_5 hinb6_5 nbuf6_5 (Memref.isWhole_whole _) hwx6_5 hstage6_5

abbrev win6 : Fin 6 → Pipeline.Window sig grid6 := fun | 0 => win6_0 | 1 => win6_1 | 2 => win6_2 | 3 => win6_3 | 4 => win6_4 | 5 => win6_5 | ⟨_ + 6, h⟩ => absurd h (Nat.not_lt.2 (Nat.le_add_left _ _))
abbrev spec6 : Fin 6 → Pipeline.WinSpec sig grid6.rank := fun w => (win6 w).toWinSpec

abbrev win7_0 : Pipeline.Window sig grid7 :=
  Pipeline.Window.ofSpec (Memref.whole main_v140_0) S5000x128.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v153) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v158) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v159) S5000x128.size cc7_transform_3 reads7_3 true false 2 stage7_3 sem7_3
    hrank7 hreads7_3 hinb7_3 nbuf7_3 (Memref.isWhole_whole _) hwx7_3 hstage7_3

abbrev win7 : Fin 4 → Pipeline.Window sig grid7 := fun | 0 => win7_0 | 1 => win7_1 | 2 => win7_2 | 3 => win7_3 | ⟨_ + 4, h⟩ => absurd h (Nat.not_lt.2 (Nat.le_add_left _ _))
abbrev spec7 : Fin 4 → Pipeline.WinSpec sig grid7.rank := fun w => (win7 w).toWinSpec

abbrev win8_0 : Pipeline.Window sig grid8 :=
  Pipeline.Window.ofSpec (Memref.whole main_v159) S5000x128.size cc8_transform_0 reads8_0 false false 2 stage8_0 sem8_0
    hrank8 hreads8_0 hinb8_0 nbuf8_0 (Memref.isWhole_whole _) hwx8_0 hstage8_0

abbrev win8_1 : Pipeline.Window sig grid8 :=
  Pipeline.Window.ofSpec (Memref.whole main_v169) S5000x128.size cc8_transform_1 reads8_1 false false 2 stage8_1 sem8_1
    hrank8 hreads8_1 hinb8_1 nbuf8_1 (Memref.isWhole_whole _) hwx8_1 hstage8_1

abbrev win8_2 : Pipeline.Window sig grid8 :=
  Pipeline.Window.ofSpec (Memref.whole main_v171) S128x128.size cc8_transform_2 reads8_2 false true 1 stage8_2 sem8_2
    hrank8 hreads8_2 hinb8_2 nbuf8_2 (Memref.isWhole_whole _) hwx8_2 hstage8_2

abbrev win8_3 : Pipeline.Window sig grid8 :=
  Pipeline.Window.ofSpec (Memref.whole main_v174) S1x128.size cc8_transform_3 reads8_3 false true 1 stage8_3 sem8_3
    hrank8 hreads8_3 hinb8_3 nbuf8_3 (Memref.isWhole_whole _) hwx8_3 hstage8_3

abbrev win8_4 : Pipeline.Window sig grid8 :=
  Pipeline.Window.ofSpec (Memref.whole main_v175_0) S5000x128.size cc8_transform_4 reads8_4 true false 2 stage8_4 sem8_4
    hrank8 hreads8_4 hinb8_4 nbuf8_4 (Memref.isWhole_whole _) hwx8_4 hstage8_4

abbrev win8_5 : Pipeline.Window sig grid8 :=
  Pipeline.Window.ofSpec (Memref.whole main_v175_1) S1x128.size cc8_transform_5 reads8_5 true true 1 stage8_5 sem8_5
    hrank8 hreads8_5 hinb8_5 nbuf8_5 (Memref.isWhole_whole _) hwx8_5 hstage8_5

abbrev win8_6 : Pipeline.Window sig grid8 :=
  Pipeline.Window.ofSpec (Memref.whole main_v175_2) S1x128.size cc8_transform_6 reads8_6 true true 1 stage8_6 sem8_6
    hrank8 hreads8_6 hinb8_6 nbuf8_6 (Memref.isWhole_whole _) hwx8_6 hstage8_6

abbrev win8 : Fin 7 → Pipeline.Window sig grid8 := fun | 0 => win8_0 | 1 => win8_1 | 2 => win8_2 | 3 => win8_3 | 4 => win8_4 | 5 => win8_5 | 6 => win8_6 | ⟨_ + 7, h⟩ => absurd h (Nat.not_lt.2 (Nat.le_add_left _ _))
abbrev spec8 : Fin 7 → Pipeline.WinSpec sig grid8.rank := fun w => (win8 w).toWinSpec

abbrev win9_0 : Pipeline.Window sig grid9 :=
  Pipeline.Window.ofSpec (Memref.whole main_v175_0) S5000x128.size cc9_transform_0 reads9_0 false false 2 stage9_0 sem9_0
    hrank9 hreads9_0 hinb9_0 nbuf9_0 (Memref.isWhole_whole _) hwx9_0 hstage9_0

abbrev win9_1 : Pipeline.Window sig grid9 :=
  Pipeline.Window.ofSpec (Memref.whole main_v188) S1x128.size cc9_transform_1 reads9_1 false true 1 stage9_1 sem9_1
    hrank9 hreads9_1 hinb9_1 nbuf9_1 (Memref.isWhole_whole _) hwx9_1 hstage9_1

abbrev win9_2 : Pipeline.Window sig grid9 :=
  Pipeline.Window.ofSpec (Memref.whole main_v193) S1x128.size cc9_transform_2 reads9_2 false true 1 stage9_2 sem9_2
    hrank9 hreads9_2 hinb9_2 nbuf9_2 (Memref.isWhole_whole _) hwx9_2 hstage9_2

abbrev win9_3 : Pipeline.Window sig grid9 :=
  Pipeline.Window.ofSpec (Memref.whole main_v195) S128x128.size cc9_transform_3 reads9_3 false true 1 stage9_3 sem9_3
    hrank9 hreads9_3 hinb9_3 nbuf9_3 (Memref.isWhole_whole _) hwx9_3 hstage9_3

abbrev win9_4 : Pipeline.Window sig grid9 :=
  Pipeline.Window.ofSpec (Memref.whole main_v198) S1x128.size cc9_transform_4 reads9_4 false true 1 stage9_4 sem9_4
    hrank9 hreads9_4 hinb9_4 nbuf9_4 (Memref.isWhole_whole _) hwx9_4 hstage9_4

abbrev win9_5 : Pipeline.Window sig grid9 :=
  Pipeline.Window.ofSpec (Memref.whole main_v199_0) S5000x128.size cc9_transform_5 reads9_5 true false 2 stage9_5 sem9_5
    hrank9 hreads9_5 hinb9_5 nbuf9_5 (Memref.isWhole_whole _) hwx9_5 hstage9_5

abbrev win9_6 : Pipeline.Window sig grid9 :=
  Pipeline.Window.ofSpec (Memref.whole main_v199_1) S1x128.size cc9_transform_6 reads9_6 true true 1 stage9_6 sem9_6
    hrank9 hreads9_6 hinb9_6 nbuf9_6 (Memref.isWhole_whole _) hwx9_6 hstage9_6

abbrev win9_7 : Pipeline.Window sig grid9 :=
  Pipeline.Window.ofSpec (Memref.whole main_v199_2) S1x128.size cc9_transform_7 reads9_7 true true 1 stage9_7 sem9_7
    hrank9 hreads9_7 hinb9_7 nbuf9_7 (Memref.isWhole_whole _) hwx9_7 hstage9_7

abbrev win9 : Fin 8 → Pipeline.Window sig grid9 := fun | 0 => win9_0 | 1 => win9_1 | 2 => win9_2 | 3 => win9_3 | 4 => win9_4 | 5 => win9_5 | 6 => win9_6 | 7 => win9_7 | ⟨_ + 8, h⟩ => absurd h (Nat.not_lt.2 (Nat.le_add_left _ _))
abbrev spec9 : Fin 8 → Pipeline.WinSpec sig grid9.rank := fun w => (win9 w).toWinSpec

abbrev win10_0 : Pipeline.Window sig grid10 :=
  Pipeline.Window.ofSpec (Memref.whole main_v199_0) S5000x128.size cc10_transform_0 reads10_0 false false 2 stage10_0 sem10_0
    hrank10 hreads10_0 hinb10_0 nbuf10_0 (Memref.isWhole_whole _) hwx10_0 hstage10_0

abbrev win10_1 : Pipeline.Window sig grid10 :=
  Pipeline.Window.ofSpec (Memref.whole main_v212) S1x128.size cc10_transform_1 reads10_1 false true 1 stage10_1 sem10_1
    hrank10 hreads10_1 hinb10_1 nbuf10_1 (Memref.isWhole_whole _) hwx10_1 hstage10_1

abbrev win10_2 : Pipeline.Window sig grid10 :=
  Pipeline.Window.ofSpec (Memref.whole main_v217) S1x128.size cc10_transform_2 reads10_2 false true 1 stage10_2 sem10_2
    hrank10 hreads10_2 hinb10_2 nbuf10_2 (Memref.isWhole_whole _) hwx10_2 hstage10_2

abbrev win10_3 : Pipeline.Window sig grid10 :=
  Pipeline.Window.ofSpec (Memref.whole main_v218_0) S5000x128.size cc10_transform_3 reads10_3 true false 2 stage10_3 sem10_3
    hrank10 hreads10_3 hinb10_3 nbuf10_3 (Memref.isWhole_whole _) hwx10_3 hstage10_3

abbrev win10_4 : Pipeline.Window sig grid10 :=
  Pipeline.Window.ofSpec (Memref.whole main_v218_1) S1x128.size cc10_transform_4 reads10_4 true true 1 stage10_4 sem10_4
    hrank10 hreads10_4 hinb10_4 nbuf10_4 (Memref.isWhole_whole _) hwx10_4 hstage10_4

abbrev win10_5 : Pipeline.Window sig grid10 :=
  Pipeline.Window.ofSpec (Memref.whole main_v218_2) S1x128.size cc10_transform_5 reads10_5 true true 1 stage10_5 sem10_5
    hrank10 hreads10_5 hinb10_5 nbuf10_5 (Memref.isWhole_whole _) hwx10_5 hstage10_5

abbrev win10 : Fin 6 → Pipeline.Window sig grid10 := fun | 0 => win10_0 | 1 => win10_1 | 2 => win10_2 | 3 => win10_3 | 4 => win10_4 | 5 => win10_5 | ⟨_ + 6, h⟩ => absurd h (Nat.not_lt.2 (Nat.le_add_left _ _))
abbrev spec10 : Fin 6 → Pipeline.WinSpec sig grid10.rank := fun w => (win10 w).toWinSpec

abbrev win11_0 : Pipeline.Window sig grid11 :=
  Pipeline.Window.ofSpec (Memref.whole main_v218_0) S5000x128.size cc11_transform_0 reads11_0 false false 2 stage11_0 sem11_0
    hrank11 hreads11_0 hinb11_0 nbuf11_0 (Memref.isWhole_whole _) hwx11_0 hstage11_0

abbrev win11_1 : Pipeline.Window sig grid11 :=
  Pipeline.Window.ofSpec (Memref.whole main_v231) S1x128.size cc11_transform_1 reads11_1 false true 1 stage11_1 sem11_1
    hrank11 hreads11_1 hinb11_1 nbuf11_1 (Memref.isWhole_whole _) hwx11_1 hstage11_1

abbrev win11_2 : Pipeline.Window sig grid11 :=
  Pipeline.Window.ofSpec (Memref.whole main_v236) S1x128.size cc11_transform_2 reads11_2 false true 1 stage11_2 sem11_2
    hrank11 hreads11_2 hinb11_2 nbuf11_2 (Memref.isWhole_whole _) hwx11_2 hstage11_2

abbrev win11_3 : Pipeline.Window sig grid11 :=
  Pipeline.Window.ofSpec (Memref.whole main_v237) S5000x128.size cc11_transform_3 reads11_3 true false 2 stage11_3 sem11_3
    hrank11 hreads11_3 hinb11_3 nbuf11_3 (Memref.isWhole_whole _) hwx11_3 hstage11_3

abbrev win11 : Fin 4 → Pipeline.Window sig grid11 := fun | 0 => win11_0 | 1 => win11_1 | 2 => win11_2 | 3 => win11_3 | ⟨_ + 4, h⟩ => absurd h (Nat.not_lt.2 (Nat.le_add_left _ _))
abbrev spec11 : Fin 4 → Pipeline.WinSpec sig grid11.rank := fun w => (win11 w).toWinSpec

abbrev win12_0 : Pipeline.Window sig grid12 :=
  Pipeline.Window.ofSpec (Memref.whole main_v237) S5000x128.size cc12_transform_0 reads12_0 false false 2 stage12_0 sem12_0
    hrank12 hreads12_0 hinb12_0 nbuf12_0 (Memref.isWhole_whole _) hwx12_0 hstage12_0

abbrev win12_1 : Pipeline.Window sig grid12 :=
  Pipeline.Window.ofSpec (Memref.whole main_v247) S5000x128.size cc12_transform_1 reads12_1 false false 2 stage12_1 sem12_1
    hrank12 hreads12_1 hinb12_1 nbuf12_1 (Memref.isWhole_whole _) hwx12_1 hstage12_1

abbrev win12_2 : Pipeline.Window sig grid12 :=
  Pipeline.Window.ofSpec (Memref.whole main_v249) S128x128.size cc12_transform_2 reads12_2 false true 1 stage12_2 sem12_2
    hrank12 hreads12_2 hinb12_2 nbuf12_2 (Memref.isWhole_whole _) hwx12_2 hstage12_2

abbrev win12_3 : Pipeline.Window sig grid12 :=
  Pipeline.Window.ofSpec (Memref.whole main_v252) S1x128.size cc12_transform_3 reads12_3 false true 1 stage12_3 sem12_3
    hrank12 hreads12_3 hinb12_3 nbuf12_3 (Memref.isWhole_whole _) hwx12_3 hstage12_3

abbrev win12_4 : Pipeline.Window sig grid12 :=
  Pipeline.Window.ofSpec (Memref.whole main_v253_0) S5000x128.size cc12_transform_4 reads12_4 true false 2 stage12_4 sem12_4
    hrank12 hreads12_4 hinb12_4 nbuf12_4 (Memref.isWhole_whole _) hwx12_4 hstage12_4

abbrev win12_5 : Pipeline.Window sig grid12 :=
  Pipeline.Window.ofSpec (Memref.whole main_v253_1) S1x128.size cc12_transform_5 reads12_5 true true 1 stage12_5 sem12_5
    hrank12 hreads12_5 hinb12_5 nbuf12_5 (Memref.isWhole_whole _) hwx12_5 hstage12_5

abbrev win12_6 : Pipeline.Window sig grid12 :=
  Pipeline.Window.ofSpec (Memref.whole main_v253_2) S1x128.size cc12_transform_6 reads12_6 true true 1 stage12_6 sem12_6
    hrank12 hreads12_6 hinb12_6 nbuf12_6 (Memref.isWhole_whole _) hwx12_6 hstage12_6

abbrev win12 : Fin 7 → Pipeline.Window sig grid12 := fun | 0 => win12_0 | 1 => win12_1 | 2 => win12_2 | 3 => win12_3 | 4 => win12_4 | 5 => win12_5 | 6 => win12_6 | ⟨_ + 7, h⟩ => absurd h (Nat.not_lt.2 (Nat.le_add_left _ _))
abbrev spec12 : Fin 7 → Pipeline.WinSpec sig grid12.rank := fun w => (win12 w).toWinSpec

abbrev win13_0 : Pipeline.Window sig grid13 :=
  Pipeline.Window.ofSpec (Memref.whole main_v253_0) S5000x128.size cc13_transform_0 reads13_0 false false 2 stage13_0 sem13_0
    hrank13 hreads13_0 hinb13_0 nbuf13_0 (Memref.isWhole_whole _) hwx13_0 hstage13_0

abbrev win13_1 : Pipeline.Window sig grid13 :=
  Pipeline.Window.ofSpec (Memref.whole main_v266) S1x128.size cc13_transform_1 reads13_1 false true 1 stage13_1 sem13_1
    hrank13 hreads13_1 hinb13_1 nbuf13_1 (Memref.isWhole_whole _) hwx13_1 hstage13_1

abbrev win13_2 : Pipeline.Window sig grid13 :=
  Pipeline.Window.ofSpec (Memref.whole main_v271) S1x128.size cc13_transform_2 reads13_2 false true 1 stage13_2 sem13_2
    hrank13 hreads13_2 hinb13_2 nbuf13_2 (Memref.isWhole_whole _) hwx13_2 hstage13_2

abbrev win13_3 : Pipeline.Window sig grid13 :=
  Pipeline.Window.ofSpec (Memref.whole main_v273) S128x128.size cc13_transform_3 reads13_3 false true 1 stage13_3 sem13_3
    hrank13 hreads13_3 hinb13_3 nbuf13_3 (Memref.isWhole_whole _) hwx13_3 hstage13_3

abbrev win13_4 : Pipeline.Window sig grid13 :=
  Pipeline.Window.ofSpec (Memref.whole main_v276) S1x128.size cc13_transform_4 reads13_4 false true 1 stage13_4 sem13_4
    hrank13 hreads13_4 hinb13_4 nbuf13_4 (Memref.isWhole_whole _) hwx13_4 hstage13_4

abbrev win13_5 : Pipeline.Window sig grid13 :=
  Pipeline.Window.ofSpec (Memref.whole main_v277_0) S5000x128.size cc13_transform_5 reads13_5 true false 2 stage13_5 sem13_5
    hrank13 hreads13_5 hinb13_5 nbuf13_5 (Memref.isWhole_whole _) hwx13_5 hstage13_5

abbrev win13_6 : Pipeline.Window sig grid13 :=
  Pipeline.Window.ofSpec (Memref.whole main_v277_1) S1x128.size cc13_transform_6 reads13_6 true true 1 stage13_6 sem13_6
    hrank13 hreads13_6 hinb13_6 nbuf13_6 (Memref.isWhole_whole _) hwx13_6 hstage13_6

abbrev win13_7 : Pipeline.Window sig grid13 :=
  Pipeline.Window.ofSpec (Memref.whole main_v277_2) S1x128.size cc13_transform_7 reads13_7 true true 1 stage13_7 sem13_7
    hrank13 hreads13_7 hinb13_7 nbuf13_7 (Memref.isWhole_whole _) hwx13_7 hstage13_7

abbrev win13 : Fin 8 → Pipeline.Window sig grid13 := fun | 0 => win13_0 | 1 => win13_1 | 2 => win13_2 | 3 => win13_3 | 4 => win13_4 | 5 => win13_5 | 6 => win13_6 | 7 => win13_7 | ⟨_ + 8, h⟩ => absurd h (Nat.not_lt.2 (Nat.le_add_left _ _))
abbrev spec13 : Fin 8 → Pipeline.WinSpec sig grid13.rank := fun w => (win13 w).toWinSpec

abbrev win14_0 : Pipeline.Window sig grid14 :=
  Pipeline.Window.ofSpec (Memref.whole main_v277_0) S5000x128.size cc14_transform_0 reads14_0 false false 2 stage14_0 sem14_0
    hrank14 hreads14_0 hinb14_0 nbuf14_0 (Memref.isWhole_whole _) hwx14_0 hstage14_0

abbrev win14_1 : Pipeline.Window sig grid14 :=
  Pipeline.Window.ofSpec (Memref.whole main_v290) S1x128.size cc14_transform_1 reads14_1 false true 1 stage14_1 sem14_1
    hrank14 hreads14_1 hinb14_1 nbuf14_1 (Memref.isWhole_whole _) hwx14_1 hstage14_1

abbrev win14_2 : Pipeline.Window sig grid14 :=
  Pipeline.Window.ofSpec (Memref.whole main_v295) S1x128.size cc14_transform_2 reads14_2 false true 1 stage14_2 sem14_2
    hrank14 hreads14_2 hinb14_2 nbuf14_2 (Memref.isWhole_whole _) hwx14_2 hstage14_2

abbrev win14_3 : Pipeline.Window sig grid14 :=
  Pipeline.Window.ofSpec (Memref.whole main_v296_0) S5000x128.size cc14_transform_3 reads14_3 true false 2 stage14_3 sem14_3
    hrank14 hreads14_3 hinb14_3 nbuf14_3 (Memref.isWhole_whole _) hwx14_3 hstage14_3

abbrev win14_4 : Pipeline.Window sig grid14 :=
  Pipeline.Window.ofSpec (Memref.whole main_v296_1) S1x128.size cc14_transform_4 reads14_4 true true 1 stage14_4 sem14_4
    hrank14 hreads14_4 hinb14_4 nbuf14_4 (Memref.isWhole_whole _) hwx14_4 hstage14_4

abbrev win14_5 : Pipeline.Window sig grid14 :=
  Pipeline.Window.ofSpec (Memref.whole main_v296_2) S1x128.size cc14_transform_5 reads14_5 true true 1 stage14_5 sem14_5
    hrank14 hreads14_5 hinb14_5 nbuf14_5 (Memref.isWhole_whole _) hwx14_5 hstage14_5

abbrev win14 : Fin 6 → Pipeline.Window sig grid14 := fun | 0 => win14_0 | 1 => win14_1 | 2 => win14_2 | 3 => win14_3 | 4 => win14_4 | 5 => win14_5 | ⟨_ + 6, h⟩ => absurd h (Nat.not_lt.2 (Nat.le_add_left _ _))
abbrev spec14 : Fin 6 → Pipeline.WinSpec sig grid14.rank := fun w => (win14 w).toWinSpec

abbrev win15_0 : Pipeline.Window sig grid15 :=
  Pipeline.Window.ofSpec (Memref.whole main_v296_0) S5000x128.size cc15_transform_0 reads15_0 false false 2 stage15_0 sem15_0
    hrank15 hreads15_0 hinb15_0 nbuf15_0 (Memref.isWhole_whole _) hwx15_0 hstage15_0

abbrev win15_1 : Pipeline.Window sig grid15 :=
  Pipeline.Window.ofSpec (Memref.whole main_v309) S1x128.size cc15_transform_1 reads15_1 false true 1 stage15_1 sem15_1
    hrank15 hreads15_1 hinb15_1 nbuf15_1 (Memref.isWhole_whole _) hwx15_1 hstage15_1

abbrev win15_2 : Pipeline.Window sig grid15 :=
  Pipeline.Window.ofSpec (Memref.whole main_v314) S1x128.size cc15_transform_2 reads15_2 false true 1 stage15_2 sem15_2
    hrank15 hreads15_2 hinb15_2 nbuf15_2 (Memref.isWhole_whole _) hwx15_2 hstage15_2

abbrev win15_3 : Pipeline.Window sig grid15 :=
  Pipeline.Window.ofSpec (Memref.whole main_v315) S5000x128.size cc15_transform_3 reads15_3 true false 2 stage15_3 sem15_3
    hrank15 hreads15_3 hinb15_3 nbuf15_3 (Memref.isWhole_whole _) hwx15_3 hstage15_3

abbrev win15 : Fin 4 → Pipeline.Window sig grid15 := fun | 0 => win15_0 | 1 => win15_1 | 2 => win15_2 | 3 => win15_3 | ⟨_ + 4, h⟩ => absurd h (Nat.not_lt.2 (Nat.le_add_left _ _))
abbrev spec15 : Fin 4 → Pipeline.WinSpec sig grid15.rank := fun w => (win15 w).toWinSpec

abbrev win16_0 : Pipeline.Window sig grid16 :=
  Pipeline.Window.ofSpec (Memref.whole main_v318) S512x128.size cc16_transform_0 reads16_0 false true 1 stage16_0 sem16_0
    hrank16 hreads16_0 hinb16_0 nbuf16_0 (Memref.isWhole_whole _) hwx16_0 hstage16_0

abbrev win16_1 : Pipeline.Window sig grid16 :=
  Pipeline.Window.ofSpec (Memref.whole main_arg3) S512x5.size cc16_transform_1 reads16_1 false true 1 stage16_1 sem16_1
    hrank16 hreads16_1 hinb16_1 nbuf16_1 (Memref.isWhole_whole _) hwx16_1 hstage16_1

abbrev win16_2 : Pipeline.Window sig grid16 :=
  Pipeline.Window.ofSpec (Memref.whole main_arg14) S133x256.size cc16_transform_2 reads16_2 false true 1 stage16_2 sem16_2
    hrank16 hreads16_2 hinb16_2 nbuf16_2 (Memref.isWhole_whole _) hwx16_2 hstage16_2

abbrev win16_3 : Pipeline.Window sig grid16 :=
  Pipeline.Window.ofSpec (Memref.whole main_v319) S1x256.size cc16_transform_3 reads16_3 false true 1 stage16_3 sem16_3
    hrank16 hreads16_3 hinb16_3 nbuf16_3 (Memref.isWhole_whole _) hwx16_3 hstage16_3

abbrev win16_4 : Pipeline.Window sig grid16 :=
  Pipeline.Window.ofSpec (Memref.whole main_arg16) S256x256.size cc16_transform_4 reads16_4 false true 1 stage16_4 sem16_4
    hrank16 hreads16_4 hinb16_4 nbuf16_4 (Memref.isWhole_whole _) hwx16_4 hstage16_4

abbrev win16_5 : Pipeline.Window sig grid16 :=
  Pipeline.Window.ofSpec (Memref.whole main_v320) S1x256.size cc16_transform_5 reads16_5 false true 1 stage16_5 sem16_5
    hrank16 hreads16_5 hinb16_5 nbuf16_5 (Memref.isWhole_whole _) hwx16_5 hstage16_5

abbrev win16_6 : Pipeline.Window sig grid16 :=
  Pipeline.Window.ofSpec (Memref.whole main_arg18) S256x1.size cc16_transform_6 reads16_6 false true 1 stage16_6 sem16_6
    hrank16 hreads16_6 hinb16_6 nbuf16_6 (Memref.isWhole_whole _) hwx16_6 hstage16_6

abbrev win16_7 : Pipeline.Window sig grid16 :=
  Pipeline.Window.ofSpec (Memref.whole main_v321) S1x1.size cc16_transform_7 reads16_7 false true 1 stage16_7 sem16_7
    hrank16 hreads16_7 hinb16_7 nbuf16_7 (Memref.isWhole_whole _) hwx16_7 hstage16_7

abbrev win16_8 : Pipeline.Window sig grid16 :=
  Pipeline.Window.ofSpec (Memref.whole main_v322) S512x1.size cc16_transform_8 reads16_8 true true 1 stage16_8 sem16_8
    hrank16 hreads16_8 hinb16_8 nbuf16_8 (Memref.isWhole_whole _) hwx16_8 hstage16_8

abbrev win16 : Fin 9 → Pipeline.Window sig grid16 := fun | 0 => win16_0 | 1 => win16_1 | 2 => win16_2 | 3 => win16_3 | 4 => win16_4 | 5 => win16_5 | 6 => win16_6 | 7 => win16_7 | 8 => win16_8 | ⟨_ + 9, h⟩ => absurd h (Nat.not_lt.2 (Nat.le_add_left _ _))
abbrev spec16 : Fin 9 → Pipeline.WinSpec sig grid16.rank := fun w => (win16 w).toWinSpec

class Facts : Prop extends Facts₀ where

variable [Facts]
-- ==== ReferenceIdeal.lean ====
abbrev S100000x128 : Shape := ⟨2, ![100000, 128]⟩
abbrev S2x640000 : Shape := ⟨2, ![2, 640000]⟩
abbrev S100000 : Shape := ⟨1, ![100000]⟩
abbrev S512x5 : Shape := ⟨2, ![512, 5]⟩
abbrev S4x128x128 : Shape := ⟨3, ![4, 128, 128]⟩
abbrev S4x128 : Shape := ⟨2, ![4, 128]⟩
abbrev S133x256 : Shape := ⟨2, ![133, 256]⟩
abbrev S256 : Shape := ⟨1, ![256]⟩
abbrev S256x256 : Shape := ⟨2, ![256, 256]⟩
abbrev S256x1 : Shape := ⟨2, ![256, 1]⟩
abbrev S1 : Shape := ⟨1, ![1]⟩
abbrev S1x640000 : Shape := ⟨2, ![1, 640000]⟩
abbrev S640000 : Shape := ⟨1, ![640000]⟩
abbrev S_ : Shape := ⟨0, ![]⟩
abbrev S640000x1 : Shape := ⟨2, ![640000, 1]⟩
abbrev S640000x128 : Shape := ⟨2, ![640000, 128]⟩
abbrev S1x128x128 : Shape := ⟨3, ![1, 128, 128]⟩
abbrev S128x128 : Shape := ⟨2, ![128, 128]⟩
abbrev S1x128 : Shape := ⟨2, ![1, 128]⟩
abbrev S128 : Shape := ⟨1, ![128]⟩
abbrev S512x128 : Shape := ⟨2, ![512, 128]⟩
abbrev S100000x1 : Shape := ⟨2, ![100000, 1]⟩
abbrev S512x133 : Shape := ⟨2, ![512, 133]⟩
abbrev S512x256 : Shape := ⟨2, ![512, 256]⟩
abbrev S1x256 : Shape := ⟨2, ![1, 256]⟩
abbrev S512x1 : Shape := ⟨2, ![512, 1]⟩
abbrev S1x1 : Shape := ⟨2, ![1, 1]⟩

abbrev nBuf : Space → Nat
  | .hbm => 789
  | .vmem => 0
  | .smem => 0
  | _ => 0

abbrev hbmTy0_0 (i : Nat) : BufTy := match i % 128 with
  | 0 => ⟨S100000x128, .f32⟩
  | 1 => ⟨S2x640000, .i32⟩
  | 2 => ⟨S100000, .i32⟩
  | 3 => ⟨S512x5, .f32⟩
  | 4 => ⟨S4x128x128, .f32⟩
  | 5 => ⟨S4x128, .f32⟩
  | 6 => ⟨S4x128, .f32⟩
  | 7 => ⟨S4x128, .f32⟩
  | 8 => ⟨S4x128x128, .f32⟩
  | 9 => ⟨S4x128, .f32⟩
  | 10 => ⟨S4x128, .f32⟩
  | 11 => ⟨S4x128, .f32⟩
  | 12 => ⟨S4x128, .f32⟩
  | 13 => ⟨S4x128, .f32⟩
  | 14 => ⟨S133x256, .f32⟩
  | 15 => ⟨S256, .f32⟩
  | 16 => ⟨S256x256, .f32⟩
  | 17 => ⟨S256, .f32⟩
  | 18 => ⟨S256x1, .f32⟩
  | 19 => ⟨S1, .f32⟩
  | 20 => ⟨S1x640000, .i32⟩
  | 21 => ⟨S640000, .i32⟩
  | 22 => ⟨S1x640000, .i32⟩
  | 23 => ⟨S640000, .i32⟩
  | 24 => ⟨S_, .i32⟩
  | 25 => ⟨S640000, .i32⟩
  | 26 => ⟨S640000, .i1⟩
  | 27 => ⟨S_, .i32⟩
  | 28 => ⟨S640000, .i32⟩
  | 29 => ⟨S640000, .i32⟩
  | 30 => ⟨S640000, .i32⟩
  | 31 => ⟨S640000x1, .i32⟩
  | 32 => ⟨S640000x128, .f32⟩
  | 33 => ⟨S_, .f32⟩
  | 34 => ⟨S100000x128, .f32⟩
  | 35 => ⟨S640000x1, .i32⟩
  | 36 => ⟨S100000x128, .f32⟩
  | 37 => ⟨S100000x128, .f32⟩
  | 38 => ⟨S1x128x128, .f32⟩
  | 39 => ⟨S128x128, .f32⟩
  | 40 => ⟨S100000x128, .f32⟩
  | 41 => ⟨S1x128, .f32⟩
  | 42 => ⟨S128, .f32⟩
  | 43 => ⟨S1x128, .f32⟩
  | 44 => ⟨S100000x128, .f32⟩
  | 45 => ⟨S100000x128, .f32⟩
  | 46 => ⟨S1x128, .f32⟩
  | 47 => ⟨S128, .f32⟩
  | 48 => ⟨S1x128, .f32⟩
  | 49 => ⟨S128, .f32⟩
  | 50 => ⟨S_, .f32⟩
  | 51 => ⟨S128, .f32⟩
  | 52 => ⟨S_, .f32⟩
  | 53 => ⟨S128, .f32⟩
  | 54 => ⟨S128, .f32⟩
  | 55 => ⟨S_, .i32⟩
  | 56 => ⟨S_, .f32⟩
  | 57 => ⟨S128, .f32⟩
  | 58 => ⟨S1x128, .f32⟩
  | 59 => ⟨S_, .f32⟩
  | 60 => ⟨S1x128, .f32⟩
  | 61 => ⟨S1x128, .f32⟩
  | 62 => ⟨S100000x128, .f32⟩
  | 63 => ⟨S100000x128, .f32⟩
  | 64 => ⟨S100000x128, .f32⟩
  | 65 => ⟨S_, .f32⟩
  | 66 => ⟨S_, .f32⟩
  | 67 => ⟨S_, .f32⟩
  | 68 => ⟨S_, .f32⟩
  | 69 => ⟨S128, .f32⟩
  | 70 => ⟨S128, .f32⟩
  | 71 => ⟨S128, .f32⟩
  | 72 => ⟨S_, .f32⟩
  | 73 => ⟨S_, .i1⟩
  | 74 => ⟨S_, .f32⟩
  | 75 => ⟨S_, .f32⟩
  | 76 => ⟨S128, .f32⟩
  | 77 => ⟨S128, .f32⟩
  | 78 => ⟨S1x128, .f32⟩
  | 79 => ⟨S100000x128, .f32⟩
  | 80 => ⟨S100000x128, .f32⟩
  | 81 => ⟨S_, .f32⟩
  | 82 => ⟨S128, .f32⟩
  | 83 => ⟨S128, .f32⟩
  | 84 => ⟨S128, .f32⟩
  | 85 => ⟨S1x128, .f32⟩
  | 86 => ⟨S100000x128, .f32⟩
  | 87 => ⟨S100000x128, .f32⟩
  | 88 => ⟨S1x128, .f32⟩
  | 89 => ⟨S100000x128, .f32⟩
  | 90 => ⟨S100000x128, .f32⟩
  | 91 => ⟨S1x128, .f32⟩
  | 92 => ⟨S100000x128, .f32⟩
  | 93 => ⟨S100000x128, .f32⟩
  | 94 => ⟨S_, .f32⟩
  | 95 => ⟨S100000x128, .f32⟩
  | 96 => ⟨S100000x128, .f32⟩
  | 97 => ⟨S1x128x128, .f32⟩
  | 98 => ⟨S128x128, .f32⟩
  | 99 => ⟨S100000x128, .f32⟩
  | 100 => ⟨S1x128, .f32⟩
  | 101 => ⟨S128, .f32⟩
  | 102 => ⟨S1x128, .f32⟩
  | 103 => ⟨S100000x128, .f32⟩
  | 104 => ⟨S100000x128, .f32⟩
  | 105 => ⟨S1x128, .f32⟩
  | 106 => ⟨S128, .f32⟩
  | 107 => ⟨S1x128, .f32⟩
  | 108 => ⟨S128, .f32⟩
  | 109 => ⟨S_, .f32⟩
  | 110 => ⟨S128, .f32⟩
  | 111 => ⟨S_, .f32⟩
  | 112 => ⟨S128, .f32⟩
  | 113 => ⟨S128, .f32⟩
  | 114 => ⟨S_, .i32⟩
  | 115 => ⟨S_, .f32⟩
  | 116 => ⟨S128, .f32⟩
  | 117 => ⟨S1x128, .f32⟩
  | 118 => ⟨S_, .f32⟩
  | 119 => ⟨S1x128, .f32⟩
  | 120 => ⟨S1x128, .f32⟩
  | 121 => ⟨S100000x128, .f32⟩
  | 122 => ⟨S100000x128, .f32⟩
  | 123 => ⟨S100000x128, .f32⟩
  | 124 => ⟨S_, .f32⟩
  | 125 => ⟨S_, .f32⟩
  | 126 => ⟨S_, .f32⟩
  | 127 => ⟨S_, .f32⟩
  | _ => ⟨S100000x128, .f32⟩

abbrev hbmTy0_1 (i : Nat) : BufTy := match i % 128 with
  | 0 => ⟨S128, .f32⟩
  | 1 => ⟨S128, .f32⟩
  | 2 => ⟨S128, .f32⟩
  | 3 => ⟨S_, .f32⟩
  | 4 => ⟨S_, .i1⟩
  | 5 => ⟨S_, .f32⟩
  | 6 => ⟨S_, .f32⟩
  | 7 => ⟨S128, .f32⟩
  | 8 => ⟨S128, .f32⟩
  | 9 => ⟨S1x128, .f32⟩
  | 10 => ⟨S100000x128, .f32⟩
  | 11 => ⟨S100000x128, .f32⟩
  | 12 => ⟨S_, .f32⟩
  | 13 => ⟨S128, .f32⟩
  | 14 => ⟨S128, .f32⟩
  | 15 => ⟨S128, .f32⟩
  | 16 => ⟨S1x128, .f32⟩
  | 17 => ⟨S100000x128, .f32⟩
  | 18 => ⟨S100000x128, .f32⟩
  | 19 => ⟨S1x128, .f32⟩
  | 20 => ⟨S100000x128, .f32⟩
  | 21 => ⟨S100000x128, .f32⟩
  | 22 => ⟨S1x128, .f32⟩
  | 23 => ⟨S100000x128, .f32⟩
  | 24 => ⟨S100000x128, .f32⟩
  | 25 => ⟨S_, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S_, .i32⟩
  | 80 => ⟨S640000, .i32⟩
  | 81 => ⟨S640000, .i1⟩
  | 82 => ⟨S_, .i32⟩
  | 83 => ⟨S640000, .i32⟩
  | 84 => ⟨S640000, .i32⟩
  | 85 => ⟨S640000, .i32⟩
  | 86 => ⟨S640000x1, .i32⟩
  | 87 => ⟨S640000x128, .f32⟩
  | 88 => ⟨S_, .f32⟩
  | 89 => ⟨S100000x128, .f32⟩
  | 90 => ⟨S640000x1, .i32⟩
  | 91 => ⟨S100000x128, .f32⟩
  | 92 => ⟨S100000x128, .f32⟩
  | 93 => ⟨S1x128x128, .f32⟩
  | 94 => ⟨S128x128, .f32⟩
  | 95 => ⟨S100000x128, .f32⟩
  | 96 => ⟨S1x128, .f32⟩
  | 97 => ⟨S128, .f32⟩
  | 98 => ⟨S1x128, .f32⟩
  | 99 => ⟨S100000x128, .f32⟩
  | 100 => ⟨S100000x128, .f32⟩
  | 101 => ⟨S1x128, .f32⟩
  | 102 => ⟨S128, .f32⟩
  | 103 => ⟨S1x128, .f32⟩
  | 104 => ⟨S128, .f32⟩
  | 105 => ⟨S_, .f32⟩
  | 106 => ⟨S128, .f32⟩
  | 107 => ⟨S_, .f32⟩
  | 108 => ⟨S128, .f32⟩
  | 109 => ⟨S128, .f32⟩
  | 110 => ⟨S_, .i32⟩
  | 111 => ⟨S_, .f32⟩
  | 112 => ⟨S128, .f32⟩
  | 113 => ⟨S1x128, .f32⟩
  | 114 => ⟨S_, .f32⟩
  | 115 => ⟨S1x128, .f32⟩
  | 116 => ⟨S1x128, .f32⟩
  | 117 => ⟨S100000x128, .f32⟩
  | 118 => ⟨S100000x128, .f32⟩
  | 119 => ⟨S100000x128, .f32⟩
  | 120 => ⟨S_, .f32⟩
  | 121 => ⟨S_, .f32⟩
  | 122 => ⟨S_, .f32⟩
  | 123 => ⟨S_, .f32⟩
  | 124 => ⟨S128, .f32⟩
  | 125 => ⟨S128, .f32⟩
  | 126 => ⟨S128, .f32⟩
  | 127 => ⟨S_, .f32⟩
  | _ => ⟨S100000x128, .f32⟩

abbrev hbmTy0_2 (i : Nat) : BufTy := match i % 128 with
  | 0 => ⟨S_, .i1⟩
  | 1 => ⟨S_, .f32⟩
  | 2 => ⟨S_, .f32⟩
  | 3 => ⟨S128, .f32⟩
  | 4 => ⟨S128, .f32⟩
  | 5 => ⟨S1x128, .f32⟩
  | 6 => ⟨S100000x128, .f32⟩
  | 7 => ⟨S100000x128, .f32⟩
  | 8 => ⟨S_, .f32⟩
  | 9 => ⟨S128, .f32⟩
  | 10 => ⟨S128, .f32⟩
  | 11 => ⟨S128, .f32⟩
  | 12 => ⟨S1x128, .f32⟩
  | 13 => ⟨S100000x128, .f32⟩
  | 14 => ⟨S100000x128, .f32⟩
  | 15 => ⟨S1x128, .f32⟩
  | 16 => ⟨S100000x128, .f32⟩
  | 17 => ⟨S100000x128, .f32⟩
  | 18 => ⟨S1x128, .f32⟩
  | 19 => ⟨S100000x128, .f32⟩
  | 20 => ⟨S100000x128, .f32⟩
  | 21 => ⟨S_, .f32⟩
  | 22 => ⟨S100000x128, .f32⟩
  | 23 => ⟨S100000x128, .f32⟩
  | 24 => ⟨S1x128x128, .f32⟩
  | 25 => ⟨S128x128, .f32⟩
  | 26 => ⟨S100000x128, .f32⟩
  | 27 => ⟨S1x128, .f32⟩
  | 28 => ⟨S128, .f32⟩
  | 29 => ⟨S1x128, .f32⟩
  | 30 => ⟨S100000x128, .f32⟩
  | 31 => ⟨S100000x128, .f32⟩
  | 32 => ⟨S1x128, .f32⟩
  | 33 => ⟨S128, .f32⟩
  | 34 => ⟨S1x128, .f32⟩
  | 35 => ⟨S128, .f32⟩
  | 36 => ⟨S_, .f32⟩
  | 37 => ⟨S128, .f32⟩
  | 38 => ⟨S_, .f32⟩
  | 39 => ⟨S128, .f32⟩
  | 40 => ⟨S128, .f32⟩
  | 41 => ⟨S_, .i32⟩
  | 42 => ⟨S_, .f32⟩
  | 43 => ⟨S128, .f32⟩
  | 44 => ⟨S1x128, .f32⟩
  | 45 => ⟨S_, .f32⟩
  | 46 => ⟨S1x128, .f32⟩
  | 47 => ⟨S1x128, .f32⟩
  | 48 => ⟨S100000x128, .f32⟩
  | 49 => ⟨S100000x128, .f32⟩
  | 50 => ⟨S100000x128, .f32⟩
  | 51 => ⟨S_, .f32⟩
  | 52 => ⟨S_, .f32⟩
  | 53 => ⟨S_, .f32⟩
  | 54 => ⟨S_, .f32⟩
  | 55 => ⟨S128, .f32⟩
  | 56 => ⟨S128, .f32⟩
  | 57 => ⟨S128, .f32⟩
  | 58 => ⟨S_, .f32⟩
  | 59 => ⟨S_, .i1⟩
  | 60 => ⟨S_, .f32⟩
  | 61 => ⟨S_, .f32⟩
  | 62 => ⟨S128, .f32⟩
  | 63 => ⟨S128, .f32⟩
  | 64 => ⟨S1x128, .f32⟩
  | 65 => ⟨S100000x128, .f32⟩
  | 66 => ⟨S100000x128, .f32⟩
  | 67 => ⟨S_, .f32⟩
  | 68 => ⟨S128, .f32⟩
  | 69 => ⟨S128, .f32⟩
  | 70 => ⟨S128, .f32⟩
  | 71 => ⟨S1x128, .f32⟩
  | 72 => ⟨S100000x128, .f32⟩
  | 73 => ⟨S100000x128, .f32⟩
  | 74 => ⟨S1x128, .f32⟩
  | 75 => ⟨S100000x128, .f32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_3 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S_, .i32⟩
  | 7 => ⟨S640000, .i32⟩
  | 8 => ⟨S640000, .i1⟩
  | 9 => ⟨S_, .i32⟩
  | 10 => ⟨S640000, .i32⟩
  | 11 => ⟨S640000, .i32⟩
  | 12 => ⟨S640000, .i32⟩
  | 13 => ⟨S640000x1, .i32⟩
  | 14 => ⟨S640000x128, .f32⟩
  | 15 => ⟨S_, .f32⟩
  | 16 => ⟨S100000x128, .f32⟩
  | 17 => ⟨S640000x1, .i32⟩
  | 18 => ⟨S100000x128, .f32⟩
  | 19 => ⟨S100000x128, .f32⟩
  | 20 => ⟨S1x128x128, .f32⟩
  | 21 => ⟨S128x128, .f32⟩
  | 22 => ⟨S100000x128, .f32⟩
  | 23 => ⟨S1x128, .f32⟩
  | 24 => ⟨S128, .f32⟩
  | 25 => ⟨S1x128, .f32⟩
  | 26 => ⟨S100000x128, .f32⟩
  | 27 => ⟨S100000x128, .f32⟩
  | 28 => ⟨S1x128, .f32⟩
  | 29 => ⟨S128, .f32⟩
  | 30 => ⟨S1x128, .f32⟩
  | 31 => ⟨S128, .f32⟩
  | 32 => ⟨S_, .f32⟩
  | 33 => ⟨S128, .f32⟩
  | 34 => ⟨S_, .f32⟩
  | 35 => ⟨S128, .f32⟩
  | 36 => ⟨S128, .f32⟩
  | 37 => ⟨S_, .i32⟩
  | 38 => ⟨S_, .f32⟩
  | 39 => ⟨S128, .f32⟩
  | 40 => ⟨S1x128, .f32⟩
  | 41 => ⟨S_, .f32⟩
  | 42 => ⟨S1x128, .f32⟩
  | 43 => ⟨S1x128, .f32⟩
  | 44 => ⟨S100000x128, .f32⟩
  | 45 => ⟨S100000x128, .f32⟩
  | 46 => ⟨S100000x128, .f32⟩
  | 47 => ⟨S_, .f32⟩
  | 48 => ⟨S_, .f32⟩
  | 49 => ⟨S_, .f32⟩
  | 50 => ⟨S_, .f32⟩
  | 51 => ⟨S128, .f32⟩
  | 52 => ⟨S128, .f32⟩
  | 53 => ⟨S128, .f32⟩
  | 54 => ⟨S_, .f32⟩
  | 55 => ⟨S_, .i1⟩
  | 56 => ⟨S_, .f32⟩
  | 57 => ⟨S_, .f32⟩
  | 58 => ⟨S128, .f32⟩
  | 59 => ⟨S128, .f32⟩
  | 60 => ⟨S1x128, .f32⟩
  | 61 => ⟨S100000x128, .f32⟩
  | 62 => ⟨S100000x128, .f32⟩
  | 63 => ⟨S_, .f32⟩
  | 64 => ⟨S128, .f32⟩
  | 65 => ⟨S128, .f32⟩
  | 66 => ⟨S128, .f32⟩
  | 67 => ⟨S1x128, .f32⟩
  | 68 => ⟨S100000x128, .f32⟩
  | 69 => ⟨S100000x128, .f32⟩
  | 70 => ⟨S1x128, .f32⟩
  | 71 => ⟨S100000x128, .f32⟩
  | 72 => ⟨S100000x128, .f32⟩
  | 73 => ⟨S1x128, .f32⟩
  | 74 => ⟨S100000x128, .f32⟩
  | 75 => ⟨S100000x128, .f32⟩
  | 76 => ⟨S_, .f32⟩
  | 77 => ⟨S100000x128, .f32⟩
  | 78 => ⟨S100000x128, .f32⟩
  | 79 => ⟨S1x128x128, .f32⟩
  | 80 => ⟨S128x128, .f32⟩
  | 81 => ⟨S100000x128, .f32⟩
  | 82 => ⟨S1x128, .f32⟩
  | 83 => ⟨S128, .f32⟩
  | 84 => ⟨S1x128, .f32⟩
  | 85 => ⟨S100000x128, .f32⟩
  | 86 => ⟨S100000x128, .f32⟩
  | 87 => ⟨S1x128, .f32⟩
  | 88 => ⟨S128, .f32⟩
  | 89 => ⟨S1x128, .f32⟩
  | 90 => ⟨S128, .f32⟩
  | 91 => ⟨S_, .f32⟩
  | 92 => ⟨S128, .f32⟩
  | 93 => ⟨S_, .f32⟩
  | 94 => ⟨S128, .f32⟩
  | 95 => ⟨S128, .f32⟩
  | 96 => ⟨S_, .i32⟩
  | 97 => ⟨S_, .f32⟩
  | 98 => ⟨S128, .f32⟩
  | 99 => ⟨S1x128, .f32⟩
  | 100 => ⟨S_, .f32⟩
  | 101 => ⟨S1x128, .f32⟩
  | 102 => ⟨S1x128, .f32⟩
  | 103 => ⟨S100000x128, .f32⟩
  | 104 => ⟨S100000x128, .f32⟩
  | 105 => ⟨S100000x128, .f32⟩
  | 106 => ⟨S_, .f32⟩
  | 107 => ⟨S_, .f32⟩
  | 108 => ⟨S_, .f32⟩
  | 109 => ⟨S_, .f32⟩
  | 110 => ⟨S128, .f32⟩
  | 111 => ⟨S128, .f32⟩
  | 112 => ⟨S128, .f32⟩
  | 113 => ⟨S_, .f32⟩
  | 114 => ⟨S_, .i1⟩
  | 115 => ⟨S_, .f32⟩
  | 116 => ⟨S_, .f32⟩
  | 117 => ⟨S128, .f32⟩
  | 118 => ⟨S128, .f32⟩
  | 119 => ⟨S1x128, .f32⟩
  | 120 => ⟨S100000x128, .f32⟩
  | 121 => ⟨S100000x128, .f32⟩
  | 122 => ⟨S_, .f32⟩
  | 123 => ⟨S128, .f32⟩
  | 124 => ⟨S128, .f32⟩
  | 125 => ⟨S128, .f32⟩
  | 126 => ⟨S1x128, .f32⟩
  | 127 => ⟨S100000x128, .f32⟩
  | _ => ⟨S100000x128, .f32⟩

abbrev hbmTy0_4 (i : Nat) : BufTy := match i % 128 with
  | 0 => ⟨S100000x128, .f32⟩
  | 1 => ⟨S1x128, .f32⟩
  | 2 => ⟨S100000x128, .f32⟩
  | 3 => ⟨S100000x128, .f32⟩
  | 4 => ⟨S1x128, .f32⟩
  | 5 => ⟨S100000x128, .f32⟩
  | 6 => ⟨S100000x128, .f32⟩
  | 7 => ⟨S_, .f32⟩
  | 8 => ⟨S100000x128, .f32⟩
  | 9 => ⟨S100000x128, .f32⟩
  | 10 => ⟨S1x128, .f32⟩
  | 11 => ⟨S128, .f32⟩
  | 12 => ⟨S1x128, .f32⟩
  | 13 => ⟨S128, .f32⟩
  | 14 => ⟨S_, .f32⟩
  | 15 => ⟨S128, .f32⟩
  | 16 => ⟨S_, .f32⟩
  | 17 => ⟨S128, .f32⟩
  | 18 => ⟨S128, .f32⟩
  | 19 => ⟨S_, .i32⟩
  | 20 => ⟨S_, .f32⟩
  | 21 => ⟨S128, .f32⟩
  | 22 => ⟨S1x128, .f32⟩
  | 23 => ⟨S_, .f32⟩
  | 24 => ⟨S1x128, .f32⟩
  | 25 => ⟨S1x128, .f32⟩
  | 26 => ⟨S100000x128, .f32⟩
  | 27 => ⟨S100000x128, .f32⟩
  | 28 => ⟨S100000x128, .f32⟩
  | 29 => ⟨S_, .f32⟩
  | 30 => ⟨S_, .f32⟩
  | 31 => ⟨S_, .f32⟩
  | 32 => ⟨S_, .f32⟩
  | 33 => ⟨S128, .f32⟩
  | 34 => ⟨S128, .f32⟩
  | 35 => ⟨S128, .f32⟩
  | 36 => ⟨S_, .f32⟩
  | 37 => ⟨S_, .i1⟩
  | 38 => ⟨S_, .f32⟩
  | 39 => ⟨S_, .f32⟩
  | 40 => ⟨S128, .f32⟩
  | 41 => ⟨S128, .f32⟩
  | 42 => ⟨S1x128, .f32⟩
  | 43 => ⟨S100000x128, .f32⟩
  | 44 => ⟨S100000x128, .f32⟩
  | 45 => ⟨S_, .f32⟩
  | 46 => ⟨S128, .f32⟩
  | 47 => ⟨S128, .f32⟩
  | 48 => ⟨S128, .f32⟩
  | 49 => ⟨S1x128, .f32⟩
  | 50 => ⟨S100000x128, .f32⟩
  | 51 => ⟨S100000x128, .f32⟩
  | 52 => ⟨S1x128, .f32⟩
  | 53 => ⟨S100000x128, .f32⟩
  | 54 => ⟨S100000x128, .f32⟩
  | 55 => ⟨S1x128, .f32⟩
  | 56 => ⟨S100000x128, .f32⟩
  | 57 => ⟨S100000x128, .f32⟩
  | 58 => ⟨S_, .f32⟩
  | 59 => ⟨S100000x128, .f32⟩
  | 60 => ⟨S100000x128, .f32⟩
  | 61 => ⟨S_, .i32⟩
  | 62 => ⟨S640000, .i32⟩
  | 63 => ⟨S640000, .i1⟩
  | 64 => ⟨S_, .i32⟩
  | 65 => ⟨S640000, .i32⟩
  | 66 => ⟨S640000, .i32⟩
  | 67 => ⟨S640000, .i32⟩
  | 68 => ⟨S640000x1, .i32⟩
  | 69 => ⟨S640000x128, .f32⟩
  | 70 => ⟨S_, .f32⟩
  | 71 => ⟨S100000x128, .f32⟩
  | 72 => ⟨S640000x1, .i32⟩
  | 73 => ⟨S100000x128, .f32⟩
  | 74 => ⟨S100000x128, .f32⟩
  | 75 => ⟨S1x128x128, .f32⟩
  | 76 => ⟨S128x128, .f32⟩
  | 77 => ⟨S100000x128, .f32⟩
  | 78 => ⟨S1x128, .f32⟩
  | 79 => ⟨S128, .f32⟩
  | 80 => ⟨S1x128, .f32⟩
  | 81 => ⟨S100000x128, .f32⟩
  | 82 => ⟨S100000x128, .f32⟩
  | 83 => ⟨S1x128, .f32⟩
  | 84 => ⟨S128, .f32⟩
  | 85 => ⟨S1x128, .f32⟩
  | 86 => ⟨S128, .f32⟩
  | 87 => ⟨S_, .f32⟩
  | 88 => ⟨S128, .f32⟩
  | 89 => ⟨S_, .f32⟩
  | 90 => ⟨S128, .f32⟩
  | 91 => ⟨S128, .f32⟩
  | 92 => ⟨S_, .i32⟩
  | 93 => ⟨S_, .f32⟩
  | 94 => ⟨S128, .f32⟩
  | 95 => ⟨S1x128, .f32⟩
  | 96 => ⟨S_, .f32⟩
  | 97 => ⟨S1x128, .f32⟩
  | 98 => ⟨S1x128, .f32⟩
  | 99 => ⟨S100000x128, .f32⟩
  | 100 => ⟨S100000x128, .f32⟩
  | 101 => ⟨S100000x128, .f32⟩
  | 102 => ⟨S_, .f32⟩
  | 103 => ⟨S_, .f32⟩
  | 104 => ⟨S_, .f32⟩
  | 105 => ⟨S_, .f32⟩
  | 106 => ⟨S128, .f32⟩
  | 107 => ⟨S128, .f32⟩
  | 108 => ⟨S128, .f32⟩
  | 109 => ⟨S_, .f32⟩
  | 110 => ⟨S_, .i1⟩
  | 111 => ⟨S_, .f32⟩
  | 112 => ⟨S_, .f32⟩
  | 113 => ⟨S128, .f32⟩
  | 114 => ⟨S128, .f32⟩
  | 115 => ⟨S1x128, .f32⟩
  | 116 => ⟨S100000x128, .f32⟩
  | 117 => ⟨S100000x128, .f32⟩
  | 118 => ⟨S_, .f32⟩
  | 119 => ⟨S128, .f32⟩
  | 120 => ⟨S128, .f32⟩
  | 121 => ⟨S128, .f32⟩
  | 122 => ⟨S1x128, .f32⟩
  | 123 => ⟨S100000x128, .f32⟩
  | 124 => ⟨S100000x128, .f32⟩
  | 125 => ⟨S1x128, .f32⟩
  | 126 => ⟨S100000x128, .f32⟩
  | 127 => ⟨S100000x128, .f32⟩
  | _ => ⟨S100000x128, .f32⟩

abbrev hbmTy0_5 (i : Nat) : BufTy := match i % 128 with
  | 0 => ⟨S1x128, .f32⟩
  | 1 => ⟨S100000x128, .f32⟩
  | 2 => ⟨S100000x128, .f32⟩
  | 3 => ⟨S_, .f32⟩
  | 4 => ⟨S100000x128, .f32⟩
  | 5 => ⟨S100000x128, .f32⟩
  | 6 => ⟨S1x128x128, .f32⟩
  | 7 => ⟨S128x128, .f32⟩
  | 8 => ⟨S100000x128, .f32⟩
  | 9 => ⟨S1x128, .f32⟩
  | 10 => ⟨S128, .f32⟩
  | 11 => ⟨S1x128, .f32⟩
  | 12 => ⟨S100000x128, .f32⟩
  | 13 => ⟨S100000x128, .f32⟩
  | 14 => ⟨S1x128, .f32⟩
  | 15 => ⟨S128, .f32⟩
  | 16 => ⟨S1x128, .f32⟩
  | 17 => ⟨S128, .f32⟩
  | 18 => ⟨S_, .f32⟩
  | 19 => ⟨S128, .f32⟩
  | 20 => ⟨S_, .f32⟩
  | 21 => ⟨S128, .f32⟩
  | 22 => ⟨S128, .f32⟩
  | 23 => ⟨S_, .i32⟩
  | 24 => ⟨S_, .f32⟩
  | 25 => ⟨S128, .f32⟩
  | 26 => ⟨S1x128, .f32⟩
  | 27 => ⟨S_, .f32⟩
  | 28 => ⟨S1x128, .f32⟩
  | 29 => ⟨S1x128, .f32⟩
  | 30 => ⟨S100000x128, .f32⟩
  | 31 => ⟨S100000x128, .f32⟩
  | 32 => ⟨S100000x128, .f32⟩
  | 33 => ⟨S_, .f32⟩
  | 34 => ⟨S_, .f32⟩
  | 35 => ⟨S_, .f32⟩
  | 36 => ⟨S_, .f32⟩
  | 37 => ⟨S128, .f32⟩
  | 38 => ⟨S128, .f32⟩
  | 39 => ⟨S128, .f32⟩
  | 40 => ⟨S_, .f32⟩
  | 41 => ⟨S_, .i1⟩
  | 42 => ⟨S_, .f32⟩
  | 43 => ⟨S_, .f32⟩
  | 44 => ⟨S128, .f32⟩
  | 45 => ⟨S128, .f32⟩
  | 46 => ⟨S1x128, .f32⟩
  | 47 => ⟨S100000x128, .f32⟩
  | 48 => ⟨S100000x128, .f32⟩
  | 49 => ⟨S_, .f32⟩
  | 50 => ⟨S128, .f32⟩
  | 51 => ⟨S128, .f32⟩
  | 52 => ⟨S128, .f32⟩
  | 53 => ⟨S1x128, .f32⟩
  | 54 => ⟨S100000x128, .f32⟩
  | 55 => ⟨S100000x128, .f32⟩
  | 56 => ⟨S1x128, .f32⟩
  | 57 => ⟨S100000x128, .f32⟩
  | 58 => ⟨S100000x128, .f32⟩
  | 59 => ⟨S1x128, .f32⟩
  | 60 => ⟨S100000x128, .f32⟩
  | 61 => ⟨S100000x128, .f32⟩
  | 62 => ⟨S_, .f32⟩
  | 63 => ⟨S100000x128, .f32⟩
  | 64 => ⟨S100000x128, .f32⟩
  | 65 => ⟨S1x128, .f32⟩
  | 66 => ⟨S128, .f32⟩
  | 67 => ⟨S1x128, .f32⟩
  | 68 => ⟨S128, .f32⟩
  | 69 => ⟨S_, .f32⟩
  | 70 => ⟨S128, .f32⟩
  | 71 => ⟨S_, .f32⟩
  | 72 => ⟨S128, .f32⟩
  | 73 => ⟨S128, .f32⟩
  | 74 => ⟨S_, .i32⟩
  | 75 => ⟨S_, .f32⟩
  | 76 => ⟨S128, .f32⟩
  | 77 => ⟨S1x128, .f32⟩
  | 78 => ⟨S_, .f32⟩
  | 79 => ⟨S1x128, .f32⟩
  | 80 => ⟨S1x128, .f32⟩
  | 81 => ⟨S100000x128, .f32⟩
  | 82 => ⟨S100000x128, .f32⟩
  | 83 => ⟨S100000x128, .f32⟩
  | 84 => ⟨S_, .f32⟩
  | 85 => ⟨S_, .f32⟩
  | 86 => ⟨S_, .f32⟩
  | 87 => ⟨S_, .f32⟩
  | 88 => ⟨S128, .f32⟩
  | 89 => ⟨S128, .f32⟩
  | 90 => ⟨S128, .f32⟩
  | 91 => ⟨S_, .f32⟩
  | 92 => ⟨S_, .i1⟩
  | 93 => ⟨S_, .f32⟩
  | 94 => ⟨S_, .f32⟩
  | 95 => ⟨S128, .f32⟩
  | 96 => ⟨S128, .f32⟩
  | 97 => ⟨S1x128, .f32⟩
  | 98 => ⟨S100000x128, .f32⟩
  | 99 => ⟨S100000x128, .f32⟩
  | 100 => ⟨S_, .f32⟩
  | 101 => ⟨S128, .f32⟩
  | 102 => ⟨S128, .f32⟩
  | 103 => ⟨S128, .f32⟩
  | 104 => ⟨S1x128, .f32⟩
  | 105 => ⟨S100000x128, .f32⟩
  | 106 => ⟨S100000x128, .f32⟩
  | 107 => ⟨S1x128, .f32⟩
  | 108 => ⟨S100000x128, .f32⟩
  | 109 => ⟨S100000x128, .f32⟩
  | 110 => ⟨S1x128, .f32⟩
  | 111 => ⟨S100000x128, .f32⟩
  | 112 => ⟨S100000x128, .f32⟩
  | 113 => ⟨S_, .f32⟩
  | 114 => ⟨S100000x128, .f32⟩
  | 115 => ⟨S100000x128, .f32⟩
  | 116 => ⟨S_, .f32⟩
  | 117 => ⟨S512x128, .f32⟩
  | 118 => ⟨S100000x1, .i32⟩
  | 119 => ⟨S512x128, .f32⟩
  | 120 => ⟨S512x133, .f32⟩
  | 121 => ⟨S512x256, .f32⟩
  | 122 => ⟨S1x256, .f32⟩
  | 123 => ⟨S512x256, .f32⟩
  | 124 => ⟨S512x256, .f32⟩
  | 125 => ⟨S_, .f32⟩
  | 126 => ⟨S_, .f32⟩
  | 127 => ⟨S512x256, .f32⟩
  | _ => ⟨S100000x128, .f32⟩

abbrev hbmTy0_6 (i : Nat) : BufTy := match i % 128 with
  | 0 => ⟨S512x256, .i1⟩
  | 1 => ⟨S_, .f32⟩
  | 2 => ⟨S512x256, .f32⟩
  | 3 => ⟨S512x256, .f32⟩
  | 4 => ⟨S512x256, .f32⟩
  | 5 => ⟨S512x256, .f32⟩
  | 6 => ⟨S1x256, .f32⟩
  | 7 => ⟨S512x256, .f32⟩
  | 8 => ⟨S512x256, .f32⟩
  | 9 => ⟨S_, .f32⟩
  | 10 => ⟨S_, .f32⟩
  | 11 => ⟨S512x256, .f32⟩
  | 12 => ⟨S512x256, .i1⟩
  | 13 => ⟨S_, .f32⟩
  | 14 => ⟨S512x256, .f32⟩
  | 15 => ⟨S512x256, .f32⟩
  | 16 => ⟨S512x256, .f32⟩
  | 17 => ⟨S512x1, .f32⟩
  | 18 => ⟨S1x1, .f32⟩
  | 19 => ⟨S512x1, .f32⟩
  | 20 => ⟨S512x1, .f32⟩
  | _ => ⟨S100000x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_v0 : Ref sig .tc := ⟨.hbm, 20, rfl⟩
abbrev main_v1 : Ref sig .tc := ⟨.hbm, 21, rfl⟩
abbrev main_v2 : Ref sig .tc := ⟨.hbm, 22, rfl⟩
abbrev main_v3 : Ref sig .tc := ⟨.hbm, 23, rfl⟩
abbrev main_c : Ref sig .tc := ⟨.hbm, 24, rfl⟩
abbrev main_v4 : Ref sig .tc := ⟨.hbm, 25, rfl⟩
abbrev main_v5 : Ref sig .tc := ⟨.hbm, 26, rfl⟩
abbrev main_c_0 : Ref sig .tc := ⟨.hbm, 27, rfl⟩
abbrev main_v6 : Ref sig .tc := ⟨.hbm, 28, rfl⟩
abbrev main_v7 : Ref sig .tc := ⟨.hbm, 29, rfl⟩
abbrev main_v8 : Ref sig .tc := ⟨.hbm, 30, rfl⟩
abbrev main_v9 : Ref sig .tc := ⟨.hbm, 31, rfl⟩
abbrev main_v10 : Ref sig .tc := ⟨.hbm, 32, rfl⟩
abbrev main_cst : Ref sig .tc := ⟨.hbm, 33, rfl⟩
abbrev main_v11 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_v25 : Ref sig .tc := ⟨.hbm, 48, rfl⟩
abbrev main_v26 : Ref sig .tc := ⟨.hbm, 49, rfl⟩
abbrev main_cst_1 : Ref sig .tc := ⟨.hbm, 50, rfl⟩
abbrev main_v27 : Ref sig .tc := ⟨.hbm, 51, rfl⟩
abbrev main_cst_2 : Ref sig .tc := ⟨.hbm, 52, rfl⟩
abbrev main_v28 : Ref sig .tc := ⟨.hbm, 53, rfl⟩
abbrev main_v29 : Ref sig .tc := ⟨.hbm, 54, rfl⟩
abbrev main_c_3 : Ref sig .tc := ⟨.hbm, 55, rfl⟩
abbrev main_call0_cst : Ref sig .tc := ⟨.hbm, 56, rfl⟩
abbrev main_call0_v0 : Ref sig .tc := ⟨.hbm, 57, rfl⟩
abbrev main_call0_v1 : Ref sig .tc := ⟨.hbm, 58, rfl⟩
abbrev main_call0_cst_0 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_cst_1 : Ref sig .tc := ⟨.hbm, 66, rfl⟩
abbrev main_call0_v8 : Ref sig .tc := ⟨.hbm, 67, rfl⟩
abbrev main_call0_cst_2 : Ref sig .tc := ⟨.hbm, 68, rfl⟩
abbrev main_call0_v9 : Ref sig .tc := ⟨.hbm, 69, rfl⟩
abbrev main_call0_v10 : Ref sig .tc := ⟨.hbm, 70, rfl⟩
abbrev main_call0_v11 : Ref sig .tc := ⟨.hbm, 71, rfl⟩
abbrev main_call0_cst_3 : Ref sig .tc := ⟨.hbm, 72, rfl⟩
abbrev main_call0_v12 : Ref sig .tc := ⟨.hbm, 73, rfl⟩
abbrev main_call0_cst_4 : Ref sig .tc := ⟨.hbm, 74, rfl⟩
abbrev main_call0_call0_v0 : Ref sig .tc := ⟨.hbm, 75, rfl⟩
abbrev main_call0_call0_v1 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_cst_4 : Ref sig .tc := ⟨.hbm, 81, rfl⟩
abbrev main_v34 : Ref sig .tc := ⟨.hbm, 82, rfl⟩
abbrev main_v35 : Ref sig .tc := ⟨.hbm, 83, rfl⟩
abbrev main_v36 : Ref sig .tc := ⟨.hbm, 84, rfl⟩
abbrev main_v37 : Ref sig .tc := ⟨.hbm, 85, rfl⟩
abbrev main_v38 : Ref sig .tc := ⟨.hbm, 86, rfl⟩
abbrev main_v39 : Ref sig .tc := ⟨.hbm, 87, rfl⟩
abbrev main_v40 : Ref sig .tc := ⟨.hbm, 88, rfl⟩
abbrev main_v41 : Ref sig .tc := ⟨.hbm, 89, rfl⟩
abbrev main_v42 : Ref sig .tc := ⟨.hbm, 90, rfl⟩
abbrev main_v43 : Ref sig .tc := ⟨.hbm, 91, rfl⟩
abbrev main_v44 : Ref sig .tc := ⟨.hbm, 92, rfl⟩
abbrev main_v45 : Ref sig .tc := ⟨.hbm, 93, rfl⟩
abbrev main_call1_cst : Ref sig .tc := ⟨.hbm, 94, rfl⟩
abbrev main_call1_v0 : Ref sig .tc := ⟨.hbm, 95, rfl⟩
abbrev main_v46 : Ref sig .tc := ⟨.hbm, 96, rfl⟩
abbrev main_v47 : Ref sig .tc := ⟨.hbm, 97, rfl⟩
abbrev main_v48 : Ref sig .tc := ⟨.hbm, 98, rfl⟩
abbrev main_v49 : Ref sig .tc := ⟨.hbm, 99, rfl⟩
abbrev main_v50 : Ref sig .tc := ⟨.hbm, 100, rfl⟩
abbrev main_v51 : Ref sig .tc := ⟨.hbm, 101, rfl⟩
abbrev main_v52 : Ref sig .tc := ⟨.hbm, 102, rfl⟩
abbrev main_v53 : Ref sig .tc := ⟨.hbm, 103, rfl⟩
abbrev main_v54 : Ref sig .tc := ⟨.hbm, 104, rfl⟩
abbrev main_v55 : Ref sig .tc := ⟨.hbm, 105, rfl⟩
abbrev main_v56 : Ref sig .tc := ⟨.hbm, 106, rfl⟩
abbrev main_v57 : Ref sig .tc := ⟨.hbm, 107, rfl⟩
abbrev main_v58 : Ref sig .tc := ⟨.hbm, 108, rfl⟩
abbrev main_cst_5 : Ref sig .tc := ⟨.hbm, 109, rfl⟩
abbrev main_v59 : Ref sig .tc := ⟨.hbm, 110, rfl⟩
abbrev main_cst_6 : Ref sig .tc := ⟨.hbm, 111, rfl⟩
abbrev main_v60 : Ref sig .tc := ⟨.hbm, 112, rfl⟩
abbrev main_v61 : Ref sig .tc := ⟨.hbm, 113, rfl⟩
abbrev main_c_7 : Ref sig .tc := ⟨.hbm, 114, rfl⟩
abbrev main_call2_cst : Ref sig .tc := ⟨.hbm, 115, rfl⟩
abbrev main_call2_v0 : Ref sig .tc := ⟨.hbm, 116, rfl⟩
abbrev main_call2_v1 : Ref sig .tc := ⟨.hbm, 117, rfl⟩
abbrev main_call2_cst_0 : Ref sig .tc := ⟨.hbm, 118, rfl⟩
abbrev main_call2_v2 : Ref sig .tc := ⟨.hbm, 119, rfl⟩
abbrev main_call2_v3 : Ref sig .tc := ⟨.hbm, 120, rfl⟩
abbrev main_call2_v4 : Ref sig .tc := ⟨.hbm, 121, rfl⟩
abbrev main_call2_v5 : Ref sig .tc := ⟨.hbm, 122, rfl⟩
abbrev main_call2_v6 : Ref sig .tc := ⟨.hbm, 123, rfl⟩
abbrev main_call2_v7 : Ref sig .tc := ⟨.hbm, 124, rfl⟩
abbrev main_call2_cst_1 : Ref sig .tc := ⟨.hbm, 125, rfl⟩
abbrev main_call2_v8 : Ref sig .tc := ⟨.hbm, 126, rfl⟩
abbrev main_call2_cst_2 : Ref sig .tc := ⟨.hbm, 127, rfl⟩
abbrev main_call2_v9 : Ref sig .tc := ⟨.hbm, 128, rfl⟩
abbrev main_call2_v10 : Ref sig .tc := ⟨.hbm, 129, rfl⟩
abbrev main_call2_v11 : Ref sig .tc := ⟨.hbm, 130, rfl⟩
abbrev main_call2_cst_3 : Ref sig .tc := ⟨.hbm, 131, rfl⟩
abbrev main_call2_v12 : Ref sig .tc := ⟨.hbm, 132, rfl⟩
abbrev main_call2_cst_4 : Ref sig .tc := ⟨.hbm, 133, rfl⟩
abbrev main_call2_call0_v0 : Ref sig .tc := ⟨.hbm, 134, rfl⟩
abbrev main_call2_call0_v1 : Ref sig .tc := ⟨.hbm, 135, rfl⟩
abbrev main_v62 : Ref sig .tc := ⟨.hbm, 136, rfl⟩
abbrev main_v63 : Ref sig .tc := ⟨.hbm, 137, rfl⟩
abbrev main_v64 : Ref sig .tc := ⟨.hbm, 138, rfl⟩
abbrev main_v65 : Ref sig .tc := ⟨.hbm, 139, rfl⟩
abbrev main_cst_8 : Ref sig .tc := ⟨.hbm, 140, rfl⟩
abbrev main_v66 : Ref sig .tc := ⟨.hbm, 141, rfl⟩
abbrev main_v67 : Ref sig .tc := ⟨.hbm, 142, rfl⟩
abbrev main_v68 : Ref sig .tc := ⟨.hbm, 143, rfl⟩
abbrev main_v69 : Ref sig .tc := ⟨.hbm, 144, rfl⟩
abbrev main_v70 : Ref sig .tc := ⟨.hbm, 145, rfl⟩
abbrev main_v71 : Ref sig .tc := ⟨.hbm, 146, rfl⟩
abbrev main_v72 : Ref sig .tc := ⟨.hbm, 147, rfl⟩
abbrev main_v73 : Ref sig .tc := ⟨.hbm, 148, rfl⟩
abbrev main_v74 : Ref sig .tc := ⟨.hbm, 149, rfl⟩
abbrev main_v75 : Ref sig .tc := ⟨.hbm, 150, rfl⟩
abbrev main_v76 : Ref sig .tc := ⟨.hbm, 151, rfl⟩
abbrev main_v77 : Ref sig .tc := ⟨.hbm, 152, rfl⟩
abbrev main_call3_cst : Ref sig .tc := ⟨.hbm, 153, rfl⟩
abbrev main_call3_v0 : Ref sig .tc := ⟨.hbm, 154, rfl⟩
abbrev main_v78 : Ref sig .tc := ⟨.hbm, 155, rfl⟩
abbrev main_v79 : Ref sig .tc := ⟨.hbm, 156, rfl⟩
abbrev main_v80 : Ref sig .tc := ⟨.hbm, 157, rfl⟩
abbrev main_v81 : Ref sig .tc := ⟨.hbm, 158, rfl⟩
abbrev main_v82 : Ref sig .tc := ⟨.hbm, 159, rfl⟩
abbrev main_cst_9 : Ref sig .tc := ⟨.hbm, 160, rfl⟩
abbrev main_v83 : Ref sig .tc := ⟨.hbm, 161, rfl⟩
abbrev main_cst_10 : Ref sig .tc := ⟨.hbm, 162, rfl⟩
abbrev main_v84 : Ref sig .tc := ⟨.hbm, 163, rfl⟩
abbrev main_v85 : Ref sig .tc := ⟨.hbm, 164, rfl⟩
abbrev main_c_11 : Ref sig .tc := ⟨.hbm, 165, rfl⟩
abbrev main_call4_cst : Ref sig .tc := ⟨.hbm, 166, rfl⟩
abbrev main_call4_v0 : Ref sig .tc := ⟨.hbm, 167, rfl⟩
abbrev main_call4_v1 : Ref sig .tc := ⟨.hbm, 168, rfl⟩
abbrev main_call4_cst_0 : Ref sig .tc := ⟨.hbm, 169, rfl⟩
abbrev main_call4_v2 : Ref sig .tc := ⟨.hbm, 170, rfl⟩
abbrev main_call4_v3 : Ref sig .tc := ⟨.hbm, 171, rfl⟩
abbrev main_call4_v4 : Ref sig .tc := ⟨.hbm, 172, rfl⟩
abbrev main_call4_v5 : Ref sig .tc := ⟨.hbm, 173, rfl⟩
abbrev main_call4_v6 : Ref sig .tc := ⟨.hbm, 174, rfl⟩
abbrev main_call4_v7 : Ref sig .tc := ⟨.hbm, 175, rfl⟩
abbrev main_call4_cst_1 : Ref sig .tc := ⟨.hbm, 176, rfl⟩
abbrev main_call4_v8 : Ref sig .tc := ⟨.hbm, 177, rfl⟩
abbrev main_call4_cst_2 : Ref sig .tc := ⟨.hbm, 178, rfl⟩
abbrev main_call4_v9 : Ref sig .tc := ⟨.hbm, 179, rfl⟩
abbrev main_call4_v10 : Ref sig .tc := ⟨.hbm, 180, rfl⟩
abbrev main_call4_v11 : Ref sig .tc := ⟨.hbm, 181, rfl⟩
abbrev main_call4_cst_3 : Ref sig .tc := ⟨.hbm, 182, rfl⟩
abbrev main_call4_v12 : Ref sig .tc := ⟨.hbm, 183, rfl⟩
abbrev main_call4_cst_4 : Ref sig .tc := ⟨.hbm, 184, rfl⟩
abbrev main_call4_call0_v0 : Ref sig .tc := ⟨.hbm, 185, rfl⟩
abbrev main_call4_call0_v1 : Ref sig .tc := ⟨.hbm, 186, rfl⟩
abbrev main_v86 : Ref sig .tc := ⟨.hbm, 187, rfl⟩
abbrev main_v87 : Ref sig .tc := ⟨.hbm, 188, rfl⟩
abbrev main_v88 : Ref sig .tc := ⟨.hbm, 189, rfl⟩
abbrev main_v89 : Ref sig .tc := ⟨.hbm, 190, rfl⟩
abbrev main_cst_12 : Ref sig .tc := ⟨.hbm, 191, rfl⟩
abbrev main_v90 : Ref sig .tc := ⟨.hbm, 192, rfl⟩
abbrev main_v91 : Ref sig .tc := ⟨.hbm, 193, rfl⟩
abbrev main_v92 : Ref sig .tc := ⟨.hbm, 194, rfl⟩
abbrev main_v93 : Ref sig .tc := ⟨.hbm, 195, rfl⟩
abbrev main_v94 : Ref sig .tc := ⟨.hbm, 196, rfl⟩
abbrev main_v95 : Ref sig .tc := ⟨.hbm, 197, rfl⟩
abbrev main_v96 : Ref sig .tc := ⟨.hbm, 198, rfl⟩
abbrev main_v97 : Ref sig .tc := ⟨.hbm, 199, rfl⟩
abbrev main_v98 : Ref sig .tc := ⟨.hbm, 200, rfl⟩
abbrev main_v99 : Ref sig .tc := ⟨.hbm, 201, rfl⟩
abbrev main_v100 : Ref sig .tc := ⟨.hbm, 202, rfl⟩
abbrev main_v101 : Ref sig .tc := ⟨.hbm, 203, rfl⟩
abbrev main_call5_cst : Ref sig .tc := ⟨.hbm, 204, rfl⟩
abbrev main_call5_v0 : Ref sig .tc := ⟨.hbm, 205, rfl⟩
abbrev main_v102 : Ref sig .tc := ⟨.hbm, 206, rfl⟩
abbrev main_c_13 : Ref sig .tc := ⟨.hbm, 207, rfl⟩
abbrev main_v103 : Ref sig .tc := ⟨.hbm, 208, rfl⟩
abbrev main_v104 : Ref sig .tc := ⟨.hbm, 209, rfl⟩
abbrev main_c_14 : Ref sig .tc := ⟨.hbm, 210, rfl⟩
abbrev main_v105 : Ref sig .tc := ⟨.hbm, 211, rfl⟩
abbrev main_v106 : Ref sig .tc := ⟨.hbm, 212, rfl⟩
abbrev main_v107 : Ref sig .tc := ⟨.hbm, 213, rfl⟩
abbrev main_v108 : Ref sig .tc := ⟨.hbm, 214, rfl⟩
abbrev main_v109 : Ref sig .tc := ⟨.hbm, 215, rfl⟩
abbrev main_cst_15 : Ref sig .tc := ⟨.hbm, 216, rfl⟩
abbrev main_v110 : Ref sig .tc := ⟨.hbm, 217, rfl⟩
abbrev main_v111 : Ref sig .tc := ⟨.hbm, 218, rfl⟩
abbrev main_v112 : Ref sig .tc := ⟨.hbm, 219, rfl⟩
abbrev main_v113 : Ref sig .tc := ⟨.hbm, 220, rfl⟩
abbrev main_v114 : Ref sig .tc := ⟨.hbm, 221, rfl⟩
abbrev main_v115 : Ref sig .tc := ⟨.hbm, 222, rfl⟩
abbrev main_v116 : Ref sig .tc := ⟨.hbm, 223, rfl⟩
abbrev main_v117 : Ref sig .tc := ⟨.hbm, 224, rfl⟩
abbrev main_v118 : Ref sig .tc := ⟨.hbm, 225, rfl⟩
abbrev main_v119 : Ref sig .tc := ⟨.hbm, 226, rfl⟩
abbrev main_v120 : Ref sig .tc := ⟨.hbm, 227, rfl⟩
abbrev main_v121 : Ref sig .tc := ⟨.hbm, 228, rfl⟩
abbrev main_v122 : Ref sig .tc := ⟨.hbm, 229, rfl⟩
abbrev main_v123 : Ref sig .tc := ⟨.hbm, 230, rfl⟩
abbrev main_v124 : Ref sig .tc := ⟨.hbm, 231, rfl⟩
abbrev main_v125 : Ref sig .tc := ⟨.hbm, 232, rfl⟩
abbrev main_cst_16 : Ref sig .tc := ⟨.hbm, 233, rfl⟩
abbrev main_v126 : Ref sig .tc := ⟨.hbm, 234, rfl⟩
abbrev main_cst_17 : Ref sig .tc := ⟨.hbm, 235, rfl⟩
abbrev main_v127 : Ref sig .tc := ⟨.hbm, 236, rfl⟩
abbrev main_v128 : Ref sig .tc := ⟨.hbm, 237, rfl⟩
abbrev main_c_18 : Ref sig .tc := ⟨.hbm, 238, rfl⟩
abbrev main_call6_cst : Ref sig .tc := ⟨.hbm, 239, rfl⟩
abbrev main_call6_v0 : Ref sig .tc := ⟨.hbm, 240, rfl⟩
abbrev main_call6_v1 : Ref sig .tc := ⟨.hbm, 241, rfl⟩
abbrev main_call6_cst_0 : Ref sig .tc := ⟨.hbm, 242, rfl⟩
abbrev main_call6_v2 : Ref sig .tc := ⟨.hbm, 243, rfl⟩
abbrev main_call6_v3 : Ref sig .tc := ⟨.hbm, 244, rfl⟩
abbrev main_call6_v4 : Ref sig .tc := ⟨.hbm, 245, rfl⟩
abbrev main_call6_v5 : Ref sig .tc := ⟨.hbm, 246, rfl⟩
abbrev main_call6_v6 : Ref sig .tc := ⟨.hbm, 247, rfl⟩
abbrev main_call6_v7 : Ref sig .tc := ⟨.hbm, 248, rfl⟩
abbrev main_call6_cst_1 : Ref sig .tc := ⟨.hbm, 249, rfl⟩
abbrev main_call6_v8 : Ref sig .tc := ⟨.hbm, 250, rfl⟩
abbrev main_call6_cst_2 : Ref sig .tc := ⟨.hbm, 251, rfl⟩
abbrev main_call6_v9 : Ref sig .tc := ⟨.hbm, 252, rfl⟩
abbrev main_call6_v10 : Ref sig .tc := ⟨.hbm, 253, rfl⟩
abbrev main_call6_v11 : Ref sig .tc := ⟨.hbm, 254, rfl⟩
abbrev main_call6_cst_3 : Ref sig .tc := ⟨.hbm, 255, rfl⟩
abbrev main_call6_v12 : Ref sig .tc := ⟨.hbm, 256, rfl⟩
abbrev main_call6_cst_4 : Ref sig .tc := ⟨.hbm, 257, rfl⟩
abbrev main_call6_call0_v0 : Ref sig .tc := ⟨.hbm, 258, rfl⟩
abbrev main_call6_call0_v1 : Ref sig .tc := ⟨.hbm, 259, rfl⟩
abbrev main_v129 : Ref sig .tc := ⟨.hbm, 260, rfl⟩
abbrev main_v130 : Ref sig .tc := ⟨.hbm, 261, rfl⟩
abbrev main_v131 : Ref sig .tc := ⟨.hbm, 262, rfl⟩
abbrev main_v132 : Ref sig .tc := ⟨.hbm, 263, rfl⟩
abbrev main_cst_19 : Ref sig .tc := ⟨.hbm, 264, rfl⟩
abbrev main_v133 : Ref sig .tc := ⟨.hbm, 265, rfl⟩
abbrev main_v134 : Ref sig .tc := ⟨.hbm, 266, rfl⟩
abbrev main_v135 : Ref sig .tc := ⟨.hbm, 267, rfl⟩
abbrev main_v136 : Ref sig .tc := ⟨.hbm, 268, rfl⟩
abbrev main_v137 : Ref sig .tc := ⟨.hbm, 269, rfl⟩
abbrev main_v138 : Ref sig .tc := ⟨.hbm, 270, rfl⟩
abbrev main_v139 : Ref sig .tc := ⟨.hbm, 271, rfl⟩
abbrev main_v140 : Ref sig .tc := ⟨.hbm, 272, rfl⟩
abbrev main_v141 : Ref sig .tc := ⟨.hbm, 273, rfl⟩
abbrev main_v142 : Ref sig .tc := ⟨.hbm, 274, rfl⟩
abbrev main_v143 : Ref sig .tc := ⟨.hbm, 275, rfl⟩
abbrev main_v144 : Ref sig .tc := ⟨.hbm, 276, rfl⟩
abbrev main_call7_cst : Ref sig .tc := ⟨.hbm, 277, rfl⟩
abbrev main_call7_v0 : Ref sig .tc := ⟨.hbm, 278, rfl⟩
abbrev main_v145 : Ref sig .tc := ⟨.hbm, 279, rfl⟩
abbrev main_v146 : Ref sig .tc := ⟨.hbm, 280, rfl⟩
abbrev main_v147 : Ref sig .tc := ⟨.hbm, 281, rfl⟩
abbrev main_v148 : Ref sig .tc := ⟨.hbm, 282, rfl⟩
abbrev main_v149 : Ref sig .tc := ⟨.hbm, 283, rfl⟩
abbrev main_v150 : Ref sig .tc := ⟨.hbm, 284, rfl⟩
abbrev main_v151 : Ref sig .tc := ⟨.hbm, 285, rfl⟩
abbrev main_v152 : Ref sig .tc := ⟨.hbm, 286, rfl⟩
abbrev main_v153 : Ref sig .tc := ⟨.hbm, 287, rfl⟩
abbrev main_v154 : Ref sig .tc := ⟨.hbm, 288, rfl⟩
abbrev main_v155 : Ref sig .tc := ⟨.hbm, 289, rfl⟩
abbrev main_v156 : Ref sig .tc := ⟨.hbm, 290, rfl⟩
abbrev main_v157 : Ref sig .tc := ⟨.hbm, 291, rfl⟩
abbrev main_cst_20 : Ref sig .tc := ⟨.hbm, 292, rfl⟩
abbrev main_v158 : Ref sig .tc := ⟨.hbm, 293, rfl⟩
abbrev main_cst_21 : Ref sig .tc := ⟨.hbm, 294, rfl⟩
abbrev main_v159 : Ref sig .tc := ⟨.hbm, 295, rfl⟩
abbrev main_v160 : Ref sig .tc := ⟨.hbm, 296, rfl⟩
abbrev main_c_22 : Ref sig .tc := ⟨.hbm, 297, rfl⟩
abbrev main_call8_cst : Ref sig .tc := ⟨.hbm, 298, rfl⟩
abbrev main_call8_v0 : Ref sig .tc := ⟨.hbm, 299, rfl⟩
abbrev main_call8_v1 : Ref sig .tc := ⟨.hbm, 300, rfl⟩
abbrev main_call8_cst_0 : Ref sig .tc := ⟨.hbm, 301, rfl⟩
abbrev main_call8_v2 : Ref sig .tc := ⟨.hbm, 302, rfl⟩
abbrev main_call8_v3 : Ref sig .tc := ⟨.hbm, 303, rfl⟩
abbrev main_call8_v4 : Ref sig .tc := ⟨.hbm, 304, rfl⟩
abbrev main_call8_v5 : Ref sig .tc := ⟨.hbm, 305, rfl⟩
abbrev main_call8_v6 : Ref sig .tc := ⟨.hbm, 306, rfl⟩
abbrev main_call8_v7 : Ref sig .tc := ⟨.hbm, 307, rfl⟩
abbrev main_call8_cst_1 : Ref sig .tc := ⟨.hbm, 308, rfl⟩
abbrev main_call8_v8 : Ref sig .tc := ⟨.hbm, 309, rfl⟩
abbrev main_call8_cst_2 : Ref sig .tc := ⟨.hbm, 310, rfl⟩
abbrev main_call8_v9 : Ref sig .tc := ⟨.hbm, 311, rfl⟩
abbrev main_call8_v10 : Ref sig .tc := ⟨.hbm, 312, rfl⟩
abbrev main_call8_v11 : Ref sig .tc := ⟨.hbm, 313, rfl⟩
abbrev main_call8_cst_3 : Ref sig .tc := ⟨.hbm, 314, rfl⟩
abbrev main_call8_v12 : Ref sig .tc := ⟨.hbm, 315, rfl⟩
abbrev main_call8_cst_4 : Ref sig .tc := ⟨.hbm, 316, rfl⟩
abbrev main_call8_call0_v0 : Ref sig .tc := ⟨.hbm, 317, rfl⟩
abbrev main_call8_call0_v1 : Ref sig .tc := ⟨.hbm, 318, rfl⟩
abbrev main_v161 : Ref sig .tc := ⟨.hbm, 319, rfl⟩
abbrev main_v162 : Ref sig .tc := ⟨.hbm, 320, rfl⟩
abbrev main_v163 : Ref sig .tc := ⟨.hbm, 321, rfl⟩
abbrev main_v164 : Ref sig .tc := ⟨.hbm, 322, rfl⟩
abbrev main_cst_23 : Ref sig .tc := ⟨.hbm, 323, rfl⟩
abbrev main_v165 : Ref sig .tc := ⟨.hbm, 324, rfl⟩
abbrev main_v166 : Ref sig .tc := ⟨.hbm, 325, rfl⟩
abbrev main_v167 : Ref sig .tc := ⟨.hbm, 326, rfl⟩
abbrev main_v168 : Ref sig .tc := ⟨.hbm, 327, rfl⟩
abbrev main_v169 : Ref sig .tc := ⟨.hbm, 328, rfl⟩
abbrev main_v170 : Ref sig .tc := ⟨.hbm, 329, rfl⟩
abbrev main_v171 : Ref sig .tc := ⟨.hbm, 330, rfl⟩
abbrev main_v172 : Ref sig .tc := ⟨.hbm, 331, rfl⟩
abbrev main_v173 : Ref sig .tc := ⟨.hbm, 332, rfl⟩
abbrev main_v174 : Ref sig .tc := ⟨.hbm, 333, rfl⟩
abbrev main_v175 : Ref sig .tc := ⟨.hbm, 334, rfl⟩
abbrev main_v176 : Ref sig .tc := ⟨.hbm, 335, rfl⟩
abbrev main_call9_cst : Ref sig .tc := ⟨.hbm, 336, rfl⟩
abbrev main_call9_v0 : Ref sig .tc := ⟨.hbm, 337, rfl⟩
abbrev main_v177 : Ref sig .tc := ⟨.hbm, 338, rfl⟩
abbrev main_v178 : Ref sig .tc := ⟨.hbm, 339, rfl⟩
abbrev main_v179 : Ref sig .tc := ⟨.hbm, 340, rfl⟩
abbrev main_v180 : Ref sig .tc := ⟨.hbm, 341, rfl⟩
abbrev main_v181 : Ref sig .tc := ⟨.hbm, 342, rfl⟩
abbrev main_cst_24 : Ref sig .tc := ⟨.hbm, 343, rfl⟩
abbrev main_v182 : Ref sig .tc := ⟨.hbm, 344, rfl⟩
abbrev main_cst_25 : Ref sig .tc := ⟨.hbm, 345, rfl⟩
abbrev main_v183 : Ref sig .tc := ⟨.hbm, 346, rfl⟩
abbrev main_v184 : Ref sig .tc := ⟨.hbm, 347, rfl⟩
abbrev main_c_26 : Ref sig .tc := ⟨.hbm, 348, rfl⟩
abbrev main_call10_cst : Ref sig .tc := ⟨.hbm, 349, rfl⟩
abbrev main_call10_v0 : Ref sig .tc := ⟨.hbm, 350, rfl⟩
abbrev main_call10_v1 : Ref sig .tc := ⟨.hbm, 351, rfl⟩
abbrev main_call10_cst_0 : Ref sig .tc := ⟨.hbm, 352, rfl⟩
abbrev main_call10_v2 : Ref sig .tc := ⟨.hbm, 353, rfl⟩
abbrev main_call10_v3 : Ref sig .tc := ⟨.hbm, 354, rfl⟩
abbrev main_call10_v4 : Ref sig .tc := ⟨.hbm, 355, rfl⟩
abbrev main_call10_v5 : Ref sig .tc := ⟨.hbm, 356, rfl⟩
abbrev main_call10_v6 : Ref sig .tc := ⟨.hbm, 357, rfl⟩
abbrev main_call10_v7 : Ref sig .tc := ⟨.hbm, 358, rfl⟩
abbrev main_call10_cst_1 : Ref sig .tc := ⟨.hbm, 359, rfl⟩
abbrev main_call10_v8 : Ref sig .tc := ⟨.hbm, 360, rfl⟩
abbrev main_call10_cst_2 : Ref sig .tc := ⟨.hbm, 361, rfl⟩
abbrev main_call10_v9 : Ref sig .tc := ⟨.hbm, 362, rfl⟩
abbrev main_call10_v10 : Ref sig .tc := ⟨.hbm, 363, rfl⟩
abbrev main_call10_v11 : Ref sig .tc := ⟨.hbm, 364, rfl⟩
abbrev main_call10_cst_3 : Ref sig .tc := ⟨.hbm, 365, rfl⟩
abbrev main_call10_v12 : Ref sig .tc := ⟨.hbm, 366, rfl⟩
abbrev main_call10_cst_4 : Ref sig .tc := ⟨.hbm, 367, rfl⟩
abbrev main_call10_call0_v0 : Ref sig .tc := ⟨.hbm, 368, rfl⟩
abbrev main_call10_call0_v1 : Ref sig .tc := ⟨.hbm, 369, rfl⟩
abbrev main_v185 : Ref sig .tc := ⟨.hbm, 370, rfl⟩
abbrev main_v186 : Ref sig .tc := ⟨.hbm, 371, rfl⟩
abbrev main_v187 : Ref sig .tc := ⟨.hbm, 372, rfl⟩
abbrev main_v188 : Ref sig .tc := ⟨.hbm, 373, rfl⟩
abbrev main_cst_27 : Ref sig .tc := ⟨.hbm, 374, rfl⟩
abbrev main_v189 : Ref sig .tc := ⟨.hbm, 375, rfl⟩
abbrev main_v190 : Ref sig .tc := ⟨.hbm, 376, rfl⟩
abbrev main_v191 : Ref sig .tc := ⟨.hbm, 377, rfl⟩
abbrev main_v192 : Ref sig .tc := ⟨.hbm, 378, rfl⟩
abbrev main_v193 : Ref sig .tc := ⟨.hbm, 379, rfl⟩
abbrev main_v194 : Ref sig .tc := ⟨.hbm, 380, rfl⟩
abbrev main_v195 : Ref sig .tc := ⟨.hbm, 381, rfl⟩
abbrev main_v196 : Ref sig .tc := ⟨.hbm, 382, rfl⟩
abbrev main_v197 : Ref sig .tc := ⟨.hbm, 383, rfl⟩
abbrev main_v198 : Ref sig .tc := ⟨.hbm, 384, rfl⟩
abbrev main_v199 : Ref sig .tc := ⟨.hbm, 385, rfl⟩
abbrev main_v200 : Ref sig .tc := ⟨.hbm, 386, rfl⟩
abbrev main_call11_cst : Ref sig .tc := ⟨.hbm, 387, rfl⟩
abbrev main_call11_v0 : Ref sig .tc := ⟨.hbm, 388, rfl⟩
abbrev main_v201 : Ref sig .tc := ⟨.hbm, 389, rfl⟩
abbrev main_c_28 : Ref sig .tc := ⟨.hbm, 390, rfl⟩
abbrev main_v202 : Ref sig .tc := ⟨.hbm, 391, rfl⟩
abbrev main_v203 : Ref sig .tc := ⟨.hbm, 392, rfl⟩
abbrev main_c_29 : Ref sig .tc := ⟨.hbm, 393, rfl⟩
abbrev main_v204 : Ref sig .tc := ⟨.hbm, 394, rfl⟩
abbrev main_v205 : Ref sig .tc := ⟨.hbm, 395, rfl⟩
abbrev main_v206 : Ref sig .tc := ⟨.hbm, 396, rfl⟩
abbrev main_v207 : Ref sig .tc := ⟨.hbm, 397, rfl⟩
abbrev main_v208 : Ref sig .tc := ⟨.hbm, 398, rfl⟩
abbrev main_cst_30 : Ref sig .tc := ⟨.hbm, 399, rfl⟩
abbrev main_v209 : Ref sig .tc := ⟨.hbm, 400, rfl⟩
abbrev main_v210 : Ref sig .tc := ⟨.hbm, 401, rfl⟩
abbrev main_v211 : Ref sig .tc := ⟨.hbm, 402, rfl⟩
abbrev main_v212 : Ref sig .tc := ⟨.hbm, 403, rfl⟩
abbrev main_v213 : Ref sig .tc := ⟨.hbm, 404, rfl⟩
abbrev main_v214 : Ref sig .tc := ⟨.hbm, 405, rfl⟩
abbrev main_v215 : Ref sig .tc := ⟨.hbm, 406, rfl⟩
abbrev main_v216 : Ref sig .tc := ⟨.hbm, 407, rfl⟩
abbrev main_v217 : Ref sig .tc := ⟨.hbm, 408, rfl⟩
abbrev main_v218 : Ref sig .tc := ⟨.hbm, 409, rfl⟩
abbrev main_v219 : Ref sig .tc := ⟨.hbm, 410, rfl⟩
abbrev main_v220 : Ref sig .tc := ⟨.hbm, 411, rfl⟩
abbrev main_v221 : Ref sig .tc := ⟨.hbm, 412, rfl⟩
abbrev main_v222 : Ref sig .tc := ⟨.hbm, 413, rfl⟩
abbrev main_v223 : Ref sig .tc := ⟨.hbm, 414, rfl⟩
abbrev main_v224 : Ref sig .tc := ⟨.hbm, 415, rfl⟩
abbrev main_cst_31 : Ref sig .tc := ⟨.hbm, 416, rfl⟩
abbrev main_v225 : Ref sig .tc := ⟨.hbm, 417, rfl⟩
abbrev main_cst_32 : Ref sig .tc := ⟨.hbm, 418, rfl⟩
abbrev main_v226 : Ref sig .tc := ⟨.hbm, 419, rfl⟩
abbrev main_v227 : Ref sig .tc := ⟨.hbm, 420, rfl⟩
abbrev main_c_33 : Ref sig .tc := ⟨.hbm, 421, rfl⟩
abbrev main_call12_cst : Ref sig .tc := ⟨.hbm, 422, rfl⟩
abbrev main_call12_v0 : Ref sig .tc := ⟨.hbm, 423, rfl⟩
abbrev main_call12_v1 : Ref sig .tc := ⟨.hbm, 424, rfl⟩
abbrev main_call12_cst_0 : Ref sig .tc := ⟨.hbm, 425, rfl⟩
abbrev main_call12_v2 : Ref sig .tc := ⟨.hbm, 426, rfl⟩
abbrev main_call12_v3 : Ref sig .tc := ⟨.hbm, 427, rfl⟩
abbrev main_call12_v4 : Ref sig .tc := ⟨.hbm, 428, rfl⟩
abbrev main_call12_v5 : Ref sig .tc := ⟨.hbm, 429, rfl⟩
abbrev main_call12_v6 : Ref sig .tc := ⟨.hbm, 430, rfl⟩
abbrev main_call12_v7 : Ref sig .tc := ⟨.hbm, 431, rfl⟩
abbrev main_call12_cst_1 : Ref sig .tc := ⟨.hbm, 432, rfl⟩
abbrev main_call12_v8 : Ref sig .tc := ⟨.hbm, 433, rfl⟩
abbrev main_call12_cst_2 : Ref sig .tc := ⟨.hbm, 434, rfl⟩
abbrev main_call12_v9 : Ref sig .tc := ⟨.hbm, 435, rfl⟩
abbrev main_call12_v10 : Ref sig .tc := ⟨.hbm, 436, rfl⟩
abbrev main_call12_v11 : Ref sig .tc := ⟨.hbm, 437, rfl⟩
abbrev main_call12_cst_3 : Ref sig .tc := ⟨.hbm, 438, rfl⟩
abbrev main_call12_v12 : Ref sig .tc := ⟨.hbm, 439, rfl⟩
abbrev main_call12_cst_4 : Ref sig .tc := ⟨.hbm, 440, rfl⟩
abbrev main_call12_call0_v0 : Ref sig .tc := ⟨.hbm, 441, rfl⟩
abbrev main_call12_call0_v1 : Ref sig .tc := ⟨.hbm, 442, rfl⟩
abbrev main_v228 : Ref sig .tc := ⟨.hbm, 443, rfl⟩
abbrev main_v229 : Ref sig .tc := ⟨.hbm, 444, rfl⟩
abbrev main_v230 : Ref sig .tc := ⟨.hbm, 445, rfl⟩
abbrev main_v231 : Ref sig .tc := ⟨.hbm, 446, rfl⟩
abbrev main_cst_34 : Ref sig .tc := ⟨.hbm, 447, rfl⟩
abbrev main_v232 : Ref sig .tc := ⟨.hbm, 448, rfl⟩
abbrev main_v233 : Ref sig .tc := ⟨.hbm, 449, rfl⟩
abbrev main_v234 : Ref sig .tc := ⟨.hbm, 450, rfl⟩
abbrev main_v235 : Ref sig .tc := ⟨.hbm, 451, rfl⟩
abbrev main_v236 : Ref sig .tc := ⟨.hbm, 452, rfl⟩
abbrev main_v237 : Ref sig .tc := ⟨.hbm, 453, rfl⟩
abbrev main_v238 : Ref sig .tc := ⟨.hbm, 454, rfl⟩
abbrev main_v239 : Ref sig .tc := ⟨.hbm, 455, rfl⟩
abbrev main_v240 : Ref sig .tc := ⟨.hbm, 456, rfl⟩
abbrev main_v241 : Ref sig .tc := ⟨.hbm, 457, rfl⟩
abbrev main_v242 : Ref sig .tc := ⟨.hbm, 458, rfl⟩
abbrev main_v243 : Ref sig .tc := ⟨.hbm, 459, rfl⟩
abbrev main_call13_cst : Ref sig .tc := ⟨.hbm, 460, rfl⟩
abbrev main_call13_v0 : Ref sig .tc := ⟨.hbm, 461, rfl⟩
abbrev main_v244 : Ref sig .tc := ⟨.hbm, 462, rfl⟩
abbrev main_v245 : Ref sig .tc := ⟨.hbm, 463, rfl⟩
abbrev main_v246 : Ref sig .tc := ⟨.hbm, 464, rfl⟩
abbrev main_v247 : Ref sig .tc := ⟨.hbm, 465, rfl⟩
abbrev main_v248 : Ref sig .tc := ⟨.hbm, 466, rfl⟩
abbrev main_v249 : Ref sig .tc := ⟨.hbm, 467, rfl⟩
abbrev main_v250 : Ref sig .tc := ⟨.hbm, 468, rfl⟩
abbrev main_v251 : Ref sig .tc := ⟨.hbm, 469, rfl⟩
abbrev main_v252 : Ref sig .tc := ⟨.hbm, 470, rfl⟩
abbrev main_v253 : Ref sig .tc := ⟨.hbm, 471, rfl⟩
abbrev main_v254 : Ref sig .tc := ⟨.hbm, 472, rfl⟩
abbrev main_v255 : Ref sig .tc := ⟨.hbm, 473, rfl⟩
abbrev main_v256 : Ref sig .tc := ⟨.hbm, 474, rfl⟩
abbrev main_cst_35 : Ref sig .tc := ⟨.hbm, 475, rfl⟩
abbrev main_v257 : Ref sig .tc := ⟨.hbm, 476, rfl⟩
abbrev main_cst_36 : Ref sig .tc := ⟨.hbm, 477, rfl⟩
abbrev main_v258 : Ref sig .tc := ⟨.hbm, 478, rfl⟩
abbrev main_v259 : Ref sig .tc := ⟨.hbm, 479, rfl⟩
abbrev main_c_37 : Ref sig .tc := ⟨.hbm, 480, rfl⟩
abbrev main_call14_cst : Ref sig .tc := ⟨.hbm, 481, rfl⟩
abbrev main_call14_v0 : Ref sig .tc := ⟨.hbm, 482, rfl⟩
abbrev main_call14_v1 : Ref sig .tc := ⟨.hbm, 483, rfl⟩
abbrev main_call14_cst_0 : Ref sig .tc := ⟨.hbm, 484, rfl⟩
abbrev main_call14_v2 : Ref sig .tc := ⟨.hbm, 485, rfl⟩
abbrev main_call14_v3 : Ref sig .tc := ⟨.hbm, 486, rfl⟩
abbrev main_call14_v4 : Ref sig .tc := ⟨.hbm, 487, rfl⟩
abbrev main_call14_v5 : Ref sig .tc := ⟨.hbm, 488, rfl⟩
abbrev main_call14_v6 : Ref sig .tc := ⟨.hbm, 489, rfl⟩
abbrev main_call14_v7 : Ref sig .tc := ⟨.hbm, 490, rfl⟩
abbrev main_call14_cst_1 : Ref sig .tc := ⟨.hbm, 491, rfl⟩
abbrev main_call14_v8 : Ref sig .tc := ⟨.hbm, 492, rfl⟩
abbrev main_call14_cst_2 : Ref sig .tc := ⟨.hbm, 493, rfl⟩
abbrev main_call14_v9 : Ref sig .tc := ⟨.hbm, 494, rfl⟩
abbrev main_call14_v10 : Ref sig .tc := ⟨.hbm, 495, rfl⟩
abbrev main_call14_v11 : Ref sig .tc := ⟨.hbm, 496, rfl⟩
abbrev main_call14_cst_3 : Ref sig .tc := ⟨.hbm, 497, rfl⟩
abbrev main_call14_v12 : Ref sig .tc := ⟨.hbm, 498, rfl⟩
abbrev main_call14_cst_4 : Ref sig .tc := ⟨.hbm, 499, rfl⟩
abbrev main_call14_call0_v0 : Ref sig .tc := ⟨.hbm, 500, rfl⟩
abbrev main_call14_call0_v1 : Ref sig .tc := ⟨.hbm, 501, rfl⟩
abbrev main_v260 : Ref sig .tc := ⟨.hbm, 502, rfl⟩
abbrev main_v261 : Ref sig .tc := ⟨.hbm, 503, rfl⟩
abbrev main_v262 : Ref sig .tc := ⟨.hbm, 504, rfl⟩
abbrev main_v263 : Ref sig .tc := ⟨.hbm, 505, rfl⟩
abbrev main_cst_38 : Ref sig .tc := ⟨.hbm, 506, rfl⟩
abbrev main_v264 : Ref sig .tc := ⟨.hbm, 507, rfl⟩
abbrev main_v265 : Ref sig .tc := ⟨.hbm, 508, rfl⟩
abbrev main_v266 : Ref sig .tc := ⟨.hbm, 509, rfl⟩
abbrev main_v267 : Ref sig .tc := ⟨.hbm, 510, rfl⟩
abbrev main_v268 : Ref sig .tc := ⟨.hbm, 511, rfl⟩
abbrev main_v269 : Ref sig .tc := ⟨.hbm, 512, rfl⟩
abbrev main_v270 : Ref sig .tc := ⟨.hbm, 513, rfl⟩
abbrev main_v271 : Ref sig .tc := ⟨.hbm, 514, rfl⟩
abbrev main_v272 : Ref sig .tc := ⟨.hbm, 515, rfl⟩
abbrev main_v273 : Ref sig .tc := ⟨.hbm, 516, rfl⟩
abbrev main_v274 : Ref sig .tc := ⟨.hbm, 517, rfl⟩
abbrev main_v275 : Ref sig .tc := ⟨.hbm, 518, rfl⟩
abbrev main_call15_cst : Ref sig .tc := ⟨.hbm, 519, rfl⟩
abbrev main_call15_v0 : Ref sig .tc := ⟨.hbm, 520, rfl⟩
abbrev main_v276 : Ref sig .tc := ⟨.hbm, 521, rfl⟩
abbrev main_v277 : Ref sig .tc := ⟨.hbm, 522, rfl⟩
abbrev main_v278 : Ref sig .tc := ⟨.hbm, 523, rfl⟩
abbrev main_v279 : Ref sig .tc := ⟨.hbm, 524, rfl⟩
abbrev main_v280 : Ref sig .tc := ⟨.hbm, 525, rfl⟩
abbrev main_cst_39 : Ref sig .tc := ⟨.hbm, 526, rfl⟩
abbrev main_v281 : Ref sig .tc := ⟨.hbm, 527, rfl⟩
abbrev main_cst_40 : Ref sig .tc := ⟨.hbm, 528, rfl⟩
abbrev main_v282 : Ref sig .tc := ⟨.hbm, 529, rfl⟩
abbrev main_v283 : Ref sig .tc := ⟨.hbm, 530, rfl⟩
abbrev main_c_41 : Ref sig .tc := ⟨.hbm, 531, rfl⟩
abbrev main_call16_cst : Ref sig .tc := ⟨.hbm, 532, rfl⟩
abbrev main_call16_v0 : Ref sig .tc := ⟨.hbm, 533, rfl⟩
abbrev main_call16_v1 : Ref sig .tc := ⟨.hbm, 534, rfl⟩
abbrev main_call16_cst_0 : Ref sig .tc := ⟨.hbm, 535, rfl⟩
abbrev main_call16_v2 : Ref sig .tc := ⟨.hbm, 536, rfl⟩
abbrev main_call16_v3 : Ref sig .tc := ⟨.hbm, 537, rfl⟩
abbrev main_call16_v4 : Ref sig .tc := ⟨.hbm, 538, rfl⟩
abbrev main_call16_v5 : Ref sig .tc := ⟨.hbm, 539, rfl⟩
abbrev main_call16_v6 : Ref sig .tc := ⟨.hbm, 540, rfl⟩
abbrev main_call16_v7 : Ref sig .tc := ⟨.hbm, 541, rfl⟩
abbrev main_call16_cst_1 : Ref sig .tc := ⟨.hbm, 542, rfl⟩
abbrev main_call16_v8 : Ref sig .tc := ⟨.hbm, 543, rfl⟩
abbrev main_call16_cst_2 : Ref sig .tc := ⟨.hbm, 544, rfl⟩
abbrev main_call16_v9 : Ref sig .tc := ⟨.hbm, 545, rfl⟩
abbrev main_call16_v10 : Ref sig .tc := ⟨.hbm, 546, rfl⟩
abbrev main_call16_v11 : Ref sig .tc := ⟨.hbm, 547, rfl⟩
abbrev main_call16_cst_3 : Ref sig .tc := ⟨.hbm, 548, rfl⟩
abbrev main_call16_v12 : Ref sig .tc := ⟨.hbm, 549, rfl⟩
abbrev main_call16_cst_4 : Ref sig .tc := ⟨.hbm, 550, rfl⟩
abbrev main_call16_call0_v0 : Ref sig .tc := ⟨.hbm, 551, rfl⟩
abbrev main_call16_call0_v1 : Ref sig .tc := ⟨.hbm, 552, rfl⟩
abbrev main_v284 : Ref sig .tc := ⟨.hbm, 553, rfl⟩
abbrev main_v285 : Ref sig .tc := ⟨.hbm, 554, rfl⟩
abbrev main_v286 : Ref sig .tc := ⟨.hbm, 555, rfl⟩
abbrev main_v287 : Ref sig .tc := ⟨.hbm, 556, rfl⟩
abbrev main_cst_42 : Ref sig .tc := ⟨.hbm, 557, rfl⟩
abbrev main_v288 : Ref sig .tc := ⟨.hbm, 558, rfl⟩
abbrev main_v289 : Ref sig .tc := ⟨.hbm, 559, rfl⟩
abbrev main_v290 : Ref sig .tc := ⟨.hbm, 560, rfl⟩
abbrev main_v291 : Ref sig .tc := ⟨.hbm, 561, rfl⟩
abbrev main_v292 : Ref sig .tc := ⟨.hbm, 562, rfl⟩
abbrev main_v293 : Ref sig .tc := ⟨.hbm, 563, rfl⟩
abbrev main_v294 : Ref sig .tc := ⟨.hbm, 564, rfl⟩
abbrev main_v295 : Ref sig .tc := ⟨.hbm, 565, rfl⟩
abbrev main_v296 : Ref sig .tc := ⟨.hbm, 566, rfl⟩
abbrev main_v297 : Ref sig .tc := ⟨.hbm, 567, rfl⟩
abbrev main_v298 : Ref sig .tc := ⟨.hbm, 568, rfl⟩
abbrev main_v299 : Ref sig .tc := ⟨.hbm, 569, rfl⟩
abbrev main_call17_cst : Ref sig .tc := ⟨.hbm, 570, rfl⟩
abbrev main_call17_v0 : Ref sig .tc := ⟨.hbm, 571, rfl⟩
abbrev main_v300 : Ref sig .tc := ⟨.hbm, 572, rfl⟩
abbrev main_c_43 : Ref sig .tc := ⟨.hbm, 573, rfl⟩
abbrev main_v301 : Ref sig .tc := ⟨.hbm, 574, rfl⟩
abbrev main_v302 : Ref sig .tc := ⟨.hbm, 575, rfl⟩
abbrev main_c_44 : Ref sig .tc := ⟨.hbm, 576, rfl⟩
abbrev main_v303 : Ref sig .tc := ⟨.hbm, 577, rfl⟩
abbrev main_v304 : Ref sig .tc := ⟨.hbm, 578, rfl⟩
abbrev main_v305 : Ref sig .tc := ⟨.hbm, 579, rfl⟩
abbrev main_v306 : Ref sig .tc := ⟨.hbm, 580, rfl⟩
abbrev main_v307 : Ref sig .tc := ⟨.hbm, 581, rfl⟩
abbrev main_cst_45 : Ref sig .tc := ⟨.hbm, 582, rfl⟩
abbrev main_v308 : Ref sig .tc := ⟨.hbm, 583, rfl⟩
abbrev main_v309 : Ref sig .tc := ⟨.hbm, 584, rfl⟩
abbrev main_v310 : Ref sig .tc := ⟨.hbm, 585, rfl⟩
abbrev main_v311 : Ref sig .tc := ⟨.hbm, 586, rfl⟩
abbrev main_v312 : Ref sig .tc := ⟨.hbm, 587, rfl⟩
abbrev main_v313 : Ref sig .tc := ⟨.hbm, 588, rfl⟩
abbrev main_v314 : Ref sig .tc := ⟨.hbm, 589, rfl⟩
abbrev main_v315 : Ref sig .tc := ⟨.hbm, 590, rfl⟩
abbrev main_v316 : Ref sig .tc := ⟨.hbm, 591, rfl⟩
abbrev main_v317 : Ref sig .tc := ⟨.hbm, 592, rfl⟩
abbrev main_v318 : Ref sig .tc := ⟨.hbm, 593, rfl⟩
abbrev main_v319 : Ref sig .tc := ⟨.hbm, 594, rfl⟩
abbrev main_v320 : Ref sig .tc := ⟨.hbm, 595, rfl⟩
abbrev main_v321 : Ref sig .tc := ⟨.hbm, 596, rfl⟩
abbrev main_v322 : Ref sig .tc := ⟨.hbm, 597, rfl⟩
abbrev main_v323 : Ref sig .tc := ⟨.hbm, 598, rfl⟩
abbrev main_cst_46 : Ref sig .tc := ⟨.hbm, 599, rfl⟩
abbrev main_v324 : Ref sig .tc := ⟨.hbm, 600, rfl⟩
abbrev main_cst_47 : Ref sig .tc := ⟨.hbm, 601, rfl⟩
abbrev main_v325 : Ref sig .tc := ⟨.hbm, 602, rfl⟩
abbrev main_v326 : Ref sig .tc := ⟨.hbm, 603, rfl⟩
abbrev main_c_48 : Ref sig .tc := ⟨.hbm, 604, rfl⟩
abbrev main_call18_cst : Ref sig .tc := ⟨.hbm, 605, rfl⟩
abbrev main_call18_v0 : Ref sig .tc := ⟨.hbm, 606, rfl⟩
abbrev main_call18_v1 : Ref sig .tc := ⟨.hbm, 607, rfl⟩
abbrev main_call18_cst_0 : Ref sig .tc := ⟨.hbm, 608, rfl⟩
abbrev main_call18_v2 : Ref sig .tc := ⟨.hbm, 609, rfl⟩
abbrev main_call18_v3 : Ref sig .tc := ⟨.hbm, 610, rfl⟩
abbrev main_call18_v4 : Ref sig .tc := ⟨.hbm, 611, rfl⟩
abbrev main_call18_v5 : Ref sig .tc := ⟨.hbm, 612, rfl⟩
abbrev main_call18_v6 : Ref sig .tc := ⟨.hbm, 613, rfl⟩
abbrev main_call18_v7 : Ref sig .tc := ⟨.hbm, 614, rfl⟩
abbrev main_call18_cst_1 : Ref sig .tc := ⟨.hbm, 615, rfl⟩
abbrev main_call18_v8 : Ref sig .tc := ⟨.hbm, 616, rfl⟩
abbrev main_call18_cst_2 : Ref sig .tc := ⟨.hbm, 617, rfl⟩
abbrev main_call18_v9 : Ref sig .tc := ⟨.hbm, 618, rfl⟩
abbrev main_call18_v10 : Ref sig .tc := ⟨.hbm, 619, rfl⟩
abbrev main_call18_v11 : Ref sig .tc := ⟨.hbm, 620, rfl⟩
abbrev main_call18_cst_3 : Ref sig .tc := ⟨.hbm, 621, rfl⟩
abbrev main_call18_v12 : Ref sig .tc := ⟨.hbm, 622, rfl⟩
abbrev main_call18_cst_4 : Ref sig .tc := ⟨.hbm, 623, rfl⟩
abbrev main_call18_call0_v0 : Ref sig .tc := ⟨.hbm, 624, rfl⟩
abbrev main_call18_call0_v1 : Ref sig .tc := ⟨.hbm, 625, rfl⟩
abbrev main_v327 : Ref sig .tc := ⟨.hbm, 626, rfl⟩
abbrev main_v328 : Ref sig .tc := ⟨.hbm, 627, rfl⟩
abbrev main_v329 : Ref sig .tc := ⟨.hbm, 628, rfl⟩
abbrev main_v330 : Ref sig .tc := ⟨.hbm, 629, rfl⟩
abbrev main_cst_49 : Ref sig .tc := ⟨.hbm, 630, rfl⟩
abbrev main_v331 : Ref sig .tc := ⟨.hbm, 631, rfl⟩
abbrev main_v332 : Ref sig .tc := ⟨.hbm, 632, rfl⟩
abbrev main_v333 : Ref sig .tc := ⟨.hbm, 633, rfl⟩
abbrev main_v334 : Ref sig .tc := ⟨.hbm, 634, rfl⟩
abbrev main_v335 : Ref sig .tc := ⟨.hbm, 635, rfl⟩
abbrev main_v336 : Ref sig .tc := ⟨.hbm, 636, rfl⟩
abbrev main_v337 : Ref sig .tc := ⟨.hbm, 637, rfl⟩
abbrev main_v338 : Ref sig .tc := ⟨.hbm, 638, rfl⟩
abbrev main_v339 : Ref sig .tc := ⟨.hbm, 639, rfl⟩
abbrev main_v340 : Ref sig .tc := ⟨.hbm, 640, rfl⟩
abbrev main_v341 : Ref sig .tc := ⟨.hbm, 641, rfl⟩
abbrev main_v342 : Ref sig .tc := ⟨.hbm, 642, rfl⟩
abbrev main_call19_cst : Ref sig .tc := ⟨.hbm, 643, rfl⟩
abbrev main_call19_v0 : Ref sig .tc := ⟨.hbm, 644, rfl⟩
abbrev main_v343 : Ref sig .tc := ⟨.hbm, 645, rfl⟩
abbrev main_v344 : Ref sig .tc := ⟨.hbm, 646, rfl⟩
abbrev main_v345 : Ref sig .tc := ⟨.hbm, 647, rfl⟩
abbrev main_v346 : Ref sig .tc := ⟨.hbm, 648, rfl⟩
abbrev main_v347 : Ref sig .tc := ⟨.hbm, 649, rfl⟩
abbrev main_v348 : Ref sig .tc := ⟨.hbm, 650, rfl⟩
abbrev main_v349 : Ref sig .tc := ⟨.hbm, 651, rfl⟩
abbrev main_v350 : Ref sig .tc := ⟨.hbm, 652, rfl⟩
abbrev main_v351 : Ref sig .tc := ⟨.hbm, 653, rfl⟩
abbrev main_v352 : Ref sig .tc := ⟨.hbm, 654, rfl⟩
abbrev main_v353 : Ref sig .tc := ⟨.hbm, 655, rfl⟩
abbrev main_v354 : Ref sig .tc := ⟨.hbm, 656, rfl⟩
abbrev main_v355 : Ref sig .tc := ⟨.hbm, 657, rfl⟩
abbrev main_cst_50 : Ref sig .tc := ⟨.hbm, 658, rfl⟩
abbrev main_v356 : Ref sig .tc := ⟨.hbm, 659, rfl⟩
abbrev main_cst_51 : Ref sig .tc := ⟨.hbm, 660, rfl⟩
abbrev main_v357 : Ref sig .tc := ⟨.hbm, 661, rfl⟩
abbrev main_v358 : Ref sig .tc := ⟨.hbm, 662, rfl⟩
abbrev main_c_52 : Ref sig .tc := ⟨.hbm, 663, rfl⟩
abbrev main_call20_cst : Ref sig .tc := ⟨.hbm, 664, rfl⟩
abbrev main_call20_v0 : Ref sig .tc := ⟨.hbm, 665, rfl⟩
abbrev main_call20_v1 : Ref sig .tc := ⟨.hbm, 666, rfl⟩
abbrev main_call20_cst_0 : Ref sig .tc := ⟨.hbm, 667, rfl⟩
abbrev main_call20_v2 : Ref sig .tc := ⟨.hbm, 668, rfl⟩
abbrev main_call20_v3 : Ref sig .tc := ⟨.hbm, 669, rfl⟩
abbrev main_call20_v4 : Ref sig .tc := ⟨.hbm, 670, rfl⟩
abbrev main_call20_v5 : Ref sig .tc := ⟨.hbm, 671, rfl⟩
abbrev main_call20_v6 : Ref sig .tc := ⟨.hbm, 672, rfl⟩
abbrev main_call20_v7 : Ref sig .tc := ⟨.hbm, 673, rfl⟩
abbrev main_call20_cst_1 : Ref sig .tc := ⟨.hbm, 674, rfl⟩
abbrev main_call20_v8 : Ref sig .tc := ⟨.hbm, 675, rfl⟩
abbrev main_call20_cst_2 : Ref sig .tc := ⟨.hbm, 676, rfl⟩
abbrev main_call20_v9 : Ref sig .tc := ⟨.hbm, 677, rfl⟩
abbrev main_call20_v10 : Ref sig .tc := ⟨.hbm, 678, rfl⟩
abbrev main_call20_v11 : Ref sig .tc := ⟨.hbm, 679, rfl⟩
abbrev main_call20_cst_3 : Ref sig .tc := ⟨.hbm, 680, rfl⟩
abbrev main_call20_v12 : Ref sig .tc := ⟨.hbm, 681, rfl⟩
abbrev main_call20_cst_4 : Ref sig .tc := ⟨.hbm, 682, rfl⟩
abbrev main_call20_call0_v0 : Ref sig .tc := ⟨.hbm, 683, rfl⟩
abbrev main_call20_call0_v1 : Ref sig .tc := ⟨.hbm, 684, rfl⟩
abbrev main_v359 : Ref sig .tc := ⟨.hbm, 685, rfl⟩
abbrev main_v360 : Ref sig .tc := ⟨.hbm, 686, rfl⟩
abbrev main_v361 : Ref sig .tc := ⟨.hbm, 687, rfl⟩
abbrev main_v362 : Ref sig .tc := ⟨.hbm, 688, rfl⟩
abbrev main_cst_53 : Ref sig .tc := ⟨.hbm, 689, rfl⟩
abbrev main_v363 : Ref sig .tc := ⟨.hbm, 690, rfl⟩
abbrev main_v364 : Ref sig .tc := ⟨.hbm, 691, rfl⟩
abbrev main_v365 : Ref sig .tc := ⟨.hbm, 692, rfl⟩
abbrev main_v366 : Ref sig .tc := ⟨.hbm, 693, rfl⟩
abbrev main_v367 : Ref sig .tc := ⟨.hbm, 694, rfl⟩
abbrev main_v368 : Ref sig .tc := ⟨.hbm, 695, rfl⟩
abbrev main_v369 : Ref sig .tc := ⟨.hbm, 696, rfl⟩
abbrev main_v370 : Ref sig .tc := ⟨.hbm, 697, rfl⟩
abbrev main_v371 : Ref sig .tc := ⟨.hbm, 698, rfl⟩
abbrev main_v372 : Ref sig .tc := ⟨.hbm, 699, rfl⟩
abbrev main_v373 : Ref sig .tc := ⟨.hbm, 700, rfl⟩
abbrev main_v374 : Ref sig .tc := ⟨.hbm, 701, rfl⟩
abbrev main_call21_cst : Ref sig .tc := ⟨.hbm, 702, rfl⟩
abbrev main_call21_v0 : Ref sig .tc := ⟨.hbm, 703, rfl⟩
abbrev main_v375 : Ref sig .tc := ⟨.hbm, 704, rfl⟩
abbrev main_v376 : Ref sig .tc := ⟨.hbm, 705, rfl⟩
abbrev main_v377 : Ref sig .tc := ⟨.hbm, 706, rfl⟩
abbrev main_v378 : Ref sig .tc := ⟨.hbm, 707, rfl⟩
abbrev main_v379 : Ref sig .tc := ⟨.hbm, 708, rfl⟩
abbrev main_cst_54 : Ref sig .tc := ⟨.hbm, 709, rfl⟩
abbrev main_v380 : Ref sig .tc := ⟨.hbm, 710, rfl⟩
abbrev main_cst_55 : Ref sig .tc := ⟨.hbm, 711, rfl⟩
abbrev main_v381 : Ref sig .tc := ⟨.hbm, 712, rfl⟩
abbrev main_v382 : Ref sig .tc := ⟨.hbm, 713, rfl⟩
abbrev main_c_56 : Ref sig .tc := ⟨.hbm, 714, rfl⟩
abbrev main_call22_cst : Ref sig .tc := ⟨.hbm, 715, rfl⟩
abbrev main_call22_v0 : Ref sig .tc := ⟨.hbm, 716, rfl⟩
abbrev main_call22_v1 : Ref sig .tc := ⟨.hbm, 717, rfl⟩
abbrev main_call22_cst_0 : Ref sig .tc := ⟨.hbm, 718, rfl⟩
abbrev main_call22_v2 : Ref sig .tc := ⟨.hbm, 719, rfl⟩
abbrev main_call22_v3 : Ref sig .tc := ⟨.hbm, 720, rfl⟩
abbrev main_call22_v4 : Ref sig .tc := ⟨.hbm, 721, rfl⟩
abbrev main_call22_v5 : Ref sig .tc := ⟨.hbm, 722, rfl⟩
abbrev main_call22_v6 : Ref sig .tc := ⟨.hbm, 723, rfl⟩
abbrev main_call22_v7 : Ref sig .tc := ⟨.hbm, 724, rfl⟩
abbrev main_call22_cst_1 : Ref sig .tc := ⟨.hbm, 725, rfl⟩
abbrev main_call22_v8 : Ref sig .tc := ⟨.hbm, 726, rfl⟩
abbrev main_call22_cst_2 : Ref sig .tc := ⟨.hbm, 727, rfl⟩
abbrev main_call22_v9 : Ref sig .tc := ⟨.hbm, 728, rfl⟩
abbrev main_call22_v10 : Ref sig .tc := ⟨.hbm, 729, rfl⟩
abbrev main_call22_v11 : Ref sig .tc := ⟨.hbm, 730, rfl⟩
abbrev main_call22_cst_3 : Ref sig .tc := ⟨.hbm, 731, rfl⟩
abbrev main_call22_v12 : Ref sig .tc := ⟨.hbm, 732, rfl⟩
abbrev main_call22_cst_4 : Ref sig .tc := ⟨.hbm, 733, rfl⟩
abbrev main_call22_call0_v0 : Ref sig .tc := ⟨.hbm, 734, rfl⟩
abbrev main_call22_call0_v1 : Ref sig .tc := ⟨.hbm, 735, rfl⟩
abbrev main_v383 : Ref sig .tc := ⟨.hbm, 736, rfl⟩
abbrev main_v384 : Ref sig .tc := ⟨.hbm, 737, rfl⟩
abbrev main_v385 : Ref sig .tc := ⟨.hbm, 738, rfl⟩
abbrev main_v386 : Ref sig .tc := ⟨.hbm, 739, rfl⟩
abbrev main_cst_57 : Ref sig .tc := ⟨.hbm, 740, rfl⟩
abbrev main_v387 : Ref sig .tc := ⟨.hbm, 741, rfl⟩
abbrev main_v388 : Ref sig .tc := ⟨.hbm, 742, rfl⟩
abbrev main_v389 : Ref sig .tc := ⟨.hbm, 743, rfl⟩
abbrev main_v390 : Ref sig .tc := ⟨.hbm, 744, rfl⟩
abbrev main_v391 : Ref sig .tc := ⟨.hbm, 745, rfl⟩
abbrev main_v392 : Ref sig .tc := ⟨.hbm, 746, rfl⟩
abbrev main_v393 : Ref sig .tc := ⟨.hbm, 747, rfl⟩
abbrev main_v394 : Ref sig .tc := ⟨.hbm, 748, rfl⟩
abbrev main_v395 : Ref sig .tc := ⟨.hbm, 749, rfl⟩
abbrev main_v396 : Ref sig .tc := ⟨.hbm, 750, rfl⟩
abbrev main_v397 : Ref sig .tc := ⟨.hbm, 751, rfl⟩
abbrev main_v398 : Ref sig .tc := ⟨.hbm, 752, rfl⟩
abbrev main_call23_cst : Ref sig .tc := ⟨.hbm, 753, rfl⟩
abbrev main_call23_v0 : Ref sig .tc := ⟨.hbm, 754, rfl⟩
abbrev main_v399 : Ref sig .tc := ⟨.hbm, 755, rfl⟩
abbrev main_cst_58 : Ref sig .tc := ⟨.hbm, 756, rfl⟩
abbrev main_v400 : Ref sig .tc := ⟨.hbm, 757, rfl⟩
abbrev main_v401 : Ref sig .tc := ⟨.hbm, 758, rfl⟩
abbrev main_v402 : Ref sig .tc := ⟨.hbm, 759, rfl⟩
abbrev main_v403 : Ref sig .tc := ⟨.hbm, 760, rfl⟩
abbrev main_v404 : Ref sig .tc := ⟨.hbm, 761, rfl⟩
abbrev main_v405 : Ref sig .tc := ⟨.hbm, 762, rfl⟩
abbrev main_v406 : Ref sig .tc := ⟨.hbm, 763, rfl⟩
abbrev main_v407 : Ref sig .tc := ⟨.hbm, 764, rfl⟩
abbrev main_cst_59 : Ref sig .tc := ⟨.hbm, 765, rfl⟩
abbrev main_call24_cst : Ref sig .tc := ⟨.hbm, 766, rfl⟩
abbrev main_call24_v0 : Ref sig .tc := ⟨.hbm, 767, rfl⟩
abbrev main_call24_v1 : Ref sig .tc := ⟨.hbm, 768, rfl⟩
abbrev main_call24_v2 : Ref sig .tc := ⟨.hbm, 769, rfl⟩
abbrev main_call24_v3 : Ref sig .tc := ⟨.hbm, 770, rfl⟩
abbrev main_call24_v4 : Ref sig .tc := ⟨.hbm, 771, rfl⟩
abbrev main_v408 : Ref sig .tc := ⟨.hbm, 772, rfl⟩
abbrev main_v409 : Ref sig .tc := ⟨.hbm, 773, rfl⟩
abbrev main_v410 : Ref sig .tc := ⟨.hbm, 774, rfl⟩
abbrev main_v411 : Ref sig .tc := ⟨.hbm, 775, rfl⟩
abbrev main_v412 : Ref sig .tc := ⟨.hbm, 776, rfl⟩
abbrev main_cst_60 : Ref sig .tc := ⟨.hbm, 777, rfl⟩
abbrev main_call25_cst : Ref sig .tc := ⟨.hbm, 778, rfl⟩
abbrev main_call25_v0 : Ref sig .tc := ⟨.hbm, 779, rfl⟩
abbrev main_call25_v1 : Ref sig .tc := ⟨.hbm, 780, rfl⟩
abbrev main_call25_v2 : Ref sig .tc := ⟨.hbm, 781, rfl⟩
abbrev main_call25_v3 : Ref sig .tc := ⟨.hbm, 782, rfl⟩
abbrev main_call25_v4 : Ref sig .tc := ⟨.hbm, 783, rfl⟩
abbrev main_v413 : Ref sig .tc := ⟨.hbm, 784, rfl⟩
abbrev main_v414 : Ref sig .tc := ⟨.hbm, 785, rfl⟩
abbrev main_v415 : Ref sig .tc := ⟨.hbm, 786, rfl⟩
abbrev main_v416 : Ref sig .tc := ⟨.hbm, 787, rfl⟩
abbrev main_v417 : Ref sig .tc := ⟨.hbm, 788, rfl⟩

abbrev nD : Nat := 1
abbrev τ : Topo := Topo.v7x

variable {F : FTy → Type} [FloatOps F]

class Facts₀ : Prop where
  slices_S2x640000_S1x640000_0_0 : S2x640000.Slices ![0, 0] S1x640000
  shapeCasts_S1x640000_S640000 : S1x640000.ShapeCasts S640000
  slices_S2x640000_S1x640000_1_0 : S2x640000.Slices ![1, 0] S1x640000
  bcast_S_S640000 : S_.BroadcastsInDim S640000 (![] : Fin 0 → Fin S640000.rank)
  bcast_S640000_S640000x1_0 : S640000.BroadcastsInDim S640000x1 (![0] : Fin 1 → Fin S640000x1.rank)
  bcast_S_S100000x128 : S_.BroadcastsInDim S100000x128 (![] : Fin 0 → Fin S100000x128.rank)
  slices_S4x128x128_S1x128x128_0_0_0 : S4x128x128.Slices ![0, 0, 0] S1x128x128
  shapeCasts_S1x128x128_S128x128 : S1x128x128.ShapeCasts S128x128
  slices_S4x128_S1x128_0_0 : S4x128.Slices ![0, 0] S1x128
  shapeCasts_S1x128_S128 : S1x128.ShapeCasts S128
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  reducesTo_S100000x128_S128_d0 : S100000x128.ReducesTo [0] S128
  h_S_ : 0 < S_.numel
  bcast_S_S128 : S_.BroadcastsInDim S128 (![] : Fin 0 → Fin S128.rank)
  bcast_S_S1x128 : S_.BroadcastsInDim S1x128 (![] : Fin 0 → Fin S1x128.rank)
  slices_S4x128x128_S1x128x128_1_0_0 : S4x128x128.Slices ![1, 0, 0] S1x128x128
  slices_S4x128_S1x128_1_0 : S4x128.Slices ![1, 0] S1x128
  slices_S4x128x128_S1x128x128_2_0_0 : S4x128x128.Slices ![2, 0, 0] S1x128x128
  slices_S4x128_S1x128_2_0 : S4x128.Slices ![2, 0] S1x128
  slices_S4x128x128_S1x128x128_3_0_0 : S4x128x128.Slices ![3, 0, 0] S1x128x128
  slices_S4x128_S1x128_3_0 : S4x128.Slices ![3, 0] S1x128
  bcast_S_S512x128 : S_.BroadcastsInDim S512x128 (![] : Fin 0 → Fin S512x128.rank)
  bcast_S100000_S100000x1_0 : S100000.BroadcastsInDim S100000x1 (![0] : Fin 1 → Fin S100000x1.rank)
  concatenates_S512x128_S512x5_S512x133_d1 : Shape.Concatenates [S512x128, S512x5] S512x133 1
  bcast_S256_S1x256_1 : S256.BroadcastsInDim S1x256 (![1] : Fin 1 → Fin S1x256.rank)
  bcast_S1x256_S512x256_0_1 : S1x256.BroadcastsInDim S512x256 (![0, 1] : Fin 2 → Fin S512x256.rank)
  bcast_S_S512x256 : S_.BroadcastsInDim S512x256 (![] : Fin 0 → Fin S512x256.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  gather_S100000x128_S640000x1_S640000x128_1_0_n_n_0_1_1128_wf : GatherDims.WF S100000x128 S640000x1 S640000x128 [1] [0] [] [0] [] 1 ![1, 128]
  scatter_S100000x128_S640000x1_S640000x128_1_0_0_1_wf : ScatterDims.WF S100000x128 S640000x1 S640000x128 [1] [0] [0] 1
  dot_S100000x128_S128x128_S100000x128_1_0_0_1_n_n_wf : DotDims.WF S100000x128 S128x128 S100000x128 [1] [0] [0] [1] [] []
  scatter_S512x128_S100000x1_S100000x128_1_0_0_1_wf : ScatterDims.WF S512x128 S100000x1 S100000x128 [1] [0] [0] 1
  dot_S512x133_S133x256_S512x256_1_0_0_1_n_n_wf : DotDims.WF S512x133 S133x256 S512x256 [1] [0] [0] [1] [] []
  dot_S512x256_S256x256_S512x256_1_0_0_1_n_n_wf : DotDims.WF S512x256 S256x256 S512x256 [1] [0] [0] [1] [] []
  dot_S512x256_S256x1_S512x1_1_0_0_1_n_n_wf : DotDims.WF S512x256 S256x1 S512x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def scatter_S100000x128_S640000x1_S640000x128_1_0_0_1 : ScatterDims S100000x128 S640000x1 S640000x128 where
  updateWindowDims := [1]
  insertedWindowDims := [0]
  scatterDimsToOperandDims := [0]
  indexVectorDim := 1
  wf := scatter_S100000x128_S640000x1_S640000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def scatter_S512x128_S100000x1_S100000x128_1_0_0_1 : ScatterDims S512x128 S100000x1 S100000x128 where
  updateWindowDims := [1]
  insertedWindowDims := [0]
  scatterDimsToOperandDims := [0]
  indexVectorDim := 1
  wf := scatter_S512x128_S100000x1_S100000x128_1_0_0_1_wf
def dot_S512x133_S133x256_S512x256_1_0_0_1_n_n : DotDims S512x133 S133x256 S512x256 where
  lhsContracting := [1]
  rhsContracting := [0]
  lhsNonContracting := [0]
  rhsNonContracting := [1]
  lhsBatch := []
  rhsBatch := []
  wf := dot_S512x133_S133x256_S512x256_1_0_0_1_n_n_wf
def dot_S512x256_S256x256_S512x256_1_0_0_1_n_n : DotDims S512x256 S256x256 S512x256 where
  lhsContracting := [1]
  rhsContracting := [0]
  lhsNonContracting := [0]
  rhsNonContracting := [1]
  lhsBatch := []
  rhsBatch := []
  wf := dot_S512x256_S256x256_S512x256_1_0_0_1_n_n_wf
def dot_S512x256_S256x1_S512x1_1_0_0_1_n_n : DotDims S512x256 S256x1 S512x1 where
  lhsContracting := [1]
  rhsContracting := [0]
  lhsNonContracting := [0]
  rhsNonContracting := [1]
  lhsBatch := []
  rhsBatch := []
  wf := dot_S512x256_S256x1_S512x1_1_0_0_1_n_n_wf

class Facts : Prop extends Facts₀ where

variable [Facts]
-- ==== Proof.RefOpsL0.lean ====
import proofs.«108002_j23673859736037_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL0agg : List (HloOp τ sig (Elt F)) :=
  [ StableHlo.unary main_arg1 main_v0 ((extractStridedSlice S1x640000 ![0, 0] · slices_S2x640000_S1x640000_0_0)),
    StableHlo.reshape main_v0 main_v1 rfl shapeCasts_S1x640000_S640000,
    StableHlo.unary main_arg1 main_v2 ((extractStridedSlice S1x640000 ![1, 0] · slices_S2x640000_S1x640000_1_0)),
    StableHlo.reshape main_v2 main_v3 rfl shapeCasts_S1x640000_S640000,
    StableHlo.nullary main_c (constantI S_ 32 0#32),
    StableHlo.unary main_c main_v4 (broadcastInDim S640000 ![] bcast_S_S640000),
    StableHlo.binary main_v1 main_v4 main_v5 (cmpi .slt),
    StableHlo.nullary main_c_0 (constantI S_ 32 100000#32),
    StableHlo.unary main_c_0 main_v6 (broadcastInDim S640000 ![] bcast_S_S640000),
    StableHlo.binary main_v1 main_v6 main_v7 (addi),
    StableHlo.ternary main_v5 main_v7 main_v1 main_v8 (select),
    StableHlo.unary main_v8 main_v9 (broadcastInDim S640000x1 ![0] bcast_S640000_S640000x1_0),
    StableHlo.binary main_arg0 main_v9 main_v10 ((fun x i => Host.gather gather_S100000x128_S640000x1_S640000x128_1_0_n_n_0_1_1128 x i)),
    StableHlo.nullary main_cst (constant S_ .f32 0x00000000#32),
    StableHlo.unary main_cst main_v11 (broadcastInDim S100000x128 ![] bcast_S_S100000x128),
    StableHlo.unary main_v3 main_v12 (broadcastInDim S640000x1 ![0] bcast_S640000_S640000x1_0),
    StableHlo.ternary main_v11 main_v12 main_v10 main_v13 ((fun x i u => Host.scatterAdd scatter_S100000x128_S640000x1_S640000x128_1_0_0_1 x i u)) ]

abbrev opsL0lin1 : List (HloOp τ sig (Elt F)) :=
  [ StableHlo.binary main_arg0 main_v13 main_v14 (addf),
    StableHlo.unary main_arg4 main_v15 ((extractStridedSlice S1x128x128 ![0, 0, 0] · slices_S4x128x128_S1x128x128_0_0_0)),
    StableHlo.reshape main_v15 main_v16 rfl shapeCasts_S1x128x128_S128x128,
    StableHlo.binary main_v14 main_v16 main_v17 ((fun l r => Host.dotGeneral dot_S100000x128_S128x128_S100000x128_1_0_0_1_n_n none l r)),
    StableHlo.unary main_arg5 main_v18 ((extractStridedSlice S1x128 ![0, 0] · slices_S4x128_S1x128_0_0)),
    StableHlo.reshape main_v18 main_v19 rfl shapeCasts_S1x128_S128,
    StableHlo.unary main_v19 main_v20 (broadcastInDim S1x128 ![1] bcast_S128_S1x128_1),
    StableHlo.unary main_v20 main_v21 (broadcastInDim S100000x128 ![0, 1] bcast_S1x128_S100000x128_0_1),
    StableHlo.binary main_v17 main_v21 main_v22 (addf) ]

abbrev opsL0bn1 : List (HloOp τ sig (Elt F)) :=
  [ StableHlo.unary main_arg6 main_v23 ((extractStridedSlice S1x128 ![0, 0] · slices_S4x128_S1x128_0_0)),
    StableHlo.reshape main_v23 main_v24 rfl shapeCasts_S1x128_S128,
    StableHlo.unary main_arg7 main_v25 ((extractStridedSlice S1x128 ![0, 0] · slices_S4x128_S1x128_0_0)),
    StableHlo.reshape main_v25 main_v26 rfl shapeCasts_S1x128_S128,
    StableHlo.nullary main_cst_1 (constant S_ .f32 0x00000000#32),
    StableHlo.binary main_v22 main_cst_1 main_v27 ((fun x v => Host.reduceAdd x v reducesTo_S100000x128_S128_d0 h_S_)),
    StableHlo.nullary main_cst_2 (constant S_ .f32 0x47C35000#32),
    StableHlo.unary main_cst_2 main_v28 (broadcastInDim S128 ![] bcast_S_S128),
    StableHlo.binary main_v27 main_v28 main_v29 (Host.divf),
    StableHlo.nullary main_c_3 (constantI S_ 32 0#32),
    StableHlo.TRef.nullary main_call0.cst (constant S_ .f32 0x00000000#32),
    StableHlo.TRef.binary (.of main_v22) main_call0.cst main_call0.v0 (fun x v => Host.reduceAdd x v reducesTo_S100000x128_S128_d0 h_S_),
    StableHlo.TRef.unary main_call0.v0 main_call0.v1 (broadcastInDim S1x128 ![1] bcast_S128_S1x128_1),
    StableHlo.TRef.nullary main_call0.cst_0 (constant S_ .f32 0x47C35000#32),
    StableHlo.TRef.unary main_call0.cst_0 main_call0.v2 (broadcastInDim S1x128 ![] bcast_S_S1x128),
    StableHlo.TRef.binary main_call0.v1 main_call0.v2 main_call0.v3 Host.divf,
    StableHlo.TRef.unary main_call0.v3 main_call0.v4 (broadcastInDim S100000x128 ![0, 1] bcast_S1x128_S100000x128_0_1),
    StableHlo.TRef.binary (.of main_v22) main_call0.v4 main_call0.v5 subf,
    StableHlo.TRef.binary main_call0.v5 main_call0.v5 main_call0.v6 mulf,
    StableHlo.TRef.unary (.of main_c_3) main_call0.v7 (sitofp .f32),
    StableHlo.TRef.nullary main_call0.cst_1 (constant S_ .f32 0x47C35000#32),
    StableHlo.TRef.binary main_call0.cst_1 main_call0.v7 main_call0.v8 subf,
    StableHlo.TRef.nullary main_call0.cst_2 (constant S_ .f32 0x00000000#32),
    StableHlo.TRef.binary main_call0.v6 main_call0.cst_2 main_call0.v9 (fun x v => Host.reduceAdd x v reducesTo_S100000x128_S128_d0 h_S_),
    StableHlo.TRef.unary main_call0.v8 main_call0.v10 (broadcastInDim S128 ![] bcast_S_S128),
    StableHlo.TRef.binary main_call0.v9 main_call0.v10 main_call0.v11 Host.divf,
    StableHlo.TRef.nullary main_call0.cst_3 (constant S_ .f32 0x00000000#32),
    StableHlo.TRef.binary main_call0.v8 main_call0.cst_3 main_call0.v12 (cmpf .ogt),
    StableHlo.TRef.nullary main_call0.cst_4 (constant S_ .f32 0x7FC00000#32),
    StableHlo.TRef.unary main_call0.cst_4 main_call0.call0.v0 id,
    StableHlo.TRef.unary main_call0.call0.v0 main_call0.call0.v1 (broadcastInDim S128 ![] bcast_S_S128),
    StableHlo.TRef.ternary main_call0.v12 main_call0.v11 main_call0.call0.v1 main_call0.call0.v2 (fun p a b => select (broadcastInDim S128 ![] bcast_S_S128 p) a b),
    StableHlo.unary main_v29 main_v31 (broadcastInDim S1x128 ![1] bcast_S128_S1x128_1),
    StableHlo.unary main_v31 main_v32 (broadcastInDim S100000x128 ![0, 1] bcast_S1x128_S100000x128_0_1),
    StableHlo.binary main_v22 main_v32 main_v33 (subf),
    StableHlo.nullary main_cst_4 (constant S_ .f32 0x3727C5AC#32),
    StableHlo.unary main_cst_4 main_v34 (broadcastInDim S128 ![] bcast_S_S128),
    StableHlo.binary main_v30 main_v34 main_v35 (addf),
    StableHlo.unary main_v35 main_v36 (Host.rsqrt),
    StableHlo.unary main_v36 main_v37 (broadcastInDim S1x128 ![1] bcast_S128_S1x128_1),
    StableHlo.unary main_v37 main_v38 (broadcastInDim S100000x128 ![0, 1] bcast_S1x128_S100000x128_0_1),
    StableHlo.binary main_v33 main_v38 main_v39 (mulf),
    StableHlo.unary main_v24 main_v40 (broadcastInDim S1x128 ![1] bcast_S128_S1x128_1),
    StableHlo.unary main_v40 main_v41 (broadcastInDim S100000x128 ![0, 1] bcast_S1x128_S100000x128_0_1),
    StableHlo.binary main_v39 main_v41 main_v42 (mulf),
    StableHlo.unary main_v26 main_v43 (broadcastInDim S1x128 ![1] bcast_S128_S1x128_1),
    StableHlo.unary main_v43 main_v44 (broadcastInDim S100000x128 ![0, 1] bcast_S1x128_S100000x128_0_1),
    StableHlo.binary main_v42 main_v44 main_v45 (addf),
    StableHlo.TRef.nullary main_call1.cst (constant S_ .f32 0x00000000#32),
    StableHlo.TRef.unary main_call1.cst main_call1.v0 (broadcastInDim S100000x128 ![] bcast_S_S100000x128),
    StableHlo.TRef.binary (.of main_v45) main_call1.v0 main_call1.v1 maximumf ]

abbrev opsL0lin2 : List (HloOp τ sig (Elt F)) :=
  [ StableHlo.unary main_arg8 main_v47 ((extractStridedSlice S1x128x128 ![0, 0, 0] · slices_S4x128x128_S1x128x128_0_0_0)),
    StableHlo.reshape main_v47 main_v48 rfl shapeCasts_S1x128x128_S128x128,
    StableHlo.binary main_v46 main_v48 main_v49 ((fun l r => Host.dotGeneral dot_S100000x128_S128x128_S100000x128_1_0_0_1_n_n none l r)),
    StableHlo.unary main_arg9 main_v50 ((extractStridedSlice S1x128 ![0, 0] · slices_S4x128_S1x128_0_0)),
    StableHlo.reshape main_v50 main_v51 rfl shapeCasts_S1x128_S128,
    StableHlo.unary main_v51 main_v52 (broadcastInDim S1x128 ![1] bcast_S128_S1x128_1),
    StableHlo.unary main_v52 main_v53 (broadcastInDim S100000x128 ![0, 1] bcast_S1x128_S100000x128_0_1),
    StableHlo.binary main_v49 main_v53 main_v54 (addf) ]

abbrev opsL0bn2 : List (HloOp τ sig (Elt F)) :=
  [ StableHlo.unary main_arg10 main_v55 ((extractStridedSlice S1x128 ![0, 0] · slices_S4x128_S1x128_0_0)),
    StableHlo.reshape main_v55 main_v56 rfl shapeCasts_S1x128_S128,
    StableHlo.unary main_arg11 main_v57 ((extractStridedSlice S1x128 ![0, 0] · slices_S4x128_S1x128_0_0)),
    StableHlo.reshape main_v57 main_v58 rfl shapeCasts_S1x128_S128,
    StableHlo.nullary main_cst_5 (constant S_ .f32 0x00000000#32),
    StableHlo.binary main_v54 main_cst_5 main_v59 ((fun x v => Host.reduceAdd x v reducesTo_S100000x128_S128_d0 h_S_)),
    StableHlo.nullary main_cst_6 (constant S_ .f32 0x47C35000#32),
    StableHlo.unary main_cst_6 main_v60 (broadcastInDim S128 ![] bcast_S_S128),
    StableHlo.binary main_v59 main_v60 main_v61 (Host.divf),
    StableHlo.nullary main_c_7 (constantI S_ 32 0#32),
    StableHlo.TRef.nullary main_call2.cst (constant S_ .f32 0x00000000#32),
    StableHlo.TRef.binary (.of main_v54) main_call2.cst main_call2.v0 (fun x v => Host.reduceAdd x v reducesTo_S100000x128_S128_d0 h_S_),
    StableHlo.TRef.unary main_call2.v0 main_call2.v1 (broadcastInDim S1x128 ![1] bcast_S128_S1x128_1),
    StableHlo.TRef.nullary main_call2.cst_0 (constant S_ .f32 0x47C35000#32),
    StableHlo.TRef.unary main_call2.cst_0 main_call2.v2 (broadcastInDim S1x128 ![] bcast_S_S1x128),
    StableHlo.TRef.binary main_call2.v1 main_call2.v2 main_call2.v3 Host.divf,
    StableHlo.TRef.unary main_call2.v3 main_call2.v4 (broadcastInDim S100000x128 ![0, 1] bcast_S1x128_S100000x128_0_1),
    StableHlo.TRef.binary (.of main_v54) main_call2.v4 main_call2.v5 subf,
    StableHlo.TRef.binary main_call2.v5 main_call2.v5 main_call2.v6 mulf,
    StableHlo.TRef.unary (.of main_c_7) main_call2.v7 (sitofp .f32),
    StableHlo.TRef.nullary main_call2.cst_1 (constant S_ .f32 0x47C35000#32),
    StableHlo.TRef.binary main_call2.cst_1 main_call2.v7 main_call2.v8 subf,
    StableHlo.TRef.nullary main_call2.cst_2 (constant S_ .f32 0x00000000#32),
    StableHlo.TRef.binary main_call2.v6 main_call2.cst_2 main_call2.v9 (fun x v => Host.reduceAdd x v reducesTo_S100000x128_S128_d0 h_S_),
    StableHlo.TRef.unary main_call2.v8 main_call2.v10 (broadcastInDim S128 ![] bcast_S_S128),
    StableHlo.TRef.binary main_call2.v9 main_call2.v10 main_call2.v11 Host.divf,
    StableHlo.TRef.nullary main_call2.cst_3 (constant S_ .f32 0x00000000#32),
    StableHlo.TRef.binary main_call2.v8 main_call2.cst_3 main_call2.v12 (cmpf .ogt),
    StableHlo.TRef.nullary main_call2.cst_4 (constant S_ .f32 0x7FC00000#32),
    StableHlo.TRef.unary main_call2.cst_4 main_call2.call0.v0 id,
    StableHlo.TRef.unary main_call2.call0.v0 main_call2.call0.v1 (broadcastInDim S128 ![] bcast_S_S128),
    StableHlo.TRef.ternary main_call2.v12 main_call2.v11 main_call2.call0.v1 main_call2.call0.v2 (fun p a b => select (broadcastInDim S128 ![] bcast_S_S128 p) a b),
    StableHlo.unary main_v61 main_v63 (broadcastInDim S1x128 ![1] bcast_S128_S1x128_1),
    StableHlo.unary main_v63 main_v64 (broadcastInDim S100000x128 ![0, 1] bcast_S1x128_S100000x128_0_1),
    StableHlo.binary main_v54 main_v64 main_v65 (subf),
    StableHlo.nullary main_cst_8 (constant S_ .f32 0x3727C5AC#32),
    StableHlo.unary main_cst_8 main_v66 (broadcastInDim S128 ![] bcast_S_S128),
    StableHlo.binary main_v62 main_v66 main_v67 (addf),
    StableHlo.unary main_v67 main_v68 (Host.rsqrt),
    StableHlo.unary main_v68 main_v69 (broadcastInDim S1x128 ![1] bcast_S128_S1x128_1),
    StableHlo.unary main_v69 main_v70 (broadcastInDim S100000x128 ![0, 1] bcast_S1x128_S100000x128_0_1),
    StableHlo.binary main_v65 main_v70 main_v71 (mulf),
    StableHlo.unary main_v56 main_v72 (broadcastInDim S1x128 ![1] bcast_S128_S1x128_1),
    StableHlo.unary main_v72 main_v73 (broadcastInDim S100000x128 ![0, 1] bcast_S1x128_S100000x128_0_1),
    StableHlo.binary main_v71 main_v73 main_v74 (mulf),
    StableHlo.unary main_v58 main_v75 (broadcastInDim S1x128 ![1] bcast_S128_S1x128_1),
    StableHlo.unary main_v75 main_v76 (broadcastInDim S100000x128 ![0, 1] bcast_S1x128_S100000x128_0_1),
    StableHlo.binary main_v74 main_v76 main_v77 (addf),
    StableHlo.TRef.nullary main_call3.cst (constant S_ .f32 0x00000000#32),
    StableHlo.TRef.unary main_call3.cst main_call3.v0 (broadcastInDim S100000x128 ![] bcast_S_S100000x128),
    StableHlo.TRef.binary (.of main_v77) main_call3.v0 main_call3.v1 maximumf ]

abbrev opsL0bn3 : List (HloOp τ sig (Elt F)) :=
  [ StableHlo.unary main_arg12 main_v79 ((extractStridedSlice S1x128 ![0, 0] · slices_S4x128_S1x128_0_0)),
    StableHlo.reshape main_v79 main_v80 rfl shapeCasts_S1x128_S128,
    StableHlo.unary main_arg13 main_v81 ((extractStridedSlice S1x128 ![0, 0] · slices_S4x128_S1x128_0_0)),
    StableHlo.reshape main_v81 main_v82 rfl shapeCasts_S1x128_S128,
    StableHlo.nullary main_cst_9 (constant S_ .f32 0x00000000#32),
    StableHlo.binary main_v78 main_cst_9 main_v83 ((fun x v => Host.reduceAdd x v reducesTo_S100000x128_S128_d0 h_S_)),
    StableHlo.nullary main_cst_10 (constant S_ .f32 0x47C35000#32),
    StableHlo.unary main_cst_10 main_v84 (broadcastInDim S128 ![] bcast_S_S128),
    StableHlo.binary main_v83 main_v84 main_v85 (Host.divf),
    StableHlo.nullary main_c_11 (constantI S_ 32 0#32),
    StableHlo.TRef.nullary main_call4.cst (constant S_ .f32 0x00000000#32),
    StableHlo.TRef.binary (.of main_v78) main_call4.cst main_call4.v0 (fun x v => Host.reduceAdd x v reducesTo_S100000x128_S128_d0 h_S_),
    StableHlo.TRef.unary main_call4.v0 main_call4.v1 (broadcastInDim S1x128 ![1] bcast_S128_S1x128_1),
    StableHlo.TRef.nullary main_call4.cst_0 (constant S_ .f32 0x47C35000#32),
    StableHlo.TRef.unary main_call4.cst_0 main_call4.v2 (broadcastInDim S1x128 ![] bcast_S_S1x128),
    StableHlo.TRef.binary main_call4.v1 main_call4.v2 main_call4.v3 Host.divf,
    StableHlo.TRef.unary main_call4.v3 main_call4.v4 (broadcastInDim S100000x128 ![0, 1] bcast_S1x128_S100000x128_0_1),
    StableHlo.TRef.binary (.of main_v78) main_call4.v4 main_call4.v5 subf,
    StableHlo.TRef.binary main_call4.v5 main_call4.v5 main_call4.v6 mulf,
    StableHlo.TRef.unary (.of main_c_11) main_call4.v7 (sitofp .f32),
    StableHlo.TRef.nullary main_call4.cst_1 (constant S_ .f32 0x47C35000#32),
    StableHlo.TRef.binary main_call4.cst_1 main_call4.v7 main_call4.v8 subf,
    StableHlo.TRef.nullary main_call4.cst_2 (constant S_ .f32 0x00000000#32),
    StableHlo.TRef.binary main_call4.v6 main_call4.cst_2 main_call4.v9 (fun x v => Host.reduceAdd x v reducesTo_S100000x128_S128_d0 h_S_),
    StableHlo.TRef.unary main_call4.v8 main_call4.v10 (broadcastInDim S128 ![] bcast_S_S128),
    StableHlo.TRef.binary main_call4.v9 main_call4.v10 main_call4.v11 Host.divf,
    StableHlo.TRef.nullary main_call4.cst_3 (constant S_ .f32 0x00000000#32),
    StableHlo.TRef.binary main_call4.v8 main_call4.cst_3 main_call4.v12 (cmpf .ogt),
    StableHlo.TRef.nullary main_call4.cst_4 (constant S_ .f32 0x7FC00000#32),
    StableHlo.TRef.unary main_call4.cst_4 main_call4.call0.v0 id,
    StableHlo.TRef.unary main_call4.call0.v0 main_call4.call0.v1 (broadcastInDim S128 ![] bcast_S_S128),
    StableHlo.TRef.ternary main_call4.v12 main_call4.v11 main_call4.call0.v1 main_call4.call0.v2 (fun p a b => select (broadcastInDim S128 ![] bcast_S_S128 p) a b),
    StableHlo.unary main_v85 main_v87 (broadcastInDim S1x128 ![1] bcast_S128_S1x128_1),
    StableHlo.unary main_v87 main_v88 (broadcastInDim S100000x128 ![0, 1] bcast_S1x128_S100000x128_0_1),
    StableHlo.binary main_v78 main_v88 main_v89 (subf),
    StableHlo.nullary main_cst_12 (constant S_ .f32 0x3727C5AC#32),
    StableHlo.unary main_cst_12 main_v90 (broadcastInDim S128 ![] bcast_S_S128),
    StableHlo.binary main_v86 main_v90 main_v91 (addf),
    StableHlo.unary main_v91 main_v92 (Host.rsqrt),
    StableHlo.unary main_v92 main_v93 (broadcastInDim S1x128 ![1] bcast_S128_S1x128_1),
    StableHlo.unary main_v93 main_v94 (broadcastInDim S100000x128 ![0, 1] bcast_S1x128_S100000x128_0_1),
    StableHlo.binary main_v89 main_v94 main_v95 (mulf),
    StableHlo.unary main_v80 main_v96 (broadcastInDim S1x128 ![1] bcast_S128_S1x128_1),
    StableHlo.unary main_v96 main_v97 (broadcastInDim S100000x128 ![0, 1] bcast_S1x128_S100000x128_0_1),
    StableHlo.binary main_v95 main_v97 main_v98 (mulf),
    StableHlo.unary main_v82 main_v99 (broadcastInDim S1x128 ![1] bcast_S128_S1x128_1),
    StableHlo.unary main_v99 main_v100 (broadcastInDim S100000x128 ![0, 1] bcast_S1x128_S100000x128_0_1),
    StableHlo.binary main_v98 main_v100 main_v101 (addf),
    StableHlo.TRef.nullary main_call5.cst (constant S_ .f32 0x00000000#32),
    StableHlo.TRef.unary main_call5.cst main_call5.v0 (broadcastInDim S100000x128 ![] bcast_S_S100000x128),
    StableHlo.TRef.binary (.of main_v101) main_call5.v0 main_call5.v1 maximumf ]

abbrev opsL0 : List (HloOp τ sig (Elt F)) := opsL0agg ++ opsL0lin1 ++ opsL0bn1 ++ opsL0lin2 ++ opsL0bn2 ++ opsL0bn3

end Cert.RefRun

end
-- ==== Proof.RefOpsL1.lean ====
import proofs.«108002_j23673859736037_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL1agg : List (HloOp τ sig (Elt F)) :=
  [ StableHlo.nullary main_c_13 (constantI S_ 32 0#32),
    StableHlo.unary main_c_13 main_v103 (broadcastInDim S640000 ![] bcast_S_S640000 : (⟨S_, .i32⟩ : BufTy).Contents (Elt F) → (⟨S640000, .i32⟩ : BufTy).Contents (Elt F)),
    StableHlo.binary main_v1 main_v103 main_v104 (cmpi .slt : (⟨S640000, .i32⟩ : BufTy).Contents (Elt F) → (⟨S640000, .i32⟩ : BufTy).Contents (Elt F) → (⟨S640000, .i1⟩ : BufTy).Contents (Elt F)),
    StableHlo.nullary main_c_14 (constantI S_ 32 100000#32),
    StableHlo.unary main_c_14 main_v105 (broadcastInDim S640000 ![] bcast_S_S640000 : (⟨S_, .i32⟩ : BufTy).Contents (Elt F) → (⟨S640000, .i32⟩ : BufTy).Contents (Elt F)),
    StableHlo.binary main_v1 main_v105 main_v106 (addi : (⟨S640000, .i32⟩ : BufTy).Contents (Elt F) → (⟨S640000, .i32⟩ : BufTy).Contents (Elt F) → (⟨S640000, .i32⟩ : BufTy).Contents (Elt F)),
    StableHlo.ternary main_v104 main_v106 main_v1 main_v107 (select : (⟨S640000, .i1⟩ : BufTy).Contents (Elt F) → (⟨S640000, .i32⟩ : BufTy).Contents (Elt F) → (⟨S640000, .i32⟩ : BufTy).Contents (Elt F) → (⟨S640000, .i32⟩ : BufTy).Contents (Elt F)),
    StableHlo.unary main_v107 main_v108 (broadcastInDim S640000x1 ![0] bcast_S640000_S640000x1_0 : (⟨S640000, .i32⟩ : BufTy).Contents (Elt F) → (⟨S640000x1, .i32⟩ : BufTy).Contents (Elt F)),
    StableHlo.binary main_v102 main_v108 main_v109 ((fun x i => Host.gather gather_S100000x128_S640000x1_S640000x128_1_0_n_n_0_1_1128 x i) : (⟨S100000x128, .f32⟩ : BufTy).Contents (Elt F) → (⟨S640000x1, .i32⟩ : BufTy).Contents (Elt F) → (⟨S640000x128, .f32⟩ : BufTy).Contents (Elt F)),
    StableHlo.nullary main_cst_15 (constant S_ .f32 0x00000000#32),
    StableHlo.unary main_cst_15 main_v110 (broadcastInDim S100000x128 ![] bcast_S_S100000x128 : (⟨S_, .f32⟩ : BufTy).Contents (Elt F) → (⟨S100000x128, .f32⟩ : BufTy).Contents (Elt F)),
    StableHlo.unary main_v3 main_v111 (broadcastInDim S640000x1 ![0] bcast_S640000_S640000x1_0 : (⟨S640000, .i32⟩ : BufTy).Contents (Elt F) → (⟨S640000x1, .i32⟩ : BufTy).Contents (Elt F)),
    StableHlo.ternary main_v110 main_v111 main_v109 main_v112 ((fun x i u => Host.scatterAdd scatter_S100000x128_S640000x1_S640000x128_1_0_0_1 x i u) : (⟨S100000x128, .f32⟩ : BufTy).Contents (Elt F) → (⟨S640000x1, .i32⟩ : BufTy).Contents (Elt F) → (⟨S640000x128, .f32⟩ : BufTy).Contents (Elt F) → (⟨S100000x128, .f32⟩ : BufTy).Contents (Elt F)) ]

abbrev opsL1lin1 : List (HloOp τ sig (Elt F)) :=
  [ StableHlo.binary main_v102 main_v112 main_v113 (addf),
    StableHlo.unary main_arg4 main_v114 ((extractStridedSlice S1x128x128 ![1, 0, 0] · slices_S4x128x128_S1x128x128_1_0_0)),
    StableHlo.reshape main_v114 main_v115 rfl shapeCasts_S1x128x128_S128x128,
    StableHlo.binary main_v113 main_v115 main_v116 ((fun l r => Host.dotGeneral dot_S100000x128_S128x128_S100000x128_1_0_0_1_n_n none l r)),
    StableHlo.unary main_arg5 main_v117 ((extractStridedSlice S1x128 ![1, 0] · slices_S4x128_S1x128_1_0)),
    StableHlo.reshape main_v117 main_v118 rfl shapeCasts_S1x128_S128,
    StableHlo.unary main_v118 main_v119 (broadcastInDim S1x128 ![1] bcast_S128_S1x128_1),
    StableHlo.unary main_v119 main_v120 (broadcastInDim S100000x128 ![0, 1] bcast_S1x128_S100000x128_0_1),
    StableHlo.binary main_v116 main_v120 main_v121 (addf) ]

abbrev opsL1bn1 : List (HloOp τ sig (Elt F)) :=
  [ StableHlo.unary main_arg6 main_v122 ((extractStridedSlice S1x128 ![1, 0] · slices_S4x128_S1x128_1_0)),
    StableHlo.reshape main_v122 main_v123 rfl shapeCasts_S1x128_S128,
    StableHlo.unary main_arg7 main_v124 ((extractStridedSlice S1x128 ![1, 0] · slices_S4x128_S1x128_1_0)),
    StableHlo.reshape main_v124 main_v125 rfl shapeCasts_S1x128_S128,
    StableHlo.nullary main_cst_16 (constant S_ .f32 0x00000000#32),
    StableHlo.binary main_v121 main_cst_16 main_v126 ((fun x v => Host.reduceAdd x v reducesTo_S100000x128_S128_d0 h_S_)),
    StableHlo.nullary main_cst_17 (constant S_ .f32 0x47C35000#32),
    StableHlo.unary main_cst_17 main_v127 (broadcastInDim S128 ![] bcast_S_S128),
    StableHlo.binary main_v126 main_v127 main_v128 (Host.divf),
    StableHlo.nullary main_c_18 (constantI S_ 32 0#32),
    StableHlo.TRef.nullary main_call6.cst (constant S_ .f32 0x00000000#32),
    StableHlo.TRef.binary (.of main_v121) main_call6.cst main_call6.v0 (fun x v => Host.reduceAdd x v reducesTo_S100000x128_S128_d0 h_S_),
    StableHlo.TRef.unary main_call6.v0 main_call6.v1 (broadcastInDim S1x128 ![1] bcast_S128_S1x128_1),
    StableHlo.TRef.nullary main_call6.cst_0 (constant S_ .f32 0x47C35000#32),
    StableHlo.TRef.unary main_call6.cst_0 main_call6.v2 (broadcastInDim S1x128 ![] bcast_S_S1x128),
    StableHlo.TRef.binary main_call6.v1 main_call6.v2 main_call6.v3 Host.divf,
    StableHlo.TRef.unary main_call6.v3 main_call6.v4 (broadcastInDim S100000x128 ![0, 1] bcast_S1x128_S100000x128_0_1),
    StableHlo.TRef.binary (.of main_v121) main_call6.v4 main_call6.v5 subf,
    StableHlo.TRef.binary main_call6.v5 main_call6.v5 main_call6.v6 mulf,
    StableHlo.TRef.unary (.of main_c_18) main_call6.v7 (sitofp .f32),
    StableHlo.TRef.nullary main_call6.cst_1 (constant S_ .f32 0x47C35000#32),
    StableHlo.TRef.binary main_call6.cst_1 main_call6.v7 main_call6.v8 subf,
    StableHlo.TRef.nullary main_call6.cst_2 (constant S_ .f32 0x00000000#32),
    StableHlo.TRef.binary main_call6.v6 main_call6.cst_2 main_call6.v9 (fun x v => Host.reduceAdd x v reducesTo_S100000x128_S128_d0 h_S_),
    StableHlo.TRef.unary main_call6.v8 main_call6.v10 (broadcastInDim S128 ![] bcast_S_S128),
    StableHlo.TRef.binary main_call6.v9 main_call6.v10 main_call6.v11 Host.divf,
    StableHlo.TRef.nullary main_call6.cst_3 (constant S_ .f32 0x00000000#32),
    StableHlo.TRef.binary main_call6.v8 main_call6.cst_3 main_call6.v12 (cmpf .ogt),
    StableHlo.TRef.nullary main_call6.cst_4 (constant S_ .f32 0x7FC00000#32),
    StableHlo.TRef.unary main_call6.cst_4 main_call6.call0.v0 id,
    StableHlo.TRef.unary main_call6.call0.v0 main_call6.call0.v1 (broadcastInDim S128 ![] bcast_S_S128),
    StableHlo.TRef.ternary main_call6.v12 main_call6.v11 main_call6.call0.v1 main_call6.call0.v2 (fun p a b => select (broadcastInDim S128 ![] bcast_S_S128 p) a b),
    StableHlo.unary main_v128 main_v130 (broadcastInDim S1x128 ![1] bcast_S128_S1x128_1),
    StableHlo.unary main_v130 main_v131 (broadcastInDim S100000x128 ![0, 1] bcast_S1x128_S100000x128_0_1),
    StableHlo.binary main_v121 main_v131 main_v132 (subf),
    StableHlo.nullary main_cst_19 (constant S_ .f32 0x3727C5AC#32),
    StableHlo.unary main_cst_19 main_v133 (broadcastInDim S128 ![] bcast_S_S128),
    StableHlo.binary main_v129 main_v133 main_v134 (addf),
    StableHlo.unary main_v134 main_v135 (Host.rsqrt),
    StableHlo.unary main_v135 main_v136 (broadcastInDim S1x128 ![1] bcast_S128_S1x128_1),
    StableHlo.unary main_v136 main_v137 (broadcastInDim S100000x128 ![0, 1] bcast_S1x128_S100000x128_0_1),
    StableHlo.binary main_v132 main_v137 main_v138 (mulf),
    StableHlo.unary main_v123 main_v139 (broadcastInDim S1x128 ![1] bcast_S128_S1x128_1),
    StableHlo.unary main_v139 main_v140 (broadcastInDim S100000x128 ![0, 1] bcast_S1x128_S100000x128_0_1),
    StableHlo.binary main_v138 main_v140 main_v141 (mulf),
    StableHlo.unary main_v125 main_v142 (broadcastInDim S1x128 ![1] bcast_S128_S1x128_1),
    StableHlo.unary main_v142 main_v143 (broadcastInDim S100000x128 ![0, 1] bcast_S1x128_S100000x128_0_1),
    StableHlo.binary main_v141 main_v143 main_v144 (addf),
    StableHlo.TRef.nullary main_call7.cst (constant S_ .f32 0x00000000#32),
    StableHlo.TRef.unary main_call7.cst main_call7.v0 (broadcastInDim S100000x128 ![] bcast_S_S100000x128),
    StableHlo.TRef.binary (.of main_v144) main_call7.v0 main_call7.v1 maximumf ]

abbrev opsL1lin2 : List (HloOp τ sig (Elt F)) :=
  [ StableHlo.unary main_arg8 main_v146 ((extractStridedSlice S1x128x128 ![1, 0, 0] · slices_S4x128x128_S1x128x128_1_0_0)),
    StableHlo.reshape main_v146 main_v147 rfl shapeCasts_S1x128x128_S128x128,
    StableHlo.binary main_v145 main_v147 main_v148 ((fun l r => Host.dotGeneral dot_S100000x128_S128x128_S100000x128_1_0_0_1_n_n none l r)),
    StableHlo.unary main_arg9 main_v149 ((extractStridedSlice S1x128 ![1, 0] · slices_S4x128_S1x128_1_0)),
    StableHlo.reshape main_v149 main_v150 rfl shapeCasts_S1x128_S128,
    StableHlo.unary main_v150 main_v151 (broadcastInDim S1x128 ![1] bcast_S128_S1x128_1),
    StableHlo.unary main_v151 main_v152 (broadcastInDim S100000x128 ![0, 1] bcast_S1x128_S100000x128_0_1),
    StableHlo.binary main_v148 main_v152 main_v153 (addf) ]

abbrev opsL1bn2 : List (HloOp τ sig (Elt F)) :=
  [ StableHlo.unary main_arg10 main_v154 ((extractStridedSlice S1x128 ![1, 0] · slices_S4x128_S1x128_1_0)),
    StableHlo.reshape main_v154 main_v155 rfl shapeCasts_S1x128_S128,
    StableHlo.unary main_arg11 main_v156 ((extractStridedSlice S1x128 ![1, 0] · slices_S4x128_S1x128_1_0)),
    StableHlo.reshape main_v156 main_v157 rfl shapeCasts_S1x128_S128,
    StableHlo.nullary main_cst_20 (constant S_ .f32 0x00000000#32),
    StableHlo.binary main_v153 main_cst_20 main_v158 ((fun x v => Host.reduceAdd x v reducesTo_S100000x128_S128_d0 h_S_)),
    StableHlo.nullary main_cst_21 (constant S_ .f32 0x47C35000#32),
    StableHlo.unary main_cst_21 main_v159 (broadcastInDim S128 ![] bcast_S_S128),
    StableHlo.binary main_v158 main_v159 main_v160 (Host.divf),
    StableHlo.nullary main_c_22 (constantI S_ 32 0#32),
    StableHlo.TRef.nullary main_call8.cst (constant S_ .f32 0x00000000#32),
    StableHlo.TRef.binary (.of main_v153) main_call8.cst main_call8.v0 (fun x v => Host.reduceAdd x v reducesTo_S100000x128_S128_d0 h_S_),
    StableHlo.TRef.unary main_call8.v0 main_call8.v1 (broadcastInDim S1x128 ![1] bcast_S128_S1x128_1),
    StableHlo.TRef.nullary main_call8.cst_0 (constant S_ .f32 0x47C35000#32),
    StableHlo.TRef.unary main_call8.cst_0 main_call8.v2 (broadcastInDim S1x128 ![] bcast_S_S1x128),
    StableHlo.TRef.binary main_call8.v1 main_call8.v2 main_call8.v3 Host.divf,
    StableHlo.TRef.unary main_call8.v3 main_call8.v4 (broadcastInDim S100000x128 ![0, 1] bcast_S1x128_S100000x128_0_1),
    StableHlo.TRef.binary (.of main_v153) main_call8.v4 main_call8.v5 subf,
    StableHlo.TRef.binary main_call8.v5 main_call8.v5 main_call8.v6 mulf,
    StableHlo.TRef.unary (.of main_c_22) main_call8.v7 (sitofp .f32),
    StableHlo.TRef.nullary main_call8.cst_1 (constant S_ .f32 0x47C35000#32),
    StableHlo.TRef.binary main_call8.cst_1 main_call8.v7 main_call8.v8 subf,
    StableHlo.TRef.nullary main_call8.cst_2 (constant S_ .f32 0x00000000#32),
    StableHlo.TRef.binary main_call8.v6 main_call8.cst_2 main_call8.v9 (fun x v => Host.reduceAdd x v reducesTo_S100000x128_S128_d0 h_S_),
    StableHlo.TRef.unary main_call8.v8 main_call8.v10 (broadcastInDim S128 ![] bcast_S_S128),
    StableHlo.TRef.binary main_call8.v9 main_call8.v10 main_call8.v11 Host.divf,
    StableHlo.TRef.nullary main_call8.cst_3 (constant S_ .f32 0x00000000#32),
    StableHlo.TRef.binary main_call8.v8 main_call8.cst_3 main_call8.v12 (cmpf .ogt),
    StableHlo.TRef.nullary main_call8.cst_4 (constant S_ .f32 0x7FC00000#32),
    StableHlo.TRef.unary main_call8.cst_4 main_call8.call0.v0 id,
    StableHlo.TRef.unary main_call8.call0.v0 main_call8.call0.v1 (broadcastInDim S128 ![] bcast_S_S128),
    StableHlo.TRef.ternary main_call8.v12 main_call8.v11 main_call8.call0.v1 main_call8.call0.v2 (fun p a b => select (broadcastInDim S128 ![] bcast_S_S128 p) a b),
    StableHlo.unary main_v160 main_v162 (broadcastInDim S1x128 ![1] bcast_S128_S1x128_1),
    StableHlo.unary main_v162 main_v163 (broadcastInDim S100000x128 ![0, 1] bcast_S1x128_S100000x128_0_1),
    StableHlo.binary main_v153 main_v163 main_v164 (subf),
    StableHlo.nullary main_cst_23 (constant S_ .f32 0x3727C5AC#32),
    StableHlo.unary main_cst_23 main_v165 (broadcastInDim S128 ![] bcast_S_S128),
    StableHlo.binary main_v161 main_v165 main_v166 (addf),
    StableHlo.unary main_v166 main_v167 (Host.rsqrt),
    StableHlo.unary main_v167 main_v168 (broadcastInDim S1x128 ![1] bcast_S128_S1x128_1),
    StableHlo.unary main_v168 main_v169 (broadcastInDim S100000x128 ![0, 1] bcast_S1x128_S100000x128_0_1),
    StableHlo.binary main_v164 main_v169 main_v170 (mulf),
    StableHlo.unary main_v155 main_v171 (broadcastInDim S1x128 ![1] bcast_S128_S1x128_1),
    StableHlo.unary main_v171 main_v172 (broadcastInDim S100000x128 ![0, 1] bcast_S1x128_S100000x128_0_1),
    StableHlo.binary main_v170 main_v172 main_v173 (mulf),
    StableHlo.unary main_v157 main_v174 (broadcastInDim S1x128 ![1] bcast_S128_S1x128_1),
    StableHlo.unary main_v174 main_v175 (broadcastInDim S100000x128 ![0, 1] bcast_S1x128_S100000x128_0_1),
    StableHlo.binary main_v173 main_v175 main_v176 (addf),
    StableHlo.TRef.nullary main_call9.cst (constant S_ .f32 0x00000000#32),
    StableHlo.TRef.unary main_call9.cst main_call9.v0 (broadcastInDim S100000x128 ![] bcast_S_S100000x128),
    StableHlo.TRef.binary (.of main_v176) main_call9.v0 main_call9.v1 maximumf ]

abbrev opsL1bn3 : List (HloOp τ sig (Elt F)) :=
  [ StableHlo.unary main_arg12 main_v178 ((extractStridedSlice S1x128 ![1, 0] · slices_S4x128_S1x128_1_0)),
    StableHlo.reshape main_v178 main_v179 rfl shapeCasts_S1x128_S128,
    StableHlo.unary main_arg13 main_v180 ((extractStridedSlice S1x128 ![1, 0] · slices_S4x128_S1x128_1_0)),
    StableHlo.reshape main_v180 main_v181 rfl shapeCasts_S1x128_S128,
    StableHlo.nullary main_cst_24 (constant S_ .f32 0x00000000#32),
    StableHlo.binary main_v177 main_cst_24 main_v182 ((fun x v => Host.reduceAdd x v reducesTo_S100000x128_S128_d0 h_S_)),
    StableHlo.nullary main_cst_25 (constant S_ .f32 0x47C35000#32),
    StableHlo.unary main_cst_25 main_v183 (broadcastInDim S128 ![] bcast_S_S128),
    StableHlo.binary main_v182 main_v183 main_v184 (Host.divf),
    StableHlo.nullary main_c_26 (constantI S_ 32 0#32),
    StableHlo.TRef.nullary main_call10.cst (constant S_ .f32 0x00000000#32),
    StableHlo.TRef.binary (.of main_v177) main_call10.cst main_call10.v0 (fun x v => Host.reduceAdd x v reducesTo_S100000x128_S128_d0 h_S_),
    StableHlo.TRef.unary main_call10.v0 main_call10.v1 (broadcastInDim S1x128 ![1] bcast_S128_S1x128_1),
    StableHlo.TRef.nullary main_call10.cst_0 (constant S_ .f32 0x47C35000#32),
    StableHlo.TRef.unary main_call10.cst_0 main_call10.v2 (broadcastInDim S1x128 ![] bcast_S_S1x128),
    StableHlo.TRef.binary main_call10.v1 main_call10.v2 main_call10.v3 Host.divf,
    StableHlo.TRef.unary main_call10.v3 main_call10.v4 (broadcastInDim S100000x128 ![0, 1] bcast_S1x128_S100000x128_0_1),
    StableHlo.TRef.binary (.of main_v177) main_call10.v4 main_call10.v5 subf,
    StableHlo.TRef.binary main_call10.v5 main_call10.v5 main_call10.v6 mulf,
    StableHlo.TRef.unary (.of main_c_26) main_call10.v7 (sitofp .f32),
    StableHlo.TRef.nullary main_call10.cst_1 (constant S_ .f32 0x47C35000#32),
    StableHlo.TRef.binary main_call10.cst_1 main_call10.v7 main_call10.v8 subf,
    StableHlo.TRef.nullary main_call10.cst_2 (constant S_ .f32 0x00000000#32),
    StableHlo.TRef.binary main_call10.v6 main_call10.cst_2 main_call10.v9 (fun x v => Host.reduceAdd x v reducesTo_S100000x128_S128_d0 h_S_),
    StableHlo.TRef.unary main_call10.v8 main_call10.v10 (broadcastInDim S128 ![] bcast_S_S128),
    StableHlo.TRef.binary main_call10.v9 main_call10.v10 main_call10.v11 Host.divf,
    StableHlo.TRef.nullary main_call10.cst_3 (constant S_ .f32 0x00000000#32),
    StableHlo.TRef.binary main_call10.v8 main_call10.cst_3 main_call10.v12 (cmpf .ogt),
    StableHlo.TRef.nullary main_call10.cst_4 (constant S_ .f32 0x7FC00000#32),
    StableHlo.TRef.unary main_call10.cst_4 main_call10.call0.v0 id,
    StableHlo.TRef.unary main_call10.call0.v0 main_call10.call0.v1 (broadcastInDim S128 ![] bcast_S_S128),
    StableHlo.TRef.ternary main_call10.v12 main_call10.v11 main_call10.call0.v1 main_call10.call0.v2 (fun p a b => select (broadcastInDim S128 ![] bcast_S_S128 p) a b),
    StableHlo.unary main_v184 main_v186 (broadcastInDim S1x128 ![1] bcast_S128_S1x128_1),
    StableHlo.unary main_v186 main_v187 (broadcastInDim S100000x128 ![0, 1] bcast_S1x128_S100000x128_0_1),
    StableHlo.binary main_v177 main_v187 main_v188 (subf),
    StableHlo.nullary main_cst_27 (constant S_ .f32 0x3727C5AC#32),
    StableHlo.unary main_cst_27 main_v189 (broadcastInDim S128 ![] bcast_S_S128),
    StableHlo.binary main_v185 main_v189 main_v190 (addf),
    StableHlo.unary main_v190 main_v191 (Host.rsqrt),
    StableHlo.unary main_v191 main_v192 (broadcastInDim S1x128 ![1] bcast_S128_S1x128_1),
    StableHlo.unary main_v192 main_v193 (broadcastInDim S100000x128 ![0, 1] bcast_S1x128_S100000x128_0_1),
    StableHlo.binary main_v188 main_v193 main_v194 (mulf),
    StableHlo.unary main_v179 main_v195 (broadcastInDim S1x128 ![1] bcast_S128_S1x128_1),
    StableHlo.unary main_v195 main_v196 (broadcastInDim S100000x128 ![0, 1] bcast_S1x128_S100000x128_0_1),
    StableHlo.binary main_v194 main_v196 main_v197 (mulf),
    StableHlo.unary main_v181 main_v198 (broadcastInDim S1x128 ![1] bcast_S128_S1x128_1),
    StableHlo.unary main_v198 main_v199 (broadcastInDim S100000x128 ![0, 1] bcast_S1x128_S100000x128_0_1),
    StableHlo.binary main_v197 main_v199 main_v200 (addf),
    StableHlo.TRef.nullary main_call11.cst (constant S_ .f32 0x00000000#32),
    StableHlo.TRef.unary main_call11.cst main_call11.v0 (broadcastInDim S100000x128 ![] bcast_S_S100000x128),
    StableHlo.TRef.binary (.of main_v200) main_call11.v0 main_call11.v1 maximumf ]

abbrev opsL1 : List (HloOp τ sig (Elt F)) := opsL1agg ++ opsL1lin1 ++ opsL1bn1 ++ opsL1lin2 ++ opsL1bn2 ++ opsL1bn3

end Cert.RefRun

end
-- ==== Proof.RefOpsL2.lean ====
import proofs.«108002_j23673859736037_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL2agg : List (HloOp τ sig (Elt F)) :=
  [ StableHlo.nullary main_c_28 (constantI S_ 32 0#32),
    StableHlo.unary main_c_28 main_v202 (broadcastInDim S640000 ![] bcast_S_S640000),
    StableHlo.binary main_v1 main_v202 main_v203 (cmpi .slt),
    StableHlo.nullary main_c_29 (constantI S_ 32 100000#32),
    StableHlo.unary main_c_29 main_v204 (broadcastInDim S640000 ![] bcast_S_S640000),
    StableHlo.binary main_v1 main_v204 main_v205 (addi),
    StableHlo.ternary main_v203 main_v205 main_v1 main_v206 (select),
    StableHlo.unary main_v206 main_v207 (broadcastInDim S640000x1 ![0] bcast_S640000_S640000x1_0),
    StableHlo.binary main_v201 main_v207 main_v208 ((fun x i => Host.gather gather_S100000x128_S640000x1_S640000x128_1_0_n_n_0_1_1128 x i)),
    StableHlo.nullary main_cst_30 (constant S_ .f32 0x00000000#32),
    StableHlo.unary main_cst_30 main_v209 (broadcastInDim S100000x128 ![] bcast_S_S100000x128),
    StableHlo.unary main_v3 main_v210 (broadcastInDim S640000x1 ![0] bcast_S640000_S640000x1_0),
    StableHlo.ternary main_v209 main_v210 main_v208 main_v211 ((fun x i u => Host.scatterAdd scatter_S100000x128_S640000x1_S640000x128_1_0_0_1 x i u)) ]

abbrev opsL2lin1 : List (HloOp τ sig (Elt F)) :=
  [ StableHlo.binary main_v201 main_v211 main_v212 (addf),
    StableHlo.unary main_arg4 main_v213 ((extractStridedSlice S1x128x128 ![2, 0, 0] · slices_S4x128x128_S1x128x128_2_0_0)),
    StableHlo.reshape main_v213 main_v214 rfl shapeCasts_S1x128x128_S128x128,
    StableHlo.binary main_v212 main_v214 main_v215 ((fun l r => Host.dotGeneral dot_S100000x128_S128x128_S100000x128_1_0_0_1_n_n none l r)),
    StableHlo.unary main_arg5 main_v216 ((extractStridedSlice S1x128 ![2, 0] · slices_S4x128_S1x128_2_0)),
    StableHlo.reshape main_v216 main_v217 rfl shapeCasts_S1x128_S128,
    StableHlo.unary main_v217 main_v218 (broadcastInDim S1x128 ![1] bcast_S128_S1x128_1),
    StableHlo.unary main_v218 main_v219 (broadcastInDim S100000x128 ![0, 1] bcast_S1x128_S100000x128_0_1),
    StableHlo.binary main_v215 main_v219 main_v220 (addf) ]

abbrev opsL2bn1 : List (HloOp τ sig (Elt F)) :=
  [ StableHlo.unary main_arg6 main_v221 ((extractStridedSlice S1x128 ![2, 0] · slices_S4x128_S1x128_2_0)),
    StableHlo.reshape main_v221 main_v222 rfl shapeCasts_S1x128_S128,
    StableHlo.unary main_arg7 main_v223 ((extractStridedSlice S1x128 ![2, 0] · slices_S4x128_S1x128_2_0)),
    StableHlo.reshape main_v223 main_v224 rfl shapeCasts_S1x128_S128,
    StableHlo.nullary main_cst_31 (constant S_ .f32 0x00000000#32),
    StableHlo.binary main_v220 main_cst_31 main_v225 ((fun x v => Host.reduceAdd x v reducesTo_S100000x128_S128_d0 h_S_)),
    StableHlo.nullary main_cst_32 (constant S_ .f32 0x47C35000#32),
    StableHlo.unary main_cst_32 main_v226 (broadcastInDim S128 ![] bcast_S_S128),
    StableHlo.binary main_v225 main_v226 main_v227 (Host.divf),
    StableHlo.nullary main_c_33 (constantI S_ 32 0#32),
    StableHlo.TRef.nullary main_call12.cst (constant S_ .f32 0x00000000#32),
    StableHlo.TRef.binary (.of main_v220) main_call12.cst main_call12.v0 (fun x v => Host.reduceAdd x v reducesTo_S100000x128_S128_d0 h_S_),
    StableHlo.TRef.unary main_call12.v0 main_call12.v1 (broadcastInDim S1x128 ![1] bcast_S128_S1x128_1),
    StableHlo.TRef.nullary main_call12.cst_0 (constant S_ .f32 0x47C35000#32),
    StableHlo.TRef.unary main_call12.cst_0 main_call12.v2 (broadcastInDim S1x128 ![] bcast_S_S1x128),
    StableHlo.TRef.binary main_call12.v1 main_call12.v2 main_call12.v3 Host.divf,
    StableHlo.TRef.unary main_call12.v3 main_call12.v4 (broadcastInDim S100000x128 ![0, 1] bcast_S1x128_S100000x128_0_1),
    StableHlo.TRef.binary (.of main_v220) main_call12.v4 main_call12.v5 subf,
    StableHlo.TRef.binary main_call12.v5 main_call12.v5 main_call12.v6 mulf,
    StableHlo.TRef.unary (.of main_c_33) main_call12.v7 (sitofp .f32),
    StableHlo.TRef.nullary main_call12.cst_1 (constant S_ .f32 0x47C35000#32),
    StableHlo.TRef.binary main_call12.cst_1 main_call12.v7 main_call12.v8 subf,
    StableHlo.TRef.nullary main_call12.cst_2 (constant S_ .f32 0x00000000#32),
    StableHlo.TRef.binary main_call12.v6 main_call12.cst_2 main_call12.v9 (fun x v => Host.reduceAdd x v reducesTo_S100000x128_S128_d0 h_S_),
    StableHlo.TRef.unary main_call12.v8 main_call12.v10 (broadcastInDim S128 ![] bcast_S_S128),
    StableHlo.TRef.binary main_call12.v9 main_call12.v10 main_call12.v11 Host.divf,
    StableHlo.TRef.nullary main_call12.cst_3 (constant S_ .f32 0x00000000#32),
    StableHlo.TRef.binary main_call12.v8 main_call12.cst_3 main_call12.v12 (cmpf .ogt),
    StableHlo.TRef.nullary main_call12.cst_4 (constant S_ .f32 0x7FC00000#32),
    StableHlo.TRef.unary main_call12.cst_4 main_call12.call0.v0 id,
    StableHlo.TRef.unary main_call12.call0.v0 main_call12.call0.v1 (broadcastInDim S128 ![] bcast_S_S128),
    StableHlo.TRef.ternary main_call12.v12 main_call12.v11 main_call12.call0.v1 main_call12.call0.v2 (fun p a b => select (broadcastInDim S128 ![] bcast_S_S128 p) a b),
    StableHlo.unary main_v227 main_v229 (broadcastInDim S1x128 ![1] bcast_S128_S1x128_1),
    StableHlo.unary main_v229 main_v230 (broadcastInDim S100000x128 ![0, 1] bcast_S1x128_S100000x128_0_1),
    StableHlo.binary main_v220 main_v230 main_v231 (subf),
    StableHlo.nullary main_cst_34 (constant S_ .f32 0x3727C5AC#32),
    StableHlo.unary main_cst_34 main_v232 (broadcastInDim S128 ![] bcast_S_S128),
    StableHlo.binary main_v228 main_v232 main_v233 (addf),
    StableHlo.unary main_v233 main_v234 (Host.rsqrt),
    StableHlo.unary main_v234 main_v235 (broadcastInDim S1x128 ![1] bcast_S128_S1x128_1),
    StableHlo.unary main_v235 main_v236 (broadcastInDim S100000x128 ![0, 1] bcast_S1x128_S100000x128_0_1),
    StableHlo.binary main_v231 main_v236 main_v237 (mulf),
    StableHlo.unary main_v222 main_v238 (broadcastInDim S1x128 ![1] bcast_S128_S1x128_1),
    StableHlo.unary main_v238 main_v239 (broadcastInDim S100000x128 ![0, 1] bcast_S1x128_S100000x128_0_1),
    StableHlo.binary main_v237 main_v239 main_v240 (mulf),
    StableHlo.unary main_v224 main_v241 (broadcastInDim S1x128 ![1] bcast_S128_S1x128_1),
    StableHlo.unary main_v241 main_v242 (broadcastInDim S100000x128 ![0, 1] bcast_S1x128_S100000x128_0_1),
    StableHlo.binary main_v240 main_v242 main_v243 (addf),
    StableHlo.TRef.nullary main_call13.cst (constant S_ .f32 0x00000000#32),
    StableHlo.TRef.unary main_call13.cst main_call13.v0 (broadcastInDim S100000x128 ![] bcast_S_S100000x128),
    StableHlo.TRef.binary (.of main_v243) main_call13.v0 main_call13.v1 maximumf ]

abbrev opsL2lin2 : List (HloOp τ sig (Elt F)) :=
  [ StableHlo.unary main_arg8 main_v245 ((extractStridedSlice S1x128x128 ![2, 0, 0] · slices_S4x128x128_S1x128x128_2_0_0)),
    StableHlo.reshape main_v245 main_v246 rfl shapeCasts_S1x128x128_S128x128,
    StableHlo.binary main_v244 main_v246 main_v247 ((fun l r => Host.dotGeneral dot_S100000x128_S128x128_S100000x128_1_0_0_1_n_n none l r)),
    StableHlo.unary main_arg9 main_v248 ((extractStridedSlice S1x128 ![2, 0] · slices_S4x128_S1x128_2_0)),
    StableHlo.reshape main_v248 main_v249 rfl shapeCasts_S1x128_S128,
    StableHlo.unary main_v249 main_v250 (broadcastInDim S1x128 ![1] bcast_S128_S1x128_1),
    StableHlo.unary main_v250 main_v251 (broadcastInDim S100000x128 ![0, 1] bcast_S1x128_S100000x128_0_1),
    StableHlo.binary main_v247 main_v251 main_v252 (addf) ]

abbrev opsL2bn2 : List (HloOp τ sig (Elt F)) :=
  [ StableHlo.unary main_arg10 main_v253 ((extractStridedSlice S1x128 ![2, 0] · slices_S4x128_S1x128_2_0)),
    StableHlo.reshape main_v253 main_v254 rfl shapeCasts_S1x128_S128,
    StableHlo.unary main_arg11 main_v255 ((extractStridedSlice S1x128 ![2, 0] · slices_S4x128_S1x128_2_0)),
    StableHlo.reshape main_v255 main_v256 rfl shapeCasts_S1x128_S128,
    StableHlo.nullary main_cst_35 (constant S_ .f32 0x00000000#32),
    StableHlo.binary main_v252 main_cst_35 main_v257 ((fun x v => Host.reduceAdd x v reducesTo_S100000x128_S128_d0 h_S_)),
    StableHlo.nullary main_cst_36 (constant S_ .f32 0x47C35000#32),
    StableHlo.unary main_cst_36 main_v258 (broadcastInDim S128 ![] bcast_S_S128),
    StableHlo.binary main_v257 main_v258 main_v259 (Host.divf),
    StableHlo.nullary main_c_37 (constantI S_ 32 0#32),
    StableHlo.TRef.nullary main_call14.cst (constant S_ .f32 0x00000000#32),
    StableHlo.TRef.binary (.of main_v252) main_call14.cst main_call14.v0 (fun x v => Host.reduceAdd x v reducesTo_S100000x128_S128_d0 h_S_),
    StableHlo.TRef.unary main_call14.v0 main_call14.v1 (broadcastInDim S1x128 ![1] bcast_S128_S1x128_1),
    StableHlo.TRef.nullary main_call14.cst_0 (constant S_ .f32 0x47C35000#32),
    StableHlo.TRef.unary main_call14.cst_0 main_call14.v2 (broadcastInDim S1x128 ![] bcast_S_S1x128),
    StableHlo.TRef.binary main_call14.v1 main_call14.v2 main_call14.v3 Host.divf,
    StableHlo.TRef.unary main_call14.v3 main_call14.v4 (broadcastInDim S100000x128 ![0, 1] bcast_S1x128_S100000x128_0_1),
    StableHlo.TRef.binary (.of main_v252) main_call14.v4 main_call14.v5 subf,
    StableHlo.TRef.binary main_call14.v5 main_call14.v5 main_call14.v6 mulf,
    StableHlo.TRef.unary (.of main_c_37) main_call14.v7 (sitofp .f32),
    StableHlo.TRef.nullary main_call14.cst_1 (constant S_ .f32 0x47C35000#32),
    StableHlo.TRef.binary main_call14.cst_1 main_call14.v7 main_call14.v8 subf,
    StableHlo.TRef.nullary main_call14.cst_2 (constant S_ .f32 0x00000000#32),
    StableHlo.TRef.binary main_call14.v6 main_call14.cst_2 main_call14.v9 (fun x v => Host.reduceAdd x v reducesTo_S100000x128_S128_d0 h_S_),
    StableHlo.TRef.unary main_call14.v8 main_call14.v10 (broadcastInDim S128 ![] bcast_S_S128),
    StableHlo.TRef.binary main_call14.v9 main_call14.v10 main_call14.v11 Host.divf,
    StableHlo.TRef.nullary main_call14.cst_3 (constant S_ .f32 0x00000000#32),
    StableHlo.TRef.binary main_call14.v8 main_call14.cst_3 main_call14.v12 (cmpf .ogt),
    StableHlo.TRef.nullary main_call14.cst_4 (constant S_ .f32 0x7FC00000#32),
    StableHlo.TRef.unary main_call14.cst_4 main_call14.call0.v0 id,
    StableHlo.TRef.unary main_call14.call0.v0 main_call14.call0.v1 (broadcastInDim S128 ![] bcast_S_S128),
    StableHlo.TRef.ternary main_call14.v12 main_call14.v11 main_call14.call0.v1 main_call14.call0.v2 (fun p a b => select (broadcastInDim S128 ![] bcast_S_S128 p) a b),
    StableHlo.unary main_v259 main_v261 (broadcastInDim S1x128 ![1] bcast_S128_S1x128_1),
    StableHlo.unary main_v261 main_v262 (broadcastInDim S100000x128 ![0, 1] bcast_S1x128_S100000x128_0_1),
    StableHlo.binary main_v252 main_v262 main_v263 (subf),
    StableHlo.nullary main_cst_38 (constant S_ .f32 0x3727C5AC#32),
    StableHlo.unary main_cst_38 main_v264 (broadcastInDim S128 ![] bcast_S_S128),
    StableHlo.binary main_v260 main_v264 main_v265 (addf),
    StableHlo.unary main_v265 main_v266 (Host.rsqrt),
    StableHlo.unary main_v266 main_v267 (broadcastInDim S1x128 ![1] bcast_S128_S1x128_1),
    StableHlo.unary main_v267 main_v268 (broadcastInDim S100000x128 ![0, 1] bcast_S1x128_S100000x128_0_1),
    StableHlo.binary main_v263 main_v268 main_v269 (mulf),
    StableHlo.unary main_v254 main_v270 (broadcastInDim S1x128 ![1] bcast_S128_S1x128_1),
    StableHlo.unary main_v270 main_v271 (broadcastInDim S100000x128 ![0, 1] bcast_S1x128_S100000x128_0_1),
    StableHlo.binary main_v269 main_v271 main_v272 (mulf),
    StableHlo.unary main_v256 main_v273 (broadcastInDim S1x128 ![1] bcast_S128_S1x128_1),
    StableHlo.unary main_v273 main_v274 (broadcastInDim S100000x128 ![0, 1] bcast_S1x128_S100000x128_0_1),
    StableHlo.binary main_v272 main_v274 main_v275 (addf),
    StableHlo.TRef.nullary main_call15.cst (constant S_ .f32 0x00000000#32),
    StableHlo.TRef.unary main_call15.cst main_call15.v0 (broadcastInDim S100000x128 ![] bcast_S_S100000x128),
    StableHlo.TRef.binary (.of main_v275) main_call15.v0 main_call15.v1 maximumf ]

abbrev opsL2bn3 : List (HloOp τ sig (Elt F)) :=
  [ StableHlo.unary main_arg12 main_v277 ((extractStridedSlice S1x128 ![2, 0] · slices_S4x128_S1x128_2_0)),
    StableHlo.reshape main_v277 main_v278 rfl shapeCasts_S1x128_S128,
    StableHlo.unary main_arg13 main_v279 ((extractStridedSlice S1x128 ![2, 0] · slices_S4x128_S1x128_2_0)),
    StableHlo.reshape main_v279 main_v280 rfl shapeCasts_S1x128_S128,
    StableHlo.nullary main_cst_39 (constant S_ .f32 0x00000000#32),
    StableHlo.binary main_v276 main_cst_39 main_v281 ((fun x v => Host.reduceAdd x v reducesTo_S100000x128_S128_d0 h_S_)),
    StableHlo.nullary main_cst_40 (constant S_ .f32 0x47C35000#32),
    StableHlo.unary main_cst_40 main_v282 (broadcastInDim S128 ![] bcast_S_S128),
    StableHlo.binary main_v281 main_v282 main_v283 (Host.divf),
    StableHlo.nullary main_c_41 (constantI S_ 32 0#32),
    StableHlo.TRef.nullary main_call16.cst (constant S_ .f32 0x00000000#32),
    StableHlo.TRef.binary (.of main_v276) main_call16.cst main_call16.v0 (fun x v => Host.reduceAdd x v reducesTo_S100000x128_S128_d0 h_S_),
    StableHlo.TRef.unary main_call16.v0 main_call16.v1 (broadcastInDim S1x128 ![1] bcast_S128_S1x128_1),
    StableHlo.TRef.nullary main_call16.cst_0 (constant S_ .f32 0x47C35000#32),
    StableHlo.TRef.unary main_call16.cst_0 main_call16.v2 (broadcastInDim S1x128 ![] bcast_S_S1x128),
    StableHlo.TRef.binary main_call16.v1 main_call16.v2 main_call16.v3 Host.divf,
    StableHlo.TRef.unary main_call16.v3 main_call16.v4 (broadcastInDim S100000x128 ![0, 1] bcast_S1x128_S100000x128_0_1),
    StableHlo.TRef.binary (.of main_v276) main_call16.v4 main_call16.v5 subf,
    StableHlo.TRef.binary main_call16.v5 main_call16.v5 main_call16.v6 mulf,
    StableHlo.TRef.unary (.of main_c_41) main_call16.v7 (sitofp .f32),
    StableHlo.TRef.nullary main_call16.cst_1 (constant S_ .f32 0x47C35000#32),
    StableHlo.TRef.binary main_call16.cst_1 main_call16.v7 main_call16.v8 subf,
    StableHlo.TRef.nullary main_call16.cst_2 (constant S_ .f32 0x00000000#32),
    StableHlo.TRef.binary main_call16.v6 main_call16.cst_2 main_call16.v9 (fun x v => Host.reduceAdd x v reducesTo_S100000x128_S128_d0 h_S_),
    StableHlo.TRef.unary main_call16.v8 main_call16.v10 (broadcastInDim S128 ![] bcast_S_S128),
    StableHlo.TRef.binary main_call16.v9 main_call16.v10 main_call16.v11 Host.divf,
    StableHlo.TRef.nullary main_call16.cst_3 (constant S_ .f32 0x00000000#32),
    StableHlo.TRef.binary main_call16.v8 main_call16.cst_3 main_call16.v12 (cmpf .ogt),
    StableHlo.TRef.nullary main_call16.cst_4 (constant S_ .f32 0x7FC00000#32),
    StableHlo.TRef.unary main_call16.cst_4 main_call16.call0.v0 id,
    StableHlo.TRef.unary main_call16.call0.v0 main_call16.call0.v1 (broadcastInDim S128 ![] bcast_S_S128),
    StableHlo.TRef.ternary main_call16.v12 main_call16.v11 main_call16.call0.v1 main_call16.call0.v2 (fun p a b => select (broadcastInDim S128 ![] bcast_S_S128 p) a b),
    StableHlo.unary main_v283 main_v285 (broadcastInDim S1x128 ![1] bcast_S128_S1x128_1),
    StableHlo.unary main_v285 main_v286 (broadcastInDim S100000x128 ![0, 1] bcast_S1x128_S100000x128_0_1),
    StableHlo.binary main_v276 main_v286 main_v287 (subf),
    StableHlo.nullary main_cst_42 (constant S_ .f32 0x3727C5AC#32),
    StableHlo.unary main_cst_42 main_v288 (broadcastInDim S128 ![] bcast_S_S128),
    StableHlo.binary main_v284 main_v288 main_v289 (addf),
    StableHlo.unary main_v289 main_v290 (Host.rsqrt),
    StableHlo.unary main_v290 main_v291 (broadcastInDim S1x128 ![1] bcast_S128_S1x128_1),
    StableHlo.unary main_v291 main_v292 (broadcastInDim S100000x128 ![0, 1] bcast_S1x128_S100000x128_0_1),
    StableHlo.binary main_v287 main_v292 main_v293 (mulf),
    StableHlo.unary main_v278 main_v294 (broadcastInDim S1x128 ![1] bcast_S128_S1x128_1),
    StableHlo.unary main_v294 main_v295 (broadcastInDim S100000x128 ![0, 1] bcast_S1x128_S100000x128_0_1),
    StableHlo.binary main_v293 main_v295 main_v296 (mulf),
    StableHlo.unary main_v280 main_v297 (broadcastInDim S1x128 ![1] bcast_S128_S1x128_1),
    StableHlo.unary main_v297 main_v298 (broadcastInDim S100000x128 ![0, 1] bcast_S1x128_S100000x128_0_1),
    StableHlo.binary main_v296 main_v298 main_v299 (addf),
    StableHlo.TRef.nullary main_call17.cst (constant S_ .f32 0x00000000#32),
    StableHlo.TRef.unary main_call17.cst main_call17.v0 (broadcastInDim S100000x128 ![] bcast_S_S100000x128),
    StableHlo.TRef.binary (.of main_v299) main_call17.v0 main_call17.v1 maximumf ]

abbrev opsL2 : List (HloOp τ sig (Elt F)) := opsL2agg ++ opsL2lin1 ++ opsL2bn1 ++ opsL2lin2 ++ opsL2bn2 ++ opsL2bn3

end Cert.RefRun

end
-- ==== Proof.RefOpsL3.lean ====
import proofs.«108002_j23673859736037_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsL3agg : List (HloOp τ sig (Elt F)) :=
  [ StableHlo.nullary main_c_43 (constantI S_ 32 0#32),
    StableHlo.unary main_c_43 main_v301 (broadcastInDim S640000 ![] bcast_S_S640000),
    StableHlo.binary main_v1 main_v301 main_v302 (cmpi .slt),
    StableHlo.nullary main_c_44 (constantI S_ 32 100000#32),
    StableHlo.unary main_c_44 main_v303 (broadcastInDim S640000 ![] bcast_S_S640000),
    StableHlo.binary main_v1 main_v303 main_v304 (addi),
    StableHlo.ternary main_v302 main_v304 main_v1 main_v305 (select),
    StableHlo.unary main_v305 main_v306 (broadcastInDim S640000x1 ![0] bcast_S640000_S640000x1_0),
    StableHlo.binary main_v300 main_v306 main_v307 ((fun x i => Host.gather gather_S100000x128_S640000x1_S640000x128_1_0_n_n_0_1_1128 x i)),
    StableHlo.nullary main_cst_45 (constant S_ .f32 0x00000000#32),
    StableHlo.unary main_cst_45 main_v308 (broadcastInDim S100000x128 ![] bcast_S_S100000x128),
    StableHlo.unary main_v3 main_v309 (broadcastInDim S640000x1 ![0] bcast_S640000_S640000x1_0),
    StableHlo.ternary main_v308 main_v309 main_v307 main_v310 ((fun x i u => Host.scatterAdd scatter_S100000x128_S640000x1_S640000x128_1_0_0_1 x i u)) ]

abbrev opsL3lin1 : List (HloOp τ sig (Elt F)) :=
  [ StableHlo.binary main_v300 main_v310 main_v311 (addf),
    StableHlo.unary main_arg4 main_v312 ((extractStridedSlice S1x128x128 ![3, 0, 0] · slices_S4x128x128_S1x128x128_3_0_0)),
    StableHlo.reshape main_v312 main_v313 rfl shapeCasts_S1x128x128_S128x128,
    StableHlo.binary main_v311 main_v313 main_v314 ((fun l r => Host.dotGeneral dot_S100000x128_S128x128_S100000x128_1_0_0_1_n_n none l r)),
    StableHlo.unary main_arg5 main_v315 ((extractStridedSlice S1x128 ![3, 0] · slices_S4x128_S1x128_3_0)),
    StableHlo.reshape main_v315 main_v316 rfl shapeCasts_S1x128_S128,
    StableHlo.unary main_v316 main_v317 (broadcastInDim S1x128 ![1] bcast_S128_S1x128_1),
    StableHlo.unary main_v317 main_v318 (broadcastInDim S100000x128 ![0, 1] bcast_S1x128_S100000x128_0_1),
    StableHlo.binary main_v314 main_v318 main_v319 (addf) ]

abbrev opsL3bn1 : List (HloOp τ sig (Elt F)) :=
  [ StableHlo.unary main_arg6 main_v320 ((extractStridedSlice S1x128 ![3, 0] · slices_S4x128_S1x128_3_0)),
    StableHlo.reshape main_v320 main_v321 rfl shapeCasts_S1x128_S128,
    StableHlo.unary main_arg7 main_v322 ((extractStridedSlice S1x128 ![3, 0] · slices_S4x128_S1x128_3_0)),
    StableHlo.reshape main_v322 main_v323 rfl shapeCasts_S1x128_S128,
    StableHlo.nullary main_cst_46 (constant S_ .f32 0x00000000#32),
    StableHlo.binary main_v319 main_cst_46 main_v324 ((fun x v => Host.reduceAdd x v reducesTo_S100000x128_S128_d0 h_S_)),
    StableHlo.nullary main_cst_47 (constant S_ .f32 0x47C35000#32),
    StableHlo.unary main_cst_47 main_v325 (broadcastInDim S128 ![] bcast_S_S128),
    StableHlo.binary main_v324 main_v325 main_v326 (Host.divf),
    StableHlo.nullary main_c_48 (constantI S_ 32 0#32),
    StableHlo.TRef.nullary main_call18.cst (constant S_ .f32 0x00000000#32),
    StableHlo.TRef.binary (.of main_v319) main_call18.cst main_call18.v0 (fun x v => Host.reduceAdd x v reducesTo_S100000x128_S128_d0 h_S_),
    StableHlo.TRef.unary main_call18.v0 main_call18.v1 (broadcastInDim S1x128 ![1] bcast_S128_S1x128_1),
    StableHlo.TRef.nullary main_call18.cst_0 (constant S_ .f32 0x47C35000#32),
    StableHlo.TRef.unary main_call18.cst_0 main_call18.v2 (broadcastInDim S1x128 ![] bcast_S_S1x128),
    StableHlo.TRef.binary main_call18.v1 main_call18.v2 main_call18.v3 Host.divf,
    StableHlo.TRef.unary main_call18.v3 main_call18.v4 (broadcastInDim S100000x128 ![0, 1] bcast_S1x128_S100000x128_0_1),
    StableHlo.TRef.binary (.of main_v319) main_call18.v4 main_call18.v5 subf,
    StableHlo.TRef.binary main_call18.v5 main_call18.v5 main_call18.v6 mulf,
    StableHlo.TRef.unary (.of main_c_48) main_call18.v7 (sitofp .f32),
    StableHlo.TRef.nullary main_call18.cst_1 (constant S_ .f32 0x47C35000#32),
    StableHlo.TRef.binary main_call18.cst_1 main_call18.v7 main_call18.v8 subf,
    StableHlo.TRef.nullary main_call18.cst_2 (constant S_ .f32 0x00000000#32),
    StableHlo.TRef.binary main_call18.v6 main_call18.cst_2 main_call18.v9 (fun x v => Host.reduceAdd x v reducesTo_S100000x128_S128_d0 h_S_),
    StableHlo.TRef.unary main_call18.v8 main_call18.v10 (broadcastInDim S128 ![] bcast_S_S128),
    StableHlo.TRef.binary main_call18.v9 main_call18.v10 main_call18.v11 Host.divf,
    StableHlo.TRef.nullary main_call18.cst_3 (constant S_ .f32 0x00000000#32),
    StableHlo.TRef.binary main_call18.v8 main_call18.cst_3 main_call18.v12 (cmpf .ogt),
    StableHlo.TRef.nullary main_call18.cst_4 (constant S_ .f32 0x7FC00000#32),
    StableHlo.TRef.unary main_call18.cst_4 main_call18.call0.v0 id,
    StableHlo.TRef.unary main_call18.call0.v0 main_call18.call0.v1 (broadcastInDim S128 ![] bcast_S_S128),
    StableHlo.TRef.ternary main_call18.v12 main_call18.v11 main_call18.call0.v1 main_call18.call0.v2 (fun p a b => select (broadcastInDim S128 ![] bcast_S_S128 p) a b),
    StableHlo.unary main_v326 main_v328 (broadcastInDim S1x128 ![1] bcast_S128_S1x128_1),
    StableHlo.unary main_v328 main_v329 (broadcastInDim S100000x128 ![0, 1] bcast_S1x128_S100000x128_0_1),
    StableHlo.binary main_v319 main_v329 main_v330 (subf),
    StableHlo.nullary main_cst_49 (constant S_ .f32 0x3727C5AC#32),
    StableHlo.unary main_cst_49 main_v331 (broadcastInDim S128 ![] bcast_S_S128),
    StableHlo.binary main_v327 main_v331 main_v332 (addf),
    StableHlo.unary main_v332 main_v333 (Host.rsqrt),
    StableHlo.unary main_v333 main_v334 (broadcastInDim S1x128 ![1] bcast_S128_S1x128_1),
    StableHlo.unary main_v334 main_v335 (broadcastInDim S100000x128 ![0, 1] bcast_S1x128_S100000x128_0_1),
    StableHlo.binary main_v330 main_v335 main_v336 (mulf),
    StableHlo.unary main_v321 main_v337 (broadcastInDim S1x128 ![1] bcast_S128_S1x128_1),
    StableHlo.unary main_v337 main_v338 (broadcastInDim S100000x128 ![0, 1] bcast_S1x128_S100000x128_0_1),
    StableHlo.binary main_v336 main_v338 main_v339 (mulf),
    StableHlo.unary main_v323 main_v340 (broadcastInDim S1x128 ![1] bcast_S128_S1x128_1),
    StableHlo.unary main_v340 main_v341 (broadcastInDim S100000x128 ![0, 1] bcast_S1x128_S100000x128_0_1),
    StableHlo.binary main_v339 main_v341 main_v342 (addf),
    StableHlo.TRef.nullary main_call19.cst (constant S_ .f32 0x00000000#32),
    StableHlo.TRef.unary main_call19.cst main_call19.v0 (broadcastInDim S100000x128 ![] bcast_S_S100000x128),
    StableHlo.TRef.binary (.of main_v342) main_call19.v0 main_call19.v1 maximumf ]

abbrev opsL3lin2 : List (HloOp τ sig (Elt F)) :=
  [ StableHlo.unary main_arg8 main_v344 ((extractStridedSlice S1x128x128 ![3, 0, 0] · slices_S4x128x128_S1x128x128_3_0_0)),
    StableHlo.reshape main_v344 main_v345 rfl shapeCasts_S1x128x128_S128x128,
    StableHlo.binary main_v343 main_v345 main_v346 ((fun l r => Host.dotGeneral dot_S100000x128_S128x128_S100000x128_1_0_0_1_n_n none l r)),
    StableHlo.unary main_arg9 main_v347 ((extractStridedSlice S1x128 ![3, 0] · slices_S4x128_S1x128_3_0)),
    StableHlo.reshape main_v347 main_v348 rfl shapeCasts_S1x128_S128,
    StableHlo.unary main_v348 main_v349 (broadcastInDim S1x128 ![1] bcast_S128_S1x128_1),
    StableHlo.unary main_v349 main_v350 (broadcastInDim S100000x128 ![0, 1] bcast_S1x128_S100000x128_0_1),
    StableHlo.binary main_v346 main_v350 main_v351 (addf) ]

abbrev opsL3bn2 : List (HloOp τ sig (Elt F)) :=
  [ StableHlo.unary main_arg10 main_v352 ((extractStridedSlice S1x128 ![3, 0] · slices_S4x128_S1x128_3_0)),
    StableHlo.reshape main_v352 main_v353 rfl shapeCasts_S1x128_S128,
    StableHlo.unary main_arg11 main_v354 ((extractStridedSlice S1x128 ![3, 0] · slices_S4x128_S1x128_3_0)),
    StableHlo.reshape main_v354 main_v355 rfl shapeCasts_S1x128_S128,
    StableHlo.nullary main_cst_50 (constant S_ .f32 0x00000000#32),
    StableHlo.binary main_v351 main_cst_50 main_v356 ((fun x v => Host.reduceAdd x v reducesTo_S100000x128_S128_d0 h_S_)),
    StableHlo.nullary main_cst_51 (constant S_ .f32 0x47C35000#32),
    StableHlo.unary main_cst_51 main_v357 (broadcastInDim S128 ![] bcast_S_S128),
    StableHlo.binary main_v356 main_v357 main_v358 (Host.divf),
    StableHlo.nullary main_c_52 (constantI S_ 32 0#32),
    StableHlo.TRef.nullary main_call20.cst (constant S_ .f32 0x00000000#32),
    StableHlo.TRef.binary (.of main_v351) main_call20.cst main_call20.v0 (fun x v => Host.reduceAdd x v reducesTo_S100000x128_S128_d0 h_S_),
    StableHlo.TRef.unary main_call20.v0 main_call20.v1 (broadcastInDim S1x128 ![1] bcast_S128_S1x128_1),
    StableHlo.TRef.nullary main_call20.cst_0 (constant S_ .f32 0x47C35000#32),
    StableHlo.TRef.unary main_call20.cst_0 main_call20.v2 (broadcastInDim S1x128 ![] bcast_S_S1x128),
    StableHlo.TRef.binary main_call20.v1 main_call20.v2 main_call20.v3 Host.divf,
    StableHlo.TRef.unary main_call20.v3 main_call20.v4 (broadcastInDim S100000x128 ![0, 1] bcast_S1x128_S100000x128_0_1),
    StableHlo.TRef.binary (.of main_v351) main_call20.v4 main_call20.v5 subf,
    StableHlo.TRef.binary main_call20.v5 main_call20.v5 main_call20.v6 mulf,
    StableHlo.TRef.unary (.of main_c_52) main_call20.v7 (sitofp .f32),
    StableHlo.TRef.nullary main_call20.cst_1 (constant S_ .f32 0x47C35000#32),
    StableHlo.TRef.binary main_call20.cst_1 main_call20.v7 main_call20.v8 subf,
    StableHlo.TRef.nullary main_call20.cst_2 (constant S_ .f32 0x00000000#32),
    StableHlo.TRef.binary main_call20.v6 main_call20.cst_2 main_call20.v9 (fun x v => Host.reduceAdd x v reducesTo_S100000x128_S128_d0 h_S_),
    StableHlo.TRef.unary main_call20.v8 main_call20.v10 (broadcastInDim S128 ![] bcast_S_S128),
    StableHlo.TRef.binary main_call20.v9 main_call20.v10 main_call20.v11 Host.divf,
    StableHlo.TRef.nullary main_call20.cst_3 (constant S_ .f32 0x00000000#32),
    StableHlo.TRef.binary main_call20.v8 main_call20.cst_3 main_call20.v12 (cmpf .ogt),
    StableHlo.TRef.nullary main_call20.cst_4 (constant S_ .f32 0x7FC00000#32),
    StableHlo.TRef.unary main_call20.cst_4 main_call20.call0.v0 id,
    StableHlo.TRef.unary main_call20.call0.v0 main_call20.call0.v1 (broadcastInDim S128 ![] bcast_S_S128),
    StableHlo.TRef.ternary main_call20.v12 main_call20.v11 main_call20.call0.v1 main_call20.call0.v2 (fun p a b => select (broadcastInDim S128 ![] bcast_S_S128 p) a b),
    StableHlo.unary main_v358 main_v360 (broadcastInDim S1x128 ![1] bcast_S128_S1x128_1),
    StableHlo.unary main_v360 main_v361 (broadcastInDim S100000x128 ![0, 1] bcast_S1x128_S100000x128_0_1),
    StableHlo.binary main_v351 main_v361 main_v362 (subf),
    StableHlo.nullary main_cst_53 (constant S_ .f32 0x3727C5AC#32),
    StableHlo.unary main_cst_53 main_v363 (broadcastInDim S128 ![] bcast_S_S128),
    StableHlo.binary main_v359 main_v363 main_v364 (addf),
    StableHlo.unary main_v364 main_v365 (Host.rsqrt),
    StableHlo.unary main_v365 main_v366 (broadcastInDim S1x128 ![1] bcast_S128_S1x128_1),
    StableHlo.unary main_v366 main_v367 (broadcastInDim S100000x128 ![0, 1] bcast_S1x128_S100000x128_0_1),
    StableHlo.binary main_v362 main_v367 main_v368 (mulf),
    StableHlo.unary main_v353 main_v369 (broadcastInDim S1x128 ![1] bcast_S128_S1x128_1),
    StableHlo.unary main_v369 main_v370 (broadcastInDim S100000x128 ![0, 1] bcast_S1x128_S100000x128_0_1),
    StableHlo.binary main_v368 main_v370 main_v371 (mulf),
    StableHlo.unary main_v355 main_v372 (broadcastInDim S1x128 ![1] bcast_S128_S1x128_1),
    StableHlo.unary main_v372 main_v373 (broadcastInDim S100000x128 ![0, 1] bcast_S1x128_S100000x128_0_1),
    StableHlo.binary main_v371 main_v373 main_v374 (addf),
    StableHlo.TRef.nullary main_call21.cst (constant S_ .f32 0x00000000#32),
    StableHlo.TRef.unary main_call21.cst main_call21.v0 (broadcastInDim S100000x128 ![] bcast_S_S100000x128),
    StableHlo.TRef.binary (.of main_v374) main_call21.v0 main_call21.v1 maximumf ]

abbrev opsL3bn3 : List (HloOp τ sig (Elt F)) :=
  [ StableHlo.unary main_arg12 main_v376 ((extractStridedSlice S1x128 ![3, 0] · slices_S4x128_S1x128_3_0)),
    StableHlo.reshape main_v376 main_v377 rfl shapeCasts_S1x128_S128,
    StableHlo.unary main_arg13 main_v378 ((extractStridedSlice S1x128 ![3, 0] · slices_S4x128_S1x128_3_0)),
    StableHlo.reshape main_v378 main_v379 rfl shapeCasts_S1x128_S128,
    StableHlo.nullary main_cst_54 (constant S_ .f32 0x00000000#32),
    StableHlo.binary main_v375 main_cst_54 main_v380 ((fun x v => Host.reduceAdd x v reducesTo_S100000x128_S128_d0 h_S_)),
    StableHlo.nullary main_cst_55 (constant S_ .f32 0x47C35000#32),
    StableHlo.unary main_cst_55 main_v381 (broadcastInDim S128 ![] bcast_S_S128),
    StableHlo.binary main_v380 main_v381 main_v382 (Host.divf),
    StableHlo.nullary main_c_56 (constantI S_ 32 0#32),
    StableHlo.TRef.nullary main_call22.cst (constant S_ .f32 0x00000000#32),
    StableHlo.TRef.binary (.of main_v375) main_call22.cst main_call22.v0 (fun x v => Host.reduceAdd x v reducesTo_S100000x128_S128_d0 h_S_),
    StableHlo.TRef.unary main_call22.v0 main_call22.v1 (broadcastInDim S1x128 ![1] bcast_S128_S1x128_1),
    StableHlo.TRef.nullary main_call22.cst_0 (constant S_ .f32 0x47C35000#32),
    StableHlo.TRef.unary main_call22.cst_0 main_call22.v2 (broadcastInDim S1x128 ![] bcast_S_S1x128),
    StableHlo.TRef.binary main_call22.v1 main_call22.v2 main_call22.v3 Host.divf,
    StableHlo.TRef.unary main_call22.v3 main_call22.v4 (broadcastInDim S100000x128 ![0, 1] bcast_S1x128_S100000x128_0_1),
    StableHlo.TRef.binary (.of main_v375) main_call22.v4 main_call22.v5 subf,
    StableHlo.TRef.binary main_call22.v5 main_call22.v5 main_call22.v6 mulf,
    StableHlo.TRef.unary (.of main_c_56) main_call22.v7 (sitofp .f32),
    StableHlo.TRef.nullary main_call22.cst_1 (constant S_ .f32 0x47C35000#32),
    StableHlo.TRef.binary main_call22.cst_1 main_call22.v7 main_call22.v8 subf,
    StableHlo.TRef.nullary main_call22.cst_2 (constant S_ .f32 0x00000000#32),
    StableHlo.TRef.binary main_call22.v6 main_call22.cst_2 main_call22.v9 (fun x v => Host.reduceAdd x v reducesTo_S100000x128_S128_d0 h_S_),
    StableHlo.TRef.unary main_call22.v8 main_call22.v10 (broadcastInDim S128 ![] bcast_S_S128),
    StableHlo.TRef.binary main_call22.v9 main_call22.v10 main_call22.v11 Host.divf,
    StableHlo.TRef.nullary main_call22.cst_3 (constant S_ .f32 0x00000000#32),
    StableHlo.TRef.binary main_call22.v8 main_call22.cst_3 main_call22.v12 (cmpf .ogt),
    StableHlo.TRef.nullary main_call22.cst_4 (constant S_ .f32 0x7FC00000#32),
    StableHlo.TRef.unary main_call22.cst_4 main_call22.call0.v0 id,
    StableHlo.TRef.unary main_call22.call0.v0 main_call22.call0.v1 (broadcastInDim S128 ![] bcast_S_S128),
    StableHlo.TRef.ternary main_call22.v12 main_call22.v11 main_call22.call0.v1 main_call22.call0.v2 (fun p a b => select (broadcastInDim S128 ![] bcast_S_S128 p) a b),
    StableHlo.unary main_v382 main_v384 (broadcastInDim S1x128 ![1] bcast_S128_S1x128_1),
    StableHlo.unary main_v384 main_v385 (broadcastInDim S100000x128 ![0, 1] bcast_S1x128_S100000x128_0_1),
    StableHlo.binary main_v375 main_v385 main_v386 (subf),
    StableHlo.nullary main_cst_57 (constant S_ .f32 0x3727C5AC#32),
    StableHlo.unary main_cst_57 main_v387 (broadcastInDim S128 ![] bcast_S_S128),
    StableHlo.binary main_v383 main_v387 main_v388 (addf),
    StableHlo.unary main_v388 main_v389 (Host.rsqrt),
    StableHlo.unary main_v389 main_v390 (broadcastInDim S1x128 ![1] bcast_S128_S1x128_1),
    StableHlo.unary main_v390 main_v391 (broadcastInDim S100000x128 ![0, 1] bcast_S1x128_S100000x128_0_1),
    StableHlo.binary main_v386 main_v391 main_v392 (mulf),
    StableHlo.unary main_v377 main_v393 (broadcastInDim S1x128 ![1] bcast_S128_S1x128_1),
    StableHlo.unary main_v393 main_v394 (broadcastInDim S100000x128 ![0, 1] bcast_S1x128_S100000x128_0_1),
    StableHlo.binary main_v392 main_v394 main_v395 (mulf),
    StableHlo.unary main_v379 main_v396 (broadcastInDim S1x128 ![1] bcast_S128_S1x128_1),
    StableHlo.unary main_v396 main_v397 (broadcastInDim S100000x128 ![0, 1] bcast_S1x128_S100000x128_0_1),
    StableHlo.binary main_v395 main_v397 main_v398 (addf),
    StableHlo.TRef.nullary main_call23.cst (constant S_ .f32 0x00000000#32),
    StableHlo.TRef.unary main_call23.cst main_call23.v0 (broadcastInDim S100000x128 ![] bcast_S_S100000x128),
    StableHlo.TRef.binary (.of main_v398) main_call23.v0 main_call23.v1 maximumf ]

abbrev opsL3 : List (HloOp τ sig (Elt F)) := opsL3agg ++ opsL3lin1 ++ opsL3bn1 ++ opsL3lin2 ++ opsL3bn2 ++ opsL3bn3

end Cert.RefRun

end
-- ==== Proof.RefOpsTail.lean ====
import proofs.«108002_j23673859736037_1_alg».proof.Proof.Gen.ReferenceIdeal
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev opsPool : List (HloOp τ sig (Elt F)) :=
  [ StableHlo.nullary main_cst_58 (constant S_ .f32 0x00000000#32),
    StableHlo.unary main_cst_58 main_v400 (broadcastInDim S512x128 ![] bcast_S_S512x128),
    StableHlo.unary main_arg2 main_v401 (broadcastInDim S100000x1 ![0] bcast_S100000_S100000x1_0),
    StableHlo.ternary main_v400 main_v401 main_v399 main_v402 ((fun x i u => Host.scatterAdd scatter_S512x128_S100000x1_S100000x128_1_0_0_1 x i u)) ]

abbrev opsHead : List (HloOp τ sig (Elt F)) :=
  [ StableHlo.binary main_v402 main_arg3 main_v403 ((fun a b => concatenate S512x133 1 [⟨S512x128, a⟩, ⟨S512x5, b⟩] concatenates_S512x128_S512x5_S512x133_d1)),
    StableHlo.binary main_v403 main_arg14 main_v404 ((fun l r => Host.dotGeneral dot_S512x133_S133x256_S512x256_1_0_0_1_n_n none l r)),
    StableHlo.unary main_arg15 main_v405 (broadcastInDim S1x256 ![1] bcast_S256_S1x256_1),
    StableHlo.unary main_v405 main_v406 (broadcastInDim S512x256 ![0, 1] bcast_S1x256_S512x256_0_1),
    StableHlo.binary main_v404 main_v406 main_v407 (addf),
    StableHlo.nullary main_cst_59 (constant S_ .f32 0x3C23D70A#32),
    StableHlo.TRef.nullary main_call24.cst (constant S_ .f32 0x00000000#32),
    StableHlo.TRef.unary main_call24.cst main_call24.v0 (broadcastInDim S512x256 ![] bcast_S_S512x256),
    StableHlo.TRef.binary (.of main_v407) main_call24.v0 main_call24.v1 (cmpf .oge),
    StableHlo.TRef.unary (.of main_cst_59) main_call24.v2 id,
    StableHlo.TRef.unary main_call24.v2 main_call24.v3 (broadcastInDim S512x256 ![] bcast_S_S512x256),
    StableHlo.TRef.binary main_call24.v3 (.of main_v407) main_call24.v4 mulf,
    StableHlo.TRef.ternary main_call24.v1 (.of main_v407) main_call24.v4 main_call24.call0.v0 select,
    StableHlo.binary main_v408 main_arg16 main_v409 ((fun l r => Host.dotGeneral dot_S512x256_S256x256_S512x256_1_0_0_1_n_n none l r)),
    StableHlo.unary main_arg17 main_v410 (broadcastInDim S1x256 ![1] bcast_S256_S1x256_1),
    StableHlo.unary main_v410 main_v411 (broadcastInDim S512x256 ![0, 1] bcast_S1x256_S512x256_0_1),
    StableHlo.binary main_v409 main_v411 main_v412 (addf),
    StableHlo.nullary main_cst_60 (constant S_ .f32 0x3C23D70A#32),
    StableHlo.TRef.nullary main_call25.cst (constant S_ .f32 0x00000000#32),
    StableHlo.TRef.unary main_call25.cst main_call25.v0 (broadcastInDim S512x256 ![] bcast_S_S512x256),
    StableHlo.TRef.binary (.of main_v412) main_call25.v0 main_call25.v1 (cmpf .oge),
    StableHlo.TRef.unary (.of main_cst_60) main_call25.v2 id,
    StableHlo.TRef.unary main_call25.v2 main_call25.v3 (broadcastInDim S512x256 ![] bcast_S_S512x256),
    StableHlo.TRef.binary main_call25.v3 (.of main_v412) main_call25.v4 mulf,
    StableHlo.TRef.ternary main_call25.v1 (.of main_v412) main_call25.v4 main_call25.call0.v0 select,
    StableHlo.binary main_v413 main_arg18 main_v414 ((fun l r => Host.dotGeneral dot_S512x256_S256x1_S512x1_1_0_0_1_n_n none l r)),
    StableHlo.unary main_arg19 main_v415 (broadcastInDim S1x1 ![1] bcast_S1_S1x1_1),
    StableHlo.unary main_v415 main_v416 (broadcastInDim S512x1 ![0, 1] bcast_S1x1_S512x1_0_1),
    StableHlo.binary main_v414 main_v416 main_v417 (addf) ]

abbrev opsTail : List (HloOp τ sig (Elt F)) := opsPool ++ opsHead

end Cert.RefRun

end
-- ==== Proof.RefOps.lean ====
import proofs.«108002_j23673859736037_1_alg».proof.Proof.RefOpsL0
import proofs.«108002_j23673859736037_1_alg».proof.Proof.RefOpsL1
import proofs.«108002_j23673859736037_1_alg».proof.Proof.RefOpsL2
import proofs.«108002_j23673859736037_1_alg».proof.Proof.RefOpsL3
import proofs.«108002_j23673859736037_1_alg».proof.Proof.RefOpsTail

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

abbrev ops : List (HloOp τ sig (Elt F)) := opsL0 ++ opsL1 ++ opsL2 ++ opsL3 ++ opsTail

abbrev L0agg_out : Ref sig .tc := main_v13
abbrev L0lin1_out : Ref sig .tc := main_v22
abbrev L0lin2_out : Ref sig .tc := main_v54
abbrev L1agg_out : Ref sig .tc := main_v112
abbrev L1lin1_out : Ref sig .tc := main_v121
abbrev L1lin2_out : Ref sig .tc := main_v153
abbrev L2agg_out : Ref sig .tc := main_v211
abbrev L2lin1_out : Ref sig .tc := main_v220
abbrev L2lin2_out : Ref sig .tc := main_v252
abbrev L3agg_out : Ref sig .tc := main_v310
abbrev L3lin1_out : Ref sig .tc := main_v319
abbrev L3lin2_out : Ref sig .tc := main_v351
abbrev pooled : Ref sig .tc := main_v402

end Cert.RefRun

end
-- ==== Proof.RefRun.lean ====
import proofs.«108002_j23673859736037_1_alg».proof.Proof.RefOps
import Idealize.ShloMosaic.Lib.StableHlo.Run
import Idealize.ShloMosaic.Lib.Pipeline.Frame

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem nullary_fresh (y : Ref sig .tc) (v : y.ty.Contents (Elt F)) (hy) :
    (StableHlo.nullary (τ := τ) y v hy).fresh = ∅ := rfl
theorem unary_fresh (x y : Ref sig .tc) (f : x.ty.Contents (Elt F) → y.ty.Contents (Elt F)) (hx hy) :
    (StableHlo.unary (τ := τ) x y f hx hy).fresh = ∅ := rfl
theorem binary_fresh (a b y : Ref sig .tc) (f : a.ty.Contents (Elt F) → b.ty.Contents (Elt F) → y.ty.Contents (Elt F)) (ha hb hy) :
    (StableHlo.binary (τ := τ) a b y f ha hb hy).fresh = ∅ := rfl
theorem ternary_fresh (c a b y : Ref sig .tc)
    (f : c.ty.Contents (Elt F) → a.ty.Contents (Elt F) → b.ty.Contents (Elt F) → y.ty.Contents (Elt F)) (hc ha hb hy) :
    (StableHlo.ternary (τ := τ) c a b y f hc ha hb hy).fresh = ∅ := rfl
theorem reshape_fresh (x y : Ref sig .tc) (he hn hx hy) :
    (StableHlo.reshape (τ := τ) (Val := Elt F) x y he hn hx hy).fresh = ∅ := rfl

local macro "bufs_sub_list" : tactic =>
  `(tactic| simp only [List.forall_cons, List.Forall, nullary_bufs_sub, unary_bufs_sub, binary_bufs_sub, ternary_bufs_sub,
      reshape_bufs_sub, and_self])

local macro "fresh_list" : tactic =>
  `(tactic| simp only [List.forall_cons, List.Forall, nullary_fresh, unary_fresh, binary_fresh, ternary_fresh,
      reshape_fresh, and_self])

theorem seq_drop {Λ : Labels} (l : List (HloOp τ sig (Elt F))) (i n j : Nat) (h : i + n = j) :
    (seq (l.drop i) : Prog (TpuEff nD τ sig (Elt F) Λ .tc) PUnit) = seq ((l.drop i).take n) >>= fun _ => seq (l.drop j) := by
  subst h
  rw [← seq_append, ← List.drop_drop, List.take_append_drop]

set_option maxRecDepth 4096 in
theorem part0_eq (c : Dev nD) : main_part0 (F := F) c = seq ((ops.drop 0).take 83) := by
  simp only [main_part0, fn_var.body, fn_where.body, fn_relu.body, seq, bind_assoc, pure_bind]
  rfl
set_option maxRecDepth 4096 in
theorem part1_eq (c : Dev nD) : main_part1 (F := F) c = seq ((ops.drop 83).take 106) := by
  simp only [main_part1, fn_var.body, fn_where.body, fn_relu.body, seq, bind_assoc, pure_bind]
  rfl
set_option maxRecDepth 4096 in
theorem part2_eq (c : Dev nD) : main_part2 (F := F) c = seq ((ops.drop 189).take 83) := by
  simp only [main_part2, fn_var.body, fn_where.body, fn_relu.body, seq, bind_assoc, pure_bind]
  rfl
set_option maxRecDepth 4096 in
theorem part3_eq (c : Dev nD) : main_part3 (F := F) c = seq ((ops.drop 272).take 106) := by
  simp only [main_part3, fn_var.body, fn_where.body, fn_relu.body, seq, bind_assoc, pure_bind]
  rfl
set_option maxRecDepth 4096 in
theorem part4_eq (c : Dev nD) : main_part4 (F := F) c = seq ((ops.drop 378).take 83) := by
  simp only [main_part4, fn_var.body, fn_where.body, fn_relu.body, seq, bind_assoc, pure_bind]
  rfl
set_option maxRecDepth 4096 in
theorem part5_eq (c : Dev nD) : main_part5 (F := F) c = seq ((ops.drop 461).take 106) := by
  simp only [main_part5, fn_var.body, fn_where.body, fn_relu.body, seq, bind_assoc, pure_bind]
  rfl
set_option maxRecDepth 4096 in
theorem part6_eq (c : Dev nD) : main_part6 (F := F) c = seq ((ops.drop 567).take 104) := by
  simp only [main_part6, fn_var.body, fn_where.body, fn_relu.body, seq, bind_assoc, pure_bind]
  rfl
set_option maxRecDepth 4096 in
theorem part7_eq (c : Dev nD) : main_part7 (F := F) c = seq ((ops.drop 671).take 97) := by
  simp only [main_part7, fn_var.body, fn_where.body, fn_relu.body, fn_leaky_relu.body, fn_where_0.body, seq, bind_assoc, pure_bind]
  rfl
theorem part8_eq (c : Dev nD) : main_part8 (F := F) c = seq (ops.drop 768) := rfl

theorem main_eq (c : Dev nD) : main (F := F) c = seq ops := by
  show _ = seq (ops.drop 0)
  rw [seq_drop ops 0 83 83 rfl, seq_drop ops 83 106 189 rfl, seq_drop ops 189 83 272 rfl, seq_drop ops 272 106 378 rfl,
    seq_drop ops 378 83 461 rfl, seq_drop ops 461 106 567 rfl, seq_drop ops 567 104 671 rfl, seq_drop ops 671 97 768 rfl,
    ← part0_eq c, ← part1_eq c, ← part2_eq c, ← part3_eq c, ← part4_eq c, ← part5_eq c, ← part6_eq c, ← part7_eq c, ← part8_eq c]
  rfl

theorem scopedRefs_eq : (Finset.univ.filter fun b : Ref sig .tc => b.isScoped) = ∅ := by decide
theorem scopedSems_eq : (Finset.univ.filter fun sm : SemLoc sig => sm.isScoped .tc) = ∅ := by decide

theorem ops_sub : (ops : List (HloOp τ sig (Elt F))).Forall fun op => op.bufs ⊆ tcRefs τ sig := by
  simp only [ops, opsL0, opsL1, opsL2, opsL3, opsTail, List.forall_append, and_assoc]
  refine ⟨?_, ?_, ?_, ?_, ?_, ?_, ?_, ?_, ?_, ?_, ?_, ?_, ?_, ?_, ?_, ?_, ?_, ?_, ?_, ?_, ?_, ?_, ?_, ?_, ?_, ?_⟩ <;> bufs_sub_list

theorem ops_fresh : (ops : List (HloOp τ sig (Elt F))).Forall fun op => op.fresh = ∅ := by
  simp only [ops, opsL0, opsL1, opsL2, opsL3, opsTail, List.forall_append, and_assoc]
  refine ⟨?_, ?_, ?_, ?_, ?_, ?_, ?_, ?_, ?_, ?_, ?_, ?_, ?_, ?_, ?_, ?_, ?_, ?_, ?_, ?_, ?_, ?_, ?_, ?_, ?_, ?_⟩ <;> fresh_list

theorem run_main (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

theorem after_ops_layers (V : Valuation τ sig (Elt F)) :
    after ops V = after opsTail (after opsL3 (after opsL2 (after opsL1 (after opsL0 V)))) := by
  simp only [ops, StableHlo.after_append]

end Cert.RefRun

end
-- ==== Proof.RefKeep.lean ====
import proofs.«108002_j23673859736037_1_alg».proof.Proof.RefOps
import Idealize.ShloMosaic.Lib.StableHlo.Run

noncomputable section

namespace Cert.RefRun

open Cert.ReferenceIdeal Cert.ReferenceIdeal.Gen Idealize.ShloMosaic Idealize.ShloMosaic.TcCoe Idealize.SL.Sem Idealize.ShloMosaic.StableHlo

variable {F : FTy → Type} [FloatOps F]

theorem not_writes_of_idx {y : Ref sig .tc} (hy : 20 ≤ y.idx.val) :
    ∀ r : Ref sig .tc, r.idx.val < 20 → (Proc.devRef (τ := τ) .tc r) ∉ ({Proc.devRef .tc y} : Finset (DevRef τ sig)) :=
  fun r hr h => by
    have e : r = y := Proc.devRef_injective _ (Finset.mem_singleton.mp h)
    rw [e] at hr
    exact absurd hy (Nat.not_le.mpr hr)

local macro "keeps_list" : tactic =>
  `(tactic| (
      simp only [List.Forall, nullary_writes, unary_writes, binary_writes, ternary_writes, reshape_writes]
      repeat' apply And.intro
      all_goals exact not_writes_of_idx (by decide)))

abbrev WritesNoArg (l : List (HloOp τ sig (Elt F))) : Prop :=
  l.Forall fun op => ∀ r : Ref sig .tc, r.idx.val < 20 → (Proc.devRef (τ := τ) .tc r) ∉ op.writes

theorem opsL0_writes_no_arg : WritesNoArg (F := F) opsL0 := by
  simp only [WritesNoArg, opsL0, List.forall_append, and_assoc]
  refine ⟨?_, ?_, ?_, ?_, ?_, ?_⟩ <;> keeps_list
theorem opsL1_writes_no_arg : WritesNoArg (F := F) opsL1 := by
  simp only [WritesNoArg, opsL1, List.forall_append, and_assoc]
  refine ⟨?_, ?_, ?_, ?_, ?_, ?_⟩ <;> keeps_list
theorem opsL2_writes_no_arg : WritesNoArg (F := F) opsL2 := by
  simp only [WritesNoArg, opsL2, List.forall_append, and_assoc]
  refine ⟨?_, ?_, ?_, ?_, ?_, ?_⟩ <;> keeps_list
theorem opsL3_writes_no_arg : WritesNoArg (F := F) opsL3 := by
  simp only [WritesNoArg, opsL3, List.forall_append, and_assoc]
  refine ⟨?_, ?_, ?_, ?_, ?_, ?_⟩ <;> keeps_list
theorem opsTail_writes_no_arg : WritesNoArg (F := F) opsTail := by
  simp only [WritesNoArg, opsTail, List.forall_append]
  refine ⟨?_, ?_⟩ <;> keeps_list

theorem ops_writes_no_arg : WritesNoArg (F := F) ops :=
  List.forall_append.mpr ⟨List.forall_append.mpr ⟨List.forall_append.mpr ⟨List.forall_append.mpr
    ⟨opsL0_writes_no_arg, opsL1_writes_no_arg⟩, opsL2_writes_no_arg⟩, opsL3_writes_no_arg⟩, opsTail_writes_no_arg⟩

theorem ops_keeps (V : Valuation τ sig (Elt F)) {r : Ref sig .tc} (hr : r.idx.val < 20) :
    after ops V (r : DevRef τ sig) = V (r : DevRef τ sig) :=
  after_of_forall_not_mem ops V fun op hop => List.forall_iff_forall_mem.mp ops_writes_no_arg op hop r hr

end Cert.RefRun

end
-- ==== Proof.Spec.lean ====
import Idealize.ShloMosaic.PureOps.Ideal
import Idealize.ShloMosaic.PureOps.Ideal.Laws
import Idealize.ShloMosaic.Lib.ValueIdx

noncomputable section

namespace Cert.Spec

open Idealize.ShloMosaic
open scoped BigOperators

abbrev Arr := Fin 100000 → Fin 128 → EReal

abbrev Row := Fin 128 → EReal

abbrev Mat := Fin 128 → Fin 128 → EReal

abbrev nn : EReal := Ideal.ofBits .f32 0x47C35000#32

abbrev eps : EReal := Ideal.ofBits .f32 0x3727C5AC#32

def RealArr (a : Arr) : Prop := ∀ p q, ∃ r : ℝ, a p q = (r : EReal)
def RealRow (v : Row) : Prop := ∀ q, ∃ r : ℝ, v q = (r : EReal)
def RealMat (w : Mat) : Prop := ∀ k q, ∃ r : ℝ, w k q = (r : EReal)

def add (x y : Arr) : Arr := fun p q => x p q + y p q

def lin (h : Arr) (W : Mat) (b : Row) : Arr := fun p q => (∑ k : Fin 128, h p k * W k q) + b q

def colsum (a : Arr) : Row := fun q => ∑ p : Fin 100000, a p q
def colsumsq (a : Arr) : Row := fun q => ∑ p : Fin 100000, a p q * a p q

def meanK (s : Row) : Row := fun q => Ideal.div (s q) nn
def varK (s t : Row) : Row := fun q => Ideal.div (t q) nn - meanK s q * meanK s q
def scaleK (s t g : Row) : Row := fun q => g q * Ideal.rsqrt (varK s t q + eps)
def shiftK (s t g be : Row) : Row := fun q => be q - meanK s q * scaleK s t g q

def affRelu (a : Arr) (sc sh : Row) : Arr := fun p q => max (a p q * sc q + sh q) 0

def bnK (a : Arr) (g be : Row) : Arr :=
  affRelu a (scaleK (colsum a) (colsumsq a) g) (shiftK (colsum a) (colsumsq a) g be)

def meanR (a : Arr) : Row := fun q => Ideal.div (colsum a q) nn
def varR (a : Arr) : Row := fun q => Ideal.div (∑ p : Fin 100000, (a p q - meanR a q) * (a p q - meanR a q)) nn

def bnR (a : Arr) (g be : Row) : Arr :=
  fun p q => max ((a p q - meanR a q) * Ideal.rsqrt (varR a q + eps) * g q + be q) 0

def layerK (x agg : Arr) (W1 : Mat) (b1 g1 be1 : Row) (W2 : Mat) (b2 g2 be2 g3 be3 : Row) : Arr :=
  bnK (bnK (lin (bnK (lin (add x agg) W1 b1) g1 be1) W2 b2) g2 be2) g3 be3

def layerR (x agg : Arr) (W1 : Mat) (b1 g1 be1 : Row) (W2 : Mat) (b2 g2 be2 g3 be3 : Row) : Arr :=
  bnR (bnR (lin (bnR (lin (add x agg) W1 b1) g1 be1) W2 b2) g2 be2) g3 be3

def curA (a : (⟨2, ![100000, 128]⟩ : Shape).Idx → EReal) : Arr := fun p q => a (ValueIdx.ix2 p q)

def curM (a : (⟨2, ![128, 128]⟩ : Shape).Idx → EReal) : Mat := fun k q => a (ValueIdx.ix2 k q)

def curRow (a : (⟨2, ![1, 128]⟩ : Shape).Idx → EReal) : Row := fun q => a (ValueIdx.ix2 0 q)

def curM3 (a : (⟨3, ![4, 128, 128]⟩ : Shape).Idx → EReal) (l : Fin 4) : Mat := fun k q => a (ValueIdx.ix3 l k q)

def curRow2 (a : (⟨2, ![4, 128]⟩ : Shape).Idx → EReal) (l : Fin 4) : Row := fun q => a (ValueIdx.ix2 l q)

end Cert.Spec

end
-- ==== Proof.Finite.lean ====
import proofs.«108002_j23673859736037_1_alg».proof.Pre_finite_inputs
import proofs.«108002_j23673859736037_1_alg».proof.Proof.Gen.Pre_finite_inputs
import proofs.«108002_j23673859736037_1_alg».proof.Proof.Spec
import Idealize.ShloMosaic.Lib.ReduceAll

namespace Cert.Finite

open Idealize.ShloMosaic

theorem inf_word : Ideal.ofBits .f32 0x7F800000#32 = (⊤ : EReal) := by
  simp [Ideal.ofBits, Ideal.ieee]

theorem real_of_abs_lt (x : EReal) (h : Ideal.cmp .olt (max x (-x)) (Ideal.ofBits .f32 0x7F800000#32) = 1#1) :
    ∃ r : ℝ, x = (r : EReal) := by
  rw [inf_word] at h
  induction x using EReal.rec with
  | bot => exact absurd h (by simp [Ideal.cmp])
  | coe r => exact ⟨r, rfl⟩
  | top => exact absurd h (by simp [Ideal.cmp])

instance : Subsingleton Cert.Pre_finite_inputs.S_.Idx := ⟨fun a b => funext fun d => d.elim0⟩

theorem all_real {s : Shape} (x : s.Idx → EReal)
    (hb : Cert.Pre_finite_inputs.S_.BroadcastsInDim s (![] : Fin 0 → Fin s.rank)) {axes : List (Fin s.rank)}
    (hr : s.ReducesTo axes Cert.Pre_finite_inputs.S_) (hu : 0 < Cert.Pre_finite_inputs.S_.numel)
    (j : Cert.Pre_finite_inputs.S_.Idx)
    (e : Host.reduce IntOp.andi
        (cmpf (F := Ideal) .olt (Host.absf (F := Ideal) (φ := .f32) x)
          (broadcastInDim s ![] hb (constant (F := Ideal) Cert.Pre_finite_inputs.S_ .f32 0x7F800000#32)))
        (constantI Cert.Pre_finite_inputs.S_ 1 1#1) hr hu j = 1#1) (i : s.Idx) :
    ∃ r : ℝ, x i = (r : EReal) :=
  real_of_abs_lt (x i) (Host.reduce_andi_all _ _ hr hu j e i)

theorem real_of_pre
    (a0 : (⟨2, ![100000, 128]⟩ : Shape).Idx → EReal)
    (a1 : (⟨2, ![2, 640000]⟩ : Shape).Idx → BitVec 32)
    (a2 : (⟨1, ![100000]⟩ : Shape).Idx → BitVec 32)
    (a3 : (⟨2, ![512, 5]⟩ : Shape).Idx → EReal)
    (a4 : (⟨3, ![4, 128, 128]⟩ : Shape).Idx → EReal)
    (a5 : (⟨2, ![4, 128]⟩ : Shape).Idx → EReal)
    (a6 : (⟨2, ![4, 128]⟩ : Shape).Idx → EReal)
    (a7 : (⟨2, ![4, 128]⟩ : Shape).Idx → EReal)
    (a8 : (⟨3, ![4, 128, 128]⟩ : Shape).Idx → EReal)
    (a9 : (⟨2, ![4, 128]⟩ : Shape).Idx → EReal)
    (a10 : (⟨2, ![4, 128]⟩ : Shape).Idx → EReal)
    (a11 : (⟨2, ![4, 128]⟩ : Shape).Idx → EReal)
    (a12 : (⟨2, ![4, 128]⟩ : Shape).Idx → EReal)
    (a13 : (⟨2, ![4, 128]⟩ : Shape).Idx → EReal)
    (a14 : (⟨2, ![133, 256]⟩ : Shape).Idx → EReal)
    (a15 : (⟨1, ![256]⟩ : Shape).Idx → EReal)
    (a16 : (⟨2, ![256, 256]⟩ : Shape).Idx → EReal)
    (a17 : (⟨1, ![256]⟩ : Shape).Idx → EReal)
    (a18 : (⟨2, ![256, 1]⟩ : Shape).Idx → EReal)
    (a19 : (⟨1, ![1]⟩ : Shape).Idx → EReal)
    (h : Cert.Pre_finite_inputs.fn (F := Ideal) a0 a1 a2 a3 a4 a5 a6 a7 a8 a9 a10 a11 a12 a13 a14 a15 a16 a17 a18 a19
      = fun _ => 1#1) :
    Cert.Spec.RealArr (Cert.Spec.curA a0)
    ∧ (∀ l : Fin 4, Cert.Spec.RealMat (Cert.Spec.curM3 a4 l))
    ∧ (∀ l : Fin 4, Cert.Spec.RealRow (Cert.Spec.curRow2 a5 l))
    ∧ (∀ l : Fin 4, Cert.Spec.RealRow (Cert.Spec.curRow2 a6 l))
    ∧ (∀ l : Fin 4, Cert.Spec.RealRow (Cert.Spec.curRow2 a7 l))
    ∧ (∀ l : Fin 4, Cert.Spec.RealMat (Cert.Spec.curM3 a8 l))
    ∧ (∀ l : Fin 4, Cert.Spec.RealRow (Cert.Spec.curRow2 a9 l))
    ∧ (∀ l : Fin 4, Cert.Spec.RealRow (Cert.Spec.curRow2 a10 l))
    ∧ (∀ l : Fin 4, Cert.Spec.RealRow (Cert.Spec.curRow2 a11 l))
    ∧ (∀ l : Fin 4, Cert.Spec.RealRow (Cert.Spec.curRow2 a12 l))
    ∧ (∀ l : Fin 4, Cert.Spec.RealRow (Cert.Spec.curRow2 a13 l)) := by

  have h0 := congrFun h ValueIdx.ix0
  dsimp only [Cert.Pre_finite_inputs.fn, Cert.Pre_finite_inputs.fn_part1, Cert.Pre_finite_inputs.fn_part2,
    Cert.Pre_finite_inputs.fn_part3, Cert.Pre_finite_inputs.fn_part4, Cert.Pre_finite_inputs.fn_part5] at h0

  simp only [Idealize.ShloMosaic.andi, IntOp.andi_eq_one] at h0
  obtain ⟨⟨⟨⟨⟨⟨⟨⟨⟨⟨⟨⟨⟨⟨⟨⟨⟨e0, _⟩, e4⟩, e5⟩, e6⟩, e7⟩, e8⟩, e9⟩, e10⟩, e11⟩, e12⟩, e13⟩, _⟩, _⟩, _⟩, _⟩, _⟩, _⟩ := h0
  exact ⟨fun p q => all_real a0 _ _ _ _ e0 (ValueIdx.ix2 p q),
    fun l k q => all_real a4 _ _ _ _ e4 (ValueIdx.ix3 l k q),
    fun l q => all_real a5 _ _ _ _ e5 (ValueIdx.ix2 l q),
    fun l q => all_real a6 _ _ _ _ e6 (ValueIdx.ix2 l q),
    fun l q => all_real a7 _ _ _ _ e7 (ValueIdx.ix2 l q),
    fun l k q => all_real a8 _ _ _ _ e8 (ValueIdx.ix3 l k q),
    fun l q => all_real a9 _ _ _ _ e9 (ValueIdx.ix2 l q),
    fun l q => all_real a10 _ _ _ _ e10 (ValueIdx.ix2 l q),
    fun l q => all_real a11 _ _ _ _ e11 (ValueIdx.ix2 l q),
    fun l q => all_real a12 _ _ _ _ e12 (ValueIdx.ix2 l q),
    fun l q => all_real a13 _ _ _ _ e13 (ValueIdx.ix2 l q)⟩

end Cert.Finite
-- ==== Proof.SpecHead.lean ====
import proofs.«108002_j23673859736037_1_alg».proof.Proof.Spec

noncomputable section

namespace Cert.Spec

open Idealize.ShloMosaic
open scoped BigOperators

abbrev slope : EReal := Ideal.ofBits .f32 0x3C23D70A#32

abbrev zeroW : EReal := Ideal.ofBits .f32 0x00000000#32

def leaky (z : EReal) : EReal :=
  Scalar.select (FloatOps.cmpf (F := Ideal) (φ := .f32) .oge z zeroW) z (z * slope)

def cat (pooled : Fin 512 → Fin 128 → EReal) (gf : Fin 512 → Fin 5 → EReal) : Fin 512 → Fin 133 → EReal :=
  fun p j => if h : j.val < 128 then pooled p ⟨j.val, h⟩ else gf p ⟨j.val - 128, by omega⟩

def dense {K N : ℕ} (z : Fin 512 → Fin K → EReal) (W : Fin K → Fin N → EReal) (b : Fin N → EReal) : Fin 512 → Fin N → EReal :=
  fun p q => leaky ((∑ k : Fin K, z p k * W k q) + b q)

def head (pooled : Fin 512 → Fin 128 → EReal) (gf : Fin 512 → Fin 5 → EReal)
    (W1 : Fin 133 → Fin 256 → EReal) (b1 : Fin 256 → EReal) (W2 : Fin 256 → Fin 256 → EReal) (b2 : Fin 256 → EReal)
    (W3 : Fin 256 → Fin 1 → EReal) (b3 : Fin 1 → EReal) : Fin 512 → EReal :=
  fun p => (∑ k : Fin 256, dense (dense (cat pooled gf) W1 b1) W2 b2 p k * W3 k 0) + b3 0

end Cert.Spec

end
-- ==== Proof.ChainDefs.lean ====
import proofs.«108002_j23673859736037_1_alg».proof.Proof.Spec
import proofs.«108002_j23673859736037_1_alg».proof.Proof.SpecHead

noncomputable section

namespace Cert.Chain

open Idealize.ShloMosaic Cert.Spec

abbrev NArr := (⟨2, ![100000, 128]⟩ : Shape).Idx → EReal

def uncA (f : Arr) : NArr := fun i => f ⟨(i 0).val, ValueIdx.idx2_lt0 i⟩ ⟨(i 1).val, ValueIdx.idx2_lt1 i⟩

theorem curA_uncA (f : Arr) : curA (uncA f) = f := rfl

theorem uncA_curA (a : NArr) : uncA (curA a) = a := by
  funext i
  show a (ValueIdx.ix2 ⟨(i 0).val, _⟩ ⟨(i 1).val, _⟩) = a i
  exact congrArg a (ValueIdx.eq_ix2 i).symm

theorem narr_ext {a b : NArr} (h : ∀ p q, a (ValueIdx.ix2 p q) = b (ValueIdx.ix2 p q)) : a = b := by
  funext i; rw [ValueIdx.eq_ix2 i]; exact h _ _

structure Params where
  W1 : Fin 4 → Mat
  b1 : Fin 4 → Row
  g1 : Fin 4 → Row
  be1 : Fin 4 → Row
  W2 : Fin 4 → Mat
  b2 : Fin 4 → Row
  g2 : Fin 4 → Row
  be2 : Fin 4 → Row
  g3 : Fin 4 → Row
  be3 : Fin 4 → Row

def paramsOf (a4 : (⟨3, ![4, 128, 128]⟩ : Shape).Idx → EReal) (a5 a6 a7 : (⟨2, ![4, 128]⟩ : Shape).Idx → EReal)
    (a8 : (⟨3, ![4, 128, 128]⟩ : Shape).Idx → EReal) (a9 a10 a11 a12 a13 : (⟨2, ![4, 128]⟩ : Shape).Idx → EReal) : Params :=
  ⟨curM3 a4, curRow2 a5, curRow2 a6, curRow2 a7, curM3 a8, curRow2 a9, curRow2 a10, curRow2 a11, curRow2 a12, curRow2 a13⟩

def Params.Real (P : Params) : Prop :=
  (∀ l, RealMat (P.W1 l)) ∧ (∀ l, RealRow (P.b1 l)) ∧ (∀ l, RealRow (P.g1 l)) ∧ (∀ l, RealRow (P.be1 l))
    ∧ (∀ l, RealMat (P.W2 l)) ∧ (∀ l, RealRow (P.b2 l)) ∧ (∀ l, RealRow (P.g2 l)) ∧ (∀ l, RealRow (P.be2 l))
    ∧ (∀ l, RealRow (P.g3 l)) ∧ (∀ l, RealRow (P.be3 l))

def stepK (agg : NArr → NArr) (P : Params) (l : Fin 4) (X : NArr) : NArr :=
  uncA (layerK (curA X) (curA (agg X)) (P.W1 l) (P.b1 l) (P.g1 l) (P.be1 l) (P.W2 l) (P.b2 l) (P.g2 l) (P.be2 l) (P.g3 l) (P.be3 l))

def stepR (agg : NArr → NArr) (P : Params) (l : Fin 4) (X : NArr) : NArr :=
  uncA (layerR (curA X) (curA (agg X)) (P.W1 l) (P.b1 l) (P.g1 l) (P.be1 l) (P.W2 l) (P.b2 l) (P.g2 l) (P.be2 l) (P.g3 l) (P.be3 l))

end Cert.Chain

end
-- ==== Proof.KStats.lean ====
import proofs.«108002_j23673859736037_1_alg».proof.Proof.Gen.KernelIdeal
import proofs.«108002_j23673859736037_1_alg».proof.Proof.Spec
import Idealize.ShloMosaic.Lib.ValueIdx

noncomputable section

namespace Cert.KernelIdeal.Stats

open Cert.KernelIdeal Cert.Spec
open Idealize.ShloMosaic Idealize.ShloMosaic.ValueIdx

abbrev RowV := FVec Ideal S1x128 .f32

abbrev nnRow (hb : S_.BroadcastsInDim S1x128 (![] : Fin 0 → Fin S1x128.rank)) : RowV :=
  broadcastInDim S1x128 ![] hb (constant (F := Ideal) S_ .f32 0x47C35000#32)

abbrev epsRow (hb : S_.BroadcastsInDim S1x128 (![] : Fin 0 → Fin S1x128.rank)) : RowV :=
  broadcastInDim S1x128 ![] hb (constant (F := Ideal) S_ .f32 0x3727C5AC#32)

abbrev meanT (hb : S_.BroadcastsInDim S1x128 (![] : Fin 0 → Fin S1x128.rank)) (s : RowV) : RowV :=
  Host.divf s (nnRow hb)

abbrev scaleT (hb : S_.BroadcastsInDim S1x128 (![] : Fin 0 → Fin S1x128.rank)) (s t g : RowV) : RowV :=
  mulf g (Host.rsqrt (addf (subf (Host.divf t (nnRow hb)) (mulf (meanT hb s) (meanT hb s))) (epsRow hb)))

abbrev shiftT (hb : S_.BroadcastsInDim S1x128 (![] : Fin 0 → Fin S1x128.rank)) (s t g be : RowV) : RowV :=
  subf be (mulf (meanT hb s) (scaleT hb s t g))

variable (hb : S_.BroadcastsInDim S1x128 (![] : Fin 0 → Fin S1x128.rank))

theorem scale_apply (s t g : RowV) (q : Fin 128) :
    scaleT hb s t g (ix2 0 q) = scaleK (curRow s) (curRow t) (curRow g) q := rfl

theorem shift_apply (s t g be : RowV) (q : Fin 128) :
    shiftT hb s t g be (ix2 0 q) = shiftK (curRow s) (curRow t) (curRow g) (curRow be) q := rfl

theorem scale_row (s t g : RowV) : curRow (scaleT hb s t g) = scaleK (curRow s) (curRow t) (curRow g) :=
  funext fun q => scale_apply hb s t g q

theorem shift_row (s t g be : RowV) :
    curRow (shiftT hb s t g be) = shiftK (curRow s) (curRow t) (curRow g) (curRow be) :=
  funext fun q => shift_apply hb s t g be q

end Cert.KernelIdeal.Stats

end
-- ==== Proof.Agg.lean ====
import proofs.«108002_j23673859736037_1_alg».proof.Proof.Gen.KernelIdeal
import proofs.«108002_j23673859736037_1_alg».proof.Proof.Gen.ReferenceIdeal
import proofs.«108002_j23673859736037_1_alg».proof.Proof.Spec

noncomputable section

namespace Cert.Agg

open Idealize.ShloMosaic
open scoped BigOperators

section Kernel
open Cert.KernelIdeal Cert.KernelIdeal.Gen

def srcK (ei : S2x640000.Idx → BitVec 32) : S640000.Idx → BitVec 32 :=
  shapeCast S640000 (extractStridedSlice S1x640000 ![0, 0] ei slices_S2x640000_S1x640000_0_0) shapeCasts_S1x640000_S640000

def dstK (ei : S2x640000.Idx → BitVec 32) : S640000.Idx → BitVec 32 :=
  shapeCast S640000 (extractStridedSlice S1x640000 ![1, 0] ei slices_S2x640000_S1x640000_1_0) shapeCasts_S1x640000_S640000

def aggK (x : S100000x128.Idx → EReal) (src dst : S640000.Idx → BitVec 32) : S100000x128.Idx → EReal :=
  Host.scatterAdd (F := Ideal) (φ := .f32) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (Host.gather gather_S100000x128_S640000x1_S640000x128_1_0_n_n_0_1_1128 x
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32)))
          src)))

def poolK (x : S100000x128.Idx → EReal) (batch : S100000.Idx → BitVec 32) : S512x128.Idx → EReal :=
  Host.scatterAdd (F := Ideal) (φ := .f32) scatter_S512x128_S100000x1_S100000x128_1_0_0_1
    (broadcastInDim S512x128 ![] bcast_S_S512x128 (constant (F := Ideal) S_ .f32 0x00000000#32))
    (broadcastInDim S100000x1 ![0] bcast_S100000_S100000x1_0 batch)
    x

end Kernel

section Reference
open Cert.ReferenceIdeal Cert.ReferenceIdeal.Gen

def srcR (ei : S2x640000.Idx → BitVec 32) : S640000.Idx → BitVec 32 :=
  shapeCast S640000 (extractStridedSlice S1x640000 ![0, 0] ei slices_S2x640000_S1x640000_0_0) shapeCasts_S1x640000_S640000

def dstR (ei : S2x640000.Idx → BitVec 32) : S640000.Idx → BitVec 32 :=
  shapeCast S640000 (extractStridedSlice S1x640000 ![1, 0] ei slices_S2x640000_S1x640000_1_0) shapeCasts_S1x640000_S640000

def aggR (x : S100000x128.Idx → EReal) (src dst : S640000.Idx → BitVec 32) : S100000x128.Idx → EReal :=
  Host.scatterAdd (F := Ideal) (φ := .f32) scatter_S100000x128_S640000x1_S640000x128_1_0_0_1
    (broadcastInDim S100000x128 ![] bcast_S_S100000x128 (constant (F := Ideal) S_ .f32 0x00000000#32))
    (broadcastInDim S640000x1 ![0] bcast_S640000_S640000x1_0 dst)
    (Host.gather gather_S100000x128_S640000x1_S640000x128_1_0_n_n_0_1_1128 x
      (broadcastInDim S640000x1 ![0] bcast_S640000_S640000x1_0
        (select (cmpi .slt src (broadcastInDim S640000 ![] bcast_S_S640000 (constantI S_ 32 0#32)))
          (addi src (broadcastInDim S640000 ![] bcast_S_S640000 (constantI S_ 32 100000#32)))
          src)))

def poolR (x : S100000x128.Idx → EReal) (batch : S100000.Idx → BitVec 32) : S512x128.Idx → EReal :=
  Host.scatterAdd (F := Ideal) (φ := .f32) scatter_S512x128_S100000x1_S100000x128_1_0_0_1
    (broadcastInDim S512x128 ![] bcast_S_S512x128 (constant (F := Ideal) S_ .f32 0x00000000#32))
    (broadcastInDim S100000x1 ![0] bcast_S100000_S100000x1_0 batch)
    x

end Reference

theorem real_add {a b : EReal} (ha : ∃ r : ℝ, a = (r : EReal)) (hb : ∃ r : ℝ, b = (r : EReal)) :
    ∃ r : ℝ, a + b = (r : EReal) := by
  obtain ⟨r, rfl⟩ := ha
  obtain ⟨t, rfl⟩ := hb
  exact ⟨r + t, (EReal.coe_add r t).symm⟩

theorem real_sum {ι : Type} (s : Finset ι) (f : ι → EReal) (h : ∀ j ∈ s, ∃ r : ℝ, f j = (r : EReal)) :
    ∃ r : ℝ, ∑ j ∈ s, f j = (r : EReal) :=
  Finset.sum_induction f (fun a => ∃ r : ℝ, a = (r : EReal)) (fun _ _ => real_add) ⟨0, EReal.coe_zero.symm⟩ h

theorem gather_mem {s si t : Shape} {w : Nat} (d : GatherDims s si t) (x : s.Idx → EReal) (idx : IVec si w)
    (j : t.Idx) : ∃ i, Host.gather d x idx j = x i :=
  ⟨d.operandIdx j idx, rfl⟩

theorem zero_splat_real {s t : Shape} (dims : Fin s.rank → Fin t.rank) (h : s.BroadcastsInDim t dims) (i : t.Idx) :
    ∃ r : ℝ, broadcastInDim t dims h (constant (F := Ideal) s .f32 0x00000000#32) i = (r : EReal) :=
  ⟨0, by
    show Ideal.ofBits .f32 0x00000000#32 = ((0 : ℝ) : EReal)
    rw [Ideal.ofBits_zero_f32, EReal.coe_zero]⟩

theorem scatterAdd_real {s si su : Shape} {w : Nat} (d : ScatterDims s si su) (x₀ : s.Idx → EReal) (idx : IVec si w)
    (upd : su.Idx → EReal) (h₀ : ∀ i, ∃ r : ℝ, x₀ i = (r : EReal)) (hu : ∀ j, ∃ r : ℝ, upd j = (r : EReal))
    (i : s.Idx) : ∃ r : ℝ, Host.scatterAdd (F := Ideal) (φ := .f32) d x₀ idx upd i = (r : EReal) := by
  rw [Host.scatterAdd, Ideal.hostScatterAdd_def, Ideal.hostScatterAdd]
  exact real_add (h₀ i) (real_sum _ _ fun j _ => hu j)

theorem aggK_real (x : Cert.KernelIdeal.S100000x128.Idx → EReal) (src dst : Cert.KernelIdeal.S640000.Idx → BitVec 32)
    (hx : Cert.Spec.RealArr (Cert.Spec.curA x)) : Cert.Spec.RealArr (Cert.Spec.curA (aggK x src dst)) := by

  have hx' : ∀ i : Cert.KernelIdeal.S100000x128.Idx, ∃ r : ℝ, x i = (r : EReal) := fun i => by
    rw [ValueIdx.eq_ix2 i]; exact hx (i 0) (i 1)
  intro p q
  refine scatterAdd_real _ _ _ _ (zero_splat_real _ _) (fun j => ?_) _
  obtain ⟨i, hi⟩ := gather_mem Cert.KernelIdeal.gather_S100000x128_S640000x1_S640000x128_1_0_n_n_0_1_1128 x _ j
  rw [hi]; exact hx' i

end Cert.Agg

end
-- ==== Proof.KChain0Ops.lean ====
import proofs.«108002_j23673859736037_1_alg».proof.Proof.Gen.KernelIdeal.Launch
import proofs.«108002_j23673859736037_1_alg».proof.Proof.Spec
import proofs.«108002_j23673859736037_1_alg».proof.Proof.KStats
import proofs.«108002_j23673859736037_1_alg».proof.Proof.Agg
import Idealize.ShloMosaic.PureOps.Ideal
import Idealize.ShloMosaic.Lib.StableHlo.Run
import Idealize.ShloMosaic.Lib.ValueIdx
import Idealize.ShloMosaic.Lib.ValueLayout
import Idealize.ShloMosaic.Lib.Pipeline.Value

set_option maxRecDepth 16384

noncomputable section

namespace Cert.KernelIdeal.Chain

open Cert.KernelIdeal Cert.KernelIdeal.Gen Cert.Spec
open Idealize.ShloMosaic Idealize.ShloMosaic.TcCoe Idealize.ShloMosaic.StableHlo Idealize.ShloMosaic.ValueIdx

variable (U : Valuation τ sig (Elt Ideal))

open Cert.KernelIdeal.Stats

abbrev rowOf (l : ℕ) (a : FVec Ideal S4x128 .f32) (hs : S4x128.Slices ![l, 0] S1x128) : RowV :=
  shapeCast S1x128 (shapeCast S128 (extractStridedSlice S1x128 ![l, 0] a hs) shapeCasts_S1x128_S128) shapeCasts_S128_S1x128

abbrev matOf (l : ℕ) (a : FVec Ideal S4x128x128 .f32) (hs : S4x128x128.Slices ![l, 0, 0] S1x128x128) :
    FVec Ideal S128x128 .f32 :=
  shapeCast S128x128 (extractStridedSlice S1x128x128 ![l, 0, 0] a hs) shapeCasts_S1x128x128_S128x128

theorem rowOf_apply (l : Fin 4) (a : FVec Ideal S4x128 .f32) (hs : S4x128.Slices ![l.val, 0] S1x128) (q : Fin 128) :
    rowOf l.val a hs (ix2 0 q) = curRow2 a l q := by
  show shapeCast S1x128 (shapeCast S128 (extractStridedSlice S1x128 ![l.val, 0] a hs) shapeCasts_S1x128_S128)
    shapeCasts_S128_S1x128 (ix2 (0 : Fin 1) q) = a (ix2 l q)
  rw [shapeCast_a_1a_apply, shapeCast_1a_a_apply]
  exact slice2_axis0_apply l.val a hs 0 q l (by simp)

theorem rowOf_row (l : Fin 4) (a : FVec Ideal S4x128 .f32) (hs : S4x128.Slices ![l.val, 0] S1x128) :
    curRow (rowOf l.val a hs) = curRow2 a l := funext fun q => rowOf_apply l a hs q

theorem matOf_apply (l : Fin 4) (a : FVec Ideal S4x128x128 .f32) (hs : S4x128x128.Slices ![l.val, 0, 0] S1x128x128)
    (k q : Fin 128) : matOf l.val a hs (ix2 k q) = curM3 a l k q := by
  show shapeCast S128x128 (extractStridedSlice S1x128x128 ![l.val, 0, 0] a hs) shapeCasts_S1x128x128_S128x128 (ix2 k q)
    = a (ix3 l k q)
  rw [shapeCast_1ab_ab_apply]
  exact extractStridedSlice_apply _ a hs _ (ix3 l k q) (fun ax => by
    match ax with
    | ⟨0, _⟩ => show l.val = l.val + 0; rfl
    | ⟨1, _⟩ => exact (Nat.zero_add _).symm
    | ⟨2, _⟩ => exact (Nat.zero_add _).symm)

theorem matOf_mat (l : Fin 4) (a : FVec Ideal S4x128x128 .f32) (hs : S4x128x128.Slices ![l.val, 0, 0] S1x128x128) :
    curM (matOf l.val a hs) = curM3 a l := funext fun k => funext fun q => matOf_apply l a hs k q

theorem ops0_v1 : (after (hostOps0 (F := Ideal)) U main_v1 : S640000.Idx → BitVec 32) = Cert.Agg.srcK (U main_arg1) := by
  after_results; rfl

theorem ops0_v3 : (after (hostOps0 (F := Ideal)) U main_v3 : S640000.Idx → BitVec 32) = Cert.Agg.dstK (U main_arg1) := by
  after_results; rfl

set_option maxHeartbeats 400000 in
theorem ops0_v13 : (after (hostOps0 (F := Ideal)) U main_v13 : S100000x128.Idx → EReal)
    = Cert.Agg.aggK (U main_arg0) (Cert.Agg.srcK (U main_arg1)) (Cert.Agg.dstK (U main_arg1)) := by
  after_results; rfl

theorem ops0_v15 : (after (hostOps0 (F := Ideal)) U main_v15 : S128x128.Idx → EReal)
    = matOf 0 (U main_arg4) slices_S4x128x128_S1x128x128_0_0_0 := by
  after_results_simp; rfl

theorem ops0_v18 : (after (hostOps0 (F := Ideal)) U main_v18 : S1x128.Idx → EReal)
    = rowOf 0 (U main_arg5) slices_S4x128_S1x128_0_0 := by
  after_results_simp; rfl

theorem ops1_v32 : (after (hostOps1 (F := Ideal)) U main_v32 : S1x128.Idx → EReal)
    = scaleT bcast_S_S1x128 (U main_v19_1) (U main_v19_2) (rowOf 0 (U main_arg6) slices_S4x128_S1x128_0_0) := by
  after_results_simp; rfl

theorem ops1_v37 : (after (hostOps1 (F := Ideal)) U main_v37 : S1x128.Idx → EReal)
    = shiftT bcast_S_S1x128 (U main_v19_1) (U main_v19_2) (rowOf 0 (U main_arg6) slices_S4x128_S1x128_0_0)
        (rowOf 0 (U main_arg7) slices_S4x128_S1x128_0_0) := by
  after_results_simp; rfl

theorem ops1_v39 : (after (hostOps1 (F := Ideal)) U main_v39 : S128x128.Idx → EReal)
    = matOf 0 (U main_arg8) slices_S4x128x128_S1x128x128_0_0_0 := by
  after_results_simp; rfl

theorem ops1_v42 : (after (hostOps1 (F := Ideal)) U main_v42 : S1x128.Idx → EReal)
    = rowOf 0 (U main_arg9) slices_S4x128_S1x128_0_0 := by
  after_results_simp; rfl

theorem ops2_v56 : (after (hostOps2 (F := Ideal)) U main_v56 : S1x128.Idx → EReal)
    = scaleT bcast_S_S1x128 (U main_v43_1) (U main_v43_2) (rowOf 0 (U main_arg10) slices_S4x128_S1x128_0_0) := by
  after_results_simp; rfl

theorem ops2_v61 : (after (hostOps2 (F := Ideal)) U main_v61 : S1x128.Idx → EReal)
    = shiftT bcast_S_S1x128 (U main_v43_1) (U main_v43_2) (rowOf 0 (U main_arg10) slices_S4x128_S1x128_0_0)
        (rowOf 0 (U main_arg11) slices_S4x128_S1x128_0_0) := by
  after_results_simp; rfl

theorem ops3_v75 : (after (hostOps3 (F := Ideal)) U main_v75 : S1x128.Idx → EReal)
    = scaleT bcast_S_S1x128 (U main_v62_1) (U main_v62_2) (rowOf 0 (U main_arg12) slices_S4x128_S1x128_0_0) := by
  after_results_simp; rfl

theorem ops3_v80 : (after (hostOps3 (F := Ideal)) U main_v80 : S1x128.Idx → EReal)
    = shiftT bcast_S_S1x128 (U main_v62_1) (U main_v62_2) (rowOf 0 (U main_arg12) slices_S4x128_S1x128_0_0)
        (rowOf 0 (U main_arg13) slices_S4x128_S1x128_0_0) := by
  after_results_simp; rfl

def key (r : Ref sig .tc) : ℕ := r.idx.val

theorem not_mem_of_keys {A W : List (Ref sig .tc)} {ka kw : List ℕ} (hA : A.map key = ka) (hW : W.map key = kw)
    (hd : ∀ k ∈ ka, k ∉ kw) : ∀ b ∈ A, b ∉ W :=
  fun b hb hm => hd (key b) (hA ▸ List.mem_map_of_mem hb) (hW ▸ List.mem_map_of_mem hm)

theorem not_mem_of_key {r : Ref sig .tc} {W : List (Ref sig .tc)} {kw : List ℕ} (hW : W.map key = kw) (k : ℕ)
    (hr : key r = k) (hd : k ∉ kw) : r ∉ W :=
  fun hm => hd (hr ▸ hW ▸ List.mem_map_of_mem hm)

abbrev ops0_W : List (Ref sig .tc) := [main_v0, main_v1, main_v2, main_v3, main_c, main_v4, main_v5, main_c_0, main_v6, main_v7, main_v8, main_v9, main_v10, main_cst, main_v11, main_v12, main_v13, main_v14, main_v15, main_v16, main_v17, main_v18]
theorem ops0_keys : ops0_W.map key = [20, 21, 22, 23, 24, 25, 26, 27, 28, 29, 30, 31, 32, 33, 34, 35, 36, 37, 38, 39, 40, 41] := rfl
theorem ops0_writes : (hostOps0 (F := Ideal)).Forall fun op => op.writes ⊆ (ops0_W.map (Proc.devRef (τ := τ) .tc)).toFinset := by
  simp only [hostOps0, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem ops0_keep (r : Ref sig .tc) (h : r ∉ ops0_W) : after (hostOps0 (F := Ideal)) U r = U r :=
  StableHlo.after_of_writes_sub _ _ ops0_writes h

abbrev ops1_W : List (Ref sig .tc) := [main_cst_1, main_v20, main_v21, main_cst_2, main_v22, main_v23, main_v24, main_v25, main_v26, main_v27, main_v28, main_cst_3, main_v29, main_v30, main_v31, main_v32, main_v33, main_v34, main_v35, main_v36, main_v37, main_v38, main_v39, main_v40, main_v41, main_v42]
theorem ops1_keys : ops1_W.map key = [45, 46, 47, 48, 49, 50, 51, 52, 53, 54, 55, 56, 57, 58, 59, 60, 61, 62, 63, 64, 65, 66, 67, 68, 69, 70] := rfl
theorem ops1_writes : (hostOps1 (F := Ideal)).Forall fun op => op.writes ⊆ (ops1_W.map (Proc.devRef (τ := τ) .tc)).toFinset := by
  simp only [hostOps1, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem ops1_keep (r : Ref sig .tc) (h : r ∉ ops1_W) : after (hostOps1 (F := Ideal)) U r = U r :=
  StableHlo.after_of_writes_sub _ _ ops1_writes h

abbrev ops2_W : List (Ref sig .tc) := [main_cst_4, main_v44, main_v45, main_cst_5, main_v46, main_v47, main_v48, main_v49, main_v50, main_v51, main_v52, main_cst_6, main_v53, main_v54, main_v55, main_v56, main_v57, main_v58, main_v59, main_v60, main_v61]
theorem ops2_keys : ops2_W.map key = [74, 75, 76, 77, 78, 79, 80, 81, 82, 83, 84, 85, 86, 87, 88, 89, 90, 91, 92, 93, 94] := rfl
theorem ops2_writes : (hostOps2 (F := Ideal)).Forall fun op => op.writes ⊆ (ops2_W.map (Proc.devRef (τ := τ) .tc)).toFinset := by
  simp only [hostOps2, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem ops2_keep (r : Ref sig .tc) (h : r ∉ ops2_W) : after (hostOps2 (F := Ideal)) U r = U r :=
  StableHlo.after_of_writes_sub _ _ ops2_writes h

abbrev ops3_W : List (Ref sig .tc) := [main_cst_7, main_v63, main_v64, main_cst_8, main_v65, main_v66, main_v67, main_v68, main_v69, main_v70, main_v71, main_cst_9, main_v72, main_v73, main_v74, main_v75, main_v76, main_v77, main_v78, main_v79, main_v80]
theorem ops3_keys : ops3_W.map key = [98, 99, 100, 101, 102, 103, 104, 105, 106, 107, 108, 109, 110, 111, 112, 113, 114, 115, 116, 117, 118] := rfl
theorem ops3_writes : (hostOps3 (F := Ideal)).Forall fun op => op.writes ⊆ (ops3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

theorem ops3_keep (r : Ref sig .tc) (h : r ∉ ops3_W) : after (hostOps3 (F := Ideal)) U r = U r :=
  StableHlo.after_of_writes_sub _ _ ops3_writes h

end Cert.KernelIdeal.Chain

end
-- ==== Proof.LibRowOps.lean ====
import Idealize.ShloMosaic.Lib.Pipeline.Value
import Idealize.ShloMosaic.Lib.ValueIdx
import Idealize.ShloMosaic.Lib.ValueLayout
import Idealize.ShloMosaic.PureOps.Ideal.Laws

noncomputable section

namespace Cert.LibRowOps

open Idealize.ShloMosaic Idealize.ShloMosaic.ValueIdx
open scoped BigOperators

variable {α : Type}

section Plain
variable {M K N : ℕ}

theorem plain_lhs_0 (i : (⟨2, ![M, N]⟩ : Shape).Idx) (q : (DotDims.plain M K N).contr.Idx) :
    ((DotDims.plain M K N).lhsIdx i q 0).val = (i 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.mpr rfl)]
  rfl

theorem plain_lhs_1 (i : (⟨2, ![M, N]⟩ : Shape).Idx) (q : (DotDims.plain M K N).contr.Idx) :
    ((DotDims.plain M K N).lhsIdx i q 1).val = (q ⟨0, Nat.one_pos⟩).val :=
  (DotDims.plain M K N).lhsIdx_val_of_single rfl i q

theorem plain_rhs_0 (i : (⟨2, ![M, N]⟩ : Shape).Idx) (q : (DotDims.plain M K N).contr.Idx) :
    ((DotDims.plain M K N).rhsIdx i q 0).val = (q ⟨0, Nat.one_pos⟩).val :=
  (DotDims.plain M K N).rhsIdx_val_of_single rfl i q

theorem plain_rhs_1 (i : (⟨2, ![M, N]⟩ : Shape).Idx) (q : (DotDims.plain M K N).contr.Idx) :
    ((DotDims.plain M K N).rhsIdx i q 1).val = (i 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.mpr rfl)]
  rfl

theorem plain_sum (l : (⟨2, ![M, K]⟩ : Shape).Idx → EReal) (r : (⟨2, ![K, N]⟩ : Shape).Idx → EReal) (p : Fin M) (j : Fin N) :
    ∑ k : (DotDims.plain M K N).contr.Idx, l ((DotDims.plain M K N).lhsIdx (ix2 p j) k) * r ((DotDims.plain M K N).rhsIdx (ix2 p j) k)
      = ∑ k : Fin K, l (ix2 p k) * r (ix2 k j) := by
  rw [← Equiv.sum_comp (contrEquiv1 (DotDims.plain M K N) K rfl rfl).symm]
  refine Finset.sum_congr rfl fun k _ => ?_
  have hk := contrEquiv1_symm_val (DotDims.plain M K N) K rfl rfl k
  have el : (DotDims.plain M K N).lhsIdx (ix2 p j) ((contrEquiv1 (DotDims.plain M K N) K rfl rfl).symm k) = ix2 p k :=
    funext fun a => Fin.ext (by
      match a with
      | ⟨0, _⟩ => exact plain_lhs_0 _ _
      | ⟨1, _⟩ => exact (plain_lhs_1 _ _).trans hk)
  have er : (DotDims.plain M K N).rhsIdx (ix2 p j) ((contrEquiv1 (DotDims.plain M K N) K rfl rfl).symm k) = ix2 k j :=
    funext fun a => Fin.ext (by
      match a with
      | ⟨0, _⟩ => exact (plain_rhs_0 _ _).trans hk
      | ⟨1, _⟩ => exact plain_rhs_1 _ _)
  rw [el, er]

theorem matmul_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    matmul d prec l r (constant ⟨2, ![M, N]⟩ .f32 0x00000000#32) (ix2 p j) = ∑ k : Fin K, l (ix2 p k) * r (ix2 k j) := by
  subst hd
  simp only [matmul]
  rw [Ideal.matmul_constant_zero_apply]
  exact plain_sum l r p j

theorem dotGeneral_plain_apply {φ₁ φ₂ : FTy} (d : DotDims ⟨2, ![M, K]⟩ ⟨2, ![K, N]⟩ ⟨2, ![M, N]⟩) (hd : d = DotDims.plain M K N)
    (prec : Option ContractPrecision) (l : FVec Ideal ⟨2, ![M, K]⟩ φ₁) (r : FVec Ideal ⟨2, ![K, N]⟩ φ₂) (p : Fin M) (j : Fin N) :
    Host.dotGeneral d prec l r (ix2 p j) = ∑ k : Fin K, l (ix2 p k) * r (ix2 k j) := by
  subst hd
  simp only [Host.dotGeneral]
  rw [Ideal.dotGeneral_apply]
  exact plain_sum l r p j

end Plain

theorem prod_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (p : Fin n) (j : Fin N) (x : Fin K → EReal)
    (hx : ∀ k, A (ix2 p k) = x k) :
    matmul d none A W (constant ⟨2, ![n, N]⟩ .f32 0x00000000#32) (ix2 p j) = ∑ k : Fin K, x k * W (ix2 k j) := by
  rw [matmul_plain_apply d hd]
  exact Finset.sum_congr rfl fun k _ => by rw [hx k]

end Cert.LibRowOps

end
-- ==== Proof.Region0.lean ====
import proofs.«108002_j23673859736037_1_alg».proof.Proof.Gen.KernelIdeal.Frame
import proofs.«108002_j23673859736037_1_alg».proof.Proof.Spec
import proofs.«108002_j23673859736037_1_alg».proof.Proof.LibRowOps
import Idealize.ShloMosaic.Lib.Pipeline.Value
import Idealize.ShloMosaic.Lib.ValueLayout
import Idealize.ShloMosaic.Lib.Tactic
import Idealize.ShloMosaic.PureOps.Ideal.Laws

set_option maxRecDepth 16384

noncomputable section

namespace Cert.KernelIdeal.Region0

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen
open scoped BigOperators

theorem hz : (![0, 0] : Fin 2 → Nat) = fun _ => 0 := funext fun a => by fin_cases a <;> rfl

section Pieces
variable {F : FTy → Type} [FloatOps F] {c : Dev nD} {i : grid0.Coords}
  {arg1 : Memref sig .tc .vmem S5000x128 .f32} {harg1 : arg1.IsWhole} {arg2 : Memref sig .tc .vmem S5000x128 .f32} {harg2 : arg2.IsWhole}
  {arg3 : Memref sig .tc .vmem S128x128 .f32} {harg3 : arg3.IsWhole} {arg4 : Memref sig .tc .vmem S1x128 .f32} {harg4 : arg4.IsWhole}
  {arg5 : Memref sig .tc .vmem S5000x128 .f32} {harg5 : arg5.IsWhole} {arg6 : Memref sig .tc .vmem S1x128 .f32} {harg6 : arg6.IsWhole}
  {arg7 : Memref sig .tc .vmem S1x128 .f32} {harg7 : arg7.IsWhole}
  (x0 x1 : Vec F S5000x128 .f32) (x2 : Vec F S128x128 .f32) (x3 xo5 xo6 : Vec F S1x128 .f32)

-- What each case of the body leaves in the three output blocks.
theorem out_A {hc0 : cond0_0 i} :
    (out0_A_4 c i arg1 harg1 arg2 harg2 arg3 harg3 arg4 harg4 arg5 harg5 arg6 harg6 arg7 harg7 hc0 x0 x1 x2 x3, out0_A_5 c i arg1 harg1 arg2 harg2 arg3 harg3 arg4 harg4 arg5 harg5 arg6 harg6 arg7 harg7 hc0 x0 x1 x2 x3, out0_A_6 c i arg1 harg1 arg2 harg2 arg3 harg3 arg4 harg4 arg5 harg5 arg6 harg6 arg7 harg7 hc0 x0 x1 x2 x3)
      = (k0_pay1 x0 x1 x2 x3, k0_pay4 x0 x1 x2 x3 (k0_pay2 (F := F)), k0_pay5 x0 x1 x2 x3 (k0_pay3 (F := F))) := by
  refine congrArg₂ Prod.mk ?_ (congrArg₂ Prod.mk ?_ ?_)
    <;> (first | unfold out0_A_4 | unfold out0_A_5 | unfold out0_A_6)
    <;> (first
      | rw [View.read_writes_eq_canon _ _ _ (cover0_A_4 c i arg1 harg1 arg2 harg2 arg3 harg3 arg4 harg4 arg5 harg5 arg6 harg6 arg7 harg7 hc0 x0 x1 x2 x3)]
      | rw [View.read_writes_eq_canon _ _ _ (cover0_A_5 c i arg1 harg1 arg2 harg2 arg3 harg3 arg4 harg4 arg5 harg5 arg6 harg6 arg7 harg7 hc0 x0 x1 x2 x3)]
      | rw [View.read_writes_eq_canon _ _ _ (cover0_A_6 c i arg1 harg1 arg2 harg2 arg3 harg3 arg4 harg4 arg5 harg5 arg6 harg6 arg7 harg7 hc0 x0 x1 x2 x3)])
    <;> unfold kernelRun0_A
    <;> dsimp only
    <;> sl_unfold_words
    <;> (first
      | rw [View.canon_unit_zero hz]
      | rw [View.canon_cons_unit_zero (S := S1x128) hz, View.readCov_unit_zero (S := S1x128) _ hz])
    <;> simp only [View.readAt_eq_ld, harg1.read_unread, harg2.read_unread, harg3.read_unread, harg4.read_unread, harg6.read_unread, harg7.read_unread, View.ld_unit_zero (S := S5000x128) hz, View.ld_unit_zero (S := S128x128) hz, View.ld_unit_zero (S := S1x128) hz]

theorem out_B {hc0 : ¬cond0_0 i} :
    (out0_B_4 c i arg1 harg1 arg2 harg2 arg3 harg3 arg4 harg4 arg5 harg5 arg6 harg6 arg7 harg7 hc0 x0 x1 x2 x3 xo5 xo6, out0_B_5 c i arg1 harg1 arg2 harg2 arg3 harg3 arg4 harg4 arg5 harg5 arg6 harg6 arg7 harg7 hc0 x0 x1 x2 x3 xo5 xo6, out0_B_6 c i arg1 harg1 arg2 harg2 arg3 harg3 arg4 harg4 arg5 harg5 arg6 harg6 arg7 harg7 hc0 x0 x1 x2 x3 xo5 xo6)
      = (k0_pay1 x0 x1 x2 x3, k0_pay4 x0 x1 x2 x3 xo5, k0_pay5 x0 x1 x2 x3 xo6) := by
  refine congrArg₂ Prod.mk ?_ (congrArg₂ Prod.mk ?_ ?_)
    <;> (first | unfold out0_B_4 | unfold out0_B_5 | unfold out0_B_6)
    <;> (first
      | rw [View.read_writes_eq_canon _ _ _ (cover0_B_4 c i arg1 harg1 arg2 harg2 arg3 harg3 arg4 harg4 arg5 harg5 arg6 harg6 arg7 harg7 hc0 x0 x1 x2 x3 xo5 xo6)]
      | rw [View.read_writes_eq_canon _ _ _ (cover0_B_5 c i arg1 harg1 arg2 harg2 arg3 harg3 arg4 harg4 arg5 harg5 arg6 harg6 arg7 harg7 hc0 x0 x1 x2 x3 xo5 xo6)]
      | rw [View.read_writes_eq_canon _ _ _ (cover0_B_6 c i arg1 harg1 arg2 harg2 arg3 harg3 arg4 harg4 arg5 harg5 arg6 harg6 arg7 harg7 hc0 x0 x1 x2 x3 xo5 xo6)])
    <;> unfold kernelRun0_B
    <;> dsimp only
    <;> sl_unfold_words
    <;> (first
      | rw [View.canon_unit_zero hz]
      | rw [View.canon_cons_unit_zero (S := S1x128) hz, View.readCov_unit_zero (S := S1x128) _ hz])
    <;> simp only [View.readAt_eq_ld, harg1.read_unread, harg2.read_unread, harg3.read_unread, harg4.read_unread, harg6.read_unread, harg7.read_unread, View.ld_unit_zero (S := S5000x128) hz, View.ld_unit_zero (S := S128x128) hz, View.ld_unit_zero (S := S1x128) hz]

end Pieces

section Sums
variable {M : Type} [AddCommMonoid M]

def ext0 {N : ℕ} (f : Fin N → M) (i : ℕ) : M := if h : i < N then f ⟨i, h⟩ else 0

theorem ext0_of_lt {N : ℕ} (f : Fin N → M) (i : ℕ) (h : i < N) : ext0 f i = f ⟨i, h⟩ := dif_pos h

theorem sum_ext0 {N : ℕ} (f : Fin N → M) : ∑ i ∈ Finset.range N, ext0 f i = ∑ p : Fin N, f p := by
  rw [Finset.sum_range]
  exact Finset.sum_congr rfl fun p _ => ext0_of_lt f p.val p.isLt

-- The rows before block `n + 1` are the rows before block `n` and then block `n`'s.
theorem acc_step (f : Fin 100000 → M) (n : ℕ) (hn : n < 20) (old : M) (blk : Fin 5000 → M)
    (hold : old = ∑ i ∈ Finset.range (5000 * n), ext0 f i)
    (hblk : ∀ r : Fin 5000, blk r = f ⟨5000 * n + r.val, by have := r.isLt; omega⟩) :
    old + ∑ r : Fin 5000, blk r = ∑ i ∈ Finset.range (5000 * (n + 1)), ext0 f i := by
  rw [Nat.mul_succ, Finset.sum_range_add, hold]
  refine congrArg _ ((Finset.sum_congr rfl fun r _ => ?_).trans (Finset.sum_range fun x => ext0 f (5000 * n + x)).symm)
  rw [hblk r]
  exact (ext0_of_lt f _ _).symm

end Sums

theorem dot_plain : dot_S5000x128_S128x128_S5000x128_1_0_0_1_n_n = DotDims.plain 5000 128 128 := rfl

-- Entry `(r, q)` of the block's affine map: row `r` of `x0 + x1` against column `q` of `w`, plus `b q`.
theorem pay1_apply (x0 x1 : Vec Ideal S5000x128 .f32) (w : Vec Ideal S128x128 .f32) (b : Vec Ideal S1x128 .f32)
    (r : Fin 5000) (q : Fin 128) :
    k0_pay1 x0 x1 w b (ix2 r q)
      = (∑ k : Fin 128, (x0 (ix2 r k) + x1 (ix2 r k)) * w (ix2 k q)) + b (ix2 0 q) := by
  unfold k0_pay1
  simp only [shapeCast_self]
  refine (congrArg₂ (· + ·) (Cert.LibRowOps.matmul_plain_apply _ dot_plain none _ _ r q)
    (broadcastTo_1b_ab_apply b _ r q)).trans ?_
  rfl

theorem pay2_apply (q : Fin 128) : (k0_pay2 (F := Ideal)) (ix2 0 q) = 0 := by
  unfold k0_pay2
  exact Ideal.ofBits_zero_f32

theorem pay3_apply (q : Fin 128) : (k0_pay3 (F := Ideal)) (ix2 0 q) = 0 := by
  unfold k0_pay3
  exact Ideal.ofBits_zero_f32

-- The sum over the row axis of a `[5000, 128]` block, recast `[1, 128]`, at column `q` is the sum of column `q`.
theorem colred_apply (src : FVec Ideal S5000x128 .f32) (h : S5000x128.Reduces [0] S128) (hφ : FKind.Formats FTy.f32)
    (hacc : (0x00000000#32 : BitVec 32) = 0x00000000#32) (hc : S128.ShapeCasts S1x128) (q : Fin 128) :
    shapeCast S1x128 (multiReduction (F := Ideal) .add [0] S128 src 0x00000000#32 h hφ hacc) hc (ix2 0 q)
      = ∑ r : Fin 5000, src (ix2 r q) := by
  refine (shapeCast_a_1a_apply _ hc 0 q).trans ?_
  refine (Ideal.multiReduction_add_single src 0x00000000#32 h hφ hacc (ix1 q)).trans ?_
  refine Finset.sum_congr rfl fun r _ => congrArg src ?_
  funext a
  match a with
  | ⟨0, _⟩ => rfl
  | ⟨1, _⟩ => rfl

theorem pay4_apply (x0 x1 : Vec Ideal S5000x128 .f32) (w : Vec Ideal S128x128 .f32) (b : Vec Ideal S1x128 .f32)
    (acc : Vec Ideal S1x128 .f32) (q : Fin 128) :
    k0_pay4 x0 x1 w b acc (ix2 0 q) = acc (ix2 0 q) + ∑ r : Fin 5000, k0_pay1 x0 x1 w b (ix2 r q) := by
  unfold k0_pay4
  simp only [shapeCast_self]
  exact congrArg (acc (ix2 0 q) + ·) (colred_apply _ _ _ _ _ q)

theorem pay5_apply (x0 x1 : Vec Ideal S5000x128 .f32) (w : Vec Ideal S128x128 .f32) (b : Vec Ideal S1x128 .f32)
    (acc : Vec Ideal S1x128 .f32) (q : Fin 128) :
    k0_pay5 x0 x1 w b acc (ix2 0 q)
      = acc (ix2 0 q) + ∑ r : Fin 5000, k0_pay1 x0 x1 w b (ix2 r q) * k0_pay1 x0 x1 w b (ix2 r q) := by
  unfold k0_pay5
  simp only [shapeCast_self]
  exact congrArg (acc (ix2 0 q) + ·) (colred_apply _ _ _ _ _ q)

-- Row `r` of the affine map of blocks that are rows `5000 t + ·` of `X`, `G`, all of `W` and `b`, is row `5000 t + r` of the arrays' affine map.
theorem lin_blk {N : ℕ} (X G : Cert.Spec.Arr) (W : Cert.Spec.Mat) (b : Cert.Spec.Row)
    (xb gb : Fin N → Vec Ideal S5000x128 .f32) (wb : Fin N → Vec Ideal S128x128 .f32) (bb : Fin N → Vec Ideal S1x128 .f32)
    (hx : ∀ (t : Fin N) (r : Fin 5000) (q : Fin 128) (p : Fin 100000), p.val = 5000 * t.val + r.val → xb t (ix2 r q) = X p q)
    (hg : ∀ (t : Fin N) (r : Fin 5000) (q : Fin 128) (p : Fin 100000), p.val = 5000 * t.val + r.val → gb t (ix2 r q) = G p q)
    (hw : ∀ (t : Fin N) (k q : Fin 128), wb t (ix2 k q) = W k q) (hb : ∀ (t : Fin N) (q : Fin 128), bb t (ix2 0 q) = b q)
    (t : Fin N) (r : Fin 5000) (q : Fin 128) (p : Fin 100000) (hp : p.val = 5000 * t.val + r.val) :
    k0_pay1 (xb t) (gb t) (wb t) (bb t) (ix2 r q) = Cert.Spec.lin (Cert.Spec.add X G) W b p q := by
  refine (pay1_apply (xb t) (gb t) (wb t) (bb t) r q).trans ?_
  show _ = (∑ k : Fin 128, (X p k + G p k) * W k q) + b q
  refine congrArg₂ (· + ·) (Finset.sum_congr rfl fun k _ => ?_) (hb t q)
  exact congrArg₂ (· * ·) (congrArg₂ (· + ·) (hx t r k p hp) (hg t r k p hp)) (hw t k q)

section Run
variable {N : ℕ} (hN : N = 20)
  (xb gb : Fin N → Vec Ideal S5000x128 .f32) (wb : Fin N → Vec Ideal S128x128 .f32) (bb : Fin N → Vec Ideal S1x128 .f32)
  (o : (n : ℕ) → n < N → Vec Ideal S5000x128 .f32 × Vec Ideal S1x128 .f32 × Vec Ideal S1x128 .f32)
  (hA : ∀ t : Fin N, t.val % 20 = 0 → o t.val t.isLt = (k0_pay1 (xb t) (gb t) (wb t) (bb t),
    k0_pay4 (xb t) (gb t) (wb t) (bb t) (k0_pay2 (F := Ideal)), k0_pay5 (xb t) (gb t) (wb t) (bb t) (k0_pay3 (F := Ideal))))
  (hB : ∀ t : Fin N, ¬t.val % 20 = 0 → o t.val t.isLt = (k0_pay1 (xb t) (gb t) (wb t) (bb t),
    k0_pay4 (xb t) (gb t) (wb t) (bb t) (o (t.val - 1) (Nat.lt_of_le_of_lt (Nat.sub_le _ _) t.isLt)).2.1,
    k0_pay5 (xb t) (gb t) (wb t) (bb t) (o (t.val - 1) (Nat.lt_of_le_of_lt (Nat.sub_le _ _) t.isLt)).2.2))
  (A : Cert.Spec.Arr)
  (hl : ∀ (t : Fin N) (r : Fin 5000) (q : Fin 128) (p : Fin 100000), p.val = 5000 * t.val + r.val →
    k0_pay1 (xb t) (gb t) (wb t) (bb t) (ix2 r q) = A p q)

include hN hA hB hl in
-- By induction on the point: the two running rows hold the column sums of `A`, and of its squares, over the rows of the blocks so far.
theorem run_acc : ∀ (n : ℕ) (h : n < N) (q : Fin 128),
    (o n h).2.1 (ix2 0 q) = ∑ i ∈ Finset.range (5000 * (n + 1)), ext0 (fun p : Fin 100000 => A p q) i
    ∧ (o n h).2.2 (ix2 0 q) = ∑ i ∈ Finset.range (5000 * (n + 1)), ext0 (fun p : Fin 100000 => A p q * A p q) i
  | 0, h, q => by
    rw [hA ⟨0, h⟩ rfl]
    dsimp only
    exact ⟨(pay4_apply _ _ _ _ _ q).trans (acc_step (fun p : Fin 100000 => A p q) 0 (by omega) _ _
        ((pay2_apply q).trans (by simp)) fun r => hl ⟨0, h⟩ r q _ rfl),
      (pay5_apply _ _ _ _ _ q).trans (acc_step (fun p : Fin 100000 => A p q * A p q) 0 (by omega) _ _
        ((pay3_apply q).trans (by simp)) fun r => congrArg₂ (· * ·) (hl ⟨0, h⟩ r q _ rfl) (hl ⟨0, h⟩ r q _ rfl))⟩
  | n + 1, h, q => by
    have ih := run_acc n (Nat.lt_of_succ_lt h) q
    rw [hB ⟨n + 1, h⟩ (by dsimp only; omega)]
    dsimp only
    exact ⟨(pay4_apply _ _ _ _ _ q).trans (acc_step (fun p : Fin 100000 => A p q) (n + 1) (by omega) _ _
        ih.1 fun r => hl ⟨n + 1, h⟩ r q _ rfl),
      (pay5_apply _ _ _ _ _ q).trans (acc_step (fun p : Fin 100000 => A p q * A p q) (n + 1) (by omega) _ _
        ih.2 fun r => congrArg₂ (· * ·) (hl ⟨n + 1, h⟩ r q _ rfl) (hl ⟨n + 1, h⟩ r q _ rfl))⟩

include hN hA hB hl in
-- What point `t` leaves: its row block of `A`; and after the last point, the column sums over all `100000 = 20 · 5000` rows.
theorem run_vals (t : Fin N) :
    (∀ (r : Fin 5000) (q : Fin 128) (p : Fin 100000), p.val = 5000 * t.val + r.val → (o t.val t.isLt).1 (ix2 r q) = A p q)
    ∧ (t.val = 19 → ∀ q : Fin 128, (o t.val t.isLt).2.1 (ix2 0 q) = Cert.Spec.colsum A q
        ∧ (o t.val t.isLt).2.2 (ix2 0 q) = Cert.Spec.colsumsq A q) := by
  refine ⟨fun r q p hp => ?_, fun h19 q => ?_⟩
  · have e : (o t.val t.isLt).1 = k0_pay1 (xb t) (gb t) (wb t) (bb t) :=
      (em (t.val % 20 = 0)).elim (fun h0 => congrArg Prod.fst (hA t h0)) fun h0 => congrArg Prod.fst (hB t h0)
    exact (congrFun e (ix2 r q)).trans (hl t r q p hp)
  · obtain ⟨h1, h2⟩ := run_acc hN xb gb wb bb o hA hB A hl t.val t.isLt q
    have e : 5000 * (t.val + 1) = 100000 := by omega
    rw [e] at h1 h2
    exact ⟨h1.trans (sum_ext0 _), h2.trans (sum_ext0 _)⟩

end Run

theorem idx_facts : ∀ t : Fin grid0.N,
    (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0) := by decide +kernel

section Blocks
variable (t : Fin cfg0.N)

-- Row `r` of block `t` of a row-blocked window sits at row `5000 t + r` of its array.
theorem emb0 (r : Fin 5000) (q : Fin 128) (p : Fin 100000) (hp : p.val = 5000 * t.val + r.val) :
    (((cfg0.win 0).blk t).view.emb (ix2 r q) : S100000x128.Idx) = ix2 p q := by
  obtain ⟨⟨e0, e1⟩, -⟩ := idx_facts t
  refine funext fun a => Fin.ext ?_
  match a with
  | ⟨0, _⟩ => show win0_0.index t (0 : Fin 2) * 5000 + 1 * r.val = p.val; rw [e0, hp]; omega
  | ⟨1, _⟩ => show win0_0.index t (1 : Fin 2) * 128 + 1 * q.val = q.val; rw [e1]; omega

theorem emb1 (r : Fin 5000) (q : Fin 128) (p : Fin 100000) (hp : p.val = 5000 * t.val + r.val) :
    (((cfg0.win 1).blk t).view.emb (ix2 r q) : S100000x128.Idx) = ix2 p q := by
  obtain ⟨-, ⟨e0, e1⟩, -⟩ := idx_facts t
  refine funext fun a => Fin.ext ?_
  match a with
  | ⟨0, _⟩ => show win0_1.index t (0 : Fin 2) * 5000 + 1 * r.val = p.val; rw [e0, hp]; omega
  | ⟨1, _⟩ => show win0_1.index t (1 : Fin 2) * 128 + 1 * q.val = q.val; rw [e1]; omega

theorem emb4 (r : Fin 5000) (q : Fin 128) (p : Fin 100000) (hp : p.val = 5000 * t.val + r.val) :
    (((cfg0.win 4).blk t).view.emb (ix2 r q) : S100000x128.Idx) = ix2 p q := by
  obtain ⟨-, -, -, -, ⟨e0, e1⟩, -⟩ := idx_facts t
  refine funext fun a => Fin.ext ?_
  match a with
  | ⟨0, _⟩ => show win0_4.index t (0 : Fin 2) * 5000 + 1 * r.val = p.val; rw [e0, hp]; omega
  | ⟨1, _⟩ => show win0_4.index t (1 : Fin 2) * 128 + 1 * q.val = q.val; rw [e1]; omega

-- A window with one block: the block is the whole array.
theorem emb2 (k q : Fin 128) : (((cfg0.win 2).blk t).view.emb (ix2 k q) : S128x128.Idx) = ix2 k q := by
  obtain ⟨-, -, ⟨e0, e1⟩, -⟩ := idx_facts t
  refine funext fun a => Fin.ext ?_
  match a with
  | ⟨0, _⟩ => show win0_2.index t (0 : Fin 2) * 128 + 1 * k.val = k.val; rw [e0]; omega
  | ⟨1, _⟩ => show win0_2.index t (1 : Fin 2) * 128 + 1 * q.val = q.val; rw [e1]; omega

theorem emb3 (q : Fin 128) : (((cfg0.win 3).blk t).view.emb (ix2 0 q) : S1x128.Idx) = ix2 0 q := by
  obtain ⟨-, -, -, ⟨e0, e1⟩, -⟩ := idx_facts t
  refine funext fun a => Fin.ext ?_
  match a with
  | ⟨0, _⟩ => show win0_3.index t (0 : Fin 2) * 1 + 1 * 0 = 0; rw [e0]
  | ⟨1, _⟩ => show win0_3.index t (1 : Fin 2) * 128 + 1 * q.val = q.val; rw [e1]; omega

theorem emb5 (q : Fin 128) : (((cfg0.win 5).blk t).view.emb (ix2 0 q) : S1x128.Idx) = ix2 0 q := by
  obtain ⟨-, -, -, -, -, ⟨e0, e1⟩, -⟩ := idx_facts t
  refine funext fun a => Fin.ext ?_
  match a with
  | ⟨0, _⟩ => show win0_5.index t (0 : Fin 2) * 1 + 1 * 0 = 0; rw [e0]
  | ⟨1, _⟩ => show win0_5.index t (1 : Fin 2) * 128 + 1 * q.val = q.val; rw [e1]; omega

theorem emb6 (q : Fin 128) : (((cfg0.win 6).blk t).view.emb (ix2 0 q) : S1x128.Idx) = ix2 0 q := by
  obtain ⟨-, -, -, -, -, -, ⟨e0, e1⟩⟩ := idx_facts t
  refine funext fun a => Fin.ext ?_
  match a with
  | ⟨0, _⟩ => show win0_6.index t (0 : Fin 2) * 1 + 1 * 0 = 0; rw [e0]
  | ⟨1, _⟩ => show win0_6.index t (1 : Fin 2) * 128 + 1 * q.val = q.val; rw [e1]; omega

-- A block whose rows are rows `5000 t + ·` of `A` is block `t` of `A`.
theorem cut4 (A : S100000x128.Idx → EReal) (y : Vec Ideal S5000x128 .f32)
    (hy : ∀ (r : Fin 5000) (q : Fin 128) (p : Fin 100000), p.val = 5000 * t.val + r.val → y (ix2 r q) = A (ix2 p q)) :
    (cfg0.win 4).cut (grid0.coords t) y = ((cfg0.win 4).blk t).view.read (Elt Ideal) A := by
  have hN : t.val < 20 := lt_of_lt_of_eq t.isLt (show cfg0.N = 20 from N_0)
  funext j
  obtain ⟨r, q, rfl⟩ : ∃ (r : Fin 5000) (q : Fin 128), j = ix2 r q := ⟨j 0, j 1, eq_ix2 j⟩
  exact (hy r q ⟨5000 * t.val + r.val, by have := r.isLt; omega⟩ rfl).trans (congrArg A (emb4 t r q _ rfl)).symm

theorem cut5 (R : S1x128.Idx → EReal) (y : Vec Ideal S1x128 .f32) (hy : ∀ q : Fin 128, y (ix2 0 q) = R (ix2 0 q)) :
    (cfg0.win 5).cut (grid0.coords t) y = ((cfg0.win 5).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb5 t q)).symm

theorem cut6 (R : S1x128.Idx → EReal) (y : Vec Ideal S1x128 .f32) (hy : ∀ q : Fin 128, y (ix2 0 q) = R (ix2 0 q)) :
    (cfg0.win 6).cut (grid0.coords t) y = ((cfg0.win 6).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb6 t q)).symm

end Blocks

-- Row `p` is in block `p / 5000`: the twenty row blocks cover the array.
theorem cover4 (i : S100000x128.Idx) :
    ∃ t : Fin cfg0.N, (cfg0.win 4).flush t = true ∧ i ∈ ((cfg0.win 4).blk t).view.set := by
  obtain ⟨p, q, rfl⟩ : ∃ (p : Fin 100000) (q : Fin 128), i = ix2 p q := ⟨i 0, i 1, eq_ix2 i⟩
  have hp := p.isLt
  have hN : cfg0.N = 20 := N_0
  obtain ⟨t, ht⟩ : ∃ t : Fin cfg0.N, t.val = p.val / 5000 := ⟨⟨p.val / 5000, by omega⟩, rfl⟩
  refine ⟨t, flush0_4 t, ?_⟩
  rw [← emb4 t ⟨p.val % 5000, Nat.mod_lt _ (by omega)⟩ q p (by dsimp only; omega)]
  exact View.emb_mem_set _ _

-- The one block of a statistics row is the whole row.
theorem cover5 (i : S1x128.Idx) :
    ∃ t : Fin cfg0.N, (cfg0.win 5).flush t = true ∧ i ∈ ((cfg0.win 5).blk t).view.set := by
  obtain ⟨u, q, rfl⟩ : ∃ (u : Fin 1) (q : Fin 128), i = ix2 u q := ⟨i 0, i 1, eq_ix2 i⟩
  obtain rfl : u = 0 := Subsingleton.elim _ _
  have hN : cfg0.N = 20 := N_0
  obtain ⟨t, ht⟩ : ∃ t : Fin cfg0.N, t.val = 19 := ⟨⟨19, by omega⟩, rfl⟩
  refine ⟨t, (flush0_5 t).mpr (by omega), ?_⟩
  rw [← emb5 t q]
  exact View.emb_mem_set _ _

theorem cover6 (i : S1x128.Idx) :
    ∃ t : Fin cfg0.N, (cfg0.win 6).flush t = true ∧ i ∈ ((cfg0.win 6).blk t).view.set := by
  obtain ⟨u, q, rfl⟩ : ∃ (u : Fin 1) (q : Fin 128), i = ix2 u q := ⟨i 0, i 1, eq_ix2 i⟩
  obtain rfl : u = 0 := Subsingleton.elim _ _
  have hN : cfg0.N = 20 := N_0
  obtain ⟨t, ht⟩ : ∃ t : Fin cfg0.N, t.val = 19 := ⟨⟨19, by omega⟩, rfl⟩
  refine ⟨t, (flush0_6 t).mpr (by omega), ?_⟩
  rw [← emb6 t q]
  exact View.emb_mem_set _ _

variable (V : (c : Dev nD) → (b : Ref sig .tc) → Buf (Elt Ideal) ((c : Thread nD τ).loc b))

abbrev a (c : Dev nD) : Cert.Spec.Arr :=
  Cert.Spec.lin (Cert.Spec.add (Cert.Spec.curA (V c (Pipeline.arrRef spec0 0))) (Cert.Spec.curA (V c (Pipeline.arrRef spec0 1))))
    (Cert.Spec.curM (V c (Pipeline.arrRef spec0 2))) (Cert.Spec.curRow (V c (Pipeline.arrRef spec0 3)))

-- The step equations of this region's points, and its input blocks as blocks of the arrays.
theorem vals (c : Dev nD) (t : Fin cfg0.N) :
    (∀ (r : Fin 5000) (q : Fin 128) (p : Fin 100000), p.val = 5000 * t.val + r.val →
        (outsAt0 V c t.val t.isLt).1 (ix2 r q) = a V c p q)
    ∧ (t.val = 19 → ∀ q : Fin 128, (outsAt0 V c t.val t.isLt).2.1 (ix2 0 q) = Cert.Spec.colsum (a V c) q
        ∧ (outsAt0 V c t.val t.isLt).2.2 (ix2 0 q) = Cert.Spec.colsumsq (a V c) q) :=
  run_vals N_0 (iblk0 V c 0) (iblk0 V c 1) (iblk0 V c 2) (iblk0 V c 3) (outsAt0 V c)
    (fun t h0 => (outsAt0_A V c t h0).trans (out_A _ _ _ _))
    (fun t h0 => (outsAt0_B V c t h0).trans (out_B _ _ _ _ _ _))
    (a V c)
    (lin_blk _ _ _ _ _ _ _ _ (fun t r q p hp => congrArg (V c (Pipeline.arrRef spec0 0)) (emb0 t r q p hp)) (fun t r q p hp => congrArg (V c (Pipeline.arrRef spec0 1)) (emb1 t r q p hp))
      (fun t k q => congrArg (V c (Pipeline.arrRef spec0 2)) (emb2 t k q)) fun t q => congrArg (V c (Pipeline.arrRef spec0 3)) (emb3 t q)) t

theorem out_eq (c : Dev nD) (p : Fin 100000) (q : Fin 128) :
    (dat0 (F := Ideal) V c).arrAt 4 cfg0.N (ix2 p q) = a V c p q :=
  congrFun ((dat0 V c).arrAt_eq_of_cover 4 (fun i : S100000x128.Idx => a V c (i 0) (i 1))
    (fun t _ => cut4 t _ _ (vals V c t).1) cover4) (ix2 p q)

theorem sum_eq (c : Dev nD) (q : Fin 128) :
    (dat0 (F := Ideal) V c).arrAt 5 cfg0.N (ix2 0 q) = Cert.Spec.colsum (a V c) q :=
  congrFun ((dat0 V c).arrAt_eq_of_cover 5 (fun i : S1x128.Idx => Cert.Spec.colsum (a V c) (i 1))
    (fun t hf => cut5 t _ _ fun q => ((vals V c t).2 (by have := (flush0_5 t).mp hf; have := lt_of_lt_of_eq t.isLt (show cfg0.N = 20 from N_0); omega) q).1) cover5) (ix2 0 q)

theorem sumsq_eq (c : Dev nD) (q : Fin 128) :
    (dat0 (F := Ideal) V c).arrAt 6 cfg0.N (ix2 0 q) = Cert.Spec.colsumsq (a V c) q :=
  congrFun ((dat0 V c).arrAt_eq_of_cover 6 (fun i : S1x128.Idx => Cert.Spec.colsumsq (a V c) (i 1))
    (fun t hf => cut6 t _ _ fun q => ((vals V c t).2 (by have := (flush0_6 t).mp hf; have := lt_of_lt_of_eq t.isLt (show cfg0.N = 20 from N_0); omega) q).2) cover6) (ix2 0 q)

end Cert.KernelIdeal.Region0

end
-- ==== Proof.RowBlocks.lean ====
import Mathlib.Algebra.BigOperators.Fin
import Mathlib.Algebra.BigOperators.Group.Finset.Basic
import Mathlib.Logic.Equiv.Fin.Basic
import Mathlib.Tactic.NormNum

namespace Cert.RowBlocks

open scoped BigOperators

abbrev row (t : Fin 20) (r : Fin 5000) : Fin 100000 := ⟨5000 * t.val + r.val, by have := t.isLt; have := r.isLt; omega⟩

def blockEquiv : Fin 20 × Fin 5000 ≃ Fin 100000 :=
  finProdFinEquiv.trans (finCongr (by norm_num))

theorem blockEquiv_val (t : Fin 20) (r : Fin 5000) : (blockEquiv (t, r)).val = r.val + 5000 * t.val := rfl

-- Twenty blocks of 5000 rows are all the rows once each, so a sum over the rows is the sum of the blocks' sums.
theorem sum_blocks {M : Type*} [AddCommMonoid M] (f : Fin 100000 → M) :
    ∑ p : Fin 100000, f p = ∑ t : Fin 20, ∑ r : Fin 5000, f (row t r) := by
  rw [← Equiv.sum_comp blockEquiv f, Fintype.sum_prod_type]
  refine Finset.sum_congr rfl fun t _ => Finset.sum_congr rfl fun r _ => congrArg f (Fin.ext ?_)
  rw [blockEquiv_val]
  show r.val + 5000 * t.val = 5000 * t.val + r.val
  omega

def bsum {M : Type*} [AddCommMonoid M] (f : Fin 100000 → M) (s : ℕ) : M :=
  if h : s < 20 then ∑ r : Fin 5000, f (row ⟨s, h⟩ r) else 0

theorem sum_range_bsum {M : Type*} [AddCommMonoid M] (f : Fin 100000 → M) :
    ∑ s ∈ Finset.range 20, bsum f s = ∑ p : Fin 100000, f p := by
  rw [sum_blocks f, ← Fin.sum_univ_eq_sum_range (fun s => bsum f s) 20]
  refine Finset.sum_congr rfl fun t _ => ?_
  unfold bsum
  rw [dif_pos t.isLt]

end Cert.RowBlocks
-- ==== Proof.Region1.lean ====
import proofs.«108002_j23673859736037_1_alg».proof.Proof.Gen.KernelIdeal.Frame
import proofs.«108002_j23673859736037_1_alg».proof.Proof.Spec
import proofs.«108002_j23673859736037_1_alg».proof.Proof.LibRowOps
import proofs.«108002_j23673859736037_1_alg».proof.Proof.RowBlocks
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Region1

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen Cert.RowBlocks
open scoped BigOperators

theorem dot_plain : dot_S5000x128_S128x128_S5000x128_1_0_0_1_n_n = DotDims.plain 5000 128 128 := rfl

-- Entry by entry: broadcast rows, a product with the plain dimension record, a bias row.
theorem pay2_apply (x0 : Vec Ideal S5000x128 .f32) (x1 x2 : Vec Ideal S1x128 .f32) (x3 : Vec Ideal S128x128 .f32)
    (x4 : Vec Ideal S1x128 .f32) (r : Fin 5000) (q : Fin 128) :
    k1_pay2 x0 x1 x2 x3 x4 (ix2 r q)
      = (∑ k : Fin 128, max (x0 (ix2 r k) * x1 (ix2 0 k) + x2 (ix2 0 k)) 0 * x3 (ix2 k q)) + x4 (ix2 0 q) := by
  unfold k1_pay2
  simp only [shapeCast_self]
  refine (addf_apply _ _ (ix2 r q)).trans ?_
  rw [broadcastTo_1b_ab_apply]
  refine congrArg (· + x4 (ix2 0 q)) ?_
  refine (Cert.LibRowOps.prod_apply _ dot_plain _ _ r q
    (fun k => max (x0 (ix2 r k) * x1 (ix2 0 k) + x2 (ix2 0 k)) 0) (fun k => ?_)).trans ?_
  · show max (x0 (ix2 r k) * broadcastTo S5000x128 x1 broadcasts_S1x128_S5000x128 (ix2 r k)
        + broadcastTo S5000x128 x2 broadcasts_S1x128_S5000x128 (ix2 r k)) (Ideal.ofBits .f32 0#32) = _
    rw [broadcastTo_1b_ab_apply, broadcastTo_1b_ab_apply]
    exact congrArg (max _) Ideal.ofBits_zero_f32
  · rfl

-- A reduction over the row axis is the sum down each column.
theorem colred_apply (v : FVec Ideal S5000x128 .f32) (q : Fin 128) :
    shapeCast S1x128 (multiReduction .add [0] S128 v 0x00000000#32 reduces_S5000x128_S128 (.inl rfl) rfl) shapeCasts_S128_S1x128
        (ix2 0 q) = ∑ r : Fin 5000, v (ix2 r q) := by
  rw [shapeCast_a_1a_apply]
  refine (Ideal.multiReduction_add_single v _ reduces_S5000x128_S128 (.inl rfl) rfl (ix1 q)).trans ?_
  show ∑ k : Fin 5000, v (reduces_S5000x128_S128.lift (ix1 q) k) = _
  refine Finset.sum_congr rfl fun k _ => congrArg v ?_
  funext a
  apply Fin.ext
  match a with
  | ⟨0, _⟩ => rfl
  | ⟨1, _⟩ => rfl

theorem pay6_apply (x0 : Vec Ideal S5000x128 .f32) (x1 x2 : Vec Ideal S1x128 .f32) (x3 : Vec Ideal S128x128 .f32)
    (x4 : Vec Ideal S1x128 .f32) (acc : Vec Ideal S1x128 .f32) (q : Fin 128) :
    k1_pay6 x0 x1 x2 x3 x4 acc (ix2 0 q) = acc (ix2 0 q) + ∑ r : Fin 5000, k1_pay2 x0 x1 x2 x3 x4 (ix2 r q) := by
  unfold k1_pay6
  simp only [shapeCast_self]
  refine (addf_apply _ _ (ix2 0 q)).trans ?_
  rw [colred_apply]

theorem pay3_apply (x0 : Vec Ideal S5000x128 .f32) (x1 x2 : Vec Ideal S1x128 .f32) (x3 : Vec Ideal S128x128 .f32)
    (x4 : Vec Ideal S1x128 .f32) (q : Fin 128) :
    k1_pay3 x0 x1 x2 x3 x4 (ix2 0 q)
      = ∑ r : Fin 5000, k1_pay2 x0 x1 x2 x3 x4 (ix2 r q) * k1_pay2 x0 x1 x2 x3 x4 (ix2 r q) := by
  unfold k1_pay3
  dsimp only
  rw [colred_apply]
  rfl

theorem pay1_apply (v26 : FVec Ideal S1x128 .f32) (acc : Vec Ideal S1x128 .f32) (q : Fin 128) :
    k1_pay1 v26 acc (ix2 0 q) = acc (ix2 0 q) + v26 (ix2 0 q) := by
  unfold k1_pay1
  simp only [shapeCast_self]
  rfl

theorem pay4_apply (q : Fin 128) : (k1_pay4 (F := Ideal)) (ix2 0 q) = 0 := Ideal.ofBits_zero_f32
theorem pay5_apply (q : Fin 128) : (k1_pay5 (F := Ideal)) (ix2 0 q) = 0 := Ideal.ofBits_zero_f32

theorem hz : (![0, 0] : Fin 2 → Nat) = fun _ => 0 := funext fun a => by fin_cases a <;> rfl

-- What one grid point leaves in the three outputs: the first point from zeroed sums, a later one from the sums `p` before it.
abbrev stepA (x0 : Vec Ideal S5000x128 .f32) (x1 x2 : Vec Ideal S1x128 .f32) (x3 : Vec Ideal S128x128 .f32)
    (x4 : Vec Ideal S1x128 .f32) : Vec Ideal S5000x128 .f32 × Vec Ideal S1x128 .f32 × Vec Ideal S1x128 .f32 :=
  (k1_pay2 x0 x1 x2 x3 x4, k1_pay6 x0 x1 x2 x3 x4 (k1_pay4 (F := Ideal)), k1_pay1 (k1_pay3 x0 x1 x2 x3 x4) (k1_pay5 (F := Ideal)))
abbrev stepB (x0 : Vec Ideal S5000x128 .f32) (x1 x2 : Vec Ideal S1x128 .f32) (x3 : Vec Ideal S128x128 .f32)
    (x4 : Vec Ideal S1x128 .f32) (p : Vec Ideal S5000x128 .f32 × Vec Ideal S1x128 .f32 × Vec Ideal S1x128 .f32) :
    Vec Ideal S5000x128 .f32 × Vec Ideal S1x128 .f32 × Vec Ideal S1x128 .f32 :=
  (k1_pay2 x0 x1 x2 x3 x4, k1_pay6 x0 x1 x2 x3 x4 p.2.1, k1_pay1 (k1_pay3 x0 x1 x2 x3 x4) p.2.2)

section Core

variable {N : ℕ} (hN : N = 20)
  (A0 : S100000x128.Idx → EReal) (A1 A2 : S1x128.Idx → EReal) (A3 : S128x128.Idx → EReal) (A4 : S1x128.Idx → EReal)
  (x0 : Fin N → Vec Ideal S5000x128 .f32) (x1 x2 : Fin N → Vec Ideal S1x128 .f32)
  (x3 : Fin N → Vec Ideal S128x128 .f32) (x4 : Fin N → Vec Ideal S1x128 .f32)
  (o : (n : ℕ) → n < N → Vec Ideal S5000x128 .f32 × Vec Ideal S1x128 .f32 × Vec Ideal S1x128 .f32)
  (h0 : ∀ t r k, x0 t (ix2 r k) = A0 (ix2 (row (t.cast hN) r) k))
  (h1 : ∀ t k, x1 t (ix2 0 k) = A1 (ix2 0 k)) (h2 : ∀ t k, x2 t (ix2 0 k) = A2 (ix2 0 k))
  (h3 : ∀ t k q, x3 t (ix2 k q) = A3 (ix2 k q)) (h4 : ∀ t k, x4 t (ix2 0 k) = A4 (ix2 0 k))
  (hA : ∀ t : Fin N, t.val % 20 = 0 → o t.val t.isLt = stepA (x0 t) (x1 t) (x2 t) (x3 t) (x4 t))
  (hB : ∀ t : Fin N, ¬t.val % 20 = 0 → o t.val t.isLt
    = stepB (x0 t) (x1 t) (x2 t) (x3 t) (x4 t) (o (t.val - 1) (Nat.lt_of_le_of_lt (Nat.sub_le _ _) t.isLt)))

-- The specification's array from five arrays: rectified affine image of the features, through the affine map.
abbrev aOf : Cert.Spec.Arr :=
  Cert.Spec.lin (Cert.Spec.affRelu (Cert.Spec.curA A0) (Cert.Spec.curRow A1) (Cert.Spec.curRow A2)) (Cert.Spec.curM A3)
    (Cert.Spec.curRow A4)

-- What a run's outputs hold: at every point its block's rows of `a`, at the last point the column sums and sums of squares.
abbrev Vals (a : Cert.Spec.Arr) : Prop :=
  (∀ (t : Fin N) (r : Fin 5000) (q : Fin 128), (o t.val t.isLt).1 (ix2 r q) = a (row (t.cast hN) r) q)
    ∧ ∀ (t : Fin N) (q : Fin 128), t.val = 19 →
      (o t.val t.isLt).2.1 (ix2 0 q) = Cert.Spec.colsum a q ∧ (o t.val t.isLt).2.2 (ix2 0 q) = Cert.Spec.colsumsq a q

include h0 h1 h2 h3 h4

-- Row `r` of the block computed at point `t` is row `5000 t + r` of the array: the blocks are read entry by entry.
theorem lin_row (t : Fin N) (r : Fin 5000) (q : Fin 128) :
    k1_pay2 (x0 t) (x1 t) (x2 t) (x3 t) (x4 t) (ix2 r q) = aOf A0 A1 A2 A3 A4 (row (t.cast hN) r) q := by
  refine (pay2_apply (x0 t) (x1 t) (x2 t) (x3 t) (x4 t) r q).trans ?_
  show _ = (∑ k : Fin 128, max (A0 (ix2 (row (t.cast hN) r) k) * A1 (ix2 0 k) + A2 (ix2 0 k)) 0 * A3 (ix2 k q)) + A4 (ix2 0 q)
  rw [h4 t q]
  refine congrArg (· + A4 (ix2 0 q)) (Finset.sum_congr rfl fun k _ => ?_)
  rw [h0 t r k, h1 t k, h2 t k, h3 t k q]

-- Summing any function of the block's entries down a column sums it over the block's rows of the array.
theorem blk_sum (g : EReal → EReal) (t : Fin N) (q : Fin 128) :
    ∑ r : Fin 5000, g (k1_pay2 (x0 t) (x1 t) (x2 t) (x3 t) (x4 t) (ix2 r q))
      = bsum (fun p => g (aOf A0 A1 A2 A3 A4 p q)) t.val := by
  have ht : t.val < 20 := lt_of_lt_of_eq t.isLt hN
  unfold bsum
  rw [dif_pos ht]
  exact Finset.sum_congr rfl fun r _ => congrArg g (lin_row hN A0 A1 A2 A3 A4 x0 x1 x2 x3 x4 h0 h1 h2 h3 h4 t r q)

include hA hB

-- By induction on the point: the first point starts from zero, every later one adds its block to what was there.
theorem sums_inv (q : Fin 128) : ∀ (n : ℕ) (h : n < N),
    (o n h).2.1 (ix2 0 q) = ∑ s ∈ Finset.range (n + 1), bsum (fun p => aOf A0 A1 A2 A3 A4 p q) s
      ∧ (o n h).2.2 (ix2 0 q)
        = ∑ s ∈ Finset.range (n + 1), bsum (fun p => aOf A0 A1 A2 A3 A4 p q * aOf A0 A1 A2 A3 A4 p q) s
  | 0, h => by
    rw [hA ⟨0, h⟩ (Nat.zero_mod 20)]
    dsimp only [stepA, stepB]
    rw [Finset.sum_range_one, Finset.sum_range_one, pay6_apply, pay1_apply, pay3_apply, pay4_apply, pay5_apply,
      zero_add, zero_add]
    exact ⟨blk_sum hN A0 A1 A2 A3 A4 x0 x1 x2 x3 x4 h0 h1 h2 h3 h4 (fun v => v) ⟨0, h⟩ q,
      blk_sum hN A0 A1 A2 A3 A4 x0 x1 x2 x3 x4 h0 h1 h2 h3 h4 (fun v => v * v) ⟨0, h⟩ q⟩
  | n + 1, h => by
    have hB' : ¬(⟨n + 1, h⟩ : Fin N).val % 20 = 0 := by dsimp only; omega
    obtain ⟨ih1, ih2⟩ := sums_inv q n (Nat.lt_of_succ_lt h)
    rw [hB ⟨n + 1, h⟩ hB']
    dsimp only [stepA, stepB]
    rw [Finset.sum_range_succ _ (n + 1), Finset.sum_range_succ _ (n + 1), pay6_apply, pay1_apply, pay3_apply]
    constructor
    · show (o n _).2.1 (ix2 0 q) + _ = _
      rw [ih1]
      exact congrArg _ (blk_sum hN A0 A1 A2 A3 A4 x0 x1 x2 x3 x4 h0 h1 h2 h3 h4 (fun v => v) ⟨n + 1, h⟩ q)
    · show (o n _).2.2 (ix2 0 q) + _ = _
      rw [ih2]
      exact congrArg _ (blk_sum hN A0 A1 A2 A3 A4 x0 x1 x2 x3 x4 h0 h1 h2 h3 h4 (fun v => v * v) ⟨n + 1, h⟩ q)

-- Every point stores its block's rows of the array; the last point holds the sums over all rows, the blocks tiling them.
theorem core : Vals hN o (aOf A0 A1 A2 A3 A4) := by
  refine ⟨fun t r q => ?_, fun t q ht => ?_⟩
  · have e : (o t.val t.isLt).1 = k1_pay2 (x0 t) (x1 t) (x2 t) (x3 t) (x4 t) := by
      by_cases h : t.val % 20 = 0
      · rw [hA t h]
      · rw [hB t h]
    rw [e]
    exact lin_row hN A0 A1 A2 A3 A4 x0 x1 x2 x3 x4 h0 h1 h2 h3 h4 t r q
  · obtain ⟨e1, e2⟩ := sums_inv hN A0 A1 A2 A3 A4 x0 x1 x2 x3 x4 o h0 h1 h2 h3 h4 hA hB q t.val t.isLt
    rw [e1, e2, ht]
    exact ⟨sum_range_bsum fun p => aOf A0 A1 A2 A3 A4 p q,
      sum_range_bsum fun p => aOf A0 A1 A2 A3 A4 p q * aOf A0 A1 A2 A3 A4 p q⟩

end Core

-- An array of given values as contents of a `[100000, 128]` array.
def G5 (a : Cert.Spec.Arr) : S100000x128.Idx → EReal := fun i => a ⟨(i 0).val, idx2_lt0 i⟩ ⟨(i 1).val, idx2_lt1 i⟩

variable (V : (c : Dev nD) → (b : Ref sig .tc) → Buf (Elt Ideal) ((c : Thread nD τ).loc b))

-- Each store writes the whole of its output, so the output holds the last stored value; a load after a store reads that value.
theorem outs_A (c : Dev nD) (t : Fin cfg1.N) (h0 : t.val % 20 = 0) :
    outsAt1 V c t.val t.isLt = stepA (iblk1 V c 0 t) (iblk1 V c 1 t) (iblk1 V c 2 t) (iblk1 V c 3 t) (iblk1 V c 4 t) := by
  rw [outsAt1_A V c t h0]
  unfold out1_A_5 out1_A_6 out1_A_7
  rw [View.read_writes_eq_canon _ _ _ (cover1_A_5 c _ _ _ _ _ _ _ _ _ _ _ _ _ _ _ _ _ _ _ _ _ _ _),
    View.read_writes_eq_canon _ _ _ (cover1_A_6 c _ _ _ _ _ _ _ _ _ _ _ _ _ _ _ _ _ _ _ _ _ _ _),
    View.read_writes_eq_canon _ _ _ (cover1_A_7 c _ _ _ _ _ _ _ _ _ _ _ _ _ _ _ _ _ _ _ _ _ _ _)]
  unfold kernelRun1_A
  dsimp only
  sl_unfold_words
  simp only [View.canon_unit_zero (S := S5000x128) hz, View.canon_cons_unit_zero (S := S1x128) hz,
    View.readCov_unit_zero (S := S1x128) _ hz,
    View.readAt_eq_ld, (hs1_0 t).read_unread, (hs1_1 t).read_unread, (hs1_2 t).read_unread, (hs1_3 t).read_unread,
      (hs1_4 t).read_unread,
    View.ld_unit_zero (S := S5000x128) hz, View.ld_unit_zero (S := S1x128) hz, View.ld_unit_zero (S := S128x128) hz]

theorem outs_B (c : Dev nD) (t : Fin cfg1.N) (h0 : ¬t.val % 20 = 0) :
    outsAt1 V c t.val t.isLt
      = stepB (iblk1 V c 0 t) (iblk1 V c 1 t) (iblk1 V c 2 t) (iblk1 V c 3 t) (iblk1 V c 4 t)
          (outsAt1 V c (t.val - 1) (Nat.lt_of_le_of_lt (Nat.sub_le _ _) t.isLt)) := by
  rw [outsAt1_B V c t h0]
  unfold out1_B_5 out1_B_6 out1_B_7
  rw [View.read_writes_eq_canon _ _ _ (cover1_B_5 c _ _ _ _ _ _ _ _ _ _ _ _ _ _ _ _ _ _ _ _ _ _ _ _ _),
    View.read_writes_eq_canon _ _ _ (cover1_B_6 c _ _ _ _ _ _ _ _ _ _ _ _ _ _ _ _ _ _ _ _ _ _ _ _ _),
    View.read_writes_eq_canon _ _ _ (cover1_B_7 c _ _ _ _ _ _ _ _ _ _ _ _ _ _ _ _ _ _ _ _ _ _ _ _ _)]
  unfold kernelRun1_B
  dsimp only
  sl_unfold_words
  simp only [View.canon_unit_zero (S := S5000x128) hz, View.canon_unit_zero (S := S1x128) hz, View.readAt_eq_ld,
    (hs1_0 t).read_unread, (hs1_1 t).read_unread, (hs1_2 t).read_unread, (hs1_3 t).read_unread, (hs1_4 t).read_unread,
    (hs1_6 t).read_unread, (hs1_7 t).read_unread,
    View.ld_unit_zero (S := S5000x128) hz, View.ld_unit_zero (S := S1x128) hz, View.ld_unit_zero (S := S128x128) hz]

abbrev a (c : Dev nD) : Cert.Spec.Arr :=
  Cert.Spec.lin
    (Cert.Spec.affRelu (Cert.Spec.curA (V c (Pipeline.arrRef spec1 0))) (Cert.Spec.curRow (V c (Pipeline.arrRef spec1 1)))
      (Cert.Spec.curRow (V c (Pipeline.arrRef spec1 2))))
    (Cert.Spec.curM (V c (Pipeline.arrRef spec1 3))) (Cert.Spec.curRow (V c (Pipeline.arrRef spec1 4)))

-- The index maps, decided over the twenty grid points.
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0 :=
  (by decide +kernel : ∀ t : Fin grid1.N, _)

-- A block's index in its array: row `5000 t + r` for the two arrays cut into row blocks, else the same index.
theorem emb0 (t : Fin cfg1.N) (j : S5000x128.Idx) (i : S100000x128.Idx) (h0 : (i 0).val = 5000 * t.val + (j 0).val)
    (h1 : (i 1).val = (j 1).val) : ((cfg1.win 0).blk t).view.emb j = i := by
  obtain ⟨e0, e1, -⟩ := idx_facts t
  funext ax
  apply Fin.ext
  match ax with
  | ⟨0, _⟩ => show win1_0.index t (0 : Fin 2) * 5000 + 1 * (j 0).val = (i 0).val; rw [e0, h0]; omega
  | ⟨1, _⟩ => show win1_0.index t (1 : Fin 2) * 128 + 1 * (j 1).val = (i 1).val; rw [e1, h1]; omega

theorem emb1 (t : Fin cfg1.N) (j : S1x128.Idx) : ((cfg1.win 1).blk t).view.emb j = j := by
  obtain ⟨-, -, e0, e1, -⟩ := idx_facts t
  funext ax
  apply Fin.ext
  match ax with
  | ⟨0, _⟩ => show win1_1.index t (0 : Fin 2) * 1 + 1 * (j 0).val = (j 0).val; rw [e0]; omega
  | ⟨1, _⟩ => show win1_1.index t (1 : Fin 2) * 128 + 1 * (j 1).val = (j 1).val; rw [e1]; omega

theorem emb2 (t : Fin cfg1.N) (j : S1x128.Idx) : ((cfg1.win 2).blk t).view.emb j = j := by
  obtain ⟨-, -, -, -, e0, e1, -⟩ := idx_facts t
  funext ax
  apply Fin.ext
  match ax with
  | ⟨0, _⟩ => show win1_2.index t (0 : Fin 2) * 1 + 1 * (j 0).val = (j 0).val; rw [e0]; omega
  | ⟨1, _⟩ => show win1_2.index t (1 : Fin 2) * 128 + 1 * (j 1).val = (j 1).val; rw [e1]; omega

theorem emb3 (t : Fin cfg1.N) (j : S128x128.Idx) : ((cfg1.win 3).blk t).view.emb j = j := by
  obtain ⟨-, -, -, -, -, -, e0, e1, -⟩ := idx_facts t
  funext ax
  apply Fin.ext
  match ax with
  | ⟨0, _⟩ => show win1_3.index t (0 : Fin 2) * 128 + 1 * (j 0).val = (j 0).val; rw [e0]; omega
  | ⟨1, _⟩ => show win1_3.index t (1 : Fin 2) * 128 + 1 * (j 1).val = (j 1).val; rw [e1]; omega

theorem emb4 (t : Fin cfg1.N) (j : S1x128.Idx) : ((cfg1.win 4).blk t).view.emb j = j := by
  obtain ⟨-, -, -, -, -, -, -, -, e0, e1, -⟩ := idx_facts t
  funext ax
  apply Fin.ext
  match ax with
  | ⟨0, _⟩ => show win1_4.index t (0 : Fin 2) * 1 + 1 * (j 0).val = (j 0).val; rw [e0]; omega
  | ⟨1, _⟩ => show win1_4.index t (1 : Fin 2) * 128 + 1 * (j 1).val = (j 1).val; rw [e1]; omega

theorem emb5 (t : Fin cfg1.N) (j : S5000x128.Idx) (i : S100000x128.Idx) (h0 : (i 0).val = 5000 * t.val + (j 0).val)
    (h1 : (i 1).val = (j 1).val) : ((cfg1.win 5).blk t).view.emb j = i := by
  obtain ⟨-, -, -, -, -, -, -, -, -, -, e0, e1, -⟩ := idx_facts t
  funext ax
  apply Fin.ext
  match ax with
  | ⟨0, _⟩ => show win1_5.index t (0 : Fin 2) * 5000 + 1 * (j 0).val = (i 0).val; rw [e0, h0]; omega
  | ⟨1, _⟩ => show win1_5.index t (1 : Fin 2) * 128 + 1 * (j 1).val = (i 1).val; rw [e1, h1]; omega

theorem emb6 (t : Fin cfg1.N) (j : S1x128.Idx) : ((cfg1.win 6).blk t).view.emb j = j := by
  obtain ⟨-, -, -, -, -, -, -, -, -, -, -, -, e0, e1, -⟩ := idx_facts t
  funext ax
  apply Fin.ext
  match ax with
  | ⟨0, _⟩ => show win1_6.index t (0 : Fin 2) * 1 + 1 * (j 0).val = (j 0).val; rw [e0]; omega
  | ⟨1, _⟩ => show win1_6.index t (1 : Fin 2) * 128 + 1 * (j 1).val = (j 1).val; rw [e1]; omega

theorem emb7 (t : Fin cfg1.N) (j : S1x128.Idx) : ((cfg1.win 7).blk t).view.emb j = j := by
  obtain ⟨-, -, -, -, -, -, -, -, -, -, -, -, -, -, e0, e1⟩ := idx_facts t
  funext ax
  apply Fin.ext
  match ax with
  | ⟨0, _⟩ => show win1_7.index t (0 : Fin 2) * 1 + 1 * (j 0).val = (j 0).val; rw [e0]; omega
  | ⟨1, _⟩ => show win1_7.index t (1 : Fin 2) * 128 + 1 * (j 1).val = (j 1).val; rw [e1]; omega

-- The run's outputs, point by point, satisfy the step equations over the operands' blocks, so they hold these values.
theorem vals (c : Dev nD) : Vals N_1 (outsAt1 V c) (a V c) :=
  core N_1 _ _ _ _ _ (iblk1 V c 0) (iblk1 V c 1) (iblk1 V c 2) (iblk1 V c 3) (iblk1 V c 4) (outsAt1 V c)
    (fun t r k => congrArg (V c (Pipeline.arrRef spec1 0)) (emb0 t (ix2 r k) (ix2 (row (t.cast N_1) r) k) rfl rfl))
    (fun t k => congrArg (V c (Pipeline.arrRef spec1 1)) (emb1 t (ix2 0 k)))
    (fun t k => congrArg (V c (Pipeline.arrRef spec1 2)) (emb2 t (ix2 0 k)))
    (fun t k q => congrArg (V c (Pipeline.arrRef spec1 3)) (emb3 t (ix2 k q)))
    (fun t k => congrArg (V c (Pipeline.arrRef spec1 4)) (emb4 t (ix2 0 k)))
    (outs_A V c) (outs_B V c)

-- What every point contributes to the first output is its block's rows of the array.
theorem flushed5 (c : Dev nD) (t : Fin cfg1.N) :
    (dat1 V c).flushed 5 t = ((cfg1.win 5).blk t).view.read (Elt Ideal) (G5 (a V c)) := by
  show (cfg1.win 5).cut (grid1.coords t) ((dat1 V c).after 5 t) = _
  rw [after1_5]
  refine funext fun (j : S5000x128.Idx) => ?_
  obtain ⟨r, q, rfl⟩ : ∃ (r : Fin 5000) (q : Fin 128), j = ix2 r q := ⟨j 0, j 1, eq_ix2 j⟩
  exact ((vals V c).1 t r q).trans
    (congrArg (G5 (a V c)) (emb5 t (ix2 r q) (ix2 (row (t.cast N_1) r) q) rfl rfl) :).symm

-- The array ends holding the last point's value: that point's block is the whole array.
theorem arr6 (c : Dev nD) (t : Fin cfg1.N) (h19 : t.val = 19) :
    (dat1 (F := Ideal) V c).arrAt 6 cfg1.N = (outsAt1 V c t.val t.isLt).2.1 := by
  have hN : cfg1.N = 20 := N_1
  generalize hG : (outsAt1 V c t.val t.isLt).2.1 = G
  have hfl : ∀ s, (cfg1.win 6).flush s = true →
      (dat1 V c).flushed 6 s = ((cfg1.win 6).blk s).view.read (Elt Ideal) G := fun s hf => by
    rw [show s = t from Fin.ext (by have := (flush1_6 s).mp hf; have := s.isLt; omega)]
    show (cfg1.win 6).cut _ ((dat1 V c).after 6 t) = _
    rw [after1_6]
    exact hG.trans (funext fun j => (congrArg G (emb6 t j) :).symm)
  exact funext fun i => (congrArg ((dat1 V c).arrAt 6 cfg1.N) (emb6 t i) :).symm.trans
    ((congrFun ((dat1 V c).read_blk_arrAt 6 G hfl t ((flush1_6 t).mpr (by omega))) i).trans
      (congrArg G (emb6 t i) :))

theorem arr7 (c : Dev nD) (t : Fin cfg1.N) (h19 : t.val = 19) :
    (dat1 (F := Ideal) V c).arrAt 7 cfg1.N = (outsAt1 V c t.val t.isLt).2.2 := by
  have hN : cfg1.N = 20 := N_1
  generalize hG : (outsAt1 V c t.val t.isLt).2.2 = G
  have hfl : ∀ s, (cfg1.win 7).flush s = true →
      (dat1 V c).flushed 7 s = ((cfg1.win 7).blk s).view.read (Elt Ideal) G := fun s hf => by
    rw [show s = t from Fin.ext (by have := (flush1_7 s).mp hf; have := s.isLt; omega)]
    show (cfg1.win 7).cut _ ((dat1 V c).after 7 t) = _
    rw [after1_7]
    exact hG.trans (funext fun j => (congrArg G (emb7 t j) :).symm)
  exact funext fun i => (congrArg ((dat1 V c).arrAt 7 cfg1.N) (emb7 t i) :).symm.trans
    ((congrFun ((dat1 V c).read_blk_arrAt 7 G hfl t ((flush1_7 t).mpr (by omega))) i).trans
      (congrArg G (emb7 t i) :))

-- The outputs after the region: every index lies in a block whose value is known.
theorem out_eq (c : Dev nD) (p : Fin 100000) (q : Fin 128) :
    (dat1 (F := Ideal) V c).arrAt 5 cfg1.N (ix2 p q) = a V c p q := by
  have hN : cfg1.N = 20 := N_1
  obtain ⟨t, r, rfl⟩ : ∃ (t : Fin cfg1.N) (r : Fin 5000), p = row (t.cast N_1) r :=
    ⟨⟨p.val / 5000, by have := p.isLt; omega⟩, ⟨p.val % 5000, Nat.mod_lt _ (by omega)⟩,
      Fin.ext (by show p.val = 5000 * (p.val / 5000) + p.val % 5000; omega)⟩
  have e := emb5 t (ix2 r q) (ix2 (row (t.cast N_1) r) q) rfl rfl
  exact (congrArg ((dat1 V c).arrAt 5 cfg1.N) e :).symm.trans
    ((congrFun ((dat1 V c).read_blk_arrAt 5 (G5 (a V c)) (fun t _ => flushed5 V c t) t (flush1_5 t)) (ix2 r q)).trans
      (congrArg (G5 (a V c)) e :))

theorem sum_eq (c : Dev nD) (q : Fin 128) :
    (dat1 (F := Ideal) V c).arrAt 6 cfg1.N (ix2 0 q) = Cert.Spec.colsum (a V c) q := by
  obtain ⟨t, h19⟩ : ∃ t : Fin cfg1.N, t.val = 19 := ⟨⟨19, by rw [show cfg1.N = 20 from N_1]; omega⟩, rfl⟩
  exact (congrFun (arr6 V c t h19) (ix2 0 q)).trans ((vals V c).2 t q h19).1

theorem sumsq_eq (c : Dev nD) (q : Fin 128) :
    (dat1 (F := Ideal) V c).arrAt 7 cfg1.N (ix2 0 q) = Cert.Spec.colsumsq (a V c) q := by
  obtain ⟨t, h19⟩ : ∃ t : Fin cfg1.N, t.val = 19 := ⟨⟨19, by rw [show cfg1.N = 20 from N_1]; omega⟩, rfl⟩
  exact (congrFun (arr7 V c t h19) (ix2 0 q)).trans ((vals V c).2 t q h19).2

end Cert.KernelIdeal.Region1

end
-- ==== Proof.Region2a.lean ====
import proofs.«108002_j23673859736037_1_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws
import Mathlib.Algebra.BigOperators.Fin
import Mathlib.Logic.Equiv.Fin.Basic

noncomputable section

namespace Cert.KernelIdeal.Region2

open Idealize.ShloMosaic Idealize.ShloMosaic.ValueIdx
open Cert.KernelIdeal Cert.KernelIdeal.Gen
open scoped BigOperators

theorem pay1_apply (x0 : FVec Ideal S5000x128 .f32) (x1 x2 : FVec Ideal S1x128 .f32) (r : Fin 5000) (q : Fin 128) :
    k2_pay1 (F := Ideal) x0 x1 x2 (ix2 r q) = max (x0 (ix2 r q) * x1 (ix2 0 q) + x2 (ix2 0 q)) 0 := by
  unfold k2_pay1
  rw [maximumf_apply, addf_apply, mulf_apply, shapeCast_self, shapeCast_self, shapeCast_self,
    broadcastTo_1b_ab_apply, broadcastTo_1b_ab_apply, broadcast_apply]
  exact congrArg (max _) Ideal.ofBits_zero_f32

theorem lift_eq (q : Fin 128) (k : Fin 5000) : reduces_S5000x128_S128.lift (ix1 q) k = ix2 k q := by
  funext c; apply Fin.ext
  match c with
  | ⟨0, _⟩ => rfl
  | ⟨1, _⟩ => rfl

-- A column sum of a block, laid out as a row: entry `(0, q)` sums column `q` over the 5000 rows.
theorem lanesum_apply (src : FVec Ideal S5000x128 .f32) (q : Fin 128) :
    shapeCast S1x128 (multiReduction .add [0] S128 src 0x00000000#32 reduces_S5000x128_S128 (.inl rfl) rfl)
        shapeCasts_S128_S1x128 (ix2 0 q)
      = ∑ k : Fin 5000, src (ix2 k q) := by
  rw [shapeCast_a_1a_apply]
  refine (Ideal.multiReduction_add_single src 0x00000000#32 reduces_S5000x128_S128 (.inl rfl) rfl (ix1 q)).trans ?_
  exact Finset.sum_congr rfl fun k _ => congrArg src (lift_eq q k)

theorem pay4_apply (x0 : FVec Ideal S5000x128 .f32) (x1 x2 acc : FVec Ideal S1x128 .f32) (q : Fin 128) :
    k2_pay4 (F := Ideal) x0 x1 x2 acc (ix2 0 q)
      = acc (ix2 0 q) + ∑ k : Fin 5000, k2_pay1 (F := Ideal) x0 x1 x2 (ix2 k q) := by
  unfold k2_pay4
  rw [addf_apply, shapeCast_self]
  exact congrArg (acc (ix2 0 q) + ·) (lanesum_apply _ q)

theorem pay5_apply (x0 : FVec Ideal S5000x128 .f32) (x1 x2 acc : FVec Ideal S1x128 .f32) (q : Fin 128) :
    k2_pay5 (F := Ideal) x0 x1 x2 acc (ix2 0 q)
      = acc (ix2 0 q) + ∑ k : Fin 5000,
          k2_pay1 (F := Ideal) x0 x1 x2 (ix2 k q) * k2_pay1 (F := Ideal) x0 x1 x2 (ix2 k q) := by
  unfold k2_pay5
  rw [addf_apply, shapeCast_self]
  exact congrArg (acc (ix2 0 q) + ·) (lanesum_apply _ q)

theorem pay2_apply (j : S1x128.Idx) : k2_pay2 (F := Ideal) j = 0 := Ideal.ofBits_zero_f32
theorem pay3_apply (j : S1x128.Idx) : k2_pay3 (F := Ideal) j = 0 := Ideal.ofBits_zero_f32

-- Row `5000·t + r` is row `r` of block `t`: the rows are the pairs (block, row of the block).
theorem sum_blocks {M : Type*} [AddCommMonoid M] (f : Fin 100000 → M) :
    ∑ p : Fin 100000, f p
      = ∑ t : Fin 20, ∑ r : Fin 5000, f ⟨5000 * t.val + r.val, by have := t.isLt; have := r.isLt; omega⟩ := by
  rw [← Equiv.sum_comp (finProdFinEquiv (m := 20) (n := 5000)) f, Fintype.sum_prod_type]
  exact Finset.sum_congr rfl fun t _ => Finset.sum_congr rfl fun r _ =>
    congrArg f (Fin.ext (by show r.val + 5000 * t.val = 5000 * t.val + r.val; omega))

end Cert.KernelIdeal.Region2
-- ==== Proof.Region2b.lean ====
import proofs.«108002_j23673859736037_1_alg».proof.Proof.Gen.KernelIdeal.Frame
import Idealize.ShloMosaic.Lib.Pipeline.Value
import Idealize.ShloMosaic.Lib.Tactic

noncomputable section

namespace Cert.KernelIdeal.Region2

open Idealize.ShloMosaic Idealize.ShloMosaic.TcCoe Idealize.SL.Sem
open Cert.KernelIdeal Cert.KernelIdeal.Gen

theorem hz : (![0, 0] : Fin 2 → Nat) = fun _ => 0 := funext fun a => by fin_cases a <;> rfl

variable {F : FTy → Type} [FloatOps F] (c : Dev nD) (i : grid2.Coords)
  (arg1 : Memref sig .tc .vmem S5000x128 .f32) (harg1 : arg1.IsWhole)
  (arg2 : Memref sig .tc .vmem S1x128 .f32) (harg2 : arg2.IsWhole)
  (arg3 : Memref sig .tc .vmem S1x128 .f32) (harg3 : arg3.IsWhole)
  (arg4 : Memref sig .tc .vmem S5000x128 .f32) (harg4 : arg4.IsWhole)
  (arg5 : Memref sig .tc .vmem S1x128 .f32) (harg5 : arg5.IsWhole)
  (arg6 : Memref sig .tc .vmem S1x128 .f32) (harg6 : arg6.IsWhole)
  (x0 : Vec F S5000x128 .f32) (x1 x2 xo4 xo5 : Vec F S1x128 .f32)

-- What the pieces a point stores amount to: the running rows start from zero at the first point, and from the rows of
-- the point before at a later one.
theorem canA3 (hc0 : cond2_0 i) :
    View.canon (kernelRun2_A c i arg1 harg1 arg2 harg2 arg3 harg3 arg4 harg4 arg5 harg5 arg6 harg6 hc0 x0 x1 x2).1 = k2_pay1 x0 x1 x2 := by
  unfold kernelRun2_A
  dsimp only
  sl_unfold_words
  rw [View.canon_unit_zero hz]
  simp only [View.readAt_eq_ld, harg1.read_unread, harg2.read_unread, harg3.read_unread,
    View.ld_unit_zero (S := S5000x128) hz, View.ld_unit_zero (S := S1x128) hz]

theorem canA4 (hc0 : cond2_0 i) :
    View.canon (kernelRun2_A c i arg1 harg1 arg2 harg2 arg3 harg3 arg4 harg4 arg5 harg5 arg6 harg6 hc0 x0 x1 x2).2.1 = k2_pay4 x0 x1 x2 k2_pay2 := by
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread,
    View.ld_unit_zero (S := S5000x128) hz, View.ld_unit_zero (S := S1x128) hz]

theorem canA5 (hc0 : cond2_0 i) :
    View.canon (kernelRun2_A c i arg1 harg1 arg2 harg2 arg3 harg3 arg4 harg4 arg5 harg5 arg6 harg6 hc0 x0 x1 x2).2.2.1 = k2_pay5 x0 x1 x2 k2_pay3 := by
  unfold kernelRun2_A
  dsimp only
  sl_unfold_words
  rw [View.canon_cons_unit_zero (S := S1x128) hz, View.readCov_unit_zero (S := S1x128) _ hz]
  simp only [View.readAt_eq_ld, harg1.read_unread, harg2.read_unread, harg3.read_unread,
    View.ld_unit_zero (S := S5000x128) hz, View.ld_unit_zero (S := S1x128) hz]

theorem canB3 (hc0 : ¬cond2_0 i) :
    View.canon (kernelRun2_B c i arg1 harg1 arg2 harg2 arg3 harg3 arg4 harg4 arg5 harg5 arg6 harg6 hc0 x0 x1 x2 xo4 xo5).1 = k2_pay1 x0 x1 x2 := by
  unfold kernelRun2_B
  dsimp only
  sl_unfold_words
  rw [View.canon_unit_zero hz]
  simp only [View.readAt_eq_ld, harg1.read_unread, harg2.read_unread, harg3.read_unread, harg5.read_unread, harg6.read_unread,
    View.ld_unit_zero (S := S5000x128) hz, View.ld_unit_zero (S := S1x128) hz]

theorem canB4 (hc0 : ¬cond2_0 i) :
    View.canon (kernelRun2_B c i arg1 harg1 arg2 harg2 arg3 harg3 arg4 harg4 arg5 harg5 arg6 harg6 hc0 x0 x1 x2 xo4 xo5).2.1 = k2_pay4 x0 x1 x2 xo4 := by
  unfold kernelRun2_B
  dsimp only
  sl_unfold_words
  rw [View.canon_unit_zero hz]
  simp only [View.readAt_eq_ld, harg1.read_unread, harg2.read_unread, harg3.read_unread, harg5.read_unread, harg6.read_unread,
    View.ld_unit_zero (S := S5000x128) hz, View.ld_unit_zero (S := S1x128) hz]

theorem canB5 (hc0 : ¬cond2_0 i) :
    View.canon (kernelRun2_B c i arg1 harg1 arg2 harg2 arg3 harg3 arg4 harg4 arg5 harg5 arg6 harg6 hc0 x0 x1 x2 xo4 xo5).2.2.1 = k2_pay5 x0 x1 x2 xo5 := by
  unfold kernelRun2_B
  dsimp only
  sl_unfold_words
  rw [View.canon_unit_zero hz]
  simp only [View.readAt_eq_ld, harg1.read_unread, harg2.read_unread, harg3.read_unread, harg5.read_unread, harg6.read_unread,
    View.ld_unit_zero (S := S5000x128) hz, View.ld_unit_zero (S := S1x128) hz]

theorem outA3 (hc0 : cond2_0 i) :
    out2_A_3 c i arg1 harg1 arg2 harg2 arg3 harg3 arg4 harg4 arg5 harg5 arg6 harg6 hc0 x0 x1 x2 = k2_pay1 x0 x1 x2 :=
  (View.read_writes_eq_canon _ _ _ (cover2_A_3 c i arg1 harg1 arg2 harg2 arg3 harg3 arg4 harg4 arg5 harg5 arg6 harg6 hc0 x0 x1 x2)).trans
    (Region2.canA3 c i arg1 harg1 arg2 harg2 arg3 harg3 arg4 harg4 arg5 harg5 arg6 harg6 x0 x1 x2 hc0)

theorem outA4 (hc0 : cond2_0 i) :
    out2_A_4 c i arg1 harg1 arg2 harg2 arg3 harg3 arg4 harg4 arg5 harg5 arg6 harg6 hc0 x0 x1 x2 = k2_pay4 x0 x1 x2 k2_pay2 :=
  (View.read_writes_eq_canon _ _ _ (cover2_A_4 c i arg1 harg1 arg2 harg2 arg3 harg3 arg4 harg4 arg5 harg5 arg6 harg6 hc0 x0 x1 x2)).trans
    (Region2.canA4 c i arg1 harg1 arg2 harg2 arg3 harg3 arg4 harg4 arg5 harg5 arg6 harg6 x0 x1 x2 hc0)

theorem outA5 (hc0 : cond2_0 i) :
    out2_A_5 c i arg1 harg1 arg2 harg2 arg3 harg3 arg4 harg4 arg5 harg5 arg6 harg6 hc0 x0 x1 x2 = k2_pay5 x0 x1 x2 k2_pay3 :=
  (View.read_writes_eq_canon _ _ _ (cover2_A_5 c i arg1 harg1 arg2 harg2 arg3 harg3 arg4 harg4 arg5 harg5 arg6 harg6 hc0 x0 x1 x2)).trans
    (Region2.canA5 c i arg1 harg1 arg2 harg2 arg3 harg3 arg4 harg4 arg5 harg5 arg6 harg6 x0 x1 x2 hc0)

theorem outB3 (hc0 : ¬cond2_0 i) :
    out2_B_3 c i arg1 harg1 arg2 harg2 arg3 harg3 arg4 harg4 arg5 harg5 arg6 harg6 hc0 x0 x1 x2 xo4 xo5 = k2_pay1 x0 x1 x2 :=
  (View.read_writes_eq_canon _ _ _ (cover2_B_3 c i arg1 harg1 arg2 harg2 arg3 harg3 arg4 harg4 arg5 harg5 arg6 harg6 hc0 x0 x1 x2 xo4 xo5)).trans
    (Region2.canB3 c i arg1 harg1 arg2 harg2 arg3 harg3 arg4 harg4 arg5 harg5 arg6 harg6 x0 x1 x2 xo4 xo5 hc0)

theorem outB4 (hc0 : ¬cond2_0 i) :
    out2_B_4 c i arg1 harg1 arg2 harg2 arg3 harg3 arg4 harg4 arg5 harg5 arg6 harg6 hc0 x0 x1 x2 xo4 xo5 = k2_pay4 x0 x1 x2 xo4 :=
  (View.read_writes_eq_canon _ _ _ (cover2_B_4 c i arg1 harg1 arg2 harg2 arg3 harg3 arg4 harg4 arg5 harg5 arg6 harg6 hc0 x0 x1 x2 xo4 xo5)).trans
    (Region2.canB4 c i arg1 harg1 arg2 harg2 arg3 harg3 arg4 harg4 arg5 harg5 arg6 harg6 x0 x1 x2 xo4 xo5 hc0)

theorem outB5 (hc0 : ¬cond2_0 i) :
    out2_B_5 c i arg1 harg1 arg2 harg2 arg3 harg3 arg4 harg4 arg5 harg5 arg6 harg6 hc0 x0 x1 x2 xo4 xo5 = k2_pay5 x0 x1 x2 xo5 :=
  (View.read_writes_eq_canon _ _ _ (cover2_B_5 c i arg1 harg1 arg2 harg2 arg3 harg3 arg4 harg4 arg5 harg5 arg6 harg6 hc0 x0 x1 x2 xo4 xo5)).trans
    (Region2.canB5 c i arg1 harg1 arg2 harg2 arg3 harg3 arg4 harg4 arg5 harg5 arg6 harg6 x0 x1 x2 xo4 xo5 hc0)

end Cert.KernelIdeal.Region2

end
-- ==== Proof.Region2.lean ====
import proofs.«108002_j23673859736037_1_alg».proof.Proof.Region2a
import proofs.«108002_j23673859736037_1_alg».proof.Proof.Region2b
import proofs.«108002_j23673859736037_1_alg».proof.Proof.Spec
import Idealize.ShloMosaic.Lib.Pipeline.Value
import Idealize.ShloMosaic.Lib.ValueIdx

noncomputable section

namespace Cert.KernelIdeal.Region2

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

variable (V : (c : Dev nD) → (b : Ref sig .tc) → Buf (Elt Ideal) ((c : Thread nD τ).loc b))

abbrev a (c : Dev nD) : Cert.Spec.Arr :=
  Cert.Spec.affRelu (Cert.Spec.curA (V c (Pipeline.arrRef spec2 0))) (Cert.Spec.curRow (V c (Pipeline.arrRef spec2 1)))
    (Cert.Spec.curRow (V c (Pipeline.arrRef spec2 2)))

-- A row-blocked window sits at block `t`, a one-row window at block 0.
theorem idx_facts : ∀ t : Fin cfg2.N,
    win2_3.index t (0 : Fin 2) = t.val ∧ win2_3.index t (1 : Fin 2) = 0
    ∧ win2_4.index t (0 : Fin 2) = 0 ∧ win2_4.index t (1 : Fin 2) = 0 :=
  (by decide +kernel : ∀ t : Fin grid2.N, _)

theorem tlt (t : Fin cfg2.N) : t.val < 20 := lt_of_lt_of_eq t.isLt (show cfg2.N = 20 from N_2)

theorem last (t : Fin cfg2.N) (h : t.val % 20 = 19) : t.val = 19 := by have := tlt t; omega

abbrev rowOf (t : Fin cfg2.N) (r : Fin 5000) : Fin 100000 :=
  ⟨5000 * t.val + r.val, by have := tlt t; have := r.isLt; omega⟩

theorem emb3 (t : Fin cfg2.N) (r : Fin 5000) (q : Fin 128) :
    ((cfg2.win 3).blk t).view.emb (ix2 r q) = (ix2 (rowOf t r) q : S100000x128.Idx) := by
  obtain ⟨e0, e1, -⟩ := idx_facts t
  funext a; apply Fin.ext
  match a with
  | ⟨0, _⟩ => show win2_3.index t 0 * 5000 + 1 * r.val = 5000 * t.val + r.val; rw [e0]; omega
  | ⟨1, _⟩ => show win2_3.index t 1 * 128 + 1 * q.val = q.val; rw [e1]; omega

theorem emb4 (t : Fin cfg2.N) (q : Fin 128) :
    ((cfg2.win 4).blk t).view.emb (ix2 0 q) = (ix2 0 q : S1x128.Idx) := by
  obtain ⟨-, -, e0, e1⟩ := idx_facts t
  funext a; apply Fin.ext
  match a with
  | ⟨0, _⟩ => show win2_4.index t 0 * 1 + 1 * 0 = 0; rw [e0]
  | ⟨1, _⟩ => show win2_4.index t 1 * 128 + 1 * q.val = q.val; rw [e1]; omega

-- Block `t` of a row-blocked window, read off any array, is its rows `5000·t … 5000·t + 4999`; a one-row window's is the row.
theorem read0 (A : S100000x128.Idx → Ideal .f32) (t : Fin cfg2.N) (r : Fin 5000) (q : Fin 128) :
    ((cfg2.win 0).blk t).view.read (Elt Ideal) A (ix2 r q) = A (ix2 (rowOf t r) q) := by
  rw [View.read_apply]
  show A _ = A _
  exact congrArg A (emb3 t r q)

theorem read1 (A : S1x128.Idx → Ideal .f32) (t : Fin cfg2.N) (q : Fin 128) :
    ((cfg2.win 1).blk t).view.read (Elt Ideal) A (ix2 0 q) = A (ix2 0 q) := by
  rw [View.read_apply]
  show A _ = A _
  exact congrArg A (emb4 t q)

def bsum (f : Fin 100000 → EReal) (s : ℕ) : EReal :=
  if hs : s < cfg2.N then ∑ r : Fin 5000, f (rowOf ⟨s, hs⟩ r) else 0

theorem sum_bsum (f : Fin 100000 → EReal) : ∑ s ∈ Finset.range 20, bsum f s = ∑ p : Fin 100000, f p := by
  rw [sum_blocks f, Finset.sum_range]
  refine Finset.sum_congr rfl fun t _ => ?_
  have ht : t.val < cfg2.N := by rw [show cfg2.N = 20 from N_2]; exact t.isLt
  unfold bsum
  rw [dif_pos ht]

abbrev G3 (A : Cert.Spec.Arr) : S100000x128.Idx → Ideal .f32 := fun i => A (i 0) (i 1)
abbrev G4 (f : Cert.Spec.Row) : S1x128.Idx → Ideal .f32 := fun i => f (i 1)

-- What the three outputs hold after the points: the rows of `A`, and after the last point its column sums.
def Holds (A : Cert.Spec.Arr) (o : (n : ℕ) → n < cfg2.N → FVec Ideal S5000x128 .f32 × FVec Ideal S1x128 .f32 × FVec Ideal S1x128 .f32) : Prop :=
  ∀ (n : ℕ) (h : n < cfg2.N), (∀ (r : Fin 5000) (q : Fin 128), (o n h).1 (ix2 r q) = A (rowOf ⟨n, h⟩ r) q)
    ∧ (n = 19 → ∀ q : Fin 128, (o n h).2.1 (ix2 0 q) = Cert.Spec.colsum A q ∧ (o n h).2.2 (ix2 0 q) = Cert.Spec.colsumsq A q)

section Acc

variable {X : Cert.Spec.Arr} {s u : Cert.Spec.Row}
  {x0 : (n : ℕ) → n < cfg2.N → FVec Ideal S5000x128 .f32} {x1 x2 : (n : ℕ) → n < cfg2.N → FVec Ideal S1x128 .f32}
  {o : (n : ℕ) → n < cfg2.N → FVec Ideal S5000x128 .f32 × FVec Ideal S1x128 .f32 × FVec Ideal S1x128 .f32}
  (hx0 : ∀ (n : ℕ) (h : n < cfg2.N) (r : Fin 5000) (q : Fin 128), x0 n h (ix2 r q) = X (rowOf ⟨n, h⟩ r) q)
  (hx1 : ∀ (n : ℕ) (h : n < cfg2.N) (q : Fin 128), x1 n h (ix2 0 q) = s q)
  (hx2 : ∀ (n : ℕ) (h : n < cfg2.N) (q : Fin 128), x2 n h (ix2 0 q) = u q)
  (h0 : ∀ h : 0 < cfg2.N, o 0 h = (k2_pay1 (F := Ideal) (x0 0 h) (x1 0 h) (x2 0 h),
    k2_pay4 (F := Ideal) (x0 0 h) (x1 0 h) (x2 0 h) (k2_pay2 (F := Ideal)),
    k2_pay5 (F := Ideal) (x0 0 h) (x1 0 h) (x2 0 h) (k2_pay3 (F := Ideal))))
  (hs : ∀ (n : ℕ) (h : n + 1 < cfg2.N), o (n + 1) h = (k2_pay1 (F := Ideal) (x0 (n + 1) h) (x1 (n + 1) h) (x2 (n + 1) h),
    k2_pay4 (F := Ideal) (x0 (n + 1) h) (x1 (n + 1) h) (x2 (n + 1) h) (o n (Nat.lt_of_succ_lt h)).2.1,
    k2_pay5 (F := Ideal) (x0 (n + 1) h) (x1 (n + 1) h) (x2 (n + 1) h) (o n (Nat.lt_of_succ_lt h)).2.2))

include hx0 hx1 hx2

theorem hblk (n : ℕ) (h : n < cfg2.N) (r : Fin 5000) (q : Fin 128) :
    k2_pay1 (F := Ideal) (x0 n h) (x1 n h) (x2 n h) (ix2 r q) = Cert.Spec.affRelu X s u (rowOf ⟨n, h⟩ r) q := by
  rw [pay1_apply, hx0, hx1, hx2]
  rfl

theorem step4 (n : ℕ) (h : n < cfg2.N) (acc : FVec Ideal S1x128 .f32) (q : Fin 128) :
    k2_pay4 (F := Ideal) (x0 n h) (x1 n h) (x2 n h) acc (ix2 0 q)
      = acc (ix2 0 q) + bsum (fun p => Cert.Spec.affRelu X s u p q) n := by
  rw [pay4_apply, bsum, dif_pos h]
  exact congrArg (acc (ix2 0 q) + ·) (Finset.sum_congr rfl fun k _ => hblk hx0 hx1 hx2 n h k q)

theorem step5 (n : ℕ) (h : n < cfg2.N) (acc : FVec Ideal S1x128 .f32) (q : Fin 128) :
    k2_pay5 (F := Ideal) (x0 n h) (x1 n h) (x2 n h) acc (ix2 0 q)
      = acc (ix2 0 q) + bsum (fun p => Cert.Spec.affRelu X s u p q * Cert.Spec.affRelu X s u p q) n := by
  rw [pay5_apply, bsum, dif_pos h]
  exact congrArg (acc (ix2 0 q) + ·) (Finset.sum_congr rfl fun k _ => by rw [hblk hx0 hx1 hx2 n h k q])

include h0 hs

-- By induction on the point: the running rows hold the column sums over the blocks so far.
theorem sums : ∀ (n : ℕ) (h : n < cfg2.N),
    (∀ q : Fin 128, (o n h).2.1 (ix2 0 q) = ∑ m ∈ Finset.range (n + 1), bsum (fun p => Cert.Spec.affRelu X s u p q) m)
    ∧ (∀ q : Fin 128, (o n h).2.2 (ix2 0 q)
        = ∑ m ∈ Finset.range (n + 1), bsum (fun p => Cert.Spec.affRelu X s u p q * Cert.Spec.affRelu X s u p q) m)
  | 0, h => by
    rw [h0]
    dsimp only
    refine ⟨fun q => ?_, fun q => ?_⟩
    · refine (step4 hx0 hx1 hx2 0 h k2_pay2 q).trans ?_
      rw [pay2_apply, zero_add]
      exact (Finset.sum_range_one _).symm
    · refine (step5 hx0 hx1 hx2 0 h k2_pay3 q).trans ?_
      rw [pay3_apply, zero_add]
      exact (Finset.sum_range_one _).symm
  | n + 1, h => by
    obtain ⟨ih4, ih5⟩ := sums n (Nat.lt_of_succ_lt h)
    rw [hs]
    dsimp only
    refine ⟨fun q => ?_, fun q => ?_⟩
    · refine (step4 hx0 hx1 hx2 (n + 1) h _ q).trans ?_
      rw [ih4 q]
      exact (Finset.sum_range_succ _ (n + 1)).symm
    · refine (step5 hx0 hx1 hx2 (n + 1) h _ q).trans ?_
      rw [ih5 q]
      exact (Finset.sum_range_succ _ (n + 1)).symm

theorem holds : Holds (Cert.Spec.affRelu X s u) o := fun n h =>
  ⟨fun r q => by
    match n, h with
    | 0, h => rw [h0]; exact hblk hx0 hx1 hx2 0 h r q
    | n + 1, h => rw [hs]; exact hblk hx0 hx1 hx2 (n + 1) h r q,
   fun hn q => by
    subst hn
    exact ⟨((sums hx0 hx1 hx2 h0 hs 19 h).1 q).trans (sum_bsum _), ((sums hx0 hx1 hx2 h0 hs 19 h).2 q).trans (sum_bsum _)⟩⟩

end Acc

-- A block holding rows `5000·t …` of `G` is block `t` of `G`.
theorem cut3 (G : S100000x128.Idx → Ideal .f32) (t : Fin cfg2.N) (X : FVec Ideal S5000x128 .f32)
    (h : ∀ (r : Fin 5000) (q : Fin 128), X (ix2 r q) = G (ix2 (rowOf t r) q)) :
    (cfg2.win 3).cut (grid2.coords t) X = ((cfg2.win 3).blk t).view.read (Elt Ideal) G := by
  funext j
  obtain ⟨r, q, rfl⟩ : ∃ (r : Fin 5000) (q : Fin 128), j = ix2 r q := ⟨j 0, j 1, eq_ix2 j⟩
  rw [View.read_apply]
  show X (ix2 r q) = G _
  rw [h, emb3]

theorem mem_blk3 (t : Fin cfg2.N) (i : S100000x128.Idx) :
    i ∈ ((cfg2.win 3).blk t).view.set ↔ ∀ a : Fin 2, win2_3.index t a * S5000x128.size a ≤ (i a).val
      ∧ (i a).val < win2_3.index t a * S5000x128.size a + S5000x128.size a := by
  show i ∈ ((View.whole (Pipeline.arrRef spec2 3)).slice (win2_3.rect t)).set ↔ _
  rw [View.set_slice_whole, Rect.mem_set_unit]
  exact Iff.rfl

-- Row `p` lies in the block of point `p / 5000`.
theorem cover3 (i : S100000x128.Idx) :
    ∃ t : Fin cfg2.N, (cfg2.win 3).flush t = true ∧ i ∈ ((cfg2.win 3).blk t).view.set := by
  have h0 : (i 0).val < 100000 := (i 0).isLt
  have h1 : (i 1).val < 128 := (i 1).isLt
  have hN : cfg2.N = 20 := N_2
  let t : Fin cfg2.N := ⟨(i 0).val / 5000, by rw [hN]; omega⟩
  obtain ⟨e0, e1, -⟩ := idx_facts t
  refine ⟨t, flush2_3 t, ?_⟩
  rw [mem_blk3]
  intro a
  match a with
  | ⟨0, _⟩ =>
    show win2_3.index t 0 * 5000 ≤ (i 0).val ∧ (i 0).val < win2_3.index t 0 * 5000 + 5000
    rw [e0]
    show (i 0).val / 5000 * 5000 ≤ _ ∧ _ < (i 0).val / 5000 * 5000 + 5000
    omega
  | ⟨1, _⟩ => show win2_3.index t 1 * 128 ≤ (i 1).val ∧ (i 1).val < win2_3.index t 1 * 128 + 128; rw [e1]; omega

theorem cut4 (G : S1x128.Idx → Ideal .f32) (t : Fin cfg2.N) (X : FVec Ideal S1x128 .f32)
    (h : ∀ q : Fin 128, X (ix2 0 q) = G (ix2 0 q)) :
    (cfg2.win 4).cut (grid2.coords t) X = ((cfg2.win 4).blk t).view.read (Elt Ideal) G := by
  funext j
  obtain ⟨u, q, rfl⟩ : ∃ (u : Fin 1) (q : Fin 128), j = ix2 u q := ⟨j 0, j 1, eq_ix2 j⟩
  obtain rfl : u = 0 := Subsingleton.elim _ _
  rw [View.read_apply]
  show X (ix2 0 q) = G _
  rw [h, emb4]

theorem mem_blk4 (t : Fin cfg2.N) (i : S1x128.Idx) :
    i ∈ ((cfg2.win 4).blk t).view.set ↔ ∀ a : Fin 2, win2_4.index t a * S1x128.size a ≤ (i a).val
      ∧ (i a).val < win2_4.index t a * S1x128.size a + S1x128.size a := by
  show i ∈ ((View.whole (Pipeline.arrRef spec2 4)).slice (win2_4.rect t)).set ↔ _
  rw [View.set_slice_whole, Rect.mem_set_unit]
  exact Iff.rfl

-- The last point's block is the whole row.
theorem cover4 (i : S1x128.Idx) :
    ∃ t : Fin cfg2.N, (cfg2.win 4).flush t = true ∧ i ∈ ((cfg2.win 4).blk t).view.set := by
  have h0 : (i 0).val < 1 := (i 0).isLt
  have h1 : (i 1).val < 128 := (i 1).isLt
  have hN : cfg2.N = 20 := N_2
  let t : Fin cfg2.N := ⟨19, by rw [hN]; omega⟩
  obtain ⟨-, -, e0, e1⟩ := idx_facts t
  refine ⟨t, (flush2_4 t).mpr rfl, ?_⟩
  rw [mem_blk4]
  intro a
  match a with
  | ⟨0, _⟩ => show win2_4.index t 0 * 1 ≤ (i 0).val ∧ (i 0).val < win2_4.index t 0 * 1 + 1; rw [e0]; omega
  | ⟨1, _⟩ => show win2_4.index t 1 * 128 ≤ (i 1).val ∧ (i 1).val < win2_4.index t 1 * 128 + 128; rw [e1]; omega

section Value

variable {A : Cert.Spec.Arr} {o : (n : ℕ) → n < cfg2.N → FVec Ideal S5000x128 .f32 × FVec Ideal S1x128 .f32 × FVec Ideal S1x128 .f32} (H : Holds A o) (t : Fin cfg2.N)
include H

-- What each output holds after a point is its block of the value.
theorem back3 (X : FVec Ideal S5000x128 .f32) (hX : X = (o t.val t.isLt).1) :
    (cfg2.win 3).cut (grid2.coords t) X = ((cfg2.win 3).blk t).view.read (Elt Ideal) (G3 A) :=
  cut3 _ t X fun r q => (congrFun hX (ix2 r q)).trans ((H t.val t.isLt).1 r q)

theorem back4 (hf : t.val % 20 = 19) (X : FVec Ideal S1x128 .f32) (hX : X = (o t.val t.isLt).2.1) :
    (cfg2.win 4).cut (grid2.coords t) X = ((cfg2.win 4).blk t).view.read (Elt Ideal) (G4 (Cert.Spec.colsum A)) :=
  cut4 _ t X fun q => (congrFun hX (ix2 0 q)).trans ((H t.val t.isLt).2 (last t hf) q).1

theorem back5 (hf : t.val % 20 = 19) (X : FVec Ideal S1x128 .f32) (hX : X = (o t.val t.isLt).2.2) :
    (cfg2.win 5).cut (grid2.coords t) X = ((cfg2.win 5).blk t).view.read (Elt Ideal) (G4 (Cert.Spec.colsumsq A)) :=
  cut4 _ t X fun q => (congrFun hX (ix2 0 q)).trans ((H t.val t.isLt).2 (last t hf) q).2

end Value

-- What the three outputs hold after each point, from the step equations of the region's run.
theorem inv (c : Dev nD) : Region2.Holds (a V c) (outsAt2 V c) :=
  Region2.holds (x0 := fun n h => iblk2 V c 0 ⟨n, h⟩) (x1 := fun n h => iblk2 V c 1 ⟨n, h⟩)
    (x2 := fun n h => iblk2 V c 2 ⟨n, h⟩)
    (fun n h r q => Region2.read0 (V c (Pipeline.arrRef spec2 0)) ⟨n, h⟩ r q)
    (fun n h q => Region2.read1 (V c (Pipeline.arrRef spec2 1)) ⟨n, h⟩ q)
    (fun n h q => Region2.read1 (V c (Pipeline.arrRef spec2 2)) ⟨n, h⟩ q)
    (fun h => by rw [outsAt2_A V c ⟨0, h⟩ rfl, outA3, outA4, outA5] <;> rfl)
    (fun n h => by
      have hN : cfg2.N = 20 := N_2
      rw [outsAt2_B V c ⟨n + 1, h⟩ (by dsimp only; omega), outB3, outB4, outB5] <;> rfl)

theorem out_eq (c : Dev nD) (p : Fin 100000) (q : Fin 128) :
    (dat2 (F := Ideal) V c).arrAt 3 cfg2.N (ix2 p q) = a V c p q :=
  congrFun ((dat2 (F := Ideal) V c).arrAt_eq_of_cover 3 (Region2.G3 (a V c))
    (fun t _ => Region2.back3 (inv V c) t _ (after2_3 V c t)) Region2.cover3) (ix2 p q)

theorem sum_eq (c : Dev nD) (q : Fin 128) :
    (dat2 (F := Ideal) V c).arrAt 4 cfg2.N (ix2 0 q) = Cert.Spec.colsum (a V c) q :=
  congrFun ((dat2 (F := Ideal) V c).arrAt_eq_of_cover 4 (Region2.G4 (Cert.Spec.colsum (a V c)))
    (fun t hf => Region2.back4 (inv V c) t ((flush2_4 t).mp hf) _ (after2_4 V c t)) Region2.cover4) (ix2 0 q)

theorem sumsq_eq (c : Dev nD) (q : Fin 128) :
    (dat2 (F := Ideal) V c).arrAt 5 cfg2.N (ix2 0 q) = Cert.Spec.colsumsq (a V c) q :=
  congrFun ((dat2 (F := Ideal) V c).arrAt_eq_of_cover 5 (Region2.G4 (Cert.Spec.colsumsq (a V c)))
    (fun t hf => Region2.back5 (inv V c) t ((flush2_5 t).mp hf) _ (after2_5 V c t)) Region2.cover4) (ix2 0 q)

end Cert.KernelIdeal.Region2

end
-- ==== Proof.Region3.lean ====
import proofs.«108002_j23673859736037_1_alg».proof.Proof.Gen.KernelIdeal.Frame
import proofs.«108002_j23673859736037_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

open Idealize.ShloMosaic Idealize.ShloMosaic.TcCoe Idealize.SL.Sem
open Idealize.ShloMosaic.Pipeline (Dat)
open Idealize.ShloMosaic.ValueIdx

namespace Cert.KernelIdeal.Region3

open Cert.KernelIdeal Cert.KernelIdeal.Gen

theorem hz : (![0, 0] : Fin 2 → Nat) = fun _ => 0 := funext fun a => by fin_cases a <;> rfl

-- The rectified affine map of a feature array by a scale row and a shift row, as one array.
def G (a : S100000x128.Idx → EReal) (sc sh : S1x128.Idx → EReal) : S100000x128.Idx → EReal :=
  fun i => Cert.Spec.affRelu (Cert.Spec.curA a) (Cert.Spec.curRow sc) (Cert.Spec.curRow sh) (i 0) (i 1)

-- No law of arithmetic is needed: the body's term at an entry is the specification's term at the entry under it.
theorem point_eq (a : S100000x128.Idx → EReal) (sc sh : S1x128.Idx → EReal)
    (x0 : Vec Ideal S5000x128 .f32) (x1 x2 : Vec Ideal S1x128 .f32) (j : S5000x128.Idx) (k : S100000x128.Idx)
    (h0 : x0 j = a k) (h1 : ∀ y, x1 y = sc y) (h2 : ∀ y, x2 y = sh y) (hk : (k 1).val = (j 1).val) :
    k3_pay1 x0 x1 x2 j = G a sc sh k := by
  obtain ⟨r, q, rfl⟩ : ∃ (r : Fin 5000) (q : Fin 128), j = ix2 r q := ⟨j 0, j 1, eq_ix2 j⟩
  obtain ⟨p, q', rfl⟩ : ∃ (p : Fin 100000) (q' : Fin 128), k = ix2 p q' := ⟨k 0, k 1, eq_ix2 k⟩
  obtain rfl : q' = q := Fin.ext hk
  unfold k3_pay1
  rw [maximumf_apply, addf_apply, mulf_apply, broadcast_apply, broadcastTo_1b_ab_apply, broadcastTo_1b_ab_apply,
    shapeCast_self, shapeCast_self, shapeCast_self, Ideal.ofBits_def, Ideal.ofBits_zero_f32, h0, h1, h2]
  rfl

theorem idx_facts : ∀ t : Fin cfg3.N, win3_1.index t (0 : Fin 2) = 0 ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

theorem blk1_eq (sc : S1x128.Idx → EReal) (t : Fin cfg3.N) (y : S1x128.Idx) :
    (((cfg3.win 1).blk t).view.read (Elt Ideal) sc : Vec Ideal S1x128 .f32) y = sc y :=
  congrArg sc (Shape.idx_ext₂ (win3_1.rect_emb_val_of_index_zero t (0 : Fin 2) (idx_facts t).1 y)
    (win3_1.rect_emb_val_of_index_zero t (1 : Fin 2) (idx_facts t).2.1 y))

theorem blk2_eq (sh : S1x128.Idx → EReal) (t : Fin cfg3.N) (y : S1x128.Idx) :
    (((cfg3.win 2).blk t).view.read (Elt Ideal) sh : Vec Ideal S1x128 .f32) y = sh y :=
  congrArg sh (Shape.idx_ext₂ (win3_2.rect_emb_val_of_index_zero t (0 : Fin 2) (idx_facts t).2.2.1 y)
    (win3_2.rect_emb_val_of_index_zero t (1 : Fin 2) (idx_facts t).2.2.2.1 y))

-- Stated for ANY three arrays, so that every region running this body on this grid can cite it.
theorem block_eq (a : S100000x128.Idx → EReal) (sc sh : S1x128.Idx → EReal) (t : Fin cfg3.N) :
    (cfg3.win 3).cut (grid3.coords t) (out3_3 (((cfg3.win 0).blk t).view.read (Elt Ideal) a)
        (((cfg3.win 1).blk t).view.read (Elt Ideal) sc) (((cfg3.win 2).blk t).view.read (Elt Ideal) sh))
      = ((cfg3.win 3).blk t).view.read (Elt Ideal) (G a sc sh) := by
  unfold out3_3
  rw [View.canon_unit_zero hz]
  simp only [View.ld_unit_zero (S := S5000x128) hz, View.ld_unit_zero (S := S1x128) hz]
  funext j
  exact point_eq a sc sh (((cfg3.win 0).blk t).view.read (Elt Ideal) a) (((cfg3.win 1).blk t).view.read (Elt Ideal) sc)
    (((cfg3.win 2).blk t).view.read (Elt Ideal) sh) j (((cfg3.win 3).blk t).view.emb j)
    rfl (blk1_eq sc t) (blk2_eq sh t) (win3_3.rect_emb_val_of_index_zero t (1 : Fin 2) (idx_facts t).2.2.2.2.2 j)

theorem mem_blk (t : Fin cfg3.N) (i : S100000x128.Idx) :
    i ∈ ((cfg3.win 3).blk t).view.set ↔ ∀ a : Fin 2, win3_3.index t a * S5000x128.size a ≤ (i a).val
      ∧ (i a).val < win3_3.index t a * S5000x128.size a + S5000x128.size a := by
  show i ∈ ((View.whole (Pipeline.arrRef spec3 3)).slice (win3_3.rect t)).set ↔ _
  rw [View.set_slice_whole, Rect.mem_set_unit]
  exact Iff.rfl

-- Row p lies in the block of point p / 5000.
theorem cover (i : S100000x128.Idx) :
    ∃ t : Fin cfg3.N, (cfg3.win 3).flush t = true ∧ i ∈ ((cfg3.win 3).blk t).view.set := by
  have hi0 : (i 0).val < 100000 := (i 0).isLt
  have hi1 : (i 1).val < 128 := (i 1).isLt
  have ht : (i 0).val / 5000 < cfg3.N := by rw [show cfg3.N = 20 from N_3]; omega
  obtain ⟨-, -, -, -, e6, e7⟩ := idx_facts ⟨(i 0).val / 5000, ht⟩
  have e6' : win3_3.index ⟨(i 0).val / 5000, ht⟩ (0 : Fin 2) = (i 0).val / 5000 := e6
  refine ⟨⟨(i 0).val / 5000, ht⟩, flush3_3 _, (mem_blk _ i).2 fun b => ?_⟩
  match b with
  | ⟨0, _⟩ =>
    show win3_3.index ⟨(i 0).val / 5000, ht⟩ (0 : Fin 2) * 5000 ≤ (i 0).val
      ∧ (i 0).val < win3_3.index ⟨(i 0).val / 5000, ht⟩ (0 : Fin 2) * 5000 + 5000
    omega
  | ⟨1, _⟩ =>
    show win3_3.index ⟨(i 0).val / 5000, ht⟩ (1 : Fin 2) * 128 ≤ (i 1).val
      ∧ (i 1).val < win3_3.index ⟨(i 0).val / 5000, ht⟩ (1 : Fin 2) * 128 + 128
    omega

variable (V : (c : Dev nD) → (b : Ref sig .tc) → Buf (Elt Ideal) ((c : Thread nD τ).loc b))

-- The blocks tile the array and each is a block of the whole-array function.
theorem out_eq (c : Dev nD) (p : Fin 100000) (q : Fin 128) :
    (dat3 (F := Ideal) V c).arrAt 3 cfg3.N (ix2 p q)
      = Cert.Spec.affRelu (Cert.Spec.curA (V c (Pipeline.arrRef spec3 0))) (Cert.Spec.curRow (V c (Pipeline.arrRef spec3 1)))
          (Cert.Spec.curRow (V c (Pipeline.arrRef spec3 2))) p q := by
  refine congrFun ((dat3 V c).arrAt_eq_of_cover 3 (G (V c (Pipeline.arrRef spec3 0)) (V c (Pipeline.arrRef spec3 1)) (V c (Pipeline.arrRef spec3 2))) (fun t _ => ?_) cover) (ix2 p q)
  show (cfg3.win 3).cut (grid3.coords t) ((dat3 V c).after 3 t) = _
  rw [after3_3]
  exact block_eq _ _ _ t

end Cert.KernelIdeal.Region3

end
-- ==== Proof.KChain0.lean ====
import proofs.«108002_j23673859736037_1_alg».proof.Proof.Gen.KernelIdeal.Frame
import proofs.«108002_j23673859736037_1_alg».proof.Proof.ChainDefs
import proofs.«108002_j23673859736037_1_alg».proof.Proof.KChain0Ops
import proofs.«108002_j23673859736037_1_alg».proof.Proof.Region0
import proofs.«108002_j23673859736037_1_alg».proof.Proof.Region1
import proofs.«108002_j23673859736037_1_alg».proof.Proof.Region2
import proofs.«108002_j23673859736037_1_alg».proof.Proof.Region3

set_option maxRecDepth 16384

noncomputable section

namespace Cert.KernelIdeal.Chain

open Cert.KernelIdeal Cert.KernelIdeal.Gen Cert.Spec Cert.Chain Cert.KernelIdeal.Stats
open Idealize.ShloMosaic Idealize.ShloMosaic.TcCoe Idealize.ShloMosaic.StableHlo Idealize.ShloMosaic.ValueIdx

variable (m : (ℓ : Loc nD τ sig) → Buf (Elt Ideal) ℓ) (ρ : Dev nD → PrngReg) (c : Dev nD)

abbrev argL : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19]
theorem argL_keys : argL.map key = [0, 1, 2, 3, 4, 5, 6, 7, 8, 9, 10, 11, 12, 13, 14, 15, 16, 17, 18, 19] := rfl

abbrev restL : List (Ref sig .tc) := [main_arg1, main_arg2, main_arg3, main_arg4, main_arg5, main_arg6, main_arg7, main_arg8, main_arg9, main_arg10, main_arg11, main_arg12, main_arg13, main_arg14, main_arg15, main_arg16, main_arg17, main_arg18, main_arg19, main_v1, main_v3]
theorem restL_keys : restL.map key = [1, 2, 3, 4, 5, 6, 7, 8, 9, 10, 11, 12, 13, 14, 15, 16, 17, 18, 19, 21, 23] := rfl

abbrev reg0_L : List (Ref sig .tc) := [main_arg0, main_v13, main_v15, main_v18, main_v19_0, main_v19_1, main_v19_2]
theorem reg0_keys : reg0_L.map key = [0, 36, 38, 41, 42, 43, 44] := rfl
theorem reg0_arr : ∀ w : Fin 7, Pipeline.arrRef spec0 w ∈ reg0_L
  | ⟨0, _⟩ => .head _
  | ⟨1, _⟩ => .tail _ (.head _)
  | ⟨2, _⟩ => .tail _ (.tail _ (.head _))
  | ⟨3, _⟩ => .tail _ (.tail _ (.tail _ (.head _)))
  | ⟨4, _⟩ => .tail _ (.tail _ (.tail _ (.tail _ (.head _))))
  | ⟨5, _⟩ => .tail _ (.tail _ (.tail _ (.tail _ (.tail _ (.head _)))))
  | ⟨6, _⟩ => .tail _ (.tail _ (.tail _ (.tail _ (.tail _ (.tail _ (.head _))))))
  | ⟨_ + 7, h⟩ => absurd h (Nat.not_lt.2 (Nat.le_add_left _ _))

abbrev reg1_L : List (Ref sig .tc) := [main_v19_0, main_v32, main_v37, main_v39, main_v42, main_v43_0, main_v43_1, main_v43_2]
theorem reg1_keys : reg1_L.map key = [42, 60, 65, 67, 70, 71, 72, 73] := rfl
theorem reg1_arr : ∀ w : Fin 8, Pipeline.arrRef spec1 w ∈ reg1_L
  | ⟨0, _⟩ => .head _
  | ⟨1, _⟩ => .tail _ (.head _)
  | ⟨2, _⟩ => .tail _ (.tail _ (.head _))
  | ⟨3, _⟩ => .tail _ (.tail _ (.tail _ (.head _)))
  | ⟨4, _⟩ => .tail _ (.tail _ (.tail _ (.tail _ (.head _))))
  | ⟨5, _⟩ => .tail _ (.tail _ (.tail _ (.tail _ (.tail _ (.head _)))))
  | ⟨6, _⟩ => .tail _ (.tail _ (.tail _ (.tail _ (.tail _ (.tail _ (.head _))))))
  | ⟨7, _⟩ => .tail _ (.tail _ (.tail _ (.tail _ (.tail _ (.tail _ (.tail _ (.head _)))))))
  | ⟨_ + 8, h⟩ => absurd h (Nat.not_lt.2 (Nat.le_add_left _ _))

abbrev reg2_L : List (Ref sig .tc) := [main_v43_0, main_v56, main_v61, main_v62_0, main_v62_1, main_v62_2]
theorem reg2_keys : reg2_L.map key = [71, 89, 94, 95, 96, 97] := rfl
theorem reg2_arr : ∀ w : Fin 6, Pipeline.arrRef spec2 w ∈ reg2_L
  | ⟨0, _⟩ => .head _
  | ⟨1, _⟩ => .tail _ (.head _)
  | ⟨2, _⟩ => .tail _ (.tail _ (.head _))
  | ⟨3, _⟩ => .tail _ (.tail _ (.tail _ (.head _)))
  | ⟨4, _⟩ => .tail _ (.tail _ (.tail _ (.tail _ (.head _))))
  | ⟨5, _⟩ => .tail _ (.tail _ (.tail _ (.tail _ (.tail _ (.head _)))))
  | ⟨_ + 6, h⟩ => absurd h (Nat.not_lt.2 (Nat.le_add_left _ _))

abbrev reg3_L : List (Ref sig .tc) := [main_v62_0, main_v75, main_v80, main_v81]
theorem reg3_keys : reg3_L.map key = [95, 113, 118, 119] := rfl
theorem reg3_arr : ∀ w : Fin 4, Pipeline.arrRef spec3 w ∈ reg3_L
  | ⟨0, _⟩ => .head _
  | ⟨1, _⟩ => .tail _ (.head _)
  | ⟨2, _⟩ => .tail _ (.tail _ (.head _))
  | ⟨3, _⟩ => .tail _ (.tail _ (.tail _ (.head _)))
  | ⟨_ + 4, h⟩ => absurd h (Nat.not_lt.2 (Nat.le_add_left _ _))

theorem argL_ops0 : ∀ b ∈ argL, b ∉ ops0_W := not_mem_of_keys argL_keys ops0_keys (by decide)
theorem restL_ops1 : ∀ b ∈ restL, b ∉ ops1_W := not_mem_of_keys restL_keys ops1_keys (by decide)
theorem restL_ops2 : ∀ b ∈ restL, b ∉ ops2_W := not_mem_of_keys restL_keys ops2_keys (by decide)
theorem restL_ops3 : ∀ b ∈ restL, b ∉ ops3_W := not_mem_of_keys restL_keys ops3_keys (by decide)
theorem restL_reg0 : ∀ b ∈ restL, ∀ w, Pipeline.arrRef spec0 w ≠ b :=
  fun b hb w e => not_mem_of_keys restL_keys reg0_keys (by decide) b hb (e ▸ reg0_arr w)
theorem restL_reg1 : ∀ b ∈ restL, ∀ w, Pipeline.arrRef spec1 w ≠ b :=
  fun b hb w e => not_mem_of_keys restL_keys reg1_keys (by decide) b hb (e ▸ reg1_arr w)
theorem restL_reg2 : ∀ b ∈ restL, ∀ w, Pipeline.arrRef spec2 w ≠ b :=
  fun b hb w e => not_mem_of_keys restL_keys reg2_keys (by decide) b hb (e ▸ reg2_arr w)
theorem restL_reg3 : ∀ b ∈ restL, ∀ w, Pipeline.arrRef spec3 w ≠ b :=
  fun b hb w e => not_mem_of_keys restL_keys reg3_keys (by decide) b hb (e ▸ reg3_arr w)

theorem restL_of_argL (b : Ref sig .tc) (hb : b ∈ argL) (h0 : b ≠ main_arg0) : b ∈ restL :=
  (List.mem_cons.mp hb).elim (fun h => absurd h h0) (fun h => List.mem_append_left [main_v1, main_v3] h)

theorem W1_arg (b : Ref sig .tc) (hb : b ∈ argL) :
    W1 m ρ c (Proc.devRef .tc b) = W0 m ρ c (Proc.devRef .tc b) := ops0_keep _ b (argL_ops0 b hb)

theorem W2_rest (b : Ref sig .tc) (hb : b ∈ restL) : W2 m ρ c (Proc.devRef .tc b) = W1 m ρ c (Proc.devRef .tc b) :=
  W2_of_ne m ρ c b (restL_reg0 b hb)
theorem W3_rest (b : Ref sig .tc) (hb : b ∈ restL) : W3 m ρ c (Proc.devRef .tc b) = W1 m ρ c (Proc.devRef .tc b) :=
  (ops1_keep _ b (restL_ops1 b hb)).trans (W2_rest m ρ c b hb)
theorem W4_rest (b : Ref sig .tc) (hb : b ∈ restL) : W4 m ρ c (Proc.devRef .tc b) = W1 m ρ c (Proc.devRef .tc b) :=
  (W4_of_ne m ρ c b (restL_reg1 b hb)).trans (W3_rest m ρ c b hb)
theorem W5_rest (b : Ref sig .tc) (hb : b ∈ restL) : W5 m ρ c (Proc.devRef .tc b) = W1 m ρ c (Proc.devRef .tc b) :=
  (ops2_keep _ b (restL_ops2 b hb)).trans (W4_rest m ρ c b hb)
theorem W6_rest (b : Ref sig .tc) (hb : b ∈ restL) : W6 m ρ c (Proc.devRef .tc b) = W1 m ρ c (Proc.devRef .tc b) :=
  (W6_of_ne m ρ c b (restL_reg2 b hb)).trans (W5_rest m ρ c b hb)
theorem W7_rest (b : Ref sig .tc) (hb : b ∈ restL) : W7 m ρ c (Proc.devRef .tc b) = W1 m ρ c (Proc.devRef .tc b) :=
  (ops3_keep _ b (restL_ops3 b hb)).trans (W6_rest m ρ c b hb)
theorem W8_rest (b : Ref sig .tc) (hb : b ∈ restL) : W8 m ρ c (Proc.devRef .tc b) = W1 m ρ c (Proc.devRef .tc b) :=
  (W8_of_ne m ρ c b (restL_reg3 b hb)).trans (W7_rest m ρ c b hb)

theorem W2_arg0 : W2 m ρ c (Proc.devRef .tc main_arg0) = W0 m ρ c (Proc.devRef .tc main_arg0) :=
  ((W2_arr m ρ c 0).trans (((dat0 (V1 m ρ) c).arrAt_in 0 rfl _).trans (A_eq0 (V1 m ρ) c 0))).trans
    (W1_arg m ρ c main_arg0 (.head _))

theorem W8_arg0 : W8 m ρ c (Proc.devRef .tc main_arg0) = W0 m ρ c (Proc.devRef .tc main_arg0) :=
  calc W8 m ρ c (Proc.devRef .tc main_arg0)
    _ = W7 m ρ c (Proc.devRef .tc main_arg0) := W8_of_ne m ρ c main_arg0 fun w e => not_mem_of_key reg3_keys 0 rfl (by decide) (e ▸ reg3_arr w)
    _ = W6 m ρ c (Proc.devRef .tc main_arg0) := ops3_keep _ main_arg0 (not_mem_of_key ops3_keys 0 rfl (by decide))
    _ = W5 m ρ c (Proc.devRef .tc main_arg0) := W6_of_ne m ρ c main_arg0 fun w e => not_mem_of_key reg2_keys 0 rfl (by decide) (e ▸ reg2_arr w)
    _ = W4 m ρ c (Proc.devRef .tc main_arg0) := ops2_keep _ main_arg0 (not_mem_of_key ops2_keys 0 rfl (by decide))
    _ = W3 m ρ c (Proc.devRef .tc main_arg0) := W4_of_ne m ρ c main_arg0 fun w e => not_mem_of_key reg1_keys 0 rfl (by decide) (e ▸ reg1_arr w)
    _ = W2 m ρ c (Proc.devRef .tc main_arg0) := ops1_keep _ main_arg0 (not_mem_of_key ops1_keys 0 rfl (by decide))
    _ = W0 m ρ c (Proc.devRef .tc main_arg0) := W2_arg0 m ρ c

theorem layer0_arg (b : Ref sig .tc) (hb : b ∈ argL) :
    W8 m ρ c (Proc.devRef .tc b) = W0 m ρ c (Proc.devRef .tc b) := by
  by_cases h0 : b = main_arg0
  · subst h0; exact W8_arg0 m ρ c
  · exact (W8_rest m ρ c b (restL_of_argL b hb h0)).trans (W1_arg m ρ c b hb)

theorem layer0_src : (W8 m ρ c (Proc.devRef .tc main_v1) : S640000.Idx → BitVec 32)
    = Cert.Agg.srcK (W0 m ρ c (Proc.devRef .tc main_arg1)) :=
  (W8_rest m ρ c main_v1 (.tail _ (.tail _ (.tail _ (.tail _ (.tail _ (.tail _ (.tail _ (.tail _ (.tail _ (.tail _ (.tail _ (.tail _ (.tail _ (.tail _ (.tail _ (.tail _ (.tail _ (.tail _ (.tail _ (.head _))))))))))))))))))))).trans (ops0_v1 _)
theorem layer0_dst : (W8 m ρ c (Proc.devRef .tc main_v3) : S640000.Idx → BitVec 32)
    = Cert.Agg.dstK (W0 m ρ c (Proc.devRef .tc main_arg1)) :=
  (W8_rest m ρ c main_v3 (.tail _ (.tail _ (.tail _ (.tail _ (.tail _ (.tail _ (.tail _ (.tail _ (.tail _ (.tail _ (.tail _ (.tail _ (.tail _ (.tail _ (.tail _ (.tail _ (.tail _ (.tail _ (.tail _ (.tail _ (.head _)))))))))))))))))))))).trans (ops0_v3 _)

def P0 : Params :=
  paramsOf (W0 m ρ c (Proc.devRef .tc main_arg4)) (W0 m ρ c (Proc.devRef .tc main_arg5)) (W0 m ρ c (Proc.devRef .tc main_arg6))
    (W0 m ρ c (Proc.devRef .tc main_arg7)) (W0 m ρ c (Proc.devRef .tc main_arg8)) (W0 m ρ c (Proc.devRef .tc main_arg9))
    (W0 m ρ c (Proc.devRef .tc main_arg10)) (W0 m ρ c (Proc.devRef .tc main_arg11)) (W0 m ρ c (Proc.devRef .tc main_arg12))
    (W0 m ρ c (Proc.devRef .tc main_arg13))

abbrev X0 : NArr := W0 m ρ c (Proc.devRef .tc main_arg0)

abbrev G0 : NArr :=
  Cert.Agg.aggK (X0 m ρ c) (Cert.Agg.srcK (W0 m ρ c (Proc.devRef .tc main_arg1))) (Cert.Agg.dstK (W0 m ρ c (Proc.devRef .tc main_arg1)))

def A0 : Arr := lin (add (curA (X0 m ρ c)) (curA (G0 m ρ c))) ((P0 m ρ c).W1 0) ((P0 m ρ c).b1 0)

def A1 : Arr := lin (bnK (A0 m ρ c) ((P0 m ρ c).g1 0) ((P0 m ρ c).be1 0)) ((P0 m ρ c).W2 0) ((P0 m ρ c).b2 0)

def A2 : Arr := bnK (A1 m ρ c) ((P0 m ρ c).g2 0) ((P0 m ρ c).be2 0)

theorem scaleK_congr {s s' t t' g g' : Row} (hs : s = s') (ht : t = t') (hg : g = g') :
    scaleK s t g = scaleK s' t' g' := by subst hs ht hg; rfl
theorem shiftK_congr {s s' t t' g g' be be' : Row} (hs : s = s') (ht : t = t') (hg : g = g') (hbe : be = be') :
    shiftK s t g be = shiftK s' t' g' be' := by subst hs ht hg hbe; rfl
theorem lin_add_congr {x g : NArr} {x' g' : Arr} {M M' : Mat} {r r' : Row} (hx : curA x = x') (hg : curA g = g')
    (hM : M = M') (hr : r = r') : lin (add (curA x) (curA g)) M r = lin (add x' g') M' r' := by
  subst hx hg hM hr; rfl
theorem lin_affRelu_congr {x : NArr} {a : Arr} {sc sc' sh sh' : Row} {M M' : Mat} {r r' : Row} (hx : curA x = a)
    (hsc : sc = sc') (hsh : sh = sh') (hM : M = M') (hr : r = r') :
    lin (affRelu (curA x) sc sh) M r = lin (affRelu a sc' sh') M' r' := by
  subst hx hsc hsh hM hr; rfl
theorem affRelu_congr {x : NArr} {a : Arr} {sc sc' sh sh' : Row} (hx : curA x = a) (hsc : sc = sc') (hsh : sh = sh') :
    affRelu (curA x) sc sh = affRelu a sc' sh' := by
  subst hx hsc hsh; rfl

theorem rowOf0_row (a : FVec Ideal S4x128 .f32) (hs : S4x128.Slices ![0, 0] S1x128) :
    curRow (rowOf 0 a hs) = curRow2 a 0 := rowOf_row 0 a hs
theorem matOf0_mat (a : FVec Ideal S4x128x128 .f32) (hs : S4x128x128.Slices ![0, 0, 0] S1x128x128) :
    curM (matOf 0 a hs) = curM3 a 0 := matOf_mat 0 a hs

theorem a0_eq : Region0.a (V1 m ρ) c = A0 m ρ c :=
  lin_add_congr (x := W1 m ρ c (Proc.devRef .tc main_arg0)) (g := W1 m ρ c (Proc.devRef .tc main_v13))
    (congrArg curA (W1_arg m ρ c main_arg0 (.head _)))
    (congrArg curA (ops0_v13 (W0 m ρ c)))
    ((congrArg curM (ops0_v15 (W0 m ρ c))).trans (matOf0_mat _ _))
    ((congrArg curRow (ops0_v18 (W0 m ρ c))).trans (rowOf0_row _ _))

theorem W2_v19_0 (p : Fin 100000) (q : Fin 128) :
    (W2 m ρ c (Proc.devRef .tc main_v19_0) : NArr) (ix2 p q) = A0 m ρ c p q :=
  (congrFun (W2_arr m ρ c 4) (ix2 p q)).trans
    ((Region0.out_eq (V1 m ρ) c p q).trans (congrFun (congrFun (a0_eq m ρ c) p) q))
theorem W2_v19_1 : curRow (W2 m ρ c (Proc.devRef .tc main_v19_1)) = colsum (A0 m ρ c) :=
  funext fun q => (congrFun (W2_arr m ρ c 5) (ix2 0 q)).trans
    ((Region0.sum_eq (V1 m ρ) c q).trans (congrFun (congrArg colsum (a0_eq m ρ c)) q))
theorem W2_v19_2 : curRow (W2 m ρ c (Proc.devRef .tc main_v19_2)) = colsumsq (A0 m ρ c) :=
  funext fun q => (congrFun (W2_arr m ρ c 6) (ix2 0 q)).trans
    ((Region0.sumsq_eq (V1 m ρ) c q).trans (congrFun (congrArg colsumsq (a0_eq m ρ c)) q))

theorem W3_v19_0 : curA (W3 m ρ c (Proc.devRef .tc main_v19_0)) = A0 m ρ c :=
  funext fun p => funext fun q =>
    (congrFun (ops1_keep (W2 m ρ c) main_v19_0 (not_mem_of_key ops1_keys 42 rfl (by decide))) (ix2 p q)).trans (W2_v19_0 m ρ c p q)

theorem W2_arg6 : (W2 m ρ c (Proc.devRef .tc main_arg6) : S4x128.Idx → EReal) = W0 m ρ c (Proc.devRef .tc main_arg6) :=
  (W2_rest m ρ c main_arg6 (.tail _ (.tail _ (.tail _ (.tail _ (.tail _ (.head _))))))).trans (W1_arg m ρ c main_arg6 (.tail _ (.tail _ (.tail _ (.tail _ (.tail _ (.tail _ (.head _))))))))
theorem W2_arg7 : (W2 m ρ c (Proc.devRef .tc main_arg7) : S4x128.Idx → EReal) = W0 m ρ c (Proc.devRef .tc main_arg7) :=
  (W2_rest m ρ c main_arg7 (.tail _ (.tail _ (.tail _ (.tail _ (.tail _ (.tail _ (.head _)))))))).trans (W1_arg m ρ c main_arg7 (.tail _ (.tail _ (.tail _ (.tail _ (.tail _ (.tail _ (.tail _ (.head _)))))))))

theorem W3_v32 : curRow (W3 m ρ c (Proc.devRef .tc main_v32))
    = scaleK (colsum (A0 m ρ c)) (colsumsq (A0 m ρ c)) ((P0 m ρ c).g1 0) :=
  calc curRow (W3 m ρ c (Proc.devRef .tc main_v32))
    _ = curRow (scaleT bcast_S_S1x128 (W2 m ρ c (Proc.devRef .tc main_v19_1)) (W2 m ρ c (Proc.devRef .tc main_v19_2))
          (rowOf 0 (W2 m ρ c (Proc.devRef .tc main_arg6)) slices_S4x128_S1x128_0_0)) := congrArg curRow (ops1_v32 (W2 m ρ c))
    _ = scaleK (curRow (W2 m ρ c (Proc.devRef .tc main_v19_1))) (curRow (W2 m ρ c (Proc.devRef .tc main_v19_2)))
          (curRow (rowOf 0 (W2 m ρ c (Proc.devRef .tc main_arg6)) slices_S4x128_S1x128_0_0)) := scale_row _ _ _ _
    _ = scaleK (colsum (A0 m ρ c)) (colsumsq (A0 m ρ c)) ((P0 m ρ c).g1 0) :=
          scaleK_congr (W2_v19_1 m ρ c) (W2_v19_2 m ρ c)
            ((rowOf0_row _ _).trans (congrArg (fun a => curRow2 a 0) (W2_arg6 m ρ c)))

theorem W3_v37 : curRow (W3 m ρ c (Proc.devRef .tc main_v37))
    = shiftK (colsum (A0 m ρ c)) (colsumsq (A0 m ρ c)) ((P0 m ρ c).g1 0) ((P0 m ρ c).be1 0) :=
  calc curRow (W3 m ρ c (Proc.devRef .tc main_v37))
    _ = curRow (shiftT bcast_S_S1x128 (W2 m ρ c (Proc.devRef .tc main_v19_1)) (W2 m ρ c (Proc.devRef .tc main_v19_2))
          (rowOf 0 (W2 m ρ c (Proc.devRef .tc main_arg6)) slices_S4x128_S1x128_0_0)
          (rowOf 0 (W2 m ρ c (Proc.devRef .tc main_arg7)) slices_S4x128_S1x128_0_0)) := congrArg curRow (ops1_v37 (W2 m ρ c))
    _ = shiftK (curRow (W2 m ρ c (Proc.devRef .tc main_v19_1))) (curRow (W2 m ρ c (Proc.devRef .tc main_v19_2)))
          (curRow (rowOf 0 (W2 m ρ c (Proc.devRef .tc main_arg6)) slices_S4x128_S1x128_0_0))
          (curRow (rowOf 0 (W2 m ρ c (Proc.devRef .tc main_arg7)) slices_S4x128_S1x128_0_0)) := shift_row _ _ _ _ _
    _ = shiftK (colsum (A0 m ρ c)) (colsumsq (A0 m ρ c)) ((P0 m ρ c).g1 0) ((P0 m ρ c).be1 0) :=
          shiftK_congr (W2_v19_1 m ρ c) (W2_v19_2 m ρ c)
            ((rowOf0_row _ _).trans (congrArg (fun a => curRow2 a 0) (W2_arg6 m ρ c)))
            ((rowOf0_row _ _).trans (congrArg (fun a => curRow2 a 0) (W2_arg7 m ρ c)))

theorem W2_arg8 : (W2 m ρ c (Proc.devRef .tc main_arg8) : S4x128x128.Idx → EReal) = W0 m ρ c (Proc.devRef .tc main_arg8) :=
  (W2_rest m ρ c main_arg8 (.tail _ (.tail _ (.tail _ (.tail _ (.tail _ (.tail _ (.tail _ (.head _))))))))).trans (W1_arg m ρ c main_arg8 (.tail _ (.tail _ (.tail _ (.tail _ (.tail _ (.tail _ (.tail _ (.tail _ (.head _))))))))))
theorem W2_arg9 : (W2 m ρ c (Proc.devRef .tc main_arg9) : S4x128.Idx → EReal) = W0 m ρ c (Proc.devRef .tc main_arg9) :=
  (W2_rest m ρ c main_arg9 (.tail _ (.tail _ (.tail _ (.tail _ (.tail _ (.tail _ (.tail _ (.tail _ (.head _)))))))))).trans (W1_arg m ρ c main_arg9 (.tail _ (.tail _ (.tail _ (.tail _ (.tail _ (.tail _ (.tail _ (.tail _ (.tail _ (.head _)))))))))))
theorem W3_v39 : curM (W3 m ρ c (Proc.devRef .tc main_v39)) = (P0 m ρ c).W2 0 :=
  ((congrArg curM (ops1_v39 (W2 m ρ c))).trans (matOf0_mat _ _)).trans (congrArg (fun a => curM3 a 0) (W2_arg8 m ρ c))
theorem W3_v42 : curRow (W3 m ρ c (Proc.devRef .tc main_v42)) = (P0 m ρ c).b2 0 :=
  ((congrArg curRow (ops1_v42 (W2 m ρ c))).trans (rowOf0_row _ _)).trans (congrArg (fun a => curRow2 a 0) (W2_arg9 m ρ c))

theorem a1_eq : Region1.a (V3 m ρ) c = A1 m ρ c :=
  lin_affRelu_congr (x := W3 m ρ c (Proc.devRef .tc main_v19_0)) (W3_v19_0 m ρ c) (W3_v32 m ρ c) (W3_v37 m ρ c) (W3_v39 m ρ c) (W3_v42 m ρ c)

theorem W4_v43_0 (p : Fin 100000) (q : Fin 128) :
    (W4 m ρ c (Proc.devRef .tc main_v43_0) : NArr) (ix2 p q) = A1 m ρ c p q :=
  (congrFun (W4_arr m ρ c 5) (ix2 p q)).trans
    ((Region1.out_eq (V3 m ρ) c p q).trans (congrFun (congrFun (a1_eq m ρ c) p) q))
theorem W4_v43_1 : curRow (W4 m ρ c (Proc.devRef .tc main_v43_1)) = colsum (A1 m ρ c) :=
  funext fun q => (congrFun (W4_arr m ρ c 6) (ix2 0 q)).trans
    ((Region1.sum_eq (V3 m ρ) c q).trans (congrFun (congrArg colsum (a1_eq m ρ c)) q))
theorem W4_v43_2 : curRow (W4 m ρ c (Proc.devRef .tc main_v43_2)) = colsumsq (A1 m ρ c) :=
  funext fun q => (congrFun (W4_arr m ρ c 7) (ix2 0 q)).trans
    ((Region1.sumsq_eq (V3 m ρ) c q).trans (congrFun (congrArg colsumsq (a1_eq m ρ c)) q))

theorem W5_v43_0 : curA (W5 m ρ c (Proc.devRef .tc main_v43_0)) = A1 m ρ c :=
  funext fun p => funext fun q =>
    (congrFun (ops2_keep (W4 m ρ c) main_v43_0 (not_mem_of_key ops2_keys 71 rfl (by decide))) (ix2 p q)).trans (W4_v43_0 m ρ c p q)

theorem W4_arg10 : (W4 m ρ c (Proc.devRef .tc main_arg10) : S4x128.Idx → EReal) = W0 m ρ c (Proc.devRef .tc main_arg10) :=
  (W4_rest m ρ c main_arg10 (.tail _ (.tail _ (.tail _ (.tail _ (.tail _ (.tail _ (.tail _ (.tail _ (.tail _ (.head _))))))))))).trans (W1_arg m ρ c main_arg10 (.tail _ (.tail _ (.tail _ (.tail _ (.tail _ (.tail _ (.tail _ (.tail _ (.tail _ (.tail _ (.head _))))))))))))
theorem W4_arg11 : (W4 m ρ c (Proc.devRef .tc main_arg11) : S4x128.Idx → EReal) = W0 m ρ c (Proc.devRef .tc main_arg11) :=
  (W4_rest m ρ c main_arg11 (.tail _ (.tail _ (.tail _ (.tail _ (.tail _ (.tail _ (.tail _ (.tail _ (.tail _ (.tail _ (.head _)))))))))))).trans (W1_arg m ρ c main_arg11 (.tail _ (.tail _ (.tail _ (.tail _ (.tail _ (.tail _ (.tail _ (.tail _ (.tail _ (.tail _ (.tail _ (.head _)))))))))))))

theorem W5_v56 : curRow (W5 m ρ c (Proc.devRef .tc main_v56))
    = scaleK (colsum (A1 m ρ c)) (colsumsq (A1 m ρ c)) ((P0 m ρ c).g2 0) :=
  calc curRow (W5 m ρ c (Proc.devRef .tc main_v56))
    _ = curRow (scaleT bcast_S_S1x128 (W4 m ρ c (Proc.devRef .tc main_v43_1)) (W4 m ρ c (Proc.devRef .tc main_v43_2))
          (rowOf 0 (W4 m ρ c (Proc.devRef .tc main_arg10)) slices_S4x128_S1x128_0_0)) := congrArg curRow (ops2_v56 (W4 m ρ c))
    _ = scaleK (curRow (W4 m ρ c (Proc.devRef .tc main_v43_1))) (curRow (W4 m ρ c (Proc.devRef .tc main_v43_2)))
          (curRow (rowOf 0 (W4 m ρ c (Proc.devRef .tc main_arg10)) slices_S4x128_S1x128_0_0)) := scale_row _ _ _ _
    _ = scaleK (colsum (A1 m ρ c)) (colsumsq (A1 m ρ c)) ((P0 m ρ c).g2 0) :=
          scaleK_congr (W4_v43_1 m ρ c) (W4_v43_2 m ρ c)
            ((rowOf0_row _ _).trans (congrArg (fun a => curRow2 a 0) (W4_arg10 m ρ c)))

theorem W5_v61 : curRow (W5 m ρ c (Proc.devRef .tc main_v61))
    = shiftK (colsum (A1 m ρ c)) (colsumsq (A1 m ρ c)) ((P0 m ρ c).g2 0) ((P0 m ρ c).be2 0) :=
  calc curRow (W5 m ρ c (Proc.devRef .tc main_v61))
    _ = curRow (shiftT bcast_S_S1x128 (W4 m ρ c (Proc.devRef .tc main_v43_1)) (W4 m ρ c (Proc.devRef .tc main_v43_2))
          (rowOf 0 (W4 m ρ c (Proc.devRef .tc main_arg10)) slices_S4x128_S1x128_0_0)
          (rowOf 0 (W4 m ρ c (Proc.devRef .tc main_arg11)) slices_S4x128_S1x128_0_0)) := congrArg curRow (ops2_v61 (W4 m ρ c))
    _ = shiftK (curRow (W4 m ρ c (Proc.devRef .tc main_v43_1))) (curRow (W4 m ρ c (Proc.devRef .tc main_v43_2)))
          (curRow (rowOf 0 (W4 m ρ c (Proc.devRef .tc main_arg10)) slices_S4x128_S1x128_0_0))
          (curRow (rowOf 0 (W4 m ρ c (Proc.devRef .tc main_arg11)) slices_S4x128_S1x128_0_0)) := shift_row _ _ _ _ _
    _ = shiftK (colsum (A1 m ρ c)) (colsumsq (A1 m ρ c)) ((P0 m ρ c).g2 0) ((P0 m ρ c).be2 0) :=
          shiftK_congr (W4_v43_1 m ρ c) (W4_v43_2 m ρ c)
            ((rowOf0_row _ _).trans (congrArg (fun a => curRow2 a 0) (W4_arg10 m ρ c)))
            ((rowOf0_row _ _).trans (congrArg (fun a => curRow2 a 0) (W4_arg11 m ρ c)))

theorem a2_eq : Region2.a (V5 m ρ) c = A2 m ρ c :=
  affRelu_congr (x := W5 m ρ c (Proc.devRef .tc main_v43_0)) (W5_v43_0 m ρ c) (W5_v56 m ρ c) (W5_v61 m ρ c)

theorem W6_v62_0 (p : Fin 100000) (q : Fin 128) :
    (W6 m ρ c (Proc.devRef .tc main_v62_0) : NArr) (ix2 p q) = A2 m ρ c p q :=
  (congrFun (W6_arr m ρ c 3) (ix2 p q)).trans
    ((Region2.out_eq (V5 m ρ) c p q).trans (congrFun (congrFun (a2_eq m ρ c) p) q))
theorem W6_v62_1 : curRow (W6 m ρ c (Proc.devRef .tc main_v62_1)) = colsum (A2 m ρ c) :=
  funext fun q => (congrFun (W6_arr m ρ c 4) (ix2 0 q)).trans
    ((Region2.sum_eq (V5 m ρ) c q).trans (congrFun (congrArg colsum (a2_eq m ρ c)) q))
theorem W6_v62_2 : curRow (W6 m ρ c (Proc.devRef .tc main_v62_2)) = colsumsq (A2 m ρ c) :=
  funext fun q => (congrFun (W6_arr m ρ c 5) (ix2 0 q)).trans
    ((Region2.sumsq_eq (V5 m ρ) c q).trans (congrFun (congrArg colsumsq (a2_eq m ρ c)) q))

theorem W7_v62_0 : curA (W7 m ρ c (Proc.devRef .tc main_v62_0)) = A2 m ρ c :=
  funext fun p => funext fun q =>
    (congrFun (ops3_keep (W6 m ρ c) main_v62_0 (not_mem_of_key ops3_keys 95 rfl (by decide))) (ix2 p q)).trans (W6_v62_0 m ρ c p q)

theorem W6_arg12 : (W6 m ρ c (Proc.devRef .tc main_arg12) : S4x128.Idx → EReal) = W0 m ρ c (Proc.devRef .tc main_arg12) :=
  (W6_rest m ρ c main_arg12 (.tail _ (.tail _ (.tail _ (.tail _ (.tail _ (.tail _ (.tail _ (.tail _ (.tail _ (.tail _ (.tail _ (.head _))))))))))))).trans (W1_arg m ρ c main_arg12 (.tail _ (.tail _ (.tail _ (.tail _ (.tail _ (.tail _ (.tail _ (.tail _ (.tail _ (.tail _ (.tail _ (.tail _ (.head _))))))))))))))
theorem W6_arg13 : (W6 m ρ c (Proc.devRef .tc main_arg13) : S4x128.Idx → EReal) = W0 m ρ c (Proc.devRef .tc main_arg13) :=
  (W6_rest m ρ c main_arg13 (.tail _ (.tail _ (.tail _ (.tail _ (.tail _ (.tail _ (.tail _ (.tail _ (.tail _ (.tail _ (.tail _ (.tail _ (.head _)))))))))))))).trans (W1_arg m ρ c main_arg13 (.tail _ (.tail _ (.tail _ (.tail _ (.tail _ (.tail _ (.tail _ (.tail _ (.tail _ (.tail _ (.tail _ (.tail _ (.tail _ (.head _)))))))))))))))

theorem W7_v75 : curRow (W7 m ρ c (Proc.devRef .tc main_v75))
    = scaleK (colsum (A2 m ρ c)) (colsumsq (A2 m ρ c)) ((P0 m ρ c).g3 0) :=
  calc curRow (W7 m ρ c (Proc.devRef .tc main_v75))
    _ = curRow (scaleT bcast_S_S1x128 (W6 m ρ c (Proc.devRef .tc main_v62_1)) (W6 m ρ c (Proc.devRef .tc main_v62_2))
          (rowOf 0 (W6 m ρ c (Proc.devRef .tc main_arg12)) slices_S4x128_S1x128_0_0)) := congrArg curRow (ops3_v75 (W6 m ρ c))
    _ = scaleK (curRow (W6 m ρ c (Proc.devRef .tc main_v62_1))) (curRow (W6 m ρ c (Proc.devRef .tc main_v62_2)))
          (curRow (rowOf 0 (W6 m ρ c (Proc.devRef .tc main_arg12)) slices_S4x128_S1x128_0_0)) := scale_row _ _ _ _
    _ = scaleK (colsum (A2 m ρ c)) (colsumsq (A2 m ρ c)) ((P0 m ρ c).g3 0) :=
          scaleK_congr (W6_v62_1 m ρ c) (W6_v62_2 m ρ c)
            ((rowOf0_row _ _).trans (congrArg (fun a => curRow2 a 0) (W6_arg12 m ρ c)))

theorem W7_v80 : curRow (W7 m ρ c (Proc.devRef .tc main_v80))
    = shiftK (colsum (A2 m ρ c)) (colsumsq (A2 m ρ c)) ((P0 m ρ c).g3 0) ((P0 m ρ c).be3 0) :=
  calc curRow (W7 m ρ c (Proc.devRef .tc main_v80))
    _ = curRow (shiftT bcast_S_S1x128 (W6 m ρ c (Proc.devRef .tc main_v62_1)) (W6 m ρ c (Proc.devRef .tc main_v62_2))
          (rowOf 0 (W6 m ρ c (Proc.devRef .tc main_arg12)) slices_S4x128_S1x128_0_0)
          (rowOf 0 (W6 m ρ c (Proc.devRef .tc main_arg13)) slices_S4x128_S1x128_0_0)) := congrArg curRow (ops3_v80 (W6 m ρ c))
    _ = shiftK (curRow (W6 m ρ c (Proc.devRef .tc main_v62_1))) (curRow (W6 m ρ c (Proc.devRef .tc main_v62_2)))
          (curRow (rowOf 0 (W6 m ρ c (Proc.devRef .tc main_arg12)) slices_S4x128_S1x128_0_0))
          (curRow (rowOf 0 (W6 m ρ c (Proc.devRef .tc main_arg13)) slices_S4x128_S1x128_0_0)) := shift_row _ _ _ _ _
    _ = shiftK (colsum (A2 m ρ c)) (colsumsq (A2 m ρ c)) ((P0 m ρ c).g3 0) ((P0 m ρ c).be3 0) :=
          shiftK_congr (W6_v62_1 m ρ c) (W6_v62_2 m ρ c)
            ((rowOf0_row _ _).trans (congrArg (fun a => curRow2 a 0) (W6_arg12 m ρ c)))
            ((rowOf0_row _ _).trans (congrArg (fun a => curRow2 a 0) (W6_arg13 m ρ c)))

theorem W8_v81 (p : Fin 100000) (q : Fin 128) :
    (W8 m ρ c (Proc.devRef .tc main_v81) : NArr) (ix2 p q) = bnK (A2 m ρ c) ((P0 m ρ c).g3 0) ((P0 m ρ c).be3 0) p q :=
  (congrFun (W8_arr m ρ c 3) (ix2 p q)).trans
    ((Region3.out_eq (V7 m ρ) c p q).trans
      (congrFun (congrFun (affRelu_congr (x := W7 m ρ c (Proc.devRef .tc main_v62_0)) (W7_v62_0 m ρ c) (W7_v75 m ρ c) (W7_v80 m ρ c)) p) q))

theorem layer0_x : (W8 m ρ c (Proc.devRef .tc main_v81) : NArr)
    = stepK (fun X => Cert.Agg.aggK X (Cert.Agg.srcK (W0 m ρ c (Proc.devRef .tc main_arg1))) (Cert.Agg.dstK (W0 m ρ c (Proc.devRef .tc main_arg1))))
        (paramsOf (W0 m ρ c (Proc.devRef .tc main_arg4)) (W0 m ρ c (Proc.devRef .tc main_arg5)) (W0 m ρ c (Proc.devRef .tc main_arg6))
          (W0 m ρ c (Proc.devRef .tc main_arg7)) (W0 m ρ c (Proc.devRef .tc main_arg8)) (W0 m ρ c (Proc.devRef .tc main_arg9))
          (W0 m ρ c (Proc.devRef .tc main_arg10)) (W0 m ρ c (Proc.devRef .tc main_arg11)) (W0 m ρ c (Proc.devRef .tc main_arg12))
          (W0 m ρ c (Proc.devRef .tc main_arg13))) 0 (W0 m ρ c (Proc.devRef .tc main_arg0)) :=
  narr_ext fun p q => (W8_v81 m ρ c p q).trans rfl

end Cert.KernelIdeal.Chain

end
-- ==== Proof.KShared.lean ====
import proofs.«108002_j23673859736037_1_alg».proof.Proof.Gen.KernelIdeal
import Idealize.ShloMosaic.Lib.Pipeline.Value
import Idealize.ShloMosaic.Lib.ValueIdx
import Idealize.ShloMosaic.Lib.ValueLayout

noncomputable section

namespace Cert.KernelIdeal.Chain

open Idealize.ShloMosaic Idealize.ShloMosaic.ValueIdx
open Cert.KernelIdeal

section Stack

variable {α : Type}

theorem stackMat_apply {n a b : ℕ} (o : ℕ) (X : (⟨3, ![n, a, b]⟩ : Shape).Idx → α)
    (hs : (⟨3, ![n, a, b]⟩ : Shape).Slices ![o, 0, 0] ⟨3, ![1, a, b]⟩)
    (hc : (⟨3, ![1, a, b]⟩ : Shape).ShapeCasts ⟨2, ![a, b]⟩) (l : Fin n) (hl : l.val = o) (i : Fin a) (j : Fin b) :
    shapeCast ⟨2, ![a, b]⟩ (extractStridedSlice ⟨3, ![1, a, b]⟩ ![o, 0, 0] X hs) hc (ix2 i j) = X (ix3 l i j) := by
  rw [shapeCast_1ab_ab_apply]
  exact extractStridedSlice_apply _ _ _ _ _ (fun ax => by
    match ax with
    | ⟨0, _⟩ => exact hl.trans (Nat.add_zero _).symm
    | ⟨1, _⟩ => exact (Nat.zero_add _).symm
    | ⟨2, _⟩ => exact (Nat.zero_add _).symm)

theorem stackRow_apply {n a : ℕ} (o : ℕ) (X : (⟨2, ![n, a]⟩ : Shape).Idx → α)
    (hs : (⟨2, ![n, a]⟩ : Shape).Slices ![o, 0] ⟨2, ![1, a]⟩) (h1 : (⟨2, ![1, a]⟩ : Shape).ShapeCasts ⟨1, ![a]⟩)
    (h2 : (⟨1, ![a]⟩ : Shape).ShapeCasts ⟨2, ![1, a]⟩) (l : Fin n) (hl : l.val = o) (j : Fin a) :
    shapeCast ⟨2, ![1, a]⟩ (shapeCast ⟨1, ![a]⟩ (extractStridedSlice ⟨2, ![1, a]⟩ ![o, 0] X hs) h1) h2 (ix2 0 j)
      = X (ix2 l j) := by
  rw [shapeCast_a_1a_apply, shapeCast_1a_a_apply]
  exact slice2_axis0_apply o X hs 0 j l (by rw [hl]; rfl)

end Stack

abbrev keepL : List (Ref sig .tc) :=
  [main_v1, main_v3, main_arg0, main_arg1, main_arg2, main_arg3, main_arg4, main_arg5, main_arg6, main_arg7, main_arg8, main_arg9, main_arg10, main_arg11, main_arg12, main_arg13, main_arg14, main_arg15, main_arg16, main_arg17, main_arg18, main_arg19]

end Cert.KernelIdeal.Chain

end
-- ==== Proof.KLayer1.lean ====
import proofs.«108002_j23673859736037_1_alg».proof.Proof.Gen.KernelIdeal.Launch
import proofs.«108002_j23673859736037_1_alg».proof.Proof.Spec
import proofs.«108002_j23673859736037_1_alg».proof.Proof.ChainDefs
import proofs.«108002_j23673859736037_1_alg».proof.Proof.Agg
import proofs.«108002_j23673859736037_1_alg».proof.Proof.KStats
import proofs.«108002_j23673859736037_1_alg».proof.Proof.KShared
import Idealize.ShloMosaic.Lib.StableHlo.Run
import Idealize.ShloMosaic.Lib.ValueLayout
import Idealize.ShloMosaic.Lib.Pipeline.Value

set_option maxRecDepth 16384

noncomputable section

namespace Cert.KernelIdeal.Chain.L1

open Idealize.ShloMosaic Idealize.ShloMosaic.TcCoe Idealize.ShloMosaic.ValueIdx
open Cert.KernelIdeal Cert.KernelIdeal.Gen Cert.Spec

theorem matL (X : S4x128x128.Idx → EReal) (k q : Fin 128) :
    shapeCast S128x128 (extractStridedSlice S1x128x128 _ X slices_S4x128x128_S1x128x128_1_0_0) shapeCasts_S1x128x128_S128x128 (ix2 k q)
      = X (ix3 (1 : Fin 4) k q) :=
  stackMat_apply _ X slices_S4x128x128_S1x128x128_1_0_0 shapeCasts_S1x128x128_S128x128 (1 : Fin 4) rfl k q

theorem rowL (X : S4x128.Idx → EReal) (q : Fin 128) :
    shapeCast S1x128 (shapeCast S128 (extractStridedSlice S1x128 _ X slices_S4x128_S1x128_1_0) shapeCasts_S1x128_S128) shapeCasts_S128_S1x128 (ix2 0 q)
      = X (ix2 (1 : Fin 4) q) :=
  stackRow_apply _ X slices_S4x128_S1x128_1_0 shapeCasts_S1x128_S128 shapeCasts_S128_S1x128 (1 : Fin 4) rfl q

section Stretches

variable (W : Valuation τ sig (Elt Ideal))

set_option maxHeartbeats 400000 in
theorem s4_agg : StableHlo.after hostOps4 W (Proc.devRef .tc main_v91)
    = Cert.Agg.aggK (W (Proc.devRef .tc main_v81)) (W (Proc.devRef .tc main_v1)) (W (Proc.devRef .tc main_v3)) := by
  after_results_simp
  rfl

set_option maxHeartbeats 400000 in
theorem s4_W1 : curM (StableHlo.after hostOps4 W (Proc.devRef .tc main_v93)) = curM3 (W (Proc.devRef .tc main_arg4)) (1 : Fin 4) := by
  funext k q
  show StableHlo.after hostOps4 W (Proc.devRef .tc main_v93) (ix2 k q) = W (Proc.devRef .tc main_arg4) (ix3 (1 : Fin 4) k q)
  after_results_simp
  exact matL (W (Proc.devRef .tc main_arg4)) k q

set_option maxHeartbeats 400000 in
theorem s4_b1 : curRow (StableHlo.after hostOps4 W (Proc.devRef .tc main_v96)) = curRow2 (W (Proc.devRef .tc main_arg5)) (1 : Fin 4) := by
  funext q
  show StableHlo.after hostOps4 W (Proc.devRef .tc main_v96) (ix2 0 q) = W (Proc.devRef .tc main_arg5) (ix2 (1 : Fin 4) q)
  after_results_simp
  exact rowL (W (Proc.devRef .tc main_arg5)) q

abbrev hostOps4_W : List (Ref sig .tc) :=
  [main_c_10, main_v82, main_v83, main_c_11, main_v84, main_v85, main_v86, main_v87, main_v88, main_cst_12, main_v89, main_v90, main_v91, main_v92, main_v93, main_v94, main_v95, main_v96]

theorem hostOps4_writes : (hostOps4 : List (HloOp τ sig (Elt Ideal))).Forall fun op =>
    op.writes ⊆ (hostOps4_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem s4_keep (b : Ref sig .tc) (hb : b ∉ hostOps4_W) :
    StableHlo.after hostOps4 W (Proc.devRef .tc b) = W (Proc.devRef .tc b) :=
  StableHlo.after_of_writes_sub hostOps4 _ hostOps4_writes hb

set_option maxHeartbeats 400000 in
theorem s5_scale : curRow (StableHlo.after hostOps5 W (Proc.devRef .tc main_v110))
    = scaleK (curRow (W (Proc.devRef .tc main_v97_1))) (curRow (W (Proc.devRef .tc main_v97_2)))
        (curRow2 (W (Proc.devRef .tc main_arg6)) (1 : Fin 4)) := by
  funext q
  show StableHlo.after hostOps5 W (Proc.devRef .tc main_v110) (ix2 0 q) = _
  after_results_simp
  refine (Stats.scale_apply bcast_S_S1x128 _ _ _ q).trans ?_
  exact congrArg (fun g : Row => scaleK _ _ g q) (funext fun q' => rowL (W (Proc.devRef .tc main_arg6)) q')

set_option maxHeartbeats 400000 in
theorem s5_shift : curRow (StableHlo.after hostOps5 W (Proc.devRef .tc main_v115))
    = shiftK (curRow (W (Proc.devRef .tc main_v97_1))) (curRow (W (Proc.devRef .tc main_v97_2)))
        (curRow2 (W (Proc.devRef .tc main_arg6)) (1 : Fin 4)) (curRow2 (W (Proc.devRef .tc main_arg7)) (1 : Fin 4)) := by
  funext q
  show StableHlo.after hostOps5 W (Proc.devRef .tc main_v115) (ix2 0 q) = _
  after_results_simp
  refine (Stats.shift_apply bcast_S_S1x128 _ _ _ _ q).trans ?_
  exact congrArg₂ (fun g be : Row => shiftK _ _ g be q) (funext fun q' => rowL (W (Proc.devRef .tc main_arg6)) q')
    (funext fun q' => rowL (W (Proc.devRef .tc main_arg7)) q')

set_option maxHeartbeats 400000 in
theorem s5_W2 : curM (StableHlo.after hostOps5 W (Proc.devRef .tc main_v117)) = curM3 (W (Proc.devRef .tc main_arg8)) (1 : Fin 4) := by
  funext k q
  show StableHlo.after hostOps5 W (Proc.devRef .tc main_v117) (ix2 k q) = W (Proc.devRef .tc main_arg8) (ix3 (1 : Fin 4) k q)
  after_results_simp
  exact matL (W (Proc.devRef .tc main_arg8)) k q

set_option maxHeartbeats 400000 in
theorem s5_b2 : curRow (StableHlo.after hostOps5 W (Proc.devRef .tc main_v120)) = curRow2 (W (Proc.devRef .tc main_arg9)) (1 : Fin 4) := by
  funext q
  show StableHlo.after hostOps5 W (Proc.devRef .tc main_v120) (ix2 0 q) = W (Proc.devRef .tc main_arg9) (ix2 (1 : Fin 4) q)
  after_results_simp
  exact rowL (W (Proc.devRef .tc main_arg9)) q

abbrev hostOps5_W : List (Ref sig .tc) :=
  [main_cst_13, main_v98, main_v99, main_cst_14, main_v100, main_v101, main_v102, main_v103, main_v104, main_v105, main_v106, main_cst_15, main_v107, main_v108, main_v109, main_v110, main_v111, main_v112, main_v113, main_v114, main_v115, main_v116, main_v117, main_v118, main_v119, main_v120]

theorem hostOps5_writes : (hostOps5 : List (HloOp τ sig (Elt Ideal))).Forall fun op =>
    op.writes ⊆ (hostOps5_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem s5_keep (b : Ref sig .tc) (hb : b ∉ hostOps5_W) :
    StableHlo.after hostOps5 W (Proc.devRef .tc b) = W (Proc.devRef .tc b) :=
  StableHlo.after_of_writes_sub hostOps5 _ hostOps5_writes hb

set_option maxHeartbeats 400000 in
theorem s6_scale : curRow (StableHlo.after hostOps6 W (Proc.devRef .tc main_v134))
    = scaleK (curRow (W (Proc.devRef .tc main_v121_1))) (curRow (W (Proc.devRef .tc main_v121_2)))
        (curRow2 (W (Proc.devRef .tc main_arg10)) (1 : Fin 4)) := by
  funext q
  show StableHlo.after hostOps6 W (Proc.devRef .tc main_v134) (ix2 0 q) = _
  after_results_simp
  refine (Stats.scale_apply bcast_S_S1x128 _ _ _ q).trans ?_
  exact congrArg (fun g : Row => scaleK _ _ g q) (funext fun q' => rowL (W (Proc.devRef .tc main_arg10)) q')

set_option maxHeartbeats 400000 in
theorem s6_shift : curRow (StableHlo.after hostOps6 W (Proc.devRef .tc main_v139))
    = shiftK (curRow (W (Proc.devRef .tc main_v121_1))) (curRow (W (Proc.devRef .tc main_v121_2)))
        (curRow2 (W (Proc.devRef .tc main_arg10)) (1 : Fin 4)) (curRow2 (W (Proc.devRef .tc main_arg11)) (1 : Fin 4)) := by
  funext q
  show StableHlo.after hostOps6 W (Proc.devRef .tc main_v139) (ix2 0 q) = _
  after_results_simp
  refine (Stats.shift_apply bcast_S_S1x128 _ _ _ _ q).trans ?_
  exact congrArg₂ (fun g be : Row => shiftK _ _ g be q) (funext fun q' => rowL (W (Proc.devRef .tc main_arg10)) q')
    (funext fun q' => rowL (W (Proc.devRef .tc main_arg11)) q')

abbrev hostOps6_W : List (Ref sig .tc) :=
  [main_cst_16, main_v122, main_v123, main_cst_17, main_v124, main_v125, main_v126, main_v127, main_v128, main_v129, main_v130, main_cst_18, main_v131, main_v132, main_v133, main_v134, main_v135, main_v136, main_v137, main_v138, main_v139]

theorem hostOps6_writes : (hostOps6 : List (HloOp τ sig (Elt Ideal))).Forall fun op =>
    op.writes ⊆ (hostOps6_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem s6_keep (b : Ref sig .tc) (hb : b ∉ hostOps6_W) :
    StableHlo.after hostOps6 W (Proc.devRef .tc b) = W (Proc.devRef .tc b) :=
  StableHlo.after_of_writes_sub hostOps6 _ hostOps6_writes hb

set_option maxHeartbeats 400000 in
theorem s7_scale : curRow (StableHlo.after hostOps7 W (Proc.devRef .tc main_v153))
    = scaleK (curRow (W (Proc.devRef .tc main_v140_1))) (curRow (W (Proc.devRef .tc main_v140_2)))
        (curRow2 (W (Proc.devRef .tc main_arg12)) (1 : Fin 4)) := by
  funext q
  show StableHlo.after hostOps7 W (Proc.devRef .tc main_v153) (ix2 0 q) = _
  after_results_simp
  refine (Stats.scale_apply bcast_S_S1x128 _ _ _ q).trans ?_
  exact congrArg (fun g : Row => scaleK _ _ g q) (funext fun q' => rowL (W (Proc.devRef .tc main_arg12)) q')

set_option maxHeartbeats 400000 in
theorem s7_shift : curRow (StableHlo.after hostOps7 W (Proc.devRef .tc main_v158))
    = shiftK (curRow (W (Proc.devRef .tc main_v140_1))) (curRow (W (Proc.devRef .tc main_v140_2)))
        (curRow2 (W (Proc.devRef .tc main_arg12)) (1 : Fin 4)) (curRow2 (W (Proc.devRef .tc main_arg13)) (1 : Fin 4)) := by
  funext q
  show StableHlo.after hostOps7 W (Proc.devRef .tc main_v158) (ix2 0 q) = _
  after_results_simp
  refine (Stats.shift_apply bcast_S_S1x128 _ _ _ _ q).trans ?_
  exact congrArg₂ (fun g be : Row => shiftK _ _ g be q) (funext fun q' => rowL (W (Proc.devRef .tc main_arg12)) q')
    (funext fun q' => rowL (W (Proc.devRef .tc main_arg13)) q')

abbrev hostOps7_W : List (Ref sig .tc) :=
  [main_cst_19, main_v141, main_v142, main_cst_20, main_v143, main_v144, main_v145, main_v146, main_v147, main_v148, main_v149, main_cst_21, main_v150, main_v151, main_v152, main_v153, main_v154, main_v155, main_v156, main_v157, main_v158]

theorem hostOps7_writes : (hostOps7 : List (HloOp τ sig (Elt Ideal))).Forall fun op =>
    op.writes ⊆ (hostOps7_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem s7_keep (b : Ref sig .tc) (hb : b ∉ hostOps7_W) :
    StableHlo.after hostOps7 W (Proc.devRef .tc b) = W (Proc.devRef .tc b) :=
  StableHlo.after_of_writes_sub hostOps7 _ hostOps7_writes hb

end Stretches

open Cert.Chain

def r4 (V : Valuation τ sig (Elt Ideal)) : Arr :=
  lin (add (curA (V (Proc.devRef .tc main_v81))) (curA (V (Proc.devRef .tc main_v91))))
    (curM (V (Proc.devRef .tc main_v93))) (curRow (V (Proc.devRef .tc main_v96)))

def r5 (V : Valuation τ sig (Elt Ideal)) : Arr :=
  lin (affRelu (curA (V (Proc.devRef .tc main_v97_0))) (curRow (V (Proc.devRef .tc main_v110))) (curRow (V (Proc.devRef .tc main_v115))))
    (curM (V (Proc.devRef .tc main_v117))) (curRow (V (Proc.devRef .tc main_v120)))

def r6 (V : Valuation τ sig (Elt Ideal)) : Arr :=
  affRelu (curA (V (Proc.devRef .tc main_v121_0))) (curRow (V (Proc.devRef .tc main_v134))) (curRow (V (Proc.devRef .tc main_v139)))

def r7 (V : Valuation τ sig (Elt Ideal)) : Arr :=
  affRelu (curA (V (Proc.devRef .tc main_v140_0))) (curRow (V (Proc.devRef .tc main_v153))) (curRow (V (Proc.devRef .tc main_v158)))

structure LayerRun (E0 X4 X5 X6 X7 : Valuation τ sig (Elt Ideal)) : Prop where
  o4 : curA (X4 (Proc.devRef .tc main_v97_0)) = r4 (StableHlo.after hostOps4 E0)
  s4 : curRow (X4 (Proc.devRef .tc main_v97_1)) = colsum (r4 (StableHlo.after hostOps4 E0))
  t4 : curRow (X4 (Proc.devRef .tc main_v97_2)) = colsumsq (r4 (StableHlo.after hostOps4 E0))
  k4 : ∀ b : Ref sig .tc, (∀ w, Pipeline.arrRef spec4 w ≠ b) → X4 (Proc.devRef .tc b) = StableHlo.after hostOps4 E0 (Proc.devRef .tc b)
  o5 : curA (X5 (Proc.devRef .tc main_v121_0)) = r5 (StableHlo.after hostOps5 X4)
  s5 : curRow (X5 (Proc.devRef .tc main_v121_1)) = colsum (r5 (StableHlo.after hostOps5 X4))
  t5 : curRow (X5 (Proc.devRef .tc main_v121_2)) = colsumsq (r5 (StableHlo.after hostOps5 X4))
  k5 : ∀ b : Ref sig .tc, (∀ w, Pipeline.arrRef spec5 w ≠ b) → X5 (Proc.devRef .tc b) = StableHlo.after hostOps5 X4 (Proc.devRef .tc b)
  o6 : curA (X6 (Proc.devRef .tc main_v140_0)) = r6 (StableHlo.after hostOps6 X5)
  s6 : curRow (X6 (Proc.devRef .tc main_v140_1)) = colsum (r6 (StableHlo.after hostOps6 X5))
  t6 : curRow (X6 (Proc.devRef .tc main_v140_2)) = colsumsq (r6 (StableHlo.after hostOps6 X5))
  k6 : ∀ b : Ref sig .tc, (∀ w, Pipeline.arrRef spec6 w ≠ b) → X6 (Proc.devRef .tc b) = StableHlo.after hostOps6 X5 (Proc.devRef .tc b)
  o7 : curA (X7 (Proc.devRef .tc main_v159)) = r7 (StableHlo.after hostOps7 X6)
  k7 : ∀ b : Ref sig .tc, (∀ w, Pipeline.arrRef spec7 w ≠ b) → X7 (Proc.devRef .tc b) = StableHlo.after hostOps7 X6 (Proc.devRef .tc b)

section Arrays

variable (E0 : Valuation τ sig (Elt Ideal))

def prm : Params :=
  paramsOf (E0 (Proc.devRef .tc main_arg4)) (E0 (Proc.devRef .tc main_arg5)) (E0 (Proc.devRef .tc main_arg6)) (E0 (Proc.devRef .tc main_arg7))
    (E0 (Proc.devRef .tc main_arg8)) (E0 (Proc.devRef .tc main_arg9)) (E0 (Proc.devRef .tc main_arg10)) (E0 (Proc.devRef .tc main_arg11))
    (E0 (Proc.devRef .tc main_arg12)) (E0 (Proc.devRef .tc main_arg13))

def nbr (X : NArr) : NArr := Cert.Agg.aggK X (E0 (Proc.devRef .tc main_v1)) (E0 (Proc.devRef .tc main_v3))

def A4 : Arr :=
  lin (add (curA (E0 (Proc.devRef .tc main_v81))) (curA (nbr E0 (E0 (Proc.devRef .tc main_v81))))) ((prm E0).W1 (1 : Fin 4)) ((prm E0).b1 (1 : Fin 4))
def A5 : Arr := lin (bnK (A4 E0) ((prm E0).g1 (1 : Fin 4)) ((prm E0).be1 (1 : Fin 4))) ((prm E0).W2 (1 : Fin 4)) ((prm E0).b2 (1 : Fin 4))
def A6 : Arr := bnK (A5 E0) ((prm E0).g2 (1 : Fin 4)) ((prm E0).be2 (1 : Fin 4))
def A7 : Arr := bnK (A6 E0) ((prm E0).g3 (1 : Fin 4)) ((prm E0).be3 (1 : Fin 4))

theorem step_eq : stepK (nbr E0) (prm E0) (1 : Fin 4) (E0 (Proc.devRef .tc main_v81)) = uncA (A7 E0) := rfl

end Arrays

theorem keepL_W4 : ∀ b ∈ keepL, b ∉ hostOps4_W := by decide
theorem keepL_W5 : ∀ b ∈ keepL, b ∉ hostOps5_W := by decide
theorem keepL_W6 : ∀ b ∈ keepL, b ∉ hostOps6_W := by decide
theorem keepL_W7 : ∀ b ∈ keepL, b ∉ hostOps7_W := by decide
theorem keepL_spec4 : ∀ b ∈ keepL, ∀ w, Pipeline.arrRef spec4 w ≠ b := by decide
theorem keepL_spec5 : ∀ b ∈ keepL, ∀ w, Pipeline.arrRef spec5 w ≠ b := by decide
theorem keepL_spec6 : ∀ b ∈ keepL, ∀ w, Pipeline.arrRef spec6 w ≠ b := by decide
theorem keepL_spec7 : ∀ b ∈ keepL, ∀ w, Pipeline.arrRef spec7 w ≠ b := by decide

namespace LayerRun

variable {E0 X4 X5 X6 X7 : Valuation τ sig (Elt Ideal)} (h : LayerRun E0 X4 X5 X6 X7)
include h

theorem keep4 (b : Ref sig .tc) (hb : b ∈ keepL) : X4 (Proc.devRef .tc b) = E0 (Proc.devRef .tc b) :=
  (h.k4 b (keepL_spec4 b hb)).trans (s4_keep E0 b (keepL_W4 b hb))

theorem keep5 (b : Ref sig .tc) (hb : b ∈ keepL) : X5 (Proc.devRef .tc b) = E0 (Proc.devRef .tc b) :=
  (h.k5 b (keepL_spec5 b hb)).trans ((s5_keep X4 b (keepL_W5 b hb)).trans (h.keep4 b hb))

theorem keep6 (b : Ref sig .tc) (hb : b ∈ keepL) : X6 (Proc.devRef .tc b) = E0 (Proc.devRef .tc b) :=
  (h.k6 b (keepL_spec6 b hb)).trans ((s6_keep X5 b (keepL_W6 b hb)).trans (h.keep5 b hb))

theorem keep (b : Ref sig .tc) (hb : b ∈ keepL) : X7 (Proc.devRef .tc b) = E0 (Proc.devRef .tc b) :=
  (h.k7 b (keepL_spec7 b hb)).trans ((s7_keep X6 b (keepL_W7 b hb)).trans (h.keep6 b hb))

theorem a4 : r4 (StableHlo.after hostOps4 E0) = A4 E0 := by
  unfold r4
  rw [s4_keep E0 main_v81 (by decide), s4_agg, s4_W1, s4_b1]
  rfl

theorem a5 : r5 (StableHlo.after hostOps5 X4) = A5 E0 := by
  unfold r5
  rw [s5_keep X4 main_v97_0 (by decide), s5_scale, s5_shift, s5_W2, s5_b2, h.o4, h.s4, h.t4, h.a4,
    h.keep4 main_arg6 (by decide), h.keep4 main_arg7 (by decide), h.keep4 main_arg8 (by decide), h.keep4 main_arg9 (by decide)]
  rfl

theorem a6 : r6 (StableHlo.after hostOps6 X5) = A6 E0 := by
  unfold r6
  rw [s6_keep X5 main_v121_0 (by decide), s6_scale, s6_shift, h.o5, h.s5, h.t5, h.a5,
    h.keep5 main_arg10 (by decide), h.keep5 main_arg11 (by decide)]
  rfl

theorem a7 : r7 (StableHlo.after hostOps7 X6) = A7 E0 := by
  unfold r7
  rw [s7_keep X6 main_v140_0 (by decide), s7_scale, s7_shift, h.o6, h.s6, h.t6, h.a6,
    h.keep6 main_arg12 (by decide), h.keep6 main_arg13 (by decide)]
  rfl

theorem x : X7 (Proc.devRef .tc main_v159) = stepK (nbr E0) (prm E0) (1 : Fin 4) (E0 (Proc.devRef .tc main_v81)) := by
  rw [step_eq, ← h.a7, ← h.o7]
  exact (uncA_curA _).symm

end LayerRun

end Cert.KernelIdeal.Chain.L1

end
-- ==== Proof.Region4.lean ====
import proofs.«108002_j23673859736037_1_alg».proof.Proof.Region0

set_option maxRecDepth 16384

noncomputable section

namespace Cert.KernelIdeal.Region4

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen
open scoped BigOperators

section Pay
variable {F : FTy → Type} [FloatOps F] (x0 x1 : Vec F S5000x128 .f32) (w : Vec F S128x128 .f32) (b acc : Vec F S1x128 .f32)

-- This region's payloads are the first region's, up to casts of a shape to itself.
theorem pay1_eq : k4_pay1 x0 x1 w b = k0_pay1 x0 x1 w b := by
  unfold k4_pay1 k0_pay1
  simp only [shapeCast_self]

theorem pay4_eq : k4_pay4 x0 x1 w b acc = k0_pay4 x0 x1 w b acc := by
  unfold k4_pay4 k0_pay4
  rw [pay1_eq]

theorem pay5_eq : k4_pay5 x0 x1 w b acc = k0_pay5 x0 x1 w b acc := by
  unfold k4_pay5 k0_pay5
  rw [pay1_eq]

end Pay

section Pieces
variable {F : FTy → Type} [FloatOps F] {c : Dev nD} {i : grid4.Coords}
  {arg1 : Memref sig .tc .vmem S5000x128 .f32} {harg1 : arg1.IsWhole} {arg2 : Memref sig .tc .vmem S5000x128 .f32} {harg2 : arg2.IsWhole}
  {arg3 : Memref sig .tc .vmem S128x128 .f32} {harg3 : arg3.IsWhole} {arg4 : Memref sig .tc .vmem S1x128 .f32} {harg4 : arg4.IsWhole}
  {arg5 : Memref sig .tc .vmem S5000x128 .f32} {harg5 : arg5.IsWhole} {arg6 : Memref sig .tc .vmem S1x128 .f32} {harg6 : arg6.IsWhole}
  {arg7 : Memref sig .tc .vmem S1x128 .f32} {harg7 : arg7.IsWhole}
  (x0 x1 : Vec F S5000x128 .f32) (x2 : Vec F S128x128 .f32) (x3 xo5 xo6 : Vec F S1x128 .f32)

-- What each case of the body leaves in the three output blocks.
theorem out_A {hc0 : cond4_0 i} :
    (out4_A_4 c i arg1 harg1 arg2 harg2 arg3 harg3 arg4 harg4 arg5 harg5 arg6 harg6 arg7 harg7 hc0 x0 x1 x2 x3, out4_A_5 c i arg1 harg1 arg2 harg2 arg3 harg3 arg4 harg4 arg5 harg5 arg6 harg6 arg7 harg7 hc0 x0 x1 x2 x3, out4_A_6 c i arg1 harg1 arg2 harg2 arg3 harg3 arg4 harg4 arg5 harg5 arg6 harg6 arg7 harg7 hc0 x0 x1 x2 x3)
      = (k0_pay1 x0 x1 x2 x3, k0_pay4 x0 x1 x2 x3 (k0_pay2 (F := F)), k0_pay5 x0 x1 x2 x3 (k0_pay3 (F := F))) := by
  refine congrArg₂ Prod.mk ?_ (congrArg₂ Prod.mk ?_ ?_)
    <;> (first | unfold out4_A_4 | unfold out4_A_5 | unfold out4_A_6)
    <;> (first
      | rw [View.read_writes_eq_canon _ _ _ (cover4_A_4 c i arg1 harg1 arg2 harg2 arg3 harg3 arg4 harg4 arg5 harg5 arg6 harg6 arg7 harg7 hc0 x0 x1 x2 x3)]
      | rw [View.read_writes_eq_canon _ _ _ (cover4_A_5 c i arg1 harg1 arg2 harg2 arg3 harg3 arg4 harg4 arg5 harg5 arg6 harg6 arg7 harg7 hc0 x0 x1 x2 x3)]
      | rw [View.read_writes_eq_canon _ _ _ (cover4_A_6 c i arg1 harg1 arg2 harg2 arg3 harg3 arg4 harg4 arg5 harg5 arg6 harg6 arg7 harg7 hc0 x0 x1 x2 x3)])
    <;> unfold kernelRun4_A
    <;> dsimp only
    <;> sl_unfold_words
    <;> (first
      | rw [View.canon_unit_zero Region0.hz]
      | rw [View.canon_cons_unit_zero (S := S1x128) Region0.hz, View.readCov_unit_zero (S := S1x128) _ Region0.hz])
    <;> simp only [View.readAt_eq_ld, harg1.read_unread, harg2.read_unread, harg3.read_unread, harg4.read_unread, harg6.read_unread, harg7.read_unread, View.ld_unit_zero (S := S5000x128) Region0.hz, View.ld_unit_zero (S := S128x128) Region0.hz, View.ld_unit_zero (S := S1x128) Region0.hz]
    <;> (first | exact pay1_eq _ _ _ _ | exact pay4_eq _ _ _ _ _ | exact pay5_eq _ _ _ _ _)

theorem out_B {hc0 : ¬cond4_0 i} :
    (out4_B_4 c i arg1 harg1 arg2 harg2 arg3 harg3 arg4 harg4 arg5 harg5 arg6 harg6 arg7 harg7 hc0 x0 x1 x2 x3 xo5 xo6, out4_B_5 c i arg1 harg1 arg2 harg2 arg3 harg3 arg4 harg4 arg5 harg5 arg6 harg6 arg7 harg7 hc0 x0 x1 x2 x3 xo5 xo6, out4_B_6 c i arg1 harg1 arg2 harg2 arg3 harg3 arg4 harg4 arg5 harg5 arg6 harg6 arg7 harg7 hc0 x0 x1 x2 x3 xo5 xo6)
      = (k0_pay1 x0 x1 x2 x3, k0_pay4 x0 x1 x2 x3 xo5, k0_pay5 x0 x1 x2 x3 xo6) := by
  refine congrArg₂ Prod.mk ?_ (congrArg₂ Prod.mk ?_ ?_)
    <;> (first | unfold out4_B_4 | unfold out4_B_5 | unfold out4_B_6)
    <;> (first
      | rw [View.read_writes_eq_canon _ _ _ (cover4_B_4 c i arg1 harg1 arg2 harg2 arg3 harg3 arg4 harg4 arg5 harg5 arg6 harg6 arg7 harg7 hc0 x0 x1 x2 x3 xo5 xo6)]
      | rw [View.read_writes_eq_canon _ _ _ (cover4_B_5 c i arg1 harg1 arg2 harg2 arg3 harg3 arg4 harg4 arg5 harg5 arg6 harg6 arg7 harg7 hc0 x0 x1 x2 x3 xo5 xo6)]
      | rw [View.read_writes_eq_canon _ _ _ (cover4_B_6 c i arg1 harg1 arg2 harg2 arg3 harg3 arg4 harg4 arg5 harg5 arg6 harg6 arg7 harg7 hc0 x0 x1 x2 x3 xo5 xo6)])
    <;> unfold kernelRun4_B
    <;> dsimp only
    <;> sl_unfold_words
    <;> (first
      | rw [View.canon_unit_zero Region0.hz]
      | rw [View.canon_cons_unit_zero (S := S1x128) Region0.hz, View.readCov_unit_zero (S := S1x128) _ Region0.hz])
    <;> simp only [View.readAt_eq_ld, harg1.read_unread, harg2.read_unread, harg3.read_unread, harg4.read_unread, harg6.read_unread, harg7.read_unread, View.ld_unit_zero (S := S5000x128) Region0.hz, View.ld_unit_zero (S := S128x128) Region0.hz, View.ld_unit_zero (S := S1x128) Region0.hz]
    <;> (first | exact pay1_eq _ _ _ _ | exact pay4_eq _ _ _ _ _ | exact pay5_eq _ _ _ _ _)

end Pieces

theorem idx_facts : ∀ t : Fin grid4.N,
    (win4_0.index t (0 : Fin 2) = t.val ∧ win4_0.index t (1 : Fin 2) = 0)
    ∧ (win4_1.index t (0 : Fin 2) = t.val ∧ win4_1.index t (1 : Fin 2) = 0)
    ∧ (win4_2.index t (0 : Fin 2) = 0 ∧ win4_2.index t (1 : Fin 2) = 0)
    ∧ (win4_3.index t (0 : Fin 2) = 0 ∧ win4_3.index t (1 : Fin 2) = 0)
    ∧ (win4_4.index t (0 : Fin 2) = t.val ∧ win4_4.index t (1 : Fin 2) = 0)
    ∧ (win4_5.index t (0 : Fin 2) = 0 ∧ win4_5.index t (1 : Fin 2) = 0)
    ∧ (win4_6.index t (0 : Fin 2) = 0 ∧ win4_6.index t (1 : Fin 2) = 0) := by decide +kernel

section Blocks
variable (t : Fin cfg4.N)

-- Row `r` of block `t` of a row-blocked window sits at row `5000 t + r` of its array.
theorem emb0 (r : Fin 5000) (q : Fin 128) (p : Fin 100000) (hp : p.val = 5000 * t.val + r.val) :
    (((cfg4.win 0).blk t).view.emb (ix2 r q) : S100000x128.Idx) = ix2 p q := by
  obtain ⟨⟨e0, e1⟩, -⟩ := idx_facts t
  refine funext fun a => Fin.ext ?_
  match a with
  | ⟨0, _⟩ => show win4_0.index t (0 : Fin 2) * 5000 + 1 * r.val = p.val; rw [e0, hp]; omega
  | ⟨1, _⟩ => show win4_0.index t (1 : Fin 2) * 128 + 1 * q.val = q.val; rw [e1]; omega

theorem emb1 (r : Fin 5000) (q : Fin 128) (p : Fin 100000) (hp : p.val = 5000 * t.val + r.val) :
    (((cfg4.win 1).blk t).view.emb (ix2 r q) : S100000x128.Idx) = ix2 p q := by
  obtain ⟨-, ⟨e0, e1⟩, -⟩ := idx_facts t
  refine funext fun a => Fin.ext ?_
  match a with
  | ⟨0, _⟩ => show win4_1.index t (0 : Fin 2) * 5000 + 1 * r.val = p.val; rw [e0, hp]; omega
  | ⟨1, _⟩ => show win4_1.index t (1 : Fin 2) * 128 + 1 * q.val = q.val; rw [e1]; omega

theorem emb4 (r : Fin 5000) (q : Fin 128) (p : Fin 100000) (hp : p.val = 5000 * t.val + r.val) :
    (((cfg4.win 4).blk t).view.emb (ix2 r q) : S100000x128.Idx) = ix2 p q := by
  obtain ⟨-, -, -, -, ⟨e0, e1⟩, -⟩ := idx_facts t
  refine funext fun a => Fin.ext ?_
  match a with
  | ⟨0, _⟩ => show win4_4.index t (0 : Fin 2) * 5000 + 1 * r.val = p.val; rw [e0, hp]; omega
  | ⟨1, _⟩ => show win4_4.index t (1 : Fin 2) * 128 + 1 * q.val = q.val; rw [e1]; omega

-- A window with one block: the block is the whole array.
theorem emb2 (k q : Fin 128) : (((cfg4.win 2).blk t).view.emb (ix2 k q) : S128x128.Idx) = ix2 k q := by
  obtain ⟨-, -, ⟨e0, e1⟩, -⟩ := idx_facts t
  refine funext fun a => Fin.ext ?_
  match a with
  | ⟨0, _⟩ => show win4_2.index t (0 : Fin 2) * 128 + 1 * k.val = k.val; rw [e0]; omega
  | ⟨1, _⟩ => show win4_2.index t (1 : Fin 2) * 128 + 1 * q.val = q.val; rw [e1]; omega

theorem emb3 (q : Fin 128) : (((cfg4.win 3).blk t).view.emb (ix2 0 q) : S1x128.Idx) = ix2 0 q := by
  obtain ⟨-, -, -, ⟨e0, e1⟩, -⟩ := idx_facts t
  refine funext fun a => Fin.ext ?_
  match a with
  | ⟨0, _⟩ => show win4_3.index t (0 : Fin 2) * 1 + 1 * 0 = 0; rw [e0]
  | ⟨1, _⟩ => show win4_3.index t (1 : Fin 2) * 128 + 1 * q.val = q.val; rw [e1]; omega

theorem emb5 (q : Fin 128) : (((cfg4.win 5).blk t).view.emb (ix2 0 q) : S1x128.Idx) = ix2 0 q := by
  obtain ⟨-, -, -, -, -, ⟨e0, e1⟩, -⟩ := idx_facts t
  refine funext fun a => Fin.ext ?_
  match a with
  | ⟨0, _⟩ => show win4_5.index t (0 : Fin 2) * 1 + 1 * 0 = 0; rw [e0]
  | ⟨1, _⟩ => show win4_5.index t (1 : Fin 2) * 128 + 1 * q.val = q.val; rw [e1]; omega

theorem emb6 (q : Fin 128) : (((cfg4.win 6).blk t).view.emb (ix2 0 q) : S1x128.Idx) = ix2 0 q := by
  obtain ⟨-, -, -, -, -, -, ⟨e0, e1⟩⟩ := idx_facts t
  refine funext fun a => Fin.ext ?_
  match a with
  | ⟨0, _⟩ => show win4_6.index t (0 : Fin 2) * 1 + 1 * 0 = 0; rw [e0]
  | ⟨1, _⟩ => show win4_6.index t (1 : Fin 2) * 128 + 1 * q.val = q.val; rw [e1]; omega

-- A block whose rows are rows `5000 t + ·` of `A` is block `t` of `A`.
theorem cut4 (A : S100000x128.Idx → EReal) (y : Vec Ideal S5000x128 .f32)
    (hy : ∀ (r : Fin 5000) (q : Fin 128) (p : Fin 100000), p.val = 5000 * t.val + r.val → y (ix2 r q) = A (ix2 p q)) :
    (cfg4.win 4).cut (grid4.coords t) y = ((cfg4.win 4).blk t).view.read (Elt Ideal) A := by
  have hN : t.val < 20 := lt_of_lt_of_eq t.isLt (show cfg4.N = 20 from N_4)
  funext j
  obtain ⟨r, q, rfl⟩ : ∃ (r : Fin 5000) (q : Fin 128), j = ix2 r q := ⟨j 0, j 1, eq_ix2 j⟩
  exact (hy r q ⟨5000 * t.val + r.val, by have := r.isLt; omega⟩ rfl).trans (congrArg A (emb4 t r q _ rfl)).symm

theorem cut5 (R : S1x128.Idx → EReal) (y : Vec Ideal S1x128 .f32) (hy : ∀ q : Fin 128, y (ix2 0 q) = R (ix2 0 q)) :
    (cfg4.win 5).cut (grid4.coords t) y = ((cfg4.win 5).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb5 t q)).symm

theorem cut6 (R : S1x128.Idx → EReal) (y : Vec Ideal S1x128 .f32) (hy : ∀ q : Fin 128, y (ix2 0 q) = R (ix2 0 q)) :
    (cfg4.win 6).cut (grid4.coords t) y = ((cfg4.win 6).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb6 t q)).symm

end Blocks

-- Row `p` is in block `p / 5000`: the twenty row blocks cover the array.
theorem cover4 (i : S100000x128.Idx) :
    ∃ t : Fin cfg4.N, (cfg4.win 4).flush t = true ∧ i ∈ ((cfg4.win 4).blk t).view.set := by
  obtain ⟨p, q, rfl⟩ : ∃ (p : Fin 100000) (q : Fin 128), i = ix2 p q := ⟨i 0, i 1, eq_ix2 i⟩
  have hp := p.isLt
  have hN : cfg4.N = 20 := N_4
  obtain ⟨t, ht⟩ : ∃ t : Fin cfg4.N, t.val = p.val / 5000 := ⟨⟨p.val / 5000, by omega⟩, rfl⟩
  refine ⟨t, flush4_4 t, ?_⟩
  rw [← emb4 t ⟨p.val % 5000, Nat.mod_lt _ (by omega)⟩ q p (by dsimp only; omega)]
  exact View.emb_mem_set _ _

-- The one block of a statistics row is the whole row.
theorem cover5 (i : S1x128.Idx) :
    ∃ t : Fin cfg4.N, (cfg4.win 5).flush t = true ∧ i ∈ ((cfg4.win 5).blk t).view.set := by
  obtain ⟨u, q, rfl⟩ : ∃ (u : Fin 1) (q : Fin 128), i = ix2 u q := ⟨i 0, i 1, eq_ix2 i⟩
  obtain rfl : u = 0 := Subsingleton.elim _ _
  have hN : cfg4.N = 20 := N_4
  obtain ⟨t, ht⟩ : ∃ t : Fin cfg4.N, t.val = 19 := ⟨⟨19, by omega⟩, rfl⟩
  refine ⟨t, (flush4_5 t).mpr (by omega), ?_⟩
  rw [← emb5 t q]
  exact View.emb_mem_set _ _

theorem cover6 (i : S1x128.Idx) :
    ∃ t : Fin cfg4.N, (cfg4.win 6).flush t = true ∧ i ∈ ((cfg4.win 6).blk t).view.set := by
  obtain ⟨u, q, rfl⟩ : ∃ (u : Fin 1) (q : Fin 128), i = ix2 u q := ⟨i 0, i 1, eq_ix2 i⟩
  obtain rfl : u = 0 := Subsingleton.elim _ _
  have hN : cfg4.N = 20 := N_4
  obtain ⟨t, ht⟩ : ∃ t : Fin cfg4.N, t.val = 19 := ⟨⟨19, by omega⟩, rfl⟩
  refine ⟨t, (flush4_6 t).mpr (by omega), ?_⟩
  rw [← emb6 t q]
  exact View.emb_mem_set _ _

variable (V : (c : Dev nD) → (b : Ref sig .tc) → Buf (Elt Ideal) ((c : Thread nD τ).loc b))

abbrev a (c : Dev nD) : Cert.Spec.Arr :=
  Cert.Spec.lin (Cert.Spec.add (Cert.Spec.curA (V c (Pipeline.arrRef spec4 0))) (Cert.Spec.curA (V c (Pipeline.arrRef spec4 1))))
    (Cert.Spec.curM (V c (Pipeline.arrRef spec4 2))) (Cert.Spec.curRow (V c (Pipeline.arrRef spec4 3)))

-- The step equations of this region's points, and its input blocks as blocks of the arrays.
theorem vals (c : Dev nD) (t : Fin cfg4.N) :
    (∀ (r : Fin 5000) (q : Fin 128) (p : Fin 100000), p.val = 5000 * t.val + r.val →
        (outsAt4 V c t.val t.isLt).1 (ix2 r q) = a V c p q)
    ∧ (t.val = 19 → ∀ q : Fin 128, (outsAt4 V c t.val t.isLt).2.1 (ix2 0 q) = Cert.Spec.colsum (a V c) q
        ∧ (outsAt4 V c t.val t.isLt).2.2 (ix2 0 q) = Cert.Spec.colsumsq (a V c) q) :=
  Region0.run_vals N_4 (iblk4 V c 0) (iblk4 V c 1) (iblk4 V c 2) (iblk4 V c 3) (outsAt4 V c)
    (fun t h0 => (outsAt4_A V c t h0).trans (out_A _ _ _ _))
    (fun t h0 => (outsAt4_B V c t h0).trans (out_B _ _ _ _ _ _))
    (a V c)
    (Region0.lin_blk _ _ _ _ _ _ _ _ (fun t r q p hp => congrArg (V c (Pipeline.arrRef spec4 0)) (emb0 t r q p hp)) (fun t r q p hp => congrArg (V c (Pipeline.arrRef spec4 1)) (emb1 t r q p hp))
      (fun t k q => congrArg (V c (Pipeline.arrRef spec4 2)) (emb2 t k q)) fun t q => congrArg (V c (Pipeline.arrRef spec4 3)) (emb3 t q)) t

theorem out_eq (c : Dev nD) (p : Fin 100000) (q : Fin 128) :
    (dat4 (F := Ideal) V c).arrAt 4 cfg4.N (ix2 p q) = a V c p q :=
  congrFun ((dat4 V c).arrAt_eq_of_cover 4 (fun i : S100000x128.Idx => a V c (i 0) (i 1))
    (fun t _ => cut4 t _ _ (vals V c t).1) cover4) (ix2 p q)

theorem sum_eq (c : Dev nD) (q : Fin 128) :
    (dat4 (F := Ideal) V c).arrAt 5 cfg4.N (ix2 0 q) = Cert.Spec.colsum (a V c) q :=
  congrFun ((dat4 V c).arrAt_eq_of_cover 5 (fun i : S1x128.Idx => Cert.Spec.colsum (a V c) (i 1))
    (fun t hf => cut5 t _ _ fun q => ((vals V c t).2 (by have := (flush4_5 t).mp hf; have := lt_of_lt_of_eq t.isLt (show cfg4.N = 20 from N_4); omega) q).1) cover5) (ix2 0 q)

theorem sumsq_eq (c : Dev nD) (q : Fin 128) :
    (dat4 (F := Ideal) V c).arrAt 6 cfg4.N (ix2 0 q) = Cert.Spec.colsumsq (a V c) q :=
  congrFun ((dat4 V c).arrAt_eq_of_cover 6 (fun i : S1x128.Idx => Cert.Spec.colsumsq (a V c) (i 1))
    (fun t hf => cut6 t _ _ fun q => ((vals V c t).2 (by have := (flush4_6 t).mp hf; have := lt_of_lt_of_eq t.isLt (show cfg4.N = 20 from N_4); omega) q).2) cover6) (ix2 0 q)

end Cert.KernelIdeal.Region4

end
-- ==== Proof.Region5.lean ====
import proofs.«108002_j23673859736037_1_alg».proof.Proof.Gen.KernelIdeal.Frame
import proofs.«108002_j23673859736037_1_alg».proof.Proof.Spec
import proofs.«108002_j23673859736037_1_alg».proof.Proof.LibRowOps
import proofs.«108002_j23673859736037_1_alg».proof.Proof.RowBlocks
import proofs.«108002_j23673859736037_1_alg».proof.Proof.Region1
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Region5

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen Cert.RowBlocks
open scoped BigOperators

variable (V : (c : Dev nD) → (b : Ref sig .tc) → Buf (Elt Ideal) ((c : Thread nD τ).loc b))

-- Each store writes the whole of its output, so the output holds the last stored value; a load after a store reads that value.
theorem outs_A (c : Dev nD) (t : Fin cfg5.N) (h0 : t.val % 20 = 0) :
    outsAt5 V c t.val t.isLt = Region1.stepA (iblk5 V c 0 t) (iblk5 V c 1 t) (iblk5 V c 2 t) (iblk5 V c 3 t) (iblk5 V c 4 t) := by
  rw [outsAt5_A V c t h0]
  unfold out5_A_5 out5_A_6 out5_A_7
  rw [View.read_writes_eq_canon _ _ _ (cover5_A_5 c _ _ _ _ _ _ _ _ _ _ _ _ _ _ _ _ _ _ _ _ _ _ _),
    View.read_writes_eq_canon _ _ _ (cover5_A_6 c _ _ _ _ _ _ _ _ _ _ _ _ _ _ _ _ _ _ _ _ _ _ _),
    View.read_writes_eq_canon _ _ _ (cover5_A_7 c _ _ _ _ _ _ _ _ _ _ _ _ _ _ _ _ _ _ _ _ _ _ _)]
  unfold kernelRun5_A
  dsimp only
  sl_unfold_words
  simp only [View.canon_unit_zero (S := S5000x128) Region1.hz, View.canon_cons_unit_zero (S := S1x128) Region1.hz,
    View.readCov_unit_zero (S := S1x128) _ Region1.hz,
    View.readAt_eq_ld, (hs5_0 t).read_unread, (hs5_1 t).read_unread, (hs5_2 t).read_unread, (hs5_3 t).read_unread,
      (hs5_4 t).read_unread,
    View.ld_unit_zero (S := S5000x128) Region1.hz, View.ld_unit_zero (S := S1x128) Region1.hz,
      View.ld_unit_zero (S := S128x128) Region1.hz]
  rfl

theorem outs_B (c : Dev nD) (t : Fin cfg5.N) (h0 : ¬t.val % 20 = 0) :
    outsAt5 V c t.val t.isLt
      = Region1.stepB (iblk5 V c 0 t) (iblk5 V c 1 t) (iblk5 V c 2 t) (iblk5 V c 3 t) (iblk5 V c 4 t)
          (outsAt5 V c (t.val - 1) (Nat.lt_of_le_of_lt (Nat.sub_le _ _) t.isLt)) := by
  rw [outsAt5_B V c t h0]
  unfold out5_B_5 out5_B_6 out5_B_7
  rw [View.read_writes_eq_canon _ _ _ (cover5_B_5 c _ _ _ _ _ _ _ _ _ _ _ _ _ _ _ _ _ _ _ _ _ _ _ _ _),
    View.read_writes_eq_canon _ _ _ (cover5_B_6 c _ _ _ _ _ _ _ _ _ _ _ _ _ _ _ _ _ _ _ _ _ _ _ _ _),
    View.read_writes_eq_canon _ _ _ (cover5_B_7 c _ _ _ _ _ _ _ _ _ _ _ _ _ _ _ _ _ _ _ _ _ _ _ _ _)]
  unfold kernelRun5_B
  dsimp only
  sl_unfold_words
  simp only [View.canon_unit_zero (S := S5000x128) Region1.hz, View.canon_unit_zero (S := S1x128) Region1.hz,
    View.readAt_eq_ld, (hs5_0 t).read_unread, (hs5_1 t).read_unread, (hs5_2 t).read_unread, (hs5_3 t).read_unread,
    (hs5_4 t).read_unread, (hs5_6 t).read_unread, (hs5_7 t).read_unread,
    View.ld_unit_zero (S := S5000x128) Region1.hz, View.ld_unit_zero (S := S1x128) Region1.hz,
      View.ld_unit_zero (S := S128x128) Region1.hz]
  rfl

abbrev a (c : Dev nD) : Cert.Spec.Arr :=
  Cert.Spec.lin
    (Cert.Spec.affRelu (Cert.Spec.curA (V c (Pipeline.arrRef spec5 0))) (Cert.Spec.curRow (V c (Pipeline.arrRef spec5 1)))
      (Cert.Spec.curRow (V c (Pipeline.arrRef spec5 2))))
    (Cert.Spec.curM (V c (Pipeline.arrRef spec5 3))) (Cert.Spec.curRow (V c (Pipeline.arrRef spec5 4)))

-- The run's outputs, point by point, satisfy the step equations over the operands' blocks, so they hold these values.
theorem vals (c : Dev nD) : Region1.Vals N_5 (outsAt5 V c) (a V c) :=
  Region1.core N_5 _ _ _ _ _ (iblk5 V c 0) (iblk5 V c 1) (iblk5 V c 2) (iblk5 V c 3) (iblk5 V c 4) (outsAt5 V c)
    (fun t r k => congrArg (V c (Pipeline.arrRef spec5 0)) (Region1.emb0 t (ix2 r k) (ix2 (row (t.cast N_5) r) k) rfl rfl))
    (fun t k => congrArg (V c (Pipeline.arrRef spec5 1)) (Region1.emb1 t (ix2 0 k)))
    (fun t k => congrArg (V c (Pipeline.arrRef spec5 2)) (Region1.emb2 t (ix2 0 k)))
    (fun t k q => congrArg (V c (Pipeline.arrRef spec5 3)) (Region1.emb3 t (ix2 k q)))
    (fun t k => congrArg (V c (Pipeline.arrRef spec5 4)) (Region1.emb4 t (ix2 0 k)))
    (outs_A V c) (outs_B V c)

-- What every point contributes to the first output is its block's rows of the array.
theorem flushed5 (c : Dev nD) (t : Fin cfg5.N) :
    (dat5 V c).flushed 5 t = ((cfg5.win 5).blk t).view.read (Elt Ideal) (Region1.G5 (a V c)) := by
  show (cfg5.win 5).cut (grid5.coords t) ((dat5 V c).after 5 t) = _
  rw [after5_5]
  refine funext fun (j : S5000x128.Idx) => ?_
  obtain ⟨r, q, rfl⟩ : ∃ (r : Fin 5000) (q : Fin 128), j = ix2 r q := ⟨j 0, j 1, eq_ix2 j⟩
  exact ((vals V c).1 t r q).trans
    (congrArg (Region1.G5 (a V c)) (Region1.emb5 t (ix2 r q) (ix2 (row (t.cast N_5) r) q) rfl rfl) :).symm

-- The array ends holding the last point's value: that point's block is the whole array.
theorem arr6 (c : Dev nD) (t : Fin cfg5.N) (h19 : t.val = 19) :
    (dat5 (F := Ideal) V c).arrAt 6 cfg5.N = (outsAt5 V c t.val t.isLt).2.1 := by
  have hN : cfg5.N = 20 := N_5
  generalize hG : (outsAt5 V c t.val t.isLt).2.1 = G
  have hfl : ∀ s, (cfg5.win 6).flush s = true →
      (dat5 V c).flushed 6 s = ((cfg5.win 6).blk s).view.read (Elt Ideal) G := fun s hf => by
    rw [show s = t from Fin.ext (by have := (flush5_6 s).mp hf; have := s.isLt; omega)]
    show (cfg5.win 6).cut _ ((dat5 V c).after 6 t) = _
    rw [after5_6]
    exact hG.trans (funext fun j => (congrArg G (Region1.emb6 t j) :).symm)
  exact funext fun i => (congrArg ((dat5 V c).arrAt 6 cfg5.N) (Region1.emb6 t i) :).symm.trans
    ((congrFun ((dat5 V c).read_blk_arrAt 6 G hfl t ((flush5_6 t).mpr (by omega))) i).trans
      (congrArg G (Region1.emb6 t i) :))

theorem arr7 (c : Dev nD) (t : Fin cfg5.N) (h19 : t.val = 19) :
    (dat5 (F := Ideal) V c).arrAt 7 cfg5.N = (outsAt5 V c t.val t.isLt).2.2 := by
  have hN : cfg5.N = 20 := N_5
  generalize hG : (outsAt5 V c t.val t.isLt).2.2 = G
  have hfl : ∀ s, (cfg5.win 7).flush s = true →
      (dat5 V c).flushed 7 s = ((cfg5.win 7).blk s).view.read (Elt Ideal) G := fun s hf => by
    rw [show s = t from Fin.ext (by have := (flush5_7 s).mp hf; have := s.isLt; omega)]
    show (cfg5.win 7).cut _ ((dat5 V c).after 7 t) = _
    rw [after5_7]
    exact hG.trans (funext fun j => (congrArg G (Region1.emb7 t j) :).symm)
  exact funext fun i => (congrArg ((dat5 V c).arrAt 7 cfg5.N) (Region1.emb7 t i) :).symm.trans
    ((congrFun ((dat5 V c).read_blk_arrAt 7 G hfl t ((flush5_7 t).mpr (by omega))) i).trans
      (congrArg G (Region1.emb7 t i) :))

-- The outputs after the region: every index lies in a block whose value is known.
theorem out_eq (c : Dev nD) (p : Fin 100000) (q : Fin 128) :
    (dat5 (F := Ideal) V c).arrAt 5 cfg5.N (ix2 p q) = a V c p q := by
  have hN : cfg5.N = 20 := N_5
  obtain ⟨t, r, rfl⟩ : ∃ (t : Fin cfg5.N) (r : Fin 5000), p = row (t.cast N_5) r :=
    ⟨⟨p.val / 5000, by have := p.isLt; omega⟩, ⟨p.val % 5000, Nat.mod_lt _ (by omega)⟩,
      Fin.ext (by show p.val = 5000 * (p.val / 5000) + p.val % 5000; omega)⟩
  have e := Region1.emb5 t (ix2 r q) (ix2 (row (t.cast N_5) r) q) rfl rfl
  exact (congrArg ((dat5 V c).arrAt 5 cfg5.N) e :).symm.trans
    ((congrFun ((dat5 V c).read_blk_arrAt 5 (Region1.G5 (a V c)) (fun t _ => flushed5 V c t) t (flush5_5 t)) (ix2 r q)).trans
      (congrArg (Region1.G5 (a V c)) e :))

theorem sum_eq (c : Dev nD) (q : Fin 128) :
    (dat5 (F := Ideal) V c).arrAt 6 cfg5.N (ix2 0 q) = Cert.Spec.colsum (a V c) q := by
  obtain ⟨t, h19⟩ : ∃ t : Fin cfg5.N, t.val = 19 := ⟨⟨19, by rw [show cfg5.N = 20 from N_5]; omega⟩, rfl⟩
  exact (congrFun (arr6 V c t h19) (ix2 0 q)).trans ((vals V c).2 t q h19).1

theorem sumsq_eq (c : Dev nD) (q : Fin 128) :
    (dat5 (F := Ideal) V c).arrAt 7 cfg5.N (ix2 0 q) = Cert.Spec.colsumsq (a V c) q := by
  obtain ⟨t, h19⟩ : ∃ t : Fin cfg5.N, t.val = 19 := ⟨⟨19, by rw [show cfg5.N = 20 from N_5]; omega⟩, rfl⟩
  exact (congrFun (arr7 V c t h19) (ix2 0 q)).trans ((vals V c).2 t q h19).2

end Cert.KernelIdeal.Region5

end
-- ==== Proof.Region6.lean ====
import proofs.«108002_j23673859736037_1_alg».proof.Proof.Region2

noncomputable section

namespace Cert.KernelIdeal.Region6

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

section

variable {F : FTy → Type} [FloatOps F] (c : Dev nD) (i : grid6.Coords)
  (arg1 : Memref sig .tc .vmem S5000x128 .f32) (harg1 : arg1.IsWhole)
  (arg2 : Memref sig .tc .vmem S1x128 .f32) (harg2 : arg2.IsWhole)
  (arg3 : Memref sig .tc .vmem S1x128 .f32) (harg3 : arg3.IsWhole)
  (arg4 : Memref sig .tc .vmem S5000x128 .f32) (harg4 : arg4.IsWhole)
  (arg5 : Memref sig .tc .vmem S1x128 .f32) (harg5 : arg5.IsWhole)
  (arg6 : Memref sig .tc .vmem S1x128 .f32) (harg6 : arg6.IsWhole)
  (x0 : Vec F S5000x128 .f32) (x1 x2 xo4 xo5 : Vec F S1x128 .f32)

-- The pieces a point stores are region 2's, so they amount to the same payloads.
theorem outA3 (hc0 : cond6_0 i) :
    out6_A_3 c i arg1 harg1 arg2 harg2 arg3 harg3 arg4 harg4 arg5 harg5 arg6 harg6 hc0 x0 x1 x2 = k2_pay1 x0 x1 x2 :=
  (View.read_writes_eq_canon _ _ _ (cover6_A_3 c i arg1 harg1 arg2 harg2 arg3 harg3 arg4 harg4 arg5 harg5 arg6 harg6 hc0 x0 x1 x2)).trans
    (Region2.canA3 c i arg1 harg1 arg2 harg2 arg3 harg3 arg4 harg4 arg5 harg5 arg6 harg6 x0 x1 x2 hc0)

theorem outA4 (hc0 : cond6_0 i) :
    out6_A_4 c i arg1 harg1 arg2 harg2 arg3 harg3 arg4 harg4 arg5 harg5 arg6 harg6 hc0 x0 x1 x2 = k2_pay4 x0 x1 x2 k2_pay2 :=
  (View.read_writes_eq_canon _ _ _ (cover6_A_4 c i arg1 harg1 arg2 harg2 arg3 harg3 arg4 harg4 arg5 harg5 arg6 harg6 hc0 x0 x1 x2)).trans
    (Region2.canA4 c i arg1 harg1 arg2 harg2 arg3 harg3 arg4 harg4 arg5 harg5 arg6 harg6 x0 x1 x2 hc0)

theorem outA5 (hc0 : cond6_0 i) :
    out6_A_5 c i arg1 harg1 arg2 harg2 arg3 harg3 arg4 harg4 arg5 harg5 arg6 harg6 hc0 x0 x1 x2 = k2_pay5 x0 x1 x2 k2_pay3 :=
  (View.read_writes_eq_canon _ _ _ (cover6_A_5 c i arg1 harg1 arg2 harg2 arg3 harg3 arg4 harg4 arg5 harg5 arg6 harg6 hc0 x0 x1 x2)).trans
    (Region2.canA5 c i arg1 harg1 arg2 harg2 arg3 harg3 arg4 harg4 arg5 harg5 arg6 harg6 x0 x1 x2 hc0)

theorem outB3 (hc0 : ¬cond6_0 i) :
    out6_B_3 c i arg1 harg1 arg2 harg2 arg3 harg3 arg4 harg4 arg5 harg5 arg6 harg6 hc0 x0 x1 x2 xo4 xo5 = k2_pay1 x0 x1 x2 :=
  (View.read_writes_eq_canon _ _ _ (cover6_B_3 c i arg1 harg1 arg2 harg2 arg3 harg3 arg4 harg4 arg5 harg5 arg6 harg6 hc0 x0 x1 x2 xo4 xo5)).trans
    (Region2.canB3 c i arg1 harg1 arg2 harg2 arg3 harg3 arg4 harg4 arg5 harg5 arg6 harg6 x0 x1 x2 xo4 xo5 hc0)

theorem outB4 (hc0 : ¬cond6_0 i) :
    out6_B_4 c i arg1 harg1 arg2 harg2 arg3 harg3 arg4 harg4 arg5 harg5 arg6 harg6 hc0 x0 x1 x2 xo4 xo5 = k2_pay4 x0 x1 x2 xo4 :=
  (View.read_writes_eq_canon _ _ _ (cover6_B_4 c i arg1 harg1 arg2 harg2 arg3 harg3 arg4 harg4 arg5 harg5 arg6 harg6 hc0 x0 x1 x2 xo4 xo5)).trans
    (Region2.canB4 c i arg1 harg1 arg2 harg2 arg3 harg3 arg4 harg4 arg5 harg5 arg6 harg6 x0 x1 x2 xo4 xo5 hc0)

theorem outB5 (hc0 : ¬cond6_0 i) :
    out6_B_5 c i arg1 harg1 arg2 harg2 arg3 harg3 arg4 harg4 arg5 harg5 arg6 harg6 hc0 x0 x1 x2 xo4 xo5 = k2_pay5 x0 x1 x2 xo5 :=
  (View.read_writes_eq_canon _ _ _ (cover6_B_5 c i arg1 harg1 arg2 harg2 arg3 harg3 arg4 harg4 arg5 harg5 arg6 harg6 hc0 x0 x1 x2 xo4 xo5)).trans
    (Region2.canB5 c i arg1 harg1 arg2 harg2 arg3 harg3 arg4 harg4 arg5 harg5 arg6 harg6 x0 x1 x2 xo4 xo5 hc0)

end

variable (V : (c : Dev nD) → (b : Ref sig .tc) → Buf (Elt Ideal) ((c : Thread nD τ).loc b))

abbrev a (c : Dev nD) : Cert.Spec.Arr :=
  Cert.Spec.affRelu (Cert.Spec.curA (V c (Pipeline.arrRef spec6 0))) (Cert.Spec.curRow (V c (Pipeline.arrRef spec6 1)))
    (Cert.Spec.curRow (V c (Pipeline.arrRef spec6 2)))

-- What the three outputs hold after each point, from the step equations of the region's run.
theorem inv (c : Dev nD) : Region2.Holds (a V c) (outsAt6 V c) :=
  Region2.holds (x0 := fun n h => iblk6 V c 0 ⟨n, h⟩) (x1 := fun n h => iblk6 V c 1 ⟨n, h⟩)
    (x2 := fun n h => iblk6 V c 2 ⟨n, h⟩)
    (fun n h r q => Region2.read0 (V c (Pipeline.arrRef spec6 0)) ⟨n, h⟩ r q)
    (fun n h q => Region2.read1 (V c (Pipeline.arrRef spec6 1)) ⟨n, h⟩ q)
    (fun n h q => Region2.read1 (V c (Pipeline.arrRef spec6 2)) ⟨n, h⟩ q)
    (fun h => by rw [outsAt6_A V c ⟨0, h⟩ rfl, outA3, outA4, outA5] <;> rfl)
    (fun n h => by
      have hN : cfg2.N = 20 := N_2
      rw [outsAt6_B V c ⟨n + 1, h⟩ (by dsimp only; omega), outB3, outB4, outB5] <;> rfl)

theorem out_eq (c : Dev nD) (p : Fin 100000) (q : Fin 128) :
    (dat6 (F := Ideal) V c).arrAt 3 cfg6.N (ix2 p q) = a V c p q :=
  congrFun ((dat6 (F := Ideal) V c).arrAt_eq_of_cover 3 (Region2.G3 (a V c))
    (fun t _ => Region2.back3 (inv V c) t _ (after6_3 V c t)) Region2.cover3) (ix2 p q)

theorem sum_eq (c : Dev nD) (q : Fin 128) :
    (dat6 (F := Ideal) V c).arrAt 4 cfg6.N (ix2 0 q) = Cert.Spec.colsum (a V c) q :=
  congrFun ((dat6 (F := Ideal) V c).arrAt_eq_of_cover 4 (Region2.G4 (Cert.Spec.colsum (a V c)))
    (fun t hf => Region2.back4 (inv V c) t ((flush6_4 t).mp hf) _ (after6_4 V c t)) Region2.cover4) (ix2 0 q)

theorem sumsq_eq (c : Dev nD) (q : Fin 128) :
    (dat6 (F := Ideal) V c).arrAt 5 cfg6.N (ix2 0 q) = Cert.Spec.colsumsq (a V c) q :=
  congrFun ((dat6 (F := Ideal) V c).arrAt_eq_of_cover 5 (Region2.G4 (Cert.Spec.colsumsq (a V c)))
    (fun t hf => Region2.back5 (inv V c) t ((flush6_5 t).mp hf) _ (after6_5 V c t)) Region2.cover4) (ix2 0 q)

end Cert.KernelIdeal.Region6

end
-- ==== Proof.Region7.lean ====
import proofs.«108002_j23673859736037_1_alg».proof.Proof.Region3

open Idealize.ShloMosaic Idealize.ShloMosaic.TcCoe Idealize.ShloMosaic.ValueIdx

namespace Cert.KernelIdeal.Region7

open Cert.KernelIdeal.Gen

variable (V : (c : Dev nD) → (b : Ref sig .tc) → Buf (Elt Ideal) ((c : Thread nD τ).loc b))

-- Regions 3 and 7 run one body over one grid with the same block maps, on other arrays: region 3's block and cover lemmas hold as they stand.
theorem out_eq (c : Dev nD) (p : Fin 100000) (q : Fin 128) :
    (dat7 (F := Ideal) V c).arrAt 3 cfg7.N (ix2 p q)
      = Cert.Spec.affRelu (Cert.Spec.curA (V c (Pipeline.arrRef spec7 0))) (Cert.Spec.curRow (V c (Pipeline.arrRef spec7 1)))
          (Cert.Spec.curRow (V c (Pipeline.arrRef spec7 2))) p q := by
  refine congrFun ((dat7 V c).arrAt_eq_of_cover 3 (Region3.G (V c (Pipeline.arrRef spec7 0)) (V c (Pipeline.arrRef spec7 1)) (V c (Pipeline.arrRef spec7 2))) (fun t _ => ?_) Region3.cover) (ix2 p q)
  show (cfg7.win 3).cut (grid7.coords t) ((dat7 V c).after 3 t) = _
  rw [after7_3]
  exact Region3.block_eq _ _ _ t

end Cert.KernelIdeal.Region7
-- ==== Proof.KChain1.lean ====
import proofs.«108002_j23673859736037_1_alg».proof.Proof.Gen.KernelIdeal.Frame
import proofs.«108002_j23673859736037_1_alg».proof.Proof.ChainDefs
import proofs.«108002_j23673859736037_1_alg».proof.Proof.Agg
import proofs.«108002_j23673859736037_1_alg».proof.Proof.KShared
import proofs.«108002_j23673859736037_1_alg».proof.Proof.KLayer1
import proofs.«108002_j23673859736037_1_alg».proof.Proof.Region4
import proofs.«108002_j23673859736037_1_alg».proof.Proof.Region5
import proofs.«108002_j23673859736037_1_alg».proof.Proof.Region6
import proofs.«108002_j23673859736037_1_alg».proof.Proof.Region7

set_option maxRecDepth 16384

noncomputable section

namespace Cert.KernelIdeal.Chain

open Idealize.ShloMosaic Idealize.ShloMosaic.TcCoe Idealize.ShloMosaic.ValueIdx
open Cert.KernelIdeal Cert.KernelIdeal.Gen Cert.Spec Cert.Chain

variable (m : (ℓ : Loc nD τ sig) → Buf (Elt Ideal) ℓ) (ρ : Dev nD → PrngReg) (c : Dev nD)

theorem run1 : L1.LayerRun (W8 m ρ c) (W10 m ρ c) (W12 m ρ c) (W14 m ρ c) (W16 m ρ c) where
  o4 := funext fun p => funext fun q =>
    (congrFun (W10_arr m ρ c 4) (ix2 p q)).trans (Region4.out_eq (V9 m ρ) c p q)
  s4 := funext fun q =>
    (congrFun (W10_arr m ρ c 5) (ix2 0 q)).trans (Region4.sum_eq (V9 m ρ) c q)
  t4 := funext fun q =>
    (congrFun (W10_arr m ρ c 6) (ix2 0 q)).trans (Region4.sumsq_eq (V9 m ρ) c q)
  k4 := fun b hb => W10_of_ne m ρ c b hb
  o5 := funext fun p => funext fun q =>
    (congrFun (W12_arr m ρ c 5) (ix2 p q)).trans (Region5.out_eq (V11 m ρ) c p q)
  s5 := funext fun q =>
    (congrFun (W12_arr m ρ c 6) (ix2 0 q)).trans (Region5.sum_eq (V11 m ρ) c q)
  t5 := funext fun q =>
    (congrFun (W12_arr m ρ c 7) (ix2 0 q)).trans (Region5.sumsq_eq (V11 m ρ) c q)
  k5 := fun b hb => W12_of_ne m ρ c b hb
  o6 := funext fun p => funext fun q =>
    (congrFun (W14_arr m ρ c 3) (ix2 p q)).trans (Region6.out_eq (V13 m ρ) c p q)
  s6 := funext fun q =>
    (congrFun (W14_arr m ρ c 4) (ix2 0 q)).trans (Region6.sum_eq (V13 m ρ) c q)
  t6 := funext fun q =>
    (congrFun (W14_arr m ρ c 5) (ix2 0 q)).trans (Region6.sumsq_eq (V13 m ρ) c q)
  k6 := fun b hb => W14_of_ne m ρ c b hb
  o7 := funext fun p => funext fun q =>
    (congrFun (W16_arr m ρ c 3) (ix2 p q)).trans (Region7.out_eq (V15 m ρ) c p q)
  k7 := fun b hb => W16_of_ne m ρ c b hb

theorem layer1_x :
    (W16 m ρ c (Proc.devRef .tc main_v159) : NArr)
      = stepK (fun X => Cert.Agg.aggK X (W8 m ρ c (Proc.devRef .tc main_v1)) (W8 m ρ c (Proc.devRef .tc main_v3)))
          (paramsOf (W8 m ρ c (Proc.devRef .tc main_arg4)) (W8 m ρ c (Proc.devRef .tc main_arg5)) (W8 m ρ c (Proc.devRef .tc main_arg6))
            (W8 m ρ c (Proc.devRef .tc main_arg7)) (W8 m ρ c (Proc.devRef .tc main_arg8)) (W8 m ρ c (Proc.devRef .tc main_arg9))
            (W8 m ρ c (Proc.devRef .tc main_arg10)) (W8 m ρ c (Proc.devRef .tc main_arg11)) (W8 m ρ c (Proc.devRef .tc main_arg12))
            (W8 m ρ c (Proc.devRef .tc main_arg13)))
          (1 : Fin 4) (W8 m ρ c (Proc.devRef .tc main_v81)) :=
  (run1 m ρ c).x

theorem layer1_keep (b : Ref sig .tc) (hb : b ∈ keepL) :
    W16 m ρ c (Proc.devRef .tc b) = W8 m ρ c (Proc.devRef .tc b) :=
  (run1 m ρ c).keep b hb

end Cert.KernelIdeal.Chain

end
-- ==== Proof.KLayer2.lean ====
/-
  Layer 2 of the kernel's program (of its four graph layers 0 … 3), over abstract buffer contents.

  The layer is four passes over the `[100000, 128]` node array, each preceded by a stretch of host operations:
  * stretch 8 gathers the layer's input rows along the edges and adds them up per destination node (the neighbour
    sums), and cuts the first affine map's weights and bias out of the stacked arguments; pass 8 adds input and
    neighbour sums, applies the affine map, and leaves the result with its column sums and column sums of squares;
  * stretch 9 turns those sums into the first normalisation's scale and shift rows and cuts out the second affine
    map's parameters; pass 9 normalises, rectifies, applies the second affine map, and again leaves the sums;
  * stretches 10 and 11 compute the second and third normalisations' scale and shift; passes 10 and 11 apply them.

  First each stretch is read at the buffers the next pass takes, as a function of any contents `W` it starts from.
  Then, given what each pass leaves as a function of the contents it starts from (`LayerRun`), the layer's result
  array is the specification's layer `Chain.stepK` of its input array, and the edge lists and arguments are
  untouched.
-/
import proofs.«108002_j23673859736037_1_alg».proof.Proof.Gen.KernelIdeal.Launch
import proofs.«108002_j23673859736037_1_alg».proof.Proof.Spec
import proofs.«108002_j23673859736037_1_alg».proof.Proof.ChainDefs
import proofs.«108002_j23673859736037_1_alg».proof.Proof.Agg
import proofs.«108002_j23673859736037_1_alg».proof.Proof.KStats
import proofs.«108002_j23673859736037_1_alg».proof.Proof.KShared
import Idealize.ShloMosaic.Lib.StableHlo.Run
import Idealize.ShloMosaic.Lib.ValueLayout
import Idealize.ShloMosaic.Lib.Pipeline.Value

set_option maxRecDepth 16384

noncomputable section

namespace Cert.KernelIdeal.Chain.L2

open Idealize.ShloMosaic Idealize.ShloMosaic.TcCoe Idealize.ShloMosaic.ValueIdx
open Cert.KernelIdeal Cert.KernelIdeal.Gen Cert.Spec

/-! ## This layer's parameters cut out of the stacked arrays -/

/-- This layer's matrix of a stacked `[4, 128, 128]` array, as the program cuts it out. -/
theorem matL (X : S4x128x128.Idx → EReal) (k q : Fin 128) :
    shapeCast S128x128 (extractStridedSlice S1x128x128 _ X slices_S4x128x128_S1x128x128_2_0_0) shapeCasts_S1x128x128_S128x128 (ix2 k q)
      = X (ix3 (2 : Fin 4) k q) :=
  stackMat_apply _ X slices_S4x128x128_S1x128x128_2_0_0 shapeCasts_S1x128x128_S128x128 (2 : Fin 4) rfl k q

/-- This layer's row of a stacked `[4, 128]` array, as the program cuts it out. -/
theorem rowL (X : S4x128.Idx → EReal) (q : Fin 128) :
    shapeCast S1x128 (shapeCast S128 (extractStridedSlice S1x128 _ X slices_S4x128_S1x128_2_0) shapeCasts_S1x128_S128) shapeCasts_S128_S1x128 (ix2 0 q)
      = X (ix2 (2 : Fin 4) q) :=
  stackRow_apply _ X slices_S4x128_S1x128_2_0 shapeCasts_S1x128_S128 shapeCasts_S128_S1x128 (2 : Fin 4) rfl q

section Stretches

variable (W : Valuation τ sig (Elt Ideal))

/-! ## Stretch 8: the neighbour sums of the layer's input, the first affine map's weights and bias -/

set_option maxHeartbeats 400000 in
theorem s8_agg : StableHlo.after hostOps8 W (Proc.devRef .tc main_v169)
    = Cert.Agg.aggK (W (Proc.devRef .tc main_v159)) (W (Proc.devRef .tc main_v1)) (W (Proc.devRef .tc main_v3)) := by
  after_results_simp
  rfl

set_option maxHeartbeats 400000 in
theorem s8_W1 : curM (StableHlo.after hostOps8 W (Proc.devRef .tc main_v171)) = curM3 (W (Proc.devRef .tc main_arg4)) (2 : Fin 4) := by
  funext k q
  show StableHlo.after hostOps8 W (Proc.devRef .tc main_v171) (ix2 k q) = W (Proc.devRef .tc main_arg4) (ix3 (2 : Fin 4) k q)
  after_results_simp
  exact matL (W (Proc.devRef .tc main_arg4)) k q

set_option maxHeartbeats 400000 in
theorem s8_b1 : curRow (StableHlo.after hostOps8 W (Proc.devRef .tc main_v174)) = curRow2 (W (Proc.devRef .tc main_arg5)) (2 : Fin 4) := by
  funext q
  show StableHlo.after hostOps8 W (Proc.devRef .tc main_v174) (ix2 0 q) = W (Proc.devRef .tc main_arg5) (ix2 (2 : Fin 4) q)
  after_results_simp
  exact rowL (W (Proc.devRef .tc main_arg5)) q

/-- The buffers stretch 8 writes. -/
abbrev hostOps8_W : List (Ref sig .tc) :=
  [main_c_22, main_v160, main_v161, main_c_23, main_v162, main_v163, main_v164, main_v165, main_v166, main_cst_24, main_v167, main_v168, main_v169, main_v170, main_v171, main_v172, main_v173, main_v174]

theorem hostOps8_writes : (hostOps8 : List (HloOp τ sig (Elt Ideal))).Forall fun op =>
    op.writes ⊆ (hostOps8_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 8 does not write keeps its contents. -/
theorem s8_keep (b : Ref sig .tc) (hb : b ∉ hostOps8_W) :
    StableHlo.after hostOps8 W (Proc.devRef .tc b) = W (Proc.devRef .tc b) :=
  StableHlo.after_of_writes_sub hostOps8 _ hostOps8_writes hb

/-! ## Stretch 9: the first normalisation's scale and shift from the column sums, the second affine map's weights and bias -/

set_option maxHeartbeats 400000 in
theorem s9_scale : curRow (StableHlo.after hostOps9 W (Proc.devRef .tc main_v188))
    = scaleK (curRow (W (Proc.devRef .tc main_v175_1))) (curRow (W (Proc.devRef .tc main_v175_2)))
        (curRow2 (W (Proc.devRef .tc main_arg6)) (2 : Fin 4)) := by
  funext q
  show StableHlo.after hostOps9 W (Proc.devRef .tc main_v188) (ix2 0 q) = _
  after_results_simp
  refine (Stats.scale_apply bcast_S_S1x128 _ _ _ q).trans ?_
  exact congrArg (fun g : Row => scaleK _ _ g q) (funext fun q' => rowL (W (Proc.devRef .tc main_arg6)) q')

set_option maxHeartbeats 400000 in
theorem s9_shift : curRow (StableHlo.after hostOps9 W (Proc.devRef .tc main_v193))
    = shiftK (curRow (W (Proc.devRef .tc main_v175_1))) (curRow (W (Proc.devRef .tc main_v175_2)))
        (curRow2 (W (Proc.devRef .tc main_arg6)) (2 : Fin 4)) (curRow2 (W (Proc.devRef .tc main_arg7)) (2 : Fin 4)) := by
  funext q
  show StableHlo.after hostOps9 W (Proc.devRef .tc main_v193) (ix2 0 q) = _
  after_results_simp
  refine (Stats.shift_apply bcast_S_S1x128 _ _ _ _ q).trans ?_
  exact congrArg₂ (fun g be : Row => shiftK _ _ g be q) (funext fun q' => rowL (W (Proc.devRef .tc main_arg6)) q')
    (funext fun q' => rowL (W (Proc.devRef .tc main_arg7)) q')

set_option maxHeartbeats 400000 in
theorem s9_W2 : curM (StableHlo.after hostOps9 W (Proc.devRef .tc main_v195)) = curM3 (W (Proc.devRef .tc main_arg8)) (2 : Fin 4) := by
  funext k q
  show StableHlo.after hostOps9 W (Proc.devRef .tc main_v195) (ix2 k q) = W (Proc.devRef .tc main_arg8) (ix3 (2 : Fin 4) k q)
  after_results_simp
  exact matL (W (Proc.devRef .tc main_arg8)) k q

set_option maxHeartbeats 400000 in
theorem s9_b2 : curRow (StableHlo.after hostOps9 W (Proc.devRef .tc main_v198)) = curRow2 (W (Proc.devRef .tc main_arg9)) (2 : Fin 4) := by
  funext q
  show StableHlo.after hostOps9 W (Proc.devRef .tc main_v198) (ix2 0 q) = W (Proc.devRef .tc main_arg9) (ix2 (2 : Fin 4) q)
  after_results_simp
  exact rowL (W (Proc.devRef .tc main_arg9)) q

/-- The buffers stretch 9 writes. -/
abbrev hostOps9_W : List (Ref sig .tc) :=
  [main_cst_25, main_v176, main_v177, main_cst_26, main_v178, main_v179, main_v180, main_v181, main_v182, main_v183, main_v184, main_cst_27, main_v185, main_v186, main_v187, main_v188, main_v189, main_v190, main_v191, main_v192, main_v193, main_v194, main_v195, main_v196, main_v197, main_v198]

theorem hostOps9_writes : (hostOps9 : List (HloOp τ sig (Elt Ideal))).Forall fun op =>
    op.writes ⊆ (hostOps9_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 9 does not write keeps its contents. -/
theorem s9_keep (b : Ref sig .tc) (hb : b ∉ hostOps9_W) :
    StableHlo.after hostOps9 W (Proc.devRef .tc b) = W (Proc.devRef .tc b) :=
  StableHlo.after_of_writes_sub hostOps9 _ hostOps9_writes hb

/-! ## Stretch 10: the second normalisation's scale and shift -/

set_option maxHeartbeats 400000 in
theorem s10_scale : curRow (StableHlo.after hostOps10 W (Proc.devRef .tc main_v212))
    = scaleK (curRow (W (Proc.devRef .tc main_v199_1))) (curRow (W (Proc.devRef .tc main_v199_2)))
        (curRow2 (W (Proc.devRef .tc main_arg10)) (2 : Fin 4)) := by
  funext q
  show StableHlo.after hostOps10 W (Proc.devRef .tc main_v212) (ix2 0 q) = _
  after_results_simp
  refine (Stats.scale_apply bcast_S_S1x128 _ _ _ q).trans ?_
  exact congrArg (fun g : Row => scaleK _ _ g q) (funext fun q' => rowL (W (Proc.devRef .tc main_arg10)) q')

set_option maxHeartbeats 400000 in
theorem s10_shift : curRow (StableHlo.after hostOps10 W (Proc.devRef .tc main_v217))
    = shiftK (curRow (W (Proc.devRef .tc main_v199_1))) (curRow (W (Proc.devRef .tc main_v199_2)))
        (curRow2 (W (Proc.devRef .tc main_arg10)) (2 : Fin 4)) (curRow2 (W (Proc.devRef .tc main_arg11)) (2 : Fin 4)) := by
  funext q
  show StableHlo.after hostOps10 W (Proc.devRef .tc main_v217) (ix2 0 q) = _
  after_results_simp
  refine (Stats.shift_apply bcast_S_S1x128 _ _ _ _ q).trans ?_
  exact congrArg₂ (fun g be : Row => shiftK _ _ g be q) (funext fun q' => rowL (W (Proc.devRef .tc main_arg10)) q')
    (funext fun q' => rowL (W (Proc.devRef .tc main_arg11)) q')

/-- The buffers stretch 10 writes. -/
abbrev hostOps10_W : List (Ref sig .tc) :=
  [main_cst_28, main_v200, main_v201, main_cst_29, main_v202, main_v203, main_v204, main_v205, main_v206, main_v207, main_v208, main_cst_30, main_v209, main_v210, main_v211, main_v212, main_v213, main_v214, main_v215, main_v216, main_v217]

theorem hostOps10_writes : (hostOps10 : List (HloOp τ sig (Elt Ideal))).Forall fun op =>
    op.writes ⊆ (hostOps10_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 10 does not write keeps its contents. -/
theorem s10_keep (b : Ref sig .tc) (hb : b ∉ hostOps10_W) :
    StableHlo.after hostOps10 W (Proc.devRef .tc b) = W (Proc.devRef .tc b) :=
  StableHlo.after_of_writes_sub hostOps10 _ hostOps10_writes hb

/-! ## Stretch 11: the third normalisation's scale and shift -/

set_option maxHeartbeats 400000 in
theorem s11_scale : curRow (StableHlo.after hostOps11 W (Proc.devRef .tc main_v231))
    = scaleK (curRow (W (Proc.devRef .tc main_v218_1))) (curRow (W (Proc.devRef .tc main_v218_2)))
        (curRow2 (W (Proc.devRef .tc main_arg12)) (2 : Fin 4)) := by
  funext q
  show StableHlo.after hostOps11 W (Proc.devRef .tc main_v231) (ix2 0 q) = _
  after_results_simp
  refine (Stats.scale_apply bcast_S_S1x128 _ _ _ q).trans ?_
  exact congrArg (fun g : Row => scaleK _ _ g q) (funext fun q' => rowL (W (Proc.devRef .tc main_arg12)) q')

set_option maxHeartbeats 400000 in
theorem s11_shift : curRow (StableHlo.after hostOps11 W (Proc.devRef .tc main_v236))
    = shiftK (curRow (W (Proc.devRef .tc main_v218_1))) (curRow (W (Proc.devRef .tc main_v218_2)))
        (curRow2 (W (Proc.devRef .tc main_arg12)) (2 : Fin 4)) (curRow2 (W (Proc.devRef .tc main_arg13)) (2 : Fin 4)) := by
  funext q
  show StableHlo.after hostOps11 W (Proc.devRef .tc main_v236) (ix2 0 q) = _
  after_results_simp
  refine (Stats.shift_apply bcast_S_S1x128 _ _ _ _ q).trans ?_
  exact congrArg₂ (fun g be : Row => shiftK _ _ g be q) (funext fun q' => rowL (W (Proc.devRef .tc main_arg12)) q')
    (funext fun q' => rowL (W (Proc.devRef .tc main_arg13)) q')

/-- The buffers stretch 11 writes. -/
abbrev hostOps11_W : List (Ref sig .tc) :=
  [main_cst_31, main_v219, main_v220, main_cst_32, main_v221, main_v222, main_v223, main_v224, main_v225, main_v226, main_v227, main_cst_33, main_v228, main_v229, main_v230, main_v231, main_v232, main_v233, main_v234, main_v235, main_v236]

theorem hostOps11_writes : (hostOps11 : List (HloOp τ sig (Elt Ideal))).Forall fun op =>
    op.writes ⊆ (hostOps11_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 11 does not write keeps its contents. -/
theorem s11_keep (b : Ref sig .tc) (hb : b ∉ hostOps11_W) :
    StableHlo.after hostOps11 W (Proc.devRef .tc b) = W (Proc.devRef .tc b) :=
  StableHlo.after_of_writes_sub hostOps11 _ hostOps11_writes hb

end Stretches

open Cert.Chain

/-! ## The layer over abstract boundary contents

`E0` is what the buffers hold when the layer starts; `X8`, `X9`, `X10`, `X11` what they hold when each of the layer's
four passes over the node array has ended.  Between two passes a stretch of host operations runs. -/

/-- The first pass's array as a function of the contents it starts from: features plus neighbour sums through the
    first affine map. -/
def r8 (V : Valuation τ sig (Elt Ideal)) : Arr :=
  lin (add (curA (V (Proc.devRef .tc main_v159))) (curA (V (Proc.devRef .tc main_v169))))
    (curM (V (Proc.devRef .tc main_v171))) (curRow (V (Proc.devRef .tc main_v174)))

/-- The second pass's array: the first normalisation with its rectifier, through the second affine map. -/
def r9 (V : Valuation τ sig (Elt Ideal)) : Arr :=
  lin (affRelu (curA (V (Proc.devRef .tc main_v175_0))) (curRow (V (Proc.devRef .tc main_v188))) (curRow (V (Proc.devRef .tc main_v193))))
    (curM (V (Proc.devRef .tc main_v195))) (curRow (V (Proc.devRef .tc main_v198)))

/-- The third pass's array: the second normalisation with its rectifier. -/
def r10 (V : Valuation τ sig (Elt Ideal)) : Arr :=
  affRelu (curA (V (Proc.devRef .tc main_v199_0))) (curRow (V (Proc.devRef .tc main_v212))) (curRow (V (Proc.devRef .tc main_v217)))

/-- The fourth pass's array: the third normalisation with its rectifier. -/
def r11 (V : Valuation τ sig (Elt Ideal)) : Arr :=
  affRelu (curA (V (Proc.devRef .tc main_v218_0))) (curRow (V (Proc.devRef .tc main_v231))) (curRow (V (Proc.devRef .tc main_v236)))

/-- What the four passes leave, each stated from the contents the pass starts from (the stretch before it applied
    to what the pass before left): its array, the array's column sums and column sums of squares, and every buffer
    that is not one of the pass's arrays untouched. -/
structure LayerRun (E0 X8 X9 X10 X11 : Valuation τ sig (Elt Ideal)) : Prop where
  o8 : curA (X8 (Proc.devRef .tc main_v175_0)) = r8 (StableHlo.after hostOps8 E0)
  s8 : curRow (X8 (Proc.devRef .tc main_v175_1)) = colsum (r8 (StableHlo.after hostOps8 E0))
  t8 : curRow (X8 (Proc.devRef .tc main_v175_2)) = colsumsq (r8 (StableHlo.after hostOps8 E0))
  k8 : ∀ b : Ref sig .tc, (∀ w, Pipeline.arrRef spec8 w ≠ b) → X8 (Proc.devRef .tc b) = StableHlo.after hostOps8 E0 (Proc.devRef .tc b)
  o9 : curA (X9 (Proc.devRef .tc main_v199_0)) = r9 (StableHlo.after hostOps9 X8)
  s9 : curRow (X9 (Proc.devRef .tc main_v199_1)) = colsum (r9 (StableHlo.after hostOps9 X8))
  t9 : curRow (X9 (Proc.devRef .tc main_v199_2)) = colsumsq (r9 (StableHlo.after hostOps9 X8))
  k9 : ∀ b : Ref sig .tc, (∀ w, Pipeline.arrRef spec9 w ≠ b) → X9 (Proc.devRef .tc b) = StableHlo.after hostOps9 X8 (Proc.devRef .tc b)
  o10 : curA (X10 (Proc.devRef .tc main_v218_0)) = r10 (StableHlo.after hostOps10 X9)
  s10 : curRow (X10 (Proc.devRef .tc main_v218_1)) = colsum (r10 (StableHlo.after hostOps10 X9))
  t10 : curRow (X10 (Proc.devRef .tc main_v218_2)) = colsumsq (r10 (StableHlo.after hostOps10 X9))
  k10 : ∀ b : Ref sig .tc, (∀ w, Pipeline.arrRef spec10 w ≠ b) → X10 (Proc.devRef .tc b) = StableHlo.after hostOps10 X9 (Proc.devRef .tc b)
  o11 : curA (X11 (Proc.devRef .tc main_v237)) = r11 (StableHlo.after hostOps11 X10)
  k11 : ∀ b : Ref sig .tc, (∀ w, Pipeline.arrRef spec11 w ≠ b) → X11 (Proc.devRef .tc b) = StableHlo.after hostOps11 X10 (Proc.devRef .tc b)

/-! ### The four arrays as functions of the layer's starting contents -/

section Arrays

variable (E0 : Valuation τ sig (Elt Ideal))

/-- The layer's parameters, read off the argument arrays as the layer finds them. -/
def prm : Params :=
  paramsOf (E0 (Proc.devRef .tc main_arg4)) (E0 (Proc.devRef .tc main_arg5)) (E0 (Proc.devRef .tc main_arg6)) (E0 (Proc.devRef .tc main_arg7))
    (E0 (Proc.devRef .tc main_arg8)) (E0 (Proc.devRef .tc main_arg9)) (E0 (Proc.devRef .tc main_arg10)) (E0 (Proc.devRef .tc main_arg11))
    (E0 (Proc.devRef .tc main_arg12)) (E0 (Proc.devRef .tc main_arg13))

/-- The neighbour sums of an array along the edge lists the layer finds. -/
def nbr (X : NArr) : NArr := Cert.Agg.aggK X (E0 (Proc.devRef .tc main_v1)) (E0 (Proc.devRef .tc main_v3))

def A8 : Arr :=
  lin (add (curA (E0 (Proc.devRef .tc main_v159))) (curA (nbr E0 (E0 (Proc.devRef .tc main_v159))))) ((prm E0).W1 (2 : Fin 4)) ((prm E0).b1 (2 : Fin 4))
def A9 : Arr := lin (bnK (A8 E0) ((prm E0).g1 (2 : Fin 4)) ((prm E0).be1 (2 : Fin 4))) ((prm E0).W2 (2 : Fin 4)) ((prm E0).b2 (2 : Fin 4))
def A10 : Arr := bnK (A9 E0) ((prm E0).g2 (2 : Fin 4)) ((prm E0).be2 (2 : Fin 4))
def A11 : Arr := bnK (A10 E0) ((prm E0).g3 (2 : Fin 4)) ((prm E0).be3 (2 : Fin 4))

/-- The layer, as the specification spells it, is the fourth array. -/
theorem step_eq : stepK (nbr E0) (prm E0) (2 : Fin 4) (E0 (Proc.devRef .tc main_v159)) = uncA (A11 E0) := rfl

end Arrays

/-! ### No stretch and no pass of the layer writes a kept buffer -/

theorem keepL_W8 : ∀ b ∈ keepL, b ∉ hostOps8_W := by decide
theorem keepL_W9 : ∀ b ∈ keepL, b ∉ hostOps9_W := by decide
theorem keepL_W10 : ∀ b ∈ keepL, b ∉ hostOps10_W := by decide
theorem keepL_W11 : ∀ b ∈ keepL, b ∉ hostOps11_W := by decide
theorem keepL_spec8 : ∀ b ∈ keepL, ∀ w, Pipeline.arrRef spec8 w ≠ b := by decide
theorem keepL_spec9 : ∀ b ∈ keepL, ∀ w, Pipeline.arrRef spec9 w ≠ b := by decide
theorem keepL_spec10 : ∀ b ∈ keepL, ∀ w, Pipeline.arrRef spec10 w ≠ b := by decide
theorem keepL_spec11 : ∀ b ∈ keepL, ∀ w, Pipeline.arrRef spec11 w ≠ b := by decide

namespace LayerRun

variable {E0 X8 X9 X10 X11 : Valuation τ sig (Elt Ideal)} (h : LayerRun E0 X8 X9 X10 X11)
include h

theorem keep8 (b : Ref sig .tc) (hb : b ∈ keepL) : X8 (Proc.devRef .tc b) = E0 (Proc.devRef .tc b) :=
  (h.k8 b (keepL_spec8 b hb)).trans (s8_keep E0 b (keepL_W8 b hb))

theorem keep9 (b : Ref sig .tc) (hb : b ∈ keepL) : X9 (Proc.devRef .tc b) = E0 (Proc.devRef .tc b) :=
  (h.k9 b (keepL_spec9 b hb)).trans ((s9_keep X8 b (keepL_W9 b hb)).trans (h.keep8 b hb))

theorem keep10 (b : Ref sig .tc) (hb : b ∈ keepL) : X10 (Proc.devRef .tc b) = E0 (Proc.devRef .tc b) :=
  (h.k10 b (keepL_spec10 b hb)).trans ((s10_keep X9 b (keepL_W10 b hb)).trans (h.keep9 b hb))

/-- The kept buffers end the layer as they started it. -/
theorem keep (b : Ref sig .tc) (hb : b ∈ keepL) : X11 (Proc.devRef .tc b) = E0 (Proc.devRef .tc b) :=
  (h.k11 b (keepL_spec11 b hb)).trans ((s11_keep X10 b (keepL_W11 b hb)).trans (h.keep10 b hb))

/-- The first pass leaves the first affine map of features plus neighbour sums. -/
theorem a8 : r8 (StableHlo.after hostOps8 E0) = A8 E0 := by
  unfold r8
  rw [s8_keep E0 main_v159 (by decide), s8_agg, s8_W1, s8_b1]
  rfl

/-- The second pass leaves the second affine map of the first normalisation. -/
theorem a9 : r9 (StableHlo.after hostOps9 X8) = A9 E0 := by
  unfold r9
  rw [s9_keep X8 main_v175_0 (by decide), s9_scale, s9_shift, s9_W2, s9_b2, h.o8, h.s8, h.t8, h.a8,
    h.keep8 main_arg6 (by decide), h.keep8 main_arg7 (by decide), h.keep8 main_arg8 (by decide), h.keep8 main_arg9 (by decide)]
  rfl

/-- The third pass leaves the second normalisation. -/
theorem a10 : r10 (StableHlo.after hostOps10 X9) = A10 E0 := by
  unfold r10
  rw [s10_keep X9 main_v199_0 (by decide), s10_scale, s10_shift, h.o9, h.s9, h.t9, h.a9,
    h.keep9 main_arg10 (by decide), h.keep9 main_arg11 (by decide)]
  rfl

/-- The fourth pass leaves the third normalisation. -/
theorem a11 : r11 (StableHlo.after hostOps11 X10) = A11 E0 := by
  unfold r11
  rw [s11_keep X10 main_v218_0 (by decide), s11_scale, s11_shift, h.o10, h.s10, h.t10, h.a10,
    h.keep10 main_arg12 (by decide), h.keep10 main_arg13 (by decide)]
  rfl

/-- The layer's result array is the specification's layer applied to the layer's input array. -/
theorem x : X11 (Proc.devRef .tc main_v237) = stepK (nbr E0) (prm E0) (2 : Fin 4) (E0 (Proc.devRef .tc main_v159)) := by
  rw [step_eq, ← h.a11, ← h.o11]
  exact (uncA_curA _).symm

end LayerRun

end Cert.KernelIdeal.Chain.L2

end
-- ==== Proof.Region8.lean ====
import proofs.«108002_j23673859736037_1_alg».proof.Proof.Region0

set_option maxRecDepth 16384

noncomputable section

namespace Cert.KernelIdeal.Region8

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen
open scoped BigOperators

section Pay
variable {F : FTy → Type} [FloatOps F] (x0 x1 : Vec F S5000x128 .f32) (w : Vec F S128x128 .f32) (b acc : Vec F S1x128 .f32)

-- This region's payloads are the first region's, up to casts of a shape to itself.
theorem pay1_eq : k8_pay1 x0 x1 w b = k0_pay1 x0 x1 w b := by
  unfold k8_pay1 k0_pay1
  simp only [shapeCast_self]

theorem pay4_eq : k8_pay4 x0 x1 w b acc = k0_pay4 x0 x1 w b acc := by
  unfold k8_pay4 k0_pay4
  rw [pay1_eq]

theorem pay5_eq : k8_pay5 x0 x1 w b acc = k0_pay5 x0 x1 w b acc := by
  unfold k8_pay5 k0_pay5
  rw [pay1_eq]

end Pay

section Pieces
variable {F : FTy → Type} [FloatOps F] {c : Dev nD} {i : grid8.Coords}
  {arg1 : Memref sig .tc .vmem S5000x128 .f32} {harg1 : arg1.IsWhole} {arg2 : Memref sig .tc .vmem S5000x128 .f32} {harg2 : arg2.IsWhole}
  {arg3 : Memref sig .tc .vmem S128x128 .f32} {harg3 : arg3.IsWhole} {arg4 : Memref sig .tc .vmem S1x128 .f32} {harg4 : arg4.IsWhole}
  {arg5 : Memref sig .tc .vmem S5000x128 .f32} {harg5 : arg5.IsWhole} {arg6 : Memref sig .tc .vmem S1x128 .f32} {harg6 : arg6.IsWhole}
  {arg7 : Memref sig .tc .vmem S1x128 .f32} {harg7 : arg7.IsWhole}
  (x0 x1 : Vec F S5000x128 .f32) (x2 : Vec F S128x128 .f32) (x3 xo5 xo6 : Vec F S1x128 .f32)

-- What each case of the body leaves in the three output blocks.
theorem out_A {hc0 : cond8_0 i} :
    (out8_A_4 c i arg1 harg1 arg2 harg2 arg3 harg3 arg4 harg4 arg5 harg5 arg6 harg6 arg7 harg7 hc0 x0 x1 x2 x3, out8_A_5 c i arg1 harg1 arg2 harg2 arg3 harg3 arg4 harg4 arg5 harg5 arg6 harg6 arg7 harg7 hc0 x0 x1 x2 x3, out8_A_6 c i arg1 harg1 arg2 harg2 arg3 harg3 arg4 harg4 arg5 harg5 arg6 harg6 arg7 harg7 hc0 x0 x1 x2 x3)
      = (k0_pay1 x0 x1 x2 x3, k0_pay4 x0 x1 x2 x3 (k0_pay2 (F := F)), k0_pay5 x0 x1 x2 x3 (k0_pay3 (F := F))) := by
  refine congrArg₂ Prod.mk ?_ (congrArg₂ Prod.mk ?_ ?_)
    <;> (first | unfold out8_A_4 | unfold out8_A_5 | unfold out8_A_6)
    <;> (first
      | rw [View.read_writes_eq_canon _ _ _ (cover8_A_4 c i arg1 harg1 arg2 harg2 arg3 harg3 arg4 harg4 arg5 harg5 arg6 harg6 arg7 harg7 hc0 x0 x1 x2 x3)]
      | rw [View.read_writes_eq_canon _ _ _ (cover8_A_5 c i arg1 harg1 arg2 harg2 arg3 harg3 arg4 harg4 arg5 harg5 arg6 harg6 arg7 harg7 hc0 x0 x1 x2 x3)]
      | rw [View.read_writes_eq_canon _ _ _ (cover8_A_6 c i arg1 harg1 arg2 harg2 arg3 harg3 arg4 harg4 arg5 harg5 arg6 harg6 arg7 harg7 hc0 x0 x1 x2 x3)])
    <;> unfold kernelRun8_A
    <;> dsimp only
    <;> sl_unfold_words
    <;> (first
      | rw [View.canon_unit_zero Region0.hz]
      | rw [View.canon_cons_unit_zero (S := S1x128) Region0.hz, View.readCov_unit_zero (S := S1x128) _ Region0.hz])
    <;> simp only [View.readAt_eq_ld, harg1.read_unread, harg2.read_unread, harg3.read_unread, harg4.read_unread, harg6.read_unread, harg7.read_unread, View.ld_unit_zero (S := S5000x128) Region0.hz, View.ld_unit_zero (S := S128x128) Region0.hz, View.ld_unit_zero (S := S1x128) Region0.hz]
    <;> (first | exact pay1_eq _ _ _ _ | exact pay4_eq _ _ _ _ _ | exact pay5_eq _ _ _ _ _)

theorem out_B {hc0 : ¬cond8_0 i} :
    (out8_B_4 c i arg1 harg1 arg2 harg2 arg3 harg3 arg4 harg4 arg5 harg5 arg6 harg6 arg7 harg7 hc0 x0 x1 x2 x3 xo5 xo6, out8_B_5 c i arg1 harg1 arg2 harg2 arg3 harg3 arg4 harg4 arg5 harg5 arg6 harg6 arg7 harg7 hc0 x0 x1 x2 x3 xo5 xo6, out8_B_6 c i arg1 harg1 arg2 harg2 arg3 harg3 arg4 harg4 arg5 harg5 arg6 harg6 arg7 harg7 hc0 x0 x1 x2 x3 xo5 xo6)
      = (k0_pay1 x0 x1 x2 x3, k0_pay4 x0 x1 x2 x3 xo5, k0_pay5 x0 x1 x2 x3 xo6) := by
  refine congrArg₂ Prod.mk ?_ (congrArg₂ Prod.mk ?_ ?_)
    <;> (first | unfold out8_B_4 | unfold out8_B_5 | unfold out8_B_6)
    <;> (first
      | rw [View.read_writes_eq_canon _ _ _ (cover8_B_4 c i arg1 harg1 arg2 harg2 arg3 harg3 arg4 harg4 arg5 harg5 arg6 harg6 arg7 harg7 hc0 x0 x1 x2 x3 xo5 xo6)]
      | rw [View.read_writes_eq_canon _ _ _ (cover8_B_5 c i arg1 harg1 arg2 harg2 arg3 harg3 arg4 harg4 arg5 harg5 arg6 harg6 arg7 harg7 hc0 x0 x1 x2 x3 xo5 xo6)]
      | rw [View.read_writes_eq_canon _ _ _ (cover8_B_6 c i arg1 harg1 arg2 harg2 arg3 harg3 arg4 harg4 arg5 harg5 arg6 harg6 arg7 harg7 hc0 x0 x1 x2 x3 xo5 xo6)])
    <;> unfold kernelRun8_B
    <;> dsimp only
    <;> sl_unfold_words
    <;> (first
      | rw [View.canon_unit_zero Region0.hz]
      | rw [View.canon_cons_unit_zero (S := S1x128) Region0.hz, View.readCov_unit_zero (S := S1x128) _ Region0.hz])
    <;> simp only [View.readAt_eq_ld, harg1.read_unread, harg2.read_unread, harg3.read_unread, harg4.read_unread, harg6.read_unread, harg7.read_unread, View.ld_unit_zero (S := S5000x128) Region0.hz, View.ld_unit_zero (S := S128x128) Region0.hz, View.ld_unit_zero (S := S1x128) Region0.hz]
    <;> (first | exact pay1_eq _ _ _ _ | exact pay4_eq _ _ _ _ _ | exact pay5_eq _ _ _ _ _)

end Pieces

theorem idx_facts : ∀ t : Fin grid8.N,
    (win8_0.index t (0 : Fin 2) = t.val ∧ win8_0.index t (1 : Fin 2) = 0)
    ∧ (win8_1.index t (0 : Fin 2) = t.val ∧ win8_1.index t (1 : Fin 2) = 0)
    ∧ (win8_2.index t (0 : Fin 2) = 0 ∧ win8_2.index t (1 : Fin 2) = 0)
    ∧ (win8_3.index t (0 : Fin 2) = 0 ∧ win8_3.index t (1 : Fin 2) = 0)
    ∧ (win8_4.index t (0 : Fin 2) = t.val ∧ win8_4.index t (1 : Fin 2) = 0)
    ∧ (win8_5.index t (0 : Fin 2) = 0 ∧ win8_5.index t (1 : Fin 2) = 0)
    ∧ (win8_6.index t (0 : Fin 2) = 0 ∧ win8_6.index t (1 : Fin 2) = 0) := by decide +kernel

section Blocks
variable (t : Fin cfg8.N)

-- Row `r` of block `t` of a row-blocked window sits at row `5000 t + r` of its array.
theorem emb0 (r : Fin 5000) (q : Fin 128) (p : Fin 100000) (hp : p.val = 5000 * t.val + r.val) :
    (((cfg8.win 0).blk t).view.emb (ix2 r q) : S100000x128.Idx) = ix2 p q := by
  obtain ⟨⟨e0, e1⟩, -⟩ := idx_facts t
  refine funext fun a => Fin.ext ?_
  match a with
  | ⟨0, _⟩ => show win8_0.index t (0 : Fin 2) * 5000 + 1 * r.val = p.val; rw [e0, hp]; omega
  | ⟨1, _⟩ => show win8_0.index t (1 : Fin 2) * 128 + 1 * q.val = q.val; rw [e1]; omega

theorem emb1 (r : Fin 5000) (q : Fin 128) (p : Fin 100000) (hp : p.val = 5000 * t.val + r.val) :
    (((cfg8.win 1).blk t).view.emb (ix2 r q) : S100000x128.Idx) = ix2 p q := by
  obtain ⟨-, ⟨e0, e1⟩, -⟩ := idx_facts t
  refine funext fun a => Fin.ext ?_
  match a with
  | ⟨0, _⟩ => show win8_1.index t (0 : Fin 2) * 5000 + 1 * r.val = p.val; rw [e0, hp]; omega
  | ⟨1, _⟩ => show win8_1.index t (1 : Fin 2) * 128 + 1 * q.val = q.val; rw [e1]; omega

theorem emb4 (r : Fin 5000) (q : Fin 128) (p : Fin 100000) (hp : p.val = 5000 * t.val + r.val) :
    (((cfg8.win 4).blk t).view.emb (ix2 r q) : S100000x128.Idx) = ix2 p q := by
  obtain ⟨-, -, -, -, ⟨e0, e1⟩, -⟩ := idx_facts t
  refine funext fun a => Fin.ext ?_
  match a with
  | ⟨0, _⟩ => show win8_4.index t (0 : Fin 2) * 5000 + 1 * r.val = p.val; rw [e0, hp]; omega
  | ⟨1, _⟩ => show win8_4.index t (1 : Fin 2) * 128 + 1 * q.val = q.val; rw [e1]; omega

-- A window with one block: the block is the whole array.
theorem emb2 (k q : Fin 128) : (((cfg8.win 2).blk t).view.emb (ix2 k q) : S128x128.Idx) = ix2 k q := by
  obtain ⟨-, -, ⟨e0, e1⟩, -⟩ := idx_facts t
  refine funext fun a => Fin.ext ?_
  match a with
  | ⟨0, _⟩ => show win8_2.index t (0 : Fin 2) * 128 + 1 * k.val = k.val; rw [e0]; omega
  | ⟨1, _⟩ => show win8_2.index t (1 : Fin 2) * 128 + 1 * q.val = q.val; rw [e1]; omega

theorem emb3 (q : Fin 128) : (((cfg8.win 3).blk t).view.emb (ix2 0 q) : S1x128.Idx) = ix2 0 q := by
  obtain ⟨-, -, -, ⟨e0, e1⟩, -⟩ := idx_facts t
  refine funext fun a => Fin.ext ?_
  match a with
  | ⟨0, _⟩ => show win8_3.index t (0 : Fin 2) * 1 + 1 * 0 = 0; rw [e0]
  | ⟨1, _⟩ => show win8_3.index t (1 : Fin 2) * 128 + 1 * q.val = q.val; rw [e1]; omega

theorem emb5 (q : Fin 128) : (((cfg8.win 5).blk t).view.emb (ix2 0 q) : S1x128.Idx) = ix2 0 q := by
  obtain ⟨-, -, -, -, -, ⟨e0, e1⟩, -⟩ := idx_facts t
  refine funext fun a => Fin.ext ?_
  match a with
  | ⟨0, _⟩ => show win8_5.index t (0 : Fin 2) * 1 + 1 * 0 = 0; rw [e0]
  | ⟨1, _⟩ => show win8_5.index t (1 : Fin 2) * 128 + 1 * q.val = q.val; rw [e1]; omega

theorem emb6 (q : Fin 128) : (((cfg8.win 6).blk t).view.emb (ix2 0 q) : S1x128.Idx) = ix2 0 q := by
  obtain ⟨-, -, -, -, -, -, ⟨e0, e1⟩⟩ := idx_facts t
  refine funext fun a => Fin.ext ?_
  match a with
  | ⟨0, _⟩ => show win8_6.index t (0 : Fin 2) * 1 + 1 * 0 = 0; rw [e0]
  | ⟨1, _⟩ => show win8_6.index t (1 : Fin 2) * 128 + 1 * q.val = q.val; rw [e1]; omega

-- A block whose rows are rows `5000 t + ·` of `A` is block `t` of `A`.
theorem cut4 (A : S100000x128.Idx → EReal) (y : Vec Ideal S5000x128 .f32)
    (hy : ∀ (r : Fin 5000) (q : Fin 128) (p : Fin 100000), p.val = 5000 * t.val + r.val → y (ix2 r q) = A (ix2 p q)) :
    (cfg8.win 4).cut (grid8.coords t) y = ((cfg8.win 4).blk t).view.read (Elt Ideal) A := by
  have hN : t.val < 20 := lt_of_lt_of_eq t.isLt (show cfg8.N = 20 from N_8)
  funext j
  obtain ⟨r, q, rfl⟩ : ∃ (r : Fin 5000) (q : Fin 128), j = ix2 r q := ⟨j 0, j 1, eq_ix2 j⟩
  exact (hy r q ⟨5000 * t.val + r.val, by have := r.isLt; omega⟩ rfl).trans (congrArg A (emb4 t r q _ rfl)).symm

theorem cut5 (R : S1x128.Idx → EReal) (y : Vec Ideal S1x128 .f32) (hy : ∀ q : Fin 128, y (ix2 0 q) = R (ix2 0 q)) :
    (cfg8.win 5).cut (grid8.coords t) y = ((cfg8.win 5).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb5 t q)).symm

theorem cut6 (R : S1x128.Idx → EReal) (y : Vec Ideal S1x128 .f32) (hy : ∀ q : Fin 128, y (ix2 0 q) = R (ix2 0 q)) :
    (cfg8.win 6).cut (grid8.coords t) y = ((cfg8.win 6).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb6 t q)).symm

end Blocks

-- Row `p` is in block `p / 5000`: the twenty row blocks cover the array.
theorem cover4 (i : S100000x128.Idx) :
    ∃ t : Fin cfg8.N, (cfg8.win 4).flush t = true ∧ i ∈ ((cfg8.win 4).blk t).view.set := by
  obtain ⟨p, q, rfl⟩ : ∃ (p : Fin 100000) (q : Fin 128), i = ix2 p q := ⟨i 0, i 1, eq_ix2 i⟩
  have hp := p.isLt
  have hN : cfg8.N = 20 := N_8
  obtain ⟨t, ht⟩ : ∃ t : Fin cfg8.N, t.val = p.val / 5000 := ⟨⟨p.val / 5000, by omega⟩, rfl⟩
  refine ⟨t, flush8_4 t, ?_⟩
  rw [← emb4 t ⟨p.val % 5000, Nat.mod_lt _ (by omega)⟩ q p (by dsimp only; omega)]
  exact View.emb_mem_set _ _

-- The one block of a statistics row is the whole row.
theorem cover5 (i : S1x128.Idx) :
    ∃ t : Fin cfg8.N, (cfg8.win 5).flush t = true ∧ i ∈ ((cfg8.win 5).blk t).view.set := by
  obtain ⟨u, q, rfl⟩ : ∃ (u : Fin 1) (q : Fin 128), i = ix2 u q := ⟨i 0, i 1, eq_ix2 i⟩
  obtain rfl : u = 0 := Subsingleton.elim _ _
  have hN : cfg8.N = 20 := N_8
  obtain ⟨t, ht⟩ : ∃ t : Fin cfg8.N, t.val = 19 := ⟨⟨19, by omega⟩, rfl⟩
  refine ⟨t, (flush8_5 t).mpr (by omega), ?_⟩
  rw [← emb5 t q]
  exact View.emb_mem_set _ _

theorem cover6 (i : S1x128.Idx) :
    ∃ t : Fin cfg8.N, (cfg8.win 6).flush t = true ∧ i ∈ ((cfg8.win 6).blk t).view.set := by
  obtain ⟨u, q, rfl⟩ : ∃ (u : Fin 1) (q : Fin 128), i = ix2 u q := ⟨i 0, i 1, eq_ix2 i⟩
  obtain rfl : u = 0 := Subsingleton.elim _ _
  have hN : cfg8.N = 20 := N_8
  obtain ⟨t, ht⟩ : ∃ t : Fin cfg8.N, t.val = 19 := ⟨⟨19, by omega⟩, rfl⟩
  refine ⟨t, (flush8_6 t).mpr (by omega), ?_⟩
  rw [← emb6 t q]
  exact View.emb_mem_set _ _

variable (V : (c : Dev nD) → (b : Ref sig .tc) → Buf (Elt Ideal) ((c : Thread nD τ).loc b))

abbrev a (c : Dev nD) : Cert.Spec.Arr :=
  Cert.Spec.lin (Cert.Spec.add (Cert.Spec.curA (V c (Pipeline.arrRef spec8 0))) (Cert.Spec.curA (V c (Pipeline.arrRef spec8 1))))
    (Cert.Spec.curM (V c (Pipeline.arrRef spec8 2))) (Cert.Spec.curRow (V c (Pipeline.arrRef spec8 3)))

-- The step equations of this region's points, and its input blocks as blocks of the arrays.
theorem vals (c : Dev nD) (t : Fin cfg8.N) :
    (∀ (r : Fin 5000) (q : Fin 128) (p : Fin 100000), p.val = 5000 * t.val + r.val →
        (outsAt8 V c t.val t.isLt).1 (ix2 r q) = a V c p q)
    ∧ (t.val = 19 → ∀ q : Fin 128, (outsAt8 V c t.val t.isLt).2.1 (ix2 0 q) = Cert.Spec.colsum (a V c) q
        ∧ (outsAt8 V c t.val t.isLt).2.2 (ix2 0 q) = Cert.Spec.colsumsq (a V c) q) :=
  Region0.run_vals N_8 (iblk8 V c 0) (iblk8 V c 1) (iblk8 V c 2) (iblk8 V c 3) (outsAt8 V c)
    (fun t h0 => (outsAt8_A V c t h0).trans (out_A _ _ _ _))
    (fun t h0 => (outsAt8_B V c t h0).trans (out_B _ _ _ _ _ _))
    (a V c)
    (Region0.lin_blk _ _ _ _ _ _ _ _ (fun t r q p hp => congrArg (V c (Pipeline.arrRef spec8 0)) (emb0 t r q p hp)) (fun t r q p hp => congrArg (V c (Pipeline.arrRef spec8 1)) (emb1 t r q p hp))
      (fun t k q => congrArg (V c (Pipeline.arrRef spec8 2)) (emb2 t k q)) fun t q => congrArg (V c (Pipeline.arrRef spec8 3)) (emb3 t q)) t

theorem out_eq (c : Dev nD) (p : Fin 100000) (q : Fin 128) :
    (dat8 (F := Ideal) V c).arrAt 4 cfg8.N (ix2 p q) = a V c p q :=
  congrFun ((dat8 V c).arrAt_eq_of_cover 4 (fun i : S100000x128.Idx => a V c (i 0) (i 1))
    (fun t _ => cut4 t _ _ (vals V c t).1) cover4) (ix2 p q)

theorem sum_eq (c : Dev nD) (q : Fin 128) :
    (dat8 (F := Ideal) V c).arrAt 5 cfg8.N (ix2 0 q) = Cert.Spec.colsum (a V c) q :=
  congrFun ((dat8 V c).arrAt_eq_of_cover 5 (fun i : S1x128.Idx => Cert.Spec.colsum (a V c) (i 1))
    (fun t hf => cut5 t _ _ fun q => ((vals V c t).2 (by have := (flush8_5 t).mp hf; have := lt_of_lt_of_eq t.isLt (show cfg8.N = 20 from N_8); omega) q).1) cover5) (ix2 0 q)

theorem sumsq_eq (c : Dev nD) (q : Fin 128) :
    (dat8 (F := Ideal) V c).arrAt 6 cfg8.N (ix2 0 q) = Cert.Spec.colsumsq (a V c) q :=
  congrFun ((dat8 V c).arrAt_eq_of_cover 6 (fun i : S1x128.Idx => Cert.Spec.colsumsq (a V c) (i 1))
    (fun t hf => cut6 t _ _ fun q => ((vals V c t).2 (by have := (flush8_6 t).mp hf; have := lt_of_lt_of_eq t.isLt (show cfg8.N = 20 from N_8); omega) q).2) cover6) (ix2 0 q)

end Cert.KernelIdeal.Region8

end
-- ==== Proof.Region9.lean ====
import proofs.«108002_j23673859736037_1_alg».proof.Proof.Gen.KernelIdeal.Frame
import proofs.«108002_j23673859736037_1_alg».proof.Proof.Spec
import proofs.«108002_j23673859736037_1_alg».proof.Proof.LibRowOps
import proofs.«108002_j23673859736037_1_alg».proof.Proof.RowBlocks
import proofs.«108002_j23673859736037_1_alg».proof.Proof.Region1
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Region9

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen Cert.RowBlocks
open scoped BigOperators

variable (V : (c : Dev nD) → (b : Ref sig .tc) → Buf (Elt Ideal) ((c : Thread nD τ).loc b))

-- Each store writes the whole of its output, so the output holds the last stored value; a load after a store reads that value.
theorem outs_A (c : Dev nD) (t : Fin cfg9.N) (h0 : t.val % 20 = 0) :
    outsAt9 V c t.val t.isLt = Region1.stepA (iblk9 V c 0 t) (iblk9 V c 1 t) (iblk9 V c 2 t) (iblk9 V c 3 t) (iblk9 V c 4 t) := by
  rw [outsAt9_A V c t h0]
  unfold out9_A_5 out9_A_6 out9_A_7
  rw [View.read_writes_eq_canon _ _ _ (cover9_A_5 c _ _ _ _ _ _ _ _ _ _ _ _ _ _ _ _ _ _ _ _ _ _ _),
    View.read_writes_eq_canon _ _ _ (cover9_A_6 c _ _ _ _ _ _ _ _ _ _ _ _ _ _ _ _ _ _ _ _ _ _ _),
    View.read_writes_eq_canon _ _ _ (cover9_A_7 c _ _ _ _ _ _ _ _ _ _ _ _ _ _ _ _ _ _ _ _ _ _ _)]
  unfold kernelRun9_A
  dsimp only
  sl_unfold_words
  simp only [View.canon_unit_zero (S := S5000x128) Region1.hz, View.canon_cons_unit_zero (S := S1x128) Region1.hz,
    View.readCov_unit_zero (S := S1x128) _ Region1.hz,
    View.readAt_eq_ld, (hs9_0 t).read_unread, (hs9_1 t).read_unread, (hs9_2 t).read_unread, (hs9_3 t).read_unread,
      (hs9_4 t).read_unread,
    View.ld_unit_zero (S := S5000x128) Region1.hz, View.ld_unit_zero (S := S1x128) Region1.hz,
      View.ld_unit_zero (S := S128x128) Region1.hz]
  rfl

theorem outs_B (c : Dev nD) (t : Fin cfg9.N) (h0 : ¬t.val % 20 = 0) :
    outsAt9 V c t.val t.isLt
      = Region1.stepB (iblk9 V c 0 t) (iblk9 V c 1 t) (iblk9 V c 2 t) (iblk9 V c 3 t) (iblk9 V c 4 t)
          (outsAt9 V c (t.val - 1) (Nat.lt_of_le_of_lt (Nat.sub_le _ _) t.isLt)) := by
  rw [outsAt9_B V c t h0]
  unfold out9_B_5 out9_B_6 out9_B_7
  rw [View.read_writes_eq_canon _ _ _ (cover9_B_5 c _ _ _ _ _ _ _ _ _ _ _ _ _ _ _ _ _ _ _ _ _ _ _ _ _),
    View.read_writes_eq_canon _ _ _ (cover9_B_6 c _ _ _ _ _ _ _ _ _ _ _ _ _ _ _ _ _ _ _ _ _ _ _ _ _),
    View.read_writes_eq_canon _ _ _ (cover9_B_7 c _ _ _ _ _ _ _ _ _ _ _ _ _ _ _ _ _ _ _ _ _ _ _ _ _)]
  unfold kernelRun9_B
  dsimp only
  sl_unfold_words
  simp only [View.canon_unit_zero (S := S5000x128) Region1.hz, View.canon_unit_zero (S := S1x128) Region1.hz,
    View.readAt_eq_ld, (hs9_0 t).read_unread, (hs9_1 t).read_unread, (hs9_2 t).read_unread, (hs9_3 t).read_unread,
    (hs9_4 t).read_unread, (hs9_6 t).read_unread, (hs9_7 t).read_unread,
    View.ld_unit_zero (S := S5000x128) Region1.hz, View.ld_unit_zero (S := S1x128) Region1.hz,
      View.ld_unit_zero (S := S128x128) Region1.hz]
  rfl

abbrev a (c : Dev nD) : Cert.Spec.Arr :=
  Cert.Spec.lin
    (Cert.Spec.affRelu (Cert.Spec.curA (V c (Pipeline.arrRef spec9 0))) (Cert.Spec.curRow (V c (Pipeline.arrRef spec9 1)))
      (Cert.Spec.curRow (V c (Pipeline.arrRef spec9 2))))
    (Cert.Spec.curM (V c (Pipeline.arrRef spec9 3))) (Cert.Spec.curRow (V c (Pipeline.arrRef spec9 4)))

-- The run's outputs, point by point, satisfy the step equations over the operands' blocks, so they hold these values.
theorem vals (c : Dev nD) : Region1.Vals N_9 (outsAt9 V c) (a V c) :=
  Region1.core N_9 _ _ _ _ _ (iblk9 V c 0) (iblk9 V c 1) (iblk9 V c 2) (iblk9 V c 3) (iblk9 V c 4) (outsAt9 V c)
    (fun t r k => congrArg (V c (Pipeline.arrRef spec9 0)) (Region1.emb0 t (ix2 r k) (ix2 (row (t.cast N_9) r) k) rfl rfl))
    (fun t k => congrArg (V c (Pipeline.arrRef spec9 1)) (Region1.emb1 t (ix2 0 k)))
    (fun t k => congrArg (V c (Pipeline.arrRef spec9 2)) (Region1.emb2 t (ix2 0 k)))
    (fun t k q => congrArg (V c (Pipeline.arrRef spec9 3)) (Region1.emb3 t (ix2 k q)))
    (fun t k => congrArg (V c (Pipeline.arrRef spec9 4)) (Region1.emb4 t (ix2 0 k)))
    (outs_A V c) (outs_B V c)

-- What every point contributes to the first output is its block's rows of the array.
theorem flushed5 (c : Dev nD) (t : Fin cfg9.N) :
    (dat9 V c).flushed 5 t = ((cfg9.win 5).blk t).view.read (Elt Ideal) (Region1.G5 (a V c)) := by
  show (cfg9.win 5).cut (grid9.coords t) ((dat9 V c).after 5 t) = _
  rw [after9_5]
  refine funext fun (j : S5000x128.Idx) => ?_
  obtain ⟨r, q, rfl⟩ : ∃ (r : Fin 5000) (q : Fin 128), j = ix2 r q := ⟨j 0, j 1, eq_ix2 j⟩
  exact ((vals V c).1 t r q).trans
    (congrArg (Region1.G5 (a V c)) (Region1.emb5 t (ix2 r q) (ix2 (row (t.cast N_9) r) q) rfl rfl) :).symm

-- The array ends holding the last point's value: that point's block is the whole array.
theorem arr6 (c : Dev nD) (t : Fin cfg9.N) (h19 : t.val = 19) :
    (dat9 (F := Ideal) V c).arrAt 6 cfg9.N = (outsAt9 V c t.val t.isLt).2.1 := by
  have hN : cfg9.N = 20 := N_9
  generalize hG : (outsAt9 V c t.val t.isLt).2.1 = G
  have hfl : ∀ s, (cfg9.win 6).flush s = true →
      (dat9 V c).flushed 6 s = ((cfg9.win 6).blk s).view.read (Elt Ideal) G := fun s hf => by
    rw [show s = t from Fin.ext (by have := (flush9_6 s).mp hf; have := s.isLt; omega)]
    show (cfg9.win 6).cut _ ((dat9 V c).after 6 t) = _
    rw [after9_6]
    exact hG.trans (funext fun j => (congrArg G (Region1.emb6 t j) :).symm)
  exact funext fun i => (congrArg ((dat9 V c).arrAt 6 cfg9.N) (Region1.emb6 t i) :).symm.trans
    ((congrFun ((dat9 V c).read_blk_arrAt 6 G hfl t ((flush9_6 t).mpr (by omega))) i).trans
      (congrArg G (Region1.emb6 t i) :))

theorem arr7 (c : Dev nD) (t : Fin cfg9.N) (h19 : t.val = 19) :
    (dat9 (F := Ideal) V c).arrAt 7 cfg9.N = (outsAt9 V c t.val t.isLt).2.2 := by
  have hN : cfg9.N = 20 := N_9
  generalize hG : (outsAt9 V c t.val t.isLt).2.2 = G
  have hfl : ∀ s, (cfg9.win 7).flush s = true →
      (dat9 V c).flushed 7 s = ((cfg9.win 7).blk s).view.read (Elt Ideal) G := fun s hf => by
    rw [show s = t from Fin.ext (by have := (flush9_7 s).mp hf; have := s.isLt; omega)]
    show (cfg9.win 7).cut _ ((dat9 V c).after 7 t) = _
    rw [after9_7]
    exact hG.trans (funext fun j => (congrArg G (Region1.emb7 t j) :).symm)
  exact funext fun i => (congrArg ((dat9 V c).arrAt 7 cfg9.N) (Region1.emb7 t i) :).symm.trans
    ((congrFun ((dat9 V c).read_blk_arrAt 7 G hfl t ((flush9_7 t).mpr (by omega))) i).trans
      (congrArg G (Region1.emb7 t i) :))

-- The outputs after the region: every index lies in a block whose value is known.
theorem out_eq (c : Dev nD) (p : Fin 100000) (q : Fin 128) :
    (dat9 (F := Ideal) V c).arrAt 5 cfg9.N (ix2 p q) = a V c p q := by
  have hN : cfg9.N = 20 := N_9
  obtain ⟨t, r, rfl⟩ : ∃ (t : Fin cfg9.N) (r : Fin 5000), p = row (t.cast N_9) r :=
    ⟨⟨p.val / 5000, by have := p.isLt; omega⟩, ⟨p.val % 5000, Nat.mod_lt _ (by omega)⟩,
      Fin.ext (by show p.val = 5000 * (p.val / 5000) + p.val % 5000; omega)⟩
  have e := Region1.emb5 t (ix2 r q) (ix2 (row (t.cast N_9) r) q) rfl rfl
  exact (congrArg ((dat9 V c).arrAt 5 cfg9.N) e :).symm.trans
    ((congrFun ((dat9 V c).read_blk_arrAt 5 (Region1.G5 (a V c)) (fun t _ => flushed5 V c t) t (flush9_5 t)) (ix2 r q)).trans
      (congrArg (Region1.G5 (a V c)) e :))

theorem sum_eq (c : Dev nD) (q : Fin 128) :
    (dat9 (F := Ideal) V c).arrAt 6 cfg9.N (ix2 0 q) = Cert.Spec.colsum (a V c) q := by
  obtain ⟨t, h19⟩ : ∃ t : Fin cfg9.N, t.val = 19 := ⟨⟨19, by rw [show cfg9.N = 20 from N_9]; omega⟩, rfl⟩
  exact (congrFun (arr6 V c t h19) (ix2 0 q)).trans ((vals V c).2 t q h19).1

theorem sumsq_eq (c : Dev nD) (q : Fin 128) :
    (dat9 (F := Ideal) V c).arrAt 7 cfg9.N (ix2 0 q) = Cert.Spec.colsumsq (a V c) q := by
  obtain ⟨t, h19⟩ : ∃ t : Fin cfg9.N, t.val = 19 := ⟨⟨19, by rw [show cfg9.N = 20 from N_9]; omega⟩, rfl⟩
  exact (congrFun (arr7 V c t h19) (ix2 0 q)).trans ((vals V c).2 t q h19).2

end Cert.KernelIdeal.Region9

end
-- ==== Proof.Region10.lean ====
import proofs.«108002_j23673859736037_1_alg».proof.Proof.Region2

noncomputable section

namespace Cert.KernelIdeal.Region10

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

section

variable {F : FTy → Type} [FloatOps F] (c : Dev nD) (i : grid10.Coords)
  (arg1 : Memref sig .tc .vmem S5000x128 .f32) (harg1 : arg1.IsWhole)
  (arg2 : Memref sig .tc .vmem S1x128 .f32) (harg2 : arg2.IsWhole)
  (arg3 : Memref sig .tc .vmem S1x128 .f32) (harg3 : arg3.IsWhole)
  (arg4 : Memref sig .tc .vmem S5000x128 .f32) (harg4 : arg4.IsWhole)
  (arg5 : Memref sig .tc .vmem S1x128 .f32) (harg5 : arg5.IsWhole)
  (arg6 : Memref sig .tc .vmem S1x128 .f32) (harg6 : arg6.IsWhole)
  (x0 : Vec F S5000x128 .f32) (x1 x2 xo4 xo5 : Vec F S1x128 .f32)

-- The pieces a point stores are region 2's, so they amount to the same payloads.
theorem outA3 (hc0 : cond10_0 i) :
    out10_A_3 c i arg1 harg1 arg2 harg2 arg3 harg3 arg4 harg4 arg5 harg5 arg6 harg6 hc0 x0 x1 x2 = k2_pay1 x0 x1 x2 :=
  (View.read_writes_eq_canon _ _ _ (cover10_A_3 c i arg1 harg1 arg2 harg2 arg3 harg3 arg4 harg4 arg5 harg5 arg6 harg6 hc0 x0 x1 x2)).trans
    (Region2.canA3 c i arg1 harg1 arg2 harg2 arg3 harg3 arg4 harg4 arg5 harg5 arg6 harg6 x0 x1 x2 hc0)

theorem outA4 (hc0 : cond10_0 i) :
    out10_A_4 c i arg1 harg1 arg2 harg2 arg3 harg3 arg4 harg4 arg5 harg5 arg6 harg6 hc0 x0 x1 x2 = k2_pay4 x0 x1 x2 k2_pay2 :=
  (View.read_writes_eq_canon _ _ _ (cover10_A_4 c i arg1 harg1 arg2 harg2 arg3 harg3 arg4 harg4 arg5 harg5 arg6 harg6 hc0 x0 x1 x2)).trans
    (Region2.canA4 c i arg1 harg1 arg2 harg2 arg3 harg3 arg4 harg4 arg5 harg5 arg6 harg6 x0 x1 x2 hc0)

theorem outA5 (hc0 : cond10_0 i) :
    out10_A_5 c i arg1 harg1 arg2 harg2 arg3 harg3 arg4 harg4 arg5 harg5 arg6 harg6 hc0 x0 x1 x2 = k2_pay5 x0 x1 x2 k2_pay3 :=
  (View.read_writes_eq_canon _ _ _ (cover10_A_5 c i arg1 harg1 arg2 harg2 arg3 harg3 arg4 harg4 arg5 harg5 arg6 harg6 hc0 x0 x1 x2)).trans
    (Region2.canA5 c i arg1 harg1 arg2 harg2 arg3 harg3 arg4 harg4 arg5 harg5 arg6 harg6 x0 x1 x2 hc0)

theorem outB3 (hc0 : ¬cond10_0 i) :
    out10_B_3 c i arg1 harg1 arg2 harg2 arg3 harg3 arg4 harg4 arg5 harg5 arg6 harg6 hc0 x0 x1 x2 xo4 xo5 = k2_pay1 x0 x1 x2 :=
  (View.read_writes_eq_canon _ _ _ (cover10_B_3 c i arg1 harg1 arg2 harg2 arg3 harg3 arg4 harg4 arg5 harg5 arg6 harg6 hc0 x0 x1 x2 xo4 xo5)).trans
    (Region2.canB3 c i arg1 harg1 arg2 harg2 arg3 harg3 arg4 harg4 arg5 harg5 arg6 harg6 x0 x1 x2 xo4 xo5 hc0)

theorem outB4 (hc0 : ¬cond10_0 i) :
    out10_B_4 c i arg1 harg1 arg2 harg2 arg3 harg3 arg4 harg4 arg5 harg5 arg6 harg6 hc0 x0 x1 x2 xo4 xo5 = k2_pay4 x0 x1 x2 xo4 :=
  (View.read_writes_eq_canon _ _ _ (cover10_B_4 c i arg1 harg1 arg2 harg2 arg3 harg3 arg4 harg4 arg5 harg5 arg6 harg6 hc0 x0 x1 x2 xo4 xo5)).trans
    (Region2.canB4 c i arg1 harg1 arg2 harg2 arg3 harg3 arg4 harg4 arg5 harg5 arg6 harg6 x0 x1 x2 xo4 xo5 hc0)

theorem outB5 (hc0 : ¬cond10_0 i) :
    out10_B_5 c i arg1 harg1 arg2 harg2 arg3 harg3 arg4 harg4 arg5 harg5 arg6 harg6 hc0 x0 x1 x2 xo4 xo5 = k2_pay5 x0 x1 x2 xo5 :=
  (View.read_writes_eq_canon _ _ _ (cover10_B_5 c i arg1 harg1 arg2 harg2 arg3 harg3 arg4 harg4 arg5 harg5 arg6 harg6 hc0 x0 x1 x2 xo4 xo5)).trans
    (Region2.canB5 c i arg1 harg1 arg2 harg2 arg3 harg3 arg4 harg4 arg5 harg5 arg6 harg6 x0 x1 x2 xo4 xo5 hc0)

end

variable (V : (c : Dev nD) → (b : Ref sig .tc) → Buf (Elt Ideal) ((c : Thread nD τ).loc b))

abbrev a (c : Dev nD) : Cert.Spec.Arr :=
  Cert.Spec.affRelu (Cert.Spec.curA (V c (Pipeline.arrRef spec10 0))) (Cert.Spec.curRow (V c (Pipeline.arrRef spec10 1)))
    (Cert.Spec.curRow (V c (Pipeline.arrRef spec10 2)))

-- What the three outputs hold after each point, from the step equations of the region's run.
theorem inv (c : Dev nD) : Region2.Holds (a V c) (outsAt10 V c) :=
  Region2.holds (x0 := fun n h => iblk10 V c 0 ⟨n, h⟩) (x1 := fun n h => iblk10 V c 1 ⟨n, h⟩)
    (x2 := fun n h => iblk10 V c 2 ⟨n, h⟩)
    (fun n h r q => Region2.read0 (V c (Pipeline.arrRef spec10 0)) ⟨n, h⟩ r q)
    (fun n h q => Region2.read1 (V c (Pipeline.arrRef spec10 1)) ⟨n, h⟩ q)
    (fun n h q => Region2.read1 (V c (Pipeline.arrRef spec10 2)) ⟨n, h⟩ q)
    (fun h => by rw [outsAt10_A V c ⟨0, h⟩ rfl, outA3, outA4, outA5] <;> rfl)
    (fun n h => by
      have hN : cfg2.N = 20 := N_2
      rw [outsAt10_B V c ⟨n + 1, h⟩ (by dsimp only; omega), outB3, outB4, outB5] <;> rfl)

theorem out_eq (c : Dev nD) (p : Fin 100000) (q : Fin 128) :
    (dat10 (F := Ideal) V c).arrAt 3 cfg10.N (ix2 p q) = a V c p q :=
  congrFun ((dat10 (F := Ideal) V c).arrAt_eq_of_cover 3 (Region2.G3 (a V c))
    (fun t _ => Region2.back3 (inv V c) t _ (after10_3 V c t)) Region2.cover3) (ix2 p q)

theorem sum_eq (c : Dev nD) (q : Fin 128) :
    (dat10 (F := Ideal) V c).arrAt 4 cfg10.N (ix2 0 q) = Cert.Spec.colsum (a V c) q :=
  congrFun ((dat10 (F := Ideal) V c).arrAt_eq_of_cover 4 (Region2.G4 (Cert.Spec.colsum (a V c)))
    (fun t hf => Region2.back4 (inv V c) t ((flush10_4 t).mp hf) _ (after10_4 V c t)) Region2.cover4) (ix2 0 q)

theorem sumsq_eq (c : Dev nD) (q : Fin 128) :
    (dat10 (F := Ideal) V c).arrAt 5 cfg10.N (ix2 0 q) = Cert.Spec.colsumsq (a V c) q :=
  congrFun ((dat10 (F := Ideal) V c).arrAt_eq_of_cover 5 (Region2.G4 (Cert.Spec.colsumsq (a V c)))
    (fun t hf => Region2.back5 (inv V c) t ((flush10_5 t).mp hf) _ (after10_5 V c t)) Region2.cover4) (ix2 0 q)

end Cert.KernelIdeal.Region10

end
-- ==== Proof.Region11.lean ====
import proofs.«108002_j23673859736037_1_alg».proof.Proof.Region3

open Idealize.ShloMosaic Idealize.ShloMosaic.TcCoe Idealize.ShloMosaic.ValueIdx

namespace Cert.KernelIdeal.Region11

open Cert.KernelIdeal.Gen

variable (V : (c : Dev nD) → (b : Ref sig .tc) → Buf (Elt Ideal) ((c : Thread nD τ).loc b))

-- Regions 3 and 11 run one body over one grid with the same block maps, on other arrays: region 3's block and cover lemmas hold as they stand.
theorem out_eq (c : Dev nD) (p : Fin 100000) (q : Fin 128) :
    (dat11 (F := Ideal) V c).arrAt 3 cfg11.N (ix2 p q)
      = Cert.Spec.affRelu (Cert.Spec.curA (V c (Pipeline.arrRef spec11 0))) (Cert.Spec.curRow (V c (Pipeline.arrRef spec11 1)))
          (Cert.Spec.curRow (V c (Pipeline.arrRef spec11 2))) p q := by
  refine congrFun ((dat11 V c).arrAt_eq_of_cover 3 (Region3.G (V c (Pipeline.arrRef spec11 0)) (V c (Pipeline.arrRef spec11 1)) (V c (Pipeline.arrRef spec11 2))) (fun t _ => ?_) Region3.cover) (ix2 p q)
  show (cfg11.win 3).cut (grid11.coords t) ((dat11 V c).after 3 t) = _
  rw [after11_3]
  exact Region3.block_eq _ _ _ t

end Cert.KernelIdeal.Region11
-- ==== Proof.KChain2.lean ====
/-
  Layer 2 of the kernel's program on the frame's boundary contents.

  The frame names the buffer contents at every boundary of the program's run: `W16` when layer 2 starts (the layer
  before it has ended), `W17` after stretch 8, `W18` when pass 8 has ended, and so on to `W24` when pass 11 has
  ended.  Each pass's arrays hold what the pass's own theorems say of its entry contents, every other buffer what it
  held at entry: that is a `LayerRun`, and so the layer's result array at `W24` is the specification's layer 2 of the
  array at `W16`, with the edge lists and the arguments as at `W16`.
-/
import proofs.«108002_j23673859736037_1_alg».proof.Proof.Gen.KernelIdeal.Frame
import proofs.«108002_j23673859736037_1_alg».proof.Proof.ChainDefs
import proofs.«108002_j23673859736037_1_alg».proof.Proof.Agg
import proofs.«108002_j23673859736037_1_alg».proof.Proof.KShared
import proofs.«108002_j23673859736037_1_alg».proof.Proof.KLayer2
import proofs.«108002_j23673859736037_1_alg».proof.Proof.Region8
import proofs.«108002_j23673859736037_1_alg».proof.Proof.Region9
import proofs.«108002_j23673859736037_1_alg».proof.Proof.Region10
import proofs.«108002_j23673859736037_1_alg».proof.Proof.Region11

set_option maxRecDepth 16384

noncomputable section

namespace Cert.KernelIdeal.Chain

open Idealize.ShloMosaic Idealize.ShloMosaic.TcCoe Idealize.ShloMosaic.ValueIdx
open Cert.KernelIdeal Cert.KernelIdeal.Gen Cert.Spec Cert.Chain

variable (m : (ℓ : Loc nD τ sig) → Buf (Elt Ideal) ℓ) (ρ : Dev nD → PrngReg) (c : Dev nD)

/-- The frame's boundary contents around layer 2 are a run of the layer. -/
theorem run2 : L2.LayerRun (W16 m ρ c) (W18 m ρ c) (W20 m ρ c) (W22 m ρ c) (W24 m ρ c) where
  o8 := funext fun p => funext fun q =>
    (congrFun (W18_arr m ρ c 4) (ix2 p q)).trans (Region8.out_eq (V17 m ρ) c p q)
  s8 := funext fun q =>
    (congrFun (W18_arr m ρ c 5) (ix2 0 q)).trans (Region8.sum_eq (V17 m ρ) c q)
  t8 := funext fun q =>
    (congrFun (W18_arr m ρ c 6) (ix2 0 q)).trans (Region8.sumsq_eq (V17 m ρ) c q)
  k8 := fun b hb => W18_of_ne m ρ c b hb
  o9 := funext fun p => funext fun q =>
    (congrFun (W20_arr m ρ c 5) (ix2 p q)).trans (Region9.out_eq (V19 m ρ) c p q)
  s9 := funext fun q =>
    (congrFun (W20_arr m ρ c 6) (ix2 0 q)).trans (Region9.sum_eq (V19 m ρ) c q)
  t9 := funext fun q =>
    (congrFun (W20_arr m ρ c 7) (ix2 0 q)).trans (Region9.sumsq_eq (V19 m ρ) c q)
  k9 := fun b hb => W20_of_ne m ρ c b hb
  o10 := funext fun p => funext fun q =>
    (congrFun (W22_arr m ρ c 3) (ix2 p q)).trans (Region10.out_eq (V21 m ρ) c p q)
  s10 := funext fun q =>
    (congrFun (W22_arr m ρ c 4) (ix2 0 q)).trans (Region10.sum_eq (V21 m ρ) c q)
  t10 := funext fun q =>
    (congrFun (W22_arr m ρ c 5) (ix2 0 q)).trans (Region10.sumsq_eq (V21 m ρ) c q)
  k10 := fun b hb => W22_of_ne m ρ c b hb
  o11 := funext fun p => funext fun q =>
    (congrFun (W24_arr m ρ c 3) (ix2 p q)).trans (Region11.out_eq (V23 m ρ) c p q)
  k11 := fun b hb => W24_of_ne m ρ c b hb

/-- Layer 2: the array the layer's last pass leaves is the specification's layer 2 of the array the layer found,
    with the neighbour sums taken along the edge lists and the parameters read off the arguments as the layer found
    them. -/
theorem layer2_x :
    (W24 m ρ c (Proc.devRef .tc main_v237) : NArr)
      = stepK (fun X => Cert.Agg.aggK X (W16 m ρ c (Proc.devRef .tc main_v1)) (W16 m ρ c (Proc.devRef .tc main_v3)))
          (paramsOf (W16 m ρ c (Proc.devRef .tc main_arg4)) (W16 m ρ c (Proc.devRef .tc main_arg5)) (W16 m ρ c (Proc.devRef .tc main_arg6))
            (W16 m ρ c (Proc.devRef .tc main_arg7)) (W16 m ρ c (Proc.devRef .tc main_arg8)) (W16 m ρ c (Proc.devRef .tc main_arg9))
            (W16 m ρ c (Proc.devRef .tc main_arg10)) (W16 m ρ c (Proc.devRef .tc main_arg11)) (W16 m ρ c (Proc.devRef .tc main_arg12))
            (W16 m ρ c (Proc.devRef .tc main_arg13)))
          (2 : Fin 4) (W16 m ρ c (Proc.devRef .tc main_v159)) :=
  (run2 m ρ c).x

/-- Layer 2 leaves the edge lists and the program's arguments as it found them. -/
theorem layer2_keep (b : Ref sig .tc) (hb : b ∈ keepL) :
    W24 m ρ c (Proc.devRef .tc b) = W16 m ρ c (Proc.devRef .tc b) :=
  (run2 m ρ c).keep b hb

end Cert.KernelIdeal.Chain

end
-- ==== Proof.KLayer3.lean ====
/-
  Layer 3 of the kernel's program (of its four graph layers 0 … 3), over abstract buffer contents.

  The layer is four passes over the `[100000, 128]` node array, each preceded by a stretch of host operations:
  * stretch 12 gathers the layer's input rows along the edges and adds them up per destination node (the neighbour
    sums), and cuts the first affine map's weights and bias out of the stacked arguments; pass 12 adds input and
    neighbour sums, applies the affine map, and leaves the result with its column sums and column sums of squares;
  * stretch 13 turns those sums into the first normalisation's scale and shift rows and cuts out the second affine
    map's parameters; pass 13 normalises, rectifies, applies the second affine map, and again leaves the sums;
  * stretches 14 and 15 compute the second and third normalisations' scale and shift; passes 14 and 15 apply them.

  First each stretch is read at the buffers the next pass takes, as a function of any contents `W` it starts from.
  Then, given what each pass leaves as a function of the contents it starts from (`LayerRun`), the layer's result
  array is the specification's layer `Chain.stepK` of its input array, and the edge lists and arguments are
  untouched.
-/
import proofs.«108002_j23673859736037_1_alg».proof.Proof.Gen.KernelIdeal.Launch
import proofs.«108002_j23673859736037_1_alg».proof.Proof.Spec
import proofs.«108002_j23673859736037_1_alg».proof.Proof.ChainDefs
import proofs.«108002_j23673859736037_1_alg».proof.Proof.Agg
import proofs.«108002_j23673859736037_1_alg».proof.Proof.KStats
import proofs.«108002_j23673859736037_1_alg».proof.Proof.KShared
import Idealize.ShloMosaic.Lib.StableHlo.Run
import Idealize.ShloMosaic.Lib.ValueLayout
import Idealize.ShloMosaic.Lib.Pipeline.Value

set_option maxRecDepth 16384

noncomputable section

namespace Cert.KernelIdeal.Chain.L3

open Idealize.ShloMosaic Idealize.ShloMosaic.TcCoe Idealize.ShloMosaic.ValueIdx
open Cert.KernelIdeal Cert.KernelIdeal.Gen Cert.Spec

/-! ## This layer's parameters cut out of the stacked arrays -/

/-- This layer's matrix of a stacked `[4, 128, 128]` array, as the program cuts it out. -/
theorem matL (X : S4x128x128.Idx → EReal) (k q : Fin 128) :
    shapeCast S128x128 (extractStridedSlice S1x128x128 _ X slices_S4x128x128_S1x128x128_3_0_0) shapeCasts_S1x128x128_S128x128 (ix2 k q)
      = X (ix3 (3 : Fin 4) k q) :=
  stackMat_apply _ X slices_S4x128x128_S1x128x128_3_0_0 shapeCasts_S1x128x128_S128x128 (3 : Fin 4) rfl k q

/-- This layer's row of a stacked `[4, 128]` array, as the program cuts it out. -/
theorem rowL (X : S4x128.Idx → EReal) (q : Fin 128) :
    shapeCast S1x128 (shapeCast S128 (extractStridedSlice S1x128 _ X slices_S4x128_S1x128_3_0) shapeCasts_S1x128_S128) shapeCasts_S128_S1x128 (ix2 0 q)
      = X (ix2 (3 : Fin 4) q) :=
  stackRow_apply _ X slices_S4x128_S1x128_3_0 shapeCasts_S1x128_S128 shapeCasts_S128_S1x128 (3 : Fin 4) rfl q

section Stretches

variable (W : Valuation τ sig (Elt Ideal))

/-! ## Stretch 12: the neighbour sums of the layer's input, the first affine map's weights and bias -/

set_option maxHeartbeats 400000 in
theorem s12_agg : StableHlo.after hostOps12 W (Proc.devRef .tc main_v247)
    = Cert.Agg.aggK (W (Proc.devRef .tc main_v237)) (W (Proc.devRef .tc main_v1)) (W (Proc.devRef .tc main_v3)) := by
  after_results_simp
  rfl

set_option maxHeartbeats 400000 in
theorem s12_W1 : curM (StableHlo.after hostOps12 W (Proc.devRef .tc main_v249)) = curM3 (W (Proc.devRef .tc main_arg4)) (3 : Fin 4) := by
  funext k q
  show StableHlo.after hostOps12 W (Proc.devRef .tc main_v249) (ix2 k q) = W (Proc.devRef .tc main_arg4) (ix3 (3 : Fin 4) k q)
  after_results_simp
  exact matL (W (Proc.devRef .tc main_arg4)) k q

set_option maxHeartbeats 400000 in
theorem s12_b1 : curRow (StableHlo.after hostOps12 W (Proc.devRef .tc main_v252)) = curRow2 (W (Proc.devRef .tc main_arg5)) (3 : Fin 4) := by
  funext q
  show StableHlo.after hostOps12 W (Proc.devRef .tc main_v252) (ix2 0 q) = W (Proc.devRef .tc main_arg5) (ix2 (3 : Fin 4) q)
  after_results_simp
  exact rowL (W (Proc.devRef .tc main_arg5)) q

/-- The buffers stretch 12 writes. -/
abbrev hostOps12_W : List (Ref sig .tc) :=
  [main_c_34, main_v238, main_v239, main_c_35, main_v240, main_v241, main_v242, main_v243, main_v244, main_cst_36, main_v245, main_v246, main_v247, main_v248, main_v249, main_v250, main_v251, main_v252]

theorem hostOps12_writes : (hostOps12 : List (HloOp τ sig (Elt Ideal))).Forall fun op =>
    op.writes ⊆ (hostOps12_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 12 does not write keeps its contents. -/
theorem s12_keep (b : Ref sig .tc) (hb : b ∉ hostOps12_W) :
    StableHlo.after hostOps12 W (Proc.devRef .tc b) = W (Proc.devRef .tc b) :=
  StableHlo.after_of_writes_sub hostOps12 _ hostOps12_writes hb

/-! ## Stretch 13: the first normalisation's scale and shift from the column sums, the second affine map's weights and bias -/

set_option maxHeartbeats 400000 in
theorem s13_scale : curRow (StableHlo.after hostOps13 W (Proc.devRef .tc main_v266))
    = scaleK (curRow (W (Proc.devRef .tc main_v253_1))) (curRow (W (Proc.devRef .tc main_v253_2)))
        (curRow2 (W (Proc.devRef .tc main_arg6)) (3 : Fin 4)) := by
  funext q
  show StableHlo.after hostOps13 W (Proc.devRef .tc main_v266) (ix2 0 q) = _
  after_results_simp
  refine (Stats.scale_apply bcast_S_S1x128 _ _ _ q).trans ?_
  exact congrArg (fun g : Row => scaleK _ _ g q) (funext fun q' => rowL (W (Proc.devRef .tc main_arg6)) q')

set_option maxHeartbeats 400000 in
theorem s13_shift : curRow (StableHlo.after hostOps13 W (Proc.devRef .tc main_v271))
    = shiftK (curRow (W (Proc.devRef .tc main_v253_1))) (curRow (W (Proc.devRef .tc main_v253_2)))
        (curRow2 (W (Proc.devRef .tc main_arg6)) (3 : Fin 4)) (curRow2 (W (Proc.devRef .tc main_arg7)) (3 : Fin 4)) := by
  funext q
  show StableHlo.after hostOps13 W (Proc.devRef .tc main_v271) (ix2 0 q) = _
  after_results_simp
  refine (Stats.shift_apply bcast_S_S1x128 _ _ _ _ q).trans ?_
  exact congrArg₂ (fun g be : Row => shiftK _ _ g be q) (funext fun q' => rowL (W (Proc.devRef .tc main_arg6)) q')
    (funext fun q' => rowL (W (Proc.devRef .tc main_arg7)) q')

set_option maxHeartbeats 400000 in
theorem s13_W2 : curM (StableHlo.after hostOps13 W (Proc.devRef .tc main_v273)) = curM3 (W (Proc.devRef .tc main_arg8)) (3 : Fin 4) := by
  funext k q
  show StableHlo.after hostOps13 W (Proc.devRef .tc main_v273) (ix2 k q) = W (Proc.devRef .tc main_arg8) (ix3 (3 : Fin 4) k q)
  after_results_simp
  exact matL (W (Proc.devRef .tc main_arg8)) k q

set_option maxHeartbeats 400000 in
theorem s13_b2 : curRow (StableHlo.after hostOps13 W (Proc.devRef .tc main_v276)) = curRow2 (W (Proc.devRef .tc main_arg9)) (3 : Fin 4) := by
  funext q
  show StableHlo.after hostOps13 W (Proc.devRef .tc main_v276) (ix2 0 q) = W (Proc.devRef .tc main_arg9) (ix2 (3 : Fin 4) q)
  after_results_simp
  exact rowL (W (Proc.devRef .tc main_arg9)) q

/-- The buffers stretch 13 writes. -/
abbrev hostOps13_W : List (Ref sig .tc) :=
  [main_cst_37, main_v254, main_v255, main_cst_38, main_v256, main_v257, main_v258, main_v259, main_v260, main_v261, main_v262, main_cst_39, main_v263, main_v264, main_v265, main_v266, main_v267, main_v268, main_v269, main_v270, main_v271, main_v272, main_v273, main_v274, main_v275, main_v276]

theorem hostOps13_writes : (hostOps13 : List (HloOp τ sig (Elt Ideal))).Forall fun op =>
    op.writes ⊆ (hostOps13_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 13 does not write keeps its contents. -/
theorem s13_keep (b : Ref sig .tc) (hb : b ∉ hostOps13_W) :
    StableHlo.after hostOps13 W (Proc.devRef .tc b) = W (Proc.devRef .tc b) :=
  StableHlo.after_of_writes_sub hostOps13 _ hostOps13_writes hb

/-! ## Stretch 14: the second normalisation's scale and shift -/

set_option maxHeartbeats 400000 in
theorem s14_scale : curRow (StableHlo.after hostOps14 W (Proc.devRef .tc main_v290))
    = scaleK (curRow (W (Proc.devRef .tc main_v277_1))) (curRow (W (Proc.devRef .tc main_v277_2)))
        (curRow2 (W (Proc.devRef .tc main_arg10)) (3 : Fin 4)) := by
  funext q
  show StableHlo.after hostOps14 W (Proc.devRef .tc main_v290) (ix2 0 q) = _
  after_results_simp
  refine (Stats.scale_apply bcast_S_S1x128 _ _ _ q).trans ?_
  exact congrArg (fun g : Row => scaleK _ _ g q) (funext fun q' => rowL (W (Proc.devRef .tc main_arg10)) q')

set_option maxHeartbeats 400000 in
theorem s14_shift : curRow (StableHlo.after hostOps14 W (Proc.devRef .tc main_v295))
    = shiftK (curRow (W (Proc.devRef .tc main_v277_1))) (curRow (W (Proc.devRef .tc main_v277_2)))
        (curRow2 (W (Proc.devRef .tc main_arg10)) (3 : Fin 4)) (curRow2 (W (Proc.devRef .tc main_arg11)) (3 : Fin 4)) := by
  funext q
  show StableHlo.after hostOps14 W (Proc.devRef .tc main_v295) (ix2 0 q) = _
  after_results_simp
  refine (Stats.shift_apply bcast_S_S1x128 _ _ _ _ q).trans ?_
  exact congrArg₂ (fun g be : Row => shiftK _ _ g be q) (funext fun q' => rowL (W (Proc.devRef .tc main_arg10)) q')
    (funext fun q' => rowL (W (Proc.devRef .tc main_arg11)) q')

/-- The buffers stretch 14 writes. -/
abbrev hostOps14_W : List (Ref sig .tc) :=
  [main_cst_40, main_v278, main_v279, main_cst_41, main_v280, main_v281, main_v282, main_v283, main_v284, main_v285, main_v286, main_cst_42, main_v287, main_v288, main_v289, main_v290, main_v291, main_v292, main_v293, main_v294, main_v295]

theorem hostOps14_writes : (hostOps14 : List (HloOp τ sig (Elt Ideal))).Forall fun op =>
    op.writes ⊆ (hostOps14_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 14 does not write keeps its contents. -/
theorem s14_keep (b : Ref sig .tc) (hb : b ∉ hostOps14_W) :
    StableHlo.after hostOps14 W (Proc.devRef .tc b) = W (Proc.devRef .tc b) :=
  StableHlo.after_of_writes_sub hostOps14 _ hostOps14_writes hb

/-! ## Stretch 15: the third normalisation's scale and shift -/

set_option maxHeartbeats 400000 in
theorem s15_scale : curRow (StableHlo.after hostOps15 W (Proc.devRef .tc main_v309))
    = scaleK (curRow (W (Proc.devRef .tc main_v296_1))) (curRow (W (Proc.devRef .tc main_v296_2)))
        (curRow2 (W (Proc.devRef .tc main_arg12)) (3 : Fin 4)) := by
  funext q
  show StableHlo.after hostOps15 W (Proc.devRef .tc main_v309) (ix2 0 q) = _
  after_results_simp
  refine (Stats.scale_apply bcast_S_S1x128 _ _ _ q).trans ?_
  exact congrArg (fun g : Row => scaleK _ _ g q) (funext fun q' => rowL (W (Proc.devRef .tc main_arg12)) q')

set_option maxHeartbeats 400000 in
theorem s15_shift : curRow (StableHlo.after hostOps15 W (Proc.devRef .tc main_v314))
    = shiftK (curRow (W (Proc.devRef .tc main_v296_1))) (curRow (W (Proc.devRef .tc main_v296_2)))
        (curRow2 (W (Proc.devRef .tc main_arg12)) (3 : Fin 4)) (curRow2 (W (Proc.devRef .tc main_arg13)) (3 : Fin 4)) := by
  funext q
  show StableHlo.after hostOps15 W (Proc.devRef .tc main_v314) (ix2 0 q) = _
  after_results_simp
  refine (Stats.shift_apply bcast_S_S1x128 _ _ _ _ q).trans ?_
  exact congrArg₂ (fun g be : Row => shiftK _ _ g be q) (funext fun q' => rowL (W (Proc.devRef .tc main_arg12)) q')
    (funext fun q' => rowL (W (Proc.devRef .tc main_arg13)) q')

/-- The buffers stretch 15 writes. -/
abbrev hostOps15_W : List (Ref sig .tc) :=
  [main_cst_43, main_v297, main_v298, main_cst_44, main_v299, main_v300, main_v301, main_v302, main_v303, main_v304, main_v305, main_cst_45, main_v306, main_v307, main_v308, main_v309, main_v310, main_v311, main_v312, main_v313, main_v314]

theorem hostOps15_writes : (hostOps15 : List (HloOp τ sig (Elt Ideal))).Forall fun op =>
    op.writes ⊆ (hostOps15_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

/-- A buffer stretch 15 does not write keeps its contents. -/
theorem s15_keep (b : Ref sig .tc) (hb : b ∉ hostOps15_W) :
    StableHlo.after hostOps15 W (Proc.devRef .tc b) = W (Proc.devRef .tc b) :=
  StableHlo.after_of_writes_sub hostOps15 _ hostOps15_writes hb

end Stretches

open Cert.Chain

/-! ## The layer over abstract boundary contents

`E0` is what the buffers hold when the layer starts; `X12`, `X13`, `X14`, `X15` what they hold when each of the layer's
four passes over the node array has ended.  Between two passes a stretch of host operations runs. -/

/-- The first pass's array as a function of the contents it starts from: features plus neighbour sums through the
    first affine map. -/
def r12 (V : Valuation τ sig (Elt Ideal)) : Arr :=
  lin (add (curA (V (Proc.devRef .tc main_v237))) (curA (V (Proc.devRef .tc main_v247))))
    (curM (V (Proc.devRef .tc main_v249))) (curRow (V (Proc.devRef .tc main_v252)))

/-- The second pass's array: the first normalisation with its rectifier, through the second affine map. -/
def r13 (V : Valuation τ sig (Elt Ideal)) : Arr :=
  lin (affRelu (curA (V (Proc.devRef .tc main_v253_0))) (curRow (V (Proc.devRef .tc main_v266))) (curRow (V (Proc.devRef .tc main_v271))))
    (curM (V (Proc.devRef .tc main_v273))) (curRow (V (Proc.devRef .tc main_v276)))

/-- The third pass's array: the second normalisation with its rectifier. -/
def r14 (V : Valuation τ sig (Elt Ideal)) : Arr :=
  affRelu (curA (V (Proc.devRef .tc main_v277_0))) (curRow (V (Proc.devRef .tc main_v290))) (curRow (V (Proc.devRef .tc main_v295)))

/-- The fourth pass's array: the third normalisation with its rectifier. -/
def r15 (V : Valuation τ sig (Elt Ideal)) : Arr :=
  affRelu (curA (V (Proc.devRef .tc main_v296_0))) (curRow (V (Proc.devRef .tc main_v309))) (curRow (V (Proc.devRef .tc main_v314)))

/-- What the four passes leave, each stated from the contents the pass starts from (the stretch before it applied
    to what the pass before left): its array, the array's column sums and column sums of squares, and every buffer
    that is not one of the pass's arrays untouched. -/
structure LayerRun (E0 X12 X13 X14 X15 : Valuation τ sig (Elt Ideal)) : Prop where
  o12 : curA (X12 (Proc.devRef .tc main_v253_0)) = r12 (StableHlo.after hostOps12 E0)
  s12 : curRow (X12 (Proc.devRef .tc main_v253_1)) = colsum (r12 (StableHlo.after hostOps12 E0))
  t12 : curRow (X12 (Proc.devRef .tc main_v253_2)) = colsumsq (r12 (StableHlo.after hostOps12 E0))
  k12 : ∀ b : Ref sig .tc, (∀ w, Pipeline.arrRef spec12 w ≠ b) → X12 (Proc.devRef .tc b) = StableHlo.after hostOps12 E0 (Proc.devRef .tc b)
  o13 : curA (X13 (Proc.devRef .tc main_v277_0)) = r13 (StableHlo.after hostOps13 X12)
  s13 : curRow (X13 (Proc.devRef .tc main_v277_1)) = colsum (r13 (StableHlo.after hostOps13 X12))
  t13 : curRow (X13 (Proc.devRef .tc main_v277_2)) = colsumsq (r13 (StableHlo.after hostOps13 X12))
  k13 : ∀ b : Ref sig .tc, (∀ w, Pipeline.arrRef spec13 w ≠ b) → X13 (Proc.devRef .tc b) = StableHlo.after hostOps13 X12 (Proc.devRef .tc b)
  o14 : curA (X14 (Proc.devRef .tc main_v296_0)) = r14 (StableHlo.after hostOps14 X13)
  s14 : curRow (X14 (Proc.devRef .tc main_v296_1)) = colsum (r14 (StableHlo.after hostOps14 X13))
  t14 : curRow (X14 (Proc.devRef .tc main_v296_2)) = colsumsq (r14 (StableHlo.after hostOps14 X13))
  k14 : ∀ b : Ref sig .tc, (∀ w, Pipeline.arrRef spec14 w ≠ b) → X14 (Proc.devRef .tc b) = StableHlo.after hostOps14 X13 (Proc.devRef .tc b)
  o15 : curA (X15 (Proc.devRef .tc main_v315)) = r15 (StableHlo.after hostOps15 X14)
  k15 : ∀ b : Ref sig .tc, (∀ w, Pipeline.arrRef spec15 w ≠ b) → X15 (Proc.devRef .tc b) = StableHlo.after hostOps15 X14 (Proc.devRef .tc b)

/-! ### The four arrays as functions of the layer's starting contents -/

section Arrays

variable (E0 : Valuation τ sig (Elt Ideal))

/-- The layer's parameters, read off the argument arrays as the layer finds them. -/
def prm : Params :=
  paramsOf (E0 (Proc.devRef .tc main_arg4)) (E0 (Proc.devRef .tc main_arg5)) (E0 (Proc.devRef .tc main_arg6)) (E0 (Proc.devRef .tc main_arg7))
    (E0 (Proc.devRef .tc main_arg8)) (E0 (Proc.devRef .tc main_arg9)) (E0 (Proc.devRef .tc main_arg10)) (E0 (Proc.devRef .tc main_arg11))
    (E0 (Proc.devRef .tc main_arg12)) (E0 (Proc.devRef .tc main_arg13))

/-- The neighbour sums of an array along the edge lists the layer finds. -/
def nbr (X : NArr) : NArr := Cert.Agg.aggK X (E0 (Proc.devRef .tc main_v1)) (E0 (Proc.devRef .tc main_v3))

def A12 : Arr :=
  lin (add (curA (E0 (Proc.devRef .tc main_v237))) (curA (nbr E0 (E0 (Proc.devRef .tc main_v237))))) ((prm E0).W1 (3 : Fin 4)) ((prm E0).b1 (3 : Fin 4))
def A13 : Arr := lin (bnK (A12 E0) ((prm E0).g1 (3 : Fin 4)) ((prm E0).be1 (3 : Fin 4))) ((prm E0).W2 (3 : Fin 4)) ((prm E0).b2 (3 : Fin 4))
def A14 : Arr := bnK (A13 E0) ((prm E0).g2 (3 : Fin 4)) ((prm E0).be2 (3 : Fin 4))
def A15 : Arr := bnK (A14 E0) ((prm E0).g3 (3 : Fin 4)) ((prm E0).be3 (3 : Fin 4))

/-- The layer, as the specification spells it, is the fourth array. -/
theorem step_eq : stepK (nbr E0) (prm E0) (3 : Fin 4) (E0 (Proc.devRef .tc main_v237)) = uncA (A15 E0) := rfl

end Arrays

/-! ### No stretch and no pass of the layer writes a kept buffer -/

theorem keepL_W12 : ∀ b ∈ keepL, b ∉ hostOps12_W := by decide
theorem keepL_W13 : ∀ b ∈ keepL, b ∉ hostOps13_W := by decide
theorem keepL_W14 : ∀ b ∈ keepL, b ∉ hostOps14_W := by decide
theorem keepL_W15 : ∀ b ∈ keepL, b ∉ hostOps15_W := by decide
theorem keepL_spec12 : ∀ b ∈ keepL, ∀ w, Pipeline.arrRef spec12 w ≠ b := by decide
theorem keepL_spec13 : ∀ b ∈ keepL, ∀ w, Pipeline.arrRef spec13 w ≠ b := by decide
theorem keepL_spec14 : ∀ b ∈ keepL, ∀ w, Pipeline.arrRef spec14 w ≠ b := by decide
theorem keepL_spec15 : ∀ b ∈ keepL, ∀ w, Pipeline.arrRef spec15 w ≠ b := by decide

namespace LayerRun

variable {E0 X12 X13 X14 X15 : Valuation τ sig (Elt Ideal)} (h : LayerRun E0 X12 X13 X14 X15)
include h

theorem keep12 (b : Ref sig .tc) (hb : b ∈ keepL) : X12 (Proc.devRef .tc b) = E0 (Proc.devRef .tc b) :=
  (h.k12 b (keepL_spec12 b hb)).trans (s12_keep E0 b (keepL_W12 b hb))

theorem keep13 (b : Ref sig .tc) (hb : b ∈ keepL) : X13 (Proc.devRef .tc b) = E0 (Proc.devRef .tc b) :=
  (h.k13 b (keepL_spec13 b hb)).trans ((s13_keep X12 b (keepL_W13 b hb)).trans (h.keep12 b hb))

theorem keep14 (b : Ref sig .tc) (hb : b ∈ keepL) : X14 (Proc.devRef .tc b) = E0 (Proc.devRef .tc b) :=
  (h.k14 b (keepL_spec14 b hb)).trans ((s14_keep X13 b (keepL_W14 b hb)).trans (h.keep13 b hb))

/-- The kept buffers end the layer as they started it. -/
theorem keep (b : Ref sig .tc) (hb : b ∈ keepL) : X15 (Proc.devRef .tc b) = E0 (Proc.devRef .tc b) :=
  (h.k15 b (keepL_spec15 b hb)).trans ((s15_keep X14 b (keepL_W15 b hb)).trans (h.keep14 b hb))

/-- The first pass leaves the first affine map of features plus neighbour sums. -/
theorem a12 : r12 (StableHlo.after hostOps12 E0) = A12 E0 := by
  unfold r12
  rw [s12_keep E0 main_v237 (by decide), s12_agg, s12_W1, s12_b1]
  rfl

/-- The second pass leaves the second affine map of the first normalisation. -/
theorem a13 : r13 (StableHlo.after hostOps13 X12) = A13 E0 := by
  unfold r13
  rw [s13_keep X12 main_v253_0 (by decide), s13_scale, s13_shift, s13_W2, s13_b2, h.o12, h.s12, h.t12, h.a12,
    h.keep12 main_arg6 (by decide), h.keep12 main_arg7 (by decide), h.keep12 main_arg8 (by decide), h.keep12 main_arg9 (by decide)]
  rfl

/-- The third pass leaves the second normalisation. -/
theorem a14 : r14 (StableHlo.after hostOps14 X13) = A14 E0 := by
  unfold r14
  rw [s14_keep X13 main_v277_0 (by decide), s14_scale, s14_shift, h.o13, h.s13, h.t13, h.a13,
    h.keep13 main_arg10 (by decide), h.keep13 main_arg11 (by decide)]
  rfl

/-- The fourth pass leaves the third normalisation. -/
theorem a15 : r15 (StableHlo.after hostOps15 X14) = A15 E0 := by
  unfold r15
  rw [s15_keep X14 main_v296_0 (by decide), s15_scale, s15_shift, h.o14, h.s14, h.t14, h.a14,
    h.keep14 main_arg12 (by decide), h.keep14 main_arg13 (by decide)]
  rfl

/-- The layer's result array is the specification's layer applied to the layer's input array. -/
theorem x : X15 (Proc.devRef .tc main_v315) = stepK (nbr E0) (prm E0) (3 : Fin 4) (E0 (Proc.devRef .tc main_v237)) := by
  rw [step_eq, ← h.a15, ← h.o15]
  exact (uncA_curA _).symm

end LayerRun

end Cert.KernelIdeal.Chain.L3

end
-- ==== Proof.Region12.lean ====
import proofs.«108002_j23673859736037_1_alg».proof.Proof.Region0

set_option maxRecDepth 16384

noncomputable section

namespace Cert.KernelIdeal.Region12

open Idealize.ShloMosaic Idealize.ShloMosaic.TcCoe Idealize.ShloMosaic.ValueIdx Idealize.ShloMosaic.Tactic Idealize.SL.Sem
open Idealize.ShloMosaic.Pipeline (Dat)
open Cert.KernelIdeal Cert.KernelIdeal.Gen
open scoped BigOperators

section Pay
variable {F : FTy → Type} [FloatOps F] (x0 x1 : Vec F S5000x128 .f32) (w : Vec F S128x128 .f32) (b acc : Vec F S1x128 .f32)

-- This region's payloads are the first region's, up to casts of a shape to itself.
theorem pay1_eq : k12_pay1 x0 x1 w b = k0_pay1 x0 x1 w b := by
  unfold k12_pay1 k0_pay1
  simp only [shapeCast_self]

theorem pay4_eq : k12_pay4 x0 x1 w b acc = k0_pay4 x0 x1 w b acc := by
  unfold k12_pay4 k0_pay4
  rw [pay1_eq]

theorem pay5_eq : k12_pay5 x0 x1 w b acc = k0_pay5 x0 x1 w b acc := by
  unfold k12_pay5 k0_pay5
  rw [pay1_eq]

end Pay

section Pieces
variable {F : FTy → Type} [FloatOps F] {c : Dev nD} {i : grid12.Coords}
  {arg1 : Memref sig .tc .vmem S5000x128 .f32} {harg1 : arg1.IsWhole} {arg2 : Memref sig .tc .vmem S5000x128 .f32} {harg2 : arg2.IsWhole}
  {arg3 : Memref sig .tc .vmem S128x128 .f32} {harg3 : arg3.IsWhole} {arg4 : Memref sig .tc .vmem S1x128 .f32} {harg4 : arg4.IsWhole}
  {arg5 : Memref sig .tc .vmem S5000x128 .f32} {harg5 : arg5.IsWhole} {arg6 : Memref sig .tc .vmem S1x128 .f32} {harg6 : arg6.IsWhole}
  {arg7 : Memref sig .tc .vmem S1x128 .f32} {harg7 : arg7.IsWhole}
  (x0 x1 : Vec F S5000x128 .f32) (x2 : Vec F S128x128 .f32) (x3 xo5 xo6 : Vec F S1x128 .f32)

-- What each case of the body leaves in the three output blocks.
theorem out_A {hc0 : cond12_0 i} :
    (out12_A_4 c i arg1 harg1 arg2 harg2 arg3 harg3 arg4 harg4 arg5 harg5 arg6 harg6 arg7 harg7 hc0 x0 x1 x2 x3, out12_A_5 c i arg1 harg1 arg2 harg2 arg3 harg3 arg4 harg4 arg5 harg5 arg6 harg6 arg7 harg7 hc0 x0 x1 x2 x3, out12_A_6 c i arg1 harg1 arg2 harg2 arg3 harg3 arg4 harg4 arg5 harg5 arg6 harg6 arg7 harg7 hc0 x0 x1 x2 x3)
      = (k0_pay1 x0 x1 x2 x3, k0_pay4 x0 x1 x2 x3 (k0_pay2 (F := F)), k0_pay5 x0 x1 x2 x3 (k0_pay3 (F := F))) := by
  refine congrArg₂ Prod.mk ?_ (congrArg₂ Prod.mk ?_ ?_)
    <;> (first | unfold out12_A_4 | unfold out12_A_5 | unfold out12_A_6)
    <;> (first
      | rw [View.read_writes_eq_canon _ _ _ (cover12_A_4 c i arg1 harg1 arg2 harg2 arg3 harg3 arg4 harg4 arg5 harg5 arg6 harg6 arg7 harg7 hc0 x0 x1 x2 x3)]
      | rw [View.read_writes_eq_canon _ _ _ (cover12_A_5 c i arg1 harg1 arg2 harg2 arg3 harg3 arg4 harg4 arg5 harg5 arg6 harg6 arg7 harg7 hc0 x0 x1 x2 x3)]
      | rw [View.read_writes_eq_canon _ _ _ (cover12_A_6 c i arg1 harg1 arg2 harg2 arg3 harg3 arg4 harg4 arg5 harg5 arg6 harg6 arg7 harg7 hc0 x0 x1 x2 x3)])
    <;> unfold kernelRun12_A
    <;> dsimp only
    <;> sl_unfold_words
    <;> (first
      | rw [View.canon_unit_zero Region0.hz]
      | rw [View.canon_cons_unit_zero (S := S1x128) Region0.hz, View.readCov_unit_zero (S := S1x128) _ Region0.hz])
    <;> simp only [View.readAt_eq_ld, harg1.read_unread, harg2.read_unread, harg3.read_unread, harg4.read_unread, harg6.read_unread, harg7.read_unread, View.ld_unit_zero (S := S5000x128) Region0.hz, View.ld_unit_zero (S := S128x128) Region0.hz, View.ld_unit_zero (S := S1x128) Region0.hz]
    <;> (first | exact pay1_eq _ _ _ _ | exact pay4_eq _ _ _ _ _ | exact pay5_eq _ _ _ _ _)

theorem out_B {hc0 : ¬cond12_0 i} :
    (out12_B_4 c i arg1 harg1 arg2 harg2 arg3 harg3 arg4 harg4 arg5 harg5 arg6 harg6 arg7 harg7 hc0 x0 x1 x2 x3 xo5 xo6, out12_B_5 c i arg1 harg1 arg2 harg2 arg3 harg3 arg4 harg4 arg5 harg5 arg6 harg6 arg7 harg7 hc0 x0 x1 x2 x3 xo5 xo6, out12_B_6 c i arg1 harg1 arg2 harg2 arg3 harg3 arg4 harg4 arg5 harg5 arg6 harg6 arg7 harg7 hc0 x0 x1 x2 x3 xo5 xo6)
      = (k0_pay1 x0 x1 x2 x3, k0_pay4 x0 x1 x2 x3 xo5, k0_pay5 x0 x1 x2 x3 xo6) := by
  refine congrArg₂ Prod.mk ?_ (congrArg₂ Prod.mk ?_ ?_)
    <;> (first | unfold out12_B_4 | unfold out12_B_5 | unfold out12_B_6)
    <;> (first
      | rw [View.read_writes_eq_canon _ _ _ (cover12_B_4 c i arg1 harg1 arg2 harg2 arg3 harg3 arg4 harg4 arg5 harg5 arg6 harg6 arg7 harg7 hc0 x0 x1 x2 x3 xo5 xo6)]
      | rw [View.read_writes_eq_canon _ _ _ (cover12_B_5 c i arg1 harg1 arg2 harg2 arg3 harg3 arg4 harg4 arg5 harg5 arg6 harg6 arg7 harg7 hc0 x0 x1 x2 x3 xo5 xo6)]
      | rw [View.read_writes_eq_canon _ _ _ (cover12_B_6 c i arg1 harg1 arg2 harg2 arg3 harg3 arg4 harg4 arg5 harg5 arg6 harg6 arg7 harg7 hc0 x0 x1 x2 x3 xo5 xo6)])
    <;> unfold kernelRun12_B
    <;> dsimp only
    <;> sl_unfold_words
    <;> (first
      | rw [View.canon_unit_zero Region0.hz]
      | rw [View.canon_cons_unit_zero (S := S1x128) Region0.hz, View.readCov_unit_zero (S := S1x128) _ Region0.hz])
    <;> simp only [View.readAt_eq_ld, harg1.read_unread, harg2.read_unread, harg3.read_unread, harg4.read_unread, harg6.read_unread, harg7.read_unread, View.ld_unit_zero (S := S5000x128) Region0.hz, View.ld_unit_zero (S := S128x128) Region0.hz, View.ld_unit_zero (S := S1x128) Region0.hz]
    <;> (first | exact pay1_eq _ _ _ _ | exact pay4_eq _ _ _ _ _ | exact pay5_eq _ _ _ _ _)

end Pieces

theorem idx_facts : ∀ t : Fin grid12.N,
    (win12_0.index t (0 : Fin 2) = t.val ∧ win12_0.index t (1 : Fin 2) = 0)
    ∧ (win12_1.index t (0 : Fin 2) = t.val ∧ win12_1.index t (1 : Fin 2) = 0)
    ∧ (win12_2.index t (0 : Fin 2) = 0 ∧ win12_2.index t (1 : Fin 2) = 0)
    ∧ (win12_3.index t (0 : Fin 2) = 0 ∧ win12_3.index t (1 : Fin 2) = 0)
    ∧ (win12_4.index t (0 : Fin 2) = t.val ∧ win12_4.index t (1 : Fin 2) = 0)
    ∧ (win12_5.index t (0 : Fin 2) = 0 ∧ win12_5.index t (1 : Fin 2) = 0)
    ∧ (win12_6.index t (0 : Fin 2) = 0 ∧ win12_6.index t (1 : Fin 2) = 0) := by decide +kernel

section Blocks
variable (t : Fin cfg12.N)

-- Row `r` of block `t` of a row-blocked window sits at row `5000 t + r` of its array.
theorem emb0 (r : Fin 5000) (q : Fin 128) (p : Fin 100000) (hp : p.val = 5000 * t.val + r.val) :
    (((cfg12.win 0).blk t).view.emb (ix2 r q) : S100000x128.Idx) = ix2 p q := by
  obtain ⟨⟨e0, e1⟩, -⟩ := idx_facts t
  refine funext fun a => Fin.ext ?_
  match a with
  | ⟨0, _⟩ => show win12_0.index t (0 : Fin 2) * 5000 + 1 * r.val = p.val; rw [e0, hp]; omega
  | ⟨1, _⟩ => show win12_0.index t (1 : Fin 2) * 128 + 1 * q.val = q.val; rw [e1]; omega

theorem emb1 (r : Fin 5000) (q : Fin 128) (p : Fin 100000) (hp : p.val = 5000 * t.val + r.val) :
    (((cfg12.win 1).blk t).view.emb (ix2 r q) : S100000x128.Idx) = ix2 p q := by
  obtain ⟨-, ⟨e0, e1⟩, -⟩ := idx_facts t
  refine funext fun a => Fin.ext ?_
  match a with
  | ⟨0, _⟩ => show win12_1.index t (0 : Fin 2) * 5000 + 1 * r.val = p.val; rw [e0, hp]; omega
  | ⟨1, _⟩ => show win12_1.index t (1 : Fin 2) * 128 + 1 * q.val = q.val; rw [e1]; omega

theorem emb4 (r : Fin 5000) (q : Fin 128) (p : Fin 100000) (hp : p.val = 5000 * t.val + r.val) :
    (((cfg12.win 4).blk t).view.emb (ix2 r q) : S100000x128.Idx) = ix2 p q := by
  obtain ⟨-, -, -, -, ⟨e0, e1⟩, -⟩ := idx_facts t
  refine funext fun a => Fin.ext ?_
  match a with
  | ⟨0, _⟩ => show win12_4.index t (0 : Fin 2) * 5000 + 1 * r.val = p.val; rw [e0, hp]; omega
  | ⟨1, _⟩ => show win12_4.index t (1 : Fin 2) * 128 + 1 * q.val = q.val; rw [e1]; omega

-- A window with one block: the block is the whole array.
theorem emb2 (k q : Fin 128) : (((cfg12.win 2).blk t).view.emb (ix2 k q) : S128x128.Idx) = ix2 k q := by
  obtain ⟨-, -, ⟨e0, e1⟩, -⟩ := idx_facts t
  refine funext fun a => Fin.ext ?_
  match a with
  | ⟨0, _⟩ => show win12_2.index t (0 : Fin 2) * 128 + 1 * k.val = k.val; rw [e0]; omega
  | ⟨1, _⟩ => show win12_2.index t (1 : Fin 2) * 128 + 1 * q.val = q.val; rw [e1]; omega

theorem emb3 (q : Fin 128) : (((cfg12.win 3).blk t).view.emb (ix2 0 q) : S1x128.Idx) = ix2 0 q := by
  obtain ⟨-, -, -, ⟨e0, e1⟩, -⟩ := idx_facts t
  refine funext fun a => Fin.ext ?_
  match a with
  | ⟨0, _⟩ => show win12_3.index t (0 : Fin 2) * 1 + 1 * 0 = 0; rw [e0]
  | ⟨1, _⟩ => show win12_3.index t (1 : Fin 2) * 128 + 1 * q.val = q.val; rw [e1]; omega

theorem emb5 (q : Fin 128) : (((cfg12.win 5).blk t).view.emb (ix2 0 q) : S1x128.Idx) = ix2 0 q := by
  obtain ⟨-, -, -, -, -, ⟨e0, e1⟩, -⟩ := idx_facts t
  refine funext fun a => Fin.ext ?_
  match a with
  | ⟨0, _⟩ => show win12_5.index t (0 : Fin 2) * 1 + 1 * 0 = 0; rw [e0]
  | ⟨1, _⟩ => show win12_5.index t (1 : Fin 2) * 128 + 1 * q.val = q.val; rw [e1]; omega

theorem emb6 (q : Fin 128) : (((cfg12.win 6).blk t).view.emb (ix2 0 q) : S1x128.Idx) = ix2 0 q := by
  obtain ⟨-, -, -, -, -, -, ⟨e0, e1⟩⟩ := idx_facts t
  refine funext fun a => Fin.ext ?_
  match a with
  | ⟨0, _⟩ => show win12_6.index t (0 : Fin 2) * 1 + 1 * 0 = 0; rw [e0]
  | ⟨1, _⟩ => show win12_6.index t (1 : Fin 2) * 128 + 1 * q.val = q.val; rw [e1]; omega

-- A block whose rows are rows `5000 t + ·` of `A` is block `t` of `A`.
theorem cut4 (A : S100000x128.Idx → EReal) (y : Vec Ideal S5000x128 .f32)
    (hy : ∀ (r : Fin 5000) (q : Fin 128) (p : Fin 100000), p.val = 5000 * t.val + r.val → y (ix2 r q) = A (ix2 p q)) :
    (cfg12.win 4).cut (grid12.coords t) y = ((cfg12.win 4).blk t).view.read (Elt Ideal) A := by
  have hN : t.val < 20 := lt_of_lt_of_eq t.isLt (show cfg12.N = 20 from N_12)
  funext j
  obtain ⟨r, q, rfl⟩ : ∃ (r : Fin 5000) (q : Fin 128), j = ix2 r q := ⟨j 0, j 1, eq_ix2 j⟩
  exact (hy r q ⟨5000 * t.val + r.val, by have := r.isLt; omega⟩ rfl).trans (congrArg A (emb4 t r q _ rfl)).symm

theorem cut5 (R : S1x128.Idx → EReal) (y : Vec Ideal S1x128 .f32) (hy : ∀ q : Fin 128, y (ix2 0 q) = R (ix2 0 q)) :
    (cfg12.win 5).cut (grid12.coords t) y = ((cfg12.win 5).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb5 t q)).symm

theorem cut6 (R : S1x128.Idx → EReal) (y : Vec Ideal S1x128 .f32) (hy : ∀ q : Fin 128, y (ix2 0 q) = R (ix2 0 q)) :
    (cfg12.win 6).cut (grid12.coords t) y = ((cfg12.win 6).blk t).view.read (Elt Ideal) R := by
  funext j
  obtain ⟨u, q, rfl⟩ : ∃ (u : Fin 1) (q : Fin 128), j = ix2 u q := ⟨j 0, j 1, eq_ix2 j⟩
  obtain rfl : u = 0 := Subsingleton.elim _ _
  exact (hy q).trans (congrArg R (emb6 t q)).symm

end Blocks

-- Row `p` is in block `p / 5000`: the twenty row blocks cover the array.
theorem cover4 (i : S100000x128.Idx) :
    ∃ t : Fin cfg12.N, (cfg12.win 4).flush t = true ∧ i ∈ ((cfg12.win 4).blk t).view.set := by
  obtain ⟨p, q, rfl⟩ : ∃ (p : Fin 100000) (q : Fin 128), i = ix2 p q := ⟨i 0, i 1, eq_ix2 i⟩
  have hp := p.isLt
  have hN : cfg12.N = 20 := N_12
  obtain ⟨t, ht⟩ : ∃ t : Fin cfg12.N, t.val = p.val / 5000 := ⟨⟨p.val / 5000, by omega⟩, rfl⟩
  refine ⟨t, flush12_4 t, ?_⟩
  rw [← emb4 t ⟨p.val % 5000, Nat.mod_lt _ (by omega)⟩ q p (by dsimp only; omega)]
  exact View.emb_mem_set _ _

-- The one block of a statistics row is the whole row.
theorem cover5 (i : S1x128.Idx) :
    ∃ t : Fin cfg12.N, (cfg12.win 5).flush t = true ∧ i ∈ ((cfg12.win 5).blk t).view.set := by
  obtain ⟨u, q, rfl⟩ : ∃ (u : Fin 1) (q : Fin 128), i = ix2 u q := ⟨i 0, i 1, eq_ix2 i⟩
  obtain rfl : u = 0 := Subsingleton.elim _ _
  have hN : cfg12.N = 20 := N_12
  obtain ⟨t, ht⟩ : ∃ t : Fin cfg12.N, t.val = 19 := ⟨⟨19, by omega⟩, rfl⟩
  refine ⟨t, (flush12_5 t).mpr (by omega), ?_⟩
  rw [← emb5 t q]
  exact View.emb_mem_set _ _

theorem cover6 (i : S1x128.Idx) :
    ∃ t : Fin cfg12.N, (cfg12.win 6).flush t = true ∧ i ∈ ((cfg12.win 6).blk t).view.set := by
  obtain ⟨u, q, rfl⟩ : ∃ (u : Fin 1) (q : Fin 128), i = ix2 u q := ⟨i 0, i 1, eq_ix2 i⟩
  obtain rfl : u = 0 := Subsingleton.elim _ _
  have hN : cfg12.N = 20 := N_12
  obtain ⟨t, ht⟩ : ∃ t : Fin cfg12.N, t.val = 19 := ⟨⟨19, by omega⟩, rfl⟩
  refine ⟨t, (flush12_6 t).mpr (by omega), ?_⟩
  rw [← emb6 t q]
  exact View.emb_mem_set _ _

variable (V : (c : Dev nD) → (b : Ref sig .tc) → Buf (Elt Ideal) ((c : Thread nD τ).loc b))

abbrev a (c : Dev nD) : Cert.Spec.Arr :=
  Cert.Spec.lin (Cert.Spec.add (Cert.Spec.curA (V c (Pipeline.arrRef spec12 0))) (Cert.Spec.curA (V c (Pipeline.arrRef spec12 1))))
    (Cert.Spec.curM (V c (Pipeline.arrRef spec12 2))) (Cert.Spec.curRow (V c (Pipeline.arrRef spec12 3)))

-- The step equations of this region's points, and its input blocks as blocks of the arrays.
theorem vals (c : Dev nD) (t : Fin cfg12.N) :
    (∀ (r : Fin 5000) (q : Fin 128) (p : Fin 100000), p.val = 5000 * t.val + r.val →
        (outsAt12 V c t.val t.isLt).1 (ix2 r q) = a V c p q)
    ∧ (t.val = 19 → ∀ q : Fin 128, (outsAt12 V c t.val t.isLt).2.1 (ix2 0 q) = Cert.Spec.colsum (a V c) q
        ∧ (outsAt12 V c t.val t.isLt).2.2 (ix2 0 q) = Cert.Spec.colsumsq (a V c) q) :=
  Region0.run_vals N_12 (iblk12 V c 0) (iblk12 V c 1) (iblk12 V c 2) (iblk12 V c 3) (outsAt12 V c)
    (fun t h0 => (outsAt12_A V c t h0).trans (out_A _ _ _ _))
    (fun t h0 => (outsAt12_B V c t h0).trans (out_B _ _ _ _ _ _))
    (a V c)
    (Region0.lin_blk _ _ _ _ _ _ _ _ (fun t r q p hp => congrArg (V c (Pipeline.arrRef spec12 0)) (emb0 t r q p hp)) (fun t r q p hp => congrArg (V c (Pipeline.arrRef spec12 1)) (emb1 t r q p hp))
      (fun t k q => congrArg (V c (Pipeline.arrRef spec12 2)) (emb2 t k q)) fun t q => congrArg (V c (Pipeline.arrRef spec12 3)) (emb3 t q)) t

theorem out_eq (c : Dev nD) (p : Fin 100000) (q : Fin 128) :
    (dat12 (F := Ideal) V c).arrAt 4 cfg12.N (ix2 p q) = a V c p q :=
  congrFun ((dat12 V c).arrAt_eq_of_cover 4 (fun i : S100000x128.Idx => a V c (i 0) (i 1))
    (fun t _ => cut4 t _ _ (vals V c t).1) cover4) (ix2 p q)

theorem sum_eq (c : Dev nD) (q : Fin 128) :
    (dat12 (F := Ideal) V c).arrAt 5 cfg12.N (ix2 0 q) = Cert.Spec.colsum (a V c) q :=
  congrFun ((dat12 V c).arrAt_eq_of_cover 5 (fun i : S1x128.Idx => Cert.Spec.colsum (a V c) (i 1))
    (fun t hf => cut5 t _ _ fun q => ((vals V c t).2 (by have := (flush12_5 t).mp hf; have := lt_of_lt_of_eq t.isLt (show cfg12.N = 20 from N_12); omega) q).1) cover5) (ix2 0 q)

theorem sumsq_eq (c : Dev nD) (q : Fin 128) :
    (dat12 (F := Ideal) V c).arrAt 6 cfg12.N (ix2 0 q) = Cert.Spec.colsumsq (a V c) q :=
  congrFun ((dat12 V c).arrAt_eq_of_cover 6 (fun i : S1x128.Idx => Cert.Spec.colsumsq (a V c) (i 1))
    (fun t hf => cut6 t _ _ fun q => ((vals V c t).2 (by have := (flush12_6 t).mp hf; have := lt_of_lt_of_eq t.isLt (show cfg12.N = 20 from N_12); omega) q).2) cover6) (ix2 0 q)

end Cert.KernelIdeal.Region12

end
-- ==== Proof.Region13.lean ====
import proofs.«108002_j23673859736037_1_alg».proof.Proof.Gen.KernelIdeal.Frame
import proofs.«108002_j23673859736037_1_alg».proof.Proof.Spec
import proofs.«108002_j23673859736037_1_alg».proof.Proof.LibRowOps
import proofs.«108002_j23673859736037_1_alg».proof.Proof.RowBlocks
import proofs.«108002_j23673859736037_1_alg».proof.Proof.Region1
import Idealize.ShloMosaic.Lib.Pipeline.Value
import Idealize.ShloMosaic.Lib.ValueIdx
import Idealize.ShloMosaic.Lib.ValueLayout
import Idealize.ShloMosaic.Lib.Tactic
import Idealize.ShloMosaic.PureOps.Ideal.Laws

noncomputable section

namespace Cert.KernelIdeal.Region13

open Idealize.ShloMosaic Idealize.ShloMosaic.TcCoe Idealize.SL.Sem Idealize.ShloMosaic.ValueIdx Idealize.ShloMosaic.Tactic
open Idealize.ShloMosaic.Pipeline (Dat)
open Cert.KernelIdeal Cert.KernelIdeal.Gen Cert.RowBlocks
open scoped BigOperators

variable (V : (c : Dev nD) → (b : Ref sig .tc) → Buf (Elt Ideal) ((c : Thread nD τ).loc b))

-- Each store writes the whole of its output, so the output holds the last stored value; a load after a store reads that value.
theorem outs_A (c : Dev nD) (t : Fin cfg13.N) (h0 : t.val % 20 = 0) :
    outsAt13 V c t.val t.isLt = Region1.stepA (iblk13 V c 0 t) (iblk13 V c 1 t) (iblk13 V c 2 t) (iblk13 V c 3 t) (iblk13 V c 4 t) := by
  rw [outsAt13_A V c t h0]
  unfold out13_A_5 out13_A_6 out13_A_7
  rw [View.read_writes_eq_canon _ _ _ (cover13_A_5 c _ _ _ _ _ _ _ _ _ _ _ _ _ _ _ _ _ _ _ _ _ _ _),
    View.read_writes_eq_canon _ _ _ (cover13_A_6 c _ _ _ _ _ _ _ _ _ _ _ _ _ _ _ _ _ _ _ _ _ _ _),
    View.read_writes_eq_canon _ _ _ (cover13_A_7 c _ _ _ _ _ _ _ _ _ _ _ _ _ _ _ _ _ _ _ _ _ _ _)]
  unfold kernelRun13_A
  dsimp only
  sl_unfold_words
  simp only [View.canon_unit_zero (S := S5000x128) Region1.hz, View.canon_cons_unit_zero (S := S1x128) Region1.hz,
    View.readCov_unit_zero (S := S1x128) _ Region1.hz,
    View.readAt_eq_ld, (hs13_0 t).read_unread, (hs13_1 t).read_unread, (hs13_2 t).read_unread, (hs13_3 t).read_unread,
      (hs13_4 t).read_unread,
    View.ld_unit_zero (S := S5000x128) Region1.hz, View.ld_unit_zero (S := S1x128) Region1.hz,
      View.ld_unit_zero (S := S128x128) Region1.hz]
  rfl

theorem outs_B (c : Dev nD) (t : Fin cfg13.N) (h0 : ¬t.val % 20 = 0) :
    outsAt13 V c t.val t.isLt
      = Region1.stepB (iblk13 V c 0 t) (iblk13 V c 1 t) (iblk13 V c 2 t) (iblk13 V c 3 t) (iblk13 V c 4 t)
          (outsAt13 V c (t.val - 1) (Nat.lt_of_le_of_lt (Nat.sub_le _ _) t.isLt)) := by
  rw [outsAt13_B V c t h0]
  unfold out13_B_5 out13_B_6 out13_B_7
  rw [View.read_writes_eq_canon _ _ _ (cover13_B_5 c _ _ _ _ _ _ _ _ _ _ _ _ _ _ _ _ _ _ _ _ _ _ _ _ _),
    View.read_writes_eq_canon _ _ _ (cover13_B_6 c _ _ _ _ _ _ _ _ _ _ _ _ _ _ _ _ _ _ _ _ _ _ _ _ _),
    View.read_writes_eq_canon _ _ _ (cover13_B_7 c _ _ _ _ _ _ _ _ _ _ _ _ _ _ _ _ _ _ _ _ _ _ _ _ _)]
  unfold kernelRun13_B
  dsimp only
  sl_unfold_words
  simp only [View.canon_unit_zero (S := S5000x128) Region1.hz, View.canon_unit_zero (S := S1x128) Region1.hz,
    View.readAt_eq_ld, (hs13_0 t).read_unread, (hs13_1 t).read_unread, (hs13_2 t).read_unread, (hs13_3 t).read_unread,
    (hs13_4 t).read_unread, (hs13_6 t).read_unread, (hs13_7 t).read_unread,
    View.ld_unit_zero (S := S5000x128) Region1.hz, View.ld_unit_zero (S := S1x128) Region1.hz,
      View.ld_unit_zero (S := S128x128) Region1.hz]
  rfl

abbrev a (c : Dev nD) : Cert.Spec.Arr :=
  Cert.Spec.lin
    (Cert.Spec.affRelu (Cert.Spec.curA (V c (Pipeline.arrRef spec13 0))) (Cert.Spec.curRow (V c (Pipeline.arrRef spec13 1)))
      (Cert.Spec.curRow (V c (Pipeline.arrRef spec13 2))))
    (Cert.Spec.curM (V c (Pipeline.arrRef spec13 3))) (Cert.Spec.curRow (V c (Pipeline.arrRef spec13 4)))

-- The run's outputs, point by point, satisfy the step equations over the operands' blocks, so they hold these values.
theorem vals (c : Dev nD) : Region1.Vals N_13 (outsAt13 V c) (a V c) :=
  Region1.core N_13 _ _ _ _ _ (iblk13 V c 0) (iblk13 V c 1) (iblk13 V c 2) (iblk13 V c 3) (iblk13 V c 4) (outsAt13 V c)
    (fun t r k => congrArg (V c (Pipeline.arrRef spec13 0)) (Region1.emb0 t (ix2 r k) (ix2 (row (t.cast N_13) r) k) rfl rfl))
    (fun t k => congrArg (V c (Pipeline.arrRef spec13 1)) (Region1.emb1 t (ix2 0 k)))
    (fun t k => congrArg (V c (Pipeline.arrRef spec13 2)) (Region1.emb2 t (ix2 0 k)))
    (fun t k q => congrArg (V c (Pipeline.arrRef spec13 3)) (Region1.emb3 t (ix2 k q)))
    (fun t k => congrArg (V c (Pipeline.arrRef spec13 4)) (Region1.emb4 t (ix2 0 k)))
    (outs_A V c) (outs_B V c)

-- What every point contributes to the first output is its block's rows of the array.
theorem flushed5 (c : Dev nD) (t : Fin cfg13.N) :
    (dat13 V c).flushed 5 t = ((cfg13.win 5).blk t).view.read (Elt Ideal) (Region1.G5 (a V c)) := by
  show (cfg13.win 5).cut (grid13.coords t) ((dat13 V c).after 5 t) = _
  rw [after13_5]
  refine funext fun (j : S5000x128.Idx) => ?_
  obtain ⟨r, q, rfl⟩ : ∃ (r : Fin 5000) (q : Fin 128), j = ix2 r q := ⟨j 0, j 1, eq_ix2 j⟩
  exact ((vals V c).1 t r q).trans
    (congrArg (Region1.G5 (a V c)) (Region1.emb5 t (ix2 r q) (ix2 (row (t.cast N_13) r) q) rfl rfl) :).symm

-- The array ends holding the last point's value: that point's block is the whole array.
theorem arr6 (c : Dev nD) (t : Fin cfg13.N) (h19 : t.val = 19) :
    (dat13 (F := Ideal) V c).arrAt 6 cfg13.N = (outsAt13 V c t.val t.isLt).2.1 := by
  have hN : cfg13.N = 20 := N_13
  generalize hG : (outsAt13 V c t.val t.isLt).2.1 = G
  have hfl : ∀ s, (cfg13.win 6).flush s = true →
      (dat13 V c).flushed 6 s = ((cfg13.win 6).blk s).view.read (Elt Ideal) G := fun s hf => by
    rw [show s = t from Fin.ext (by have := (flush13_6 s).mp hf; have := s.isLt; omega)]
    show (cfg13.win 6).cut _ ((dat13 V c).after 6 t) = _
    rw [after13_6]
    exact hG.trans (funext fun j => (congrArg G (Region1.emb6 t j) :).symm)
  exact funext fun i => (congrArg ((dat13 V c).arrAt 6 cfg13.N) (Region1.emb6 t i) :).symm.trans
    ((congrFun ((dat13 V c).read_blk_arrAt 6 G hfl t ((flush13_6 t).mpr (by omega))) i).trans
      (congrArg G (Region1.emb6 t i) :))

theorem arr7 (c : Dev nD) (t : Fin cfg13.N) (h19 : t.val = 19) :
    (dat13 (F := Ideal) V c).arrAt 7 cfg13.N = (outsAt13 V c t.val t.isLt).2.2 := by
  have hN : cfg13.N = 20 := N_13
  generalize hG : (outsAt13 V c t.val t.isLt).2.2 = G
  have hfl : ∀ s, (cfg13.win 7).flush s = true →
      (dat13 V c).flushed 7 s = ((cfg13.win 7).blk s).view.read (Elt Ideal) G := fun s hf => by
    rw [show s = t from Fin.ext (by have := (flush13_7 s).mp hf; have := s.isLt; omega)]
    show (cfg13.win 7).cut _ ((dat13 V c).after 7 t) = _
    rw [after13_7]
    exact hG.trans (funext fun j => (congrArg G (Region1.emb7 t j) :).symm)
  exact funext fun i => (congrArg ((dat13 V c).arrAt 7 cfg13.N) (Region1.emb7 t i) :).symm.trans
    ((congrFun ((dat13 V c).read_blk_arrAt 7 G hfl t ((flush13_7 t).mpr (by omega))) i).trans
      (congrArg G (Region1.emb7 t i) :))

-- The outputs after the region: every index lies in a block whose value is known.
theorem out_eq (c : Dev nD) (p : Fin 100000) (q : Fin 128) :
    (dat13 (F := Ideal) V c).arrAt 5 cfg13.N (ix2 p q) = a V c p q := by
  have hN : cfg13.N = 20 := N_13
  obtain ⟨t, r, rfl⟩ : ∃ (t : Fin cfg13.N) (r : Fin 5000), p = row (t.cast N_13) r :=
    ⟨⟨p.val / 5000, by have := p.isLt; omega⟩, ⟨p.val % 5000, Nat.mod_lt _ (by omega)⟩,
      Fin.ext (by show p.val = 5000 * (p.val / 5000) + p.val % 5000; omega)⟩
  have e := Region1.emb5 t (ix2 r q) (ix2 (row (t.cast N_13) r) q) rfl rfl
  exact (congrArg ((dat13 V c).arrAt 5 cfg13.N) e :).symm.trans
    ((congrFun ((dat13 V c).read_blk_arrAt 5 (Region1.G5 (a V c)) (fun t _ => flushed5 V c t) t (flush13_5 t)) (ix2 r q)).trans
      (congrArg (Region1.G5 (a V c)) e :))

theorem sum_eq (c : Dev nD) (q : Fin 128) :
    (dat13 (F := Ideal) V c).arrAt 6 cfg13.N (ix2 0 q) = Cert.Spec.colsum (a V c) q := by
  obtain ⟨t, h19⟩ : ∃ t : Fin cfg13.N, t.val = 19 := ⟨⟨19, by rw [show cfg13.N = 20 from N_13]; omega⟩, rfl⟩
  exact (congrFun (arr6 V c t h19) (ix2 0 q)).trans ((vals V c).2 t q h19).1

theorem sumsq_eq (c : Dev nD) (q : Fin 128) :
    (dat13 (F := Ideal) V c).arrAt 7 cfg13.N (ix2 0 q) = Cert.Spec.colsumsq (a V c) q := by
  obtain ⟨t, h19⟩ : ∃ t : Fin cfg13.N, t.val = 19 := ⟨⟨19, by rw [show cfg13.N = 20 from N_13]; omega⟩, rfl⟩
  exact (congrFun (arr7 V c t h19) (ix2 0 q)).trans ((vals V c).2 t q h19).2

end Cert.KernelIdeal.Region13

end
-- ==== Proof.Region14.lean ====
import proofs.«108002_j23673859736037_1_alg».proof.Proof.Region2

noncomputable section

namespace Cert.KernelIdeal.Region14

open Idealize.ShloMosaic Idealize.ShloMosaic.TcCoe Idealize.ShloMosaic.ValueIdx Idealize.SL.Sem
open Idealize.ShloMosaic.Pipeline (Dat)
open Cert.KernelIdeal Cert.KernelIdeal.Gen
open scoped BigOperators

section

variable {F : FTy → Type} [FloatOps F] (c : Dev nD) (i : grid14.Coords)
  (arg1 : Memref sig .tc .vmem S5000x128 .f32) (harg1 : arg1.IsWhole)
  (arg2 : Memref sig .tc .vmem S1x128 .f32) (harg2 : arg2.IsWhole)
  (arg3 : Memref sig .tc .vmem S1x128 .f32) (harg3 : arg3.IsWhole)
  (arg4 : Memref sig .tc .vmem S5000x128 .f32) (harg4 : arg4.IsWhole)
  (arg5 : Memref sig .tc .vmem S1x128 .f32) (harg5 : arg5.IsWhole)
  (arg6 : Memref sig .tc .vmem S1x128 .f32) (harg6 : arg6.IsWhole)
  (x0 : Vec F S5000x128 .f32) (x1 x2 xo4 xo5 : Vec F S1x128 .f32)

-- The pieces a point stores are region 2's, so they amount to the same payloads.
theorem outA3 (hc0 : cond14_0 i) :
    out14_A_3 c i arg1 harg1 arg2 harg2 arg3 harg3 arg4 harg4 arg5 harg5 arg6 harg6 hc0 x0 x1 x2 = k2_pay1 x0 x1 x2 :=
  (View.read_writes_eq_canon _ _ _ (cover14_A_3 c i arg1 harg1 arg2 harg2 arg3 harg3 arg4 harg4 arg5 harg5 arg6 harg6 hc0 x0 x1 x2)).trans
    (Region2.canA3 c i arg1 harg1 arg2 harg2 arg3 harg3 arg4 harg4 arg5 harg5 arg6 harg6 x0 x1 x2 hc0)

theorem outA4 (hc0 : cond14_0 i) :
    out14_A_4 c i arg1 harg1 arg2 harg2 arg3 harg3 arg4 harg4 arg5 harg5 arg6 harg6 hc0 x0 x1 x2 = k2_pay4 x0 x1 x2 k2_pay2 :=
  (View.read_writes_eq_canon _ _ _ (cover14_A_4 c i arg1 harg1 arg2 harg2 arg3 harg3 arg4 harg4 arg5 harg5 arg6 harg6 hc0 x0 x1 x2)).trans
    (Region2.canA4 c i arg1 harg1 arg2 harg2 arg3 harg3 arg4 harg4 arg5 harg5 arg6 harg6 x0 x1 x2 hc0)

theorem outA5 (hc0 : cond14_0 i) :
    out14_A_5 c i arg1 harg1 arg2 harg2 arg3 harg3 arg4 harg4 arg5 harg5 arg6 harg6 hc0 x0 x1 x2 = k2_pay5 x0 x1 x2 k2_pay3 :=
  (View.read_writes_eq_canon _ _ _ (cover14_A_5 c i arg1 harg1 arg2 harg2 arg3 harg3 arg4 harg4 arg5 harg5 arg6 harg6 hc0 x0 x1 x2)).trans
    (Region2.canA5 c i arg1 harg1 arg2 harg2 arg3 harg3 arg4 harg4 arg5 harg5 arg6 harg6 x0 x1 x2 hc0)

theorem outB3 (hc0 : ¬cond14_0 i) :
    out14_B_3 c i arg1 harg1 arg2 harg2 arg3 harg3 arg4 harg4 arg5 harg5 arg6 harg6 hc0 x0 x1 x2 xo4 xo5 = k2_pay1 x0 x1 x2 :=
  (View.read_writes_eq_canon _ _ _ (cover14_B_3 c i arg1 harg1 arg2 harg2 arg3 harg3 arg4 harg4 arg5 harg5 arg6 harg6 hc0 x0 x1 x2 xo4 xo5)).trans
    (Region2.canB3 c i arg1 harg1 arg2 harg2 arg3 harg3 arg4 harg4 arg5 harg5 arg6 harg6 x0 x1 x2 xo4 xo5 hc0)

theorem outB4 (hc0 : ¬cond14_0 i) :
    out14_B_4 c i arg1 harg1 arg2 harg2 arg3 harg3 arg4 harg4 arg5 harg5 arg6 harg6 hc0 x0 x1 x2 xo4 xo5 = k2_pay4 x0 x1 x2 xo4 :=
  (View.read_writes_eq_canon _ _ _ (cover14_B_4 c i arg1 harg1 arg2 harg2 arg3 harg3 arg4 harg4 arg5 harg5 arg6 harg6 hc0 x0 x1 x2 xo4 xo5)).trans
    (Region2.canB4 c i arg1 harg1 arg2 harg2 arg3 harg3 arg4 harg4 arg5 harg5 arg6 harg6 x0 x1 x2 xo4 xo5 hc0)

theorem outB5 (hc0 : ¬cond14_0 i) :
    out14_B_5 c i arg1 harg1 arg2 harg2 arg3 harg3 arg4 harg4 arg5 harg5 arg6 harg6 hc0 x0 x1 x2 xo4 xo5 = k2_pay5 x0 x1 x2 xo5 :=
  (View.read_writes_eq_canon _ _ _ (cover14_B_5 c i arg1 harg1 arg2 harg2 arg3 harg3 arg4 harg4 arg5 harg5 arg6 harg6 hc0 x0 x1 x2 xo4 xo5)).trans
    (Region2.canB5 c i arg1 harg1 arg2 harg2 arg3 harg3 arg4 harg4 arg5 harg5 arg6 harg6 x0 x1 x2 xo4 xo5 hc0)

end

variable (V : (c : Dev nD) → (b : Ref sig .tc) → Buf (Elt Ideal) ((c : Thread nD τ).loc b))

abbrev a (c : Dev nD) : Cert.Spec.Arr :=
  Cert.Spec.affRelu (Cert.Spec.curA (V c (Pipeline.arrRef spec14 0))) (Cert.Spec.curRow (V c (Pipeline.arrRef spec14 1)))
    (Cert.Spec.curRow (V c (Pipeline.arrRef spec14 2)))

-- What the three outputs hold after each point, from the step equations of the region's run.
theorem inv (c : Dev nD) : Region2.Holds (a V c) (outsAt14 V c) :=
  Region2.holds (x0 := fun n h => iblk14 V c 0 ⟨n, h⟩) (x1 := fun n h => iblk14 V c 1 ⟨n, h⟩)
    (x2 := fun n h => iblk14 V c 2 ⟨n, h⟩)
    (fun n h r q => Region2.read0 (V c (Pipeline.arrRef spec14 0)) ⟨n, h⟩ r q)
    (fun n h q => Region2.read1 (V c (Pipeline.arrRef spec14 1)) ⟨n, h⟩ q)
    (fun n h q => Region2.read1 (V c (Pipeline.arrRef spec14 2)) ⟨n, h⟩ q)
    (fun h => by rw [outsAt14_A V c ⟨0, h⟩ rfl, outA3, outA4, outA5] <;> rfl)
    (fun n h => by
      have hN : cfg2.N = 20 := N_2
      rw [outsAt14_B V c ⟨n + 1, h⟩ (by dsimp only; omega), outB3, outB4, outB5] <;> rfl)

theorem out_eq (c : Dev nD) (p : Fin 100000) (q : Fin 128) :
    (dat14 (F := Ideal) V c).arrAt 3 cfg14.N (ix2 p q) = a V c p q :=
  congrFun ((dat14 (F := Ideal) V c).arrAt_eq_of_cover 3 (Region2.G3 (a V c))
    (fun t _ => Region2.back3 (inv V c) t _ (after14_3 V c t)) Region2.cover3) (ix2 p q)

theorem sum_eq (c : Dev nD) (q : Fin 128) :
    (dat14 (F := Ideal) V c).arrAt 4 cfg14.N (ix2 0 q) = Cert.Spec.colsum (a V c) q :=
  congrFun ((dat14 (F := Ideal) V c).arrAt_eq_of_cover 4 (Region2.G4 (Cert.Spec.colsum (a V c)))
    (fun t hf => Region2.back4 (inv V c) t ((flush14_4 t).mp hf) _ (after14_4 V c t)) Region2.cover4) (ix2 0 q)

theorem sumsq_eq (c : Dev nD) (q : Fin 128) :
    (dat14 (F := Ideal) V c).arrAt 5 cfg14.N (ix2 0 q) = Cert.Spec.colsumsq (a V c) q :=
  congrFun ((dat14 (F := Ideal) V c).arrAt_eq_of_cover 5 (Region2.G4 (Cert.Spec.colsumsq (a V c)))
    (fun t hf => Region2.back5 (inv V c) t ((flush14_5 t).mp hf) _ (after14_5 V c t)) Region2.cover4) (ix2 0 q)

end Cert.KernelIdeal.Region14

end
-- ==== Proof.Region15.lean ====
import proofs.«108002_j23673859736037_1_alg».proof.Proof.Region3

open Idealize.ShloMosaic Idealize.ShloMosaic.TcCoe Idealize.ShloMosaic.ValueIdx

namespace Cert.KernelIdeal.Region15

open Cert.KernelIdeal.Gen

variable (V : (c : Dev nD) → (b : Ref sig .tc) → Buf (Elt Ideal) ((c : Thread nD τ).loc b))

-- Regions 3 and 15 run one body over one grid with the same block maps, on other arrays: region 3's block and cover lemmas hold as they stand.
theorem out_eq (c : Dev nD) (p : Fin 100000) (q : Fin 128) :
    (dat15 (F := Ideal) V c).arrAt 3 cfg15.N (ix2 p q)
      = Cert.Spec.affRelu (Cert.Spec.curA (V c (Pipeline.arrRef spec15 0))) (Cert.Spec.curRow (V c (Pipeline.arrRef spec15 1)))
          (Cert.Spec.curRow (V c (Pipeline.arrRef spec15 2))) p q := by
  refine congrFun ((dat15 V c).arrAt_eq_of_cover 3 (Region3.G (V c (Pipeline.arrRef spec15 0)) (V c (Pipeline.arrRef spec15 1)) (V c (Pipeline.arrRef spec15 2))) (fun t _ => ?_) Region3.cover) (ix2 p q)
  show (cfg15.win 3).cut (grid15.coords t) ((dat15 V c).after 3 t) = _
  rw [after15_3]
  exact Region3.block_eq _ _ _ t

end Cert.KernelIdeal.Region15
-- ==== Proof.KChain3.lean ====
/-
  Layer 3 of the kernel's program on the frame's boundary contents.

  The frame names the buffer contents at every boundary of the program's run: `W24` when layer 3 starts (the layer
  before it has ended), `W25` after stretch 12, `W26` when pass 12 has ended, and so on to `W32` when pass 15 has
  ended.  Each pass's arrays hold what the pass's own theorems say of its entry contents, every other buffer what it
  held at entry: that is a `LayerRun`, and so the layer's result array at `W32` is the specification's layer 3 of the
  array at `W24`, with the edge lists and the arguments as at `W24`.
-/
import proofs.«108002_j23673859736037_1_alg».proof.Proof.Gen.KernelIdeal.Frame
import proofs.«108002_j23673859736037_1_alg».proof.Proof.ChainDefs
import proofs.«108002_j23673859736037_1_alg».proof.Proof.Agg
import proofs.«108002_j23673859736037_1_alg».proof.Proof.KShared
import proofs.«108002_j23673859736037_1_alg».proof.Proof.KLayer3
import proofs.«108002_j23673859736037_1_alg».proof.Proof.Region12
import proofs.«108002_j23673859736037_1_alg».proof.Proof.Region13
import proofs.«108002_j23673859736037_1_alg».proof.Proof.Region14
import proofs.«108002_j23673859736037_1_alg».proof.Proof.Region15

set_option maxRecDepth 16384

noncomputable section

namespace Cert.KernelIdeal.Chain

open Idealize.ShloMosaic Idealize.ShloMosaic.TcCoe Idealize.ShloMosaic.ValueIdx
open Cert.KernelIdeal Cert.KernelIdeal.Gen Cert.Spec Cert.Chain

variable (m : (ℓ : Loc nD τ sig) → Buf (Elt Ideal) ℓ) (ρ : Dev nD → PrngReg) (c : Dev nD)

/-- The frame's boundary contents around layer 3 are a run of the layer. -/
theorem run3 : L3.LayerRun (W24 m ρ c) (W26 m ρ c) (W28 m ρ c) (W30 m ρ c) (W32 m ρ c) where
  o12 := funext fun p => funext fun q =>
    (congrFun (W26_arr m ρ c 4) (ix2 p q)).trans (Region12.out_eq (V25 m ρ) c p q)
  s12 := funext fun q =>
    (congrFun (W26_arr m ρ c 5) (ix2 0 q)).trans (Region12.sum_eq (V25 m ρ) c q)
  t12 := funext fun q =>
    (congrFun (W26_arr m ρ c 6) (ix2 0 q)).trans (Region12.sumsq_eq (V25 m ρ) c q)
  k12 := fun b hb => W26_of_ne m ρ c b hb
  o13 := funext fun p => funext fun q =>
    (congrFun (W28_arr m ρ c 5) (ix2 p q)).trans (Region13.out_eq (V27 m ρ) c p q)
  s13 := funext fun q =>
    (congrFun (W28_arr m ρ c 6) (ix2 0 q)).trans (Region13.sum_eq (V27 m ρ) c q)
  t13 := funext fun q =>
    (congrFun (W28_arr m ρ c 7) (ix2 0 q)).trans (Region13.sumsq_eq (V27 m ρ) c q)
  k13 := fun b hb => W28_of_ne m ρ c b hb
  o14 := funext fun p => funext fun q =>
    (congrFun (W30_arr m ρ c 3) (ix2 p q)).trans (Region14.out_eq (V29 m ρ) c p q)
  s14 := funext fun q =>
    (congrFun (W30_arr m ρ c 4) (ix2 0 q)).trans (Region14.sum_eq (V29 m ρ) c q)
  t14 := funext fun q =>
    (congrFun (W30_arr m ρ c 5) (ix2 0 q)).trans (Region14.sumsq_eq (V29 m ρ) c q)
  k14 := fun b hb => W30_of_ne m ρ c b hb
  o15 := funext fun p => funext fun q =>
    (congrFun (W32_arr m ρ c 3) (ix2 p q)).trans (Region15.out_eq (V31 m ρ) c p q)
  k15 := fun b hb => W32_of_ne m ρ c b hb

/-- Layer 3: the array the layer's last pass leaves is the specification's layer 3 of the array the layer found,
    with the neighbour sums taken along the edge lists and the parameters read off the arguments as the layer found
    them. -/
theorem layer3_x :
    (W32 m ρ c (Proc.devRef .tc main_v315) : NArr)
      = stepK (fun X => Cert.Agg.aggK X (W24 m ρ c (Proc.devRef .tc main_v1)) (W24 m ρ c (Proc.devRef .tc main_v3)))
          (paramsOf (W24 m ρ c (Proc.devRef .tc main_arg4)) (W24 m ρ c (Proc.devRef .tc main_arg5)) (W24 m ρ c (Proc.devRef .tc main_arg6))
            (W24 m ρ c (Proc.devRef .tc main_arg7)) (W24 m ρ c (Proc.devRef .tc main_arg8)) (W24 m ρ c (Proc.devRef .tc main_arg9))
            (W24 m ρ c (Proc.devRef .tc main_arg10)) (W24 m ρ c (Proc.devRef .tc main_arg11)) (W24 m ρ c (Proc.devRef .tc main_arg12))
            (W24 m ρ c (Proc.devRef .tc main_arg13)))
          (3 : Fin 4) (W24 m ρ c (Proc.devRef .tc main_v237)) :=
  (run3 m ρ c).x

/-- Layer 3 leaves the edge lists and the program's arguments as it found them. -/
theorem layer3_keep (b : Ref sig .tc) (hb : b ∈ keepL) :
    W32 m ρ c (Proc.devRef .tc b) = W24 m ρ c (Proc.devRef .tc b) :=
  (run3 m ρ c).keep b hb

end Cert.KernelIdeal.Chain

end
-- ==== Proof.KTailAbs.lean ====
import proofs.«108002_j23673859736037_1_alg».proof.Proof.Gen.KernelIdeal.Launch
import proofs.«108002_j23673859736037_1_alg».proof.Proof.Spec
import proofs.«108002_j23673859736037_1_alg».proof.Proof.SpecHead
import proofs.«108002_j23673859736037_1_alg».proof.Proof.Agg
import Idealize.ShloMosaic.Lib.StableHlo.Run
import Idealize.ShloMosaic.Lib.ValueLayout
import Idealize.ShloMosaic.Lib.Pipeline.Value

set_option maxRecDepth 16384

noncomputable section

namespace Cert.KernelIdeal.Chain

open Idealize.ShloMosaic Idealize.ShloMosaic.TcCoe Idealize.ShloMosaic.ValueIdx
open Cert.KernelIdeal Cert.KernelIdeal.Gen Cert.Spec

section Tail

variable (W : Valuation τ sig (Elt Ideal))

theorem s16_pool : StableHlo.after hostOps16 W (Proc.devRef .tc main_v318)
    = Cert.Agg.poolK (W (Proc.devRef .tc main_v315)) (W (Proc.devRef .tc main_arg2)) := by
  after_results
  rfl

theorem s16_b1 (q : Fin 256) : StableHlo.after hostOps16 W (Proc.devRef .tc main_v319) (ix2 0 q)
    = W (Proc.devRef .tc main_arg15) (ix1 q) := by
  after_results
  exact shapeCast_a_1a_apply (W (Proc.devRef .tc main_arg15)) shapeCasts_S256_S1x256 0 q

theorem s16_b2 (q : Fin 256) : StableHlo.after hostOps16 W (Proc.devRef .tc main_v320) (ix2 0 q)
    = W (Proc.devRef .tc main_arg17) (ix1 q) := by
  after_results
  exact shapeCast_a_1a_apply (W (Proc.devRef .tc main_arg17)) shapeCasts_S256_S1x256 0 q

theorem s16_b3 (o : Fin 1) : StableHlo.after hostOps16 W (Proc.devRef .tc main_v321) (ix2 0 o)
    = W (Proc.devRef .tc main_arg19) (ix1 o) := by
  after_results
  exact shapeCast_a_1a_apply (W (Proc.devRef .tc main_arg19)) shapeCasts_S1_S1x1 0 o

abbrev hostOps16_W : List (Ref sig .tc) :=
  [main_cst_46, main_v316, main_v317, main_v318, main_v319, main_v320, main_v321]

theorem hostOps16_writes : (hostOps16 : List (HloOp τ sig (Elt Ideal))).Forall fun op =>
    op.writes ⊆ (hostOps16_W.map (Proc.devRef (τ := τ) .tc)).toFinset := by
  simp only [List.Forall]
  repeat' apply And.intro
  all_goals
    simp only [StableHlo.nullary_writes, StableHlo.unary_writes, StableHlo.binary_writes, StableHlo.ternary_writes,
      StableHlo.reshape_writes, Finset.singleton_subset_iff, List.mem_toFinset]
    exact List.mem_map_of_mem (by decide)

theorem s16_keep (b : Ref sig .tc) (hb : b ∉ hostOps16_W) :
    StableHlo.after hostOps16 W (Proc.devRef .tc b) = W (Proc.devRef .tc b) :=
  StableHlo.after_of_writes_sub hostOps16 _ hostOps16_writes hb

end Tail

theorem head_congr {a0 b0 : Fin 512 → Fin 128 → EReal} {a1 b1 : Fin 512 → Fin 5 → EReal}
    {a2 b2 : Fin 133 → Fin 256 → EReal} {a3 b3 : Fin 256 → EReal} {a4 b4 : Fin 256 → Fin 256 → EReal}
    {a5 b5 : Fin 256 → EReal} {a6 b6 : Fin 256 → Fin 1 → EReal} {a7 b7 : Fin 1 → EReal}
    (h0 : ∀ p j, a0 p j = b0 p j) (h1 : ∀ p j, a1 p j = b1 p j) (h2 : ∀ j q, a2 j q = b2 j q) (h3 : ∀ q, a3 q = b3 q)
    (h4 : ∀ k q, a4 k q = b4 k q) (h5 : ∀ q, a5 q = b5 q) (h6 : ∀ k o, a6 k o = b6 k o) (h7 : ∀ o, a7 o = b7 o)
    (p : Fin 512) : head a0 a1 a2 a3 a4 a5 a6 a7 p = head b0 b1 b2 b3 b4 b5 b6 b7 p := by
  obtain rfl : a0 = b0 := funext fun p => funext fun j => h0 p j
  obtain rfl : a1 = b1 := funext fun p => funext fun j => h1 p j
  obtain rfl : a2 = b2 := funext fun j => funext fun q => h2 j q
  obtain rfl : a3 = b3 := funext h3
  obtain rfl : a4 = b4 := funext fun k => funext fun q => h4 k q
  obtain rfl : a5 = b5 := funext h5
  obtain rfl : a6 = b6 := funext fun k => funext fun o => h6 k o
  obtain rfl : a7 = b7 := funext h7
  rfl

theorem tail_abs (E X : Valuation τ sig (Elt Ideal))
    (ho : ∀ p : Fin 512, X (Proc.devRef .tc main_v322) (ix2 p 0)
      = head (fun p j => StableHlo.after hostOps16 E (Proc.devRef .tc main_v318) (ix2 p j))
          (fun p j => StableHlo.after hostOps16 E (Proc.devRef .tc main_arg3) (ix2 p j))
          (fun j q => StableHlo.after hostOps16 E (Proc.devRef .tc main_arg14) (ix2 j q))
          (fun q => StableHlo.after hostOps16 E (Proc.devRef .tc main_v319) (ix2 0 q))
          (fun k q => StableHlo.after hostOps16 E (Proc.devRef .tc main_arg16) (ix2 k q))
          (fun q => StableHlo.after hostOps16 E (Proc.devRef .tc main_v320) (ix2 0 q))
          (fun k o => StableHlo.after hostOps16 E (Proc.devRef .tc main_arg18) (ix2 k o))
          (fun o => StableHlo.after hostOps16 E (Proc.devRef .tc main_v321) (ix2 0 o)) p)
    (p : Fin 512) :
    X (Proc.devRef .tc main_v322) (ix2 p 0)
      = head (fun p j => Cert.Agg.poolK (E (Proc.devRef .tc main_v315)) (E (Proc.devRef .tc main_arg2)) (ix2 p j))
          (fun p j => E (Proc.devRef .tc main_arg3) (ix2 p j)) (fun j q => E (Proc.devRef .tc main_arg14) (ix2 j q))
          (fun q => E (Proc.devRef .tc main_arg15) (ix1 q)) (fun k q => E (Proc.devRef .tc main_arg16) (ix2 k q))
          (fun q => E (Proc.devRef .tc main_arg17) (ix1 q)) (fun k o => E (Proc.devRef .tc main_arg18) (ix2 k o))
          (fun o => E (Proc.devRef .tc main_arg19) (ix1 o)) p := by
  refine (ho p).trans (head_congr ?_ ?_ ?_ ?_ ?_ ?_ ?_ ?_ p)
  · intro p j; rw [s16_pool]
  · intro p j; rw [s16_keep E main_arg3 (by decide)]
  · intro j q; rw [s16_keep E main_arg14 (by decide)]
  · intro q; exact s16_b1 E q
  · intro k q; rw [s16_keep E main_arg16 (by decide)]
  · intro q; exact s16_b2 E q
  · intro k o; rw [s16_keep E main_arg18 (by decide)]
  · intro o; exact s16_b3 E o

end Cert.KernelIdeal.Chain

end
-- ==== Proof.Region16.lean ====
import proofs.«108002_j23673859736037_1_alg».proof.Proof.Gen.KernelIdeal.Frame
import Idealize.ShloMosaic.Lib.Pipeline.Value
import proofs.«108002_j23673859736037_1_alg».proof.Proof.SpecHead
import proofs.«108002_j23673859736037_1_alg».proof.Proof.LibRowOps

set_option maxRecDepth 16384

noncomputable section

namespace Cert.KernelIdeal.Region16

open Idealize.ShloMosaic Idealize.ShloMosaic.TcCoe Idealize.ShloMosaic.ValueIdx
open Idealize.ShloMosaic.Pipeline (Dat)
open Cert.KernelIdeal Cert.KernelIdeal.Gen
open scoped BigOperators

variable {α : Type}

theorem cat128_5_apply {n : ℕ} (a : (⟨2, ![n, 128]⟩ : Shape).Idx → α) (b : (⟨2, ![n, 5]⟩ : Shape).Idx → α)
    (h : Shape.Concatenates [(⟨2, ![n, 128]⟩ : Shape), ⟨2, ![n, 5]⟩] ⟨2, ![n, 133]⟩ 1) (p : Fin n) (q : Fin 133) :
    concatenate ⟨2, ![n, 133]⟩ 1 [⟨⟨2, ![n, 128]⟩, a⟩, ⟨⟨2, ![n, 5]⟩, b⟩] h (ix2 p q)
      = if hq : q.val < 128 then a (ix2 p ⟨q.val, hq⟩) else b (ix2 p ⟨q.val - 128, by omega⟩) := by
  split
  · next hq =>
    exact concatenate_pair_apply_left 1 a b h (ix2 p q) rfl (ix2 p ⟨q.val, hq⟩)
      (fun bb => by match bb with | ⟨0, _⟩ => rfl | ⟨1, _⟩ => rfl)
  · next hq =>
    exact concatenate_pair_apply_right 1 a b h (ix2 p q) rfl rfl (ix2 p ⟨q.val - 128, by omega⟩)
      (fun bb hb => by match bb with | ⟨0, _⟩ => rfl | ⟨1, _⟩ => exact absurd rfl hb)
      (by show (q.val - 128) + 128 = q.val; omega)

theorem biasRow_apply {n k : ℕ} (v : (⟨2, ![1, k]⟩ : Shape).Idx → α) (hc : (⟨2, ![1, k]⟩ : Shape).ShapeCasts ⟨2, ![1, k]⟩)
    (hb : (⟨2, ![1, k]⟩ : Shape).Broadcasts ⟨2, ![n, k]⟩) (p : Fin n) (q : Fin k) :
    broadcastTo ⟨2, ![n, k]⟩ (shapeCast ⟨2, ![1, k]⟩ v hc) hb (ix2 p q) = v (ix2 (0 : Fin 1) q) := by
  rw [shapeCast_self]
  exact broadcastTo_1b_ab_apply v hb p q

theorem affine_apply {n K N : ℕ} {φa φw : FTy} (d : DotDims ⟨2, ![n, K]⟩ ⟨2, ![K, N]⟩ ⟨2, ![n, N]⟩) (hd : d = DotDims.plain n K N)
    (A : FVec Ideal ⟨2, ![n, K]⟩ φa) (W : FVec Ideal ⟨2, ![K, N]⟩ φw) (b : FVec Ideal ⟨2, ![1, N]⟩ .f32)
    (hc : (⟨2, ![1, N]⟩ : Shape).ShapeCasts ⟨2, ![1, N]⟩) (hb : (⟨2, ![1, N]⟩ : Shape).Broadcasts ⟨2, ![n, N]⟩)
    (p : Fin n) (j : Fin N) (x : Fin K → EReal) (hx : ∀ k, A (ix2 p k) = x k) :
    addf (matmul d none A W (constant ⟨2, ![n, N]⟩ .f32 0x00000000#32)) (broadcastTo ⟨2, ![n, N]⟩ (shapeCast ⟨2, ![1, N]⟩ b hc) hb) (ix2 p j)
      = (∑ k : Fin K, x k * W (ix2 k j)) + b (ix2 (0 : Fin 1) j) := by
  show matmul d none A W (constant ⟨2, ![n, N]⟩ .f32 0x00000000#32) (ix2 p j) + broadcastTo ⟨2, ![n, N]⟩ (shapeCast ⟨2, ![1, N]⟩ b hc) hb (ix2 p j) = _
  rw [Cert.LibRowOps.prod_apply d hd A W p j x hx, biasRow_apply]

theorem leaky_apply {s : Shape} (z : FVec Ideal s .f32) (i : s.Idx) :
    (truncf .bf16 (select (cmpf .oge z (broadcast s (Scalar.ofBits .f32 0x00000000#32)))
      z (mulf z (broadcast s (Scalar.ofBits .f32 0x3C23D70A#32)))) bitsLt_bf16_f32 : FVec Ideal s .bf16) i = Cert.Spec.leaky (z i) := rfl

theorem pay2_apply (x0 : Vec Ideal S512x128 .f32) (x1 : Vec Ideal S512x5 .f32) (x2 : Vec Ideal S133x256 .f32) (x3 : Vec Ideal S1x256 .f32)
    (x4 : Vec Ideal S256x256 .f32) (x5 : Vec Ideal S1x256 .f32) (x6 : Vec Ideal S256x1 .f32) (p : Fin 512) :
    k16_pay2 (F := Ideal) x0 x1 x2 x3 x4 x5 x6 (ix2 p (0 : Fin 1))
      = ∑ k : Fin 256, Cert.Spec.dense (Cert.Spec.dense (Cert.Spec.cat (fun p j => x0 (ix2 p j)) (fun p j => x1 (ix2 p j)))
          (fun j q => x2 (ix2 j q)) (fun q => x3 (ix2 (0 : Fin 1) q))) (fun k q => x4 (ix2 k q)) (fun q => x5 (ix2 (0 : Fin 1) q)) p k
            * x6 (ix2 k (0 : Fin 1)) := by
  unfold k16_pay2
  refine Cert.LibRowOps.prod_apply _ rfl _ _ p 0 _ (fun k => ?_)
  refine (leaky_apply _ _).trans (congrArg Cert.Spec.leaky ?_)
  refine affine_apply _ rfl _ _ _ _ _ p k _ (fun k' => ?_)
  refine (leaky_apply _ _).trans (congrArg Cert.Spec.leaky ?_)
  refine affine_apply _ rfl _ _ _ _ _ p k' _ (fun j => ?_)
  show concatenate S512x133 1 [⟨S512x128, shapeCast S512x128 x0 shapeCasts_S512x128_S512x128⟩, ⟨S512x5, x1⟩]
    concatenates_S512x128_S512x5_S512x133_d1 (ix2 p j) = _
  refine (cat128_5_apply (shapeCast S512x128 x0 shapeCasts_S512x128_S512x128) x1 concatenates_S512x128_S512x5_S512x133_d1 p j).trans ?_
  rw [shapeCast_self]
  rfl

theorem pay1_apply (v33 : FVec Ideal S512x1 .f32) (v35 : FVec Ideal S1x1 .f32) (p : Fin 512) :
    k16_pay1 (F := Ideal) v33 v35 (ix2 p (0 : Fin 1)) = v33 (ix2 p (0 : Fin 1)) + v35 (ix2 (0 : Fin 1) (0 : Fin 1)) := by
  unfold k16_pay1
  show v33 (ix2 p (0 : Fin 1)) + broadcastTo S512x1 v35 broadcasts_S1x1_S512x1 (ix2 p (0 : Fin 1)) = _
  rw [broadcastTo_1b_ab_apply v35 broadcasts_S1x1_S512x1 p (0 : Fin 1)]

theorem pay3_eq (x7 : Vec Ideal S1x1 .f32) : k16_pay3 (F := Ideal) x7 = x7 := by
  unfold k16_pay3
  exact shapeCast_self x7 _

theorem stored_apply (x0 : Vec Ideal S512x128 .f32) (x1 : Vec Ideal S512x5 .f32) (x2 : Vec Ideal S133x256 .f32) (x3 : Vec Ideal S1x256 .f32)
    (x4 : Vec Ideal S256x256 .f32) (x5 : Vec Ideal S1x256 .f32) (x6 : Vec Ideal S256x1 .f32) (x7 : Vec Ideal S1x1 .f32) (y : S512x1.Idx) :
    k16_pay1 (F := Ideal) (k16_pay2 x0 x1 x2 x3 x4 x5 x6) (k16_pay3 x7) y
      = Cert.Spec.head (fun p j => x0 (ix2 p j)) (fun p j => x1 (ix2 p j)) (fun j q => x2 (ix2 j q)) (fun q => x3 (ix2 (0 : Fin 1) q))
          (fun k q => x4 (ix2 k q)) (fun q => x5 (ix2 (0 : Fin 1) q)) (fun k o => x6 (ix2 k o)) (fun o => x7 (ix2 (0 : Fin 1) o)) (y 0) := by
  obtain ⟨p, q, rfl⟩ : ∃ (p : Fin 512) (q : Fin 1), y = ix2 p q := ⟨y 0, y 1, eq_ix2 y⟩
  obtain rfl : q = 0 := Subsingleton.elim q 0
  rw [pay1_apply, pay2_apply, pay3_eq]
  rfl

theorem stored_eq_head (x0 : Vec Ideal S512x128 .f32) (x1 : Vec Ideal S512x5 .f32) (x2 : Vec Ideal S133x256 .f32) (x3 : Vec Ideal S1x256 .f32)
    (x4 : Vec Ideal S256x256 .f32) (x5 : Vec Ideal S1x256 .f32) (x6 : Vec Ideal S256x1 .f32) (x7 : Vec Ideal S1x1 .f32)
    (a0 : S512x128.Idx → EReal) (a1 : S512x5.Idx → EReal) (a2 : S133x256.Idx → EReal) (a3 : S1x256.Idx → EReal)
    (a4 : S256x256.Idx → EReal) (a5 : S1x256.Idx → EReal) (a6 : S256x1.Idx → EReal) (a7 : S1x1.Idx → EReal)
    (h0 : x0 = a0) (h1 : x1 = a1) (h2 : x2 = a2) (h3 : x3 = a3) (h4 : x4 = a4) (h5 : x5 = a5) (h6 : x6 = a6) (h7 : x7 = a7)
    (y y' : S512x1.Idx) (hy : y' = y) :
    k16_pay1 (F := Ideal) (k16_pay2 x0 x1 x2 x3 x4 x5 x6) (k16_pay3 x7) y
      = Cert.Spec.head (fun p j => a0 (ix2 p j)) (fun p j => a1 (ix2 p j)) (fun j q => a2 (ix2 j q)) (fun q => a3 (ix2 (0 : Fin 1) q))
          (fun k q => a4 (ix2 k q)) (fun q => a5 (ix2 (0 : Fin 1) q)) (fun k o => a6 (ix2 k o)) (fun o => a7 (ix2 (0 : Fin 1) o)) (y' 0) := by
  subst h0 h1 h2 h3 h4 h5 h6 h7 hy
  exact stored_apply x0 x1 x2 x3 x4 x5 x6 x7 y'

section Array

variable (V : (c : Dev nD) → (b : Ref sig .tc) → Buf (Elt Ideal) ((c : Thread nD τ).loc b))

theorem zeros2 : (![0, 0] : Fin 2 → Nat) = fun _ => 0 := funext fun a => by fin_cases a <;> rfl

theorem idx_zero : ∀ t : Fin cfg16.N,
    (win16_0.index t (0 : Fin 2) = 0 ∧ win16_0.index t (1 : Fin 2) = 0)
    ∧ (win16_1.index t (0 : Fin 2) = 0 ∧ win16_1.index t (1 : Fin 2) = 0)
    ∧ (win16_2.index t (0 : Fin 2) = 0 ∧ win16_2.index t (1 : Fin 2) = 0)
    ∧ (win16_3.index t (0 : Fin 2) = 0 ∧ win16_3.index t (1 : Fin 2) = 0)
    ∧ (win16_4.index t (0 : Fin 2) = 0 ∧ win16_4.index t (1 : Fin 2) = 0)
    ∧ (win16_5.index t (0 : Fin 2) = 0 ∧ win16_5.index t (1 : Fin 2) = 0)
    ∧ (win16_6.index t (0 : Fin 2) = 0 ∧ win16_6.index t (1 : Fin 2) = 0)
    ∧ (win16_7.index t (0 : Fin 2) = 0 ∧ win16_7.index t (1 : Fin 2) = 0)
    ∧ (win16_8.index t (0 : Fin 2) = 0 ∧ win16_8.index t (1 : Fin 2) = 0) :=
  (by decide +kernel : ∀ t : Fin grid16.N, _)

theorem block0_whole (c : Dev nD) (t : Fin cfg16.N) :
    (iblk16 V c 0 t : Vec Ideal S512x128 .f32) = (V c (Pipeline.arrRef spec16 0) : S512x128.Idx → EReal) := by
  obtain ⟨⟨e0, e1⟩, -⟩ := idx_zero t
  funext y
  show (V c (Pipeline.arrRef spec16 0) : S512x128.Idx → EReal) (((cfg16.win 0).blk t).view.emb y) = _
  refine congrArg (V c (Pipeline.arrRef spec16 0) : S512x128.Idx → EReal) (funext fun a => Fin.ext ?_)
  match a with
  | ⟨0, _⟩ => show win16_0.index t (0 : Fin 2) * 512 + 1 * (y 0).val = (y 0).val; omega
  | ⟨1, _⟩ => show win16_0.index t (1 : Fin 2) * 128 + 1 * (y 1).val = (y 1).val; omega

theorem block1_whole (c : Dev nD) (t : Fin cfg16.N) :
    (iblk16 V c 1 t : Vec Ideal S512x5 .f32) = (V c (Pipeline.arrRef spec16 1) : S512x5.Idx → EReal) := by
  obtain ⟨-, ⟨e0, e1⟩, -⟩ := idx_zero t
  funext y
  show (V c (Pipeline.arrRef spec16 1) : S512x5.Idx → EReal) (((cfg16.win 1).blk t).view.emb y) = _
  refine congrArg (V c (Pipeline.arrRef spec16 1) : S512x5.Idx → EReal) (funext fun a => Fin.ext ?_)
  match a with
  | ⟨0, _⟩ => show win16_1.index t (0 : Fin 2) * 512 + 1 * (y 0).val = (y 0).val; omega
  | ⟨1, _⟩ => show win16_1.index t (1 : Fin 2) * 5 + 1 * (y 1).val = (y 1).val; omega

theorem block2_whole (c : Dev nD) (t : Fin cfg16.N) :
    (iblk16 V c 2 t : Vec Ideal S133x256 .f32) = (V c (Pipeline.arrRef spec16 2) : S133x256.Idx → EReal) := by
  obtain ⟨-, -, ⟨e0, e1⟩, -⟩ := idx_zero t
  funext y
  show (V c (Pipeline.arrRef spec16 2) : S133x256.Idx → EReal) (((cfg16.win 2).blk t).view.emb y) = _
  refine congrArg (V c (Pipeline.arrRef spec16 2) : S133x256.Idx → EReal) (funext fun a => Fin.ext ?_)
  match a with
  | ⟨0, _⟩ => show win16_2.index t (0 : Fin 2) * 133 + 1 * (y 0).val = (y 0).val; omega
  | ⟨1, _⟩ => show win16_2.index t (1 : Fin 2) * 256 + 1 * (y 1).val = (y 1).val; omega

theorem block3_whole (c : Dev nD) (t : Fin cfg16.N) :
    (iblk16 V c 3 t : Vec Ideal S1x256 .f32) = (V c (Pipeline.arrRef spec16 3) : S1x256.Idx → EReal) := by
  obtain ⟨-, -, -, ⟨e0, e1⟩, -⟩ := idx_zero t
  funext y
  show (V c (Pipeline.arrRef spec16 3) : S1x256.Idx → EReal) (((cfg16.win 3).blk t).view.emb y) = _
  refine congrArg (V c (Pipeline.arrRef spec16 3) : S1x256.Idx → EReal) (funext fun a => Fin.ext ?_)
  match a with
  | ⟨0, _⟩ => show win16_3.index t (0 : Fin 2) * 1 + 1 * (y 0).val = (y 0).val; omega
  | ⟨1, _⟩ => show win16_3.index t (1 : Fin 2) * 256 + 1 * (y 1).val = (y 1).val; omega

theorem block4_whole (c : Dev nD) (t : Fin cfg16.N) :
    (iblk16 V c 4 t : Vec Ideal S256x256 .f32) = (V c (Pipeline.arrRef spec16 4) : S256x256.Idx → EReal) := by
  obtain ⟨-, -, -, -, ⟨e0, e1⟩, -⟩ := idx_zero t
  funext y
  show (V c (Pipeline.arrRef spec16 4) : S256x256.Idx → EReal) (((cfg16.win 4).blk t).view.emb y) = _
  refine congrArg (V c (Pipeline.arrRef spec16 4) : S256x256.Idx → EReal) (funext fun a => Fin.ext ?_)
  match a with
  | ⟨0, _⟩ => show win16_4.index t (0 : Fin 2) * 256 + 1 * (y 0).val = (y 0).val; omega
  | ⟨1, _⟩ => show win16_4.index t (1 : Fin 2) * 256 + 1 * (y 1).val = (y 1).val; omega

theorem block5_whole (c : Dev nD) (t : Fin cfg16.N) :
    (iblk16 V c 5 t : Vec Ideal S1x256 .f32) = (V c (Pipeline.arrRef spec16 5) : S1x256.Idx → EReal) := by
  obtain ⟨-, -, -, -, -, ⟨e0, e1⟩, -⟩ := idx_zero t
  funext y
  show (V c (Pipeline.arrRef spec16 5) : S1x256.Idx → EReal) (((cfg16.win 5).blk t).view.emb y) = _
  refine congrArg (V c (Pipeline.arrRef spec16 5) : S1x256.Idx → EReal) (funext fun a => Fin.ext ?_)
  match a with
  | ⟨0, _⟩ => show win16_5.index t (0 : Fin 2) * 1 + 1 * (y 0).val = (y 0).val; omega
  | ⟨1, _⟩ => show win16_5.index t (1 : Fin 2) * 256 + 1 * (y 1).val = (y 1).val; omega

theorem block6_whole (c : Dev nD) (t : Fin cfg16.N) :
    (iblk16 V c 6 t : Vec Ideal S256x1 .f32) = (V c (Pipeline.arrRef spec16 6) : S256x1.Idx → EReal) := by
  obtain ⟨-, -, -, -, -, -, ⟨e0, e1⟩, -⟩ := idx_zero t
  funext y
  show (V c (Pipeline.arrRef spec16 6) : S256x1.Idx → EReal) (((cfg16.win 6).blk t).view.emb y) = _
  refine congrArg (V c (Pipeline.arrRef spec16 6) : S256x1.Idx → EReal) (funext fun a => Fin.ext ?_)
  match a with
  | ⟨0, _⟩ => show win16_6.index t (0 : Fin 2) * 256 + 1 * (y 0).val = (y 0).val; omega
  | ⟨1, _⟩ => show win16_6.index t (1 : Fin 2) * 1 + 1 * (y 1).val = (y 1).val; omega

theorem block7_whole (c : Dev nD) (t : Fin cfg16.N) :
    (iblk16 V c 7 t : Vec Ideal S1x1 .f32) = (V c (Pipeline.arrRef spec16 7) : S1x1.Idx → EReal) := by
  obtain ⟨-, -, -, -, -, -, -, ⟨e0, e1⟩, -⟩ := idx_zero t
  funext y
  show (V c (Pipeline.arrRef spec16 7) : S1x1.Idx → EReal) (((cfg16.win 7).blk t).view.emb y) = _
  refine congrArg (V c (Pipeline.arrRef spec16 7) : S1x1.Idx → EReal) (funext fun a => Fin.ext ?_)
  match a with
  | ⟨0, _⟩ => show win16_7.index t (0 : Fin 2) * 1 + 1 * (y 0).val = (y 0).val; omega
  | ⟨1, _⟩ => show win16_7.index t (1 : Fin 2) * 1 + 1 * (y 1).val = (y 1).val; omega

theorem outBlock_emb (t : Fin cfg16.N) (y : S512x1.Idx) : (((cfg16.win 8).blk t).view.emb y : S512x1.Idx) = y := by
  obtain ⟨-, -, -, -, -, -, -, -, e0, e1⟩ := idx_zero t
  refine funext fun a => Fin.ext ?_
  match a with
  | ⟨0, _⟩ => show win16_8.index t (0 : Fin 2) * 512 + 1 * (y 0).val = (y 0).val; omega
  | ⟨1, _⟩ => show win16_8.index t (1 : Fin 2) * 1 + 1 * (y 1).val = (y 1).val; omega

abbrev readout (c : Dev nD) : S512x1.Idx → EReal := fun i =>
  Cert.Spec.head (fun p j => V c (Pipeline.arrRef spec16 0) (ix2 p j)) (fun p j => V c (Pipeline.arrRef spec16 1) (ix2 p j))
    (fun j q => V c (Pipeline.arrRef spec16 2) (ix2 j q)) (fun q => V c (Pipeline.arrRef spec16 3) (ix2 0 q))
    (fun k q => V c (Pipeline.arrRef spec16 4) (ix2 k q)) (fun q => V c (Pipeline.arrRef spec16 5) (ix2 0 q))
    (fun k o => V c (Pipeline.arrRef spec16 6) (ix2 k o)) (fun o => V c (Pipeline.arrRef spec16 7) (ix2 0 o)) (i 0)

theorem writeback_eq (c : Dev nD) (t : Fin cfg16.N) :
    (dat16 (F := Ideal) V c).flushed 8 t = ((cfg16.win 8).blk t).view.read (Elt Ideal) (readout V c) := by
  show (cfg16.win 8).cut (grid16.coords t) ((dat16 (F := Ideal) V c).after 8 t) = _
  rw [after16_8]
  unfold out16_8
  rw [View.canon_unit_zero zeros2]
  simp only [View.ld_unit_zero (S := S512x128) zeros2, View.ld_unit_zero (S := S512x5) zeros2, View.ld_unit_zero (S := S133x256) zeros2,
    View.ld_unit_zero (S := S1x256) zeros2, View.ld_unit_zero (S := S256x256) zeros2, View.ld_unit_zero (S := S256x1) zeros2,
    View.ld_unit_zero (S := S1x1) zeros2]
  funext y
  show k16_pay1 (F := Ideal) (k16_pay2 (iblk16 V c 0 t) (iblk16 V c 1 t) (iblk16 V c 2 t) (iblk16 V c 3 t) (iblk16 V c 4 t) (iblk16 V c 5 t) (iblk16 V c 6 t))
      (k16_pay3 (iblk16 V c 7 t)) y = readout V c (((cfg16.win 8).blk t).view.emb y)
  exact stored_eq_head (iblk16 V c 0 t) (iblk16 V c 1 t) (iblk16 V c 2 t) (iblk16 V c 3 t) (iblk16 V c 4 t) (iblk16 V c 5 t) (iblk16 V c 6 t) (iblk16 V c 7 t)
    (V c (Pipeline.arrRef spec16 0)) (V c (Pipeline.arrRef spec16 1)) (V c (Pipeline.arrRef spec16 2)) (V c (Pipeline.arrRef spec16 3))
    (V c (Pipeline.arrRef spec16 4)) (V c (Pipeline.arrRef spec16 5)) (V c (Pipeline.arrRef spec16 6)) (V c (Pipeline.arrRef spec16 7))
    (block0_whole V c t) (block1_whole V c t) (block2_whole V c t) (block3_whole V c t) (block4_whole V c t) (block5_whole V c t) (block6_whole V c t) (block7_whole V c t)
    y (((cfg16.win 8).blk t).view.emb y) (outBlock_emb t y)

theorem mem_outBlock (t : Fin cfg16.N) (i : S512x1.Idx) :
    i ∈ ((cfg16.win 8).blk t).view.set ↔ ∀ a : Fin 2, win16_8.index t a * S512x1.size a ≤ (i a).val ∧ (i a).val < win16_8.index t a * S512x1.size a + S512x1.size a := by
  show i ∈ ((View.whole main_v322).slice (win16_8.rect t)).set ↔ _
  rw [View.set_slice_whole, Rect.mem_set_unit]
  exact Iff.rfl

theorem outBlock_covers (i : S512x1.Idx) : ∃ t : Fin cfg16.N, (cfg16.win 8).flush t = true ∧ i ∈ ((cfg16.win 8).blk t).view.set := by
  refine ⟨t16_0, flush16_8 t16_0, ?_⟩
  rw [mem_outBlock]
  obtain ⟨-, -, -, -, -, -, -, -, e0, e1⟩ := idx_zero t16_0
  intro a
  match a with
  | ⟨0, _⟩ =>
    show win16_8.index t16_0 (0 : Fin 2) * 512 ≤ (i 0).val ∧ (i 0).val < win16_8.index t16_0 (0 : Fin 2) * 512 + 512
    have h : (i 0).val < 512 := (i 0).isLt
    omega
  | ⟨1, _⟩ =>
    show win16_8.index t16_0 (1 : Fin 2) * 1 ≤ (i 1).val ∧ (i 1).val < win16_8.index t16_0 (1 : Fin 2) * 1 + 1
    have h : (i 1).val < 1 := (i 1).isLt
    omega

theorem out_array (c : Dev nD) : (dat16 (F := Ideal) V c).arrAt 8 cfg16.N = readout V c :=
  (dat16 (F := Ideal) V c).arrAt_eq_of_cover 8 (readout V c) (fun t _ => writeback_eq V c t) outBlock_covers

theorem out_eq (c : Dev nD) (p : Fin 512) :
    (dat16 (F := Ideal) V c).arrAt 8 cfg16.N (ix2 p 0)
      = Cert.Spec.head (fun p j => V c (Pipeline.arrRef spec16 0) (ix2 p j)) (fun p j => V c (Pipeline.arrRef spec16 1) (ix2 p j))
          (fun j q => V c (Pipeline.arrRef spec16 2) (ix2 j q)) (fun q => V c (Pipeline.arrRef spec16 3) (ix2 0 q))
          (fun k q => V c (Pipeline.arrRef spec16 4) (ix2 k q)) (fun q => V c (Pipeline.arrRef spec16 5) (ix2 0 q))
          (fun k o => V c (Pipeline.arrRef spec16 6) (ix2 k o)) (fun o => V c (Pipeline.arrRef spec16 7) (ix2 0 o)) p :=
  congrFun (out_array V c) (ix2 p 0)

end Array

end Cert.KernelIdeal.Region16

end
-- ==== Proof.KChainTail.lean ====
import proofs.«108002_j23673859736037_1_alg».proof.Proof.Gen.KernelIdeal.Frame
import proofs.«108002_j23673859736037_1_alg».proof.Proof.SpecHead
import proofs.«108002_j23673859736037_1_alg».proof.Proof.Agg
import proofs.«108002_j23673859736037_1_alg».proof.Proof.KTailAbs
import proofs.«108002_j23673859736037_1_alg».proof.Proof.Region16

set_option maxRecDepth 16384

noncomputable section

namespace Cert.KernelIdeal.Chain

open Idealize.ShloMosaic Idealize.ShloMosaic.TcCoe Idealize.ShloMosaic.ValueIdx
open Cert.KernelIdeal Cert.KernelIdeal.Gen Cert.Spec

variable (m : (ℓ : Loc nD τ sig) → Buf (Elt Ideal) ℓ) (ρ : Dev nD → PrngReg) (c : Dev nD)

theorem tail_out (p : Fin 512) :
    W34 m ρ c (Proc.devRef .tc main_v322) (ix2 p 0)
      = head (fun p j => Cert.Agg.poolK (W32 m ρ c (Proc.devRef .tc main_v315)) (W32 m ρ c (Proc.devRef .tc main_arg2)) (ix2 p j))
          (fun p j => W32 m ρ c (Proc.devRef .tc main_arg3) (ix2 p j)) (fun j q => W32 m ρ c (Proc.devRef .tc main_arg14) (ix2 j q))
          (fun q => W32 m ρ c (Proc.devRef .tc main_arg15) (ix1 q)) (fun k q => W32 m ρ c (Proc.devRef .tc main_arg16) (ix2 k q))
          (fun q => W32 m ρ c (Proc.devRef .tc main_arg17) (ix1 q)) (fun k o => W32 m ρ c (Proc.devRef .tc main_arg18) (ix2 k o))
          (fun o => W32 m ρ c (Proc.devRef .tc main_arg19) (ix1 o)) p :=
  tail_abs (W32 m ρ c) (W34 m ρ c)
    (fun p => (congrFun (W34_arr m ρ c 8) (ix2 p 0)).trans (Region16.out_eq (V33 m ρ) c p)) p

end Cert.KernelIdeal.Chain

end
-- ==== Proof.RefStages0.lean ====
import proofs.«108002_j23673859736037_1_alg».proof.Proof.RefOpsL0
import proofs.«108002_j23673859736037_1_alg».proof.Proof.Agg
import proofs.«108002_j23673859736037_1_alg».proof.Proof.Spec
import proofs.«108002_j23673859736037_1_alg».proof.Proof.LibRowOps
import Idealize.ShloMosaic.Lib.StableHlo.Run
import Idealize.ShloMosaic.Lib.ValueIdx
import Idealize.ShloMosaic.Lib.ValueLayout
import Idealize.ShloMosaic.Lib.Pipeline.Value

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun
open scoped BigOperators

section Slices
variable {α : Type}

theorem matSlice_apply (o : ℕ) (a : S4x128x128.Idx → α) (hs : S4x128x128.Slices ![o, 0, 0] S1x128x128)
    (hc : S1x128x128.ShapeCasts S128x128) (l : Fin 4) (hl : l.val = o) (k q : Fin 128) :
    shapeCast S128x128 (extractStridedSlice S1x128x128 ![o, 0, 0] a hs) hc (ix2 k q) = a (ix3 l k q) :=
  (shapeCast_1ab_ab_apply _ hc k q).trans
    (extractStridedSlice_apply _ a hs _ _ fun ax => by
      match ax with
      | ⟨0, _⟩ => exact hl.trans (Nat.add_zero o).symm
      | ⟨1, _⟩ => exact (Nat.zero_add _).symm
      | ⟨2, _⟩ => exact (Nat.zero_add _).symm)

theorem rowSlice_apply (o : ℕ) (a : S4x128.Idx → α) (hs : S4x128.Slices ![o, 0] S1x128) (hc : S1x128.ShapeCasts S128)
    (hb1 : S128.BroadcastsInDim S1x128 ![1]) (hb2 : S1x128.BroadcastsInDim S100000x128 ![0, 1])
    (l : Fin 4) (hl : l.val = o) (p : Fin 100000) (q : Fin 128) :
    broadcastInDim S100000x128 ![0, 1] hb2
        (broadcastInDim S1x128 ![1] hb1 (shapeCast S128 (extractStridedSlice S1x128 ![o, 0] a hs) hc)) (ix2 p q)
      = a (ix2 l q) :=
  (broadcastInDim_apply _ hb2 _ (ix2 p q) (ix2 (0 : Fin 1) q) fun ax => by
      match ax with
      | ⟨0, _⟩ => rfl
      | ⟨1, _⟩ => rfl).trans
    ((broadcastInDim_apply _ hb1 _ (ix2 (0 : Fin 1) q) (ix1 q) fun ax => by
        match ax with
        | ⟨0, _⟩ => rfl).trans
      ((shapeCast_1a_a_apply _ hc q).trans
        (slice2_axis0_apply o a hs (0 : Fin 1) q l (hl.trans (Nat.add_zero o).symm))))

end Slices

def linStage (o : ℕ) (hsW : S4x128x128.Slices ![o, 0, 0] S1x128x128) (hsb : S4x128.Slices ![o, 0] S1x128)
    (h : S100000x128.Idx → EReal) (W : S4x128x128.Idx → EReal) (b : S4x128.Idx → EReal) : S100000x128.Idx → EReal :=
  addf (F := Ideal) (φ := .f32)
    (Host.dotGeneral (F := Ideal) (φ₁ := .f32) (φ₂ := .f32) dot_S100000x128_S128x128_S100000x128_1_0_0_1_n_n none h
      (shapeCast S128x128 (extractStridedSlice S1x128x128 ![o, 0, 0] W hsW) shapeCasts_S1x128x128_S128x128))
    (broadcastInDim S100000x128 ![0, 1] bcast_S1x128_S100000x128_0_1
      (broadcastInDim S1x128 ![1] bcast_S128_S1x128_1
        (shapeCast S128 (extractStridedSlice S1x128 ![o, 0] b hsb) shapeCasts_S1x128_S128)))

theorem linStage_apply (o : ℕ) (hsW : S4x128x128.Slices ![o, 0, 0] S1x128x128) (hsb : S4x128.Slices ![o, 0] S1x128)
    (h : S100000x128.Idx → EReal) (W : S4x128x128.Idx → EReal) (b : S4x128.Idx → EReal)
    (l : Fin 4) (hl : l.val = o) (p : Fin 100000) (q : Fin 128) :
    linStage o hsW hsb h W b (ix2 p q) = lin (curA h) (curM3 W l) (curRow2 b l) p q := by
  unfold linStage
  rw [addf_apply, Cert.LibRowOps.dotGeneral_plain_apply dot_S100000x128_S128x128_S100000x128_1_0_0_1_n_n rfl,
    rowSlice_apply o b hsb _ _ _ l hl p q]
  refine congrArg (· + b (ix2 l q)) (Finset.sum_congr rfl fun k _ => ?_)
  rw [matSlice_apply o W hsW _ l hl k q]
  rfl

abbrev opsL0agg_W : List (Ref sig .tc) :=
  [main_v0, main_v1, main_v2, main_v3, main_c, main_v4, main_v5, main_c_0, main_v6, main_v7, main_v8,
   main_v9, main_v10, main_cst, main_v11, main_v12, main_v13]
theorem opsL0agg_writes :
    (opsL0agg : List (HloOp τ sig (Elt Ideal))).Forall fun op =>
      op.writes ⊆ (opsL0agg_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL0lin1_W : List (Ref sig .tc) :=
  [main_v14, main_v15, main_v16, main_v17, main_v18, main_v19, main_v20, main_v21, main_v22]
theorem opsL0lin1_writes :
    (opsL0lin1 : List (HloOp τ sig (Elt Ideal))).Forall fun op =>
      op.writes ⊆ (opsL0lin1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL0bn1_W : List (Ref sig .tc) :=
  [main_v23, main_v24, main_v25, main_v26, main_cst_1, main_v27, main_cst_2, main_v28, main_v29,
   main_c_3, main_call0.cst.ref, main_call0.v0.ref, main_call0.v1.ref, main_call0.cst_0.ref,
   main_call0.v2.ref, main_call0.v3.ref, main_call0.v4.ref, main_call0.v5.ref, main_call0.v6.ref,
   main_call0.v7.ref, main_call0.cst_1.ref, main_call0.v8.ref, main_call0.cst_2.ref, main_call0.v9.ref,
   main_call0.v10.ref, main_call0.v11.ref, main_call0.cst_3.ref, main_call0.v12.ref,
   main_call0.cst_4.ref, main_call0.call0.v0.ref, main_call0.call0.v1.ref, main_call0.call0.v2.ref,
   main_v31, main_v32, main_v33, main_cst_4, main_v34, main_v35, main_v36, main_v37, main_v38, main_v39,
   main_v40, main_v41, main_v42, main_v43, main_v44, main_v45, main_call1.cst.ref, main_call1.v0.ref,
   main_call1.v1.ref]
theorem opsL0bn1_writes :
    (opsL0bn1 : List (HloOp τ sig (Elt Ideal))).Forall fun op =>
      op.writes ⊆ (opsL0bn1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL0lin2_W : List (Ref sig .tc) :=
  [main_v47, main_v48, main_v49, main_v50, main_v51, main_v52, main_v53, main_v54]
theorem opsL0lin2_writes :
    (opsL0lin2 : List (HloOp τ sig (Elt Ideal))).Forall fun op =>
      op.writes ⊆ (opsL0lin2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL0bn2_W : List (Ref sig .tc) :=
  [main_v55, main_v56, main_v57, main_v58, main_cst_5, main_v59, main_cst_6, main_v60, main_v61,
   main_c_7, main_call2.cst.ref, main_call2.v0.ref, main_call2.v1.ref, main_call2.cst_0.ref,
   main_call2.v2.ref, main_call2.v3.ref, main_call2.v4.ref, main_call2.v5.ref, main_call2.v6.ref,
   main_call2.v7.ref, main_call2.cst_1.ref, main_call2.v8.ref, main_call2.cst_2.ref, main_call2.v9.ref,
   main_call2.v10.ref, main_call2.v11.ref, main_call2.cst_3.ref, main_call2.v12.ref,
   main_call2.cst_4.ref, main_call2.call0.v0.ref, main_call2.call0.v1.ref, main_call2.call0.v2.ref,
   main_v63, main_v64, main_v65, main_cst_8, main_v66, main_v67, main_v68, main_v69, main_v70, main_v71,
   main_v72, main_v73, main_v74, main_v75, main_v76, main_v77, main_call3.cst.ref, main_call3.v0.ref,
   main_call3.v1.ref]
theorem opsL0bn2_writes :
    (opsL0bn2 : List (HloOp τ sig (Elt Ideal))).Forall fun op =>
      op.writes ⊆ (opsL0bn2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL0bn3_W : List (Ref sig .tc) :=
  [main_v79, main_v80, main_v81, main_v82, main_cst_9, main_v83, main_cst_10, main_v84, main_v85,
   main_c_11, main_call4.cst.ref, main_call4.v0.ref, main_call4.v1.ref, main_call4.cst_0.ref,
   main_call4.v2.ref, main_call4.v3.ref, main_call4.v4.ref, main_call4.v5.ref, main_call4.v6.ref,
   main_call4.v7.ref, main_call4.cst_1.ref, main_call4.v8.ref, main_call4.cst_2.ref, main_call4.v9.ref,
   main_call4.v10.ref, main_call4.v11.ref, main_call4.cst_3.ref, main_call4.v12.ref,
   main_call4.cst_4.ref, main_call4.call0.v0.ref, main_call4.call0.v1.ref, main_call4.call0.v2.ref,
   main_v87, main_v88, main_v89, main_cst_12, main_v90, main_v91, main_v92, main_v93, main_v94,
   main_v95, main_v96, main_v97, main_v98, main_v99, main_v100, main_v101, main_call5.cst.ref,
   main_call5.v0.ref, main_call5.v1.ref]
theorem opsL0bn3_writes :
    (opsL0bn3 : List (HloOp τ sig (Elt Ideal))).Forall fun op =>
      op.writes ⊆ (opsL0bn3_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

variable (V : Valuation τ sig (Elt Ideal))

theorem L0agg_keep (r : Ref sig .tc) (h : r ∉ opsL0agg_W) : after opsL0agg V (r : DevRef τ sig) = V r :=
  after_of_writes_sub opsL0agg V opsL0agg_writes h
theorem L0agg_src : after opsL0agg V (main_v1 : DevRef τ sig) = Cert.Agg.srcR (V main_arg1) := by
  after_results; rfl

theorem L0agg_dst : after opsL0agg V (main_v3 : DevRef τ sig) = Cert.Agg.dstR (V main_arg1) := by
  after_results; rfl

theorem L0agg_out : after opsL0agg V (main_v13 : DevRef τ sig)
    = Cert.Agg.aggR (V main_arg0) (Cert.Agg.srcR (V main_arg1)) (Cert.Agg.dstR (V main_arg1)) := by
  after_results; rfl

theorem L0lin1_out : after opsL0lin1 V (main_v22 : DevRef τ sig)
    = linStage 0 slices_S4x128x128_S1x128x128_0_0_0 slices_S4x128_S1x128_0_0
        (addf (F := Ideal) (φ := .f32) (V main_arg0) (V main_v13)) (V main_arg4) (V main_arg5) := by
  after_results; rfl

theorem L0lin1_apply (p : Fin 100000) (q : Fin 128) :
    after opsL0lin1 V (main_v22 : DevRef τ sig) (ix2 p q)
      = lin (add (curA (V main_arg0)) (curA (V main_v13))) (curM3 (V main_arg4) 0) (curRow2 (V main_arg5) 0) p q :=
  (congrFun (L0lin1_out V) (ix2 p q)).trans (linStage_apply 0 _ _ _ _ _ 0 rfl p q)

theorem L0lin2_out : after opsL0lin2 V (main_v54 : DevRef τ sig)
    = linStage 0 slices_S4x128x128_S1x128x128_0_0_0 slices_S4x128_S1x128_0_0 (V main_v46) (V main_arg8) (V main_arg9) := by
  after_results; rfl

theorem L0lin2_apply (p : Fin 100000) (q : Fin 128) :
    after opsL0lin2 V (main_v54 : DevRef τ sig) (ix2 p q)
      = lin (curA (V main_v46)) (curM3 (V main_arg8) 0) (curRow2 (V main_arg9) 0) p q :=
  (congrFun (L0lin2_out V) (ix2 p q)).trans (linStage_apply 0 _ _ _ _ _ 0 rfl p q)

end Cert.RefRun.Layer
end
-- ==== Proof.SpecLaws.lean ====
import proofs.«108002_j23673859736037_1_alg».proof.Proof.Spec
import Mathlib.Tactic.Ring
import Mathlib.Tactic.FieldSimp
import Mathlib.Tactic.Positivity
import Mathlib.Analysis.SpecialFunctions.Pow.Real

noncomputable section

namespace Cert.Spec

open Idealize.ShloMosaic
open scoped BigOperators

theorem nn_eq : nn = ((100000 : ℝ) : EReal) := by
  simp [Ideal.ofBits, Ideal.ieee, -EReal.coe_mul]
  norm_num

namespace Laws

def epsR : ℝ := 10995116 * (2 ^ 40)⁻¹

theorem epsR_pos : 0 < epsR := by unfold epsR; positivity

theorem eps_eq : eps = (epsR : EReal) := by
  simp [Ideal.ofBits, Ideal.ieee, epsR, -EReal.coe_mul]

end Laws

namespace Laws

theorem coe_sum {ι : Type*} (s : Finset ι) (f : ι → ℝ) :
    (∑ i ∈ s, ((f i : ℝ) : EReal)) = ((∑ i ∈ s, f i : ℝ) : EReal) := by
  classical
  induction s using Finset.induction_on with
  | empty => simp
  | insert a s ha ih => rw [Finset.sum_insert ha, Finset.sum_insert ha, ih, EReal.coe_add]

theorem coe_max (x y : ℝ) : ((max x y : ℝ) : EReal) = max (x : EReal) (y : EReal) :=
  EReal.coe_strictMono.monotone.map_max

theorem div_nn (x : ℝ) : Ideal.div (x : EReal) nn = ((x / 100000 : ℝ) : EReal) := by
  rw [nn_eq, Ideal.div_coe (by norm_num), ← EReal.coe_mul, mul_one_div]

theorem rsqrt_pos {r : ℝ} (hr : 0 < r) : Ideal.rsqrt (r : EReal) = (((Real.sqrt r)⁻¹ : ℝ) : EReal) := by
  rw [Ideal.rsqrt_coe, if_neg (not_lt.mpr hr.le), if_neg hr.ne']

def mu (A : Fin 100000 → Fin 128 → ℝ) (q : Fin 128) : ℝ := (∑ p, A p q) / 100000

def vr (A : Fin 100000 → Fin 128 → ℝ) (q : Fin 128) : ℝ := (∑ p, (A p q - mu A q) * (A p q - mu A q)) / 100000

theorem vr_nonneg (A : Fin 100000 → Fin 128 → ℝ) (q : Fin 128) : 0 ≤ vr A q := by
  unfold vr
  exact div_nonneg (Finset.sum_nonneg fun p _ => mul_self_nonneg _) (by norm_num)

theorem var_id (A : Fin 100000 → Fin 128 → ℝ) (q : Fin 128) :
    (∑ p, A p q * A p q) / 100000 - mu A q * mu A q = vr A q := by
  have h : ∀ p, (A p q - mu A q) * (A p q - mu A q) = A p q * A p q - 2 * mu A q * A p q + mu A q * mu A q := by
    intro p; ring
  have hS : (∑ p, A p q) = 100000 * mu A q := by unfold mu; field_simp
  unfold vr
  simp_rw [h]
  rw [Finset.sum_add_distrib, Finset.sum_sub_distrib, ← Finset.mul_sum, Finset.sum_const, Finset.card_univ,
    Fintype.card_fin, hS, nsmul_eq_mul]
  push_cast
  field_simp
  ring

section Coe
variable (A : Fin 100000 → Fin 128 → ℝ) (G B : Fin 128 → ℝ)

def rho (q : Fin 128) : ℝ := (Real.sqrt (vr A q + epsR))⁻¹

theorem colsum_coe (q : Fin 128) : colsum (fun p q => ((A p q : ℝ) : EReal)) q = ((∑ p, A p q : ℝ) : EReal) := by
  unfold colsum; exact coe_sum _ _

theorem colsumsq_coe (q : Fin 128) :
    colsumsq (fun p q => ((A p q : ℝ) : EReal)) q = ((∑ p, A p q * A p q : ℝ) : EReal) := by
  unfold colsumsq; simp only [← EReal.coe_mul]; exact coe_sum _ _

theorem meanK_coe (q : Fin 128) :
    meanK (colsum (fun p q => ((A p q : ℝ) : EReal))) q = ((mu A q : ℝ) : EReal) := by
  unfold meanK; rw [colsum_coe, div_nn]; rfl

theorem meanR_coe (q : Fin 128) : meanR (fun p q => ((A p q : ℝ) : EReal)) q = ((mu A q : ℝ) : EReal) := by
  unfold meanR; rw [colsum_coe, div_nn]; rfl

theorem varK_coe (q : Fin 128) :
    varK (colsum (fun p q => ((A p q : ℝ) : EReal))) (colsumsq (fun p q => ((A p q : ℝ) : EReal))) q
      = ((vr A q : ℝ) : EReal) := by
  unfold varK
  rw [meanK_coe, colsumsq_coe, div_nn, ← EReal.coe_mul, ← EReal.coe_sub, var_id]

theorem varR_coe (q : Fin 128) : varR (fun p q => ((A p q : ℝ) : EReal)) q = ((vr A q : ℝ) : EReal) := by
  unfold varR
  simp only [meanR_coe, ← EReal.coe_sub, ← EReal.coe_mul]
  rw [coe_sum, div_nn]; rfl

theorem rsqrt_vr (q : Fin 128) : Ideal.rsqrt (((vr A q : ℝ) : EReal) + eps) = ((rho A q : ℝ) : EReal) := by
  rw [eps_eq, ← EReal.coe_add, rsqrt_pos (add_pos_of_nonneg_of_pos (vr_nonneg A q) epsR_pos)]; rfl

theorem bnK_coe (p : Fin 100000) (q : Fin 128) :
    bnK (fun p q => ((A p q : ℝ) : EReal)) (fun q => ((G q : ℝ) : EReal)) (fun q => ((B q : ℝ) : EReal)) p q
      = ((max (A p q * (G q * rho A q) + (B q - mu A q * (G q * rho A q))) 0 : ℝ) : EReal) := by
  unfold bnK affRelu shiftK scaleK
  simp only [varK_coe, meanK_coe, rsqrt_vr]
  simp only [coe_max, EReal.coe_zero, EReal.coe_add, EReal.coe_sub, EReal.coe_mul]

theorem bnR_coe (p : Fin 100000) (q : Fin 128) :
    bnR (fun p q => ((A p q : ℝ) : EReal)) (fun q => ((G q : ℝ) : EReal)) (fun q => ((B q : ℝ) : EReal)) p q
      = ((max ((A p q - mu A q) * rho A q * G q + B q) 0 : ℝ) : EReal) := by
  unfold bnR
  simp only [varR_coe, meanR_coe, rsqrt_vr]
  simp only [coe_max, EReal.coe_zero, EReal.coe_add, EReal.coe_sub, EReal.coe_mul]

end Coe

theorem realArr_exists {a : Arr} (ha : RealArr a) :
    ∃ A : Fin 100000 → Fin 128 → ℝ, a = fun p q => ((A p q : ℝ) : EReal) := by
  choose A hA using ha
  exact ⟨A, funext fun p => funext fun q => hA p q⟩

theorem realRow_exists {v : Row} (hv : RealRow v) : ∃ V : Fin 128 → ℝ, v = fun q => ((V q : ℝ) : EReal) := by
  choose V hV using hv
  exact ⟨V, funext fun q => hV q⟩

theorem realMat_exists {w : Mat} (hw : RealMat w) :
    ∃ W : Fin 128 → Fin 128 → ℝ, w = fun k q => ((W k q : ℝ) : EReal) := by
  choose W hW using hw
  exact ⟨W, funext fun k => funext fun q => hW k q⟩

end Laws

open Laws

theorem add_real {x y : Arr} (hx : RealArr x) (hy : RealArr y) : RealArr (add x y) := by
  intro p q
  obtain ⟨r, hr⟩ := hx p q
  obtain ⟨s, hs⟩ := hy p q
  exact ⟨r + s, by unfold add; rw [hr, hs, EReal.coe_add]⟩

theorem lin_real {h : Arr} {W : Mat} {b : Row} (hh : RealArr h) (hW : RealMat W) (hb : RealRow b) : RealArr (lin h W b) := by
  obtain ⟨H, rfl⟩ := realArr_exists hh
  obtain ⟨M, rfl⟩ := realMat_exists hW
  obtain ⟨V, rfl⟩ := realRow_exists hb
  intro p q
  refine ⟨(∑ k, H p k * M k q) + V q, ?_⟩
  unfold lin
  simp only [← EReal.coe_mul]
  rw [coe_sum, EReal.coe_add]

theorem bnR_real {a : Arr} {g be : Row} (ha : RealArr a) (hg : RealRow g) (hbe : RealRow be) : RealArr (bnR a g be) := by
  obtain ⟨A, rfl⟩ := realArr_exists ha
  obtain ⟨G, rfl⟩ := realRow_exists hg
  obtain ⟨B, rfl⟩ := realRow_exists hbe
  intro p q
  exact ⟨_, bnR_coe A G B p q⟩

theorem bn_law {a : Arr} {g be : Row} (ha : RealArr a) (hg : RealRow g) (hbe : RealRow be) : bnK a g be = bnR a g be := by
  obtain ⟨A, rfl⟩ := realArr_exists ha
  obtain ⟨G, rfl⟩ := realRow_exists hg
  obtain ⟨B, rfl⟩ := realRow_exists hbe
  funext p q
  rw [bnK_coe, bnR_coe]
  congr 2
  ring

theorem layer_law {x agg : Arr} {W1 W2 : Mat} {b1 g1 be1 b2 g2 be2 g3 be3 : Row}
    (hx : RealArr x) (hagg : RealArr agg) (hW1 : RealMat W1) (hb1 : RealRow b1) (hg1 : RealRow g1) (hbe1 : RealRow be1)
    (hW2 : RealMat W2) (hb2 : RealRow b2) (hg2 : RealRow g2) (hbe2 : RealRow be2) (hg3 : RealRow g3) (hbe3 : RealRow be3) :
    layerK x agg W1 b1 g1 be1 W2 b2 g2 be2 g3 be3 = layerR x agg W1 b1 g1 be1 W2 b2 g2 be2 g3 be3
      ∧ RealArr (layerR x agg W1 b1 g1 be1 W2 b2 g2 be2 g3 be3) := by
  have h0 : RealArr (lin (add x agg) W1 b1) := lin_real (add_real hx hagg) hW1 hb1
  have h1 : RealArr (bnR (lin (add x agg) W1 b1) g1 be1) := bnR_real h0 hg1 hbe1
  have h2 : RealArr (lin (bnR (lin (add x agg) W1 b1) g1 be1) W2 b2) := lin_real h1 hW2 hb2
  have h3 : RealArr (bnR (lin (bnR (lin (add x agg) W1 b1) g1 be1) W2 b2) g2 be2) := bnR_real h2 hg2 hbe2
  refine ⟨?_, bnR_real h3 hg3 hbe3⟩
  unfold layerK layerR
  rw [bn_law h0 hg1 hbe1, bn_law h2 hg2 hbe2, bn_law h3 hg3 hbe3]

end Cert.Spec

end
-- ==== Proof.RefBnTerm.lean ====
import proofs.«108002_j23673859736037_1_alg».proof.Proof.Gen.ReferenceIdeal
import proofs.«108002_j23673859736037_1_alg».proof.Proof.Spec
import proofs.«108002_j23673859736037_1_alg».proof.Proof.SpecLaws
import Idealize.ShloMosaic.Lib.ValueIdx
import Idealize.ShloMosaic.Lib.ValueLayout
import Idealize.ShloMosaic.Lib.Pipeline.Value
import Idealize.ShloMosaic.PureOps.Ideal.Laws

noncomputable section

namespace Cert.RefRun.Bn

open Cert.ReferenceIdeal Cert.ReferenceIdeal.Gen Idealize.ShloMosaic Idealize.ShloMosaic.ValueIdx
open scoped BigOperators

abbrev A := FVec Ideal S100000x128 .f32
abbrev R := FVec Ideal S128 .f32

def colSumT (h : A) : R :=
  Host.reduceAdd (F := Ideal) h (constant (F := Ideal) S_ .f32 0x00000000#32) reducesTo_S100000x128_S128_d0 h_S_

def meanT (h : A) : R :=
  Host.divf (F := Ideal) (colSumT h) (broadcastInDim S128 ![] bcast_S_S128 (constant (F := Ideal) S_ .f32 0x47C35000#32))

def meanKeepT (h : A) : FVec Ideal S1x128 .f32 :=
  Host.divf (F := Ideal) (broadcastInDim S1x128 ![1] bcast_S128_S1x128_1 (colSumT h))
    (broadcastInDim S1x128 ![] bcast_S_S1x128 (constant (F := Ideal) S_ .f32 0x47C35000#32))

def centT (h : A) : A :=
  subf h (broadcastInDim S100000x128 ![0, 1] bcast_S1x128_S100000x128_0_1 (meanKeepT h))

def divisorT : FVec Ideal S_ .f32 :=
  subf (constant (F := Ideal) S_ .f32 0x47C35000#32) (sitofp .f32 (constantI S_ 32 0#32))

def varT (h : A) : R :=
  select (broadcastInDim S128 ![] bcast_S_S128 (cmpf .ogt divisorT (constant (F := Ideal) S_ .f32 0x00000000#32)))
    (Host.divf (F := Ideal)
      (Host.reduceAdd (F := Ideal) (mulf (centT h) (centT h)) (constant (F := Ideal) S_ .f32 0x00000000#32)
        reducesTo_S100000x128_S128_d0 h_S_)
      (broadcastInDim S128 ![] bcast_S_S128 divisorT))
    (broadcastInDim S128 ![] bcast_S_S128 (id (constant (F := Ideal) S_ .f32 0x7FC00000#32)))

def downT (v : R) : A :=
  broadcastInDim S100000x128 ![0, 1] bcast_S1x128_S100000x128_0_1 (broadcastInDim S1x128 ![1] bcast_S128_S1x128_1 v)

def bnT (h : A) (g be : R) : A :=
  maximumf
    (addf (mulf (mulf (subf h (downT (meanT h)))
        (downT (Host.rsqrt (F := Ideal) (addf (varT h) (broadcastInDim S128 ![] bcast_S_S128 (constant (F := Ideal) S_ .f32 0x3727C5AC#32))))))
        (downT g)) (downT be))
    (broadcastInDim S100000x128 ![] bcast_S_S100000x128 (constant (F := Ideal) S_ .f32 0x00000000#32))

theorem lift_eq (hr : S100000x128.Reduces [0] S128) (q : Fin 128) (p : Fin 100000) :
    hr.lift (ix1 q) p = ix2 p q :=
  funext fun a => by
    match a with
    | ⟨0, _⟩ => exact Fin.ext rfl
    | ⟨1, _⟩ => exact Fin.ext rfl

theorem sumDown_apply (x : A) (q : Fin 128) :
    Host.reduceAdd (F := Ideal) x (constant (F := Ideal) S_ .f32 0x00000000#32) reducesTo_S100000x128_S128_d0 h_S_ (ix1 q)
      = ∑ p : Fin 100000, x (ix2 p q) := by
  have hr : S100000x128.Reduces [0] S128 := by decide
  unfold Host.reduceAdd
  rw [Ideal.hostReduceAdd_def, Ideal.hostReduceAdd_single reducesTo_S100000x128_S128_d0 hr, constant_apply,
    Ideal.ofBits_zero_f32, zero_add]
  exact Finset.sum_congr rfl fun p _ => congrArg x (lift_eq hr q p)

theorem colSumT_apply (h : A) (q : Fin 128) : colSumT h (ix1 q) = ∑ p : Fin 100000, h (ix2 p q) :=
  sumDown_apply h q

theorem bcastS128_const (b : BitVec 32) (j : S128.Idx) :
    broadcastInDim S128 ![] bcast_S_S128 (constant (F := Ideal) S_ .f32 b) j = Ideal.ofBits .f32 b := rfl

theorem downT_apply (v : R) (p : Fin 100000) (q : Fin 128) : downT v (ix2 p q) = v (ix1 q) := by
  unfold downT
  refine (broadcastInDim_apply _ bcast_S1x128_S100000x128_0_1 _ (ix2 p q) (ix2 0 q) fun a => ?_).trans
    (broadcastInDim_apply _ bcast_S128_S1x128_1 v (ix2 0 q) (ix1 q) fun a => ?_)
  · match a with
    | ⟨0, _⟩ => rfl
    | ⟨1, _⟩ => rfl
  · match a with
    | ⟨0, _⟩ => rfl

theorem meanT_apply (h : A) (q : Fin 128) :
    meanT h (ix1 q) = Cert.Spec.meanR (Cert.Spec.curA h) q := by
  unfold meanT Host.divf
  rw [Ideal.hostDivf_def, colSumT_apply]
  rfl

theorem meanKeepT_apply (h : A) (q : Fin 128) :
    meanKeepT h (ix2 0 q) = Cert.Spec.meanR (Cert.Spec.curA h) q := by
  unfold meanKeepT Host.divf
  rw [Ideal.hostDivf_def,
    broadcastInDim_apply _ bcast_S128_S1x128_1 (colSumT h) (ix2 0 q) (ix1 q) (fun a => by match a with | ⟨0, _⟩ => rfl),
    colSumT_apply]
  rfl

theorem centT_apply (h : A) (p : Fin 100000) (q : Fin 128) :
    centT h (ix2 p q) = h (ix2 p q) - Cert.Spec.meanR (Cert.Spec.curA h) q := by
  unfold centT
  rw [subf_apply,
    broadcastInDim_apply _ bcast_S1x128_S100000x128_0_1 (meanKeepT h) (ix2 p q) (ix2 0 q)
      (fun a => by match a with | ⟨0, _⟩ => rfl | ⟨1, _⟩ => rfl),
    meanKeepT_apply]

theorem divisorT_apply (k : S_.Idx) : divisorT k = Cert.Spec.nn := by
  unfold divisorT
  rw [subf_apply, constant_apply, sitofp_apply, constantI_apply]
  show Cert.Spec.nn - (((0#32 : BitVec 32).toInt : ℝ) : EReal) = Cert.Spec.nn
  rw [show (0#32 : BitVec 32).toInt = 0 from rfl, Int.cast_zero, EReal.coe_zero, sub_zero]

theorem guard_true (j : S128.Idx) :
    broadcastInDim S128 ![] bcast_S_S128 (cmpf .ogt divisorT (constant (F := Ideal) S_ .f32 0x00000000#32)) j = 1#1 := by
  show FloatOps.cmpf (F := Ideal) .ogt (divisorT _) (Ideal.ofBits .f32 0x00000000#32) = 1#1
  rw [divisorT_apply, Ideal.ofBits_zero_f32, Ideal.cmpf_def]
  show BitVec.ofBool (decide ((0 : EReal) < Cert.Spec.nn)) = 1#1
  rw [Cert.Spec.nn_eq, decide_eq_true (by exact_mod_cast (by norm_num : (0 : ℝ) < 100000))]
  rfl

theorem varT_apply (h : A) (q : Fin 128) : varT h (ix1 q) = Cert.Spec.varR (Cert.Spec.curA h) q := by
  unfold varT
  rw [select_apply, guard_true, select_one]
  unfold Host.divf
  rw [Ideal.hostDivf_def, sumDown_apply]
  simp only [mulf_apply, centT_apply]
  show Ideal.div _ (divisorT _) = _
  rw [divisorT_apply]
  rfl

theorem row_apply (a : FVec Ideal S4x128 .f32) (o : ℕ) (hs : S4x128.Slices ![o, 0] S1x128) (l : Fin 4) (hl : l.val = o)
    (q : Fin 128) :
    shapeCast S128 (extractStridedSlice S1x128 ![o, 0] a hs) shapeCasts_S1x128_S128 (ix1 q) = Cert.Spec.curRow2 a l q :=
  (shapeCast_1a_a_apply _ shapeCasts_S1x128_S128 q).trans (slice2_axis0_apply o a hs 0 q l (by rw [hl]; rfl))

theorem bnT_apply (h : A) (g be : R) (G B : Cert.Spec.Row) (hg : ∀ q, g (ix1 q) = G q) (hb : ∀ q, be (ix1 q) = B q)
    (p : Fin 100000) (q : Fin 128) :
    bnT h g be (ix2 p q) = Cert.Spec.bnR (Cert.Spec.curA h) G B p q := by
  unfold bnT
  rw [maximumf_apply, addf_apply, mulf_apply, mulf_apply, subf_apply, downT_apply, downT_apply, downT_apply,
    downT_apply, meanT_apply, hg, hb]
  simp only [Host.rsqrt, Ideal.hostUnary_rsqrt_def]
  rw [addf_apply, varT_apply, bcastS128_const]
  show max _ (Ideal.ofBits .f32 0x00000000#32) = _
  rw [Ideal.ofBits_zero_f32]
  rfl

end Cert.RefRun.Bn

end
-- ==== Proof.RefBn.lean ====
import proofs.«108002_j23673859736037_1_alg».proof.Proof.RefOpsL0
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in

theorem L0bn1_term (V : Valuation τ sig (Elt Ideal)) :
    StableHlo.after (opsL0bn1 (F := Ideal)) V (main_v46 : DevRef τ sig)
      = bnT (V (main_v22 : DevRef τ sig))
          (shapeCast S128 (extractStridedSlice S1x128 ![0, 0] (V (main_arg6 : DevRef τ sig)) slices_S4x128_S1x128_0_0) shapeCasts_S1x128_S128)
          (shapeCast S128 (extractStridedSlice S1x128 ![0, 0] (V (main_arg7 : DevRef τ sig)) slices_S4x128_S1x128_0_0) shapeCasts_S1x128_S128) := by
  after_results_simp
  rfl

theorem L0bn1_apply (V : Valuation τ sig (Elt Ideal)) (p : Fin 100000) (q : Fin 128) :
    StableHlo.after (opsL0bn1 (F := Ideal)) V (main_v46 : DevRef τ sig) (ix2 p q)
      = Cert.Spec.bnR (Cert.Spec.curA (V (main_v22 : DevRef τ sig)))
          (Cert.Spec.curRow2 (V (main_arg6 : DevRef τ sig)) 0)
          (Cert.Spec.curRow2 (V (main_arg7 : DevRef τ sig)) 0) p q := by
  rw [L0bn1_term]
  exact bnT_apply _ _ _ _ _ (fun q => row_apply _ 0 slices_S4x128_S1x128_0_0 0 rfl q)
    (fun q => row_apply _ 0 slices_S4x128_S1x128_0_0 0 rfl q) p q

end Cert.RefRun.Bn

end
-- ==== Proof.RefBn_L0bn2.lean ====
/-
  The normalisation stage opsL0bn2 (layer 0, normalisation 2 of the layer) read at an index.

  The stage's operations, folded over the buffer contents, leave at the output buffer the term `bnT` of the input
  buffer and of row 0 of the two stacked parameter buffers (each row cut out and flattened): the fold is a computation.
  The term read at `(p, q)` is the textbook normalisation (`bnT_apply`).
-/
import proofs.«108002_j23673859736037_1_alg».proof.Proof.RefOpsL0
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L0bn2_term (V : Valuation τ sig (Elt Ideal)) :
    StableHlo.after (opsL0bn2 (F := Ideal)) V (main_v78 : DevRef τ sig)
      = bnT (V (main_v54 : DevRef τ sig))
          (shapeCast S128 (extractStridedSlice S1x128 ![0, 0] (V (main_arg10 : DevRef τ sig)) slices_S4x128_S1x128_0_0) shapeCasts_S1x128_S128)
          (shapeCast S128 (extractStridedSlice S1x128 ![0, 0] (V (main_arg11 : DevRef τ sig)) slices_S4x128_S1x128_0_0) shapeCasts_S1x128_S128) := by
  after_results_simp
  rfl

/-- The stage read at `(p, q)`: the textbook normalisation of the input buffer with row 0 of the two parameter
    buffers, and the rectifier. -/
theorem L0bn2_apply (V : Valuation τ sig (Elt Ideal)) (p : Fin 100000) (q : Fin 128) :
    StableHlo.after (opsL0bn2 (F := Ideal)) V (main_v78 : DevRef τ sig) (ix2 p q)
      = Cert.Spec.bnR (Cert.Spec.curA (V (main_v54 : DevRef τ sig)))
          (Cert.Spec.curRow2 (V (main_arg10 : DevRef τ sig)) 0)
          (Cert.Spec.curRow2 (V (main_arg11 : DevRef τ sig)) 0) p q := by
  rw [L0bn2_term]
  exact bnT_apply _ _ _ _ _ (fun q => row_apply _ 0 slices_S4x128_S1x128_0_0 0 rfl q)
    (fun q => row_apply _ 0 slices_S4x128_S1x128_0_0 0 rfl q) p q

end Cert.RefRun.Bn

end
-- ==== Proof.RefBn_L0bn3.lean ====
/-
  The normalisation stage opsL0bn3 (layer 0, normalisation 3 of the layer) read at an index.

  The stage's operations, folded over the buffer contents, leave at the output buffer the term `bnT` of the input
  buffer and of row 0 of the two stacked parameter buffers (each row cut out and flattened): the fold is a computation.
  The term read at `(p, q)` is the textbook normalisation (`bnT_apply`).
-/
import proofs.«108002_j23673859736037_1_alg».proof.Proof.RefOpsL0
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L0bn3_term (V : Valuation τ sig (Elt Ideal)) :
    StableHlo.after (opsL0bn3 (F := Ideal)) V (main_v102 : DevRef τ sig)
      = bnT (V (main_v78 : DevRef τ sig))
          (shapeCast S128 (extractStridedSlice S1x128 ![0, 0] (V (main_arg12 : DevRef τ sig)) slices_S4x128_S1x128_0_0) shapeCasts_S1x128_S128)
          (shapeCast S128 (extractStridedSlice S1x128 ![0, 0] (V (main_arg13 : DevRef τ sig)) slices_S4x128_S1x128_0_0) shapeCasts_S1x128_S128) := by
  after_results_simp
  rfl

/-- The stage read at `(p, q)`: the textbook normalisation of the input buffer with row 0 of the two parameter
    buffers, and the rectifier. -/
theorem L0bn3_apply (V : Valuation τ sig (Elt Ideal)) (p : Fin 100000) (q : Fin 128) :
    StableHlo.after (opsL0bn3 (F := Ideal)) V (main_v102 : DevRef τ sig) (ix2 p q)
      = Cert.Spec.bnR (Cert.Spec.curA (V (main_v78 : DevRef τ sig)))
          (Cert.Spec.curRow2 (V (main_arg12 : DevRef τ sig)) 0)
          (Cert.Spec.curRow2 (V (main_arg13 : DevRef τ sig)) 0) p q := by
  rw [L0bn3_term]
  exact bnT_apply _ _ _ _ _ (fun q => row_apply _ 0 slices_S4x128_S1x128_0_0 0 rfl q)
    (fun q => row_apply _ 0 slices_S4x128_S1x128_0_0 0 rfl q) p q

end Cert.RefRun.Bn

end
-- ==== Proof.RefLayer0.lean ====
import proofs.«108002_j23673859736037_1_alg».proof.Proof.RefStages0
import proofs.«108002_j23673859736037_1_alg».proof.Proof.ChainDefs
import proofs.«108002_j23673859736037_1_alg».proof.Proof.RefBn
import proofs.«108002_j23673859736037_1_alg».proof.Proof.RefBn_L0bn2
import proofs.«108002_j23673859736037_1_alg».proof.Proof.RefBn_L0bn3
import Idealize.ShloMosaic.Lib.Pipeline.Frame

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun Cert.Chain

abbrev argRefs : List (Ref sig .tc) :=
  [main_arg0, main_arg1, main_arg2, main_arg3, main_arg4, main_arg5, main_arg6, main_arg7, main_arg8, main_arg9,
   main_arg10, main_arg11, main_arg12, main_arg13, main_arg14, main_arg15, main_arg16, main_arg17, main_arg18, main_arg19]

theorem writes_append {l₁ l₂ : List (HloOp τ sig (Elt Ideal))} {W₁ W₂ : List (Ref sig .tc)}
    (h₁ : l₁.Forall fun op => op.writes ⊆ (W₁.map (Proc.devRef (τ := τ) .tc)).toFinset)
    (h₂ : l₂.Forall fun op => op.writes ⊆ (W₂.map (Proc.devRef (τ := τ) .tc)).toFinset) :
    (l₁ ++ l₂).Forall fun op => op.writes ⊆ ((W₁ ++ W₂).map (Proc.devRef (τ := τ) .tc)).toFinset := by
  rw [List.forall_iff_forall_mem] at h₁ h₂ ⊢
  intro op hop x hx
  rw [List.mem_toFinset, List.map_append, List.mem_append]
  rcases List.mem_append.mp hop with h | h
  · exact Or.inl (List.mem_toFinset.mp (h₁ op h hx))
  · exact Or.inr (List.mem_toFinset.mp (h₂ op h hx))

theorem after_append_keep {l₁ l₂ : List (HloOp τ sig (Elt Ideal))} {W₂ : List (Ref sig .tc)}
    (h₂ : l₂.Forall fun op => op.writes ⊆ (W₂.map (Proc.devRef (τ := τ) .tc)).toFinset)
    (V : Valuation τ sig (Elt Ideal)) (r : Ref sig .tc) (h : r ∉ W₂) :
    after (l₁ ++ l₂) V (r : DevRef τ sig) = after l₁ V r := by
  rw [after_append]; exact after_of_writes_sub l₂ _ h₂ h

abbrev preL0_2 : List (HloOp τ sig (Elt Ideal)) := opsL0agg ++ opsL0lin1
abbrev preL0_3 : List (HloOp τ sig (Elt Ideal)) := preL0_2 ++ opsL0bn1
abbrev preL0_4 : List (HloOp τ sig (Elt Ideal)) := preL0_3 ++ opsL0lin2
abbrev preL0_5 : List (HloOp τ sig (Elt Ideal)) := preL0_4 ++ opsL0bn2
abbrev preL0_2_W : List (Ref sig .tc) := opsL0agg_W ++ opsL0lin1_W
abbrev preL0_3_W : List (Ref sig .tc) := preL0_2_W ++ opsL0bn1_W
abbrev preL0_4_W : List (Ref sig .tc) := preL0_3_W ++ opsL0lin2_W
abbrev preL0_5_W : List (Ref sig .tc) := preL0_4_W ++ opsL0bn2_W

abbrev opsL0_W : List (Ref sig .tc) := preL0_5_W ++ opsL0bn3_W

variable (V : Valuation τ sig (Elt Ideal))

theorem preL0_2_keep (r : Ref sig .tc) (h : r ∉ preL0_2_W) : after preL0_2 V (r : DevRef τ sig) = V r :=
  after_of_writes_sub preL0_2 V (writes_append opsL0agg_writes opsL0lin1_writes) h
theorem preL0_3_keep (r : Ref sig .tc) (h : r ∉ preL0_3_W) : after preL0_3 V (r : DevRef τ sig) = V r :=
  after_of_writes_sub preL0_3 V (writes_append (writes_append opsL0agg_writes opsL0lin1_writes) opsL0bn1_writes) h
theorem preL0_4_keep (r : Ref sig .tc) (h : r ∉ preL0_4_W) : after preL0_4 V (r : DevRef τ sig) = V r :=
  after_of_writes_sub preL0_4 V
    (writes_append (writes_append (writes_append opsL0agg_writes opsL0lin1_writes) opsL0bn1_writes) opsL0lin2_writes) h
theorem preL0_5_keep (r : Ref sig .tc) (h : r ∉ preL0_5_W) : after preL0_5 V (r : DevRef τ sig) = V r :=
  after_of_writes_sub preL0_5 V
    (writes_append (writes_append (writes_append (writes_append opsL0agg_writes opsL0lin1_writes) opsL0bn1_writes)
      opsL0lin2_writes) opsL0bn2_writes) h

theorem layer0_keepW (r : Ref sig .tc) (h : r ∉ opsL0_W) : after opsL0 V (r : DevRef τ sig) = V r :=
  after_of_writes_sub opsL0 V
    (writes_append (writes_append (writes_append (writes_append (writes_append opsL0agg_writes opsL0lin1_writes)
      opsL0bn1_writes) opsL0lin2_writes) opsL0bn2_writes) opsL0bn3_writes) h

theorem argRefs_not_written_L0 : ∀ r ∈ argRefs, r ∉ opsL0_W := by decide

theorem layer0_arg (r : Ref sig .tc) (h : r ∈ argRefs) : after opsL0 V (r : DevRef τ sig) = V r :=
  layer0_keepW V r (argRefs_not_written_L0 r h)

def L0_m1 : Arr :=
  lin (add (curA (V main_arg0))
      (curA (Cert.Agg.aggR (V main_arg0) (Cert.Agg.srcR (V main_arg1)) (Cert.Agg.dstR (V main_arg1)))))
    (curM3 (V main_arg4) (0 : Fin 4)) (curRow2 (V main_arg5) (0 : Fin 4))

def L0_m2 : Arr := bnR (L0_m1 V) (curRow2 (V main_arg6) (0 : Fin 4)) (curRow2 (V main_arg7) (0 : Fin 4))

def L0_m3 : Arr := lin (L0_m2 V) (curM3 (V main_arg8) (0 : Fin 4)) (curRow2 (V main_arg9) (0 : Fin 4))

def L0_m4 : Arr := bnR (L0_m3 V) (curRow2 (V main_arg10) (0 : Fin 4)) (curRow2 (V main_arg11) (0 : Fin 4))

def L0_m5 : Arr := bnR (L0_m4 V) (curRow2 (V main_arg12) (0 : Fin 4)) (curRow2 (V main_arg13) (0 : Fin 4))

theorem L0_st2 : curA (after preL0_2 V (main_v22 : DevRef τ sig)) = L0_m1 V := by
  funext p q
  show after (opsL0agg ++ opsL0lin1) V (main_v22 : DevRef τ sig) (ix2 p q) = _
  rw [after_append, L0lin1_apply, L0agg_keep V main_arg0 (by decide), L0agg_out, L0agg_keep V main_arg4 (by decide),
    L0agg_keep V main_arg5 (by decide)]
  rfl

theorem L0_st3 : curA (after preL0_3 V (main_v46 : DevRef τ sig)) = L0_m2 V := by
  funext p q
  show after (preL0_2 ++ opsL0bn1) V (main_v46 : DevRef τ sig) (ix2 p q) = _
  rw [after_append, Cert.RefRun.Bn.L0bn1_apply, L0_st2, preL0_2_keep V main_arg6 (by decide),
    preL0_2_keep V main_arg7 (by decide)]
  rfl

theorem L0_st4 : curA (after preL0_4 V (main_v54 : DevRef τ sig)) = L0_m3 V := by
  funext p q
  show after (preL0_3 ++ opsL0lin2) V (main_v54 : DevRef τ sig) (ix2 p q) = _
  rw [after_append, L0lin2_apply, L0_st3, preL0_3_keep V main_arg8 (by decide), preL0_3_keep V main_arg9 (by decide)]
  rfl

theorem L0_st5 : curA (after preL0_5 V (main_v78 : DevRef τ sig)) = L0_m4 V := by
  funext p q
  show after (preL0_4 ++ opsL0bn2) V (main_v78 : DevRef τ sig) (ix2 p q) = _
  rw [after_append, Cert.RefRun.Bn.L0bn2_apply, L0_st4, preL0_4_keep V main_arg10 (by decide),
    preL0_4_keep V main_arg11 (by decide)]
  rfl

theorem L0_st6 : curA (after opsL0 V (main_v102 : DevRef τ sig)) = L0_m5 V := by
  funext p q
  show after (preL0_5 ++ opsL0bn3) V (main_v102 : DevRef τ sig) (ix2 p q) = _
  rw [after_append, Cert.RefRun.Bn.L0bn3_apply, L0_st5, preL0_5_keep V main_arg12 (by decide),
    preL0_5_keep V main_arg13 (by decide)]
  rfl

theorem layer0_src : after opsL0 V (main_v1 : DevRef τ sig) = Cert.Agg.srcR (V main_arg1) :=
  (after_append_keep opsL0bn3_writes V main_v1 (by decide)).trans
    ((after_append_keep opsL0bn2_writes V main_v1 (by decide)).trans
      ((after_append_keep opsL0lin2_writes V main_v1 (by decide)).trans
        ((after_append_keep opsL0bn1_writes V main_v1 (by decide)).trans
          ((after_append_keep opsL0lin1_writes V main_v1 (by decide)).trans (L0agg_src V)))))

theorem layer0_dst : after opsL0 V (main_v3 : DevRef τ sig) = Cert.Agg.dstR (V main_arg1) :=
  (after_append_keep opsL0bn3_writes V main_v3 (by decide)).trans
    ((after_append_keep opsL0bn2_writes V main_v3 (by decide)).trans
      ((after_append_keep opsL0lin2_writes V main_v3 (by decide)).trans
        ((after_append_keep opsL0bn1_writes V main_v3 (by decide)).trans
          ((after_append_keep opsL0lin1_writes V main_v3 (by decide)).trans (L0agg_dst V)))))

theorem layer0_x : after opsL0 V (main_v102 : DevRef τ sig)
    = stepR (fun X => Cert.Agg.aggR X (Cert.Agg.srcR (V main_arg1)) (Cert.Agg.dstR (V main_arg1)))
        (paramsOf (V main_arg4) (V main_arg5) (V main_arg6) (V main_arg7) (V main_arg8) (V main_arg9)
          (V main_arg10) (V main_arg11) (V main_arg12) (V main_arg13)) 0 (V main_arg0) :=
  (uncA_curA _).symm.trans (congrArg uncA (L0_st6 V))

end Cert.RefRun.Layer

end
-- ==== Proof.RefStages1.lean ====
import proofs.«108002_j23673859736037_1_alg».proof.Proof.RefOpsL1
import proofs.«108002_j23673859736037_1_alg».proof.Proof.RefStages0

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun

abbrev opsL1agg_W : List (Ref sig .tc) :=
  [main_c_13, main_v103, main_v104, main_c_14, main_v105, main_v106, main_v107, main_v108, main_v109,
   main_cst_15, main_v110, main_v111, main_v112]
theorem opsL1agg_writes :
    (opsL1agg : List (HloOp τ sig (Elt Ideal))).Forall fun op =>
      op.writes ⊆ (opsL1agg_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL1lin1_W : List (Ref sig .tc) :=
  [main_v113, main_v114, main_v115, main_v116, main_v117, main_v118, main_v119, main_v120, main_v121]
theorem opsL1lin1_writes :
    (opsL1lin1 : List (HloOp τ sig (Elt Ideal))).Forall fun op =>
      op.writes ⊆ (opsL1lin1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL1bn1_W : List (Ref sig .tc) :=
  [main_v122, main_v123, main_v124, main_v125, main_cst_16, main_v126, main_cst_17, main_v127,
   main_v128, main_c_18, main_call6.cst.ref, main_call6.v0.ref, main_call6.v1.ref, main_call6.cst_0.ref,
   main_call6.v2.ref, main_call6.v3.ref, main_call6.v4.ref, main_call6.v5.ref, main_call6.v6.ref,
   main_call6.v7.ref, main_call6.cst_1.ref, main_call6.v8.ref, main_call6.cst_2.ref, main_call6.v9.ref,
   main_call6.v10.ref, main_call6.v11.ref, main_call6.cst_3.ref, main_call6.v12.ref,
   main_call6.cst_4.ref, main_call6.call0.v0.ref, main_call6.call0.v1.ref, main_call6.call0.v2.ref,
   main_v130, main_v131, main_v132, main_cst_19, main_v133, main_v134, main_v135, main_v136, main_v137,
   main_v138, main_v139, main_v140, main_v141, main_v142, main_v143, main_v144, main_call7.cst.ref,
   main_call7.v0.ref, main_call7.v1.ref]
theorem opsL1bn1_writes :
    (opsL1bn1 : List (HloOp τ sig (Elt Ideal))).Forall fun op =>
      op.writes ⊆ (opsL1bn1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL1lin2_W : List (Ref sig .tc) :=
  [main_v146, main_v147, main_v148, main_v149, main_v150, main_v151, main_v152, main_v153]
theorem opsL1lin2_writes :
    (opsL1lin2 : List (HloOp τ sig (Elt Ideal))).Forall fun op =>
      op.writes ⊆ (opsL1lin2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL1bn2_W : List (Ref sig .tc) :=
  [main_v154, main_v155, main_v156, main_v157, main_cst_20, main_v158, main_cst_21, main_v159,
   main_v160, main_c_22, main_call8.cst.ref, main_call8.v0.ref, main_call8.v1.ref, main_call8.cst_0.ref,
   main_call8.v2.ref, main_call8.v3.ref, main_call8.v4.ref, main_call8.v5.ref, main_call8.v6.ref,
   main_call8.v7.ref, main_call8.cst_1.ref, main_call8.v8.ref, main_call8.cst_2.ref, main_call8.v9.ref,
   main_call8.v10.ref, main_call8.v11.ref, main_call8.cst_3.ref, main_call8.v12.ref,
   main_call8.cst_4.ref, main_call8.call0.v0.ref, main_call8.call0.v1.ref, main_call8.call0.v2.ref,
   main_v162, main_v163, main_v164, main_cst_23, main_v165, main_v166, main_v167, main_v168, main_v169,
   main_v170, main_v171, main_v172, main_v173, main_v174, main_v175, main_v176, main_call9.cst.ref,
   main_call9.v0.ref, main_call9.v1.ref]
theorem opsL1bn2_writes :
    (opsL1bn2 : List (HloOp τ sig (Elt Ideal))).Forall fun op =>
      op.writes ⊆ (opsL1bn2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL1bn3_W : List (Ref sig .tc) :=
  [main_v178, main_v179, main_v180, main_v181, main_cst_24, main_v182, main_cst_25, main_v183,
   main_v184, main_c_26, main_call10.cst.ref, main_call10.v0.ref, main_call10.v1.ref,
   main_call10.cst_0.ref, main_call10.v2.ref, main_call10.v3.ref, main_call10.v4.ref,
   main_call10.v5.ref, main_call10.v6.ref, main_call10.v7.ref, main_call10.cst_1.ref,
   main_call10.v8.ref, main_call10.cst_2.ref, main_call10.v9.ref, main_call10.v10.ref,
   main_call10.v11.ref, main_call10.cst_3.ref, main_call10.v12.ref, main_call10.cst_4.ref,
   main_call10.call0.v0.ref, main_call10.call0.v1.ref, main_call10.call0.v2.ref, main_v186, main_v187,
   main_v188, main_cst_27, main_v189, main_v190, main_v191, main_v192, main_v193, main_v194, main_v195,
   main_v196, main_v197, main_v198, main_v199, main_v200, main_call11.cst.ref, main_call11.v0.ref,
   main_call11.v1.ref]
theorem opsL1bn3_writes :
    (opsL1bn3 : List (HloOp τ sig (Elt Ideal))).Forall fun op =>
      op.writes ⊆ (opsL1bn3_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

variable (V : Valuation τ sig (Elt Ideal))

theorem L1agg_keep (r : Ref sig .tc) (h : r ∉ opsL1agg_W) : after opsL1agg V (r : DevRef τ sig) = V r :=
  after_of_writes_sub opsL1agg V opsL1agg_writes h
theorem L1agg_out : after opsL1agg V (main_v112 : DevRef τ sig)
    = Cert.Agg.aggR (V main_v102) (V main_v1) (V main_v3) := by
  after_results; rfl

theorem L1lin1_out : after opsL1lin1 V (main_v121 : DevRef τ sig)
    = linStage (1 : ℕ) slices_S4x128x128_S1x128x128_1_0_0 slices_S4x128_S1x128_1_0
        (addf (F := Ideal) (φ := .f32) (V main_v102) (V main_v112)) (V main_arg4) (V main_arg5) := by
  after_results; rfl

theorem L1lin1_apply (p : Fin 100000) (q : Fin 128) :
    after opsL1lin1 V (main_v121 : DevRef τ sig) (ix2 p q)
      = lin (add (curA (V main_v102)) (curA (V main_v112))) (curM3 (V main_arg4) (1 : Fin 4))
          (curRow2 (V main_arg5) (1 : Fin 4)) p q :=
  (congrFun (L1lin1_out V) (ix2 p q)).trans (linStage_apply (1 : ℕ) _ _ _ _ _ (1 : Fin 4) rfl p q)

theorem L1lin2_out : after opsL1lin2 V (main_v153 : DevRef τ sig)
    = linStage (1 : ℕ) slices_S4x128x128_S1x128x128_1_0_0 slices_S4x128_S1x128_1_0 (V main_v145) (V main_arg8)
        (V main_arg9) := by
  after_results; rfl

theorem L1lin2_apply (p : Fin 100000) (q : Fin 128) :
    after opsL1lin2 V (main_v153 : DevRef τ sig) (ix2 p q)
      = lin (curA (V main_v145)) (curM3 (V main_arg8) (1 : Fin 4)) (curRow2 (V main_arg9) (1 : Fin 4)) p q :=
  (congrFun (L1lin2_out V) (ix2 p q)).trans (linStage_apply (1 : ℕ) _ _ _ _ _ (1 : Fin 4) rfl p q)

end Cert.RefRun.Layer

end
-- ==== Proof.RefBn_L1bn1.lean ====
/-
  The normalisation stage opsL1bn1 (layer 1, normalisation 1 of the layer) read at an index.

  The stage's operations, folded over the buffer contents, leave at the output buffer the term `bnT` of the input
  buffer and of row 1 of the two stacked parameter buffers (each row cut out and flattened): the fold is a computation.
  The term read at `(p, q)` is the textbook normalisation (`bnT_apply`).
-/
import proofs.«108002_j23673859736037_1_alg».proof.Proof.RefOpsL1
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L1bn1_term (V : Valuation τ sig (Elt Ideal)) :
    StableHlo.after (opsL1bn1 (F := Ideal)) V (main_v145 : DevRef τ sig)
      = bnT (V (main_v121 : DevRef τ sig))
          (shapeCast S128 (extractStridedSlice S1x128 ![1, 0] (V (main_arg6 : DevRef τ sig)) slices_S4x128_S1x128_1_0) shapeCasts_S1x128_S128)
          (shapeCast S128 (extractStridedSlice S1x128 ![1, 0] (V (main_arg7 : DevRef τ sig)) slices_S4x128_S1x128_1_0) shapeCasts_S1x128_S128) := by
  after_results_simp
  rfl

/-- The stage read at `(p, q)`: the textbook normalisation of the input buffer with row 1 of the two parameter
    buffers, and the rectifier. -/
theorem L1bn1_apply (V : Valuation τ sig (Elt Ideal)) (p : Fin 100000) (q : Fin 128) :
    StableHlo.after (opsL1bn1 (F := Ideal)) V (main_v145 : DevRef τ sig) (ix2 p q)
      = Cert.Spec.bnR (Cert.Spec.curA (V (main_v121 : DevRef τ sig)))
          (Cert.Spec.curRow2 (V (main_arg6 : DevRef τ sig)) 1)
          (Cert.Spec.curRow2 (V (main_arg7 : DevRef τ sig)) 1) p q := by
  rw [L1bn1_term]
  exact bnT_apply _ _ _ _ _ (fun q => row_apply _ 1 slices_S4x128_S1x128_1_0 1 rfl q)
    (fun q => row_apply _ 1 slices_S4x128_S1x128_1_0 1 rfl q) p q

end Cert.RefRun.Bn

end
-- ==== Proof.RefBn_L1bn2.lean ====
/-
  The normalisation stage opsL1bn2 (layer 1, normalisation 2 of the layer) read at an index.

  The stage's operations, folded over the buffer contents, leave at the output buffer the term `bnT` of the input
  buffer and of row 1 of the two stacked parameter buffers (each row cut out and flattened): the fold is a computation.
  The term read at `(p, q)` is the textbook normalisation (`bnT_apply`).
-/
import proofs.«108002_j23673859736037_1_alg».proof.Proof.RefOpsL1
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L1bn2_term (V : Valuation τ sig (Elt Ideal)) :
    StableHlo.after (opsL1bn2 (F := Ideal)) V (main_v177 : DevRef τ sig)
      = bnT (V (main_v153 : DevRef τ sig))
          (shapeCast S128 (extractStridedSlice S1x128 ![1, 0] (V (main_arg10 : DevRef τ sig)) slices_S4x128_S1x128_1_0) shapeCasts_S1x128_S128)
          (shapeCast S128 (extractStridedSlice S1x128 ![1, 0] (V (main_arg11 : DevRef τ sig)) slices_S4x128_S1x128_1_0) shapeCasts_S1x128_S128) := by
  after_results_simp
  rfl

/-- The stage read at `(p, q)`: the textbook normalisation of the input buffer with row 1 of the two parameter
    buffers, and the rectifier. -/
theorem L1bn2_apply (V : Valuation τ sig (Elt Ideal)) (p : Fin 100000) (q : Fin 128) :
    StableHlo.after (opsL1bn2 (F := Ideal)) V (main_v177 : DevRef τ sig) (ix2 p q)
      = Cert.Spec.bnR (Cert.Spec.curA (V (main_v153 : DevRef τ sig)))
          (Cert.Spec.curRow2 (V (main_arg10 : DevRef τ sig)) 1)
          (Cert.Spec.curRow2 (V (main_arg11 : DevRef τ sig)) 1) p q := by
  rw [L1bn2_term]
  exact bnT_apply _ _ _ _ _ (fun q => row_apply _ 1 slices_S4x128_S1x128_1_0 1 rfl q)
    (fun q => row_apply _ 1 slices_S4x128_S1x128_1_0 1 rfl q) p q

end Cert.RefRun.Bn

end
-- ==== Proof.RefBn_L1bn3.lean ====
/-
  The normalisation stage opsL1bn3 (layer 1, normalisation 3 of the layer) read at an index.

  The stage's operations, folded over the buffer contents, leave at the output buffer the term `bnT` of the input
  buffer and of row 1 of the two stacked parameter buffers (each row cut out and flattened): the fold is a computation.
  The term read at `(p, q)` is the textbook normalisation (`bnT_apply`).
-/
import proofs.«108002_j23673859736037_1_alg».proof.Proof.RefOpsL1
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L1bn3_term (V : Valuation τ sig (Elt Ideal)) :
    StableHlo.after (opsL1bn3 (F := Ideal)) V (main_v201 : DevRef τ sig)
      = bnT (V (main_v177 : DevRef τ sig))
          (shapeCast S128 (extractStridedSlice S1x128 ![1, 0] (V (main_arg12 : DevRef τ sig)) slices_S4x128_S1x128_1_0) shapeCasts_S1x128_S128)
          (shapeCast S128 (extractStridedSlice S1x128 ![1, 0] (V (main_arg13 : DevRef τ sig)) slices_S4x128_S1x128_1_0) shapeCasts_S1x128_S128) := by
  after_results_simp
  rfl

/-- The stage read at `(p, q)`: the textbook normalisation of the input buffer with row 1 of the two parameter
    buffers, and the rectifier. -/
theorem L1bn3_apply (V : Valuation τ sig (Elt Ideal)) (p : Fin 100000) (q : Fin 128) :
    StableHlo.after (opsL1bn3 (F := Ideal)) V (main_v201 : DevRef τ sig) (ix2 p q)
      = Cert.Spec.bnR (Cert.Spec.curA (V (main_v177 : DevRef τ sig)))
          (Cert.Spec.curRow2 (V (main_arg12 : DevRef τ sig)) 1)
          (Cert.Spec.curRow2 (V (main_arg13 : DevRef τ sig)) 1) p q := by
  rw [L1bn3_term]
  exact bnT_apply _ _ _ _ _ (fun q => row_apply _ 1 slices_S4x128_S1x128_1_0 1 rfl q)
    (fun q => row_apply _ 1 slices_S4x128_S1x128_1_0 1 rfl q) p q

end Cert.RefRun.Bn

end
-- ==== Proof.RefLayer1.lean ====
import proofs.«108002_j23673859736037_1_alg».proof.Proof.RefStages1
import proofs.«108002_j23673859736037_1_alg».proof.Proof.RefLayer0
import proofs.«108002_j23673859736037_1_alg».proof.Proof.RefBn_L1bn1
import proofs.«108002_j23673859736037_1_alg».proof.Proof.RefBn_L1bn2
import proofs.«108002_j23673859736037_1_alg».proof.Proof.RefBn_L1bn3

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun Cert.Chain

abbrev preL1_2 : List (HloOp τ sig (Elt Ideal)) := opsL1agg ++ opsL1lin1
abbrev preL1_3 : List (HloOp τ sig (Elt Ideal)) := preL1_2 ++ opsL1bn1
abbrev preL1_4 : List (HloOp τ sig (Elt Ideal)) := preL1_3 ++ opsL1lin2
abbrev preL1_5 : List (HloOp τ sig (Elt Ideal)) := preL1_4 ++ opsL1bn2
abbrev preL1_2_W : List (Ref sig .tc) := opsL1agg_W ++ opsL1lin1_W
abbrev preL1_3_W : List (Ref sig .tc) := preL1_2_W ++ opsL1bn1_W
abbrev preL1_4_W : List (Ref sig .tc) := preL1_3_W ++ opsL1lin2_W
abbrev preL1_5_W : List (Ref sig .tc) := preL1_4_W ++ opsL1bn2_W

abbrev opsL1_W : List (Ref sig .tc) := preL1_5_W ++ opsL1bn3_W

variable (V : Valuation τ sig (Elt Ideal))

theorem preL1_2_keep (r : Ref sig .tc) (h : r ∉ preL1_2_W) : after preL1_2 V (r : DevRef τ sig) = V r :=
  after_of_writes_sub preL1_2 V (writes_append opsL1agg_writes opsL1lin1_writes) h
theorem preL1_3_keep (r : Ref sig .tc) (h : r ∉ preL1_3_W) : after preL1_3 V (r : DevRef τ sig) = V r :=
  after_of_writes_sub preL1_3 V (writes_append (writes_append opsL1agg_writes opsL1lin1_writes) opsL1bn1_writes) h
theorem preL1_4_keep (r : Ref sig .tc) (h : r ∉ preL1_4_W) : after preL1_4 V (r : DevRef τ sig) = V r :=
  after_of_writes_sub preL1_4 V
    (writes_append (writes_append (writes_append opsL1agg_writes opsL1lin1_writes) opsL1bn1_writes) opsL1lin2_writes) h
theorem preL1_5_keep (r : Ref sig .tc) (h : r ∉ preL1_5_W) : after preL1_5 V (r : DevRef τ sig) = V r :=
  after_of_writes_sub preL1_5 V
    (writes_append (writes_append (writes_append (writes_append opsL1agg_writes opsL1lin1_writes) opsL1bn1_writes)
      opsL1lin2_writes) opsL1bn2_writes) h

theorem layer1_keepW (r : Ref sig .tc) (h : r ∉ opsL1_W) : after opsL1 V (r : DevRef τ sig) = V r :=
  after_of_writes_sub opsL1 V
    (writes_append (writes_append (writes_append (writes_append (writes_append opsL1agg_writes opsL1lin1_writes)
      opsL1bn1_writes) opsL1lin2_writes) opsL1bn2_writes) opsL1bn3_writes) h

theorem keepRefs_not_written_L1 : ∀ r ∈ main_v1 :: main_v3 :: argRefs, r ∉ opsL1_W := by decide

theorem layer1_keep (r : Ref sig .tc) (h : r ∈ main_v1 :: main_v3 :: argRefs) :
    after opsL1 V (r : DevRef τ sig) = V r :=
  layer1_keepW V r (keepRefs_not_written_L1 r h)

def L1_m1 : Arr :=
  lin (add (curA (V main_v102)) (curA (Cert.Agg.aggR (V main_v102) (V main_v1) (V main_v3))))
    (curM3 (V main_arg4) (1 : Fin 4)) (curRow2 (V main_arg5) (1 : Fin 4))

def L1_m2 : Arr := bnR (L1_m1 V) (curRow2 (V main_arg6) (1 : Fin 4)) (curRow2 (V main_arg7) (1 : Fin 4))

def L1_m3 : Arr := lin (L1_m2 V) (curM3 (V main_arg8) (1 : Fin 4)) (curRow2 (V main_arg9) (1 : Fin 4))

def L1_m4 : Arr := bnR (L1_m3 V) (curRow2 (V main_arg10) (1 : Fin 4)) (curRow2 (V main_arg11) (1 : Fin 4))

def L1_m5 : Arr := bnR (L1_m4 V) (curRow2 (V main_arg12) (1 : Fin 4)) (curRow2 (V main_arg13) (1 : Fin 4))

theorem L1_st2 : curA (after preL1_2 V (main_v121 : DevRef τ sig)) = L1_m1 V := by
  funext p q
  show after (opsL1agg ++ opsL1lin1) V (main_v121 : DevRef τ sig) (ix2 p q) = _
  rw [after_append, L1lin1_apply, L1agg_keep V main_v102 (by decide), L1agg_out, L1agg_keep V main_arg4 (by decide),
    L1agg_keep V main_arg5 (by decide)]
  rfl

theorem L1_st3 : curA (after preL1_3 V (main_v145 : DevRef τ sig)) = L1_m2 V := by
  funext p q
  show after (preL1_2 ++ opsL1bn1) V (main_v145 : DevRef τ sig) (ix2 p q) = _
  rw [after_append, Cert.RefRun.Bn.L1bn1_apply, L1_st2, preL1_2_keep V main_arg6 (by decide),
    preL1_2_keep V main_arg7 (by decide)]
  rfl

theorem L1_st4 : curA (after preL1_4 V (main_v153 : DevRef τ sig)) = L1_m3 V := by
  funext p q
  show after (preL1_3 ++ opsL1lin2) V (main_v153 : DevRef τ sig) (ix2 p q) = _
  rw [after_append, L1lin2_apply, L1_st3, preL1_3_keep V main_arg8 (by decide), preL1_3_keep V main_arg9 (by decide)]
  rfl

theorem L1_st5 : curA (after preL1_5 V (main_v177 : DevRef τ sig)) = L1_m4 V := by
  funext p q
  show after (preL1_4 ++ opsL1bn2) V (main_v177 : DevRef τ sig) (ix2 p q) = _
  rw [after_append, Cert.RefRun.Bn.L1bn2_apply, L1_st4, preL1_4_keep V main_arg10 (by decide),
    preL1_4_keep V main_arg11 (by decide)]
  rfl

theorem L1_st6 : curA (after opsL1 V (main_v201 : DevRef τ sig)) = L1_m5 V := by
  funext p q
  show after (preL1_5 ++ opsL1bn3) V (main_v201 : DevRef τ sig) (ix2 p q) = _
  rw [after_append, Cert.RefRun.Bn.L1bn3_apply, L1_st5, preL1_5_keep V main_arg12 (by decide),
    preL1_5_keep V main_arg13 (by decide)]
  rfl

theorem layer1_x : after opsL1 V (main_v201 : DevRef τ sig)
    = stepR (fun X => Cert.Agg.aggR X (V main_v1) (V main_v3))
        (paramsOf (V main_arg4) (V main_arg5) (V main_arg6) (V main_arg7) (V main_arg8) (V main_arg9)
          (V main_arg10) (V main_arg11) (V main_arg12) (V main_arg13)) (1 : Fin 4) (V main_v102) :=
  (uncA_curA _).symm.trans (congrArg uncA (L1_st6 V))

end Cert.RefRun.Layer

end
-- ==== Proof.RefStages2.lean ====
import proofs.«108002_j23673859736037_1_alg».proof.Proof.RefOpsL2
import proofs.«108002_j23673859736037_1_alg».proof.Proof.RefStages0

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun

abbrev opsL2agg_W : List (Ref sig .tc) :=
  [main_c_28, main_v202, main_v203, main_c_29, main_v204, main_v205, main_v206, main_v207, main_v208,
   main_cst_30, main_v209, main_v210, main_v211]
theorem opsL2agg_writes :
    (opsL2agg : List (HloOp τ sig (Elt Ideal))).Forall fun op =>
      op.writes ⊆ (opsL2agg_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL2lin1_W : List (Ref sig .tc) :=
  [main_v212, main_v213, main_v214, main_v215, main_v216, main_v217, main_v218, main_v219, main_v220]
theorem opsL2lin1_writes :
    (opsL2lin1 : List (HloOp τ sig (Elt Ideal))).Forall fun op =>
      op.writes ⊆ (opsL2lin1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL2bn1_W : List (Ref sig .tc) :=
  [main_v221, main_v222, main_v223, main_v224, main_cst_31, main_v225, main_cst_32, main_v226,
   main_v227, main_c_33, main_call12.cst.ref, main_call12.v0.ref, main_call12.v1.ref, main_call12.cst_0.ref,
   main_call12.v2.ref, main_call12.v3.ref, main_call12.v4.ref, main_call12.v5.ref, main_call12.v6.ref,
   main_call12.v7.ref, main_call12.cst_1.ref, main_call12.v8.ref, main_call12.cst_2.ref, main_call12.v9.ref,
   main_call12.v10.ref, main_call12.v11.ref, main_call12.cst_3.ref, main_call12.v12.ref,
   main_call12.cst_4.ref, main_call12.call0.v0.ref, main_call12.call0.v1.ref, main_call12.call0.v2.ref,
   main_v229, main_v230, main_v231, main_cst_34, main_v232, main_v233, main_v234, main_v235, main_v236,
   main_v237, main_v238, main_v239, main_v240, main_v241, main_v242, main_v243, main_call13.cst.ref,
   main_call13.v0.ref, main_call13.v1.ref]
theorem opsL2bn1_writes :
    (opsL2bn1 : List (HloOp τ sig (Elt Ideal))).Forall fun op =>
      op.writes ⊆ (opsL2bn1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL2lin2_W : List (Ref sig .tc) :=
  [main_v245, main_v246, main_v247, main_v248, main_v249, main_v250, main_v251, main_v252]
theorem opsL2lin2_writes :
    (opsL2lin2 : List (HloOp τ sig (Elt Ideal))).Forall fun op =>
      op.writes ⊆ (opsL2lin2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL2bn2_W : List (Ref sig .tc) :=
  [main_v253, main_v254, main_v255, main_v256, main_cst_35, main_v257, main_cst_36, main_v258,
   main_v259, main_c_37, main_call14.cst.ref, main_call14.v0.ref, main_call14.v1.ref, main_call14.cst_0.ref,
   main_call14.v2.ref, main_call14.v3.ref, main_call14.v4.ref, main_call14.v5.ref, main_call14.v6.ref,
   main_call14.v7.ref, main_call14.cst_1.ref, main_call14.v8.ref, main_call14.cst_2.ref, main_call14.v9.ref,
   main_call14.v10.ref, main_call14.v11.ref, main_call14.cst_3.ref, main_call14.v12.ref,
   main_call14.cst_4.ref, main_call14.call0.v0.ref, main_call14.call0.v1.ref, main_call14.call0.v2.ref,
   main_v261, main_v262, main_v263, main_cst_38, main_v264, main_v265, main_v266, main_v267, main_v268,
   main_v269, main_v270, main_v271, main_v272, main_v273, main_v274, main_v275, main_call15.cst.ref,
   main_call15.v0.ref, main_call15.v1.ref]
theorem opsL2bn2_writes :
    (opsL2bn2 : List (HloOp τ sig (Elt Ideal))).Forall fun op =>
      op.writes ⊆ (opsL2bn2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL2bn3_W : List (Ref sig .tc) :=
  [main_v277, main_v278, main_v279, main_v280, main_cst_39, main_v281, main_cst_40, main_v282,
   main_v283, main_c_41, main_call16.cst.ref, main_call16.v0.ref, main_call16.v1.ref,
   main_call16.cst_0.ref, main_call16.v2.ref, main_call16.v3.ref, main_call16.v4.ref,
   main_call16.v5.ref, main_call16.v6.ref, main_call16.v7.ref, main_call16.cst_1.ref,
   main_call16.v8.ref, main_call16.cst_2.ref, main_call16.v9.ref, main_call16.v10.ref,
   main_call16.v11.ref, main_call16.cst_3.ref, main_call16.v12.ref, main_call16.cst_4.ref,
   main_call16.call0.v0.ref, main_call16.call0.v1.ref, main_call16.call0.v2.ref, main_v285, main_v286,
   main_v287, main_cst_42, main_v288, main_v289, main_v290, main_v291, main_v292, main_v293, main_v294,
   main_v295, main_v296, main_v297, main_v298, main_v299, main_call17.cst.ref, main_call17.v0.ref,
   main_call17.v1.ref]
theorem opsL2bn3_writes :
    (opsL2bn3 : List (HloOp τ sig (Elt Ideal))).Forall fun op =>
      op.writes ⊆ (opsL2bn3_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

variable (V : Valuation τ sig (Elt Ideal))

theorem L2agg_keep (r : Ref sig .tc) (h : r ∉ opsL2agg_W) : after opsL2agg V (r : DevRef τ sig) = V r :=
  after_of_writes_sub opsL2agg V opsL2agg_writes h
theorem L2agg_out : after opsL2agg V (main_v211 : DevRef τ sig)
    = Cert.Agg.aggR (V main_v201) (V main_v1) (V main_v3) := by
  after_results; rfl

theorem L2lin1_out : after opsL2lin1 V (main_v220 : DevRef τ sig)
    = linStage (2 : ℕ) slices_S4x128x128_S1x128x128_2_0_0 slices_S4x128_S1x128_2_0
        (addf (F := Ideal) (φ := .f32) (V main_v201) (V main_v211)) (V main_arg4) (V main_arg5) := by
  after_results; rfl

theorem L2lin1_apply (p : Fin 100000) (q : Fin 128) :
    after opsL2lin1 V (main_v220 : DevRef τ sig) (ix2 p q)
      = lin (add (curA (V main_v201)) (curA (V main_v211))) (curM3 (V main_arg4) (2 : Fin 4))
          (curRow2 (V main_arg5) (2 : Fin 4)) p q :=
  (congrFun (L2lin1_out V) (ix2 p q)).trans (linStage_apply (2 : ℕ) _ _ _ _ _ (2 : Fin 4) rfl p q)

theorem L2lin2_out : after opsL2lin2 V (main_v252 : DevRef τ sig)
    = linStage (2 : ℕ) slices_S4x128x128_S1x128x128_2_0_0 slices_S4x128_S1x128_2_0 (V main_v244) (V main_arg8)
        (V main_arg9) := by
  after_results; rfl

theorem L2lin2_apply (p : Fin 100000) (q : Fin 128) :
    after opsL2lin2 V (main_v252 : DevRef τ sig) (ix2 p q)
      = lin (curA (V main_v244)) (curM3 (V main_arg8) (2 : Fin 4)) (curRow2 (V main_arg9) (2 : Fin 4)) p q :=
  (congrFun (L2lin2_out V) (ix2 p q)).trans (linStage_apply (2 : ℕ) _ _ _ _ _ (2 : Fin 4) rfl p q)

end Cert.RefRun.Layer

end
-- ==== Proof.RefBn_L2bn1.lean ====
/-
  The normalisation stage opsL2bn1 (layer 2, normalisation 1 of the layer) read at an index.

  The stage's operations, folded over the buffer contents, leave at the output buffer the term `bnT` of the input
  buffer and of row 2 of the two stacked parameter buffers (each row cut out and flattened): the fold is a computation.
  The term read at `(p, q)` is the textbook normalisation (`bnT_apply`).
-/
import proofs.«108002_j23673859736037_1_alg».proof.Proof.RefOpsL2
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L2bn1_term (V : Valuation τ sig (Elt Ideal)) :
    StableHlo.after (opsL2bn1 (F := Ideal)) V (main_v244 : DevRef τ sig)
      = bnT (V (main_v220 : DevRef τ sig))
          (shapeCast S128 (extractStridedSlice S1x128 ![2, 0] (V (main_arg6 : DevRef τ sig)) slices_S4x128_S1x128_2_0) shapeCasts_S1x128_S128)
          (shapeCast S128 (extractStridedSlice S1x128 ![2, 0] (V (main_arg7 : DevRef τ sig)) slices_S4x128_S1x128_2_0) shapeCasts_S1x128_S128) := by
  after_results_simp
  rfl

/-- The stage read at `(p, q)`: the textbook normalisation of the input buffer with row 2 of the two parameter
    buffers, and the rectifier. -/
theorem L2bn1_apply (V : Valuation τ sig (Elt Ideal)) (p : Fin 100000) (q : Fin 128) :
    StableHlo.after (opsL2bn1 (F := Ideal)) V (main_v244 : DevRef τ sig) (ix2 p q)
      = Cert.Spec.bnR (Cert.Spec.curA (V (main_v220 : DevRef τ sig)))
          (Cert.Spec.curRow2 (V (main_arg6 : DevRef τ sig)) 2)
          (Cert.Spec.curRow2 (V (main_arg7 : DevRef τ sig)) 2) p q := by
  rw [L2bn1_term]
  exact bnT_apply _ _ _ _ _ (fun q => row_apply _ 2 slices_S4x128_S1x128_2_0 2 rfl q)
    (fun q => row_apply _ 2 slices_S4x128_S1x128_2_0 2 rfl q) p q

end Cert.RefRun.Bn

end
-- ==== Proof.RefBn_L2bn2.lean ====
/-
  The normalisation stage opsL2bn2 (layer 2, normalisation 2 of the layer) read at an index.

  The stage's operations, folded over the buffer contents, leave at the output buffer the term `bnT` of the input
  buffer and of row 2 of the two stacked parameter buffers (each row cut out and flattened): the fold is a computation.
  The term read at `(p, q)` is the textbook normalisation (`bnT_apply`).
-/
import proofs.«108002_j23673859736037_1_alg».proof.Proof.RefOpsL2
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L2bn2_term (V : Valuation τ sig (Elt Ideal)) :
    StableHlo.after (opsL2bn2 (F := Ideal)) V (main_v276 : DevRef τ sig)
      = bnT (V (main_v252 : DevRef τ sig))
          (shapeCast S128 (extractStridedSlice S1x128 ![2, 0] (V (main_arg10 : DevRef τ sig)) slices_S4x128_S1x128_2_0) shapeCasts_S1x128_S128)
          (shapeCast S128 (extractStridedSlice S1x128 ![2, 0] (V (main_arg11 : DevRef τ sig)) slices_S4x128_S1x128_2_0) shapeCasts_S1x128_S128) := by
  after_results_simp
  rfl

/-- The stage read at `(p, q)`: the textbook normalisation of the input buffer with row 2 of the two parameter
    buffers, and the rectifier. -/
theorem L2bn2_apply (V : Valuation τ sig (Elt Ideal)) (p : Fin 100000) (q : Fin 128) :
    StableHlo.after (opsL2bn2 (F := Ideal)) V (main_v276 : DevRef τ sig) (ix2 p q)
      = Cert.Spec.bnR (Cert.Spec.curA (V (main_v252 : DevRef τ sig)))
          (Cert.Spec.curRow2 (V (main_arg10 : DevRef τ sig)) 2)
          (Cert.Spec.curRow2 (V (main_arg11 : DevRef τ sig)) 2) p q := by
  rw [L2bn2_term]
  exact bnT_apply _ _ _ _ _ (fun q => row_apply _ 2 slices_S4x128_S1x128_2_0 2 rfl q)
    (fun q => row_apply _ 2 slices_S4x128_S1x128_2_0 2 rfl q) p q

end Cert.RefRun.Bn

end
-- ==== Proof.RefBn_L2bn3.lean ====
/-
  The normalisation stage opsL2bn3 (layer 2, normalisation 3 of the layer) read at an index.

  The stage's operations, folded over the buffer contents, leave at the output buffer the term `bnT` of the input
  buffer and of row 2 of the two stacked parameter buffers (each row cut out and flattened): the fold is a computation.
  The term read at `(p, q)` is the textbook normalisation (`bnT_apply`).
-/
import proofs.«108002_j23673859736037_1_alg».proof.Proof.RefOpsL2
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L2bn3_term (V : Valuation τ sig (Elt Ideal)) :
    StableHlo.after (opsL2bn3 (F := Ideal)) V (main_v300 : DevRef τ sig)
      = bnT (V (main_v276 : DevRef τ sig))
          (shapeCast S128 (extractStridedSlice S1x128 ![2, 0] (V (main_arg12 : DevRef τ sig)) slices_S4x128_S1x128_2_0) shapeCasts_S1x128_S128)
          (shapeCast S128 (extractStridedSlice S1x128 ![2, 0] (V (main_arg13 : DevRef τ sig)) slices_S4x128_S1x128_2_0) shapeCasts_S1x128_S128) := by
  after_results_simp
  rfl

/-- The stage read at `(p, q)`: the textbook normalisation of the input buffer with row 2 of the two parameter
    buffers, and the rectifier. -/
theorem L2bn3_apply (V : Valuation τ sig (Elt Ideal)) (p : Fin 100000) (q : Fin 128) :
    StableHlo.after (opsL2bn3 (F := Ideal)) V (main_v300 : DevRef τ sig) (ix2 p q)
      = Cert.Spec.bnR (Cert.Spec.curA (V (main_v276 : DevRef τ sig)))
          (Cert.Spec.curRow2 (V (main_arg12 : DevRef τ sig)) 2)
          (Cert.Spec.curRow2 (V (main_arg13 : DevRef τ sig)) 2) p q := by
  rw [L2bn3_term]
  exact bnT_apply _ _ _ _ _ (fun q => row_apply _ 2 slices_S4x128_S1x128_2_0 2 rfl q)
    (fun q => row_apply _ 2 slices_S4x128_S1x128_2_0 2 rfl q) p q

end Cert.RefRun.Bn

end
-- ==== Proof.RefLayer2.lean ====
/-
  Graph layer 2 of the reference program (the layers are numbered from 0) as one map on the node features.

  As in layer 0 the six runs follow one another, no run writes an argument of the program, the edge rows or
  a buffer an earlier run of the layer produced, and composing the stage equations in order gives the layer's output
  buffer as the layer of the mathematics applied to the array the previous layer left and its neighbour sums along
  the edge rows found in their buffers.  The edge rows and every argument hold at the end what they held before.
-/
import proofs.«108002_j23673859736037_1_alg».proof.Proof.RefStages2
import proofs.«108002_j23673859736037_1_alg».proof.Proof.RefLayer0
import proofs.«108002_j23673859736037_1_alg».proof.Proof.RefBn_L2bn1
import proofs.«108002_j23673859736037_1_alg».proof.Proof.RefBn_L2bn2
import proofs.«108002_j23673859736037_1_alg».proof.Proof.RefBn_L2bn3

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun Cert.Chain

/-! ## The stages of the layer run so far, and what they write -/

abbrev preL2_2 : List (HloOp τ sig (Elt Ideal)) := opsL2agg ++ opsL2lin1
abbrev preL2_3 : List (HloOp τ sig (Elt Ideal)) := preL2_2 ++ opsL2bn1
abbrev preL2_4 : List (HloOp τ sig (Elt Ideal)) := preL2_3 ++ opsL2lin2
abbrev preL2_5 : List (HloOp τ sig (Elt Ideal)) := preL2_4 ++ opsL2bn2
abbrev preL2_2_W : List (Ref sig .tc) := opsL2agg_W ++ opsL2lin1_W
abbrev preL2_3_W : List (Ref sig .tc) := preL2_2_W ++ opsL2bn1_W
abbrev preL2_4_W : List (Ref sig .tc) := preL2_3_W ++ opsL2lin2_W
abbrev preL2_5_W : List (Ref sig .tc) := preL2_4_W ++ opsL2bn2_W
/-- Every buffer the layer writes. -/
abbrev opsL2_W : List (Ref sig .tc) := preL2_5_W ++ opsL2bn3_W

variable (V : Valuation τ sig (Elt Ideal))

theorem preL2_2_keep (r : Ref sig .tc) (h : r ∉ preL2_2_W) : after preL2_2 V (r : DevRef τ sig) = V r :=
  after_of_writes_sub preL2_2 V (writes_append opsL2agg_writes opsL2lin1_writes) h
theorem preL2_3_keep (r : Ref sig .tc) (h : r ∉ preL2_3_W) : after preL2_3 V (r : DevRef τ sig) = V r :=
  after_of_writes_sub preL2_3 V (writes_append (writes_append opsL2agg_writes opsL2lin1_writes) opsL2bn1_writes) h
theorem preL2_4_keep (r : Ref sig .tc) (h : r ∉ preL2_4_W) : after preL2_4 V (r : DevRef τ sig) = V r :=
  after_of_writes_sub preL2_4 V
    (writes_append (writes_append (writes_append opsL2agg_writes opsL2lin1_writes) opsL2bn1_writes) opsL2lin2_writes) h
theorem preL2_5_keep (r : Ref sig .tc) (h : r ∉ preL2_5_W) : after preL2_5 V (r : DevRef τ sig) = V r :=
  after_of_writes_sub preL2_5 V
    (writes_append (writes_append (writes_append (writes_append opsL2agg_writes opsL2lin1_writes) opsL2bn1_writes)
      opsL2lin2_writes) opsL2bn2_writes) h

/-- A buffer the layer does not write keeps its contents through the layer. -/
theorem layer2_keepW (r : Ref sig .tc) (h : r ∉ opsL2_W) : after opsL2 V (r : DevRef τ sig) = V r :=
  after_of_writes_sub opsL2 V
    (writes_append (writes_append (writes_append (writes_append (writes_append opsL2agg_writes opsL2lin1_writes)
      opsL2bn1_writes) opsL2lin2_writes) opsL2bn2_writes) opsL2bn3_writes) h

/-- The layer writes neither edge row and none of the program's arguments. -/
theorem keepRefs_not_written_L2 : ∀ r ∈ main_v1 :: main_v3 :: argRefs, r ∉ opsL2_W := by decide

/-- The edge rows and every argument keep their contents through the layer. -/
theorem layer2_keep (r : Ref sig .tc) (h : r ∈ main_v1 :: main_v3 :: argRefs) :
    after opsL2 V (r : DevRef τ sig) = V r :=
  layer2_keepW V r (keepRefs_not_written_L2 r h)

/-! ## The layer as mathematics over the contents before it -/

/-- The first affine stage's array. -/
def L2_m1 : Arr :=
  lin (add (curA (V main_v201)) (curA (Cert.Agg.aggR (V main_v201) (V main_v1) (V main_v3))))
    (curM3 (V main_arg4) (2 : Fin 4)) (curRow2 (V main_arg5) (2 : Fin 4))
/-- The first normalisation's array. -/
def L2_m2 : Arr := bnR (L2_m1 V) (curRow2 (V main_arg6) (2 : Fin 4)) (curRow2 (V main_arg7) (2 : Fin 4))
/-- The second affine stage's array. -/
def L2_m3 : Arr := lin (L2_m2 V) (curM3 (V main_arg8) (2 : Fin 4)) (curRow2 (V main_arg9) (2 : Fin 4))
/-- The second normalisation's array. -/
def L2_m4 : Arr := bnR (L2_m3 V) (curRow2 (V main_arg10) (2 : Fin 4)) (curRow2 (V main_arg11) (2 : Fin 4))
/-- The third normalisation's array: the layer's output. -/
def L2_m5 : Arr := bnR (L2_m4 V) (curRow2 (V main_arg12) (2 : Fin 4)) (curRow2 (V main_arg13) (2 : Fin 4))

/-- After the neighbour sums and the first affine stage. -/
theorem L2_st2 : curA (after preL2_2 V (main_v220 : DevRef τ sig)) = L2_m1 V := by
  funext p q
  show after (opsL2agg ++ opsL2lin1) V (main_v220 : DevRef τ sig) (ix2 p q) = _
  rw [after_append, L2lin1_apply, L2agg_keep V main_v201 (by decide), L2agg_out, L2agg_keep V main_arg4 (by decide),
    L2agg_keep V main_arg5 (by decide)]
  rfl

/-- After the first normalisation. -/
theorem L2_st3 : curA (after preL2_3 V (main_v244 : DevRef τ sig)) = L2_m2 V := by
  funext p q
  show after (preL2_2 ++ opsL2bn1) V (main_v244 : DevRef τ sig) (ix2 p q) = _
  rw [after_append, Cert.RefRun.Bn.L2bn1_apply, L2_st2, preL2_2_keep V main_arg6 (by decide),
    preL2_2_keep V main_arg7 (by decide)]
  rfl

/-- After the second affine stage. -/
theorem L2_st4 : curA (after preL2_4 V (main_v252 : DevRef τ sig)) = L2_m3 V := by
  funext p q
  show after (preL2_3 ++ opsL2lin2) V (main_v252 : DevRef τ sig) (ix2 p q) = _
  rw [after_append, L2lin2_apply, L2_st3, preL2_3_keep V main_arg8 (by decide), preL2_3_keep V main_arg9 (by decide)]
  rfl

/-- After the second normalisation. -/
theorem L2_st5 : curA (after preL2_5 V (main_v276 : DevRef τ sig)) = L2_m4 V := by
  funext p q
  show after (preL2_4 ++ opsL2bn2) V (main_v276 : DevRef τ sig) (ix2 p q) = _
  rw [after_append, Cert.RefRun.Bn.L2bn2_apply, L2_st4, preL2_4_keep V main_arg10 (by decide),
    preL2_4_keep V main_arg11 (by decide)]
  rfl

/-- After the third normalisation: the whole layer. -/
theorem L2_st6 : curA (after opsL2 V (main_v300 : DevRef τ sig)) = L2_m5 V := by
  funext p q
  show after (preL2_5 ++ opsL2bn3) V (main_v300 : DevRef τ sig) (ix2 p q) = _
  rw [after_append, Cert.RefRun.Bn.L2bn3_apply, L2_st5, preL2_5_keep V main_arg12 (by decide),
    preL2_5_keep V main_arg13 (by decide)]
  rfl

/-! ## The layer -/

/-- The layer of the reference: its output buffer holds the layer of the mathematics, in the textbook spelling of the
    normalisation, applied to the array the previous layer left, with the neighbour sums taken along the edge rows
    found in their buffers. -/
theorem layer2_x : after opsL2 V (main_v300 : DevRef τ sig)
    = stepR (fun X => Cert.Agg.aggR X (V main_v1) (V main_v3))
        (paramsOf (V main_arg4) (V main_arg5) (V main_arg6) (V main_arg7) (V main_arg8) (V main_arg9)
          (V main_arg10) (V main_arg11) (V main_arg12) (V main_arg13)) (2 : Fin 4) (V main_v201) :=
  (uncA_curA _).symm.trans (congrArg uncA (L2_st6 V))

end Cert.RefRun.Layer

end
-- ==== Proof.RefStages3.lean ====
import proofs.«108002_j23673859736037_1_alg».proof.Proof.RefOpsL3
import proofs.«108002_j23673859736037_1_alg».proof.Proof.RefStages0

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun

abbrev opsL3agg_W : List (Ref sig .tc) :=
  [main_c_43, main_v301, main_v302, main_c_44, main_v303, main_v304, main_v305, main_v306, main_v307,
   main_cst_45, main_v308, main_v309, main_v310]
theorem opsL3agg_writes :
    (opsL3agg : List (HloOp τ sig (Elt Ideal))).Forall fun op =>
      op.writes ⊆ (opsL3agg_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL3lin1_W : List (Ref sig .tc) :=
  [main_v311, main_v312, main_v313, main_v314, main_v315, main_v316, main_v317, main_v318, main_v319]
theorem opsL3lin1_writes :
    (opsL3lin1 : List (HloOp τ sig (Elt Ideal))).Forall fun op =>
      op.writes ⊆ (opsL3lin1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL3bn1_W : List (Ref sig .tc) :=
  [main_v320, main_v321, main_v322, main_v323, main_cst_46, main_v324, main_cst_47, main_v325,
   main_v326, main_c_48, main_call18.cst.ref, main_call18.v0.ref, main_call18.v1.ref, main_call18.cst_0.ref,
   main_call18.v2.ref, main_call18.v3.ref, main_call18.v4.ref, main_call18.v5.ref, main_call18.v6.ref,
   main_call18.v7.ref, main_call18.cst_1.ref, main_call18.v8.ref, main_call18.cst_2.ref, main_call18.v9.ref,
   main_call18.v10.ref, main_call18.v11.ref, main_call18.cst_3.ref, main_call18.v12.ref,
   main_call18.cst_4.ref, main_call18.call0.v0.ref, main_call18.call0.v1.ref, main_call18.call0.v2.ref,
   main_v328, main_v329, main_v330, main_cst_49, main_v331, main_v332, main_v333, main_v334, main_v335,
   main_v336, main_v337, main_v338, main_v339, main_v340, main_v341, main_v342, main_call19.cst.ref,
   main_call19.v0.ref, main_call19.v1.ref]
theorem opsL3bn1_writes :
    (opsL3bn1 : List (HloOp τ sig (Elt Ideal))).Forall fun op =>
      op.writes ⊆ (opsL3bn1_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL3lin2_W : List (Ref sig .tc) :=
  [main_v344, main_v345, main_v346, main_v347, main_v348, main_v349, main_v350, main_v351]
theorem opsL3lin2_writes :
    (opsL3lin2 : List (HloOp τ sig (Elt Ideal))).Forall fun op =>
      op.writes ⊆ (opsL3lin2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL3bn2_W : List (Ref sig .tc) :=
  [main_v352, main_v353, main_v354, main_v355, main_cst_50, main_v356, main_cst_51, main_v357,
   main_v358, main_c_52, main_call20.cst.ref, main_call20.v0.ref, main_call20.v1.ref, main_call20.cst_0.ref,
   main_call20.v2.ref, main_call20.v3.ref, main_call20.v4.ref, main_call20.v5.ref, main_call20.v6.ref,
   main_call20.v7.ref, main_call20.cst_1.ref, main_call20.v8.ref, main_call20.cst_2.ref, main_call20.v9.ref,
   main_call20.v10.ref, main_call20.v11.ref, main_call20.cst_3.ref, main_call20.v12.ref,
   main_call20.cst_4.ref, main_call20.call0.v0.ref, main_call20.call0.v1.ref, main_call20.call0.v2.ref,
   main_v360, main_v361, main_v362, main_cst_53, main_v363, main_v364, main_v365, main_v366, main_v367,
   main_v368, main_v369, main_v370, main_v371, main_v372, main_v373, main_v374, main_call21.cst.ref,
   main_call21.v0.ref, main_call21.v1.ref]
theorem opsL3bn2_writes :
    (opsL3bn2 : List (HloOp τ sig (Elt Ideal))).Forall fun op =>
      op.writes ⊆ (opsL3bn2_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

abbrev opsL3bn3_W : List (Ref sig .tc) :=
  [main_v376, main_v377, main_v378, main_v379, main_cst_54, main_v380, main_cst_55, main_v381,
   main_v382, main_c_56, main_call22.cst.ref, main_call22.v0.ref, main_call22.v1.ref,
   main_call22.cst_0.ref, main_call22.v2.ref, main_call22.v3.ref, main_call22.v4.ref,
   main_call22.v5.ref, main_call22.v6.ref, main_call22.v7.ref, main_call22.cst_1.ref,
   main_call22.v8.ref, main_call22.cst_2.ref, main_call22.v9.ref, main_call22.v10.ref,
   main_call22.v11.ref, main_call22.cst_3.ref, main_call22.v12.ref, main_call22.cst_4.ref,
   main_call22.call0.v0.ref, main_call22.call0.v1.ref, main_call22.call0.v2.ref, main_v384, main_v385,
   main_v386, main_cst_57, main_v387, main_v388, main_v389, main_v390, main_v391, main_v392, main_v393,
   main_v394, main_v395, main_v396, main_v397, main_v398, main_call23.cst.ref, main_call23.v0.ref,
   main_call23.v1.ref]
theorem opsL3bn3_writes :
    (opsL3bn3 : List (HloOp τ sig (Elt Ideal))).Forall fun op =>
      op.writes ⊆ (opsL3bn3_W.map (Proc.devRef (τ := τ) .tc)).toFinset := by
  simp only [List.Forall]
  repeat' apply And.intro
  all_goals
    simp only [nullary_writes, unary_writes, binary_writes, ternary_writes, reshape_writes,
      Finset.singleton_subset_iff, List.mem_toFinset]
    exact List.mem_map_of_mem (by decide)

variable (V : Valuation τ sig (Elt Ideal))

theorem L3agg_keep (r : Ref sig .tc) (h : r ∉ opsL3agg_W) : after opsL3agg V (r : DevRef τ sig) = V r :=
  after_of_writes_sub opsL3agg V opsL3agg_writes h
theorem L3agg_out : after opsL3agg V (main_v310 : DevRef τ sig)
    = Cert.Agg.aggR (V main_v300) (V main_v1) (V main_v3) := by
  after_results; rfl

theorem L3lin1_out : after opsL3lin1 V (main_v319 : DevRef τ sig)
    = linStage (3 : ℕ) slices_S4x128x128_S1x128x128_3_0_0 slices_S4x128_S1x128_3_0
        (addf (F := Ideal) (φ := .f32) (V main_v300) (V main_v310)) (V main_arg4) (V main_arg5) := by
  after_results; rfl

theorem L3lin1_apply (p : Fin 100000) (q : Fin 128) :
    after opsL3lin1 V (main_v319 : DevRef τ sig) (ix2 p q)
      = lin (add (curA (V main_v300)) (curA (V main_v310))) (curM3 (V main_arg4) (3 : Fin 4))
          (curRow2 (V main_arg5) (3 : Fin 4)) p q :=
  (congrFun (L3lin1_out V) (ix2 p q)).trans (linStage_apply (3 : ℕ) _ _ _ _ _ (3 : Fin 4) rfl p q)

theorem L3lin2_out : after opsL3lin2 V (main_v351 : DevRef τ sig)
    = linStage (3 : ℕ) slices_S4x128x128_S1x128x128_3_0_0 slices_S4x128_S1x128_3_0 (V main_v343) (V main_arg8)
        (V main_arg9) := by
  after_results; rfl

theorem L3lin2_apply (p : Fin 100000) (q : Fin 128) :
    after opsL3lin2 V (main_v351 : DevRef τ sig) (ix2 p q)
      = lin (curA (V main_v343)) (curM3 (V main_arg8) (3 : Fin 4)) (curRow2 (V main_arg9) (3 : Fin 4)) p q :=
  (congrFun (L3lin2_out V) (ix2 p q)).trans (linStage_apply (3 : ℕ) _ _ _ _ _ (3 : Fin 4) rfl p q)

end Cert.RefRun.Layer

end
-- ==== Proof.RefBn_L3bn1.lean ====
/-
  The normalisation stage opsL3bn1 (layer 3, normalisation 1 of the layer) read at an index.

  The stage's operations, folded over the buffer contents, leave at the output buffer the term `bnT` of the input
  buffer and of row 3 of the two stacked parameter buffers (each row cut out and flattened): the fold is a computation.
  The term read at `(p, q)` is the textbook normalisation (`bnT_apply`).
-/
import proofs.«108002_j23673859736037_1_alg».proof.Proof.RefOpsL3
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L3bn1_term (V : Valuation τ sig (Elt Ideal)) :
    StableHlo.after (opsL3bn1 (F := Ideal)) V (main_v343 : DevRef τ sig)
      = bnT (V (main_v319 : DevRef τ sig))
          (shapeCast S128 (extractStridedSlice S1x128 ![3, 0] (V (main_arg6 : DevRef τ sig)) slices_S4x128_S1x128_3_0) shapeCasts_S1x128_S128)
          (shapeCast S128 (extractStridedSlice S1x128 ![3, 0] (V (main_arg7 : DevRef τ sig)) slices_S4x128_S1x128_3_0) shapeCasts_S1x128_S128) := by
  after_results_simp
  rfl

/-- The stage read at `(p, q)`: the textbook normalisation of the input buffer with row 3 of the two parameter
    buffers, and the rectifier. -/
theorem L3bn1_apply (V : Valuation τ sig (Elt Ideal)) (p : Fin 100000) (q : Fin 128) :
    StableHlo.after (opsL3bn1 (F := Ideal)) V (main_v343 : DevRef τ sig) (ix2 p q)
      = Cert.Spec.bnR (Cert.Spec.curA (V (main_v319 : DevRef τ sig)))
          (Cert.Spec.curRow2 (V (main_arg6 : DevRef τ sig)) 3)
          (Cert.Spec.curRow2 (V (main_arg7 : DevRef τ sig)) 3) p q := by
  rw [L3bn1_term]
  exact bnT_apply _ _ _ _ _ (fun q => row_apply _ 3 slices_S4x128_S1x128_3_0 3 rfl q)
    (fun q => row_apply _ 3 slices_S4x128_S1x128_3_0 3 rfl q) p q

end Cert.RefRun.Bn

end
-- ==== Proof.RefBn_L3bn2.lean ====
/-
  The normalisation stage opsL3bn2 (layer 3, normalisation 2 of the layer) read at an index.

  The stage's operations, folded over the buffer contents, leave at the output buffer the term `bnT` of the input
  buffer and of row 3 of the two stacked parameter buffers (each row cut out and flattened): the fold is a computation.
  The term read at `(p, q)` is the textbook normalisation (`bnT_apply`).
-/
import proofs.«108002_j23673859736037_1_alg».proof.Proof.RefOpsL3
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L3bn2_term (V : Valuation τ sig (Elt Ideal)) :
    StableHlo.after (opsL3bn2 (F := Ideal)) V (main_v375 : DevRef τ sig)
      = bnT (V (main_v351 : DevRef τ sig))
          (shapeCast S128 (extractStridedSlice S1x128 ![3, 0] (V (main_arg10 : DevRef τ sig)) slices_S4x128_S1x128_3_0) shapeCasts_S1x128_S128)
          (shapeCast S128 (extractStridedSlice S1x128 ![3, 0] (V (main_arg11 : DevRef τ sig)) slices_S4x128_S1x128_3_0) shapeCasts_S1x128_S128) := by
  after_results_simp
  rfl

/-- The stage read at `(p, q)`: the textbook normalisation of the input buffer with row 3 of the two parameter
    buffers, and the rectifier. -/
theorem L3bn2_apply (V : Valuation τ sig (Elt Ideal)) (p : Fin 100000) (q : Fin 128) :
    StableHlo.after (opsL3bn2 (F := Ideal)) V (main_v375 : DevRef τ sig) (ix2 p q)
      = Cert.Spec.bnR (Cert.Spec.curA (V (main_v351 : DevRef τ sig)))
          (Cert.Spec.curRow2 (V (main_arg10 : DevRef τ sig)) 3)
          (Cert.Spec.curRow2 (V (main_arg11 : DevRef τ sig)) 3) p q := by
  rw [L3bn2_term]
  exact bnT_apply _ _ _ _ _ (fun q => row_apply _ 3 slices_S4x128_S1x128_3_0 3 rfl q)
    (fun q => row_apply _ 3 slices_S4x128_S1x128_3_0 3 rfl q) p q

end Cert.RefRun.Bn

end
-- ==== Proof.RefBn_L3bn3.lean ====
/-
  The normalisation stage opsL3bn3 (layer 3, normalisation 3 of the layer) read at an index.

  The stage's operations, folded over the buffer contents, leave at the output buffer the term `bnT` of the input
  buffer and of row 3 of the two stacked parameter buffers (each row cut out and flattened): the fold is a computation.
  The term read at `(p, q)` is the textbook normalisation (`bnT_apply`).
-/
import proofs.«108002_j23673859736037_1_alg».proof.Proof.RefOpsL3
import proofs.«108002_j23673859736037_1_alg».proof.Proof.RefBnTerm

noncomputable section

namespace Cert.RefRun.Bn

open Cert.ReferenceIdeal Cert.ReferenceIdeal.Gen Idealize.ShloMosaic Idealize.ShloMosaic.TcCoe Idealize.SL.Sem Idealize.ShloMosaic.StableHlo
open Idealize.ShloMosaic.ValueIdx Cert.RefRun

attribute [local irreducible] Host.reduceAdd Host.divf Host.rsqrt broadcastInDim in
set_option maxRecDepth 8192 in
set_option maxHeartbeats 400000 in
/-- The fold of the stage's operations at the output buffer is the stage's term on the input buffer and the two
    parameter rows.  The sums, quotients and broadcasts stay folded while the two sides are compared. -/
theorem L3bn3_term (V : Valuation τ sig (Elt Ideal)) :
    StableHlo.after (opsL3bn3 (F := Ideal)) V (main_v399 : DevRef τ sig)
      = bnT (V (main_v375 : DevRef τ sig))
          (shapeCast S128 (extractStridedSlice S1x128 ![3, 0] (V (main_arg12 : DevRef τ sig)) slices_S4x128_S1x128_3_0) shapeCasts_S1x128_S128)
          (shapeCast S128 (extractStridedSlice S1x128 ![3, 0] (V (main_arg13 : DevRef τ sig)) slices_S4x128_S1x128_3_0) shapeCasts_S1x128_S128) := by
  after_results_simp
  rfl

/-- The stage read at `(p, q)`: the textbook normalisation of the input buffer with row 3 of the two parameter
    buffers, and the rectifier. -/
theorem L3bn3_apply (V : Valuation τ sig (Elt Ideal)) (p : Fin 100000) (q : Fin 128) :
    StableHlo.after (opsL3bn3 (F := Ideal)) V (main_v399 : DevRef τ sig) (ix2 p q)
      = Cert.Spec.bnR (Cert.Spec.curA (V (main_v375 : DevRef τ sig)))
          (Cert.Spec.curRow2 (V (main_arg12 : DevRef τ sig)) 3)
          (Cert.Spec.curRow2 (V (main_arg13 : DevRef τ sig)) 3) p q := by
  rw [L3bn3_term]
  exact bnT_apply _ _ _ _ _ (fun q => row_apply _ 3 slices_S4x128_S1x128_3_0 3 rfl q)
    (fun q => row_apply _ 3 slices_S4x128_S1x128_3_0 3 rfl q) p q

end Cert.RefRun.Bn

end
-- ==== Proof.RefLayer3.lean ====
/-
  Graph layer 3 of the reference program (the layers are numbered from 0) as one map on the node features.

  As in layer 0 the six runs follow one another, no run writes an argument of the program, the edge rows or
  a buffer an earlier run of the layer produced, and composing the stage equations in order gives the layer's output
  buffer as the layer of the mathematics applied to the array the previous layer left and its neighbour sums along
  the edge rows found in their buffers.  The edge rows and every argument hold at the end what they held before.
-/
import proofs.«108002_j23673859736037_1_alg».proof.Proof.RefStages3
import proofs.«108002_j23673859736037_1_alg».proof.Proof.RefLayer0
import proofs.«108002_j23673859736037_1_alg».proof.Proof.RefBn_L3bn1
import proofs.«108002_j23673859736037_1_alg».proof.Proof.RefBn_L3bn2
import proofs.«108002_j23673859736037_1_alg».proof.Proof.RefBn_L3bn3

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun Cert.Chain

/-! ## The stages of the layer run so far, and what they write -/

abbrev preL3_2 : List (HloOp τ sig (Elt Ideal)) := opsL3agg ++ opsL3lin1
abbrev preL3_3 : List (HloOp τ sig (Elt Ideal)) := preL3_2 ++ opsL3bn1
abbrev preL3_4 : List (HloOp τ sig (Elt Ideal)) := preL3_3 ++ opsL3lin2
abbrev preL3_5 : List (HloOp τ sig (Elt Ideal)) := preL3_4 ++ opsL3bn2
abbrev preL3_2_W : List (Ref sig .tc) := opsL3agg_W ++ opsL3lin1_W
abbrev preL3_3_W : List (Ref sig .tc) := preL3_2_W ++ opsL3bn1_W
abbrev preL3_4_W : List (Ref sig .tc) := preL3_3_W ++ opsL3lin2_W
abbrev preL3_5_W : List (Ref sig .tc) := preL3_4_W ++ opsL3bn2_W
/-- Every buffer the layer writes. -/
abbrev opsL3_W : List (Ref sig .tc) := preL3_5_W ++ opsL3bn3_W

variable (V : Valuation τ sig (Elt Ideal))

theorem preL3_2_keep (r : Ref sig .tc) (h : r ∉ preL3_2_W) : after preL3_2 V (r : DevRef τ sig) = V r :=
  after_of_writes_sub preL3_2 V (writes_append opsL3agg_writes opsL3lin1_writes) h
theorem preL3_3_keep (r : Ref sig .tc) (h : r ∉ preL3_3_W) : after preL3_3 V (r : DevRef τ sig) = V r :=
  after_of_writes_sub preL3_3 V (writes_append (writes_append opsL3agg_writes opsL3lin1_writes) opsL3bn1_writes) h
theorem preL3_4_keep (r : Ref sig .tc) (h : r ∉ preL3_4_W) : after preL3_4 V (r : DevRef τ sig) = V r :=
  after_of_writes_sub preL3_4 V
    (writes_append (writes_append (writes_append opsL3agg_writes opsL3lin1_writes) opsL3bn1_writes) opsL3lin2_writes) h
theorem preL3_5_keep (r : Ref sig .tc) (h : r ∉ preL3_5_W) : after preL3_5 V (r : DevRef τ sig) = V r :=
  after_of_writes_sub preL3_5 V
    (writes_append (writes_append (writes_append (writes_append opsL3agg_writes opsL3lin1_writes) opsL3bn1_writes)
      opsL3lin2_writes) opsL3bn2_writes) h

/-- A buffer the layer does not write keeps its contents through the layer. -/
theorem layer3_keepW (r : Ref sig .tc) (h : r ∉ opsL3_W) : after opsL3 V (r : DevRef τ sig) = V r :=
  after_of_writes_sub opsL3 V
    (writes_append (writes_append (writes_append (writes_append (writes_append opsL3agg_writes opsL3lin1_writes)
      opsL3bn1_writes) opsL3lin2_writes) opsL3bn2_writes) opsL3bn3_writes) h

/-- The layer writes neither edge row and none of the program's arguments. -/
theorem keepRefs_not_written_L3 : ∀ r ∈ main_v1 :: main_v3 :: argRefs, r ∉ opsL3_W := by decide

/-- The edge rows and every argument keep their contents through the layer. -/
theorem layer3_keep (r : Ref sig .tc) (h : r ∈ main_v1 :: main_v3 :: argRefs) :
    after opsL3 V (r : DevRef τ sig) = V r :=
  layer3_keepW V r (keepRefs_not_written_L3 r h)

/-! ## The layer as mathematics over the contents before it -/

/-- The first affine stage's array. -/
def L3_m1 : Arr :=
  lin (add (curA (V main_v300)) (curA (Cert.Agg.aggR (V main_v300) (V main_v1) (V main_v3))))
    (curM3 (V main_arg4) (3 : Fin 4)) (curRow2 (V main_arg5) (3 : Fin 4))
/-- The first normalisation's array. -/
def L3_m2 : Arr := bnR (L3_m1 V) (curRow2 (V main_arg6) (3 : Fin 4)) (curRow2 (V main_arg7) (3 : Fin 4))
/-- The second affine stage's array. -/
def L3_m3 : Arr := lin (L3_m2 V) (curM3 (V main_arg8) (3 : Fin 4)) (curRow2 (V main_arg9) (3 : Fin 4))
/-- The second normalisation's array. -/
def L3_m4 : Arr := bnR (L3_m3 V) (curRow2 (V main_arg10) (3 : Fin 4)) (curRow2 (V main_arg11) (3 : Fin 4))
/-- The third normalisation's array: the layer's output. -/
def L3_m5 : Arr := bnR (L3_m4 V) (curRow2 (V main_arg12) (3 : Fin 4)) (curRow2 (V main_arg13) (3 : Fin 4))

/-- After the neighbour sums and the first affine stage. -/
theorem L3_st2 : curA (after preL3_2 V (main_v319 : DevRef τ sig)) = L3_m1 V := by
  funext p q
  show after (opsL3agg ++ opsL3lin1) V (main_v319 : DevRef τ sig) (ix2 p q) = _
  rw [after_append, L3lin1_apply, L3agg_keep V main_v300 (by decide), L3agg_out, L3agg_keep V main_arg4 (by decide),
    L3agg_keep V main_arg5 (by decide)]
  rfl

/-- After the first normalisation. -/
theorem L3_st3 : curA (after preL3_3 V (main_v343 : DevRef τ sig)) = L3_m2 V := by
  funext p q
  show after (preL3_2 ++ opsL3bn1) V (main_v343 : DevRef τ sig) (ix2 p q) = _
  rw [after_append, Cert.RefRun.Bn.L3bn1_apply, L3_st2, preL3_2_keep V main_arg6 (by decide),
    preL3_2_keep V main_arg7 (by decide)]
  rfl

/-- After the second affine stage. -/
theorem L3_st4 : curA (after preL3_4 V (main_v351 : DevRef τ sig)) = L3_m3 V := by
  funext p q
  show after (preL3_3 ++ opsL3lin2) V (main_v351 : DevRef τ sig) (ix2 p q) = _
  rw [after_append, L3lin2_apply, L3_st3, preL3_3_keep V main_arg8 (by decide), preL3_3_keep V main_arg9 (by decide)]
  rfl

/-- After the second normalisation. -/
theorem L3_st5 : curA (after preL3_5 V (main_v375 : DevRef τ sig)) = L3_m4 V := by
  funext p q
  show after (preL3_4 ++ opsL3bn2) V (main_v375 : DevRef τ sig) (ix2 p q) = _
  rw [after_append, Cert.RefRun.Bn.L3bn2_apply, L3_st4, preL3_4_keep V main_arg10 (by decide),
    preL3_4_keep V main_arg11 (by decide)]
  rfl

/-- After the third normalisation: the whole layer. -/
theorem L3_st6 : curA (after opsL3 V (main_v399 : DevRef τ sig)) = L3_m5 V := by
  funext p q
  show after (preL3_5 ++ opsL3bn3) V (main_v399 : DevRef τ sig) (ix2 p q) = _
  rw [after_append, Cert.RefRun.Bn.L3bn3_apply, L3_st5, preL3_5_keep V main_arg12 (by decide),
    preL3_5_keep V main_arg13 (by decide)]
  rfl

/-! ## The layer -/

/-- The layer of the reference: its output buffer holds the layer of the mathematics, in the textbook spelling of the
    normalisation, applied to the array the previous layer left, with the neighbour sums taken along the edge rows
    found in their buffers. -/
theorem layer3_x : after opsL3 V (main_v399 : DevRef τ sig)
    = stepR (fun X => Cert.Agg.aggR X (V main_v1) (V main_v3))
        (paramsOf (V main_arg4) (V main_arg5) (V main_arg6) (V main_arg7) (V main_arg8) (V main_arg9)
          (V main_arg10) (V main_arg11) (V main_arg12) (V main_arg13)) (3 : Fin 4) (V main_v300) :=
  (uncA_curA _).symm.trans (congrArg uncA (L3_st6 V))

end Cert.RefRun.Layer

end
-- ==== Proof.RefLayers.lean ====
import proofs.«108002_j23673859736037_1_alg».proof.Proof.RefLayer0
import proofs.«108002_j23673859736037_1_alg».proof.Proof.RefLayer1
import proofs.«108002_j23673859736037_1_alg».proof.Proof.RefLayer2
import proofs.«108002_j23673859736037_1_alg».proof.Proof.RefLayer3

noncomputable section

namespace Cert.RefRun.Layer

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun Cert.Chain

variable (V : Valuation τ sig (Elt Ideal))

abbrev aggOf : NArr → NArr :=
  fun X => Cert.Agg.aggR X (Cert.Agg.srcR (V main_arg1)) (Cert.Agg.dstR (V main_arg1))

abbrev parOf : Params :=
  paramsOf (V main_arg4) (V main_arg5) (V main_arg6) (V main_arg7) (V main_arg8) (V main_arg9)
    (V main_arg10) (V main_arg11) (V main_arg12) (V main_arg13)

theorem mem_keep {r : Ref sig .tc} (h : r ∈ argRefs) : r ∈ main_v1 :: main_v3 :: argRefs :=
  List.mem_cons_of_mem _ (List.mem_cons_of_mem _ h)

theorem args2 (r : Ref sig .tc) (h : r ∈ argRefs) : after opsL1 (after opsL0 V) (r : DevRef τ sig) = V r :=
  (layer1_keep _ r (mem_keep h)).trans (layer0_arg V r h)
theorem args3 (r : Ref sig .tc) (h : r ∈ argRefs) : after opsL2 (after opsL1 (after opsL0 V)) (r : DevRef τ sig) = V r :=
  (layer2_keep _ r (mem_keep h)).trans (args2 V r h)

theorem src2 : after opsL1 (after opsL0 V) (main_v1 : DevRef τ sig) = Cert.Agg.srcR (V main_arg1) :=
  (layer1_keep _ main_v1 List.mem_cons_self).trans (layer0_src V)
theorem src3 : after opsL2 (after opsL1 (after opsL0 V)) (main_v1 : DevRef τ sig) = Cert.Agg.srcR (V main_arg1) :=
  (layer2_keep _ main_v1 List.mem_cons_self).trans (src2 V)
theorem dst2 : after opsL1 (after opsL0 V) (main_v3 : DevRef τ sig) = Cert.Agg.dstR (V main_arg1) :=
  (layer1_keep _ main_v3 (List.mem_cons_of_mem _ List.mem_cons_self)).trans (layer0_dst V)
theorem dst3 : after opsL2 (after opsL1 (after opsL0 V)) (main_v3 : DevRef τ sig) = Cert.Agg.dstR (V main_arg1) :=
  (layer2_keep _ main_v3 (List.mem_cons_of_mem _ List.mem_cons_self)).trans (dst2 V)

theorem x1 : after opsL0 V (main_v102 : DevRef τ sig) = stepR (aggOf V) (parOf V) 0 (V main_arg0) :=
  layer0_x V

theorem x2 : after opsL1 (after opsL0 V) (main_v201 : DevRef τ sig)
    = stepR (aggOf V) (parOf V) 1 (stepR (aggOf V) (parOf V) 0 (V main_arg0)) := by
  rw [layer1_x, layer0_src, layer0_dst, layer0_arg V main_arg4 (by decide), layer0_arg V main_arg5 (by decide), layer0_arg V main_arg6 (by decide), layer0_arg V main_arg7 (by decide), layer0_arg V main_arg8 (by decide), layer0_arg V main_arg9 (by decide), layer0_arg V main_arg10 (by decide), layer0_arg V main_arg11 (by decide), layer0_arg V main_arg12 (by decide), layer0_arg V main_arg13 (by decide), layer0_x]

theorem x3 : after opsL2 (after opsL1 (after opsL0 V)) (main_v300 : DevRef τ sig)
    = stepR (aggOf V) (parOf V) 2 (stepR (aggOf V) (parOf V) 1 (stepR (aggOf V) (parOf V) 0 (V main_arg0))) := by
  rw [layer2_x, src2, dst2, args2 V main_arg4 (by decide), args2 V main_arg5 (by decide), args2 V main_arg6 (by decide), args2 V main_arg7 (by decide), args2 V main_arg8 (by decide), args2 V main_arg9 (by decide), args2 V main_arg10 (by decide), args2 V main_arg11 (by decide), args2 V main_arg12 (by decide), args2 V main_arg13 (by decide), x2]

theorem x4 : after opsL3 (after opsL2 (after opsL1 (after opsL0 V))) (main_v399 : DevRef τ sig)
    = stepR (aggOf V) (parOf V) 3
        (stepR (aggOf V) (parOf V) 2 (stepR (aggOf V) (parOf V) 1 (stepR (aggOf V) (parOf V) 0 (V main_arg0)))) := by
  rw [layer3_x, src3, dst3, args3 V main_arg4 (by decide), args3 V main_arg5 (by decide), args3 V main_arg6 (by decide), args3 V main_arg7 (by decide), args3 V main_arg8 (by decide), args3 V main_arg9 (by decide), args3 V main_arg10 (by decide), args3 V main_arg11 (by decide), args3 V main_arg12 (by decide), args3 V main_arg13 (by decide), x3]

theorem layers_x : after opsL3 (after opsL2 (after opsL1 (after opsL0 V))) (main_v399 : DevRef τ sig)
    = stepR (aggOf V) (parOf V) 3
        (stepR (aggOf V) (parOf V) 2 (stepR (aggOf V) (parOf V) 1 (stepR (aggOf V) (parOf V) 0 (V main_arg0)))) :=
  x4 V

theorem layers_arg (r : Ref sig .tc) (h : r ∈ argRefs) :
    after opsL3 (after opsL2 (after opsL1 (after opsL0 V))) (r : DevRef τ sig) = V r :=
  (layer3_keep _ r (mem_keep h)).trans (args3 V r h)

end Cert.RefRun.Layer

end
-- ==== Proof.RefTail.lean ====
import proofs.«108002_j23673859736037_1_alg».proof.Proof.RefOpsTail
import proofs.«108002_j23673859736037_1_alg».proof.Proof.Spec
import proofs.«108002_j23673859736037_1_alg».proof.Proof.SpecHead
import proofs.«108002_j23673859736037_1_alg».proof.Proof.LibRowOps
import proofs.«108002_j23673859736037_1_alg».proof.Proof.Agg

noncomputable section

namespace Cert.RefRun.Tail

open Cert.ReferenceIdeal Cert.ReferenceIdeal.Gen Idealize.ShloMosaic Idealize.ShloMosaic.TcCoe Idealize.SL.Sem Idealize.ShloMosaic.StableHlo Idealize.ShloMosaic.ValueIdx
open scoped BigOperators

section Lemmas
variable {α : Type}

theorem catCols_apply {n a b c : ℕ} (x : (⟨2, ![n, a]⟩ : Shape).Idx → α) (y : (⟨2, ![n, b]⟩ : Shape).Idx → α)
    (h : Shape.Concatenates [(⟨2, ![n, a]⟩ : Shape), ⟨2, ![n, b]⟩] ⟨2, ![n, c]⟩ 1) (hc : c = a + b) (p : Fin n) (q : Fin c) :
    concatenate ⟨2, ![n, c]⟩ 1 [⟨⟨2, ![n, a]⟩, x⟩, ⟨⟨2, ![n, b]⟩, y⟩] h (ix2 p q)
      = if hq : q.val < a then x (ix2 p ⟨q.val, hq⟩) else y (ix2 p ⟨q.val - a, by have := q.isLt; omega⟩) := by
  split
  · next hq =>
    exact concatenate_pair_apply_left 1 x y h (ix2 p q) rfl (ix2 p ⟨q.val, hq⟩)
      (fun bb => by match bb with | ⟨0, _⟩ => rfl | ⟨1, _⟩ => rfl)
  · next hq =>
    exact concatenate_pair_apply_right 1 x y h (ix2 p q) rfl rfl (ix2 p ⟨q.val - a, by have := q.isLt; omega⟩)
      (fun bb hb => by match bb with | ⟨0, _⟩ => rfl | ⟨1, _⟩ => exact absurd rfl hb)
      (by show (q.val - a) + a = q.val; omega)

theorem bcastRow_apply {n k : ℕ} (v : (⟨1, ![k]⟩ : Shape).Idx → α)
    (h1 : (⟨1, ![k]⟩ : Shape).BroadcastsInDim ⟨2, ![1, k]⟩ ![1])
    (h2 : (⟨2, ![1, k]⟩ : Shape).BroadcastsInDim ⟨2, ![n, k]⟩ ![0, 1]) (p : Fin n) (q : Fin k) :
    broadcastInDim ⟨2, ![n, k]⟩ ![0, 1] h2 (broadcastInDim ⟨2, ![1, k]⟩ ![1] h1 v) (ix2 p q) = v (ix1 q) := by
  refine (broadcastInDim_apply ![0, 1] h2 _ (ix2 p q) (ix2 (0 : Fin 1) q) fun ax => ?_).trans
    (broadcastInDim_apply ![1] h1 v (ix2 (0 : Fin 1) q) (ix1 q) fun ax => ?_)
  · match ax with
    | ⟨0, _⟩ => rfl
    | ⟨1, _⟩ =>
      show q.val = if k = 1 then 0 else q.val
      split
      · have := q.isLt; omega
      · rfl
  · match ax with
    | ⟨0, _⟩ =>
      show q.val = if k = 1 then 0 else q.val
      split
      · have := q.isLt; omega
      · rfl

end Lemmas

def leakyT (z : FVec Ideal S512x256 .f32) : FVec Ideal S512x256 .f32 :=
  select (cmpf (F := Ideal) (φ := .f32) .oge z (broadcastInDim S512x256 ![] bcast_S_S512x256 (constant (F := Ideal) S_ .f32 0x00000000#32))) z
    (mulf (F := Ideal) (φ := .f32) (broadcastInDim S512x256 ![] bcast_S_S512x256 (constant (F := Ideal) S_ .f32 0x3C23D70A#32)) z)

theorem leakyT_apply (z : FVec Ideal S512x256 .f32) (i : S512x256.Idx) : leakyT z i = Cert.Spec.leaky (z i) := by
  show Scalar.select (FloatOps.cmpf (F := Ideal) (φ := .f32) .oge (z i) Cert.Spec.zeroW) (z i) (Cert.Spec.slope * z i) = _
  rw [mul_comm Cert.Spec.slope (z i)]
  rfl

theorem denseT_apply {K : ℕ} (d : DotDims ⟨2, ![512, K]⟩ ⟨2, ![K, 256]⟩ ⟨2, ![512, 256]⟩) (hd : d = DotDims.plain 512 K 256)
    (z : FVec Ideal ⟨2, ![512, K]⟩ .f32) (W : FVec Ideal ⟨2, ![K, 256]⟩ .f32) (b : FVec Ideal S256 .f32)
    (x : Fin 512 → Fin K → EReal) (hz : ∀ p k, z (ix2 p k) = x p k) (p : Fin 512) (q : Fin 256) :
    leakyT (addf (Host.dotGeneral d none z W)
        (broadcastInDim S512x256 ![0, 1] bcast_S1x256_S512x256_0_1 (broadcastInDim S1x256 ![1] bcast_S256_S1x256_1 b))) (ix2 p q)
      = Cert.Spec.dense x (fun k q => W (ix2 k q)) (fun q => b (ix1 q)) p q := by
  rw [leakyT_apply]
  show Cert.Spec.leaky (Host.dotGeneral d none z W (ix2 p q)
      + broadcastInDim S512x256 ![0, 1] bcast_S1x256_S512x256_0_1 (broadcastInDim S1x256 ![1] bcast_S256_S1x256_1 b) (ix2 p q))
    = Cert.Spec.leaky ((∑ k : Fin K, x p k * W (ix2 k q)) + b (ix1 q))
  rw [Cert.LibRowOps.dotGeneral_plain_apply d hd, bcastRow_apply]
  exact congrArg (fun s => Cert.Spec.leaky (s + b (ix1 q))) (Finset.sum_congr rfl fun k _ => by rw [hz p k])

def headT (pooled : FVec Ideal S512x128 .f32) (gf : FVec Ideal S512x5 .f32) (W1 : FVec Ideal S133x256 .f32) (b1 : FVec Ideal S256 .f32)
    (W2 : FVec Ideal S256x256 .f32) (b2 : FVec Ideal S256 .f32) (W3 : FVec Ideal S256x1 .f32) (b3 : FVec Ideal S1 .f32) :
    FVec Ideal S512x1 .f32 :=
  addf
    (Host.dotGeneral dot_S512x256_S256x1_S512x1_1_0_0_1_n_n none
      (leakyT (addf
        (Host.dotGeneral dot_S512x256_S256x256_S512x256_1_0_0_1_n_n none
          (leakyT (addf
            (Host.dotGeneral dot_S512x133_S133x256_S512x256_1_0_0_1_n_n none
              (concatenate S512x133 1 [⟨S512x128, pooled⟩, ⟨S512x5, gf⟩] concatenates_S512x128_S512x5_S512x133_d1) W1)
            (broadcastInDim S512x256 ![0, 1] bcast_S1x256_S512x256_0_1 (broadcastInDim S1x256 ![1] bcast_S256_S1x256_1 b1))))
          W2)
        (broadcastInDim S512x256 ![0, 1] bcast_S1x256_S512x256_0_1 (broadcastInDim S1x256 ![1] bcast_S256_S1x256_1 b2))))
      W3)
    (broadcastInDim S512x1 ![0, 1] bcast_S1x1_S512x1_0_1 (broadcastInDim S1x1 ![1] bcast_S1_S1x1_1 b3))

theorem pool_out (V : Valuation τ sig (Elt Ideal)) :
    after (opsPool (F := Ideal)) V (main_v402 : DevRef τ sig) = Cert.Agg.poolR (V main_v399) (V main_arg2) := by
  after_results
  rfl

theorem dot1_plain : dot_S512x133_S133x256_S512x256_1_0_0_1_n_n = DotDims.plain 512 133 256 := rfl
theorem dot2_plain : dot_S512x256_S256x256_S512x256_1_0_0_1_n_n = DotDims.plain 512 256 256 := rfl
theorem dot3_plain : dot_S512x256_S256x1_S512x1_1_0_0_1_n_n = DotDims.plain 512 256 1 := rfl

set_option maxHeartbeats 1000000 in

theorem head_eq (V : Valuation τ sig (Elt Ideal)) :
    after (opsHead (F := Ideal)) V (main_v417 : DevRef τ sig)
      = headT (V main_v402) (V main_arg3) (V main_arg14) (V main_arg15) (V main_arg16) (V main_arg17) (V main_arg18) (V main_arg19) := by
  after_results_simp
  rfl

theorem affT_apply {K : ℕ} (d : DotDims ⟨2, ![512, K]⟩ ⟨2, ![K, 1]⟩ ⟨2, ![512, 1]⟩) (hd : d = DotDims.plain 512 K 1)
    (z : FVec Ideal ⟨2, ![512, K]⟩ .f32) (W : FVec Ideal ⟨2, ![K, 1]⟩ .f32) (b : FVec Ideal S1 .f32)
    (x : Fin 512 → Fin K → EReal) (hz : ∀ p k, z (ix2 p k) = x p k) (p : Fin 512) :
    addf (Host.dotGeneral d none z W)
        (broadcastInDim S512x1 ![0, 1] bcast_S1x1_S512x1_0_1 (broadcastInDim S1x1 ![1] bcast_S1_S1x1_1 b)) (ix2 p 0)
      = (∑ k : Fin K, x p k * W (ix2 k 0)) + b (ix1 0) := by
  show Host.dotGeneral d none z W (ix2 p 0)
      + broadcastInDim S512x1 ![0, 1] bcast_S1x1_S512x1_0_1 (broadcastInDim S1x1 ![1] bcast_S1_S1x1_1 b) (ix2 p 0) = _
  rw [Cert.LibRowOps.dotGeneral_plain_apply d hd, bcastRow_apply]
  exact congrArg (fun s => s + b (ix1 0)) (Finset.sum_congr rfl fun k _ => by rw [hz p k])

theorem head_out (V : Valuation τ sig (Elt Ideal)) (p : Fin 512) :
    after (opsHead (F := Ideal)) V (main_v417 : DevRef τ sig) (ix2 p 0)
      = Cert.Spec.head (fun p j => V main_v402 (ix2 p j)) (fun p j => V main_arg3 (ix2 p j))
          (fun j q => V main_arg14 (ix2 j q)) (fun q => V main_arg15 (ix1 q))
          (fun k q => V main_arg16 (ix2 k q)) (fun q => V main_arg17 (ix1 q))
          (fun k o => V main_arg18 (ix2 k o)) (fun o => V main_arg19 (ix1 o)) p := by
  refine (congrFun (head_eq V) (ix2 p 0)).trans ?_
  exact affT_apply _ dot3_plain _ _ _ _
    (fun p k => denseT_apply _ dot2_plain _ _ _ _
      (fun p j => denseT_apply _ dot1_plain _ _ _ _
        (fun p i => catCols_apply (V main_v402) (V main_arg3) concatenates_S512x128_S512x5_S512x133_d1 rfl p i) p j) p k) p

theorem pool_frame (V : Valuation τ sig (Elt Ideal)) :
    after (opsPool (F := Ideal)) V (main_arg3 : DevRef τ sig) = V main_arg3
    ∧ after (opsPool (F := Ideal)) V (main_arg14 : DevRef τ sig) = V main_arg14
    ∧ after (opsPool (F := Ideal)) V (main_arg15 : DevRef τ sig) = V main_arg15
    ∧ after (opsPool (F := Ideal)) V (main_arg16 : DevRef τ sig) = V main_arg16
    ∧ after (opsPool (F := Ideal)) V (main_arg17 : DevRef τ sig) = V main_arg17
    ∧ after (opsPool (F := Ideal)) V (main_arg18 : DevRef τ sig) = V main_arg18
    ∧ after (opsPool (F := Ideal)) V (main_arg19 : DevRef τ sig) = V main_arg19 := by
  refine ⟨?_, ?_, ?_, ?_, ?_, ?_, ?_⟩ <;> after_results

theorem tail_out (V : Valuation τ sig (Elt Ideal)) (p : Fin 512) :
    after (opsTail (F := Ideal)) V (main_v417 : DevRef τ sig) (ix2 p 0)
      = Cert.Spec.head (fun p j => Cert.Agg.poolR (V main_v399) (V main_arg2) (ix2 p j)) (fun p j => V main_arg3 (ix2 p j))
          (fun j q => V main_arg14 (ix2 j q)) (fun q => V main_arg15 (ix1 q))
          (fun k q => V main_arg16 (ix2 k q)) (fun q => V main_arg17 (ix1 q))
          (fun k o => V main_arg18 (ix2 k o)) (fun o => V main_arg19 (ix1 o)) p := by
  show after (opsPool (F := Ideal) ++ opsHead) V (main_v417 : DevRef τ sig) (ix2 p 0) = _
  rw [StableHlo.after_append, head_out, pool_out]
  obtain ⟨h3, h14, h15, h16, h17, h18, h19⟩ := pool_frame V
  rw [h3, h14, h15, h16, h17, h18, h19]

end Cert.RefRun.Tail

end
-- ==== Proof.Bridge.lean ====
import proofs.«108002_j23673859736037_1_alg».proof.Proof.ChainDefs
import proofs.«108002_j23673859736037_1_alg».proof.Proof.SpecLaws

noncomputable section

namespace Cert.Chain

open Idealize.ShloMosaic Cert.Spec

theorem step_law (agg : NArr → NArr) (hagg : ∀ X, RealArr (curA X) → RealArr (curA (agg X))) (P : Params) (hP : P.Real)
    (l : Fin 4) (X : NArr) (hX : RealArr (curA X)) :
    stepK agg P l X = stepR agg P l X ∧ RealArr (curA (stepR agg P l X)) := by
  obtain ⟨hW1, hb1, hg1, hbe1, hW2, hb2, hg2, hbe2, hg3, hbe3⟩ := hP
  have h := layer_law (x := curA X) (agg := curA (agg X)) hX (hagg X hX) (hW1 l) (hb1 l) (hg1 l) (hbe1 l) (hW2 l) (hb2 l)
    (hg2 l) (hbe2 l) (hg3 l) (hbe3 l)
  refine ⟨?_, ?_⟩
  · unfold stepK stepR; rw [h.1]
  · unfold stepR; rw [curA_uncA]; exact h.2

theorem four_steps (agg : NArr → NArr) (hagg : ∀ X, RealArr (curA X) → RealArr (curA (agg X))) (P : Params) (hP : P.Real)
    (X : NArr) (hX : RealArr (curA X)) :
    stepK agg P 3 (stepK agg P 2 (stepK agg P 1 (stepK agg P 0 X)))
      = stepR agg P 3 (stepR agg P 2 (stepR agg P 1 (stepR agg P 0 X))) := by
  have h0 := step_law agg hagg P hP 0 X hX
  rw [h0.1]
  have h1 := step_law agg hagg P hP 1 _ h0.2
  rw [h1.1]
  have h2 := step_law agg hagg P hP 2 _ h1.2
  rw [h2.1]
  exact (step_law agg hagg P hP 3 _ h2.2).1

end Cert.Chain

end
-- ==== Proof.OutDefs.lean ====
import proofs.«108002_j23673859736037_1_alg».proof.Proof.ChainDefs
import proofs.«108002_j23673859736037_1_alg».proof.Proof.Agg
import proofs.«108002_j23673859736037_1_alg».proof.Proof.Bridge

noncomputable section

namespace Cert.Final

open Idealize.ShloMosaic Idealize.ShloMosaic.ValueIdx Cert.Spec Cert.Chain

def outK (a0 : NArr) (ei : Cert.KernelIdeal.S2x640000.Idx → BitVec 32) (batch : Cert.KernelIdeal.S100000.Idx → BitVec 32)
    (P : Params) (hd : (Fin 512 → Fin 128 → EReal) → Fin 512 → EReal) : Fin 512 → EReal :=
  hd (fun p j => Cert.Agg.poolK
    (stepK (fun X => Cert.Agg.aggK X (Cert.Agg.srcK ei) (Cert.Agg.dstK ei)) P 3
      (stepK (fun X => Cert.Agg.aggK X (Cert.Agg.srcK ei) (Cert.Agg.dstK ei)) P 2
        (stepK (fun X => Cert.Agg.aggK X (Cert.Agg.srcK ei) (Cert.Agg.dstK ei)) P 1
          (stepK (fun X => Cert.Agg.aggK X (Cert.Agg.srcK ei) (Cert.Agg.dstK ei)) P 0 a0)))) batch (ix2 p j))

def outR (a0 : NArr) (ei : Cert.KernelIdeal.S2x640000.Idx → BitVec 32) (batch : Cert.KernelIdeal.S100000.Idx → BitVec 32)
    (P : Params) (hd : (Fin 512 → Fin 128 → EReal) → Fin 512 → EReal) : Fin 512 → EReal :=
  hd (fun p j => Cert.Agg.poolK
    (stepR (fun X => Cert.Agg.aggK X (Cert.Agg.srcK ei) (Cert.Agg.dstK ei)) P 3
      (stepR (fun X => Cert.Agg.aggK X (Cert.Agg.srcK ei) (Cert.Agg.dstK ei)) P 2
        (stepR (fun X => Cert.Agg.aggK X (Cert.Agg.srcK ei) (Cert.Agg.dstK ei)) P 1
          (stepR (fun X => Cert.Agg.aggK X (Cert.Agg.srcK ei) (Cert.Agg.dstK ei)) P 0 a0)))) batch (ix2 p j))

def outR' (a0 : NArr) (ei : Cert.ReferenceIdeal.S2x640000.Idx → BitVec 32) (batch : Cert.ReferenceIdeal.S100000.Idx → BitVec 32)
    (P : Params) (hd : (Fin 512 → Fin 128 → EReal) → Fin 512 → EReal) : Fin 512 → EReal :=
  hd (fun p j => Cert.Agg.poolR
    (stepR (fun X => Cert.Agg.aggR X (Cert.Agg.srcR ei) (Cert.Agg.dstR ei)) P 3
      (stepR (fun X => Cert.Agg.aggR X (Cert.Agg.srcR ei) (Cert.Agg.dstR ei)) P 2
        (stepR (fun X => Cert.Agg.aggR X (Cert.Agg.srcR ei) (Cert.Agg.dstR ei)) P 1
          (stepR (fun X => Cert.Agg.aggR X (Cert.Agg.srcR ei) (Cert.Agg.dstR ei)) P 0 a0)))) batch (ix2 p j))

theorem outK_eq_outR (a0 : NArr) (ei : Cert.KernelIdeal.S2x640000.Idx → BitVec 32) (batch : Cert.KernelIdeal.S100000.Idx → BitVec 32)
    (P : Params) (hd : (Fin 512 → Fin 128 → EReal) → Fin 512 → EReal) (h0 : RealArr (curA a0)) (hP : P.Real) :
    outK a0 ei batch P hd = outR a0 ei batch P hd := by
  unfold outK outR
  rw [four_steps _ (fun X hX => Cert.Agg.aggK_real X _ _ hX) P hP a0 h0]

theorem outR_eq_outR' (a0 : NArr) (ei : Cert.KernelIdeal.S2x640000.Idx → BitVec 32) (batch : Cert.KernelIdeal.S100000.Idx → BitVec 32)
    (P : Params) (hd : (Fin 512 → Fin 128 → EReal) → Fin 512 → EReal) :
    outR a0 ei batch P hd = outR' a0 ei batch P hd := rfl

end Cert.Final

end
-- ==== Proof.RefValue.lean ====
import proofs.«108002_j23673859736037_1_alg».proof.Proof.RefRun
import proofs.«108002_j23673859736037_1_alg».proof.Proof.RefLayers
import proofs.«108002_j23673859736037_1_alg».proof.Proof.RefTail
import proofs.«108002_j23673859736037_1_alg».proof.Proof.OutDefs

noncomputable section

namespace Cert.Final

open Cert.ReferenceIdeal Cert.ReferenceIdeal.Gen Idealize.ShloMosaic Idealize.ShloMosaic.TcCoe Idealize.SL.Sem
open Idealize.ShloMosaic.StableHlo
open Idealize.ShloMosaic.ValueIdx Cert.Spec Cert.RefRun Cert.Chain Cert.RefRun.Layer

theorem ref_value (V : Valuation τ sig (Elt Ideal)) (p : Fin 512) :
    after ops V (main_v417 : DevRef τ sig) (ix2 p 0)
      = Cert.Final.outR' (V main_arg0) (V main_arg1) (V main_arg2)
        (paramsOf (V main_arg4) (V main_arg5) (V main_arg6) (V main_arg7) (V main_arg8) (V main_arg9)
          (V main_arg10) (V main_arg11) (V main_arg12) (V main_arg13))
        (fun pooled => Cert.Spec.head pooled (fun p j => V main_arg3 (ix2 p j)) (fun j q => V main_arg14 (ix2 j q))
          (fun q => V main_arg15 (ix1 q)) (fun k q => V main_arg16 (ix2 k q)) (fun q => V main_arg17 (ix1 q))
          (fun k o => V main_arg18 (ix2 k o)) (fun o => V main_arg19 (ix1 o))) p := by
  rw [after_ops_layers, Cert.RefRun.Tail.tail_out, layers_x, layers_arg V main_arg2 (by decide),
    layers_arg V main_arg3 (by decide), layers_arg V main_arg14 (by decide), layers_arg V main_arg15 (by decide),
    layers_arg V main_arg16 (by decide), layers_arg V main_arg17 (by decide), layers_arg V main_arg18 (by decide),
    layers_arg V main_arg19 (by decide)]
  rfl

end Cert.Final

end
-- ==== Proof.Final.lean ====
import proofs.«108002_j23673859736037_1_alg».proof.Proof.KChain0
import proofs.«108002_j23673859736037_1_alg».proof.Proof.KChain1
import proofs.«108002_j23673859736037_1_alg».proof.Proof.KChain2
import proofs.«108002_j23673859736037_1_alg».proof.Proof.KChain3
import proofs.«108002_j23673859736037_1_alg».proof.Proof.KChainTail
import proofs.«108002_j23673859736037_1_alg».proof.Proof.RefValue
import proofs.«108002_j23673859736037_1_alg».proof.Proof.OutDefs
import proofs.«108002_j23673859736037_1_alg».proof.Proof.Finite

set_option maxRecDepth 16384

noncomputable section

namespace Cert.Final

open Idealize.ShloMosaic Idealize.ShloMosaic.TcCoe Idealize.SL.Sem Idealize.ShloMosaic.ValueIdx
open Cert.Spec Cert.Chain

theorem ext512 {a b : (⟨2, ![512, 1]⟩ : Shape).Idx → EReal} (h : ∀ p : Fin 512, a (ix2 p 0) = b (ix2 p 0)) : a = b := by
  funext i
  have hi : i = ix2 (i 0) 0 := by
    refine (eq_ix2 i).trans (congrArg (ix2 (i 0)) (Fin.ext ?_))
    have h1 : (i 1).val < 1 := (i 1).isLt
    show (i 1).val = 0
    omega
  rw [hi]; exact h _

section Kernel

open Cert.KernelIdeal Cert.KernelIdeal.Gen Cert.KernelIdeal.Chain

variable (m : (ℓ : Loc nD τ sig) → Buf (Elt Ideal) ℓ) (ρ : Dev nD → PrngReg) (c : Dev nD)

theorem keep16 (b : Ref sig .tc) (hb : b ∈ argL) (hb' : b ∈ keepL) :
    W16 m ρ c (Proc.devRef .tc b) = W0 m ρ c (Proc.devRef .tc b) :=
  (layer1_keep m ρ c b hb').trans (layer0_arg m ρ c b hb)
theorem keep24 (b : Ref sig .tc) (hb : b ∈ argL) (hb' : b ∈ keepL) :
    W24 m ρ c (Proc.devRef .tc b) = W0 m ρ c (Proc.devRef .tc b) :=
  (layer2_keep m ρ c b hb').trans (keep16 m ρ c b hb hb')
theorem keep32 (b : Ref sig .tc) (hb : b ∈ argL) (hb' : b ∈ keepL) :
    W32 m ρ c (Proc.devRef .tc b) = W0 m ρ c (Proc.devRef .tc b) :=
  (layer3_keep m ρ c b hb').trans (keep24 m ρ c b hb hb')

theorem src16 : W16 m ρ c (Proc.devRef .tc main_v1) = Cert.Agg.srcK (W0 m ρ c (Proc.devRef .tc main_arg1)) :=
  (layer1_keep m ρ c main_v1 (by decide)).trans (layer0_src m ρ c)
theorem dst16 : W16 m ρ c (Proc.devRef .tc main_v3) = Cert.Agg.dstK (W0 m ρ c (Proc.devRef .tc main_arg1)) :=
  (layer1_keep m ρ c main_v3 (by decide)).trans (layer0_dst m ρ c)
theorem src24 : W24 m ρ c (Proc.devRef .tc main_v1) = Cert.Agg.srcK (W0 m ρ c (Proc.devRef .tc main_arg1)) :=
  (layer2_keep m ρ c main_v1 (by decide)).trans (src16 m ρ c)
theorem dst24 : W24 m ρ c (Proc.devRef .tc main_v3) = Cert.Agg.dstK (W0 m ρ c (Proc.devRef .tc main_arg1)) :=
  (layer2_keep m ρ c main_v3 (by decide)).trans (dst16 m ρ c)

theorem x2 : W16 m ρ c (Proc.devRef .tc main_v159)
    = stepK (fun X => Cert.Agg.aggK X (Cert.Agg.srcK (W0 m ρ c (Proc.devRef .tc main_arg1))) (Cert.Agg.dstK (W0 m ρ c (Proc.devRef .tc main_arg1)))) (paramsOf (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) 1
        (stepK (fun X => Cert.Agg.aggK X (Cert.Agg.srcK (W0 m ρ c (Proc.devRef .tc main_arg1))) (Cert.Agg.dstK (W0 m ρ c (Proc.devRef .tc main_arg1)))) (paramsOf (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) 0 (W0 m ρ c (Proc.devRef .tc main_arg0))) := by
  rw [layer1_x m ρ c, layer0_src m ρ c, layer0_dst m ρ c,
    layer0_arg m ρ c main_arg4 (by decide), layer0_arg m ρ c main_arg5 (by decide), layer0_arg m ρ c main_arg6 (by decide), layer0_arg m ρ c main_arg7 (by decide), layer0_arg m ρ c main_arg8 (by decide), layer0_arg m ρ c main_arg9 (by decide), layer0_arg m ρ c main_arg10 (by decide), layer0_arg m ρ c main_arg11 (by decide), layer0_arg m ρ c main_arg12 (by decide), layer0_arg m ρ c main_arg13 (by decide), layer0_x m ρ c]

theorem x3 : W24 m ρ c (Proc.devRef .tc main_v237)
    = stepK (fun X => Cert.Agg.aggK X (Cert.Agg.srcK (W0 m ρ c (Proc.devRef .tc main_arg1))) (Cert.Agg.dstK (W0 m ρ c (Proc.devRef .tc main_arg1)))) (paramsOf (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) 2
        (W16 m ρ c (Proc.devRef .tc main_v159)) := by
  rw [layer2_x m ρ c, src16 m ρ c, dst16 m ρ c,
    keep16 m ρ c main_arg4 (by decide) (by decide), keep16 m ρ c main_arg5 (by decide) (by decide), keep16 m ρ c main_arg6 (by decide) (by decide), keep16 m ρ c main_arg7 (by decide) (by decide), keep16 m ρ c main_arg8 (by decide) (by decide), keep16 m ρ c main_arg9 (by decide) (by decide), keep16 m ρ c main_arg10 (by decide) (by decide), keep16 m ρ c main_arg11 (by decide) (by decide), keep16 m ρ c main_arg12 (by decide) (by decide), keep16 m ρ c main_arg13 (by decide) (by decide)]

theorem x4 : W32 m ρ c (Proc.devRef .tc main_v315)
    = stepK (fun X => Cert.Agg.aggK X (Cert.Agg.srcK (W0 m ρ c (Proc.devRef .tc main_arg1))) (Cert.Agg.dstK (W0 m ρ c (Proc.devRef .tc main_arg1)))) (paramsOf (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13))) 3
        (W24 m ρ c (Proc.devRef .tc main_v237)) := by
  rw [layer3_x m ρ c, src24 m ρ c, dst24 m ρ c,
    keep24 m ρ c main_arg4 (by decide) (by decide), keep24 m ρ c main_arg5 (by decide) (by decide), keep24 m ρ c main_arg6 (by decide) (by decide), keep24 m ρ c main_arg7 (by decide) (by decide), keep24 m ρ c main_arg8 (by decide) (by decide), keep24 m ρ c main_arg9 (by decide) (by decide), keep24 m ρ c main_arg10 (by decide) (by decide), keep24 m ρ c main_arg11 (by decide) (by decide), keep24 m ρ c main_arg12 (by decide) (by decide), keep24 m ρ c main_arg13 (by decide) (by decide)]

theorem kernel_value (p : Fin 512) :
    W34 m ρ c (Proc.devRef .tc main_v322) (ix2 p 0)
      = outK (W0 m ρ c (Proc.devRef .tc main_arg0)) (W0 m ρ c (Proc.devRef .tc main_arg1)) (W0 m ρ c (Proc.devRef .tc main_arg2)) (paramsOf (W0 m ρ c (Proc.devRef .tc main_arg4)) (W0 m ρ c (Proc.devRef .tc main_arg5)) (W0 m ρ c (Proc.devRef .tc main_arg6)) (W0 m ρ c (Proc.devRef .tc main_arg7)) (W0 m ρ c (Proc.devRef .tc main_arg8)) (W0 m ρ c (Proc.devRef .tc main_arg9)) (W0 m ρ c (Proc.devRef .tc main_arg10)) (W0 m ρ c (Proc.devRef .tc main_arg11)) (W0 m ρ c (Proc.devRef .tc main_arg12)) (W0 m ρ c (Proc.devRef .tc main_arg13)))
          (fun pooled => (head pooled (fun p j => (W0 m ρ c (Proc.devRef .tc main_arg3)) (ix2 p j)) (fun j q => (W0 m ρ c (Proc.devRef .tc main_arg14)) (ix2 j q)) (fun q => (W0 m ρ c (Proc.devRef .tc main_arg15)) (ix1 q)) (fun k q => (W0 m ρ c (Proc.devRef .tc main_arg16)) (ix2 k q)) (fun q => (W0 m ρ c (Proc.devRef .tc main_arg17)) (ix1 q)) (fun k o => (W0 m ρ c (Proc.devRef .tc main_arg18)) (ix2 k o)) (fun o => (W0 m ρ c (Proc.devRef .tc main_arg19)) (ix1 o)))) p := by
  rw [tail_out m ρ c p,
    keep32 m ρ c main_arg2 (by decide) (by decide), keep32 m ρ c main_arg3 (by decide) (by decide), keep32 m ρ c main_arg14 (by decide) (by decide), keep32 m ρ c main_arg15 (by decide) (by decide), keep32 m ρ c main_arg16 (by decide) (by decide), keep32 m ρ c main_arg17 (by decide) (by decide), keep32 m ρ c main_arg18 (by decide) (by decide), keep32 m ρ c main_arg19 (by decide) (by decide),
    x4 m ρ c, x3 m ρ c, x2 m ρ c]
  rfl

end Kernel

open Cert.KernelIdeal.Gen in

theorem results_agree
    (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ)
    (c : Dev Cert.KernelIdeal.nD)
    (hpre : Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) = fun _ => 1#1)
    (hagree : StableHlo.launchContents m' c (Cert.ReferenceIdeal.main_arg0 : DevRef Cert.ReferenceIdeal.τ Cert.ReferenceIdeal.sig) = W0 m g c (Proc.devRef .tc Cert.KernelIdeal.main_arg0)
      ∧ StableHlo.launchContents m' c (Cert.ReferenceIdeal.main_arg1 : DevRef Cert.ReferenceIdeal.τ Cert.ReferenceIdeal.sig) = W0 m g c (Proc.devRef .tc Cert.KernelIdeal.main_arg1)
      ∧ StableHlo.launchContents m' c (Cert.ReferenceIdeal.main_arg2 : DevRef Cert.ReferenceIdeal.τ Cert.ReferenceIdeal.sig) = W0 m g c (Proc.devRef .tc Cert.KernelIdeal.main_arg2)
      ∧ StableHlo.launchContents m' c (Cert.ReferenceIdeal.main_arg3 : DevRef Cert.ReferenceIdeal.τ Cert.ReferenceIdeal.sig) = W0 m g c (Proc.devRef .tc Cert.KernelIdeal.main_arg3)
      ∧ StableHlo.launchContents m' c (Cert.ReferenceIdeal.main_arg4 : DevRef Cert.ReferenceIdeal.τ Cert.ReferenceIdeal.sig) = W0 m g c (Proc.devRef .tc Cert.KernelIdeal.main_arg4)
      ∧ StableHlo.launchContents m' c (Cert.ReferenceIdeal.main_arg5 : DevRef Cert.ReferenceIdeal.τ Cert.ReferenceIdeal.sig) = W0 m g c (Proc.devRef .tc Cert.KernelIdeal.main_arg5)
      ∧ StableHlo.launchContents m' c (Cert.ReferenceIdeal.main_arg6 : DevRef Cert.ReferenceIdeal.τ Cert.ReferenceIdeal.sig) = W0 m g c (Proc.devRef .tc Cert.KernelIdeal.main_arg6)
      ∧ StableHlo.launchContents m' c (Cert.ReferenceIdeal.main_arg7 : DevRef Cert.ReferenceIdeal.τ Cert.ReferenceIdeal.sig) = W0 m g c (Proc.devRef .tc Cert.KernelIdeal.main_arg7)
      ∧ StableHlo.launchContents m' c (Cert.ReferenceIdeal.main_arg8 : DevRef Cert.ReferenceIdeal.τ Cert.ReferenceIdeal.sig) = W0 m g c (Proc.devRef .tc Cert.KernelIdeal.main_arg8)
      ∧ StableHlo.launchContents m' c (Cert.ReferenceIdeal.main_arg9 : DevRef Cert.ReferenceIdeal.τ Cert.ReferenceIdeal.sig) = W0 m g c (Proc.devRef .tc Cert.KernelIdeal.main_arg9)
      ∧ StableHlo.launchContents m' c (Cert.ReferenceIdeal.main_arg10 : DevRef Cert.ReferenceIdeal.τ Cert.ReferenceIdeal.sig) = W0 m g c (Proc.devRef .tc Cert.KernelIdeal.main_arg10)
      ∧ StableHlo.launchContents m' c (Cert.ReferenceIdeal.main_arg11 : DevRef Cert.ReferenceIdeal.τ Cert.ReferenceIdeal.sig) = W0 m g c (Proc.devRef .tc Cert.KernelIdeal.main_arg11)
      ∧ StableHlo.launchContents m' c (Cert.ReferenceIdeal.main_arg12 : DevRef Cert.ReferenceIdeal.τ Cert.ReferenceIdeal.sig) = W0 m g c (Proc.devRef .tc Cert.KernelIdeal.main_arg12)
      ∧ StableHlo.launchContents m' c (Cert.ReferenceIdeal.main_arg13 : DevRef Cert.ReferenceIdeal.τ Cert.ReferenceIdeal.sig) = W0 m g c (Proc.devRef .tc Cert.KernelIdeal.main_arg13)
      ∧ StableHlo.launchContents m' c (Cert.ReferenceIdeal.main_arg14 : DevRef Cert.ReferenceIdeal.τ Cert.ReferenceIdeal.sig) = W0 m g c (Proc.devRef .tc Cert.KernelIdeal.main_arg14)
      ∧ StableHlo.launchContents m' c (Cert.ReferenceIdeal.main_arg15 : DevRef Cert.ReferenceIdeal.τ Cert.ReferenceIdeal.sig) = W0 m g c (Proc.devRef .tc Cert.KernelIdeal.main_arg15)
      ∧ StableHlo.launchContents m' c (Cert.ReferenceIdeal.main_arg16 : DevRef Cert.ReferenceIdeal.τ Cert.ReferenceIdeal.sig) = W0 m g c (Proc.devRef .tc Cert.KernelIdeal.main_arg16)
      ∧ StableHlo.launchContents m' c (Cert.ReferenceIdeal.main_arg17 : DevRef Cert.ReferenceIdeal.τ Cert.ReferenceIdeal.sig) = W0 m g c (Proc.devRef .tc Cert.KernelIdeal.main_arg17)
      ∧ StableHlo.launchContents m' c (Cert.ReferenceIdeal.main_arg18 : DevRef Cert.ReferenceIdeal.τ Cert.ReferenceIdeal.sig) = W0 m g c (Proc.devRef .tc Cert.KernelIdeal.main_arg18)
      ∧ StableHlo.launchContents m' c (Cert.ReferenceIdeal.main_arg19 : DevRef Cert.ReferenceIdeal.τ Cert.ReferenceIdeal.sig) = W0 m g c (Proc.devRef .tc Cert.KernelIdeal.main_arg19)) :
    StableHlo.after (Cert.RefRun.ops (F := Ideal)) (StableHlo.launchContents m' c) (Cert.ReferenceIdeal.main_v417 : DevRef Cert.ReferenceIdeal.τ Cert.ReferenceIdeal.sig)
      = W34 m g c (Proc.devRef .tc Cert.KernelIdeal.main_v322) := by
  obtain ⟨h0, h1, h2, h3, h4, h5, h6, h7, h8, h9, h10, h11, h12, h13, h14, h15, h16, h17, h18, h19⟩ := hagree
  obtain ⟨r0, rW1, rb1, rg1, rbe1, rW2, rb2, rg2, rbe2, rg3, rbe3⟩ := Cert.Finite.real_of_pre _ _ _ _ _ _ _ _ _ _ _ _ _ _ _ _ _ _ _ _ hpre
  refine ext512 fun p => ?_
  rw [ref_value (StableHlo.launchContents m' c) p, kernel_value m g c p]
  rw [h0, h1, h2, h3, h4, h5, h6, h7, h8, h9, h10, h11, h12, h13, h14, h15, h16, h17, h18, h19]
  exact (congrFun ((outK_eq_outR _ _ _ _ _ r0 ⟨rW1, rb1, rg1, rbe1, rW2, rb2, rg2, rbe2, rg3, rbe3⟩).trans (outR_eq_outR' _ _ _ _ _)) p).symm

end Cert.Final

end
-- ==== Proof.lean ====
import proofs.«108002_j23673859736037_1_alg».proof.Defs
import proofs.«108002_j23673859736037_1_alg».proof.Proof.Gen.Kernel
import proofs.«108002_j23673859736037_1_alg».proof.Proof.Gen.Kernel.Skeleton
import proofs.«108002_j23673859736037_1_alg».proof.Proof.Gen.Kernel.Launch
import proofs.«108002_j23673859736037_1_alg».proof.Proof.Gen.Kernel.Points
import proofs.«108002_j23673859736037_1_alg».proof.Proof.Gen.Kernel.Frame
import proofs.«108002_j23673859736037_1_alg».proof.Proof.Gen.KernelIdeal
import proofs.«108002_j23673859736037_1_alg».proof.Proof.Gen.KernelIdeal.Skeleton
import proofs.«108002_j23673859736037_1_alg».proof.Proof.Gen.KernelIdeal.Launch
import proofs.«108002_j23673859736037_1_alg».proof.Proof.Gen.KernelIdeal.Points
import proofs.«108002_j23673859736037_1_alg».proof.Proof.Gen.KernelIdeal.Frame
import proofs.«108002_j23673859736037_1_alg».proof.Proof.Gen.ReferenceIdeal
import proofs.«108002_j23673859736037_1_alg».proof.Proof.Gen.Pre_finite_inputs
import proofs.«108002_j23673859736037_1_alg».proof.Proof.KernelRun
import proofs.«108002_j23673859736037_1_alg».proof.Proof.RefRun
import proofs.«108002_j23673859736037_1_alg».proof.Proof.RefKeep
import proofs.«108002_j23673859736037_1_alg».proof.Proof.Finite
import proofs.«108002_j23673859736037_1_alg».proof.Proof.Final
import Idealize.ShloMosaic.Adequacy
import Idealize.ShloMosaic.Init

set_option maxRecDepth 16384

noncomputable section

namespace Cert.Proof

open Idealize.ShloMosaic Idealize.ShloMosaic.TcCoe Idealize.SL.Sem Idealize.ShloMosaic.ValueIdx

theorem frame_k : @Cert.frame_Kernel Cert.Kernel.Gen.facts Cert.Pre_finite_inputs.Gen.facts :=
  fun m ρ _ => Cert.Kernel.Gen.frame m ρ

theorem frame_ki : @Cert.frame_KernelIdeal Cert.KernelIdeal.Gen.facts Cert.Pre_finite_inputs.Gen.facts :=
  fun m ρ _ => Cert.KernelIdeal.Gen.frame m ρ

theorem frame_ri : @Cert.frame_ReferenceIdeal Cert.ReferenceIdeal.Gen.facts Cert.Pre_finite_inputs.Gen.facts :=
  fun m ρ _ => (θ_run (Cert.ReferenceIdeal.defs (F := Ideal)) _ _).mono
    (fun _ h c => ⟨(h c Cert.ReferenceIdeal.main_arg0).trans (Cert.RefRun.ops_keeps _ (by decide)),
      (h c Cert.ReferenceIdeal.main_arg1).trans (Cert.RefRun.ops_keeps _ (by decide)),
      (h c Cert.ReferenceIdeal.main_arg2).trans (Cert.RefRun.ops_keeps _ (by decide)),
      (h c Cert.ReferenceIdeal.main_arg3).trans (Cert.RefRun.ops_keeps _ (by decide)),
      (h c Cert.ReferenceIdeal.main_arg4).trans (Cert.RefRun.ops_keeps _ (by decide)),
      (h c Cert.ReferenceIdeal.main_arg5).trans (Cert.RefRun.ops_keeps _ (by decide)),
      (h c Cert.ReferenceIdeal.main_arg6).trans (Cert.RefRun.ops_keeps _ (by decide)),
      (h c Cert.ReferenceIdeal.main_arg7).trans (Cert.RefRun.ops_keeps _ (by decide)),
      (h c Cert.ReferenceIdeal.main_arg8).trans (Cert.RefRun.ops_keeps _ (by decide)),
      (h c Cert.ReferenceIdeal.main_arg9).trans (Cert.RefRun.ops_keeps _ (by decide)),
      (h c Cert.ReferenceIdeal.main_arg10).trans (Cert.RefRun.ops_keeps _ (by decide)),
      (h c Cert.ReferenceIdeal.main_arg11).trans (Cert.RefRun.ops_keeps _ (by decide)),
      (h c Cert.ReferenceIdeal.main_arg12).trans (Cert.RefRun.ops_keeps _ (by decide)),
      (h c Cert.ReferenceIdeal.main_arg13).trans (Cert.RefRun.ops_keeps _ (by decide)),
      (h c Cert.ReferenceIdeal.main_arg14).trans (Cert.RefRun.ops_keeps _ (by decide)),
      (h c Cert.ReferenceIdeal.main_arg15).trans (Cert.RefRun.ops_keeps _ (by decide)),
      (h c Cert.ReferenceIdeal.main_arg16).trans (Cert.RefRun.ops_keeps _ (by decide)),
      (h c Cert.ReferenceIdeal.main_arg17).trans (Cert.RefRun.ops_keeps _ (by decide)),
      (h c Cert.ReferenceIdeal.main_arg18).trans (Cert.RefRun.ops_keeps _ (by decide)),
      (h c Cert.ReferenceIdeal.main_arg19).trans (Cert.RefRun.ops_keeps _ (by decide))⟩)
    (Cert.RefRun.run_main (F := Ideal) m ρ)

theorem algebraic : @Cert.algebraic_KernelIdeal_ReferenceIdeal Cert.KernelIdeal.Gen.facts Cert.ReferenceIdeal.Gen.facts Cert.Pre_finite_inputs.Gen.facts := by
  intro m g m' g' hpre hagree
  refine ⟨fun c => Cert.KernelIdeal.Gen.W34 m g c (Proc.devRef .tc Cert.KernelIdeal.main_v322), ?_, ?_⟩
  · refine (θ_run (Cert.KernelIdeal.defs (F := Ideal)) _ _).mono (fun r h c => ?_) (Cert.KernelIdeal.Run.run_main (F := Ideal) m g)
    exact ⟨h c _ (Cert.KernelIdeal.Gen.mem_uc Cert.KernelIdeal.main_v322 (by decide)),
      (h c _ (Cert.KernelIdeal.Gen.mem_uc Cert.KernelIdeal.main_arg0 (by decide))).trans (Cert.KernelIdeal.Gen.W34_main_arg0 m g c),
      (h c _ (Cert.KernelIdeal.Gen.mem_uc Cert.KernelIdeal.main_arg1 (by decide))).trans (Cert.KernelIdeal.Gen.W34_main_arg1 m g c),
      (h c _ (Cert.KernelIdeal.Gen.mem_uc Cert.KernelIdeal.main_arg2 (by decide))).trans (Cert.KernelIdeal.Gen.W34_main_arg2 m g c),
      (h c _ (Cert.KernelIdeal.Gen.mem_uc Cert.KernelIdeal.main_arg3 (by decide))).trans (Cert.KernelIdeal.Gen.W34_main_arg3 m g c),
      (h c _ (Cert.KernelIdeal.Gen.mem_uc Cert.KernelIdeal.main_arg4 (by decide))).trans (Cert.KernelIdeal.Gen.W34_main_arg4 m g c),
      (h c _ (Cert.KernelIdeal.Gen.mem_uc Cert.KernelIdeal.main_arg5 (by decide))).trans (Cert.KernelIdeal.Gen.W34_main_arg5 m g c),
      (h c _ (Cert.KernelIdeal.Gen.mem_uc Cert.KernelIdeal.main_arg6 (by decide))).trans (Cert.KernelIdeal.Gen.W34_main_arg6 m g c),
      (h c _ (Cert.KernelIdeal.Gen.mem_uc Cert.KernelIdeal.main_arg7 (by decide))).trans (Cert.KernelIdeal.Gen.W34_main_arg7 m g c),
      (h c _ (Cert.KernelIdeal.Gen.mem_uc Cert.KernelIdeal.main_arg8 (by decide))).trans (Cert.KernelIdeal.Gen.W34_main_arg8 m g c),
      (h c _ (Cert.KernelIdeal.Gen.mem_uc Cert.KernelIdeal.main_arg9 (by decide))).trans (Cert.KernelIdeal.Gen.W34_main_arg9 m g c),
      (h c _ (Cert.KernelIdeal.Gen.mem_uc Cert.KernelIdeal.main_arg10 (by decide))).trans (Cert.KernelIdeal.Gen.W34_main_arg10 m g c),
      (h c _ (Cert.KernelIdeal.Gen.mem_uc Cert.KernelIdeal.main_arg11 (by decide))).trans (Cert.KernelIdeal.Gen.W34_main_arg11 m g c),
      (h c _ (Cert.KernelIdeal.Gen.mem_uc Cert.KernelIdeal.main_arg12 (by decide))).trans (Cert.KernelIdeal.Gen.W34_main_arg12 m g c),
      (h c _ (Cert.KernelIdeal.Gen.mem_uc Cert.KernelIdeal.main_arg13 (by decide))).trans (Cert.KernelIdeal.Gen.W34_main_arg13 m g c),
      (h c _ (Cert.KernelIdeal.Gen.mem_uc Cert.KernelIdeal.main_arg14 (by decide))).trans (Cert.KernelIdeal.Gen.W34_main_arg14 m g c),
      (h c _ (Cert.KernelIdeal.Gen.mem_uc Cert.KernelIdeal.main_arg15 (by decide))).trans (Cert.KernelIdeal.Gen.W34_main_arg15 m g c),
      (h c _ (Cert.KernelIdeal.Gen.mem_uc Cert.KernelIdeal.main_arg16 (by decide))).trans (Cert.KernelIdeal.Gen.W34_main_arg16 m g c),
      (h c _ (Cert.KernelIdeal.Gen.mem_uc Cert.KernelIdeal.main_arg17 (by decide))).trans (Cert.KernelIdeal.Gen.W34_main_arg17 m g c),
      (h c _ (Cert.KernelIdeal.Gen.mem_uc Cert.KernelIdeal.main_arg18 (by decide))).trans (Cert.KernelIdeal.Gen.W34_main_arg18 m g c),
      (h c _ (Cert.KernelIdeal.Gen.mem_uc Cert.KernelIdeal.main_arg19 (by decide))).trans (Cert.KernelIdeal.Gen.W34_main_arg19 m g c)⟩
  · refine (θ_run (Cert.ReferenceIdeal.defs (F := Ideal)) _ _).mono (fun r h c => ?_) (Cert.RefRun.run_main (F := Ideal) m' g')
    refine ⟨(h c Cert.ReferenceIdeal.main_v417).trans ?_,
      (h c Cert.ReferenceIdeal.main_arg0).trans (Cert.RefRun.ops_keeps _ (by decide)),
      (h c Cert.ReferenceIdeal.main_arg1).trans (Cert.RefRun.ops_keeps _ (by decide)),
      (h c Cert.ReferenceIdeal.main_arg2).trans (Cert.RefRun.ops_keeps _ (by decide)),
      (h c Cert.ReferenceIdeal.main_arg3).trans (Cert.RefRun.ops_keeps _ (by decide)),
      (h c Cert.ReferenceIdeal.main_arg4).trans (Cert.RefRun.ops_keeps _ (by decide)),
      (h c Cert.ReferenceIdeal.main_arg5).trans (Cert.RefRun.ops_keeps _ (by decide)),
      (h c Cert.ReferenceIdeal.main_arg6).trans (Cert.RefRun.ops_keeps _ (by decide)),
      (h c Cert.ReferenceIdeal.main_arg7).trans (Cert.RefRun.ops_keeps _ (by decide)),
      (h c Cert.ReferenceIdeal.main_arg8).trans (Cert.RefRun.ops_keeps _ (by decide)),
      (h c Cert.ReferenceIdeal.main_arg9).trans (Cert.RefRun.ops_keeps _ (by decide)),
      (h c Cert.ReferenceIdeal.main_arg10).trans (Cert.RefRun.ops_keeps _ (by decide)),
      (h c Cert.ReferenceIdeal.main_arg11).trans (Cert.RefRun.ops_keeps _ (by decide)),
      (h c Cert.ReferenceIdeal.main_arg12).trans (Cert.RefRun.ops_keeps _ (by decide)),
      (h c Cert.ReferenceIdeal.main_arg13).trans (Cert.RefRun.ops_keeps _ (by decide)),
      (h c Cert.ReferenceIdeal.main_arg14).trans (Cert.RefRun.ops_keeps _ (by decide)),
      (h c Cert.ReferenceIdeal.main_arg15).trans (Cert.RefRun.ops_keeps _ (by decide)),
      (h c Cert.ReferenceIdeal.main_arg16).trans (Cert.RefRun.ops_keeps _ (by decide)),
      (h c Cert.ReferenceIdeal.main_arg17).trans (Cert.RefRun.ops_keeps _ (by decide)),
      (h c Cert.ReferenceIdeal.main_arg18).trans (Cert.RefRun.ops_keeps _ (by decide)),
      (h c Cert.ReferenceIdeal.main_arg19).trans (Cert.RefRun.ops_keeps _ (by decide))⟩
    exact Cert.Final.results_agree m g m' c (hpre c) (hagree c)

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
